-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v239)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v239) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v313) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000 : Shape := ⟨1, ![200000]⟩
abbrev S400000 : Shape := ⟨1, ![400000]⟩
abbrev S119x128 : Shape := ⟨2, ![119, 128]⟩
abbrev S5x5x128 : Shape := ⟨3, ![5, 5, 128]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S_ : Shape := ⟨0, ![]⟩

class Facts : Prop where
  bcast_S_S119x128 : S_.BroadcastsInDim S119x128 (![] : Fin 0 → Fin S119x128.rank)
  reducesTo_S119x128_S_d0_1 : S119x128.ReducesTo [0, 1] S_
  h_S_ : 0 < S_.numel
  bcast_S_S5x5x128 : S_.BroadcastsInDim S5x5x128 (![] : Fin 0 → Fin S5x5x128.rank)
  reducesTo_S5x5x128_S_d0_1_2 : S5x5x128.ReducesTo [0, 1, 2] S_
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S400000 : S_.BroadcastsInDim S400000 (![] : Fin 0 → Fin S400000.rank)
  reducesTo_S400000_S_d0 : S400000.ReducesTo [0] S_

variable [Facts]

def fn_part3 {F : FTy → Type} [FloatOps F] (main_arg1 : IVec S400000 32) (main_v48 : IVec S_ 1) (main_v50 : IVec S400000 1) : IVec S_ 1 :=
  let main_c_19 : IVec S_ 32 := constantI S_ 32 5#32
  let main_v51 : IVec S400000 32 := broadcastInDim S400000 ![] bcast_S_S400000 main_c_19
  let main_v52 : IVec S400000 1 := cmpi .slt main_arg1 main_v51
  let main_v53 : IVec S400000 1 := andi main_v50 main_v52
  let main_c_20 : IVec S_ 1 := constantI S_ 1 1#1
  let main_v54 : IVec S_ 1 := (fun x v => Host.reduce IntOp.andi x v reducesTo_S400000_S_d0 h_S_) main_v53 main_c_20
  let main_v55 : IVec S_ 1 := andi main_v48 main_v54
  main_v55

def fn_part2 {F : FTy → Type} [FloatOps F] (main_arg1 : IVec S400000 32) (main_arg12 : FVec F S128 .f32) (main_arg13 : FVec F S128x128 .f32) (main_arg14 : FVec F S128 .f32) (main_v33 : IVec S_ 1) : IVec S_ 1 :=
  let main_v34 : FVec F S128 .f32 := Host.absf main_arg12
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg13
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg14
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S400000 32 := broadcastInDim S400000 ![] bcast_S_S400000 main_c_18
  let main_v50 : IVec S400000 1 := cmpi .sge main_arg1 main_v49
  fn_part3 (F := F) main_arg1 main_v48 main_v50

def fn_part1 {F : FTy → Type} [FloatOps F] (main_arg1 : IVec S400000 32) (main_arg9 : FVec F S5x128 .f32) (main_arg10 : FVec F S5x128 .f32) (main_arg11 : FVec F S128x128 .f32) (main_arg12 : FVec F S128 .f32) (main_arg13 : FVec F S128x128 .f32) (main_arg14 : FVec F S128 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128 .f32 := Host.absf main_arg9
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128 .f32 := Host.absf main_arg10
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S128x128 .f32 := Host.absf main_arg11
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg12 main_arg13 main_arg14 main_v33

def fn {F : FTy → Type} [FloatOps F] (main_arg0 : IVec S200000 32) (main_arg1 : IVec S400000 32) (main_arg2 : IVec S400000 32) (main_arg3 : IVec S400000 32) (main_arg4 : IVec S200000 32) (main_arg5 : FVec F S119x128 .f32) (main_arg6 : FVec F S5x5x128 .f32) (main_arg7 : FVec F S5x128x128 .f32) (main_arg8 : FVec F S5x128 .f32) (main_arg9 : FVec F S5x128 .f32) (main_arg10 : FVec F S5x128 .f32) (main_arg11 : FVec F S128x128 .f32) (main_arg12 : FVec F S128 .f32) (main_arg13 : FVec F S128x128 .f32) (main_arg14 : FVec F S128 .f32) : IVec S_ 1 :=
  let main_v0 : FVec F S119x128 .f32 := Host.absf main_arg5
  let main_cst : FVec F S_ .f32 := constant S_ .f32 0x7F800000#32
  let main_v1 : FVec F S119x128 .f32 := broadcastInDim S119x128 ![] bcast_S_S119x128 main_cst
  let main_v2 : IVec S119x128 1 := cmpf .olt main_v0 main_v1
  let main_c : IVec S_ 1 := constantI S_ 1 1#1
  let main_v3 : IVec S_ 1 := (fun x v => Host.reduce IntOp.andi x v reducesTo_S119x128_S_d0_1 h_S_) main_v2 main_c
  let main_v4 : FVec F S5x5x128 .f32 := Host.absf main_arg6
  let main_cst_0 : FVec F S_ .f32 := constant S_ .f32 0x7F800000#32
  let main_v5 : FVec F S5x5x128 .f32 := broadcastInDim S5x5x128 ![] bcast_S_S5x5x128 main_cst_0
  let main_v6 : IVec S5x5x128 1 := cmpf .olt main_v4 main_v5
  let main_c_1 : IVec S_ 1 := constantI S_ 1 1#1
  let main_v7 : IVec S_ 1 := (fun x v => Host.reduce IntOp.andi x v reducesTo_S5x5x128_S_d0_1_2 h_S_) main_v6 main_c_1
  let main_v8 : IVec S_ 1 := andi main_v3 main_v7
  let main_v9 : FVec F S5x128x128 .f32 := Host.absf main_arg7
  let main_cst_2 : FVec F S_ .f32 := constant S_ .f32 0x7F800000#32
  let main_v10 : FVec F S5x128x128 .f32 := broadcastInDim S5x128x128 ![] bcast_S_S5x128x128 main_cst_2
  let main_v11 : IVec S5x128x128 1 := cmpf .olt main_v9 main_v10
  let main_c_3 : IVec S_ 1 := constantI S_ 1 1#1
  let main_v12 : IVec S_ 1 := (fun x v => Host.reduce IntOp.andi x v reducesTo_S5x128x128_S_d0_1_2 h_S_) main_v11 main_c_3
  let main_v13 : IVec S_ 1 := andi main_v8 main_v12
  let main_v14 : FVec F S5x128 .f32 := Host.absf main_arg8
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg1 main_arg9 main_arg10 main_arg11 main_arg12 main_arg13 main_arg14 main_v13 main_v16
-- ==== Kernel.lean ====
abbrev S200000 : Shape := ⟨1, ![200000]⟩
abbrev S400000 : Shape := ⟨1, ![400000]⟩
abbrev S119x128 : Shape := ⟨2, ![119, 128]⟩
abbrev S5x5x128 : Shape := ⟨3, ![5, 5, 128]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S_ : Shape := ⟨0, ![]⟩
abbrev S200000x1 : Shape := ⟨2, ![200000, 1]⟩
abbrev S200000x128 : Shape := ⟨2, ![200000, 128]⟩
abbrev S400000x1 : Shape := ⟨2, ![400000, 1]⟩
abbrev S1x5 : Shape := ⟨2, ![1, 5]⟩
abbrev S400000x5 : Shape := ⟨2, ![400000, 5]⟩
abbrev S200000x5 : Shape := ⟨2, ![200000, 5]⟩
abbrev S400000x128 : Shape := ⟨2, ![400000, 128]⟩
abbrev S1x5x128 : Shape := ⟨3, ![1, 5, 128]⟩
abbrev S1x128 : Shape := ⟨2, ![1, 128]⟩
abbrev S1x128x128 : Shape := ⟨3, ![1, 128, 128]⟩
abbrev S4000x128 : Shape := ⟨2, ![4000, 128]⟩
abbrev S4000x5 : Shape := ⟨2, ![4000, 5]⟩
abbrev S4000x1 : Shape := ⟨2, ![4000, 1]⟩
abbrev S1000 : Shape := ⟨1, ![1000]⟩
abbrev S1000x128 : Shape := ⟨2, ![1000, 128]⟩
abbrev S1000x1 : Shape := ⟨2, ![1000, 1]⟩

abbrev nBuf : Space → Nat
  | .hbm => 311
  | .vmem => 131
  | .smem => 0
  | _ => 0

abbrev hbmTy0_0 (i : Nat) : BufTy := match i % 128 with
  | 0 => ⟨S200000, .i32⟩
  | 1 => ⟨S400000, .i32⟩
  | 2 => ⟨S400000, .i32⟩
  | 3 => ⟨S400000, .i32⟩
  | 4 => ⟨S200000, .i32⟩
  | 5 => ⟨S119x128, .f32⟩
  | 6 => ⟨S5x5x128, .f32⟩
  | 7 => ⟨S5x128x128, .f32⟩
  | 8 => ⟨S5x128, .f32⟩
  | 9 => ⟨S5x128, .f32⟩
  | 10 => ⟨S5x128, .f32⟩
  | 11 => ⟨S128x128, .f32⟩
  | 12 => ⟨S128, .f32⟩
  | 13 => ⟨S128x128, .f32⟩
  | 14 => ⟨S128, .f32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S200000x128, .f32⟩
  | 24 => ⟨S_, .f32⟩
  | 25 => ⟨S400000, .f32⟩
  | 26 => ⟨S_, .f32⟩
  | 27 => ⟨S200000, .f32⟩
  | 28 => ⟨S400000x1, .i32⟩
  | 29 => ⟨S200000, .f32⟩
  | 30 => ⟨S_, .f32⟩
  | 31 => ⟨S200000, .f32⟩
  | 32 => ⟨S200000, .f32⟩
  | 33 => ⟨S200000x1, .f32⟩
  | 34 => ⟨S_, .f32⟩
  | 35 => ⟨S200000x1, .f32⟩
  | 36 => ⟨S200000x1, .f32⟩
  | 37 => ⟨S400000x1, .i32⟩
  | 38 => ⟨S1x5, .i32⟩
  | 39 => ⟨S400000x5, .i32⟩
  | 40 => ⟨S400000x5, .i32⟩
  | 41 => ⟨S400000x5, .i1⟩
  | 42 => ⟨S400000x5, .f32⟩
  | 43 => ⟨S_, .f32⟩
  | 44 => ⟨S200000x5, .f32⟩
  | 45 => ⟨S400000x1, .i32⟩
  | 46 => ⟨S200000x5, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x128, .f32⟩
  | 56 => ⟨S_, .f32⟩
  | 57 => ⟨S200000x128, .f32⟩
  | 58 => ⟨S400000x1, .i32⟩
  | 59 => ⟨S200000x128, .f32⟩
  | 60 => ⟨S1x5x128, .f32⟩
  | 61 => ⟨S5x128, .f32⟩
  | 62 => ⟨S1x128, .f32⟩
  | 63 => ⟨S128, .f32⟩
  | 64 => ⟨S1x128, .f32⟩
  | 65 => ⟨S1x128x128, .f32⟩
  | 66 => ⟨S128x128, .f32⟩
  | 67 => ⟨S200000x128, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S128, .f32⟩
  | 91 => ⟨S1x128, .f32⟩
  | 92 => ⟨S1x128, .f32⟩
  | 93 => ⟨S1x128, .f32⟩
  | 94 => ⟨S200000x128, .bf16⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S400000x1, .i32⟩
  | 103 => ⟨S400000x128, .bf16⟩
  | 104 => ⟨S400000x128, .f32⟩
  | 105 => ⟨S_, .f32⟩
  | 106 => ⟨S200000x128, .f32⟩
  | 107 => ⟨S400000x1, .i32⟩
  | 108 => ⟨S200000x128, .f32⟩
  | 109 => ⟨S1x5x128, .f32⟩
  | 110 => ⟨S5x128, .f32⟩
  | 111 => ⟨S1x128, .f32⟩
  | 112 => ⟨S128, .f32⟩
  | 113 => ⟨S1x128, .f32⟩
  | 114 => ⟨S1x128x128, .f32⟩
  | 115 => ⟨S128x128, .f32⟩
  | 116 => ⟨S200000x128, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S1x128, .f32⟩
  | 126 => ⟨S1x128, .f32⟩
  | 127 => ⟨S_, .f32⟩
  | _ => ⟨S200000, .i32⟩

abbrev hbmTy0_1 (i : Nat) : BufTy := match i % 128 with
  | 0 => ⟨S1x128, .f32⟩
  | 1 => ⟨S1x128, .f32⟩
  | 2 => ⟨S1x128, .f32⟩
  | 3 => ⟨S128, .f32⟩
  | 4 => ⟨S1x128, .f32⟩
  | 5 => ⟨S_, .f32⟩
  | 6 => ⟨S1x128, .f32⟩
  | 7 => ⟨S1x128, .f32⟩
  | 8 => ⟨S1x128, .f32⟩
  | 9 => ⟨S1x128, .f32⟩
  | 10 => ⟨S1x128, .f32⟩
  | 11 => ⟨S128, .f32⟩
  | 12 => ⟨S1x128, .f32⟩
  | 13 => ⟨S1x128, .f32⟩
  | 14 => ⟨S1x128, .f32⟩
  | 15 => ⟨S200000x128, .bf16⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000x128, .bf16⟩
  | 25 => ⟨S400000x128, .f32⟩
  | 26 => ⟨S_, .f32⟩
  | 27 => ⟨S200000x128, .f32⟩
  | 28 => ⟨S400000x1, .i32⟩
  | 29 => ⟨S200000x128, .f32⟩
  | 30 => ⟨S1x5x128, .f32⟩
  | 31 => ⟨S5x128, .f32⟩
  | 32 => ⟨S1x128, .f32⟩
  | 33 => ⟨S128, .f32⟩
  | 34 => ⟨S1x128, .f32⟩
  | 35 => ⟨S1x128x128, .f32⟩
  | 36 => ⟨S128x128, .f32⟩
  | 37 => ⟨S200000x128, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S_, .f32⟩
  | 44 => ⟨S1x128, .f32⟩
  | 45 => ⟨S1x128, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S1x128, .f32⟩
  | 58 => ⟨S1x128, .f32⟩
  | 59 => ⟨S1x128, .f32⟩
  | 60 => ⟨S128, .f32⟩
  | 61 => ⟨S1x128, .f32⟩
  | 62 => ⟨S1x128, .f32⟩
  | 63 => ⟨S1x128, .f32⟩
  | 64 => ⟨S200000x128, .bf16⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000x128, .bf16⟩
  | 74 => ⟨S400000x128, .f32⟩
  | 75 => ⟨S_, .f32⟩
  | 76 => ⟨S200000x128, .f32⟩
  | 77 => ⟨S400000x1, .i32⟩
  | 78 => ⟨S200000x128, .f32⟩
  | 79 => ⟨S1x5x128, .f32⟩
  | 80 => ⟨S5x128, .f32⟩
  | 81 => ⟨S1x128, .f32⟩
  | 82 => ⟨S128, .f32⟩
  | 83 => ⟨S1x128, .f32⟩
  | 84 => ⟨S1x128x128, .f32⟩
  | 85 => ⟨S128x128, .f32⟩
  | 86 => ⟨S200000x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S1x128, .f32⟩
  | 101 => ⟨S128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S128, .f32⟩
  | 110 => ⟨S1x128, .f32⟩
  | 111 => ⟨S1x128, .f32⟩
  | 112 => ⟨S1x128, .f32⟩
  | 113 => ⟨S200000x128, .bf16⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S400000x128, .bf16⟩
  | 123 => ⟨S400000x128, .f32⟩
  | 124 => ⟨S_, .f32⟩
  | 125 => ⟨S200000x128, .f32⟩
  | 126 => ⟨S400000x1, .i32⟩
  | 127 => ⟨S200000x128, .f32⟩
  | _ => ⟨S200000, .i32⟩

abbrev hbmTy0_2 (i : Nat) : BufTy := match i % 128 with
  | 0 => ⟨S1x5x128, .f32⟩
  | 1 => ⟨S5x128, .f32⟩
  | 2 => ⟨S1x128, .f32⟩
  | 3 => ⟨S128, .f32⟩
  | 4 => ⟨S1x128, .f32⟩
  | 5 => ⟨S1x128x128, .f32⟩
  | 6 => ⟨S128x128, .f32⟩
  | 7 => ⟨S200000x128, .f32⟩
  | 8 => ⟨S1x128, .f32⟩
  | 9 => ⟨S1x128, .f32⟩
  | 10 => ⟨S_, .f32⟩
  | 11 => ⟨S1x128, .f32⟩
  | 12 => ⟨S1x128, .f32⟩
  | 13 => ⟨S_, .f32⟩
  | 14 => ⟨S1x128, .f32⟩
  | 15 => ⟨S1x128, .f32⟩
  | 16 => ⟨S1x128, .f32⟩
  | 17 => ⟨S1x128, .f32⟩
  | 18 => ⟨S_, .f32⟩
  | 19 => ⟨S1x128, .f32⟩
  | 20 => ⟨S1x128, .f32⟩
  | 21 => ⟨S1x128, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S1x128, .f32⟩
  | 28 => ⟨S1x128, .f32⟩
  | 29 => ⟨S1x128, .f32⟩
  | 30 => ⟨S128, .f32⟩
  | 31 => ⟨S1x128, .f32⟩
  | 32 => ⟨S1x128, .f32⟩
  | 33 => ⟨S1x128, .f32⟩
  | 34 => ⟨S200000x128, .bf16⟩
  | 35 => ⟨S_, .f32⟩
  | 36 => ⟨S200000, .f32⟩
  | 37 => ⟨S_, .f32⟩
  | 38 => ⟨S1000, .f32⟩
  | 39 => ⟨S200000x1, .i32⟩
  | 40 => ⟨S1000, .f32⟩
  | 41 => ⟨S200000x128, .f32⟩
  | 42 => ⟨S_, .f32⟩
  | 43 => ⟨S1000x128, .f32⟩
  | 44 => ⟨S200000x1, .i32⟩
  | 45 => ⟨S1000x128, .f32⟩
  | 46 => ⟨S_, .f32⟩
  | 47 => ⟨S1000, .f32⟩
  | 48 => ⟨S1000, .f32⟩
  | 49 => ⟨S1000x1, .f32⟩
  | 50 => ⟨S1000x128, .f32⟩
  | 51 => ⟨S1000x128, .f32⟩
  | 52 => ⟨S1x128, .f32⟩
  | 53 => ⟨S1x128, .f32⟩
  | 54 => ⟨S1000x128, .f32⟩
  | _ => ⟨S200000, .i32⟩

abbrev hbmTy (i : Nat) : BufTy := match i / 128 with
  | 0 => hbmTy0_0 i
  | 1 => hbmTy0_1 i
  | 2 => hbmTy0_2 i
  | _ => ⟨S200000, .i32⟩

abbrev vmemTy0_0 (i : Nat) : BufTy := match i % 128 with
  | 0 => ⟨S4000x128, .f32⟩
  | 1 => ⟨S4000x128, .f32⟩
  | 2 => ⟨S4000x128, .f32⟩
  | 3 => ⟨S4000x128, .f32⟩
  | 4 => ⟨S4000x5, .f32⟩
  | 5 => ⟨S4000x5, .f32⟩
  | 6 => ⟨S5x128, .f32⟩
  | 7 => ⟨S4000x1, .f32⟩
  | 8 => ⟨S4000x1, .f32⟩
  | 9 => ⟨S128x128, .f32⟩
  | 10 => ⟨S1x128, .f32⟩
  | 11 => ⟨S4000x128, .f32⟩
  | 12 => ⟨S4000x128, .f32⟩
  | 13 => ⟨S4000x128, .f32⟩
  | 14 => ⟨S4000x128, .f32⟩
  | 15 => ⟨S1x128, .f32⟩
  | 16 => ⟨S1x128, .f32⟩
  | 17 => ⟨S1x128, .f32⟩
  | 18 => ⟨S1x128, .f32⟩
  | 19 => ⟨S4000x128, .f32⟩
  | 20 => ⟨S4000x128, .f32⟩
  | 21 => ⟨S1x128, .f32⟩
  | 22 => ⟨S1x128, .f32⟩
  | 23 => ⟨S4000x128, .bf16⟩
  | 24 => ⟨S4000x128, .bf16⟩
  | 25 => ⟨S4000x128, .bf16⟩
  | 26 => ⟨S4000x128, .bf16⟩
  | 27 => ⟨S4000x128, .f32⟩
  | 28 => ⟨S4000x128, .f32⟩
  | 29 => ⟨S4000x5, .f32⟩
  | 30 => ⟨S4000x5, .f32⟩
  | 31 => ⟨S5x128, .f32⟩
  | 32 => ⟨S4000x1, .f32⟩
  | 33 => ⟨S4000x1, .f32⟩
  | 34 => ⟨S128x128, .f32⟩
  | 35 => ⟨S1x128, .f32⟩
  | 36 => ⟨S4000x128, .f32⟩
  | 37 => ⟨S4000x128, .f32⟩
  | 38 => ⟨S4000x128, .f32⟩
  | 39 => ⟨S4000x128, .f32⟩
  | 40 => ⟨S1x128, .f32⟩
  | 41 => ⟨S1x128, .f32⟩
  | 42 => ⟨S1x128, .f32⟩
  | 43 => ⟨S1x128, .f32⟩
  | 44 => ⟨S4000x128, .f32⟩
  | 45 => ⟨S4000x128, .f32⟩
  | 46 => ⟨S1x128, .f32⟩
  | 47 => ⟨S1x128, .f32⟩
  | 48 => ⟨S4000x128, .bf16⟩
  | 49 => ⟨S4000x128, .bf16⟩
  | 50 => ⟨S4000x128, .bf16⟩
  | 51 => ⟨S4000x128, .bf16⟩
  | 52 => ⟨S4000x128, .f32⟩
  | 53 => ⟨S4000x128, .f32⟩
  | 54 => ⟨S4000x5, .f32⟩
  | 55 => ⟨S4000x5, .f32⟩
  | 56 => ⟨S5x128, .f32⟩
  | 57 => ⟨S4000x1, .f32⟩
  | 58 => ⟨S4000x1, .f32⟩
  | 59 => ⟨S128x128, .f32⟩
  | 60 => ⟨S1x128, .f32⟩
  | 61 => ⟨S4000x128, .f32⟩
  | 62 => ⟨S4000x128, .f32⟩
  | 63 => ⟨S4000x128, .f32⟩
  | 64 => ⟨S4000x128, .f32⟩
  | 65 => ⟨S1x128, .f32⟩
  | 66 => ⟨S1x128, .f32⟩
  | 67 => ⟨S1x128, .f32⟩
  | 68 => ⟨S1x128, .f32⟩
  | 69 => ⟨S4000x128, .f32⟩
  | 70 => ⟨S4000x128, .f32⟩
  | 71 => ⟨S1x128, .f32⟩
  | 72 => ⟨S1x128, .f32⟩
  | 73 => ⟨S4000x128, .bf16⟩
  | 74 => ⟨S4000x128, .bf16⟩
  | 75 => ⟨S4000x128, .bf16⟩
  | 76 => ⟨S4000x128, .bf16⟩
  | 77 => ⟨S4000x128, .f32⟩
  | 78 => ⟨S4000x128, .f32⟩
  | 79 => ⟨S4000x5, .f32⟩
  | 80 => ⟨S4000x5, .f32⟩
  | 81 => ⟨S5x128, .f32⟩
  | 82 => ⟨S4000x1, .f32⟩
  | 83 => ⟨S4000x1, .f32⟩
  | 84 => ⟨S128x128, .f32⟩
  | 85 => ⟨S1x128, .f32⟩
  | 86 => ⟨S4000x128, .f32⟩
  | 87 => ⟨S4000x128, .f32⟩
  | 88 => ⟨S4000x128, .f32⟩
  | 89 => ⟨S4000x128, .f32⟩
  | 90 => ⟨S1x128, .f32⟩
  | 91 => ⟨S1x128, .f32⟩
  | 92 => ⟨S1x128, .f32⟩
  | 93 => ⟨S1x128, .f32⟩
  | 94 => ⟨S4000x128, .f32⟩
  | 95 => ⟨S4000x128, .f32⟩
  | 96 => ⟨S1x128, .f32⟩
  | 97 => ⟨S1x128, .f32⟩
  | 98 => ⟨S4000x128, .bf16⟩
  | 99 => ⟨S4000x128, .bf16⟩
  | 100 => ⟨S4000x128, .bf16⟩
  | 101 => ⟨S4000x128, .bf16⟩
  | 102 => ⟨S4000x128, .f32⟩
  | 103 => ⟨S4000x128, .f32⟩
  | 104 => ⟨S4000x5, .f32⟩
  | 105 => ⟨S4000x5, .f32⟩
  | 106 => ⟨S5x128, .f32⟩
  | 107 => ⟨S4000x1, .f32⟩
  | 108 => ⟨S4000x1, .f32⟩
  | 109 => ⟨S128x128, .f32⟩
  | 110 => ⟨S1x128, .f32⟩
  | 111 => ⟨S4000x128, .f32⟩
  | 112 => ⟨S4000x128, .f32⟩
  | 113 => ⟨S4000x128, .f32⟩
  | 114 => ⟨S4000x128, .f32⟩
  | 115 => ⟨S1x128, .f32⟩
  | 116 => ⟨S1x128, .f32⟩
  | 117 => ⟨S1x128, .f32⟩
  | 118 => ⟨S1x128, .f32⟩
  | 119 => ⟨S4000x128, .f32⟩
  | 120 => ⟨S4000x128, .f32⟩
  | 121 => ⟨S1x128, .f32⟩
  | 122 => ⟨S1x128, .f32⟩
  | 123 => ⟨S4000x128, .bf16⟩
  | 124 => ⟨S4000x128, .bf16⟩
  | 125 => ⟨S1000x128, .f32⟩
  | 126 => ⟨S128x128, .f32⟩
  | 127 => ⟨S1x128, .f32⟩
  | _ => ⟨S200000, .i32⟩

abbrev vmemTy0_1 (i : Nat) : BufTy := match i % 128 with
  | 0 => ⟨S128x128, .f32⟩
  | 1 => ⟨S1x128, .f32⟩
  | 2 => ⟨S1000x128, .f32⟩
  | _ => ⟨S200000, .i32⟩

abbrev vmemTy (i : Nat) : BufTy := match i / 128 with
  | 0 => vmemTy0_0 i
  | 1 => vmemTy0_1 i
  | _ => ⟨S200000, .i32⟩

abbrev bufTy : (tb : Table) → Fin (tcTables nBuf tb) → BufTy
  | .hbm, ⟨i, _⟩ => hbmTy i
  | .local _ .vmem, ⟨i, _⟩ => vmemTy i
  | _, _ => ⟨S200000, .i32⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 121 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | _ => false

abbrev sig : RefSig :=
  ofTc nBuf bufTy 0 121 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v16 : Ref sig .tc := ⟨.hbm, 42, rfl⟩
abbrev main_cst_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_5 : Ref sig .tc := ⟨.hbm, 47, rfl⟩
abbrev main_v20 : Ref sig .tc := ⟨.hbm, 48, rfl⟩
abbrev main_v21 : Ref sig .tc := ⟨.hbm, 49, rfl⟩
abbrev main_c_6 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_7 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38_0 : Ref sig .tc := ⟨.hbm, 68, rfl⟩
abbrev main_v38_1 : Ref sig .tc := ⟨.hbm, 69, rfl⟩
abbrev main_cst_8 : Ref sig .tc := ⟨.hbm, 70, rfl⟩
abbrev main_v39 : Ref sig .tc := ⟨.hbm, 71, rfl⟩
abbrev main_v40 : Ref sig .tc := ⟨.hbm, 72, rfl⟩
abbrev main_cst_9 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_10 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_11 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_12 : Ref sig .tc := ⟨.hbm, 95, rfl⟩
abbrev main_v60 : Ref sig .tc := ⟨.hbm, 96, rfl⟩
abbrev main_v61 : Ref sig .tc := ⟨.hbm, 97, rfl⟩
abbrev main_c_13 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_14 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79_0 : Ref sig .tc := ⟨.hbm, 117, rfl⟩
abbrev main_v79_1 : Ref sig .tc := ⟨.hbm, 118, rfl⟩
abbrev main_cst_15 : Ref sig .tc := ⟨.hbm, 119, rfl⟩
abbrev main_v80 : Ref sig .tc := ⟨.hbm, 120, rfl⟩
abbrev main_v81 : Ref sig .tc := ⟨.hbm, 121, rfl⟩
abbrev main_cst_16 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_17 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_18 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_c_19 : Ref sig .tc := ⟨.hbm, 144, rfl⟩
abbrev main_v101 : Ref sig .tc := ⟨.hbm, 145, rfl⟩
abbrev main_v102 : Ref sig .tc := ⟨.hbm, 146, rfl⟩
abbrev main_c_20 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_21 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120_0 : Ref sig .tc := ⟨.hbm, 166, rfl⟩
abbrev main_v120_1 : Ref sig .tc := ⟨.hbm, 167, rfl⟩
abbrev main_cst_22 : Ref sig .tc := ⟨.hbm, 168, rfl⟩
abbrev main_v121 : Ref sig .tc := ⟨.hbm, 169, rfl⟩
abbrev main_v122 : Ref sig .tc := ⟨.hbm, 170, rfl⟩
abbrev main_cst_23 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_24 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_25 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_c_26 : Ref sig .tc := ⟨.hbm, 193, rfl⟩
abbrev main_v142 : Ref sig .tc := ⟨.hbm, 194, rfl⟩
abbrev main_v143 : Ref sig .tc := ⟨.hbm, 195, rfl⟩
abbrev main_c_27 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_28 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161_0 : Ref sig .tc := ⟨.hbm, 215, rfl⟩
abbrev main_v161_1 : Ref sig .tc := ⟨.hbm, 216, rfl⟩
abbrev main_cst_29 : Ref sig .tc := ⟨.hbm, 217, rfl⟩
abbrev main_v162 : Ref sig .tc := ⟨.hbm, 218, rfl⟩
abbrev main_v163 : Ref sig .tc := ⟨.hbm, 219, rfl⟩
abbrev main_cst_30 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_31 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_cst_32 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_c_33 : Ref sig .tc := ⟨.hbm, 242, rfl⟩
abbrev main_v183 : Ref sig .tc := ⟨.hbm, 243, rfl⟩
abbrev main_v184 : Ref sig .tc := ⟨.hbm, 244, rfl⟩
abbrev main_c_34 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_cst_35 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202_0 : Ref sig .tc := ⟨.hbm, 264, rfl⟩
abbrev main_v202_1 : Ref sig .tc := ⟨.hbm, 265, rfl⟩
abbrev main_cst_36 : Ref sig .tc := ⟨.hbm, 266, rfl⟩
abbrev main_v203 : Ref sig .tc := ⟨.hbm, 267, rfl⟩
abbrev main_v204 : Ref sig .tc := ⟨.hbm, 268, rfl⟩
abbrev main_cst_37 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_cst_38 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_cst_39 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_cst_40 : Ref sig .tc := ⟨.hbm, 291, rfl⟩
abbrev main_v224 : Ref sig .tc := ⟨.hbm, 292, rfl⟩
abbrev main_cst_41 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_cst_42 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_cst_43 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_scratch0 : Ref sig .tc := ⟨.vmem, 42, rfl⟩
abbrev cc4_scratch1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg4_1 : Ref sig .tc := ⟨.vmem, 58, rfl⟩
abbrev cc6_stg5_0 : Ref sig .tc := ⟨.vmem, 59, rfl⟩
abbrev cc6_stg6_0 : Ref sig .tc := ⟨.vmem, 60, rfl⟩
abbrev cc6_stg7_0 : Ref sig .tc := ⟨.vmem, 61, rfl⟩
abbrev cc6_stg7_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg2_0 : Ref sig .tc := ⟨.vmem, 66, rfl⟩
abbrev cc7_scratch0 : Ref sig .tc := ⟨.vmem, 67, rfl⟩
abbrev cc7_scratch1 : Ref sig .tc := ⟨.vmem, 68, rfl⟩
abbrev cc8_stg0_0 : Ref sig .tc := ⟨.vmem, 69, rfl⟩
abbrev cc8_stg0_1 : Ref sig .tc := ⟨.vmem, 70, rfl⟩
abbrev cc8_stg1_0 : Ref sig .tc := ⟨.vmem, 71, rfl⟩
abbrev cc8_stg2_0 : Ref sig .tc := ⟨.vmem, 72, rfl⟩
abbrev cc8_stg3_0 : Ref sig .tc := ⟨.vmem, 73, rfl⟩
abbrev cc8_stg3_1 : Ref sig .tc := ⟨.vmem, 74, rfl⟩
abbrev cc9_stg0_0 : Ref sig .tc := ⟨.vmem, 75, rfl⟩
abbrev cc9_stg0_1 : Ref sig .tc := ⟨.vmem, 76, rfl⟩
abbrev cc9_stg1_0 : Ref sig .tc := ⟨.vmem, 77, rfl⟩
abbrev cc9_stg1_1 : Ref sig .tc := ⟨.vmem, 78, rfl⟩
abbrev cc9_stg2_0 : Ref sig .tc := ⟨.vmem, 79, rfl⟩
abbrev cc9_stg2_1 : Ref sig .tc := ⟨.vmem, 80, rfl⟩
abbrev cc9_stg3_0 : Ref sig .tc := ⟨.vmem, 81, rfl⟩
abbrev cc9_stg4_0 : Ref sig .tc := ⟨.vmem, 82, rfl⟩
abbrev cc9_stg4_1 : Ref sig .tc := ⟨.vmem, 83, rfl⟩
abbrev cc9_stg5_0 : Ref sig .tc := ⟨.vmem, 84, rfl⟩
abbrev cc9_stg6_0 : Ref sig .tc := ⟨.vmem, 85, rfl⟩
abbrev cc9_stg7_0 : Ref sig .tc := ⟨.vmem, 86, rfl⟩
abbrev cc9_stg7_1 : Ref sig .tc := ⟨.vmem, 87, rfl⟩
abbrev cc10_stg0_0 : Ref sig .tc := ⟨.vmem, 88, rfl⟩
abbrev cc10_stg0_1 : Ref sig .tc := ⟨.vmem, 89, rfl⟩
abbrev cc10_stg1_0 : Ref sig .tc := ⟨.vmem, 90, rfl⟩
abbrev cc10_stg2_0 : Ref sig .tc := ⟨.vmem, 91, rfl⟩
abbrev cc10_scratch0 : Ref sig .tc := ⟨.vmem, 92, rfl⟩
abbrev cc10_scratch1 : Ref sig .tc := ⟨.vmem, 93, rfl⟩
abbrev cc11_stg0_0 : Ref sig .tc := ⟨.vmem, 94, rfl⟩
abbrev cc11_stg0_1 : Ref sig .tc := ⟨.vmem, 95, rfl⟩
abbrev cc11_stg1_0 : Ref sig .tc := ⟨.vmem, 96, rfl⟩
abbrev cc11_stg2_0 : Ref sig .tc := ⟨.vmem, 97, rfl⟩
abbrev cc11_stg3_0 : Ref sig .tc := ⟨.vmem, 98, rfl⟩
abbrev cc11_stg3_1 : Ref sig .tc := ⟨.vmem, 99, rfl⟩
abbrev cc12_stg0_0 : Ref sig .tc := ⟨.vmem, 100, rfl⟩
abbrev cc12_stg0_1 : Ref sig .tc := ⟨.vmem, 101, rfl⟩
abbrev cc12_stg1_0 : Ref sig .tc := ⟨.vmem, 102, rfl⟩
abbrev cc12_stg1_1 : Ref sig .tc := ⟨.vmem, 103, rfl⟩
abbrev cc12_stg2_0 : Ref sig .tc := ⟨.vmem, 104, rfl⟩
abbrev cc12_stg2_1 : Ref sig .tc := ⟨.vmem, 105, rfl⟩
abbrev cc12_stg3_0 : Ref sig .tc := ⟨.vmem, 106, rfl⟩
abbrev cc12_stg4_0 : Ref sig .tc := ⟨.vmem, 107, rfl⟩
abbrev cc12_stg4_1 : Ref sig .tc := ⟨.vmem, 108, rfl⟩
abbrev cc12_stg5_0 : Ref sig .tc := ⟨.vmem, 109, rfl⟩
abbrev cc12_stg6_0 : Ref sig .tc := ⟨.vmem, 110, rfl⟩
abbrev cc12_stg7_0 : Ref sig .tc := ⟨.vmem, 111, rfl⟩
abbrev cc12_stg7_1 : Ref sig .tc := ⟨.vmem, 112, rfl⟩
abbrev cc13_stg0_0 : Ref sig .tc := ⟨.vmem, 113, rfl⟩
abbrev cc13_stg0_1 : Ref sig .tc := ⟨.vmem, 114, rfl⟩
abbrev cc13_stg1_0 : Ref sig .tc := ⟨.vmem, 115, rfl⟩
abbrev cc13_stg2_0 : Ref sig .tc := ⟨.vmem, 116, rfl⟩
abbrev cc13_scratch0 : Ref sig .tc := ⟨.vmem, 117, rfl⟩
abbrev cc13_scratch1 : Ref sig .tc := ⟨.vmem, 118, rfl⟩
abbrev cc14_stg0_0 : Ref sig .tc := ⟨.vmem, 119, rfl⟩
abbrev cc14_stg0_1 : Ref sig .tc := ⟨.vmem, 120, rfl⟩
abbrev cc14_stg1_0 : Ref sig .tc := ⟨.vmem, 121, rfl⟩
abbrev cc14_stg2_0 : Ref sig .tc := ⟨.vmem, 122, rfl⟩
abbrev cc14_stg3_0 : Ref sig .tc := ⟨.vmem, 123, rfl⟩
abbrev cc14_stg3_1 : Ref sig .tc := ⟨.vmem, 124, rfl⟩
abbrev cc15_stg0_0 : Ref sig .tc := ⟨.vmem, 125, rfl⟩
abbrev cc15_stg1_0 : Ref sig .tc := ⟨.vmem, 126, rfl⟩
abbrev cc15_stg2_0 : Ref sig .tc := ⟨.vmem, 127, rfl⟩
abbrev cc15_stg3_0 : Ref sig .tc := ⟨.vmem, 128, rfl⟩
abbrev cc15_stg4_0 : Ref sig .tc := ⟨.vmem, 129, rfl⟩
abbrev cc15_stg5_0 : Ref sig .tc := ⟨.vmem, 130, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem3_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51
abbrev cc6_sem3_0 : DmaSem sig := 52
abbrev cc6_sem4_0 : DmaSem sig := 53
abbrev cc6_sem4_1 : DmaSem sig := 54
abbrev cc6_sem5_0 : DmaSem sig := 55
abbrev cc6_sem6_0 : DmaSem sig := 56
abbrev cc6_sem7_0 : DmaSem sig := 57
abbrev cc6_sem7_1 : DmaSem sig := 58
abbrev cc7_sem0_0 : DmaSem sig := 59
abbrev cc7_sem0_1 : DmaSem sig := 60
abbrev cc7_sem1_0 : DmaSem sig := 61
abbrev cc7_sem2_0 : DmaSem sig := 62
abbrev cc8_sem0_0 : DmaSem sig := 63
abbrev cc8_sem0_1 : DmaSem sig := 64
abbrev cc8_sem1_0 : DmaSem sig := 65
abbrev cc8_sem2_0 : DmaSem sig := 66
abbrev cc8_sem3_0 : DmaSem sig := 67
abbrev cc8_sem3_1 : DmaSem sig := 68
abbrev cc9_sem0_0 : DmaSem sig := 69
abbrev cc9_sem0_1 : DmaSem sig := 70
abbrev cc9_sem1_0 : DmaSem sig := 71
abbrev cc9_sem1_1 : DmaSem sig := 72
abbrev cc9_sem2_0 : DmaSem sig := 73
abbrev cc9_sem2_1 : DmaSem sig := 74
abbrev cc9_sem3_0 : DmaSem sig := 75
abbrev cc9_sem4_0 : DmaSem sig := 76
abbrev cc9_sem4_1 : DmaSem sig := 77
abbrev cc9_sem5_0 : DmaSem sig := 78
abbrev cc9_sem6_0 : DmaSem sig := 79
abbrev cc9_sem7_0 : DmaSem sig := 80
abbrev cc9_sem7_1 : DmaSem sig := 81
abbrev cc10_sem0_0 : DmaSem sig := 82
abbrev cc10_sem0_1 : DmaSem sig := 83
abbrev cc10_sem1_0 : DmaSem sig := 84
abbrev cc10_sem2_0 : DmaSem sig := 85
abbrev cc11_sem0_0 : DmaSem sig := 86
abbrev cc11_sem0_1 : DmaSem sig := 87
abbrev cc11_sem1_0 : DmaSem sig := 88
abbrev cc11_sem2_0 : DmaSem sig := 89
abbrev cc11_sem3_0 : DmaSem sig := 90
abbrev cc11_sem3_1 : DmaSem sig := 91
abbrev cc12_sem0_0 : DmaSem sig := 92
abbrev cc12_sem0_1 : DmaSem sig := 93
abbrev cc12_sem1_0 : DmaSem sig := 94
abbrev cc12_sem1_1 : DmaSem sig := 95
abbrev cc12_sem2_0 : DmaSem sig := 96
abbrev cc12_sem2_1 : DmaSem sig := 97
abbrev cc12_sem3_0 : DmaSem sig := 98
abbrev cc12_sem4_0 : DmaSem sig := 99
abbrev cc12_sem4_1 : DmaSem sig := 100
abbrev cc12_sem5_0 : DmaSem sig := 101
abbrev cc12_sem6_0 : DmaSem sig := 102
abbrev cc12_sem7_0 : DmaSem sig := 103
abbrev cc12_sem7_1 : DmaSem sig := 104
abbrev cc13_sem0_0 : DmaSem sig := 105
abbrev cc13_sem0_1 : DmaSem sig := 106
abbrev cc13_sem1_0 : DmaSem sig := 107
abbrev cc13_sem2_0 : DmaSem sig := 108
abbrev cc14_sem0_0 : DmaSem sig := 109
abbrev cc14_sem0_1 : DmaSem sig := 110
abbrev cc14_sem1_0 : DmaSem sig := 111
abbrev cc14_sem2_0 : DmaSem sig := 112
abbrev cc14_sem3_0 : DmaSem sig := 113
abbrev cc14_sem3_1 : DmaSem sig := 114
abbrev cc15_sem0_0 : DmaSem sig := 115
abbrev cc15_sem1_0 : DmaSem sig := 116
abbrev cc15_sem2_0 : DmaSem sig := 117
abbrev cc15_sem3_0 : DmaSem sig := 118
abbrev cc15_sem4_0 : DmaSem sig := 119
abbrev cc15_sem5_0 : DmaSem sig := 120

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x5 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S5x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x5 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S5x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S4000x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S4000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![50], ![false]⟩

def k7_cond2 (i : grid7.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_11 : BitVec 32 := 0#32
  let v22 : BitVec 1 := Scalar.cmpi .ne v21 c0_i32_11
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S4000x128 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x128 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S4000x5 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S5x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S4000x1 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S128x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S4000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![50], ![false]⟩

def k10_cond2 (i : grid10.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_11 : BitVec 32 := 0#32
  let v22 : BitVec 1 := Scalar.cmpi .ne v21 c0_i32_11
  v22

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S4000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S4000x128 .bf16 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4000x128 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S4000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S4000x5 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S5x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S4000x1 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 1 → Memref sig .tc .vmem S128x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 2 → Memref sig .tc .vmem S4000x128 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev grid13 : Pipeline.Grid := ⟨1, ![50], ![false]⟩

def k13_cond2 (i : grid13.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_11 : BitVec 32 := 0#32
  let v22 : BitVec 1 := Scalar.cmpi .ne v21 c0_i32_11
  v22

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S4000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev grid14 : Pipeline.Grid := ⟨1, ![50], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S4000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S4000x128 .bf16 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![1], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 1 → Memref sig .tc .vmem S1000x128 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![false]

abbrev stage15_1 : Fin 1 → Memref sig .tc .vmem S128x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S128x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S1000x128 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S400000 : S_.BroadcastsInDim S400000 (![] : Fin 0 → Fin S400000.rank)
  bcast_S400000_S400000x1_0 : S400000.BroadcastsInDim S400000x1 (![0] : Fin 1 → Fin S400000x1.rank)
  shapeCasts_S200000_S200000x1 : S200000.ShapeCasts S200000x1
  bcast_S_S200000x1 : S_.BroadcastsInDim S200000x1 (![] : Fin 0 → Fin S200000x1.rank)
  bcast_S400000x1_S400000x5_0_1 : S400000x1.BroadcastsInDim S400000x5 (![0, 1] : Fin 2 → Fin S400000x5.rank)
  bcast_S1x5_S400000x5_0_1 : S1x5.BroadcastsInDim S400000x5 (![0, 1] : Fin 2 → Fin S400000x5.rank)
  bcast_S_S200000x5 : S_.BroadcastsInDim S200000x5 (![] : Fin 0 → Fin S200000x5.rank)
  bcast_S_S200000x128 : S_.BroadcastsInDim S200000x128 (![] : Fin 0 → Fin S200000x128.rank)
  slices_S5x5x128_S1x5x128_0_0_0 : S5x5x128.Slices ![0, 0, 0] S1x5x128
  shapeCasts_S1x5x128_S5x128 : S1x5x128.ShapeCasts S5x128
  slices_S5x128_S1x128_0_0 : S5x128.Slices ![0, 0] S1x128
  shapeCasts_S1x128_S128 : S1x128.ShapeCasts S128
  shapeCasts_S128_S1x128 : S128.ShapeCasts S1x128
  slices_S5x128x128_S1x128x128_0_0_0 : S5x128x128.Slices ![0, 0, 0] S1x128x128
  shapeCasts_S1x128x128_S128x128 : S1x128x128.ShapeCasts S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x5_S4000x5_0_0 : ∀ a, (![0, 0] : Fin 2 → Nat) a + S4000x5.size a ≤ S4000x5.size a
  h_S4000x5 : 0 < S4000x5.numel
  shapeCasts_S4000x5_S4000x5 : S4000x5.ShapeCasts S4000x5
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S128 : S4000x128.Reduces [0] S128
  bcast_S_S1x128 : S_.BroadcastsInDim S1x128 (![] : Fin 0 → Fin S1x128.rank)
  packedbf16_S4000x128_S4000x128_0_0 : (Rect.unit (s := S4000x128) ![0, 0] S4000x128.size inb_S4000x128_S4000x128_0_0).PackedRows (EltTy.packing .bf16)
  slices_S5x5x128_S1x5x128_1_0_0 : S5x5x128.Slices ![1, 0, 0] S1x5x128
  slices_S5x128_S1x128_1_0 : S5x128.Slices ![1, 0] S1x128
  slices_S5x128x128_S1x128x128_1_0_0 : S5x128x128.Slices ![1, 0, 0] S1x128x128
  slices_S5x5x128_S1x5x128_2_0_0 : S5x5x128.Slices ![2, 0, 0] S1x5x128
  slices_S5x128_S1x128_2_0 : S5x128.Slices ![2, 0] S1x128
  slices_S5x128x128_S1x128x128_2_0_0 : S5x128x128.Slices ![2, 0, 0] S1x128x128
  slices_S5x5x128_S1x5x128_3_0_0 : S5x5x128.Slices ![3, 0, 0] S1x5x128
  slices_S5x128_S1x128_3_0 : S5x128.Slices ![3, 0] S1x128
  slices_S5x128x128_S1x128x128_3_0_0 : S5x128x128.Slices ![3, 0, 0] S1x128x128
  slices_S5x5x128_S1x5x128_4_0_0 : S5x5x128.Slices ![4, 0, 0] S1x5x128
  slices_S5x128_S1x128_4_0 : S5x128.Slices ![4, 0] S1x128
  slices_S5x128x128_S1x128x128_4_0_0 : S5x128x128.Slices ![4, 0, 0] S1x128x128
  bcast_S_S1000 : S_.BroadcastsInDim S1000 (![] : Fin 0 → Fin S1000.rank)
  bcast_S_S1000x128 : S_.BroadcastsInDim S1000x128 (![] : Fin 0 → Fin S1000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  gather_S119x128_S200000x1_S200000x128_1_0_n_n_0_1_1128_wf : GatherDims.WF S119x128 S200000x1 S200000x128 [1] [0] [] [0] [] 1 ![1, 128]
  scatter_S200000_S400000x1_S400000_n_0_0_1_wf : ScatterDims.WF S200000 S400000x1 S400000 [] [0] [0] 1
  scatter_S200000x5_S400000x1_S400000x5_1_0_0_1_wf : ScatterDims.WF S200000x5 S400000x1 S400000x5 [1] [0] [0] 1
  gather_S200000x128_S400000x1_S400000x128_1_0_n_n_0_1_1128_wf : GatherDims.WF S200000x128 S400000x1 S400000x128 [1] [0] [] [0] [] 1 ![1, 128]
  scatter_S200000x128_S400000x1_S400000x128_1_0_0_1_wf : ScatterDims.WF S200000x128 S400000x1 S400000x128 [1] [0] [0] 1
  dot_S4000x5_S5x128_S4000x128_1_0_0_1_n_n_wf : DotDims.WF S4000x5 S5x128 S4000x128 [1] [0] [0] [1] [] []
  dot_S4000x128_S128x128_S4000x128_1_0_0_1_n_n_wf : DotDims.WF S4000x128 S128x128 S4000x128 [1] [0] [0] [1] [] []
  scatter_S1000_S200000x1_S200000_n_0_0_1_wf : ScatterDims.WF S1000 S200000x1 S200000 [] [0] [0] 1
  scatter_S1000x128_S200000x1_S200000x128_1_0_0_1_wf : ScatterDims.WF S1000x128 S200000x1 S200000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x5.size a ≤ S200000x5.size a
  hwx0_2 : ∀ i : grid0.Coords, EltTy.bits .f32 = 32 ∨ (Rect.block (s := S200000x5) S4000x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x128.size a ≤ S5x128.size a
  hwx0_3 : ∀ i : grid0.Coords, EltTy.bits .f32 = 32 ∨ (Rect.block (s := S5x128) S5x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S200000x1.size a
  hwx0_4 : ∀ i : grid0.Coords, EltTy.bits .f32 = 32 ∨ (Rect.block (s := S200000x1) S4000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S200000x128.size a
  hwx0_7 : ∀ i : grid0.Coords, EltTy.bits .f32 = 32 ∨ (Rect.block (s := S200000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .f32 = 32 ∨ (Rect.block (s := S200000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S200000x128.size a
  hwx2_3 : ∀ i : grid2.Coords, EltTy.bits .bf16 = 32 ∨ (Rect.block (s := S200000x128) S4000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S200000x128.size a
  hwx3_0 : ∀ i : grid3.Coords, EltTy.bits .bf16 = 32 ∨ (Rect.block (s := S200000x128) S4000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S200000x128.size a
  hwx3_1 : ∀ i : grid3.Coords, EltTy.bits .f32 = 32 ∨ (Rect.block (s := S200000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x5.size a ≤ S200000x5.size a
  hwx3_2 : ∀ i : grid3.Coords, EltTy.bits .f32 = 32 ∨ (Rect.block (s := S200000x5) S4000x5.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S5x128.size a ≤ S5x128.size a
  hwx3_3 : ∀ i : grid3.Coords, EltTy.bits .f32 = 32 ∨ (Rect.block (s := S5x128) S5x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x1.size a ≤ S200000x1.size a
  hwx3_4 : ∀ i : grid3.Coords, EltTy.bits .f32 = 32 ∨ (Rect.block (s := S200000x1) S4000x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S200000x128.size a
  hwx3_7 : ∀ i : grid3.Coords, EltTy.bits .f32 = 32 ∨ (Rect.block (s := S200000x128) S4000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S200000x128.size a
  hwx4_0 : ∀ i : grid4.Coords, EltTy.bits .f32 = 32 ∨ (Rect.block (s := S200000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S200000x128.size a
  hwx5_0 : ∀ i : grid5.Coords, EltTy.bits .f32 = 32 ∨ (Rect.block (s := S200000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x128.size a ≤ S200000x128.size a
  hwx5_3 : ∀ i : grid5.Coords, EltTy.bits .bf16 = 32 ∨ (Rect.block (s := S200000x128) S4000x128.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S200000x128.size a
  hwx6_0 : ∀ i : grid6.Coords, EltTy.bits .bf16 = 32 ∨ (Rect.block (s := S200000x128) S4000x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S200000x128.size a
  hwx6_1 : ∀ i : grid6.Coords, EltTy.bits .f32 = 32 ∨ (Rect.block (s := S200000x128) S4000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x5.size a ≤ S200000x5.size a
  hwx6_2 : ∀ i : grid6.Coords, EltTy.bits .f32 = 32 ∨ (Rect.block (s := S200000x5) S4000x5.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S5x128.size a ≤ S5x128.size a
  hwx6_3 : ∀ i : grid6.Coords, EltTy.bits .f32 = 32 ∨ (Rect.block (s := S5x128) S5x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x1.size a ≤ S200000x1.size a
  hwx6_4 : ∀ i : grid6.Coords, EltTy.bits .f32 = 32 ∨ (Rect.block (s := S200000x1) S4000x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S4000x128.size a ≤ S200000x128.size a
  hwx6_7 : ∀ i : grid6.Coords, EltTy.bits .f32 = 32 ∨ (Rect.block (s := S200000x128) S4000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S200000x128.size a
  hwx7_0 : ∀ i : grid7.Coords, EltTy.bits .f32 = 32 ∨ (Rect.block (s := S200000x128) S4000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S200000x128.size a
  hwx8_0 : ∀ i : grid8.Coords, EltTy.bits .f32 = 32 ∨ (Rect.block (s := S200000x128) S4000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x128.size a ≤ S200000x128.size a
  hwx8_3 : ∀ i : grid8.Coords, EltTy.bits .bf16 = 32 ∨ (Rect.block (s := S200000x128) S4000x128.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x128.size a ≤ S200000x128.size a
  hwx9_0 : ∀ i : grid9.Coords, EltTy.bits .bf16 = 32 ∨ (Rect.block (s := S200000x128) S4000x128.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4000x128.size a ≤ S200000x128.size a
  hwx9_1 : ∀ i : grid9.Coords, EltTy.bits .f32 = 32 ∨ (Rect.block (s := S200000x128) S4000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4000x5.size a ≤ S200000x5.size a
  hwx9_2 : ∀ i : grid9.Coords, EltTy.bits .f32 = 32 ∨ (Rect.block (s := S200000x5) S4000x5.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S5x128.size a ≤ S5x128.size a
  hwx9_3 : ∀ i : grid9.Coords, EltTy.bits .f32 = 32 ∨ (Rect.block (s := S5x128) S5x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S4000x1.size a ≤ S200000x1.size a
  hwx9_4 : ∀ i : grid9.Coords, EltTy.bits .f32 = 32 ∨ (Rect.block (s := S200000x1) S4000x1.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x128.size a ≤ S128x128.size a
  hwx9_5 : ∀ i : grid9.Coords, EltTy.bits .f32 = 32 ∨ (Rect.block (s := S128x128) S128x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S4000x128.size a ≤ S200000x128.size a
  hwx9_7 : ∀ i : grid9.Coords, EltTy.bits .f32 = 32 ∨ (Rect.block (s := S200000x128) S4000x128.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x128.size a ≤ S200000x128.size a
  hwx10_0 : ∀ i : grid10.Coords, EltTy.bits .f32 = 32 ∨ (Rect.block (s := S200000x128) S4000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x128.size a ≤ S200000x128.size a
  hwx11_0 : ∀ i : grid11.Coords, EltTy.bits .f32 = 32 ∨ (Rect.block (s := S200000x128) S4000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S4000x128.size a ≤ S200000x128.size a
  hwx11_3 : ∀ i : grid11.Coords, EltTy.bits .bf16 = 32 ∨ (Rect.block (s := S200000x128) S4000x128.size (cc11_transform_3 i) (hinb11_3 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4000x128.size a ≤ S200000x128.size a
  hwx12_0 : ∀ i : grid12.Coords, EltTy.bits .bf16 = 32 ∨ (Rect.block (s := S200000x128) S4000x128.size (cc12_transform_0 i) (hinb12_0 i)).WholeWords (EltTy.packing .bf16)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S4000x128.size a ≤ S200000x128.size a
  hwx12_1 : ∀ i : grid12.Coords, EltTy.bits .f32 = 32 ∨ (Rect.block (s := S200000x128) S4000x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S4000x5.size a ≤ S200000x5.size a
  hwx12_2 : ∀ i : grid12.Coords, EltTy.bits .f32 = 32 ∨ (Rect.block (s := S200000x5) S4000x5.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S5x128.size a ≤ S5x128.size a
  hwx12_3 : ∀ i : grid12.Coords, EltTy.bits .f32 = 32 ∨ (Rect.block (s := S5x128) S5x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S4000x1.size a ≤ S200000x1.size a
  hwx12_4 : ∀ i : grid12.Coords, EltTy.bits .f32 = 32 ∨ (Rect.block (s := S200000x1) S4000x1.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S128x128.size a ≤ S128x128.size a
  hwx12_5 : ∀ i : grid12.Coords, EltTy.bits .f32 = 32 ∨ (Rect.block (s := S128x128) S128x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x128.size a ≤ S1x128.size a
  hwx12_6 : ∀ i : grid12.Coords, EltTy.bits .f32 = 32 ∨ (Rect.block (s := S1x128) S1x128.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S4000x128.size a ≤ S200000x128.size a
  hwx12_7 : ∀ i : grid12.Coords, EltTy.bits .f32 = 32 ∨ (Rect.block (s := S200000x128) S4000x128.size (cc12_transform_7 i) (hinb12_7 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4000x128.size a ≤ S200000x128.size a
  hwx13_0 : ∀ i : grid13.Coords, EltTy.bits .f32 = 32 ∨ (Rect.block (s := S200000x128) S4000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S4000x128.size a ≤ S200000x128.size a
  hwx14_0 : ∀ i : grid14.Coords, EltTy.bits .f32 = 32 ∨ (Rect.block (s := S200000x128) S4000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S4000x128.size a ≤ S200000x128.size a
  hwx14_3 : ∀ i : grid14.Coords, EltTy.bits .bf16 = 32 ∨ (Rect.block (s := S200000x128) S4000x128.size (cc14_transform_3 i) (hinb14_3 i)).WholeWords (EltTy.packing .bf16)
  hrank15 : 0 < grid15.rank
  hstage15_0 : ∀ j, (stage15_0 j).IsWhole
  nbuf15_0 : grid15.bufCount reads15_0 true = 1
  hreads15_0 : ∀ i i' : grid15.Coords, (∀ a, reads15_0 a = true → i a = i' a) → cc15_transform_0 i = cc15_transform_0 i'
  hinb15_0 : ∀ (i : grid15.Coords) a, (cc15_transform_0 i a + 1) * S1000x128.size a ≤ S1000x128.size a
  hwx15_0 : ∀ i : grid15.Coords, EltTy.bits .f32 = 32 ∨ (Rect.block (s := S1000x128) S1000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x128.size a ≤ S128x128.size a
  hwx15_1 : ∀ i : grid15.Coords, EltTy.bits .f32 = 32 ∨ (Rect.block (s := S128x128) S128x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S128x128.size a ≤ S128x128.size a
  hwx15_3 : ∀ i : grid15.Coords, EltTy.bits .f32 = 32 ∨ (Rect.block (s := S128x128) S128x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S1000x128.size a ≤ S1000x128.size a
  hwx15_5 : ∀ i : grid15.Coords, EltTy.bits .f32 = 32 ∨ (Rect.block (s := S1000x128) S1000x128.size (cc15_transform_5 i) (hinb15_5 i)).WholeWords (EltTy.packing .f32)

variable [Facts₀]

def gather_S119x128_S200000x1_S200000x128_1_0_n_n_0_1_1128 : GatherDims S119x128 S200000x1 S200000x128 where
  offsetDims := [1]
  collapsedSliceDims := [0]
  operandBatchingDims := []
  startIndicesBatchingDims := []
  startIndexMap := [0]
  indexVectorDim := 1
  sliceSizes := ![1, 128]
  wf := gather_S119x128_S200000x1_S200000x128_1_0_n_n_0_1_1128_wf
def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def scatter_S200000x5_S400000x1_S400000x5_1_0_0_1 : ScatterDims S200000x5 S400000x1 S400000x5 where
  updateWindowDims := [1]
  insertedWindowDims := [0]
  scatterDimsToOperandDims := [0]
  indexVectorDim := 1
  wf := scatter_S200000x5_S400000x1_S400000x5_1_0_0_1_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def dot_S4000x5_S5x128_S4000x128_1_0_0_1_n_n : DotDims S4000x5 S5x128 S4000x128 where
  lhsContracting := [1]
  rhsContracting := [0]
  lhsNonContracting := [0]
  rhsNonContracting := [1]
  lhsBatch := []
  rhsBatch := []
  wf := dot_S4000x5_S5x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S1000_S200000x1_S200000_n_0_0_1 : ScatterDims S1000 S200000x1 S200000 where
  updateWindowDims := []
  insertedWindowDims := [0]
  scatterDimsToOperandDims := [0]
  indexVectorDim := 1
  wf := scatter_S1000_S200000x1_S200000_n_0_0_1_wf
def scatter_S1000x128_S200000x1_S200000x128_1_0_0_1 : ScatterDims S1000x128 S200000x1 S200000x128 where
  updateWindowDims := [1]
  insertedWindowDims := [0]
  scatterDimsToOperandDims := [0]
  indexVectorDim := 1
  wf := scatter_S1000x128_S200000x1_S200000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v6) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4000x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v37) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v37) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v59) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S4000x5.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v72) S5x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v15) S4000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v77) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v75) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v78) S4000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v78) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v78) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S4000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v100) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v111) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v19) S4000x5.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v113) S5x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v15) S4000x1.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v118) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v116) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v119) S4000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v119) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v120_0) S1x128.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v120_1) S1x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun i => !(k7_cond2 i == 1#1) | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v119) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v135) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v140) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v141) S4000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v141) S4000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v152) S4000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v19) S4000x5.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v154) S5x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v15) S4000x1.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v159) S128x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v157) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v160) S4000x128.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v160) S4000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v161_0) S1x128.size cc10_transform_1 reads10_1 true true 1 stage10_1 sem10_1
    hrank10 hreads10_1 hinb10_1 nbuf10_1 (Memref.isWhole_whole _) hwx10_1 hstage10_1

abbrev win10_2 : Pipeline.Window sig grid10 :=
  Pipeline.Window.ofSpec (Memref.whole main_v161_1) S1x128.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun i => !(k10_cond2 i == 1#1) | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v160) S4000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v176) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v181) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v182) S4000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v182) S4000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v193) S4000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v19) S4000x5.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v195) S5x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v15) S4000x1.size cc12_transform_4 reads12_4 false false 2 stage12_4 sem12_4
    hrank12 hreads12_4 hinb12_4 nbuf12_4 (Memref.isWhole_whole _) hwx12_4 hstage12_4

abbrev win12_5 : Pipeline.Window sig grid12 :=
  Pipeline.Window.ofSpec (Memref.whole main_v200) S128x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v198) S1x128.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v201) S4000x128.size cc12_transform_7 reads12_7 true false 2 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

abbrev win13_0 : Pipeline.Window sig grid13 :=
  Pipeline.Window.ofSpec (Memref.whole main_v201) S4000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v202_0) S1x128.size cc13_transform_1 reads13_1 true true 1 stage13_1 sem13_1
    hrank13 hreads13_1 hinb13_1 nbuf13_1 (Memref.isWhole_whole _) hwx13_1 hstage13_1

abbrev win13_2 : Pipeline.Window sig grid13 :=
  Pipeline.Window.ofSpec (Memref.whole main_v202_1) S1x128.size cc13_transform_2 reads13_2 true true 1 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev idle13 : Fin 3 → grid13.Coords → Bool := fun | 0 => fun _ => false | 1 => fun i => !(k13_cond2 i == 1#1) | 2 => fun i => !(k13_cond2 i == 1#1) | ⟨_ + 3, h⟩ => absurd h (Nat.not_lt.2 (Nat.le_add_left _ _))

abbrev win14_0 : Pipeline.Window sig grid14 :=
  Pipeline.Window.ofSpec (Memref.whole main_v201) S4000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v217) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v222) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v223) S4000x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v236) S1000x128.size cc15_transform_0 reads15_0 false true 1 stage15_0 sem15_0
    hrank15 hreads15_0 hinb15_0 nbuf15_0 (Memref.isWhole_whole _) hwx15_0 hstage15_0

abbrev win15_1 : Pipeline.Window sig grid15 :=
  Pipeline.Window.ofSpec (Memref.whole main_arg11) S128x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v237) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_arg13) S128x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v238) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v239) S1000x128.size cc15_transform_5 reads15_5 true true 1 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

class Facts : Prop extends Facts₀ where

variable [Facts]
-- ==== ReferenceIdeal.lean ====
abbrev S200000 : Shape := ⟨1, ![200000]⟩
abbrev S400000 : Shape := ⟨1, ![400000]⟩
abbrev S119x128 : Shape := ⟨2, ![119, 128]⟩
abbrev S5x5x128 : Shape := ⟨3, ![5, 5, 128]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S_ : Shape := ⟨0, ![]⟩
abbrev S200000x1 : Shape := ⟨2, ![200000, 1]⟩
abbrev S200000x128 : Shape := ⟨2, ![200000, 128]⟩
abbrev S400000x1 : Shape := ⟨2, ![400000, 1]⟩
abbrev S1x5x128 : Shape := ⟨3, ![1, 5, 128]⟩
abbrev S400000x128 : Shape := ⟨2, ![400000, 128]⟩
abbrev S1x128x128 : Shape := ⟨3, ![1, 128, 128]⟩
abbrev S1x128 : Shape := ⟨2, ![1, 128]⟩
abbrev S1000 : Shape := ⟨1, ![1000]⟩
abbrev S1000x128 : Shape := ⟨2, ![1000, 128]⟩
abbrev S1000x1 : Shape := ⟨2, ![1000, 1]⟩

abbrev nBuf : Space → Nat
  | .hbm => 500
  | .vmem => 0
  | .smem => 0
  | _ => 0

abbrev hbmTy0_0 (i : Nat) : BufTy := match i % 128 with
  | 0 => ⟨S200000, .i32⟩
  | 1 => ⟨S400000, .i32⟩
  | 2 => ⟨S400000, .i32⟩
  | 3 => ⟨S400000, .i32⟩
  | 4 => ⟨S200000, .i32⟩
  | 5 => ⟨S119x128, .f32⟩
  | 6 => ⟨S5x5x128, .f32⟩
  | 7 => ⟨S5x128x128, .f32⟩
  | 8 => ⟨S5x128, .f32⟩
  | 9 => ⟨S5x128, .f32⟩
  | 10 => ⟨S5x128, .f32⟩
  | 11 => ⟨S128x128, .f32⟩
  | 12 => ⟨S128, .f32⟩
  | 13 => ⟨S128x128, .f32⟩
  | 14 => ⟨S128, .f32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S200000x128, .f32⟩
  | 24 => ⟨S_, .f32⟩
  | 25 => ⟨S400000, .f32⟩
  | 26 => ⟨S_, .f32⟩
  | 27 => ⟨S200000, .f32⟩
  | 28 => ⟨S400000x1, .i32⟩
  | 29 => ⟨S200000, .f32⟩
  | 30 => ⟨S_, .f32⟩
  | 31 => ⟨S200000, .f32⟩
  | 32 => ⟨S200000, .f32⟩
  | 33 => ⟨S1x5x128, .f32⟩
  | 34 => ⟨S5x128, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x128, .f32⟩
  | 44 => ⟨S_, .i32⟩
  | 45 => ⟨S400000, .i32⟩
  | 46 => ⟨S400000, .i1⟩
  | 47 => ⟨S_, .i32⟩
  | 48 => ⟨S400000, .i32⟩
  | 49 => ⟨S400000, .i32⟩
  | 50 => ⟨S400000, .i32⟩
  | 51 => ⟨S400000x1, .i32⟩
  | 52 => ⟨S400000x128, .f32⟩
  | 53 => ⟨S400000x128, .f32⟩
  | 54 => ⟨S_, .f32⟩
  | 55 => ⟨S200000x128, .f32⟩
  | 56 => ⟨S400000x1, .i32⟩
  | 57 => ⟨S200000x128, .f32⟩
  | 58 => ⟨S200000x128, .f32⟩
  | 59 => ⟨S200000x1, .f32⟩
  | 60 => ⟨S200000x128, .f32⟩
  | 61 => ⟨S200000x128, .f32⟩
  | 62 => ⟨S1x128x128, .f32⟩
  | 63 => ⟨S128x128, .f32⟩
  | 64 => ⟨S200000x128, .f32⟩
  | 65 => ⟨S1x128, .f32⟩
  | 66 => ⟨S128, .f32⟩
  | 67 => ⟨S1x128, .f32⟩
  | 68 => ⟨S200000x128, .f32⟩
  | 69 => ⟨S200000x128, .f32⟩
  | 70 => ⟨S_, .f32⟩
  | 71 => ⟨S128, .f32⟩
  | 72 => ⟨S_, .f32⟩
  | 73 => ⟨S128, .f32⟩
  | 74 => ⟨S128, .f32⟩
  | 75 => ⟨S_, .i32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S200000x128, .f32⟩
  | 83 => ⟨S200000x128, .f32⟩
  | 84 => ⟨S200000x128, .f32⟩
  | 85 => ⟨S_, .f32⟩
  | 86 => ⟨S_, .f32⟩
  | 87 => ⟨S_, .f32⟩
  | 88 => ⟨S_, .f32⟩
  | 89 => ⟨S128, .f32⟩
  | 90 => ⟨S128, .f32⟩
  | 91 => ⟨S128, .f32⟩
  | 92 => ⟨S_, .f32⟩
  | 93 => ⟨S_, .i1⟩
  | 94 => ⟨S_, .f32⟩
  | 95 => ⟨S_, .f32⟩
  | 96 => ⟨S128, .f32⟩
  | 97 => ⟨S128, .f32⟩
  | 98 => ⟨S1x128, .f32⟩
  | 99 => ⟨S200000x128, .f32⟩
  | 100 => ⟨S200000x128, .f32⟩
  | 101 => ⟨S_, .f32⟩
  | 102 => ⟨S128, .f32⟩
  | 103 => ⟨S128, .f32⟩
  | 104 => ⟨S128, .f32⟩
  | 105 => ⟨S1x128, .f32⟩
  | 106 => ⟨S200000x128, .f32⟩
  | 107 => ⟨S200000x128, .f32⟩
  | 108 => ⟨S1x128, .f32⟩
  | 109 => ⟨S128, .f32⟩
  | 110 => ⟨S1x128, .f32⟩
  | 111 => ⟨S200000x128, .f32⟩
  | 112 => ⟨S200000x128, .f32⟩
  | 113 => ⟨S1x128, .f32⟩
  | 114 => ⟨S128, .f32⟩
  | 115 => ⟨S1x128, .f32⟩
  | 116 => ⟨S200000x128, .f32⟩
  | 117 => ⟨S200000x128, .f32⟩
  | 118 => ⟨S_, .f32⟩
  | 119 => ⟨S200000x128, .f32⟩
  | 120 => ⟨S200000x128, .f32⟩
  | 121 => ⟨S1x5x128, .f32⟩
  | 122 => ⟨S5x128, .f32⟩
  | 123 => ⟨S_, .i32⟩
  | 124 => ⟨S400000, .i32⟩
  | 125 => ⟨S400000, .i1⟩
  | 126 => ⟨S_, .i32⟩
  | 127 => ⟨S400000, .i32⟩
  | _ => ⟨S200000, .i32⟩

abbrev hbmTy0_1 (i : Nat) : BufTy := match i % 128 with
  | 0 => ⟨S400000, .i32⟩
  | 1 => ⟨S400000, .i32⟩
  | 2 => ⟨S400000x1, .i32⟩
  | 3 => ⟨S400000x128, .f32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S400000x128, .f32⟩
  | 13 => ⟨S400000x128, .f32⟩
  | 14 => ⟨S_, .f32⟩
  | 15 => ⟨S200000x128, .f32⟩
  | 16 => ⟨S400000x1, .i32⟩
  | 17 => ⟨S200000x128, .f32⟩
  | 18 => ⟨S200000x128, .f32⟩
  | 19 => ⟨S200000x1, .f32⟩
  | 20 => ⟨S200000x128, .f32⟩
  | 21 => ⟨S200000x128, .f32⟩
  | 22 => ⟨S1x128x128, .f32⟩
  | 23 => ⟨S128x128, .f32⟩
  | 24 => ⟨S200000x128, .f32⟩
  | 25 => ⟨S1x128, .f32⟩
  | 26 => ⟨S128, .f32⟩
  | 27 => ⟨S1x128, .f32⟩
  | 28 => ⟨S200000x128, .f32⟩
  | 29 => ⟨S200000x128, .f32⟩
  | 30 => ⟨S_, .f32⟩
  | 31 => ⟨S128, .f32⟩
  | 32 => ⟨S_, .f32⟩
  | 33 => ⟨S128, .f32⟩
  | 34 => ⟨S128, .f32⟩
  | 35 => ⟨S_, .i32⟩
  | 36 => ⟨S_, .f32⟩
  | 37 => ⟨S128, .f32⟩
  | 38 => ⟨S1x128, .f32⟩
  | 39 => ⟨S_, .f32⟩
  | 40 => ⟨S1x128, .f32⟩
  | 41 => ⟨S1x128, .f32⟩
  | 42 => ⟨S200000x128, .f32⟩
  | 43 => ⟨S200000x128, .f32⟩
  | 44 => ⟨S200000x128, .f32⟩
  | 45 => ⟨S_, .f32⟩
  | 46 => ⟨S_, .f32⟩
  | 47 => ⟨S_, .f32⟩
  | 48 => ⟨S_, .f32⟩
  | 49 => ⟨S128, .f32⟩
  | 50 => ⟨S128, .f32⟩
  | 51 => ⟨S128, .f32⟩
  | 52 => ⟨S_, .f32⟩
  | 53 => ⟨S_, .i1⟩
  | 54 => ⟨S_, .f32⟩
  | 55 => ⟨S_, .f32⟩
  | 56 => ⟨S128, .f32⟩
  | 57 => ⟨S128, .f32⟩
  | 58 => ⟨S1x128, .f32⟩
  | 59 => ⟨S200000x128, .f32⟩
  | 60 => ⟨S200000x128, .f32⟩
  | 61 => ⟨S_, .f32⟩
  | 62 => ⟨S128, .f32⟩
  | 63 => ⟨S128, .f32⟩
  | 64 => ⟨S128, .f32⟩
  | 65 => ⟨S1x128, .f32⟩
  | 66 => ⟨S200000x128, .f32⟩
  | 67 => ⟨S200000x128, .f32⟩
  | 68 => ⟨S1x128, .f32⟩
  | 69 => ⟨S128, .f32⟩
  | 70 => ⟨S1x128, .f32⟩
  | 71 => ⟨S200000x128, .f32⟩
  | 72 => ⟨S200000x128, .f32⟩
  | 73 => ⟨S1x128, .f32⟩
  | 74 => ⟨S128, .f32⟩
  | 75 => ⟨S1x128, .f32⟩
  | 76 => ⟨S200000x128, .f32⟩
  | 77 => ⟨S200000x128, .f32⟩
  | 78 => ⟨S_, .f32⟩
  | 79 => ⟨S200000x128, .f32⟩
  | 80 => ⟨S200000x128, .f32⟩
  | 81 => ⟨S1x5x128, .f32⟩
  | 82 => ⟨S5x128, .f32⟩
  | 83 => ⟨S_, .i32⟩
  | 84 => ⟨S400000, .i32⟩
  | 85 => ⟨S400000, .i1⟩
  | 86 => ⟨S_, .i32⟩
  | 87 => ⟨S400000, .i32⟩
  | 88 => ⟨S400000, .i32⟩
  | 89 => ⟨S400000, .i32⟩
  | 90 => ⟨S400000x1, .i32⟩
  | 91 => ⟨S400000x128, .f32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S400000x128, .f32⟩
  | 101 => ⟨S400000x128, .f32⟩
  | 102 => ⟨S_, .f32⟩
  | 103 => ⟨S200000x128, .f32⟩
  | 104 => ⟨S400000x1, .i32⟩
  | 105 => ⟨S200000x128, .f32⟩
  | 106 => ⟨S200000x128, .f32⟩
  | 107 => ⟨S200000x1, .f32⟩
  | 108 => ⟨S200000x128, .f32⟩
  | 109 => ⟨S200000x128, .f32⟩
  | 110 => ⟨S1x128x128, .f32⟩
  | 111 => ⟨S128x128, .f32⟩
  | 112 => ⟨S200000x128, .f32⟩
  | 113 => ⟨S1x128, .f32⟩
  | 114 => ⟨S128, .f32⟩
  | 115 => ⟨S1x128, .f32⟩
  | 116 => ⟨S200000x128, .f32⟩
  | 117 => ⟨S200000x128, .f32⟩
  | 118 => ⟨S_, .f32⟩
  | 119 => ⟨S128, .f32⟩
  | 120 => ⟨S_, .f32⟩
  | 121 => ⟨S128, .f32⟩
  | 122 => ⟨S128, .f32⟩
  | 123 => ⟨S_, .i32⟩
  | 124 => ⟨S_, .f32⟩
  | 125 => ⟨S128, .f32⟩
  | 126 => ⟨S1x128, .f32⟩
  | 127 => ⟨S_, .f32⟩
  | _ => ⟨S200000, .i32⟩

abbrev hbmTy0_2 (i : Nat) : BufTy := match i % 128 with
  | 0 => ⟨S1x128, .f32⟩
  | 1 => ⟨S1x128, .f32⟩
  | 2 => ⟨S200000x128, .f32⟩
  | 3 => ⟨S200000x128, .f32⟩
  | 4 => ⟨S200000x128, .f32⟩
  | 5 => ⟨S_, .f32⟩
  | 6 => ⟨S_, .f32⟩
  | 7 => ⟨S_, .f32⟩
  | 8 => ⟨S_, .f32⟩
  | 9 => ⟨S128, .f32⟩
  | 10 => ⟨S128, .f32⟩
  | 11 => ⟨S128, .f32⟩
  | 12 => ⟨S_, .f32⟩
  | 13 => ⟨S_, .i1⟩
  | 14 => ⟨S_, .f32⟩
  | 15 => ⟨S_, .f32⟩
  | 16 => ⟨S128, .f32⟩
  | 17 => ⟨S128, .f32⟩
  | 18 => ⟨S1x128, .f32⟩
  | 19 => ⟨S200000x128, .f32⟩
  | 20 => ⟨S200000x128, .f32⟩
  | 21 => ⟨S_, .f32⟩
  | 22 => ⟨S128, .f32⟩
  | 23 => ⟨S128, .f32⟩
  | 24 => ⟨S128, .f32⟩
  | 25 => ⟨S1x128, .f32⟩
  | 26 => ⟨S200000x128, .f32⟩
  | 27 => ⟨S200000x128, .f32⟩
  | 28 => ⟨S1x128, .f32⟩
  | 29 => ⟨S128, .f32⟩
  | 30 => ⟨S1x128, .f32⟩
  | 31 => ⟨S200000x128, .f32⟩
  | 32 => ⟨S200000x128, .f32⟩
  | 33 => ⟨S1x128, .f32⟩
  | 34 => ⟨S128, .f32⟩
  | 35 => ⟨S1x128, .f32⟩
  | 36 => ⟨S200000x128, .f32⟩
  | 37 => ⟨S200000x128, .f32⟩
  | 38 => ⟨S_, .f32⟩
  | 39 => ⟨S200000x128, .f32⟩
  | 40 => ⟨S200000x128, .f32⟩
  | 41 => ⟨S1x5x128, .f32⟩
  | 42 => ⟨S5x128, .f32⟩
  | 43 => ⟨S_, .i32⟩
  | 44 => ⟨S400000, .i32⟩
  | 45 => ⟨S400000, .i1⟩
  | 46 => ⟨S_, .i32⟩
  | 47 => ⟨S400000, .i32⟩
  | 48 => ⟨S400000, .i32⟩
  | 49 => ⟨S400000, .i32⟩
  | 50 => ⟨S400000x1, .i32⟩
  | 51 => ⟨S400000x128, .f32⟩
  | 52 => ⟨S_, .i32⟩
  | 53 => ⟨S400000, .i32⟩
  | 54 => ⟨S400000, .i1⟩
  | 55 => ⟨S_, .i32⟩
  | 56 => ⟨S400000, .i32⟩
  | 57 => ⟨S400000, .i32⟩
  | 58 => ⟨S400000, .i32⟩
  | 59 => ⟨S400000x1, .i32⟩
  | 60 => ⟨S400000x128, .f32⟩
  | 61 => ⟨S400000x128, .f32⟩
  | 62 => ⟨S_, .f32⟩
  | 63 => ⟨S200000x128, .f32⟩
  | 64 => ⟨S400000x1, .i32⟩
  | 65 => ⟨S200000x128, .f32⟩
  | 66 => ⟨S200000x128, .f32⟩
  | 67 => ⟨S200000x1, .f32⟩
  | 68 => ⟨S200000x128, .f32⟩
  | 69 => ⟨S200000x128, .f32⟩
  | 70 => ⟨S1x128x128, .f32⟩
  | 71 => ⟨S128x128, .f32⟩
  | 72 => ⟨S200000x128, .f32⟩
  | 73 => ⟨S1x128, .f32⟩
  | 74 => ⟨S128, .f32⟩
  | 75 => ⟨S1x128, .f32⟩
  | 76 => ⟨S200000x128, .f32⟩
  | 77 => ⟨S200000x128, .f32⟩
  | 78 => ⟨S_, .f32⟩
  | 79 => ⟨S128, .f32⟩
  | 80 => ⟨S_, .f32⟩
  | 81 => ⟨S128, .f32⟩
  | 82 => ⟨S128, .f32⟩
  | 83 => ⟨S_, .i32⟩
  | 84 => ⟨S_, .f32⟩
  | 85 => ⟨S128, .f32⟩
  | 86 => ⟨S1x128, .f32⟩
  | 87 => ⟨S_, .f32⟩
  | 88 => ⟨S1x128, .f32⟩
  | 89 => ⟨S1x128, .f32⟩
  | 90 => ⟨S200000x128, .f32⟩
  | 91 => ⟨S200000x128, .f32⟩
  | 92 => ⟨S200000x128, .f32⟩
  | 93 => ⟨S_, .f32⟩
  | 94 => ⟨S_, .f32⟩
  | 95 => ⟨S_, .f32⟩
  | 96 => ⟨S_, .f32⟩
  | 97 => ⟨S128, .f32⟩
  | 98 => ⟨S128, .f32⟩
  | 99 => ⟨S128, .f32⟩
  | 100 => ⟨S_, .f32⟩
  | 101 => ⟨S_, .i1⟩
  | 102 => ⟨S_, .f32⟩
  | 103 => ⟨S_, .f32⟩
  | 104 => ⟨S128, .f32⟩
  | 105 => ⟨S128, .f32⟩
  | 106 => ⟨S1x128, .f32⟩
  | 107 => ⟨S200000x128, .f32⟩
  | 108 => ⟨S200000x128, .f32⟩
  | 109 => ⟨S_, .f32⟩
  | 110 => ⟨S128, .f32⟩
  | 111 => ⟨S128, .f32⟩
  | 112 => ⟨S128, .f32⟩
  | 113 => ⟨S1x128, .f32⟩
  | 114 => ⟨S200000x128, .f32⟩
  | 115 => ⟨S200000x128, .f32⟩
  | 116 => ⟨S1x128, .f32⟩
  | 117 => ⟨S128, .f32⟩
  | 118 => ⟨S1x128, .f32⟩
  | 119 => ⟨S200000x128, .f32⟩
  | 120 => ⟨S200000x128, .f32⟩
  | 121 => ⟨S1x128, .f32⟩
  | 122 => ⟨S128, .f32⟩
  | 123 => ⟨S1x128, .f32⟩
  | 124 => ⟨S200000x128, .f32⟩
  | 125 => ⟨S200000x128, .f32⟩
  | 126 => ⟨S_, .f32⟩
  | 127 => ⟨S200000x128, .f32⟩
  | _ => ⟨S200000, .i32⟩

abbrev hbmTy0_3 (i : Nat) : BufTy := match i % 128 with
  | 0 => ⟨S200000x128, .f32⟩
  | 1 => ⟨S1x5x128, .f32⟩
  | 2 => ⟨S5x128, .f32⟩
  | 3 => ⟨S_, .i32⟩
  | 4 => ⟨S400000, .i32⟩
  | 5 => ⟨S400000, .i1⟩
  | 6 => ⟨S_, .i32⟩
  | 7 => ⟨S400000, .i32⟩
  | 8 => ⟨S400000, .i32⟩
  | 9 => ⟨S400000, .i32⟩
  | 10 => ⟨S400000x1, .i32⟩
  | 11 => ⟨S400000x128, .f32⟩
  | 12 => ⟨S_, .i32⟩
  | 13 => ⟨S400000, .i32⟩
  | 14 => ⟨S400000, .i1⟩
  | 15 => ⟨S_, .i32⟩
  | 16 => ⟨S400000, .i32⟩
  | 17 => ⟨S400000, .i32⟩
  | 18 => ⟨S400000, .i32⟩
  | 19 => ⟨S400000x1, .i32⟩
  | 20 => ⟨S400000x128, .f32⟩
  | 21 => ⟨S400000x128, .f32⟩
  | 22 => ⟨S_, .f32⟩
  | 23 => ⟨S200000x128, .f32⟩
  | 24 => ⟨S400000x1, .i32⟩
  | 25 => ⟨S200000x128, .f32⟩
  | 26 => ⟨S200000x128, .f32⟩
  | 27 => ⟨S200000x1, .f32⟩
  | 28 => ⟨S200000x128, .f32⟩
  | 29 => ⟨S200000x128, .f32⟩
  | 30 => ⟨S1x128x128, .f32⟩
  | 31 => ⟨S128x128, .f32⟩
  | 32 => ⟨S200000x128, .f32⟩
  | 33 => ⟨S1x128, .f32⟩
  | 34 => ⟨S128, .f32⟩
  | 35 => ⟨S1x128, .f32⟩
  | 36 => ⟨S200000x128, .f32⟩
  | 37 => ⟨S200000x128, .f32⟩
  | 38 => ⟨S_, .f32⟩
  | 39 => ⟨S128, .f32⟩
  | 40 => ⟨S_, .f32⟩
  | 41 => ⟨S128, .f32⟩
  | 42 => ⟨S128, .f32⟩
  | 43 => ⟨S_, .i32⟩
  | 44 => ⟨S_, .f32⟩
  | 45 => ⟨S128, .f32⟩
  | 46 => ⟨S1x128, .f32⟩
  | 47 => ⟨S_, .f32⟩
  | 48 => ⟨S1x128, .f32⟩
  | 49 => ⟨S1x128, .f32⟩
  | 50 => ⟨S200000x128, .f32⟩
  | 51 => ⟨S200000x128, .f32⟩
  | 52 => ⟨S200000x128, .f32⟩
  | 53 => ⟨S_, .f32⟩
  | 54 => ⟨S_, .f32⟩
  | 55 => ⟨S_, .f32⟩
  | 56 => ⟨S_, .f32⟩
  | 57 => ⟨S128, .f32⟩
  | 58 => ⟨S128, .f32⟩
  | 59 => ⟨S128, .f32⟩
  | 60 => ⟨S_, .f32⟩
  | 61 => ⟨S_, .i1⟩
  | 62 => ⟨S_, .f32⟩
  | 63 => ⟨S_, .f32⟩
  | 64 => ⟨S128, .f32⟩
  | 65 => ⟨S128, .f32⟩
  | 66 => ⟨S1x128, .f32⟩
  | 67 => ⟨S200000x128, .f32⟩
  | 68 => ⟨S200000x128, .f32⟩
  | 69 => ⟨S_, .f32⟩
  | 70 => ⟨S128, .f32⟩
  | 71 => ⟨S128, .f32⟩
  | 72 => ⟨S128, .f32⟩
  | 73 => ⟨S1x128, .f32⟩
  | 74 => ⟨S200000x128, .f32⟩
  | 75 => ⟨S200000x128, .f32⟩
  | 76 => ⟨S1x128, .f32⟩
  | 77 => ⟨S128, .f32⟩
  | 78 => ⟨S1x128, .f32⟩
  | 79 => ⟨S200000x128, .f32⟩
  | 80 => ⟨S200000x128, .f32⟩
  | 81 => ⟨S1x128, .f32⟩
  | 82 => ⟨S128, .f32⟩
  | 83 => ⟨S1x128, .f32⟩
  | 84 => ⟨S200000x128, .f32⟩
  | 85 => ⟨S200000x128, .f32⟩
  | 86 => ⟨S_, .f32⟩
  | 87 => ⟨S200000x128, .f32⟩
  | 88 => ⟨S200000x128, .f32⟩
  | 89 => ⟨S_, .f32⟩
  | 90 => ⟨S200000, .f32⟩
  | 91 => ⟨S_, .f32⟩
  | 92 => ⟨S1000, .f32⟩
  | 93 => ⟨S200000x1, .i32⟩
  | 94 => ⟨S1000, .f32⟩
  | 95 => ⟨S_, .f32⟩
  | 96 => ⟨S1000x128, .f32⟩
  | 97 => ⟨S200000x1, .i32⟩
  | 98 => ⟨S1000x128, .f32⟩
  | 99 => ⟨S_, .f32⟩
  | 100 => ⟨S1000, .f32⟩
  | 101 => ⟨S1000, .f32⟩
  | 102 => ⟨S1000x1, .f32⟩
  | 103 => ⟨S1000x128, .f32⟩
  | 104 => ⟨S1000x128, .f32⟩
  | 105 => ⟨S1000x128, .f32⟩
  | 106 => ⟨S1x128, .f32⟩
  | 107 => ⟨S1000x128, .f32⟩
  | 108 => ⟨S1000x128, .f32⟩
  | 109 => ⟨S_, .f32⟩
  | 110 => ⟨S1000x128, .f32⟩
  | 111 => ⟨S1000x128, .f32⟩
  | 112 => ⟨S1000x128, .f32⟩
  | 113 => ⟨S1x128, .f32⟩
  | 114 => ⟨S1000x128, .f32⟩
  | 115 => ⟨S1000x128, .f32⟩
  | _ => ⟨S200000, .i32⟩

abbrev hbmTy (i : Nat) : BufTy := match i / 128 with
  | 0 => hbmTy0_0 i
  | 1 => hbmTy0_1 i
  | 2 => hbmTy0_2 i
  | 3 => hbmTy0_3 i
  | _ => ⟨S200000, .i32⟩

abbrev bufTy : (tb : Table) → Fin (tcTables nBuf tb) → BufTy
  | .hbm, ⟨i, _⟩ => hbmTy i
  | _, _ => ⟨S200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_cst_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_cst_1 : Ref sig .tc := ⟨.hbm, 86, rfl⟩
abbrev main_call0_v8 : Ref sig .tc := ⟨.hbm, 87, rfl⟩
abbrev main_call0_cst_2 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_cst_3 : Ref sig .tc := ⟨.hbm, 92, rfl⟩
abbrev main_call0_v12 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_11 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_call1_cst : Ref sig .tc := ⟨.hbm, 118, rfl⟩
abbrev main_call1_v0 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_c_12 : Ref sig .tc := ⟨.hbm, 123, rfl⟩
abbrev main_v71 : Ref sig .tc := ⟨.hbm, 124, rfl⟩
abbrev main_v72 : Ref sig .tc := ⟨.hbm, 125, rfl⟩
abbrev main_c_13 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_c_14 : Ref sig .tc := ⟨.hbm, 132, rfl⟩
abbrev main_v78 : Ref sig .tc := ⟨.hbm, 133, rfl⟩
abbrev main_v79 : Ref sig .tc := ⟨.hbm, 134, rfl⟩
abbrev main_c_15 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_16 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_cst_17 : Ref sig .tc := ⟨.hbm, 158, rfl⟩
abbrev main_v101 : Ref sig .tc := ⟨.hbm, 159, rfl⟩
abbrev main_cst_18 : Ref sig .tc := ⟨.hbm, 160, rfl⟩
abbrev main_v102 : Ref sig .tc := ⟨.hbm, 161, rfl⟩
abbrev main_v103 : Ref sig .tc := ⟨.hbm, 162, rfl⟩
abbrev main_c_19 : Ref sig .tc := ⟨.hbm, 163, rfl⟩
abbrev main_call2_cst : Ref sig .tc := ⟨.hbm, 164, rfl⟩
abbrev main_call2_v0 : Ref sig .tc := ⟨.hbm, 165, rfl⟩
abbrev main_call2_v1 : Ref sig .tc := ⟨.hbm, 166, rfl⟩
abbrev main_call2_cst_0 : Ref sig .tc := ⟨.hbm, 167, rfl⟩
abbrev main_call2_v2 : Ref sig .tc := ⟨.hbm, 168, rfl⟩
abbrev main_call2_v3 : Ref sig .tc := ⟨.hbm, 169, rfl⟩
abbrev main_call2_v4 : Ref sig .tc := ⟨.hbm, 170, rfl⟩
abbrev main_call2_v5 : Ref sig .tc := ⟨.hbm, 171, rfl⟩
abbrev main_call2_v6 : Ref sig .tc := ⟨.hbm, 172, rfl⟩
abbrev main_call2_v7 : Ref sig .tc := ⟨.hbm, 173, rfl⟩
abbrev main_call2_cst_1 : Ref sig .tc := ⟨.hbm, 174, rfl⟩
abbrev main_call2_v8 : Ref sig .tc := ⟨.hbm, 175, rfl⟩
abbrev main_call2_cst_2 : Ref sig .tc := ⟨.hbm, 176, rfl⟩
abbrev main_call2_v9 : Ref sig .tc := ⟨.hbm, 177, rfl⟩
abbrev main_call2_v10 : Ref sig .tc := ⟨.hbm, 178, rfl⟩
abbrev main_call2_v11 : Ref sig .tc := ⟨.hbm, 179, rfl⟩
abbrev main_call2_cst_3 : Ref sig .tc := ⟨.hbm, 180, rfl⟩
abbrev main_call2_v12 : Ref sig .tc := ⟨.hbm, 181, rfl⟩
abbrev main_call2_cst_4 : Ref sig .tc := ⟨.hbm, 182, rfl⟩
abbrev main_call2_call0_v0 : Ref sig .tc := ⟨.hbm, 183, rfl⟩
abbrev main_call2_call0_v1 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_cst_20 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_call3_cst : Ref sig .tc := ⟨.hbm, 206, rfl⟩
abbrev main_call3_v0 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_c_21 : Ref sig .tc := ⟨.hbm, 211, rfl⟩
abbrev main_v127 : Ref sig .tc := ⟨.hbm, 212, rfl⟩
abbrev main_v128 : Ref sig .tc := ⟨.hbm, 213, rfl⟩
abbrev main_c_22 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_c_23 : Ref sig .tc := ⟨.hbm, 220, rfl⟩
abbrev main_v134 : Ref sig .tc := ⟨.hbm, 221, rfl⟩
abbrev main_v135 : Ref sig .tc := ⟨.hbm, 222, rfl⟩
abbrev main_c_24 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_cst_25 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_cst_26 : Ref sig .tc := ⟨.hbm, 246, rfl⟩
abbrev main_v157 : Ref sig .tc := ⟨.hbm, 247, rfl⟩
abbrev main_cst_27 : Ref sig .tc := ⟨.hbm, 248, rfl⟩
abbrev main_v158 : Ref sig .tc := ⟨.hbm, 249, rfl⟩
abbrev main_v159 : Ref sig .tc := ⟨.hbm, 250, rfl⟩
abbrev main_c_28 : Ref sig .tc := ⟨.hbm, 251, rfl⟩
abbrev main_call4_cst : Ref sig .tc := ⟨.hbm, 252, rfl⟩
abbrev main_call4_v0 : Ref sig .tc := ⟨.hbm, 253, rfl⟩
abbrev main_call4_v1 : Ref sig .tc := ⟨.hbm, 254, rfl⟩
abbrev main_call4_cst_0 : Ref sig .tc := ⟨.hbm, 255, rfl⟩
abbrev main_call4_v2 : Ref sig .tc := ⟨.hbm, 256, rfl⟩
abbrev main_call4_v3 : Ref sig .tc := ⟨.hbm, 257, rfl⟩
abbrev main_call4_v4 : Ref sig .tc := ⟨.hbm, 258, rfl⟩
abbrev main_call4_v5 : Ref sig .tc := ⟨.hbm, 259, rfl⟩
abbrev main_call4_v6 : Ref sig .tc := ⟨.hbm, 260, rfl⟩
abbrev main_call4_v7 : Ref sig .tc := ⟨.hbm, 261, rfl⟩
abbrev main_call4_cst_1 : Ref sig .tc := ⟨.hbm, 262, rfl⟩
abbrev main_call4_v8 : Ref sig .tc := ⟨.hbm, 263, rfl⟩
abbrev main_call4_cst_2 : Ref sig .tc := ⟨.hbm, 264, rfl⟩
abbrev main_call4_v9 : Ref sig .tc := ⟨.hbm, 265, rfl⟩
abbrev main_call4_v10 : Ref sig .tc := ⟨.hbm, 266, rfl⟩
abbrev main_call4_v11 : Ref sig .tc := ⟨.hbm, 267, rfl⟩
abbrev main_call4_cst_3 : Ref sig .tc := ⟨.hbm, 268, rfl⟩
abbrev main_call4_v12 : Ref sig .tc := ⟨.hbm, 269, rfl⟩
abbrev main_call4_cst_4 : Ref sig .tc := ⟨.hbm, 270, rfl⟩
abbrev main_call4_call0_v0 : Ref sig .tc := ⟨.hbm, 271, rfl⟩
abbrev main_call4_call0_v1 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_v163 : Ref sig .tc := ⟨.hbm, 276, rfl⟩
abbrev main_cst_29 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_v168 : Ref sig .tc := ⟨.hbm, 282, rfl⟩
abbrev main_v169 : Ref sig .tc := ⟨.hbm, 283, rfl⟩
abbrev main_v170 : Ref sig .tc := ⟨.hbm, 284, rfl⟩
abbrev main_v171 : Ref sig .tc := ⟨.hbm, 285, rfl⟩
abbrev main_v172 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_v176 : Ref sig .tc := ⟨.hbm, 290, rfl⟩
abbrev main_v177 : Ref sig .tc := ⟨.hbm, 291, rfl⟩
abbrev main_v178 : Ref sig .tc := ⟨.hbm, 292, rfl⟩
abbrev main_v179 : Ref sig .tc := ⟨.hbm, 293, rfl⟩
abbrev main_call5_cst : Ref sig .tc := ⟨.hbm, 294, rfl⟩
abbrev main_call5_v0 : Ref sig .tc := ⟨.hbm, 295, rfl⟩
abbrev main_v180 : Ref sig .tc := ⟨.hbm, 296, rfl⟩
abbrev main_v181 : Ref sig .tc := ⟨.hbm, 297, rfl⟩
abbrev main_v182 : Ref sig .tc := ⟨.hbm, 298, rfl⟩
abbrev main_c_30 : Ref sig .tc := ⟨.hbm, 299, rfl⟩
abbrev main_v183 : Ref sig .tc := ⟨.hbm, 300, rfl⟩
abbrev main_v184 : Ref sig .tc := ⟨.hbm, 301, rfl⟩
abbrev main_c_31 : Ref sig .tc := ⟨.hbm, 302, rfl⟩
abbrev main_v185 : Ref sig .tc := ⟨.hbm, 303, rfl⟩
abbrev main_v186 : Ref sig .tc := ⟨.hbm, 304, rfl⟩
abbrev main_v187 : Ref sig .tc := ⟨.hbm, 305, rfl⟩
abbrev main_v188 : Ref sig .tc := ⟨.hbm, 306, rfl⟩
abbrev main_v189 : Ref sig .tc := ⟨.hbm, 307, rfl⟩
abbrev main_c_32 : Ref sig .tc := ⟨.hbm, 308, rfl⟩
abbrev main_v190 : Ref sig .tc := ⟨.hbm, 309, rfl⟩
abbrev main_v191 : Ref sig .tc := ⟨.hbm, 310, rfl⟩
abbrev main_c_33 : Ref sig .tc := ⟨.hbm, 311, rfl⟩
abbrev main_v192 : Ref sig .tc := ⟨.hbm, 312, rfl⟩
abbrev main_v193 : Ref sig .tc := ⟨.hbm, 313, rfl⟩
abbrev main_v194 : Ref sig .tc := ⟨.hbm, 314, rfl⟩
abbrev main_v195 : Ref sig .tc := ⟨.hbm, 315, rfl⟩
abbrev main_v196 : Ref sig .tc := ⟨.hbm, 316, rfl⟩
abbrev main_v197 : Ref sig .tc := ⟨.hbm, 317, rfl⟩
abbrev main_cst_34 : Ref sig .tc := ⟨.hbm, 318, rfl⟩
abbrev main_v198 : Ref sig .tc := ⟨.hbm, 319, rfl⟩
abbrev main_v199 : Ref sig .tc := ⟨.hbm, 320, rfl⟩
abbrev main_v200 : Ref sig .tc := ⟨.hbm, 321, rfl⟩
abbrev main_v201 : Ref sig .tc := ⟨.hbm, 322, rfl⟩
abbrev main_v202 : Ref sig .tc := ⟨.hbm, 323, rfl⟩
abbrev main_v203 : Ref sig .tc := ⟨.hbm, 324, rfl⟩
abbrev main_v204 : Ref sig .tc := ⟨.hbm, 325, rfl⟩
abbrev main_v205 : Ref sig .tc := ⟨.hbm, 326, rfl⟩
abbrev main_v206 : Ref sig .tc := ⟨.hbm, 327, rfl⟩
abbrev main_v207 : Ref sig .tc := ⟨.hbm, 328, rfl⟩
abbrev main_v208 : Ref sig .tc := ⟨.hbm, 329, rfl⟩
abbrev main_v209 : Ref sig .tc := ⟨.hbm, 330, rfl⟩
abbrev main_v210 : Ref sig .tc := ⟨.hbm, 331, rfl⟩
abbrev main_v211 : Ref sig .tc := ⟨.hbm, 332, rfl⟩
abbrev main_v212 : Ref sig .tc := ⟨.hbm, 333, rfl⟩
abbrev main_cst_35 : Ref sig .tc := ⟨.hbm, 334, rfl⟩
abbrev main_v213 : Ref sig .tc := ⟨.hbm, 335, rfl⟩
abbrev main_cst_36 : Ref sig .tc := ⟨.hbm, 336, rfl⟩
abbrev main_v214 : Ref sig .tc := ⟨.hbm, 337, rfl⟩
abbrev main_v215 : Ref sig .tc := ⟨.hbm, 338, rfl⟩
abbrev main_c_37 : Ref sig .tc := ⟨.hbm, 339, rfl⟩
abbrev main_call6_cst : Ref sig .tc := ⟨.hbm, 340, rfl⟩
abbrev main_call6_v0 : Ref sig .tc := ⟨.hbm, 341, rfl⟩
abbrev main_call6_v1 : Ref sig .tc := ⟨.hbm, 342, rfl⟩
abbrev main_call6_cst_0 : Ref sig .tc := ⟨.hbm, 343, rfl⟩
abbrev main_call6_v2 : Ref sig .tc := ⟨.hbm, 344, rfl⟩
abbrev main_call6_v3 : Ref sig .tc := ⟨.hbm, 345, rfl⟩
abbrev main_call6_v4 : Ref sig .tc := ⟨.hbm, 346, rfl⟩
abbrev main_call6_v5 : Ref sig .tc := ⟨.hbm, 347, rfl⟩
abbrev main_call6_v6 : Ref sig .tc := ⟨.hbm, 348, rfl⟩
abbrev main_call6_v7 : Ref sig .tc := ⟨.hbm, 349, rfl⟩
abbrev main_call6_cst_1 : Ref sig .tc := ⟨.hbm, 350, rfl⟩
abbrev main_call6_v8 : Ref sig .tc := ⟨.hbm, 351, rfl⟩
abbrev main_call6_cst_2 : Ref sig .tc := ⟨.hbm, 352, rfl⟩
abbrev main_call6_v9 : Ref sig .tc := ⟨.hbm, 353, rfl⟩
abbrev main_call6_v10 : Ref sig .tc := ⟨.hbm, 354, rfl⟩
abbrev main_call6_v11 : Ref sig .tc := ⟨.hbm, 355, rfl⟩
abbrev main_call6_cst_3 : Ref sig .tc := ⟨.hbm, 356, rfl⟩
abbrev main_call6_v12 : Ref sig .tc := ⟨.hbm, 357, rfl⟩
abbrev main_call6_cst_4 : Ref sig .tc := ⟨.hbm, 358, rfl⟩
abbrev main_call6_call0_v0 : Ref sig .tc := ⟨.hbm, 359, rfl⟩
abbrev main_call6_call0_v1 : Ref sig .tc := ⟨.hbm, 360, rfl⟩
abbrev main_v216 : Ref sig .tc := ⟨.hbm, 361, rfl⟩
abbrev main_v217 : Ref sig .tc := ⟨.hbm, 362, rfl⟩
abbrev main_v218 : Ref sig .tc := ⟨.hbm, 363, rfl⟩
abbrev main_v219 : Ref sig .tc := ⟨.hbm, 364, rfl⟩
abbrev main_cst_38 : Ref sig .tc := ⟨.hbm, 365, rfl⟩
abbrev main_v220 : Ref sig .tc := ⟨.hbm, 366, rfl⟩
abbrev main_v221 : Ref sig .tc := ⟨.hbm, 367, rfl⟩
abbrev main_v222 : Ref sig .tc := ⟨.hbm, 368, rfl⟩
abbrev main_v223 : Ref sig .tc := ⟨.hbm, 369, rfl⟩
abbrev main_v224 : Ref sig .tc := ⟨.hbm, 370, rfl⟩
abbrev main_v225 : Ref sig .tc := ⟨.hbm, 371, rfl⟩
abbrev main_v226 : Ref sig .tc := ⟨.hbm, 372, rfl⟩
abbrev main_v227 : Ref sig .tc := ⟨.hbm, 373, rfl⟩
abbrev main_v228 : Ref sig .tc := ⟨.hbm, 374, rfl⟩
abbrev main_v229 : Ref sig .tc := ⟨.hbm, 375, rfl⟩
abbrev main_v230 : Ref sig .tc := ⟨.hbm, 376, rfl⟩
abbrev main_v231 : Ref sig .tc := ⟨.hbm, 377, rfl⟩
abbrev main_v232 : Ref sig .tc := ⟨.hbm, 378, rfl⟩
abbrev main_v233 : Ref sig .tc := ⟨.hbm, 379, rfl⟩
abbrev main_v234 : Ref sig .tc := ⟨.hbm, 380, rfl⟩
abbrev main_v235 : Ref sig .tc := ⟨.hbm, 381, rfl⟩
abbrev main_call7_cst : Ref sig .tc := ⟨.hbm, 382, rfl⟩
abbrev main_call7_v0 : Ref sig .tc := ⟨.hbm, 383, rfl⟩
abbrev main_v236 : Ref sig .tc := ⟨.hbm, 384, rfl⟩
abbrev main_v237 : Ref sig .tc := ⟨.hbm, 385, rfl⟩
abbrev main_v238 : Ref sig .tc := ⟨.hbm, 386, rfl⟩
abbrev main_c_39 : Ref sig .tc := ⟨.hbm, 387, rfl⟩
abbrev main_v239 : Ref sig .tc := ⟨.hbm, 388, rfl⟩
abbrev main_v240 : Ref sig .tc := ⟨.hbm, 389, rfl⟩
abbrev main_c_40 : Ref sig .tc := ⟨.hbm, 390, rfl⟩
abbrev main_v241 : Ref sig .tc := ⟨.hbm, 391, rfl⟩
abbrev main_v242 : Ref sig .tc := ⟨.hbm, 392, rfl⟩
abbrev main_v243 : Ref sig .tc := ⟨.hbm, 393, rfl⟩
abbrev main_v244 : Ref sig .tc := ⟨.hbm, 394, rfl⟩
abbrev main_v245 : Ref sig .tc := ⟨.hbm, 395, rfl⟩
abbrev main_c_41 : Ref sig .tc := ⟨.hbm, 396, rfl⟩
abbrev main_v246 : Ref sig .tc := ⟨.hbm, 397, rfl⟩
abbrev main_v247 : Ref sig .tc := ⟨.hbm, 398, rfl⟩
abbrev main_c_42 : Ref sig .tc := ⟨.hbm, 399, rfl⟩
abbrev main_v248 : Ref sig .tc := ⟨.hbm, 400, rfl⟩
abbrev main_v249 : Ref sig .tc := ⟨.hbm, 401, rfl⟩
abbrev main_v250 : Ref sig .tc := ⟨.hbm, 402, rfl⟩
abbrev main_v251 : Ref sig .tc := ⟨.hbm, 403, rfl⟩
abbrev main_v252 : Ref sig .tc := ⟨.hbm, 404, rfl⟩
abbrev main_v253 : Ref sig .tc := ⟨.hbm, 405, rfl⟩
abbrev main_cst_43 : Ref sig .tc := ⟨.hbm, 406, rfl⟩
abbrev main_v254 : Ref sig .tc := ⟨.hbm, 407, rfl⟩
abbrev main_v255 : Ref sig .tc := ⟨.hbm, 408, rfl⟩
abbrev main_v256 : Ref sig .tc := ⟨.hbm, 409, rfl⟩
abbrev main_v257 : Ref sig .tc := ⟨.hbm, 410, rfl⟩
abbrev main_v258 : Ref sig .tc := ⟨.hbm, 411, rfl⟩
abbrev main_v259 : Ref sig .tc := ⟨.hbm, 412, rfl⟩
abbrev main_v260 : Ref sig .tc := ⟨.hbm, 413, rfl⟩
abbrev main_v261 : Ref sig .tc := ⟨.hbm, 414, rfl⟩
abbrev main_v262 : Ref sig .tc := ⟨.hbm, 415, rfl⟩
abbrev main_v263 : Ref sig .tc := ⟨.hbm, 416, rfl⟩
abbrev main_v264 : Ref sig .tc := ⟨.hbm, 417, rfl⟩
abbrev main_v265 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_44 : Ref sig .tc := ⟨.hbm, 422, rfl⟩
abbrev main_v269 : Ref sig .tc := ⟨.hbm, 423, rfl⟩
abbrev main_cst_45 : Ref sig .tc := ⟨.hbm, 424, rfl⟩
abbrev main_v270 : Ref sig .tc := ⟨.hbm, 425, rfl⟩
abbrev main_v271 : Ref sig .tc := ⟨.hbm, 426, rfl⟩
abbrev main_c_46 : Ref sig .tc := ⟨.hbm, 427, rfl⟩
abbrev main_call8_cst : Ref sig .tc := ⟨.hbm, 428, rfl⟩
abbrev main_call8_v0 : Ref sig .tc := ⟨.hbm, 429, rfl⟩
abbrev main_call8_v1 : Ref sig .tc := ⟨.hbm, 430, rfl⟩
abbrev main_call8_cst_0 : Ref sig .tc := ⟨.hbm, 431, rfl⟩
abbrev main_call8_v2 : Ref sig .tc := ⟨.hbm, 432, rfl⟩
abbrev main_call8_v3 : Ref sig .tc := ⟨.hbm, 433, rfl⟩
abbrev main_call8_v4 : Ref sig .tc := ⟨.hbm, 434, rfl⟩
abbrev main_call8_v5 : Ref sig .tc := ⟨.hbm, 435, rfl⟩
abbrev main_call8_v6 : Ref sig .tc := ⟨.hbm, 436, rfl⟩
abbrev main_call8_v7 : Ref sig .tc := ⟨.hbm, 437, rfl⟩
abbrev main_call8_cst_1 : Ref sig .tc := ⟨.hbm, 438, rfl⟩
abbrev main_call8_v8 : Ref sig .tc := ⟨.hbm, 439, rfl⟩
abbrev main_call8_cst_2 : Ref sig .tc := ⟨.hbm, 440, rfl⟩
abbrev main_call8_v9 : Ref sig .tc := ⟨.hbm, 441, rfl⟩
abbrev main_call8_v10 : Ref sig .tc := ⟨.hbm, 442, rfl⟩
abbrev main_call8_v11 : Ref sig .tc := ⟨.hbm, 443, rfl⟩
abbrev main_call8_cst_3 : Ref sig .tc := ⟨.hbm, 444, rfl⟩
abbrev main_call8_v12 : Ref sig .tc := ⟨.hbm, 445, rfl⟩
abbrev main_call8_cst_4 : Ref sig .tc := ⟨.hbm, 446, rfl⟩
abbrev main_call8_call0_v0 : Ref sig .tc := ⟨.hbm, 447, rfl⟩
abbrev main_call8_call0_v1 : Ref sig .tc := ⟨.hbm, 448, rfl⟩
abbrev main_v272 : Ref sig .tc := ⟨.hbm, 449, rfl⟩
abbrev main_v273 : Ref sig .tc := ⟨.hbm, 450, rfl⟩
abbrev main_v274 : Ref sig .tc := ⟨.hbm, 451, rfl⟩
abbrev main_v275 : Ref sig .tc := ⟨.hbm, 452, rfl⟩
abbrev main_cst_47 : Ref sig .tc := ⟨.hbm, 453, rfl⟩
abbrev main_v276 : Ref sig .tc := ⟨.hbm, 454, rfl⟩
abbrev main_v277 : Ref sig .tc := ⟨.hbm, 455, rfl⟩
abbrev main_v278 : Ref sig .tc := ⟨.hbm, 456, rfl⟩
abbrev main_v279 : Ref sig .tc := ⟨.hbm, 457, rfl⟩
abbrev main_v280 : Ref sig .tc := ⟨.hbm, 458, rfl⟩
abbrev main_v281 : Ref sig .tc := ⟨.hbm, 459, rfl⟩
abbrev main_v282 : Ref sig .tc := ⟨.hbm, 460, rfl⟩
abbrev main_v283 : Ref sig .tc := ⟨.hbm, 461, rfl⟩
abbrev main_v284 : Ref sig .tc := ⟨.hbm, 462, rfl⟩
abbrev main_v285 : Ref sig .tc := ⟨.hbm, 463, rfl⟩
abbrev main_v286 : Ref sig .tc := ⟨.hbm, 464, rfl⟩
abbrev main_v287 : Ref sig .tc := ⟨.hbm, 465, rfl⟩
abbrev main_v288 : Ref sig .tc := ⟨.hbm, 466, rfl⟩
abbrev main_v289 : Ref sig .tc := ⟨.hbm, 467, rfl⟩
abbrev main_v290 : Ref sig .tc := ⟨.hbm, 468, rfl⟩
abbrev main_v291 : Ref sig .tc := ⟨.hbm, 469, rfl⟩
abbrev main_call9_cst : Ref sig .tc := ⟨.hbm, 470, rfl⟩
abbrev main_call9_v0 : Ref sig .tc := ⟨.hbm, 471, rfl⟩
abbrev main_v292 : Ref sig .tc := ⟨.hbm, 472, rfl⟩
abbrev main_cst_48 : Ref sig .tc := ⟨.hbm, 473, rfl⟩
abbrev main_v293 : Ref sig .tc := ⟨.hbm, 474, rfl⟩
abbrev main_cst_49 : Ref sig .tc := ⟨.hbm, 475, rfl⟩
abbrev main_v294 : Ref sig .tc := ⟨.hbm, 476, rfl⟩
abbrev main_v295 : Ref sig .tc := ⟨.hbm, 477, rfl⟩
abbrev main_v296 : Ref sig .tc := ⟨.hbm, 478, rfl⟩
abbrev main_cst_50 : Ref sig .tc := ⟨.hbm, 479, rfl⟩
abbrev main_v297 : Ref sig .tc := ⟨.hbm, 480, rfl⟩
abbrev main_v298 : Ref sig .tc := ⟨.hbm, 481, rfl⟩
abbrev main_v299 : Ref sig .tc := ⟨.hbm, 482, rfl⟩
abbrev main_cst_51 : Ref sig .tc := ⟨.hbm, 483, rfl⟩
abbrev main_v300 : Ref sig .tc := ⟨.hbm, 484, rfl⟩
abbrev main_v301 : Ref sig .tc := ⟨.hbm, 485, rfl⟩
abbrev main_v302 : Ref sig .tc := ⟨.hbm, 486, rfl⟩
abbrev main_v303 : Ref sig .tc := ⟨.hbm, 487, rfl⟩
abbrev main_v304 : Ref sig .tc := ⟨.hbm, 488, rfl⟩
abbrev main_v305 : Ref sig .tc := ⟨.hbm, 489, rfl⟩
abbrev main_v306 : Ref sig .tc := ⟨.hbm, 490, rfl⟩
abbrev main_v307 : Ref sig .tc := ⟨.hbm, 491, rfl⟩
abbrev main_v308 : Ref sig .tc := ⟨.hbm, 492, rfl⟩
abbrev main_call10_cst : Ref sig .tc := ⟨.hbm, 493, rfl⟩
abbrev main_call10_v0 : Ref sig .tc := ⟨.hbm, 494, rfl⟩
abbrev main_v309 : Ref sig .tc := ⟨.hbm, 495, rfl⟩
abbrev main_v310 : Ref sig .tc := ⟨.hbm, 496, rfl⟩
abbrev main_v311 : Ref sig .tc := ⟨.hbm, 497, rfl⟩
abbrev main_v312 : Ref sig .tc := ⟨.hbm, 498, rfl⟩
abbrev main_v313 : Ref sig .tc := ⟨.hbm, 499, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S400000 : S_.BroadcastsInDim S400000 (![] : Fin 0 → Fin S400000.rank)
  bcast_S400000_S400000x1_0 : S400000.BroadcastsInDim S400000x1 (![0] : Fin 1 → Fin S400000x1.rank)
  slices_S5x5x128_S1x5x128_0_0_0 : S5x5x128.Slices ![0, 0, 0] S1x5x128
  shapeCasts_S1x5x128_S5x128 : S1x5x128.ShapeCasts S5x128
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  reducesTo_S200000x128_S128_d0 : S200000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S5x5x128_S1x5x128_1_0_0 : S5x5x128.Slices ![1, 0, 0] S1x5x128
  slices_S5x128x128_S1x128x128_1_0_0 : S5x128x128.Slices ![1, 0, 0] S1x128x128
  slices_S5x128_S1x128_1_0 : S5x128.Slices ![1, 0] S1x128
  slices_S5x5x128_S1x5x128_2_0_0 : S5x5x128.Slices ![2, 0, 0] S1x5x128
  slices_S5x128x128_S1x128x128_2_0_0 : S5x128x128.Slices ![2, 0, 0] S1x128x128
  slices_S5x128_S1x128_2_0 : S5x128.Slices ![2, 0] S1x128
  slices_S5x5x128_S1x5x128_3_0_0 : S5x5x128.Slices ![3, 0, 0] S1x5x128
  slices_S5x128x128_S1x128x128_3_0_0 : S5x128x128.Slices ![3, 0, 0] S1x128x128
  slices_S5x128_S1x128_3_0 : S5x128.Slices ![3, 0] S1x128
  slices_S5x5x128_S1x5x128_4_0_0 : S5x5x128.Slices ![4, 0, 0] S1x5x128
  slices_S5x128x128_S1x128x128_4_0_0 : S5x128x128.Slices ![4, 0, 0] S1x128x128
  slices_S5x128_S1x128_4_0 : S5x128.Slices ![4, 0] S1x128
  bcast_S_S1000 : S_.BroadcastsInDim S1000 (![] : Fin 0 → Fin S1000.rank)
  bcast_S_S1000x128 : S_.BroadcastsInDim S1000x128 (![] : Fin 0 → Fin S1000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S1x128_S1000x128_0_1 : S1x128.BroadcastsInDim S1000x128 (![0, 1] : Fin 2 → Fin S1000x128.rank)
  gather_S119x128_S200000x1_S200000x128_1_0_n_n_0_1_1128_wf : GatherDims.WF S119x128 S200000x1 S200000x128 [1] [0] [] [0] [] 1 ![1, 128]
  scatter_S200000_S400000x1_S400000_n_0_0_1_wf : ScatterDims.WF S200000 S400000x1 S400000 [] [0] [0] 1
  gather_S5x128_S400000x1_S400000x128_1_0_n_n_0_1_1128_wf : GatherDims.WF S5x128 S400000x1 S400000x128 [1] [0] [] [0] [] 1 ![1, 128]
  gather_S200000x128_S400000x1_S400000x128_1_0_n_n_0_1_1128_wf : GatherDims.WF S200000x128 S400000x1 S400000x128 [1] [0] [] [0] [] 1 ![1, 128]
  scatter_S200000x128_S400000x1_S400000x128_1_0_0_1_wf : ScatterDims.WF S200000x128 S400000x1 S400000x128 [1] [0] [0] 1
  dot_S200000x128_S128x128_S200000x128_1_0_0_1_n_n_wf : DotDims.WF S200000x128 S128x128 S200000x128 [1] [0] [0] [1] [] []
  scatter_S1000_S200000x1_S200000_n_0_0_1_wf : ScatterDims.WF S1000 S200000x1 S200000 [] [0] [0] 1
  scatter_S1000x128_S200000x1_S200000x128_1_0_0_1_wf : ScatterDims.WF S1000x128 S200000x1 S200000x128 [1] [0] [0] 1
  dot_S1000x128_S128x128_S1000x128_1_0_0_1_n_n_wf : DotDims.WF S1000x128 S128x128 S1000x128 [1] [0] [0] [1] [] []

variable [Facts₀]

def gather_S119x128_S200000x1_S200000x128_1_0_n_n_0_1_1128 : GatherDims S119x128 S200000x1 S200000x128 where
  offsetDims := [1]
  collapsedSliceDims := [0]
  operandBatchingDims := []
  startIndicesBatchingDims := []
  startIndexMap := [0]
  indexVectorDim := 1
  sliceSizes := ![1, 128]
  wf := gather_S119x128_S200000x1_S200000x128_1_0_n_n_0_1_1128_wf
def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def gather_S5x128_S400000x1_S400000x128_1_0_n_n_0_1_1128 : GatherDims S5x128 S400000x1 S400000x128 where
  offsetDims := [1]
  collapsedSliceDims := [0]
  operandBatchingDims := []
  startIndicesBatchingDims := []
  startIndexMap := [0]
  indexVectorDim := 1
  sliceSizes := ![1, 128]
  wf := gather_S5x128_S400000x1_S400000x128_1_0_n_n_0_1_1128_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S1000_S200000x1_S200000_n_0_0_1 : ScatterDims S1000 S200000x1 S200000 where
  updateWindowDims := []
  insertedWindowDims := [0]
  scatterDimsToOperandDims := [0]
  indexVectorDim := 1
  wf := scatter_S1000_S200000x1_S200000_n_0_0_1_wf
def scatter_S1000x128_S200000x1_S200000x128_1_0_0_1 : ScatterDims S1000x128 S200000x1 S200000x128 where
  updateWindowDims := [1]
  insertedWindowDims := [0]
  scatterDimsToOperandDims := [0]
  indexVectorDim := 1
  wf := scatter_S1000x128_S200000x1_S200000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

class Facts : Prop extends Facts₀ where

variable [Facts]
-- ==== Proof.K.BodyLib.lean ====
import proofs.«123582_j22084721836889_2_alg».proof.Proof.Gen.Kernel.Launch
import proofs.«123582_j22084721836889_2_alg».proof.Proof.Gen.Kernel.Skeleton
import proofs.«123582_j22084721836889_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- A buffer held at contents `f` is owned at what the view reads off `f`.
theorem owns_read (c : Dev nD) {sp : Space} {sh : Shape} {e : EltTy} (m : Memref sig .tc sp sh e) (f : m.view.ty.Contents (Elt F)) :
    (m.view.loc (c : Thread nD τ) ↦[m.view.set]{fullShare} f : sProp 𝕄)
      ⊢ iprop(∃ g, ⌜m.view.read (Elt F) g = m.view.read (Elt F) f⌝ ∗ (m.view.loc (c : Thread nD τ) ↦[m.view.set]{fullShare} g)) := by
  iintro H; iexists f; isplitr; · ipureintro; rfl
  iexact H

end Cert.Kernel.Hand

end
-- ==== Proof.K.Lin0.lean ====
import proofs.«123582_j22084721836889_2_alg».proof.Proof.K.BodyLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S4000x128 := Rect.unit (s := S4000x128) ![0, 0] S4000x128.size inb_S4000x128_S4000x128_0_0
abbrev r0_1 : Rect S4000x5 := Rect.unit (s := S4000x5) ![0, 0] S4000x5.size inb_S4000x5_S4000x5_0_0
abbrev r0_2 : Rect S5x128 := Rect.unit (s := S5x128) ![0, 0] S5x128.size inb_S5x128_S5x128_0_0
abbrev r0_3 : Rect S4000x1 := Rect.unit (s := S4000x1) ![0, 0] S4000x1.size inb_S4000x1_S4000x1_0_0
abbrev r0_4 : Rect S128x128 := Rect.unit (s := S128x128) ![0, 0] S128x128.size inb_S128x128_S128x128_0_0
abbrev r0_5 : Rect S1x128 := Rect.unit (s := S1x128) ![0, 0] S1x128.size inb_S1x128_S1x128_0_0

def out0_7 (x0 : Vec F S4000x128 .f32) (x1 : Vec F S4000x128 .f32) (x2 : Vec F S4000x5 .f32) (x3 : Vec F S5x128 .f32)
    (x4 : Vec F S4000x1 .f32) (x5 : Vec F S128x128 .f32) (x6 : Vec F S1x128 .f32) : Vec F S4000x128 .f32 :=
  View.canon [⟨r0_0, k0_pay1 (View.ld x0 r0_0) (View.ld x1 r0_0) (View.ld x2 r0_1) (View.ld x3 r0_2) (View.ld x4 r0_3) (View.ld x5 r0_4) (View.ld x6 r0_5)⟩]

set_option maxHeartbeats 1000000 in
-- The inputs are only read and the single store covers the whole output block; whatever else is held passes through.
theorem sound_kernel0 (c : Dev nD) (E : Set ℕ) (i : grid0.Coords)
    (arg1 : Memref sig .tc .vmem S4000x128 .f32) (harg1 : arg1.IsWhole) (arg2 : Memref sig .tc .vmem S4000x128 .f32) (harg2 : arg2.IsWhole)
    (arg3 : Memref sig .tc .vmem S4000x5 .f32) (harg3 : arg3.IsWhole) (arg4 : Memref sig .tc .vmem S5x128 .f32) (harg4 : arg4.IsWhole)
    (arg5 : Memref sig .tc .vmem S4000x1 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S4000x128 .f32) (harg8 : arg8.IsWhole)
    (x0 : Vec F S4000x128 .f32) (x1 : Vec F S4000x128 .f32) (x2 : Vec F S4000x5 .f32) (x3 : Vec F S5x128 .f32)
    (x4 : Vec F S4000x1 .f32) (x5 : Vec F S128x128 .f32) (x6 : Vec F S1x128 .f32) (R S : sProp 𝕄)
    {D0 D1 D2 D3 D4 D5 D6 D7 : Type} (g : D7 → Vec F S4000x128 .f32) :
    iprop(R ∗ S ∗ (∃ _ : D0, owns c arg1 fullShare x0) ∗ (∃ _ : D1, owns c arg2 fullShare x1)
        ∗ (∃ _ : D2, owns c arg3 fullShare x2) ∗ (∃ _ : D3, owns c arg4 fullShare x3)
        ∗ (∃ _ : D4, owns c arg5 fullShare x4) ∗ (∃ _ : D5, owns c arg6 fullShare x5)
        ∗ (∃ _ : D6, owns c arg7 fullShare x6)
        ∗ (∃ d, owns c arg8 fullShare (g d)))
      ⊢ wp frame (wpE (defs₀ (F := F)) Variants.none c none) E (cc0__linear_kernel i arg1 harg1 arg2 harg2 arg3 harg3 arg4 harg4 arg5 harg5 arg6 harg6 arg7 harg7 arg8 harg8)
        fun _ => iprop(R ∗ S ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6
          ∗ owns c arg8 fullShare (out0_7 x0 x1 x2 x3 x4 x5 x6)) := by
  simp only [cc0__linear_kernel_eq_skeleton]; unfold cc0__linear_kernel_skel
  unfold owns
  iintro ⟨HR, HS, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%_, %f7, -, H7⟩⟩
  subst hf0; subst hf1; subst hf2; subst hf3; subst hf4; subst hf5; subst hf6
  sl_exec
  sl_step
  isplitl [HR]; · iexact HR
  isplitl [HS]; · iexact HS
  isplitl [H0]; · iapply owns_read; iexact H0
  isplitl [H1]; · iapply owns_read; iexact H1
  isplitl [H2]; · iapply owns_read; iexact H2
  isplitl [H3]; · iapply owns_read; iexact H3
  isplitl [H4]; · iapply owns_read; iexact H4
  isplitl [H5]; · iapply owns_read; iexact H5
  isplitl [H6]; · iapply owns_read; iexact H6
  iexists _; isplitr
  swap; · iexact H7
  ipureintro
  exact View.read_writes_eq_canon _ _ _ (View.cover_of_tiled _ S4000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) (iblk0 V c 6 t) := by dsimp only [dat0]

-- An input's buffer holds its block at every point: where it was not fetched, the block index has not moved.
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ (∀ d, (dat0 V c).before 4 t d = iblk0 V c 4 t) ∧ (∀ d, (dat0 V c).before 5 t d = iblk0 V c 5 t)
      ∧ (∀ d, (dat0 V c).before 6 t d = iblk0 V c 6 t) := by
  refine ⟨?_, ?_, ?_, ?_, ?_, ?_, ?_⟩ <;> intro d <;>
  exact ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  obtain ⟨h0, h1, h2, h3, h4, h5, h6⟩ := before0 V c t
  simp only [h0, h1, h2, h3, h4, h5, h6]
  rw [after0_0, after0_1, after0_2, after0_3, after0_4, after0_5, after0_6, after0_7]
  show _ ⊢ wp frame _ Set.univ (bodyAt0 t) _
  exact sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _ _ _

end Region0

end Cert.Kernel.Hand

end
-- ==== Proof.K.StatsLib.lean ====
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

namespace Cert.Kernel.Hand

open Idealize.ShloMosaic

theorem zero_offs : (![0, 0] : Fin 2 → Nat) = fun _ => 0 := funext fun a => by fin_cases a <;> rfl

-- The last store covers every index of the buffer, so the buffer reads that store's payload.
theorem read_writes_unit {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.Mem.head _, View.mem_set_unit_zero h inb y⟩), View.canon_cons_unit_zero h]

end Cert.Kernel.Hand
-- ==== Proof.K.Stats1.lean ====
import proofs.«123582_j22084721836889_2_alg».proof.Proof.Gen.Kernel.Launch
import proofs.«123582_j22084721836889_2_alg».proof.Proof.Gen.Kernel.Skeleton
import proofs.«123582_j22084721836889_2_alg».proof.Proof.Gen.Kernel.Points
import proofs.«123582_j22084721836889_2_alg».proof.Proof.K.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1_0 (c : Dev nD) : (n : ℕ) → Vec F S1x128 .f32
  | 0 => k1_pay1
  | n + 1 => if h : n < cfg1.N then k1_pay4 (iblk1 V c 0 ⟨n, h⟩) (acc1_0 c n) else acc1_0 c n

def acc1_1 (c : Dev nD) : (n : ℕ) → Vec F S1x128 .f32
  | 0 => k1_pay2
  | n + 1 => if h : n < cfg1.N then k1_pay5 (iblk1 V c 0 ⟨n, h⟩) (acc1_1 c n) else acc1_1 c n

theorem acc1_0_zero (c : Dev nD) (n : ℕ) (h : n = 0) : acc1_0 V c n = k1_pay1 := by subst h; rfl
theorem acc1_1_zero (c : Dev nD) (n : ℕ) (h : n = 0) : acc1_1 V c n = k1_pay2 := by subst h; rfl

theorem acc1_0_succ (c : Dev nD) (t : Fin cfg1.N) : acc1_0 V c (t.val + 1) = k1_pay4 (iblk1 V c 0 t) (acc1_0 V c t.val) := by
  rw [acc1_0]; exact dif_pos t.isLt
theorem acc1_1_succ (c : Dev nD) (t : Fin cfg1.N) : acc1_1 V c (t.val + 1) = k1_pay5 (iblk1 V c 0 t) (acc1_1 V c t.val) := by
  rw [acc1_1]; exact dif_pos t.isLt

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, k1_cond2 (grid1.coords t) = 1#1 ↔ t.val = 49 :=
  (by decide +kernel : ∀ t : Fin grid1.N, k1_cond2 (grid1.coords t) = 1#1 ↔ t.val = 49)

theorem liveAt1_0 : ∀ t : Fin cfg1.N, cfg1.idle 0 (grid1.coords t) = false := fun _ => rfl
theorem idle1 : ∀ t : Fin cfg1.N, ¬k1_cond2 (grid1.coords t) = 1#1 →
    cfg1.idle 1 (grid1.coords t) = true ∧ cfg1.idle 2 (grid1.coords t) = true ∧ (cfg1.win 1).flush t = false ∧ (cfg1.win 2).flush t = false := by
  decide +kernel
theorem live1 : ∀ t : Fin cfg1.N, k1_cond2 (grid1.coords t) = 1#1 → cfg1.idle 1 (grid1.coords t) = false ∧ cfg1.idle 2 (grid1.coords t) = false := by
  decide +kernel

set_option maxHeartbeats 1000000 in
-- The scratch pair restarts from zeros under the first test, takes one step on the block, and is copied out under the second.
theorem sound_kernel1 (c : Dev nD) (E : Set ℕ) (i : grid1.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc : cond1_0 i → ¬k1_cond2 i = 1#1)
    (x : Vec F S4000x128 .f32) (o1 o2 s0 s1 b0 b1 : Vec F S1x128 .f32)
    (hb0 : b0 = if cond1_0 i then k1_pay1 else s0) (hb1 : b1 = if cond1_0 i then k1_pay2 else s1) (K : PUnit → sProp 𝕄) :
    iprop(owns (c : Thread nD τ) arg1 fullShare x ∗ owns (c : Thread nD τ) arg2 fullShare o1 ∗ owns (c : Thread nD τ) arg3 fullShare o2
        ∗ owns (c : Thread nD τ) arg4 fullShare s0 ∗ owns (c : Thread nD τ) arg5 fullShare s1
        ∗ (iprop(owns (c : Thread nD τ) arg1 fullShare x
            ∗ owns (c : Thread nD τ) arg2 fullShare (if k1_cond2 i = 1#1 then k1_pay4 x b0 else o1)
            ∗ owns (c : Thread nD τ) arg3 fullShare (if k1_cond2 i = 1#1 then k1_pay5 x b1 else o2)
            ∗ owns (c : Thread nD τ) arg4 fullShare (k1_pay4 x b0) ∗ owns (c : Thread nD τ) arg5 fullShare (k1_pay5 x b1)) -∗ K ⟨⟩))
      ⊢ wp frame (wpE (defs₀ (F := F)) Variants.none c none) E (cc1__stats_kernel i arg1 harg1 arg2 harg2 arg3 harg3 arg4 harg4 arg5 harg5) K := by
  subst hb0 hb1
  simp only [cc1__stats_kernel_eq_skeleton]; unfold cc1__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  by_cases hc0 : cond1_0 i <;> by_cases hc1 : k1_cond2 i = 1#1
  · exact absurd hc1 (hc hc0)
  all_goals
    sl_exec (disch := first | exact hc0 | exact hc1)
    sl_step
    simp only [hc0, eq_true hc0, hc1, ↓reduceIte]
    iapply Hk
    isplitl [H1]; rotate_left; isplitl [H2]; rotate_left; isplitl [H3]; rotate_left; isplitl [H4]; rotate_left
    all_goals
      iexists _; isplitr; swap
      · first | iexact H1 | iexact H2 | iexact H3 | iexact H4 | iexact H5
      ipureintro
      first
      | with_reducible rfl
      | (sl_unfold_run_names
         simp only [read_writes_unit (S := S1x128) _ _ zero_offs, View.readCov_unit_zero (S := S1x128) _ zero_offs, View.readAt_eq_ld,
           View.ld_unit_zero (S := S4000x128) zero_offs, View.ld_unit_zero (S := S1x128) zero_offs])

abbrev scM1_0 : Memref sig .tc .vmem S1x128 .f32 := Memref.whole cc1_scratch0
abbrev scM1_1 : Memref sig .tc .vmem S1x128 .f32 := Memref.whole cc1_scratch1

abbrev rest1 (c : Dev nD) : sProp 𝕄 :=
  Pipeline.scopedRestBut (Ix := Unit) (Name := ℕ) (U := UR sig nD τ) (Lvl := ℕ) (Val := Elt F) spec1 c [cc1_scratch0, cc1_scratch1]

-- Before point n the scratch pair holds the accumulators over the first n points (anything, before the first point).
def Phi1 (c : Dev nD) (n : ℕ) : sProp 𝕄 :=
  iprop(rest1 (F := F) c ∗ (∃ r, prngReg c r) ∗ ∃ s0 s1, ⌜n ≠ 0 → s0 = acc1_0 V c n ∧ s1 = acc1_1 V c n⌝
    ∗ owns (c : Thread nD τ) scM1_0 fullShare s0 ∗ owns (c : Thread nD τ) scM1_1 fullShare s1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => acc1_0 V c (t.val + 1)
    | ⟨2, _⟩ => acc1_1 V c (t.val + 1)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = acc1_0 V c (t.val + 1) := by dsimp only [dat1]
theorem after1_2 (c : Dev nD) (t : Fin cfg1.N) : (dat1 V c).after 2 t = acc1_1 V c (t.val + 1) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

-- One step of the invariant, at any point.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.castSucc = Phi1 V c t.val from rfl, show (dat1 V c).Φ t.succ = Phi1 V c (t.val + 1) from rfl,
    show (dat1 V c).leavesExact 0 t = owns (c : Thread nD τ) (st1_0 t) fullShare ((dat1 V c).after 0 t) from by
      unfold Dat.leavesExact; rw [liveAt1_0 t], after1_0]
  unfold Phi1
  iintro ⟨⟨Hrest, Hg, %s0, %s1, %hs, HS0, HS1⟩, Ho, ⟨%d0, H0⟩, ⟨%d1, H1⟩, ⟨%d2, H2⟩⟩
  have e0 : acc1_0 V c t.val = (if cond1_0 (grid1.coords t) then k1_pay1 else s0)
      ∧ acc1_1 V c t.val = (if cond1_0 (grid1.coords t) then k1_pay2 else s1) := by
    by_cases h0 : t.val = 0
    · rw [if_pos ((hcond1_0 t).mpr h0), if_pos ((hcond1_0 t).mpr h0), acc1_0_zero V c _ h0, acc1_1_zero V c _ h0]; exact ⟨rfl, rfl⟩
    · rw [if_neg (fun h => h0 ((hcond1_0 t).mp h)), if_neg (fun h => h0 ((hcond1_0 t).mp h))]
      exact ⟨(hs h0).1.symm, (hs h0).2.symm⟩
  iapply (sound_kernel1 c Set.univ (grid1.coords t) _ _ _ _ _ _ _ _ _ _
    (fun h h' => by have := (hcond1_0 t).mp h; have := (hcond1_1 t).mp h'; omega) (iblk1 V c 0 t)
    ((dat1 V c).before 1 t d1) ((dat1 V c).before 2 t d2) s0 s1 _ _ e0.1 e0.2 _)
  rw [← acc1_0_succ, ← acc1_1_succ]
  iframe H0 H1 H2 HS0 HS1
  iintro ⟨H0, H1, H2, HS0, HS1⟩
  iframe Hrest Hg Ho H0
  isplitl [HS0 HS1]
  · iexists acc1_0 V c (t.val + 1), acc1_1 V c (t.val + 1)
    isplitr; · ipureintro; exact fun _ => ⟨rfl, rfl⟩
    iframe
  by_cases hc1 : k1_cond2 (grid1.coords t) = 1#1
  · rw [if_pos hc1, if_pos hc1,
      show (dat1 V c).leavesExact 1 t = owns (c : Thread nD τ) (st1_1 t) fullShare ((dat1 V c).after 1 t) from by
        unfold Dat.leavesExact; rw [(live1 t hc1).1], after1_1,
      show (dat1 V c).leavesExact 2 t = owns (c : Thread nD τ) (st1_2 t) fullShare ((dat1 V c).after 2 t) from by
        unfold Dat.leavesExact; rw [(live1 t hc1).2], after1_2]
    iframe
  · rw [if_neg hc1, if_neg hc1, Dat.leavesExact_idle (dat1 V c) 1 t (idle1 t hc1).1 (idle1 t hc1).2.2.1,
      Dat.leavesExact_idle (dat1 V c) 2 t (idle1 t hc1).2.1 (idle1 t hc1).2.2.2]
    isplitl [H1]; · iexists _; iexact H1
    iexists _; iexact H2

theorem body_obligation1 (c : Dev nD) : BodyObligation (dat1 (F := F) V c) (defs₀ (F := F)) Variants.none () Set.univ := fun t => by
  rw [bigSep_W1, bigSep_W1]
  exact sound_body1 V c t

theorem Phi1_in (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [show (dat1 V c).Φ 0 = Phi1 V c 0 from rfl, scopedRest1_split]
  unfold Phi1
  simp only [scM1_0, scM1_1, owns_whole]
  iintro ⟨Hg, ⟨⟨%s0, HS0⟩, ⟨%s1, HS1⟩⟩, Hrest⟩
  iframe Hg Hrest
  iexists s0, s1
  isplitr; · ipureintro; exact fun h => absurd rfl h
  iframe

-- The accumulators' contents are forgotten.
theorem Phi1_out (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c (Fin.last cfg1.N).val from rfl, scopedRest1_split]
  unfold Phi1
  simp only [scM1_0, scM1_1, owns_whole]
  iintro ⟨Hrest, Hg, %s0, %s1, -, HS0, HS1⟩
  iframe Hrest Hg
  isplitl [HS0]; · iexists _; iexact HS0
  iexists _; iexact HS1

-- The block's offsets in the array are zero on both axes.
theorem off1_1 (t : Fin cfg1.N) : (fun a => (cfg1.win 1).index t a * (cfg1.win 1).size a) = fun _ => 0 :=
  funext fun a => by fin_cases a <;> rfl
theorem off1_2 (t : Fin cfg1.N) : (fun a => (cfg1.win 2).index t a * (cfg1.win 2).size a) = fun _ => 0 :=
  funext fun a => by fin_cases a <;> rfl

theorem mem_blk1_1 (t : Fin cfg1.N) (i : S1x128.Idx) : i ∈ ((cfg1.win 1).blk t).view.set := by
  show i ∈ ((View.whole main_v38_0).slice (win1_1.rect t)).set
  rw [View.set_slice_whole]
  exact View.mem_set_unit_zero (S := S1x128) (off1_1 t) _ i
theorem mem_blk1_2 (t : Fin cfg1.N) (i : S1x128.Idx) : i ∈ ((cfg1.win 2).blk t).view.set := by
  show i ∈ ((View.whole main_v38_1).slice (win1_2.rect t)).set
  rw [View.set_slice_whole]
  exact View.mem_set_unit_zero (S := S1x128) (off1_2 t) _ i

theorem lt49_1 : (49 : ℕ) < cfg1.N := by rw [show cfg1.N = 50 from N_1]; omega
theorem last1 (t : Fin cfg1.N) (h : t.val % 50 = 49) : t.val = 49 := by have := lt_of_lt_of_eq t.isLt N_1; omega

theorem arrAt1_1 (c : Dev nD) : (dat1 V c).arrAt 1 cfg1.N = acc1_0 V c 50 := by
  refine (dat1 V c).arrAt_eq_of_cover 1 (acc1_0 V c 50) (fun t hf => ?_) (fun i => ⟨⟨49, lt49_1⟩, (flush1_1 _).mpr rfl, mem_blk1_1 _ i⟩)
  rw [show ((cfg1.win 1).blk t).view.read (Elt F) _ = _ from View.ld_unit_zero (S := S1x128) (off1_1 t) _ _]
  show (dat1 V c).after 1 t = _
  rw [after1_1, last1 t ((flush1_1 t).mp hf)]

theorem arrAt1_2 (c : Dev nD) : (dat1 V c).arrAt 2 cfg1.N = acc1_1 V c 50 := by
  refine (dat1 V c).arrAt_eq_of_cover 2 (acc1_1 V c 50) (fun t hf => ?_) (fun i => ⟨⟨49, lt49_1⟩, (flush1_2 _).mpr rfl, mem_blk1_2 _ i⟩)
  rw [show ((cfg1.win 2).blk t).view.read (Elt F) _ = _ from View.ld_unit_zero (S := S1x128) (off1_2 t) _ _]
  show (dat1 V c).after 2 t = _
  rw [after1_2, last1 t ((flush1_2 t).mp hf)]

end Cert.Kernel.Hand

end
-- ==== Proof.K.Norm2.lean ====
import proofs.«123582_j22084721836889_2_alg».proof.Proof.K.BodyLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x128 := Rect.unit (s := S4000x128) ![0, 0] S4000x128.size inb_S4000x128_S4000x128_0_0
abbrev r2_1 : Rect S1x128 := Rect.unit (s := S1x128) ![0, 0] S1x128.size inb_S1x128_S1x128_0_0

def out2_3 (x0 : Vec F S4000x128 .f32) (x1 : Vec F S1x128 .f32) (x2 : Vec F S1x128 .f32) : Vec F S4000x128 .bf16 :=
  View.canon [⟨r2_0, k2_pay1 (View.ld x0 r2_0) (View.ld x1 r2_1) (View.ld x2 r2_1)⟩]

set_option maxHeartbeats 1000000 in
-- The inputs are only read and the single store covers the whole output block; whatever else is held passes through.
theorem sound_kernel2 (c : Dev nD) (E : Set ℕ) (i : grid2.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S4000x128 .bf16) (harg4 : arg4.IsWhole)
    (x0 : Vec F S4000x128 .f32) (x1 : Vec F S1x128 .f32) (x2 : Vec F S1x128 .f32) (R S : sProp 𝕄)
    {D0 D1 D2 D3 : Type} (g : D3 → Vec F S4000x128 .bf16) :
    iprop(R ∗ S ∗ (∃ _ : D0, owns c arg1 fullShare x0) ∗ (∃ _ : D1, owns c arg2 fullShare x1)
        ∗ (∃ _ : D2, owns c arg3 fullShare x2)
        ∗ (∃ d, owns c arg4 fullShare (g d)))
      ⊢ wp frame (wpE (defs₀ (F := F)) Variants.none c none) E (cc2__norm_relu_kernel i arg1 harg1 arg2 harg2 arg3 harg3 arg4 harg4)
        fun _ => iprop(R ∗ S ∗ owns c arg1 fullShare x0 ∗ owns c arg2 fullShare x1 ∗ owns c arg3 fullShare x2
          ∗ owns c arg4 fullShare (out2_3 x0 x1 x2)) := by
  simp only [cc2__norm_relu_kernel_eq_skeleton]; unfold cc2__norm_relu_kernel_skel
  unfold owns
  iintro ⟨HR, HS, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HR]; · iexact HR
  isplitl [HS]; · iexact HS
  isplitl [H0]; · iapply owns_read; iexact H0
  isplitl [H1]; · iapply owns_read; iexact H1
  isplitl [H2]; · iapply owns_read; iexact H2
  iexists _; isplitr
  swap; · iexact H3
  ipureintro
  exact View.read_writes_eq_canon _ _ _ (View.cover_of_tiled _ S4000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t =
    out2_3 (iblk2 V c 0 t) (iblk2 V c 1 t) (iblk2 V c 2 t) := by dsimp only [dat2]

-- An input's buffer holds its block at every point: where it was not fetched, the block index has not moved.
theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) := by
  refine ⟨?_, ?_, ?_⟩ <;> intro d <;>
  exact ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  obtain ⟨h0, h1, h2⟩ := before2 V c t
  simp only [h0, h1, h2]
  rw [after2_0, after2_1, after2_2, after2_3]
  show _ ⊢ wp frame _ Set.univ (bodyAt2 t) _
  exact sound_kernel2 c Set.univ _ _ _ _ _ _ _ _ _ (iblk2 V c 0 t) (iblk2 V c 1 t) (iblk2 V c 2 t) _ _ _

end Region2

end Cert.Kernel.Hand

end
-- ==== Proof.K.Lin3.lean ====
import proofs.«123582_j22084721836889_2_alg».proof.Proof.K.BodyLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S4000x128 := Rect.unit (s := S4000x128) ![0, 0] S4000x128.size inb_S4000x128_S4000x128_0_0
abbrev r3_1 : Rect S4000x5 := Rect.unit (s := S4000x5) ![0, 0] S4000x5.size inb_S4000x5_S4000x5_0_0
abbrev r3_2 : Rect S5x128 := Rect.unit (s := S5x128) ![0, 0] S5x128.size inb_S5x128_S5x128_0_0
abbrev r3_3 : Rect S4000x1 := Rect.unit (s := S4000x1) ![0, 0] S4000x1.size inb_S4000x1_S4000x1_0_0
abbrev r3_4 : Rect S128x128 := Rect.unit (s := S128x128) ![0, 0] S128x128.size inb_S128x128_S128x128_0_0
abbrev r3_5 : Rect S1x128 := Rect.unit (s := S1x128) ![0, 0] S1x128.size inb_S1x128_S1x128_0_0

def out3_7 (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) : Vec F S4000x128 .f32 :=
  View.canon [⟨r3_0, k3_pay1 (View.ld x0 r3_0) (View.ld x1 r3_0) (View.ld x2 r3_1) (View.ld x3 r3_2) (View.ld x4 r3_3) (View.ld x5 r3_4) (View.ld x6 r3_5)⟩]

set_option maxHeartbeats 1000000 in
-- The inputs are only read and the single store covers the whole output block; whatever else is held passes through.
theorem sound_kernel3 (c : Dev nD) (E : Set ℕ) (i : grid3.Coords)
    (arg1 : Memref sig .tc .vmem S4000x128 .bf16) (harg1 : arg1.IsWhole) (arg2 : Memref sig .tc .vmem S4000x128 .f32) (harg2 : arg2.IsWhole)
    (arg3 : Memref sig .tc .vmem S4000x5 .f32) (harg3 : arg3.IsWhole) (arg4 : Memref sig .tc .vmem S5x128 .f32) (harg4 : arg4.IsWhole)
    (arg5 : Memref sig .tc .vmem S4000x1 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S4000x128 .f32) (harg8 : arg8.IsWhole)
    (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) (R S : sProp 𝕄)
    {D0 D1 D2 D3 D4 D5 D6 D7 : Type} (g : D7 → Vec F S4000x128 .f32) :
    iprop(R ∗ S ∗ (∃ _ : D0, owns c arg1 fullShare x0) ∗ (∃ _ : D1, owns c arg2 fullShare x1)
        ∗ (∃ _ : D2, owns c arg3 fullShare x2) ∗ (∃ _ : D3, owns c arg4 fullShare x3)
        ∗ (∃ _ : D4, owns c arg5 fullShare x4) ∗ (∃ _ : D5, owns c arg6 fullShare x5)
        ∗ (∃ _ : D6, owns c arg7 fullShare x6)
        ∗ (∃ d, owns c arg8 fullShare (g d)))
      ⊢ wp frame (wpE (defs₀ (F := F)) Variants.none c none) E (cc3__linear_kernel i arg1 harg1 arg2 harg2 arg3 harg3 arg4 harg4 arg5 harg5 arg6 harg6 arg7 harg7 arg8 harg8)
        fun _ => iprop(R ∗ S ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6
          ∗ owns c arg8 fullShare (out3_7 x0 x1 x2 x3 x4 x5 x6)) := by
  simp only [cc3__linear_kernel_eq_skeleton]; unfold cc3__linear_kernel_skel
  unfold owns
  iintro ⟨HR, HS, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%_, %f7, -, H7⟩⟩
  subst hf0; subst hf1; subst hf2; subst hf3; subst hf4; subst hf5; subst hf6
  sl_exec
  sl_step
  isplitl [HR]; · iexact HR
  isplitl [HS]; · iexact HS
  isplitl [H0]; · iapply owns_read; iexact H0
  isplitl [H1]; · iapply owns_read; iexact H1
  isplitl [H2]; · iapply owns_read; iexact H2
  isplitl [H3]; · iapply owns_read; iexact H3
  isplitl [H4]; · iapply owns_read; iexact H4
  isplitl [H5]; · iapply owns_read; iexact H5
  isplitl [H6]; · iapply owns_read; iexact H6
  iexists _; isplitr
  swap; · iexact H7
  ipureintro
  exact View.read_writes_eq_canon _ _ _ (View.cover_of_tiled _ S4000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t =
    out3_7 (iblk3 V c 0 t) (iblk3 V c 1 t) (iblk3 V c 2 t) (iblk3 V c 3 t) (iblk3 V c 4 t) (iblk3 V c 5 t) (iblk3 V c 6 t) := by dsimp only [dat3]

-- An input's buffer holds its block at every point: where it was not fetched, the block index has not moved.
theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ (∀ d, (dat3 V c).before 4 t d = iblk3 V c 4 t) ∧ (∀ d, (dat3 V c).before 5 t d = iblk3 V c 5 t)
      ∧ (∀ d, (dat3 V c).before 6 t d = iblk3 V c 6 t) := by
  refine ⟨?_, ?_, ?_, ?_, ?_, ?_, ?_⟩ <;> intro d <;>
  exact ((dat3 V c).before_in_eq_fetched _ rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  obtain ⟨h0, h1, h2, h3, h4, h5, h6⟩ := before3 V c t
  simp only [h0, h1, h2, h3, h4, h5, h6]
  rw [after3_0, after3_1, after3_2, after3_3, after3_4, after3_5, after3_6, after3_7]
  show _ ⊢ wp frame _ Set.univ (bodyAt3 t) _
  exact sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _ _ _

end Region3

end Cert.Kernel.Hand

end
-- ==== Proof.K.Stats4.lean ====
import proofs.«123582_j22084721836889_2_alg».proof.Proof.Gen.Kernel.Launch
import proofs.«123582_j22084721836889_2_alg».proof.Proof.Gen.Kernel.Skeleton
import proofs.«123582_j22084721836889_2_alg».proof.Proof.Gen.Kernel.Points
import proofs.«123582_j22084721836889_2_alg».proof.Proof.K.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4_0 (c : Dev nD) : (n : ℕ) → Vec F S1x128 .f32
  | 0 => k4_pay1
  | n + 1 => if h : n < cfg4.N then k4_pay4 (iblk4 V c 0 ⟨n, h⟩) (acc4_0 c n) else acc4_0 c n

def acc4_1 (c : Dev nD) : (n : ℕ) → Vec F S1x128 .f32
  | 0 => k4_pay2
  | n + 1 => if h : n < cfg4.N then k4_pay5 (iblk4 V c 0 ⟨n, h⟩) (acc4_1 c n) else acc4_1 c n

theorem acc4_0_zero (c : Dev nD) (n : ℕ) (h : n = 0) : acc4_0 V c n = k4_pay1 := by subst h; rfl
theorem acc4_1_zero (c : Dev nD) (n : ℕ) (h : n = 0) : acc4_1 V c n = k4_pay2 := by subst h; rfl

theorem acc4_0_succ (c : Dev nD) (t : Fin cfg4.N) : acc4_0 V c (t.val + 1) = k4_pay4 (iblk4 V c 0 t) (acc4_0 V c t.val) := by
  rw [acc4_0]; exact dif_pos t.isLt
theorem acc4_1_succ (c : Dev nD) (t : Fin cfg4.N) : acc4_1 V c (t.val + 1) = k4_pay5 (iblk4 V c 0 t) (acc4_1 V c t.val) := by
  rw [acc4_1]; exact dif_pos t.isLt

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, k4_cond2 (grid4.coords t) = 1#1 ↔ t.val = 49 :=
  (by decide +kernel : ∀ t : Fin grid4.N, k4_cond2 (grid4.coords t) = 1#1 ↔ t.val = 49)

theorem liveAt4_0 : ∀ t : Fin cfg4.N, cfg4.idle 0 (grid4.coords t) = false := fun _ => rfl
theorem idle4 : ∀ t : Fin cfg4.N, ¬k4_cond2 (grid4.coords t) = 1#1 →
    cfg4.idle 1 (grid4.coords t) = true ∧ cfg4.idle 2 (grid4.coords t) = true ∧ (cfg4.win 1).flush t = false ∧ (cfg4.win 2).flush t = false := by
  decide +kernel
theorem live4 : ∀ t : Fin cfg4.N, k4_cond2 (grid4.coords t) = 1#1 → cfg4.idle 1 (grid4.coords t) = false ∧ cfg4.idle 2 (grid4.coords t) = false := by
  decide +kernel

set_option maxHeartbeats 1000000 in
-- The scratch pair restarts from zeros under the first test, takes one step on the block, and is copied out under the second.
theorem sound_kernel4 (c : Dev nD) (E : Set ℕ) (i : grid4.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc : cond4_0 i → ¬k4_cond2 i = 1#1)
    (x : Vec F S4000x128 .f32) (o1 o2 s0 s1 b0 b1 : Vec F S1x128 .f32)
    (hb0 : b0 = if cond4_0 i then k4_pay1 else s0) (hb1 : b1 = if cond4_0 i then k4_pay2 else s1) (K : PUnit → sProp 𝕄) :
    iprop(owns (c : Thread nD τ) arg1 fullShare x ∗ owns (c : Thread nD τ) arg2 fullShare o1 ∗ owns (c : Thread nD τ) arg3 fullShare o2
        ∗ owns (c : Thread nD τ) arg4 fullShare s0 ∗ owns (c : Thread nD τ) arg5 fullShare s1
        ∗ (iprop(owns (c : Thread nD τ) arg1 fullShare x
            ∗ owns (c : Thread nD τ) arg2 fullShare (if k4_cond2 i = 1#1 then k4_pay4 x b0 else o1)
            ∗ owns (c : Thread nD τ) arg3 fullShare (if k4_cond2 i = 1#1 then k4_pay5 x b1 else o2)
            ∗ owns (c : Thread nD τ) arg4 fullShare (k4_pay4 x b0) ∗ owns (c : Thread nD τ) arg5 fullShare (k4_pay5 x b1)) -∗ K ⟨⟩))
      ⊢ wp frame (wpE (defs₀ (F := F)) Variants.none c none) E (cc4__stats_kernel i arg1 harg1 arg2 harg2 arg3 harg3 arg4 harg4 arg5 harg5) K := by
  subst hb0 hb1
  simp only [cc4__stats_kernel_eq_skeleton]; unfold cc4__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  by_cases hc0 : cond4_0 i <;> by_cases hc1 : k4_cond2 i = 1#1
  · exact absurd hc1 (hc hc0)
  all_goals
    sl_exec (disch := first | exact hc0 | exact hc1)
    sl_step
    simp only [hc0, eq_true hc0, hc1, ↓reduceIte]
    iapply Hk
    isplitl [H1]; rotate_left; isplitl [H2]; rotate_left; isplitl [H3]; rotate_left; isplitl [H4]; rotate_left
    all_goals
      iexists _; isplitr; swap
      · first | iexact H1 | iexact H2 | iexact H3 | iexact H4 | iexact H5
      ipureintro
      first
      | with_reducible rfl
      | (sl_unfold_run_names
         simp only [read_writes_unit (S := S1x128) _ _ zero_offs, View.readCov_unit_zero (S := S1x128) _ zero_offs, View.readAt_eq_ld,
           View.ld_unit_zero (S := S4000x128) zero_offs, View.ld_unit_zero (S := S1x128) zero_offs])

abbrev scM4_0 : Memref sig .tc .vmem S1x128 .f32 := Memref.whole cc4_scratch0
abbrev scM4_1 : Memref sig .tc .vmem S1x128 .f32 := Memref.whole cc4_scratch1

abbrev rest4 (c : Dev nD) : sProp 𝕄 :=
  Pipeline.scopedRestBut (Ix := Unit) (Name := ℕ) (U := UR sig nD τ) (Lvl := ℕ) (Val := Elt F) spec4 c [cc4_scratch0, cc4_scratch1]

-- Before point n the scratch pair holds the accumulators over the first n points (anything, before the first point).
def Phi4 (c : Dev nD) (n : ℕ) : sProp 𝕄 :=
  iprop(rest4 (F := F) c ∗ (∃ r, prngReg c r) ∗ ∃ s0 s1, ⌜n ≠ 0 → s0 = acc4_0 V c n ∧ s1 = acc4_1 V c n⌝
    ∗ owns (c : Thread nD τ) scM4_0 fullShare s0 ∗ owns (c : Thread nD τ) scM4_1 fullShare s1)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => acc4_0 V c (t.val + 1)
    | ⟨2, _⟩ => acc4_1 V c (t.val + 1)
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = acc4_0 V c (t.val + 1) := by dsimp only [dat4]
theorem after4_2 (c : Dev nD) (t : Fin cfg4.N) : (dat4 V c).after 2 t = acc4_1 V c (t.val + 1) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

-- One step of the invariant, at any point.
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl,
    show (dat4 V c).Φ t.castSucc = Phi4 V c t.val from rfl, show (dat4 V c).Φ t.succ = Phi4 V c (t.val + 1) from rfl,
    show (dat4 V c).leavesExact 0 t = owns (c : Thread nD τ) (st4_0 t) fullShare ((dat4 V c).after 0 t) from by
      unfold Dat.leavesExact; rw [liveAt4_0 t], after4_0]
  unfold Phi4
  iintro ⟨⟨Hrest, Hg, %s0, %s1, %hs, HS0, HS1⟩, Ho, ⟨%d0, H0⟩, ⟨%d1, H1⟩, ⟨%d2, H2⟩⟩
  have e0 : acc4_0 V c t.val = (if cond4_0 (grid4.coords t) then k4_pay1 else s0)
      ∧ acc4_1 V c t.val = (if cond4_0 (grid4.coords t) then k4_pay2 else s1) := by
    by_cases h0 : t.val = 0
    · rw [if_pos ((hcond4_0 t).mpr h0), if_pos ((hcond4_0 t).mpr h0), acc4_0_zero V c _ h0, acc4_1_zero V c _ h0]; exact ⟨rfl, rfl⟩
    · rw [if_neg (fun h => h0 ((hcond4_0 t).mp h)), if_neg (fun h => h0 ((hcond4_0 t).mp h))]
      exact ⟨(hs h0).1.symm, (hs h0).2.symm⟩
  iapply (sound_kernel4 c Set.univ (grid4.coords t) _ _ _ _ _ _ _ _ _ _
    (fun h h' => by have := (hcond4_0 t).mp h; have := (hcond4_1 t).mp h'; omega) (iblk4 V c 0 t)
    ((dat4 V c).before 1 t d1) ((dat4 V c).before 2 t d2) s0 s1 _ _ e0.1 e0.2 _)
  rw [← acc4_0_succ, ← acc4_1_succ]
  iframe H0 H1 H2 HS0 HS1
  iintro ⟨H0, H1, H2, HS0, HS1⟩
  iframe Hrest Hg Ho H0
  isplitl [HS0 HS1]
  · iexists acc4_0 V c (t.val + 1), acc4_1 V c (t.val + 1)
    isplitr; · ipureintro; exact fun _ => ⟨rfl, rfl⟩
    iframe
  by_cases hc1 : k4_cond2 (grid4.coords t) = 1#1
  · rw [if_pos hc1, if_pos hc1,
      show (dat4 V c).leavesExact 1 t = owns (c : Thread nD τ) (st4_1 t) fullShare ((dat4 V c).after 1 t) from by
        unfold Dat.leavesExact; rw [(live4 t hc1).1], after4_1,
      show (dat4 V c).leavesExact 2 t = owns (c : Thread nD τ) (st4_2 t) fullShare ((dat4 V c).after 2 t) from by
        unfold Dat.leavesExact; rw [(live4 t hc1).2], after4_2]
    iframe
  · rw [if_neg hc1, if_neg hc1, Dat.leavesExact_idle (dat4 V c) 1 t (idle4 t hc1).1 (idle4 t hc1).2.2.1,
      Dat.leavesExact_idle (dat4 V c) 2 t (idle4 t hc1).2.1 (idle4 t hc1).2.2.2]
    isplitl [H1]; · iexists _; iexact H1
    iexists _; iexact H2

theorem body_obligation4 (c : Dev nD) : BodyObligation (dat4 (F := F) V c) (defs₀ (F := F)) Variants.none () Set.univ := fun t => by
  rw [bigSep_W4, bigSep_W4]
  exact sound_body4 V c t

theorem Phi4_in (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 from rfl, scopedRest4_split]
  unfold Phi4
  simp only [scM4_0, scM4_1, owns_whole]
  iintro ⟨Hg, ⟨⟨%s0, HS0⟩, ⟨%s1, HS1⟩⟩, Hrest⟩
  iframe Hg Hrest
  iexists s0, s1
  isplitr; · ipureintro; exact fun h => absurd rfl h
  iframe

-- The accumulators' contents are forgotten.
theorem Phi4_out (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c (Fin.last cfg4.N).val from rfl, scopedRest4_split]
  unfold Phi4
  simp only [scM4_0, scM4_1, owns_whole]
  iintro ⟨Hrest, Hg, %s0, %s1, -, HS0, HS1⟩
  iframe Hrest Hg
  isplitl [HS0]; · iexists _; iexact HS0
  iexists _; iexact HS1

-- The block's offsets in the array are zero on both axes.
theorem off4_1 (t : Fin cfg4.N) : (fun a => (cfg4.win 1).index t a * (cfg4.win 1).size a) = fun _ => 0 :=
  funext fun a => by fin_cases a <;> rfl
theorem off4_2 (t : Fin cfg4.N) : (fun a => (cfg4.win 2).index t a * (cfg4.win 2).size a) = fun _ => 0 :=
  funext fun a => by fin_cases a <;> rfl

theorem mem_blk4_1 (t : Fin cfg4.N) (i : S1x128.Idx) : i ∈ ((cfg4.win 1).blk t).view.set := by
  show i ∈ ((View.whole main_v79_0).slice (win4_1.rect t)).set
  rw [View.set_slice_whole]
  exact View.mem_set_unit_zero (S := S1x128) (off4_1 t) _ i
theorem mem_blk4_2 (t : Fin cfg4.N) (i : S1x128.Idx) : i ∈ ((cfg4.win 2).blk t).view.set := by
  show i ∈ ((View.whole main_v79_1).slice (win4_2.rect t)).set
  rw [View.set_slice_whole]
  exact View.mem_set_unit_zero (S := S1x128) (off4_2 t) _ i

theorem lt49_4 : (49 : ℕ) < cfg4.N := by rw [show cfg4.N = 50 from N_4]; omega
theorem last4 (t : Fin cfg4.N) (h : t.val % 50 = 49) : t.val = 49 := by have := lt_of_lt_of_eq t.isLt N_4; omega

theorem arrAt4_1 (c : Dev nD) : (dat4 V c).arrAt 1 cfg4.N = acc4_0 V c 50 := by
  refine (dat4 V c).arrAt_eq_of_cover 1 (acc4_0 V c 50) (fun t hf => ?_) (fun i => ⟨⟨49, lt49_4⟩, (flush4_1 _).mpr rfl, mem_blk4_1 _ i⟩)
  rw [show ((cfg4.win 1).blk t).view.read (Elt F) _ = _ from View.ld_unit_zero (S := S1x128) (off4_1 t) _ _]
  show (dat4 V c).after 1 t = _
  rw [after4_1, last4 t ((flush4_1 t).mp hf)]

theorem arrAt4_2 (c : Dev nD) : (dat4 V c).arrAt 2 cfg4.N = acc4_1 V c 50 := by
  refine (dat4 V c).arrAt_eq_of_cover 2 (acc4_1 V c 50) (fun t hf => ?_) (fun i => ⟨⟨49, lt49_4⟩, (flush4_2 _).mpr rfl, mem_blk4_2 _ i⟩)
  rw [show ((cfg4.win 2).blk t).view.read (Elt F) _ = _ from View.ld_unit_zero (S := S1x128) (off4_2 t) _ _]
  show (dat4 V c).after 2 t = _
  rw [after4_2, last4 t ((flush4_2 t).mp hf)]

end Cert.Kernel.Hand

end
-- ==== Proof.K.Norm5.lean ====
import proofs.«123582_j22084721836889_2_alg».proof.Proof.K.BodyLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S4000x128 := Rect.unit (s := S4000x128) ![0, 0] S4000x128.size inb_S4000x128_S4000x128_0_0
abbrev r5_1 : Rect S1x128 := Rect.unit (s := S1x128) ![0, 0] S1x128.size inb_S1x128_S1x128_0_0

def out5_3 (x0 : Vec F S4000x128 .f32) (x1 : Vec F S1x128 .f32) (x2 : Vec F S1x128 .f32) : Vec F S4000x128 .bf16 :=
  View.canon [⟨r5_0, k5_pay1 (View.ld x0 r5_0) (View.ld x1 r5_1) (View.ld x2 r5_1)⟩]

set_option maxHeartbeats 1000000 in
-- The inputs are only read and the single store covers the whole output block; whatever else is held passes through.
theorem sound_kernel5 (c : Dev nD) (E : Set ℕ) (i : grid5.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S4000x128 .bf16) (harg4 : arg4.IsWhole)
    (x0 : Vec F S4000x128 .f32) (x1 : Vec F S1x128 .f32) (x2 : Vec F S1x128 .f32) (R S : sProp 𝕄)
    {D0 D1 D2 D3 : Type} (g : D3 → Vec F S4000x128 .bf16) :
    iprop(R ∗ S ∗ (∃ _ : D0, owns c arg1 fullShare x0) ∗ (∃ _ : D1, owns c arg2 fullShare x1)
        ∗ (∃ _ : D2, owns c arg3 fullShare x2)
        ∗ (∃ d, owns c arg4 fullShare (g d)))
      ⊢ wp frame (wpE (defs₀ (F := F)) Variants.none c none) E (cc5__norm_relu_kernel i arg1 harg1 arg2 harg2 arg3 harg3 arg4 harg4)
        fun _ => iprop(R ∗ S ∗ owns c arg1 fullShare x0 ∗ owns c arg2 fullShare x1 ∗ owns c arg3 fullShare x2
          ∗ owns c arg4 fullShare (out5_3 x0 x1 x2)) := by
  simp only [cc5__norm_relu_kernel_eq_skeleton]; unfold cc5__norm_relu_kernel_skel
  unfold owns
  iintro ⟨HR, HS, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HR]; · iexact HR
  isplitl [HS]; · iexact HS
  isplitl [H0]; · iapply owns_read; iexact H0
  isplitl [H1]; · iapply owns_read; iexact H1
  isplitl [H2]; · iapply owns_read; iexact H2
  iexists _; isplitr
  swap; · iexact H3
  ipureintro
  exact View.read_writes_eq_canon _ _ _ (View.cover_of_tiled _ S4000x128.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t =
    out5_3 (iblk5 V c 0 t) (iblk5 V c 1 t) (iblk5 V c 2 t) := by dsimp only [dat5]

-- An input's buffer holds its block at every point: where it was not fetched, the block index has not moved.
theorem before5 (c : Dev nD) (t : Fin cfg5.N) :
    (∀ d, (dat5 V c).before 0 t d = iblk5 V c 0 t) ∧ (∀ d, (dat5 V c).before 1 t d = iblk5 V c 1 t) ∧ (∀ d, (dat5 V c).before 2 t d = iblk5 V c 2 t) := by
  refine ⟨?_, ?_, ?_⟩ <;> intro d <;>
  exact ((dat5 V c).before_in_eq_fetched _ rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  obtain ⟨h0, h1, h2⟩ := before5 V c t
  simp only [h0, h1, h2]
  rw [after5_0, after5_1, after5_2, after5_3]
  show _ ⊢ wp frame _ Set.univ (bodyAt5 t) _
  exact sound_kernel5 c Set.univ _ _ _ _ _ _ _ _ _ (iblk5 V c 0 t) (iblk5 V c 1 t) (iblk5 V c 2 t) _ _ _

end Region5

end Cert.Kernel.Hand

end
-- ==== Proof.K.Lin6.lean ====
import proofs.«123582_j22084721836889_2_alg».proof.Proof.K.BodyLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S4000x128 := Rect.unit (s := S4000x128) ![0, 0] S4000x128.size inb_S4000x128_S4000x128_0_0
abbrev r6_1 : Rect S4000x5 := Rect.unit (s := S4000x5) ![0, 0] S4000x5.size inb_S4000x5_S4000x5_0_0
abbrev r6_2 : Rect S5x128 := Rect.unit (s := S5x128) ![0, 0] S5x128.size inb_S5x128_S5x128_0_0
abbrev r6_3 : Rect S4000x1 := Rect.unit (s := S4000x1) ![0, 0] S4000x1.size inb_S4000x1_S4000x1_0_0
abbrev r6_4 : Rect S128x128 := Rect.unit (s := S128x128) ![0, 0] S128x128.size inb_S128x128_S128x128_0_0
abbrev r6_5 : Rect S1x128 := Rect.unit (s := S1x128) ![0, 0] S1x128.size inb_S1x128_S1x128_0_0

def out6_7 (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) : Vec F S4000x128 .f32 :=
  View.canon [⟨r6_0, k6_pay1 (View.ld x0 r6_0) (View.ld x1 r6_0) (View.ld x2 r6_1) (View.ld x3 r6_2) (View.ld x4 r6_3) (View.ld x5 r6_4) (View.ld x6 r6_5)⟩]

set_option maxHeartbeats 1000000 in
-- The inputs are only read and the single store covers the whole output block; whatever else is held passes through.
theorem sound_kernel6 (c : Dev nD) (E : Set ℕ) (i : grid6.Coords)
    (arg1 : Memref sig .tc .vmem S4000x128 .bf16) (harg1 : arg1.IsWhole) (arg2 : Memref sig .tc .vmem S4000x128 .f32) (harg2 : arg2.IsWhole)
    (arg3 : Memref sig .tc .vmem S4000x5 .f32) (harg3 : arg3.IsWhole) (arg4 : Memref sig .tc .vmem S5x128 .f32) (harg4 : arg4.IsWhole)
    (arg5 : Memref sig .tc .vmem S4000x1 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S4000x128 .f32) (harg8 : arg8.IsWhole)
    (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) (R S : sProp 𝕄)
    {D0 D1 D2 D3 D4 D5 D6 D7 : Type} (g : D7 → Vec F S4000x128 .f32) :
    iprop(R ∗ S ∗ (∃ _ : D0, owns c arg1 fullShare x0) ∗ (∃ _ : D1, owns c arg2 fullShare x1)
        ∗ (∃ _ : D2, owns c arg3 fullShare x2) ∗ (∃ _ : D3, owns c arg4 fullShare x3)
        ∗ (∃ _ : D4, owns c arg5 fullShare x4) ∗ (∃ _ : D5, owns c arg6 fullShare x5)
        ∗ (∃ _ : D6, owns c arg7 fullShare x6)
        ∗ (∃ d, owns c arg8 fullShare (g d)))
      ⊢ wp frame (wpE (defs₀ (F := F)) Variants.none c none) E (cc6__linear_kernel i arg1 harg1 arg2 harg2 arg3 harg3 arg4 harg4 arg5 harg5 arg6 harg6 arg7 harg7 arg8 harg8)
        fun _ => iprop(R ∗ S ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6
          ∗ owns c arg8 fullShare (out6_7 x0 x1 x2 x3 x4 x5 x6)) := by
  simp only [cc6__linear_kernel_eq_skeleton]; unfold cc6__linear_kernel_skel
  unfold owns
  iintro ⟨HR, HS, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%_, %f7, -, H7⟩⟩
  subst hf0; subst hf1; subst hf2; subst hf3; subst hf4; subst hf5; subst hf6
  sl_exec
  sl_step
  isplitl [HR]; · iexact HR
  isplitl [HS]; · iexact HS
  isplitl [H0]; · iapply owns_read; iexact H0
  isplitl [H1]; · iapply owns_read; iexact H1
  isplitl [H2]; · iapply owns_read; iexact H2
  isplitl [H3]; · iapply owns_read; iexact H3
  isplitl [H4]; · iapply owns_read; iexact H4
  isplitl [H5]; · iapply owns_read; iexact H5
  isplitl [H6]; · iapply owns_read; iexact H6
  iexists _; isplitr
  swap; · iexact H7
  ipureintro
  exact View.read_writes_eq_canon _ _ _ (View.cover_of_tiled _ S4000x128.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t =
    out6_7 (iblk6 V c 0 t) (iblk6 V c 1 t) (iblk6 V c 2 t) (iblk6 V c 3 t) (iblk6 V c 4 t) (iblk6 V c 5 t) (iblk6 V c 6 t) := by dsimp only [dat6]

-- An input's buffer holds its block at every point: where it was not fetched, the block index has not moved.
theorem before6 (c : Dev nD) (t : Fin cfg6.N) :
    (∀ d, (dat6 V c).before 0 t d = iblk6 V c 0 t) ∧ (∀ d, (dat6 V c).before 1 t d = iblk6 V c 1 t) ∧ (∀ d, (dat6 V c).before 2 t d = iblk6 V c 2 t)
      ∧ (∀ d, (dat6 V c).before 3 t d = iblk6 V c 3 t) ∧ (∀ d, (dat6 V c).before 4 t d = iblk6 V c 4 t) ∧ (∀ d, (dat6 V c).before 5 t d = iblk6 V c 5 t)
      ∧ (∀ d, (dat6 V c).before 6 t d = iblk6 V c 6 t) := by
  refine ⟨?_, ?_, ?_, ?_, ?_, ?_, ?_⟩ <;> intro d <;>
  exact ((dat6 V c).before_in_eq_fetched _ rfl (fun _ => rfl) (fun _ _ _ => rfl) (fun _ => rfl) t d).trans rfl

theorem body_obligation6 (c : Dev nD) : BodyObligation (dat6 (F := F) V c) (defs₀ (F := F)) Variants.none () Set.univ := fun t => by
  rw [bigSep_W6, bigSep_W6]
  obtain ⟨h0, h1, h2, h3, h4, h5, h6⟩ := before6 V c t
  simp only [h0, h1, h2, h3, h4, h5, h6]
  rw [after6_0, after6_1, after6_2, after6_3, after6_4, after6_5, after6_6, after6_7]
  show _ ⊢ wp frame _ Set.univ (bodyAt6 t) _
  exact sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _ _ _

end Region6

end Cert.Kernel.Hand

end
-- ==== Proof.K.Stats7.lean ====
import proofs.«123582_j22084721836889_2_alg».proof.Proof.Gen.Kernel.Launch
import proofs.«123582_j22084721836889_2_alg».proof.Proof.Gen.Kernel.Skeleton
import proofs.«123582_j22084721836889_2_alg».proof.Proof.Gen.Kernel.Points
import proofs.«123582_j22084721836889_2_alg».proof.Proof.K.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7_0 (c : Dev nD) : (n : ℕ) → Vec F S1x128 .f32
  | 0 => k7_pay1
  | n + 1 => if h : n < cfg7.N then k7_pay4 (iblk7 V c 0 ⟨n, h⟩) (acc7_0 c n) else acc7_0 c n

def acc7_1 (c : Dev nD) : (n : ℕ) → Vec F S1x128 .f32
  | 0 => k7_pay2
  | n + 1 => if h : n < cfg7.N then k7_pay5 (iblk7 V c 0 ⟨n, h⟩) (acc7_1 c n) else acc7_1 c n

theorem acc7_0_zero (c : Dev nD) (n : ℕ) (h : n = 0) : acc7_0 V c n = k7_pay1 := by subst h; rfl
theorem acc7_1_zero (c : Dev nD) (n : ℕ) (h : n = 0) : acc7_1 V c n = k7_pay2 := by subst h; rfl

theorem acc7_0_succ (c : Dev nD) (t : Fin cfg7.N) : acc7_0 V c (t.val + 1) = k7_pay4 (iblk7 V c 0 t) (acc7_0 V c t.val) := by
  rw [acc7_0]; exact dif_pos t.isLt
theorem acc7_1_succ (c : Dev nD) (t : Fin cfg7.N) : acc7_1 V c (t.val + 1) = k7_pay5 (iblk7 V c 0 t) (acc7_1 V c t.val) := by
  rw [acc7_1]; exact dif_pos t.isLt

abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)
theorem hcond7_1 : ∀ t : Fin cfg7.N, k7_cond2 (grid7.coords t) = 1#1 ↔ t.val = 49 :=
  (by decide +kernel : ∀ t : Fin grid7.N, k7_cond2 (grid7.coords t) = 1#1 ↔ t.val = 49)

theorem liveAt7_0 : ∀ t : Fin cfg7.N, cfg7.idle 0 (grid7.coords t) = false := fun _ => rfl
theorem idle7 : ∀ t : Fin cfg7.N, ¬k7_cond2 (grid7.coords t) = 1#1 →
    cfg7.idle 1 (grid7.coords t) = true ∧ cfg7.idle 2 (grid7.coords t) = true ∧ (cfg7.win 1).flush t = false ∧ (cfg7.win 2).flush t = false := by
  decide +kernel
theorem live7 : ∀ t : Fin cfg7.N, k7_cond2 (grid7.coords t) = 1#1 → cfg7.idle 1 (grid7.coords t) = false ∧ cfg7.idle 2 (grid7.coords t) = false := by
  decide +kernel

set_option maxHeartbeats 1000000 in
-- The scratch pair restarts from zeros under the first test, takes one step on the block, and is copied out under the second.
theorem sound_kernel7 (c : Dev nD) (E : Set ℕ) (i : grid7.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc : cond7_0 i → ¬k7_cond2 i = 1#1)
    (x : Vec F S4000x128 .f32) (o1 o2 s0 s1 b0 b1 : Vec F S1x128 .f32)
    (hb0 : b0 = if cond7_0 i then k7_pay1 else s0) (hb1 : b1 = if cond7_0 i then k7_pay2 else s1) (K : PUnit → sProp 𝕄) :
    iprop(owns (c : Thread nD τ) arg1 fullShare x ∗ owns (c : Thread nD τ) arg2 fullShare o1 ∗ owns (c : Thread nD τ) arg3 fullShare o2
        ∗ owns (c : Thread nD τ) arg4 fullShare s0 ∗ owns (c : Thread nD τ) arg5 fullShare s1
        ∗ (iprop(owns (c : Thread nD τ) arg1 fullShare x
            ∗ owns (c : Thread nD τ) arg2 fullShare (if k7_cond2 i = 1#1 then k7_pay4 x b0 else o1)
            ∗ owns (c : Thread nD τ) arg3 fullShare (if k7_cond2 i = 1#1 then k7_pay5 x b1 else o2)
            ∗ owns (c : Thread nD τ) arg4 fullShare (k7_pay4 x b0) ∗ owns (c : Thread nD τ) arg5 fullShare (k7_pay5 x b1)) -∗ K ⟨⟩))
      ⊢ wp frame (wpE (defs₀ (F := F)) Variants.none c none) E (cc7__stats_kernel i arg1 harg1 arg2 harg2 arg3 harg3 arg4 harg4 arg5 harg5) K := by
  subst hb0 hb1
  simp only [cc7__stats_kernel_eq_skeleton]; unfold cc7__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  by_cases hc0 : cond7_0 i <;> by_cases hc1 : k7_cond2 i = 1#1
  · exact absurd hc1 (hc hc0)
  all_goals
    sl_exec (disch := first | exact hc0 | exact hc1)
    sl_step
    simp only [hc0, eq_true hc0, hc1, ↓reduceIte]
    iapply Hk
    isplitl [H1]; rotate_left; isplitl [H2]; rotate_left; isplitl [H3]; rotate_left; isplitl [H4]; rotate_left
    all_goals
      iexists _; isplitr; swap
      · first | iexact H1 | iexact H2 | iexact H3 | iexact H4 | iexact H5
      ipureintro
      first
      | with_reducible rfl
      | (sl_unfold_run_names
         simp only [read_writes_unit (S := S1x128) _ _ zero_offs, View.readCov_unit_zero (S := S1x128) _ zero_offs, View.readAt_eq_ld,
           View.ld_unit_zero (S := S4000x128) zero_offs, View.ld_unit_zero (S := S1x128) zero_offs])

abbrev scM7_0 : Memref sig .tc .vmem S1x128 .f32 := Memref.whole cc7_scratch0
abbrev scM7_1 : Memref sig .tc .vmem S1x128 .f32 := Memref.whole cc7_scratch1

abbrev rest7 (c : Dev nD) : sProp 𝕄 :=
  Pipeline.scopedRestBut (Ix := Unit) (Name := ℕ) (U := UR sig nD τ) (Lvl := ℕ) (Val := Elt F) spec7 c [cc7_scratch0, cc7_scratch1]

-- Before point n the scratch pair holds the accumulators over the first n points (anything, before the first point).
def Phi7 (c : Dev nD) (n : ℕ) : sProp 𝕄 :=
  iprop(rest7 (F := F) c ∗ (∃ r, prngReg c r) ∗ ∃ s0 s1, ⌜n ≠ 0 → s0 = acc7_0 V c n ∧ s1 = acc7_1 V c n⌝
    ∗ owns (c : Thread nD τ) scM7_0 fullShare s0 ∗ owns (c : Thread nD τ) scM7_1 fullShare s1)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => acc7_0 V c (t.val + 1)
    | ⟨2, _⟩ => acc7_1 V c (t.val + 1)
  Φ t := Phi7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = acc7_0 V c (t.val + 1) := by dsimp only [dat7]
theorem after7_2 (c : Dev nD) (t : Fin cfg7.N) : (dat7 V c).after 2 t = acc7_1 V c (t.val + 1) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

-- One step of the invariant, at any point.
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl,
    show (dat7 V c).Φ t.castSucc = Phi7 V c t.val from rfl, show (dat7 V c).Φ t.succ = Phi7 V c (t.val + 1) from rfl,
    show (dat7 V c).leavesExact 0 t = owns (c : Thread nD τ) (st7_0 t) fullShare ((dat7 V c).after 0 t) from by
      unfold Dat.leavesExact; rw [liveAt7_0 t], after7_0]
  unfold Phi7
  iintro ⟨⟨Hrest, Hg, %s0, %s1, %hs, HS0, HS1⟩, Ho, ⟨%d0, H0⟩, ⟨%d1, H1⟩, ⟨%d2, H2⟩⟩
  have e0 : acc7_0 V c t.val = (if cond7_0 (grid7.coords t) then k7_pay1 else s0)
      ∧ acc7_1 V c t.val = (if cond7_0 (grid7.coords t) then k7_pay2 else s1) := by
    by_cases h0 : t.val = 0
    · rw [if_pos ((hcond7_0 t).mpr h0), if_pos ((hcond7_0 t).mpr h0), acc7_0_zero V c _ h0, acc7_1_zero V c _ h0]; exact ⟨rfl, rfl⟩
    · rw [if_neg (fun h => h0 ((hcond7_0 t).mp h)), if_neg (fun h => h0 ((hcond7_0 t).mp h))]
      exact ⟨(hs h0).1.symm, (hs h0).2.symm⟩
  iapply (sound_kernel7 c Set.univ (grid7.coords t) _ _ _ _ _ _ _ _ _ _
    (fun h h' => by have := (hcond7_0 t).mp h; have := (hcond7_1 t).mp h'; omega) (iblk7 V c 0 t)
    ((dat7 V c).before 1 t d1) ((dat7 V c).before 2 t d2) s0 s1 _ _ e0.1 e0.2 _)
  rw [← acc7_0_succ, ← acc7_1_succ]
  iframe H0 H1 H2 HS0 HS1
  iintro ⟨H0, H1, H2, HS0, HS1⟩
  iframe Hrest Hg Ho H0
  isplitl [HS0 HS1]
  · iexists acc7_0 V c (t.val + 1), acc7_1 V c (t.val + 1)
    isplitr; · ipureintro; exact fun _ => ⟨rfl, rfl⟩
    iframe
  by_cases hc1 : k7_cond2 (grid7.coords t) = 1#1
  · rw [if_pos hc1, if_pos hc1,
      show (dat7 V c).leavesExact 1 t = owns (c : Thread nD τ) (st7_1 t) fullShare ((dat7 V c).after 1 t) from by
        unfold Dat.leavesExact; rw [(live7 t hc1).1], after7_1,
      show (dat7 V c).leavesExact 2 t = owns (c : Thread nD τ) (st7_2 t) fullShare ((dat7 V c).after 2 t) from by
        unfold Dat.leavesExact; rw [(live7 t hc1).2], after7_2]
    iframe
  · rw [if_neg hc1, if_neg hc1, Dat.leavesExact_idle (dat7 V c) 1 t (idle7 t hc1).1 (idle7 t hc1).2.2.1,
      Dat.leavesExact_idle (dat7 V c) 2 t (idle7 t hc1).2.1 (idle7 t hc1).2.2.2]
    isplitl [H1]; · iexists _; iexact H1
    iexists _; iexact H2

theorem body_obligation7 (c : Dev nD) : BodyObligation (dat7 (F := F) V c) (defs₀ (F := F)) Variants.none () Set.univ := fun t => by
  rw [bigSep_W7, bigSep_W7]
  exact sound_body7 V c t

theorem Phi7_in (c : Dev nD) :
    iprop((∃ r, prngReg c r) ∗ Pipeline.scopedRest (Ix := Unit) (Name := ℕ) (U := UR sig nD τ) (Lvl := ℕ) (Val := Elt F) spec7 c)
      ⊢ (dat7 V c).Φ 0 := by
  rw [show (dat7 V c).Φ 0 = Phi7 V c 0 from rfl, scopedRest7_split]
  unfold Phi7
  simp only [scM7_0, scM7_1, owns_whole]
  iintro ⟨Hg, ⟨⟨%s0, HS0⟩, ⟨%s1, HS1⟩⟩, Hrest⟩
  iframe Hg Hrest
  iexists s0, s1
  isplitr; · ipureintro; exact fun h => absurd rfl h
  iframe

-- The accumulators' contents are forgotten.
theorem Phi7_out (c : Dev nD) :
    (dat7 V c).Φ (Fin.last cfg7.N)
      ⊢ iprop((∃ r, prngReg c r) ∗ Pipeline.scopedRest (Ix := Unit) (Name := ℕ) (U := UR sig nD τ) (Lvl := ℕ) (Val := Elt F) spec7 c) := by
  rw [show (dat7 V c).Φ (Fin.last cfg7.N) = Phi7 V c (Fin.last cfg7.N).val from rfl, scopedRest7_split]
  unfold Phi7
  simp only [scM7_0, scM7_1, owns_whole]
  iintro ⟨Hrest, Hg, %s0, %s1, -, HS0, HS1⟩
  iframe Hrest Hg
  isplitl [HS0]; · iexists _; iexact HS0
  iexists _; iexact HS1

-- The block's offsets in the array are zero on both axes.
theorem off7_1 (t : Fin cfg7.N) : (fun a => (cfg7.win 1).index t a * (cfg7.win 1).size a) = fun _ => 0 :=
  funext fun a => by fin_cases a <;> rfl
theorem off7_2 (t : Fin cfg7.N) : (fun a => (cfg7.win 2).index t a * (cfg7.win 2).size a) = fun _ => 0 :=
  funext fun a => by fin_cases a <;> rfl

theorem mem_blk7_1 (t : Fin cfg7.N) (i : S1x128.Idx) : i ∈ ((cfg7.win 1).blk t).view.set := by
  show i ∈ ((View.whole main_v120_0).slice (win7_1.rect t)).set
  rw [View.set_slice_whole]
  exact View.mem_set_unit_zero (S := S1x128) (off7_1 t) _ i
theorem mem_blk7_2 (t : Fin cfg7.N) (i : S1x128.Idx) : i ∈ ((cfg7.win 2).blk t).view.set := by
  show i ∈ ((View.whole main_v120_1).slice (win7_2.rect t)).set
  rw [View.set_slice_whole]
  exact View.mem_set_unit_zero (S := S1x128) (off7_2 t) _ i

theorem lt49_7 : (49 : ℕ) < cfg7.N := by rw [show cfg7.N = 50 from N_7]; omega
theorem last7 (t : Fin cfg7.N) (h : t.val % 50 = 49) : t.val = 49 := by have := lt_of_lt_of_eq t.isLt N_7; omega

theorem arrAt7_1 (c : Dev nD) : (dat7 V c).arrAt 1 cfg7.N = acc7_0 V c 50 := by
  refine (dat7 V c).arrAt_eq_of_cover 1 (acc7_0 V c 50) (fun t hf => ?_) (fun i => ⟨⟨49, lt49_7⟩, (flush7_1 _).mpr rfl, mem_blk7_1 _ i⟩)
  rw [show ((cfg7.win 1).blk t).view.read (Elt F) _ = _ from View.ld_unit_zero (S := S1x128) (off7_1 t) _ _]
  show (dat7 V c).after 1 t = _
  rw [after7_1, last7 t ((flush7_1 t).mp hf)]

theorem arrAt7_2 (c : Dev nD) : (dat7 V c).arrAt 2 cfg7.N = acc7_1 V c 50 := by
  refine (dat7 V c).arrAt_eq_of_cover 2 (acc7_1 V c 50) (fun t hf => ?_) (fun i => ⟨⟨49, lt49_7⟩, (flush7_2 _).mpr rfl, mem_blk7_2 _ i⟩)
  rw [show ((cfg7.win 2).blk t).view.read (Elt F) _ = _ from View.ld_unit_zero (S := S1x128) (off7_2 t) _ _]
  show (dat7 V c).after 2 t = _
  rw [after7_2, last7 t ((flush7_2 t).mp hf)]

end Cert.Kernel.Hand

end
-- ==== Proof.K.Norm8.lean ====
import proofs.«123582_j22084721836889_2_alg».proof.Proof.K.BodyLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S4000x128 := Rect.unit (s := S4000x128) ![0, 0] S4000x128.size inb_S4000x128_S4000x128_0_0
abbrev r8_1 : Rect S1x128 := Rect.unit (s := S1x128) ![0, 0] S1x128.size inb_S1x128_S1x128_0_0

def out8_3 (x0 : Vec F S4000x128 .f32) (x1 : Vec F S1x128 .f32) (x2 : Vec F S1x128 .f32) : Vec F S4000x128 .bf16 :=
  View.canon [⟨r8_0, k8_pay1 (View.ld x0 r8_0) (View.ld x1 r8_1) (View.ld x2 r8_1)⟩]

set_option maxHeartbeats 1000000 in
-- The inputs are only read and the single store covers the whole output block; whatever else is held passes through.
theorem sound_kernel8 (c : Dev nD) (E : Set ℕ) (i : grid8.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S4000x128 .bf16) (harg4 : arg4.IsWhole)
    (x0 : Vec F S4000x128 .f32) (x1 : Vec F S1x128 .f32) (x2 : Vec F S1x128 .f32) (R S : sProp 𝕄)
    {D0 D1 D2 D3 : Type} (g : D3 → Vec F S4000x128 .bf16) :
    iprop(R ∗ S ∗ (∃ _ : D0, owns c arg1 fullShare x0) ∗ (∃ _ : D1, owns c arg2 fullShare x1)
        ∗ (∃ _ : D2, owns c arg3 fullShare x2)
        ∗ (∃ d, owns c arg4 fullShare (g d)))
      ⊢ wp frame (wpE (defs₀ (F := F)) Variants.none c none) E (cc8__norm_relu_kernel i arg1 harg1 arg2 harg2 arg3 harg3 arg4 harg4)
        fun _ => iprop(R ∗ S ∗ owns c arg1 fullShare x0 ∗ owns c arg2 fullShare x1 ∗ owns c arg3 fullShare x2
          ∗ owns c arg4 fullShare (out8_3 x0 x1 x2)) := by
  simp only [cc8__norm_relu_kernel_eq_skeleton]; unfold cc8__norm_relu_kernel_skel
  unfold owns
  iintro ⟨HR, HS, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HR]; · iexact HR
  isplitl [HS]; · iexact HS
  isplitl [H0]; · iapply owns_read; iexact H0
  isplitl [H1]; · iapply owns_read; iexact H1
  isplitl [H2]; · iapply owns_read; iexact H2
  iexists _; isplitr
  swap; · iexact H3
  ipureintro
  exact View.read_writes_eq_canon _ _ _ (View.cover_of_tiled _ S4000x128.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t =
    out8_3 (iblk8 V c 0 t) (iblk8 V c 1 t) (iblk8 V c 2 t) := by dsimp only [dat8]

-- An input's buffer holds its block at every point: where it was not fetched, the block index has not moved.
theorem before8 (c : Dev nD) (t : Fin cfg8.N) :
    (∀ d, (dat8 V c).before 0 t d = iblk8 V c 0 t) ∧ (∀ d, (dat8 V c).before 1 t d = iblk8 V c 1 t) ∧ (∀ d, (dat8 V c).before 2 t d = iblk8 V c 2 t) := by
  refine ⟨?_, ?_, ?_⟩ <;> intro d <;>
  exact ((dat8 V c).before_in_eq_fetched _ rfl (fun _ => rfl) (fun _ _ _ => rfl) (fun _ => rfl) t d).trans rfl

theorem body_obligation8 (c : Dev nD) : BodyObligation (dat8 (F := F) V c) (defs₀ (F := F)) Variants.none () Set.univ := fun t => by
  rw [bigSep_W8, bigSep_W8]
  obtain ⟨h0, h1, h2⟩ := before8 V c t
  simp only [h0, h1, h2]
  rw [after8_0, after8_1, after8_2, after8_3]
  show _ ⊢ wp frame _ Set.univ (bodyAt8 t) _
  exact sound_kernel8 c Set.univ _ _ _ _ _ _ _ _ _ (iblk8 V c 0 t) (iblk8 V c 1 t) (iblk8 V c 2 t) _ _ _

end Region8

end Cert.Kernel.Hand

end
-- ==== Proof.K.Lin9.lean ====
import proofs.«123582_j22084721836889_2_alg».proof.Proof.K.BodyLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S4000x128 := Rect.unit (s := S4000x128) ![0, 0] S4000x128.size inb_S4000x128_S4000x128_0_0
abbrev r9_1 : Rect S4000x5 := Rect.unit (s := S4000x5) ![0, 0] S4000x5.size inb_S4000x5_S4000x5_0_0
abbrev r9_2 : Rect S5x128 := Rect.unit (s := S5x128) ![0, 0] S5x128.size inb_S5x128_S5x128_0_0
abbrev r9_3 : Rect S4000x1 := Rect.unit (s := S4000x1) ![0, 0] S4000x1.size inb_S4000x1_S4000x1_0_0
abbrev r9_4 : Rect S128x128 := Rect.unit (s := S128x128) ![0, 0] S128x128.size inb_S128x128_S128x128_0_0
abbrev r9_5 : Rect S1x128 := Rect.unit (s := S1x128) ![0, 0] S1x128.size inb_S1x128_S1x128_0_0

def out9_7 (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) : Vec F S4000x128 .f32 :=
  View.canon [⟨r9_0, k9_pay1 (View.ld x0 r9_0) (View.ld x1 r9_0) (View.ld x2 r9_1) (View.ld x3 r9_2) (View.ld x4 r9_3) (View.ld x5 r9_4) (View.ld x6 r9_5)⟩]

set_option maxHeartbeats 1000000 in
-- The inputs are only read and the single store covers the whole output block; whatever else is held passes through.
theorem sound_kernel9 (c : Dev nD) (E : Set ℕ) (i : grid9.Coords)
    (arg1 : Memref sig .tc .vmem S4000x128 .bf16) (harg1 : arg1.IsWhole) (arg2 : Memref sig .tc .vmem S4000x128 .f32) (harg2 : arg2.IsWhole)
    (arg3 : Memref sig .tc .vmem S4000x5 .f32) (harg3 : arg3.IsWhole) (arg4 : Memref sig .tc .vmem S5x128 .f32) (harg4 : arg4.IsWhole)
    (arg5 : Memref sig .tc .vmem S4000x1 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S4000x128 .f32) (harg8 : arg8.IsWhole)
    (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) (R S : sProp 𝕄)
    {D0 D1 D2 D3 D4 D5 D6 D7 : Type} (g : D7 → Vec F S4000x128 .f32) :
    iprop(R ∗ S ∗ (∃ _ : D0, owns c arg1 fullShare x0) ∗ (∃ _ : D1, owns c arg2 fullShare x1)
        ∗ (∃ _ : D2, owns c arg3 fullShare x2) ∗ (∃ _ : D3, owns c arg4 fullShare x3)
        ∗ (∃ _ : D4, owns c arg5 fullShare x4) ∗ (∃ _ : D5, owns c arg6 fullShare x5)
        ∗ (∃ _ : D6, owns c arg7 fullShare x6)
        ∗ (∃ d, owns c arg8 fullShare (g d)))
      ⊢ wp frame (wpE (defs₀ (F := F)) Variants.none c none) E (cc9__linear_kernel i arg1 harg1 arg2 harg2 arg3 harg3 arg4 harg4 arg5 harg5 arg6 harg6 arg7 harg7 arg8 harg8)
        fun _ => iprop(R ∗ S ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6
          ∗ owns c arg8 fullShare (out9_7 x0 x1 x2 x3 x4 x5 x6)) := by
  simp only [cc9__linear_kernel_eq_skeleton]; unfold cc9__linear_kernel_skel
  unfold owns
  iintro ⟨HR, HS, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%_, %f7, -, H7⟩⟩
  subst hf0; subst hf1; subst hf2; subst hf3; subst hf4; subst hf5; subst hf6
  sl_exec
  sl_step
  isplitl [HR]; · iexact HR
  isplitl [HS]; · iexact HS
  isplitl [H0]; · iapply owns_read; iexact H0
  isplitl [H1]; · iapply owns_read; iexact H1
  isplitl [H2]; · iapply owns_read; iexact H2
  isplitl [H3]; · iapply owns_read; iexact H3
  isplitl [H4]; · iapply owns_read; iexact H4
  isplitl [H5]; · iapply owns_read; iexact H5
  isplitl [H6]; · iapply owns_read; iexact H6
  iexists _; isplitr
  swap; · iexact H7
  ipureintro
  exact View.read_writes_eq_canon _ _ _ (View.cover_of_tiled _ S4000x128.size (by rfl))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t =
    out9_7 (iblk9 V c 0 t) (iblk9 V c 1 t) (iblk9 V c 2 t) (iblk9 V c 3 t) (iblk9 V c 4 t) (iblk9 V c 5 t) (iblk9 V c 6 t) := by dsimp only [dat9]

-- An input's buffer holds its block at every point: where it was not fetched, the block index has not moved.
theorem before9 (c : Dev nD) (t : Fin cfg9.N) :
    (∀ d, (dat9 V c).before 0 t d = iblk9 V c 0 t) ∧ (∀ d, (dat9 V c).before 1 t d = iblk9 V c 1 t) ∧ (∀ d, (dat9 V c).before 2 t d = iblk9 V c 2 t)
      ∧ (∀ d, (dat9 V c).before 3 t d = iblk9 V c 3 t) ∧ (∀ d, (dat9 V c).before 4 t d = iblk9 V c 4 t) ∧ (∀ d, (dat9 V c).before 5 t d = iblk9 V c 5 t)
      ∧ (∀ d, (dat9 V c).before 6 t d = iblk9 V c 6 t) := by
  refine ⟨?_, ?_, ?_, ?_, ?_, ?_, ?_⟩ <;> intro d <;>
  exact ((dat9 V c).before_in_eq_fetched _ rfl (fun _ => rfl) (fun _ _ _ => rfl) (fun _ => rfl) t d).trans rfl

theorem body_obligation9 (c : Dev nD) : BodyObligation (dat9 (F := F) V c) (defs₀ (F := F)) Variants.none () Set.univ := fun t => by
  rw [bigSep_W9, bigSep_W9]
  obtain ⟨h0, h1, h2, h3, h4, h5, h6⟩ := before9 V c t
  simp only [h0, h1, h2, h3, h4, h5, h6]
  rw [after9_0, after9_1, after9_2, after9_3, after9_4, after9_5, after9_6, after9_7]
  show _ ⊢ wp frame _ Set.univ (bodyAt9 t) _
  exact sound_kernel9 c Set.univ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) _ _ _

end Region9

end Cert.Kernel.Hand

end
-- ==== Proof.K.Stats10.lean ====
import proofs.«123582_j22084721836889_2_alg».proof.Proof.Gen.Kernel.Launch
import proofs.«123582_j22084721836889_2_alg».proof.Proof.Gen.Kernel.Skeleton
import proofs.«123582_j22084721836889_2_alg».proof.Proof.Gen.Kernel.Points
import proofs.«123582_j22084721836889_2_alg».proof.Proof.K.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def acc10_0 (c : Dev nD) : (n : ℕ) → Vec F S1x128 .f32
  | 0 => k10_pay1
  | n + 1 => if h : n < cfg10.N then k10_pay4 (iblk10 V c 0 ⟨n, h⟩) (acc10_0 c n) else acc10_0 c n

def acc10_1 (c : Dev nD) : (n : ℕ) → Vec F S1x128 .f32
  | 0 => k10_pay2
  | n + 1 => if h : n < cfg10.N then k10_pay5 (iblk10 V c 0 ⟨n, h⟩) (acc10_1 c n) else acc10_1 c n

theorem acc10_0_zero (c : Dev nD) (n : ℕ) (h : n = 0) : acc10_0 V c n = k10_pay1 := by subst h; rfl
theorem acc10_1_zero (c : Dev nD) (n : ℕ) (h : n = 0) : acc10_1 V c n = k10_pay2 := by subst h; rfl

theorem acc10_0_succ (c : Dev nD) (t : Fin cfg10.N) : acc10_0 V c (t.val + 1) = k10_pay4 (iblk10 V c 0 t) (acc10_0 V c t.val) := by
  rw [acc10_0]; exact dif_pos t.isLt
theorem acc10_1_succ (c : Dev nD) (t : Fin cfg10.N) : acc10_1 V c (t.val + 1) = k10_pay5 (iblk10 V c 0 t) (acc10_1 V c t.val) := by
  rw [acc10_1]; exact dif_pos t.isLt

abbrev cond10_0 (i : grid10.Coords) : Prop := (Scalar.cmpi .ne (Scalar.extui (Scalar.cmpi .eq (BitVec.ofNat 32 (i 0).val) 0#32)) 0#32) = 1#1
theorem hcond10_0 : ∀ t : Fin cfg10.N, cond10_0 (grid10.coords t) ↔ t.val = 0 :=
  (by decide +kernel : ∀ t : Fin grid10.N, cond10_0 (grid10.coords t) ↔ t.val = 0)
theorem hcond10_1 : ∀ t : Fin cfg10.N, k10_cond2 (grid10.coords t) = 1#1 ↔ t.val = 49 :=
  (by decide +kernel : ∀ t : Fin grid10.N, k10_cond2 (grid10.coords t) = 1#1 ↔ t.val = 49)

theorem liveAt10_0 : ∀ t : Fin cfg10.N, cfg10.idle 0 (grid10.coords t) = false := fun _ => rfl
theorem idle10 : ∀ t : Fin cfg10.N, ¬k10_cond2 (grid10.coords t) = 1#1 →
    cfg10.idle 1 (grid10.coords t) = true ∧ cfg10.idle 2 (grid10.coords t) = true ∧ (cfg10.win 1).flush t = false ∧ (cfg10.win 2).flush t = false := by
  decide +kernel
theorem live10 : ∀ t : Fin cfg10.N, k10_cond2 (grid10.coords t) = 1#1 → cfg10.idle 1 (grid10.coords t) = false ∧ cfg10.idle 2 (grid10.coords t) = false := by
  decide +kernel

set_option maxHeartbeats 1000000 in
-- The scratch pair restarts from zeros under the first test, takes one step on the block, and is copied out under the second.
theorem sound_kernel10 (c : Dev nD) (E : Set ℕ) (i : grid10.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc : cond10_0 i → ¬k10_cond2 i = 1#1)
    (x : Vec F S4000x128 .f32) (o1 o2 s0 s1 b0 b1 : Vec F S1x128 .f32)
    (hb0 : b0 = if cond10_0 i then k10_pay1 else s0) (hb1 : b1 = if cond10_0 i then k10_pay2 else s1) (K : PUnit → sProp 𝕄) :
    iprop(owns (c : Thread nD τ) arg1 fullShare x ∗ owns (c : Thread nD τ) arg2 fullShare o1 ∗ owns (c : Thread nD τ) arg3 fullShare o2
        ∗ owns (c : Thread nD τ) arg4 fullShare s0 ∗ owns (c : Thread nD τ) arg5 fullShare s1
        ∗ (iprop(owns (c : Thread nD τ) arg1 fullShare x
            ∗ owns (c : Thread nD τ) arg2 fullShare (if k10_cond2 i = 1#1 then k10_pay4 x b0 else o1)
            ∗ owns (c : Thread nD τ) arg3 fullShare (if k10_cond2 i = 1#1 then k10_pay5 x b1 else o2)
            ∗ owns (c : Thread nD τ) arg4 fullShare (k10_pay4 x b0) ∗ owns (c : Thread nD τ) arg5 fullShare (k10_pay5 x b1)) -∗ K ⟨⟩))
      ⊢ wp frame (wpE (defs₀ (F := F)) Variants.none c none) E (cc10__stats_kernel i arg1 harg1 arg2 harg2 arg3 harg3 arg4 harg4 arg5 harg5) K := by
  subst hb0 hb1
  simp only [cc10__stats_kernel_eq_skeleton]; unfold cc10__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  by_cases hc0 : cond10_0 i <;> by_cases hc1 : k10_cond2 i = 1#1
  · exact absurd hc1 (hc hc0)
  all_goals
    sl_exec (disch := first | exact hc0 | exact hc1)
    sl_step
    simp only [hc0, eq_true hc0, hc1, ↓reduceIte]
    iapply Hk
    isplitl [H1]; rotate_left; isplitl [H2]; rotate_left; isplitl [H3]; rotate_left; isplitl [H4]; rotate_left
    all_goals
      iexists _; isplitr; swap
      · first | iexact H1 | iexact H2 | iexact H3 | iexact H4 | iexact H5
      ipureintro
      first
      | with_reducible rfl
      | (sl_unfold_run_names
         simp only [read_writes_unit (S := S1x128) _ _ zero_offs, View.readCov_unit_zero (S := S1x128) _ zero_offs, View.readAt_eq_ld,
           View.ld_unit_zero (S := S4000x128) zero_offs, View.ld_unit_zero (S := S1x128) zero_offs])

abbrev scM10_0 : Memref sig .tc .vmem S1x128 .f32 := Memref.whole cc10_scratch0
abbrev scM10_1 : Memref sig .tc .vmem S1x128 .f32 := Memref.whole cc10_scratch1

abbrev rest10 (c : Dev nD) : sProp 𝕄 :=
  Pipeline.scopedRestBut (Ix := Unit) (Name := ℕ) (U := UR sig nD τ) (Lvl := ℕ) (Val := Elt F) spec10 c [cc10_scratch0, cc10_scratch1]

-- Before point n the scratch pair holds the accumulators over the first n points (anything, before the first point).
def Phi10 (c : Dev nD) (n : ℕ) : sProp 𝕄 :=
  iprop(rest10 (F := F) c ∗ (∃ r, prngReg c r) ∗ ∃ s0 s1, ⌜n ≠ 0 → s0 = acc10_0 V c n ∧ s1 = acc10_1 V c n⌝
    ∗ owns (c : Thread nD τ) scM10_0 fullShare s0 ∗ owns (c : Thread nD τ) scM10_1 fullShare s1)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => acc10_0 V c (t.val + 1)
    | ⟨2, _⟩ => acc10_1 V c (t.val + 1)
  Φ t := Phi10 V c t.val
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = acc10_0 V c (t.val + 1) := by dsimp only [dat10]
theorem after10_2 (c : Dev nD) (t : Fin cfg10.N) : (dat10 V c).after 2 t = acc10_1 V c (t.val + 1) := by dsimp only [dat10]

theorem before10_0 (c : Dev nD) (t : Fin cfg10.N) (d) : (dat10 V c).before 0 t d = iblk10 V c 0 t :=
  ((dat10 V c).before_in_eq_fetched 0 rfl (fun _ => rfl) (fun _ _ _ => rfl)
    (fun t => by rw [after10_0]; unfold Dat.blockOf iblk10; rw [A_eq10]; try rfl) t d).trans
    (by unfold Dat.fetched Dat.blockOf iblk10; rw [A_eq10]; try rfl)

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

-- One step of the invariant, at any point.
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0]
  rw [show (dat10 V c).owesAt () t.succ = (dat10 V c).owesAt () t.castSucc from rfl,
    show (dat10 V c).Φ t.castSucc = Phi10 V c t.val from rfl, show (dat10 V c).Φ t.succ = Phi10 V c (t.val + 1) from rfl,
    show (dat10 V c).leavesExact 0 t = owns (c : Thread nD τ) (st10_0 t) fullShare ((dat10 V c).after 0 t) from by
      unfold Dat.leavesExact; rw [liveAt10_0 t], after10_0]
  unfold Phi10
  iintro ⟨⟨Hrest, Hg, %s0, %s1, %hs, HS0, HS1⟩, Ho, ⟨%d0, H0⟩, ⟨%d1, H1⟩, ⟨%d2, H2⟩⟩
  have e0 : acc10_0 V c t.val = (if cond10_0 (grid10.coords t) then k10_pay1 else s0)
      ∧ acc10_1 V c t.val = (if cond10_0 (grid10.coords t) then k10_pay2 else s1) := by
    by_cases h0 : t.val = 0
    · rw [if_pos ((hcond10_0 t).mpr h0), if_pos ((hcond10_0 t).mpr h0), acc10_0_zero V c _ h0, acc10_1_zero V c _ h0]; exact ⟨rfl, rfl⟩
    · rw [if_neg (fun h => h0 ((hcond10_0 t).mp h)), if_neg (fun h => h0 ((hcond10_0 t).mp h))]
      exact ⟨(hs h0).1.symm, (hs h0).2.symm⟩
  iapply (sound_kernel10 c Set.univ (grid10.coords t) _ _ _ _ _ _ _ _ _ _
    (fun h h' => by have := (hcond10_0 t).mp h; have := (hcond10_1 t).mp h'; omega) (iblk10 V c 0 t)
    ((dat10 V c).before 1 t d1) ((dat10 V c).before 2 t d2) s0 s1 _ _ e0.1 e0.2 _)
  rw [← acc10_0_succ, ← acc10_1_succ]
  iframe H0 H1 H2 HS0 HS1
  iintro ⟨H0, H1, H2, HS0, HS1⟩
  iframe Hrest Hg Ho H0
  isplitl [HS0 HS1]
  · iexists acc10_0 V c (t.val + 1), acc10_1 V c (t.val + 1)
    isplitr; · ipureintro; exact fun _ => ⟨rfl, rfl⟩
    iframe
  by_cases hc1 : k10_cond2 (grid10.coords t) = 1#1
  · rw [if_pos hc1, if_pos hc1,
      show (dat10 V c).leavesExact 1 t = owns (c : Thread nD τ) (st10_1 t) fullShare ((dat10 V c).after 1 t) from by
        unfold Dat.leavesExact; rw [(live10 t hc1).1], after10_1,
      show (dat10 V c).leavesExact 2 t = owns (c : Thread nD τ) (st10_2 t) fullShare ((dat10 V c).after 2 t) from by
        unfold Dat.leavesExact; rw [(live10 t hc1).2], after10_2]
    iframe
  · rw [if_neg hc1, if_neg hc1, Dat.leavesExact_idle (dat10 V c) 1 t (idle10 t hc1).1 (idle10 t hc1).2.2.1,
      Dat.leavesExact_idle (dat10 V c) 2 t (idle10 t hc1).2.1 (idle10 t hc1).2.2.2]
    isplitl [H1]; · iexists _; iexact H1
    iexists _; iexact H2

theorem body_obligation10 (c : Dev nD) : BodyObligation (dat10 (F := F) V c) (defs₀ (F := F)) Variants.none () Set.univ := fun t => by
  rw [bigSep_W10, bigSep_W10]
  exact sound_body10 V c t

theorem Phi10_in (c : Dev nD) :
    iprop((∃ r, prngReg c r) ∗ Pipeline.scopedRest (Ix := Unit) (Name := ℕ) (U := UR sig nD τ) (Lvl := ℕ) (Val := Elt F) spec10 c)
      ⊢ (dat10 V c).Φ 0 := by
  rw [show (dat10 V c).Φ 0 = Phi10 V c 0 from rfl, scopedRest10_split]
  unfold Phi10
  simp only [scM10_0, scM10_1, owns_whole]
  iintro ⟨Hg, ⟨⟨%s0, HS0⟩, ⟨%s1, HS1⟩⟩, Hrest⟩
  iframe Hg Hrest
  iexists s0, s1
  isplitr; · ipureintro; exact fun h => absurd rfl h
  iframe

-- The accumulators' contents are forgotten.
theorem Phi10_out (c : Dev nD) :
    (dat10 V c).Φ (Fin.last cfg10.N)
      ⊢ iprop((∃ r, prngReg c r) ∗ Pipeline.scopedRest (Ix := Unit) (Name := ℕ) (U := UR sig nD τ) (Lvl := ℕ) (Val := Elt F) spec10 c) := by
  rw [show (dat10 V c).Φ (Fin.last cfg10.N) = Phi10 V c (Fin.last cfg10.N).val from rfl, scopedRest10_split]
  unfold Phi10
  simp only [scM10_0, scM10_1, owns_whole]
  iintro ⟨Hrest, Hg, %s0, %s1, -, HS0, HS1⟩
  iframe Hrest Hg
  isplitl [HS0]; · iexists _; iexact HS0
  iexists _; iexact HS1

-- The block's offsets in the array are zero on both axes.
theorem off10_1 (t : Fin cfg10.N) : (fun a => (cfg10.win 1).index t a * (cfg10.win 1).size a) = fun _ => 0 :=
  funext fun a => by fin_cases a <;> rfl
theorem off10_2 (t : Fin cfg10.N) : (fun a => (cfg10.win 2).index t a * (cfg10.win 2).size a) = fun _ => 0 :=
  funext fun a => by fin_cases a <;> rfl

theorem mem_blk10_1 (t : Fin cfg10.N) (i : S1x128.Idx) : i ∈ ((cfg10.win 1).blk t).view.set := by
  show i ∈ ((View.whole main_v161_0).slice (win10_1.rect t)).set
  rw [View.set_slice_whole]
  exact View.mem_set_unit_zero (S := S1x128) (off10_1 t) _ i
theorem mem_blk10_2 (t : Fin cfg10.N) (i : S1x128.Idx) : i ∈ ((cfg10.win 2).blk t).view.set := by
  show i ∈ ((View.whole main_v161_1).slice (win10_2.rect t)).set
  rw [View.set_slice_whole]
  exact View.mem_set_unit_zero (S := S1x128) (off10_2 t) _ i

theorem lt49_10 : (49 : ℕ) < cfg10.N := by rw [show cfg10.N = 50 from N_10]; omega
theorem last10 (t : Fin cfg10.N) (h : t.val % 50 = 49) : t.val = 49 := by have := lt_of_lt_of_eq t.isLt N_10; omega

theorem arrAt10_1 (c : Dev nD) : (dat10 V c).arrAt 1 cfg10.N = acc10_0 V c 50 := by
  refine (dat10 V c).arrAt_eq_of_cover 1 (acc10_0 V c 50) (fun t hf => ?_) (fun i => ⟨⟨49, lt49_10⟩, (flush10_1 _).mpr rfl, mem_blk10_1 _ i⟩)
  rw [show ((cfg10.win 1).blk t).view.read (Elt F) _ = _ from View.ld_unit_zero (S := S1x128) (off10_1 t) _ _]
  show (dat10 V c).after 1 t = _
  rw [after10_1, last10 t ((flush10_1 t).mp hf)]

theorem arrAt10_2 (c : Dev nD) : (dat10 V c).arrAt 2 cfg10.N = acc10_1 V c 50 := by
  refine (dat10 V c).arrAt_eq_of_cover 2 (acc10_1 V c 50) (fun t hf => ?_) (fun i => ⟨⟨49, lt49_10⟩, (flush10_2 _).mpr rfl, mem_blk10_2 _ i⟩)
  rw [show ((cfg10.win 2).blk t).view.read (Elt F) _ = _ from View.ld_unit_zero (S := S1x128) (off10_2 t) _ _]
  show (dat10 V c).after 2 t = _
  rw [after10_2, last10 t ((flush10_2 t).mp hf)]

end Cert.Kernel.Hand

end
-- ==== Proof.K.Norm11.lean ====
import proofs.«123582_j22084721836889_2_alg».proof.Proof.K.BodyLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region11
variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev r11_0 : Rect S4000x128 := Rect.unit (s := S4000x128) ![0, 0] S4000x128.size inb_S4000x128_S4000x128_0_0
abbrev r11_1 : Rect S1x128 := Rect.unit (s := S1x128) ![0, 0] S1x128.size inb_S1x128_S1x128_0_0

def out11_3 (x0 : Vec F S4000x128 .f32) (x1 : Vec F S1x128 .f32) (x2 : Vec F S1x128 .f32) : Vec F S4000x128 .bf16 :=
  View.canon [⟨r11_0, k11_pay1 (View.ld x0 r11_0) (View.ld x1 r11_1) (View.ld x2 r11_1)⟩]

set_option maxHeartbeats 1000000 in
-- The inputs are only read and the single store covers the whole output block; whatever else is held passes through.
theorem sound_kernel11 (c : Dev nD) (E : Set ℕ) (i : grid11.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S4000x128 .bf16) (harg4 : arg4.IsWhole)
    (x0 : Vec F S4000x128 .f32) (x1 : Vec F S1x128 .f32) (x2 : Vec F S1x128 .f32) (R S : sProp 𝕄)
    {D0 D1 D2 D3 : Type} (g : D3 → Vec F S4000x128 .bf16) :
    iprop(R ∗ S ∗ (∃ _ : D0, owns c arg1 fullShare x0) ∗ (∃ _ : D1, owns c arg2 fullShare x1)
        ∗ (∃ _ : D2, owns c arg3 fullShare x2)
        ∗ (∃ d, owns c arg4 fullShare (g d)))
      ⊢ wp frame (wpE (defs₀ (F := F)) Variants.none c none) E (cc11__norm_relu_kernel i arg1 harg1 arg2 harg2 arg3 harg3 arg4 harg4)
        fun _ => iprop(R ∗ S ∗ owns c arg1 fullShare x0 ∗ owns c arg2 fullShare x1 ∗ owns c arg3 fullShare x2
          ∗ owns c arg4 fullShare (out11_3 x0 x1 x2)) := by
  simp only [cc11__norm_relu_kernel_eq_skeleton]; unfold cc11__norm_relu_kernel_skel
  unfold owns
  iintro ⟨HR, HS, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HR]; · iexact HR
  isplitl [HS]; · iexact HS
  isplitl [H0]; · iapply owns_read; iexact H0
  isplitl [H1]; · iapply owns_read; iexact H1
  isplitl [H2]; · iapply owns_read; iexact H2
  iexists _; isplitr
  swap; · iexact H3
  ipureintro
  exact View.read_writes_eq_canon _ _ _ (View.cover_of_tiled _ S4000x128.size (by rfl))

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t =
    out11_3 (iblk11 V c 0 t) (iblk11 V c 1 t) (iblk11 V c 2 t) := by dsimp only [dat11]

-- An input's buffer holds its block at every point: where it was not fetched, the block index has not moved.
theorem before11 (c : Dev nD) (t : Fin cfg11.N) :
    (∀ d, (dat11 V c).before 0 t d = iblk11 V c 0 t) ∧ (∀ d, (dat11 V c).before 1 t d = iblk11 V c 1 t) ∧ (∀ d, (dat11 V c).before 2 t d = iblk11 V c 2 t) := by
  refine ⟨?_, ?_, ?_⟩ <;> intro d <;>
  exact ((dat11 V c).before_in_eq_fetched _ rfl (fun _ => rfl) (fun _ _ _ => rfl) (fun _ => rfl) t d).trans rfl

theorem body_obligation11 (c : Dev nD) : BodyObligation (dat11 (F := F) V c) (defs₀ (F := F)) Variants.none () Set.univ := fun t => by
  rw [bigSep_W11, bigSep_W11]
  obtain ⟨h0, h1, h2⟩ := before11 V c t
  simp only [h0, h1, h2]
  rw [after11_0, after11_1, after11_2, after11_3]
  show _ ⊢ wp frame _ Set.univ (bodyAt11 t) _
  exact sound_kernel11 c Set.univ _ _ _ _ _ _ _ _ _ (iblk11 V c 0 t) (iblk11 V c 1 t) (iblk11 V c 2 t) _ _ _

end Region11

end Cert.Kernel.Hand

end
-- ==== Proof.K.Lin12.lean ====
import proofs.«123582_j22084721836889_2_alg».proof.Proof.K.BodyLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region12
variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S4000x128 := Rect.unit (s := S4000x128) ![0, 0] S4000x128.size inb_S4000x128_S4000x128_0_0
abbrev r12_1 : Rect S4000x5 := Rect.unit (s := S4000x5) ![0, 0] S4000x5.size inb_S4000x5_S4000x5_0_0
abbrev r12_2 : Rect S5x128 := Rect.unit (s := S5x128) ![0, 0] S5x128.size inb_S5x128_S5x128_0_0
abbrev r12_3 : Rect S4000x1 := Rect.unit (s := S4000x1) ![0, 0] S4000x1.size inb_S4000x1_S4000x1_0_0
abbrev r12_4 : Rect S128x128 := Rect.unit (s := S128x128) ![0, 0] S128x128.size inb_S128x128_S128x128_0_0
abbrev r12_5 : Rect S1x128 := Rect.unit (s := S1x128) ![0, 0] S1x128.size inb_S1x128_S1x128_0_0

def out12_7 (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) : Vec F S4000x128 .f32 :=
  View.canon [⟨r12_0, k12_pay1 (View.ld x0 r12_0) (View.ld x1 r12_0) (View.ld x2 r12_1) (View.ld x3 r12_2) (View.ld x4 r12_3) (View.ld x5 r12_4) (View.ld x6 r12_5)⟩]

set_option maxHeartbeats 1000000 in
-- The inputs are only read and the single store covers the whole output block; whatever else is held passes through.
theorem sound_kernel12 (c : Dev nD) (E : Set ℕ) (i : grid12.Coords)
    (arg1 : Memref sig .tc .vmem S4000x128 .bf16) (harg1 : arg1.IsWhole) (arg2 : Memref sig .tc .vmem S4000x128 .f32) (harg2 : arg2.IsWhole)
    (arg3 : Memref sig .tc .vmem S4000x5 .f32) (harg3 : arg3.IsWhole) (arg4 : Memref sig .tc .vmem S5x128 .f32) (harg4 : arg4.IsWhole)
    (arg5 : Memref sig .tc .vmem S4000x1 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S4000x128 .f32) (harg8 : arg8.IsWhole)
    (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) (R S : sProp 𝕄)
    {D0 D1 D2 D3 D4 D5 D6 D7 : Type} (g : D7 → Vec F S4000x128 .f32) :
    iprop(R ∗ S ∗ (∃ _ : D0, owns c arg1 fullShare x0) ∗ (∃ _ : D1, owns c arg2 fullShare x1)
        ∗ (∃ _ : D2, owns c arg3 fullShare x2) ∗ (∃ _ : D3, owns c arg4 fullShare x3)
        ∗ (∃ _ : D4, owns c arg5 fullShare x4) ∗ (∃ _ : D5, owns c arg6 fullShare x5)
        ∗ (∃ _ : D6, owns c arg7 fullShare x6)
        ∗ (∃ d, owns c arg8 fullShare (g d)))
      ⊢ wp frame (wpE (defs₀ (F := F)) Variants.none c none) E (cc12__linear_kernel i arg1 harg1 arg2 harg2 arg3 harg3 arg4 harg4 arg5 harg5 arg6 harg6 arg7 harg7 arg8 harg8)
        fun _ => iprop(R ∗ S ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6
          ∗ owns c arg8 fullShare (out12_7 x0 x1 x2 x3 x4 x5 x6)) := by
  simp only [cc12__linear_kernel_eq_skeleton]; unfold cc12__linear_kernel_skel
  unfold owns
  iintro ⟨HR, HS, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%_, %f7, -, H7⟩⟩
  subst hf0; subst hf1; subst hf2; subst hf3; subst hf4; subst hf5; subst hf6
  sl_exec
  sl_step
  isplitl [HR]; · iexact HR
  isplitl [HS]; · iexact HS
  isplitl [H0]; · iapply owns_read; iexact H0
  isplitl [H1]; · iapply owns_read; iexact H1
  isplitl [H2]; · iapply owns_read; iexact H2
  isplitl [H3]; · iapply owns_read; iexact H3
  isplitl [H4]; · iapply owns_read; iexact H4
  isplitl [H5]; · iapply owns_read; iexact H5
  isplitl [H6]; · iapply owns_read; iexact H6
  iexists _; isplitr
  swap; · iexact H7
  ipureintro
  exact View.read_writes_eq_canon _ _ _ (View.cover_of_tiled _ S4000x128.size (by rfl))

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t =
    out12_7 (iblk12 V c 0 t) (iblk12 V c 1 t) (iblk12 V c 2 t) (iblk12 V c 3 t) (iblk12 V c 4 t) (iblk12 V c 5 t) (iblk12 V c 6 t) := by dsimp only [dat12]

-- An input's buffer holds its block at every point: where it was not fetched, the block index has not moved.
theorem before12 (c : Dev nD) (t : Fin cfg12.N) :
    (∀ d, (dat12 V c).before 0 t d = iblk12 V c 0 t) ∧ (∀ d, (dat12 V c).before 1 t d = iblk12 V c 1 t) ∧ (∀ d, (dat12 V c).before 2 t d = iblk12 V c 2 t)
      ∧ (∀ d, (dat12 V c).before 3 t d = iblk12 V c 3 t) ∧ (∀ d, (dat12 V c).before 4 t d = iblk12 V c 4 t) ∧ (∀ d, (dat12 V c).before 5 t d = iblk12 V c 5 t)
      ∧ (∀ d, (dat12 V c).before 6 t d = iblk12 V c 6 t) := by
  refine ⟨?_, ?_, ?_, ?_, ?_, ?_, ?_⟩ <;> intro d <;>
  exact ((dat12 V c).before_in_eq_fetched _ rfl (fun _ => rfl) (fun _ _ _ => rfl) (fun _ => rfl) t d).trans rfl

theorem body_obligation12 (c : Dev nD) : BodyObligation (dat12 (F := F) V c) (defs₀ (F := F)) Variants.none () Set.univ := fun t => by
  rw [bigSep_W12, bigSep_W12]
  obtain ⟨h0, h1, h2, h3, h4, h5, h6⟩ := before12 V c t
  simp only [h0, h1, h2, h3, h4, h5, h6]
  rw [after12_0, after12_1, after12_2, after12_3, after12_4, after12_5, after12_6, after12_7]
  show _ ⊢ wp frame _ Set.univ (bodyAt12 t) _
  exact sound_kernel12 c Set.univ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _ _ _

end Region12

end Cert.Kernel.Hand

end
-- ==== Proof.K.Stats13.lean ====
import proofs.«123582_j22084721836889_2_alg».proof.Proof.Gen.Kernel.Launch
import proofs.«123582_j22084721836889_2_alg».proof.Proof.Gen.Kernel.Skeleton
import proofs.«123582_j22084721836889_2_alg».proof.Proof.Gen.Kernel.Points
import proofs.«123582_j22084721836889_2_alg».proof.Proof.K.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

def acc13_0 (c : Dev nD) : (n : ℕ) → Vec F S1x128 .f32
  | 0 => k13_pay1
  | n + 1 => if h : n < cfg13.N then k13_pay4 (iblk13 V c 0 ⟨n, h⟩) (acc13_0 c n) else acc13_0 c n

def acc13_1 (c : Dev nD) : (n : ℕ) → Vec F S1x128 .f32
  | 0 => k13_pay2
  | n + 1 => if h : n < cfg13.N then k13_pay5 (iblk13 V c 0 ⟨n, h⟩) (acc13_1 c n) else acc13_1 c n

theorem acc13_0_zero (c : Dev nD) (n : ℕ) (h : n = 0) : acc13_0 V c n = k13_pay1 := by subst h; rfl
theorem acc13_1_zero (c : Dev nD) (n : ℕ) (h : n = 0) : acc13_1 V c n = k13_pay2 := by subst h; rfl

theorem acc13_0_succ (c : Dev nD) (t : Fin cfg13.N) : acc13_0 V c (t.val + 1) = k13_pay4 (iblk13 V c 0 t) (acc13_0 V c t.val) := by
  rw [acc13_0]; exact dif_pos t.isLt
theorem acc13_1_succ (c : Dev nD) (t : Fin cfg13.N) : acc13_1 V c (t.val + 1) = k13_pay5 (iblk13 V c 0 t) (acc13_1 V c t.val) := by
  rw [acc13_1]; exact dif_pos t.isLt

abbrev cond13_0 (i : grid13.Coords) : Prop := (Scalar.cmpi .ne (Scalar.extui (Scalar.cmpi .eq (BitVec.ofNat 32 (i 0).val) 0#32)) 0#32) = 1#1
theorem hcond13_0 : ∀ t : Fin cfg13.N, cond13_0 (grid13.coords t) ↔ t.val = 0 :=
  (by decide +kernel : ∀ t : Fin grid13.N, cond13_0 (grid13.coords t) ↔ t.val = 0)
theorem hcond13_1 : ∀ t : Fin cfg13.N, k13_cond2 (grid13.coords t) = 1#1 ↔ t.val = 49 :=
  (by decide +kernel : ∀ t : Fin grid13.N, k13_cond2 (grid13.coords t) = 1#1 ↔ t.val = 49)

theorem liveAt13_0 : ∀ t : Fin cfg13.N, cfg13.idle 0 (grid13.coords t) = false := fun _ => rfl
theorem idle13 : ∀ t : Fin cfg13.N, ¬k13_cond2 (grid13.coords t) = 1#1 →
    cfg13.idle 1 (grid13.coords t) = true ∧ cfg13.idle 2 (grid13.coords t) = true ∧ (cfg13.win 1).flush t = false ∧ (cfg13.win 2).flush t = false := by
  decide +kernel
theorem live13 : ∀ t : Fin cfg13.N, k13_cond2 (grid13.coords t) = 1#1 → cfg13.idle 1 (grid13.coords t) = false ∧ cfg13.idle 2 (grid13.coords t) = false := by
  decide +kernel

set_option maxHeartbeats 1000000 in
-- The scratch pair restarts from zeros under the first test, takes one step on the block, and is copied out under the second.
theorem sound_kernel13 (c : Dev nD) (E : Set ℕ) (i : grid13.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc : cond13_0 i → ¬k13_cond2 i = 1#1)
    (x : Vec F S4000x128 .f32) (o1 o2 s0 s1 b0 b1 : Vec F S1x128 .f32)
    (hb0 : b0 = if cond13_0 i then k13_pay1 else s0) (hb1 : b1 = if cond13_0 i then k13_pay2 else s1) (K : PUnit → sProp 𝕄) :
    iprop(owns (c : Thread nD τ) arg1 fullShare x ∗ owns (c : Thread nD τ) arg2 fullShare o1 ∗ owns (c : Thread nD τ) arg3 fullShare o2
        ∗ owns (c : Thread nD τ) arg4 fullShare s0 ∗ owns (c : Thread nD τ) arg5 fullShare s1
        ∗ (iprop(owns (c : Thread nD τ) arg1 fullShare x
            ∗ owns (c : Thread nD τ) arg2 fullShare (if k13_cond2 i = 1#1 then k13_pay4 x b0 else o1)
            ∗ owns (c : Thread nD τ) arg3 fullShare (if k13_cond2 i = 1#1 then k13_pay5 x b1 else o2)
            ∗ owns (c : Thread nD τ) arg4 fullShare (k13_pay4 x b0) ∗ owns (c : Thread nD τ) arg5 fullShare (k13_pay5 x b1)) -∗ K ⟨⟩))
      ⊢ wp frame (wpE (defs₀ (F := F)) Variants.none c none) E (cc13__stats_kernel i arg1 harg1 arg2 harg2 arg3 harg3 arg4 harg4 arg5 harg5) K := by
  subst hb0 hb1
  simp only [cc13__stats_kernel_eq_skeleton]; unfold cc13__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  by_cases hc0 : cond13_0 i <;> by_cases hc1 : k13_cond2 i = 1#1
  · exact absurd hc1 (hc hc0)
  all_goals
    sl_exec (disch := first | exact hc0 | exact hc1)
    sl_step
    simp only [hc0, eq_true hc0, hc1, ↓reduceIte]
    iapply Hk
    isplitl [H1]; rotate_left; isplitl [H2]; rotate_left; isplitl [H3]; rotate_left; isplitl [H4]; rotate_left
    all_goals
      iexists _; isplitr; swap
      · first | iexact H1 | iexact H2 | iexact H3 | iexact H4 | iexact H5
      ipureintro
      first
      | with_reducible rfl
      | (sl_unfold_run_names
         simp only [read_writes_unit (S := S1x128) _ _ zero_offs, View.readCov_unit_zero (S := S1x128) _ zero_offs, View.readAt_eq_ld,
           View.ld_unit_zero (S := S4000x128) zero_offs, View.ld_unit_zero (S := S1x128) zero_offs])

abbrev scM13_0 : Memref sig .tc .vmem S1x128 .f32 := Memref.whole cc13_scratch0
abbrev scM13_1 : Memref sig .tc .vmem S1x128 .f32 := Memref.whole cc13_scratch1

abbrev rest13 (c : Dev nD) : sProp 𝕄 :=
  Pipeline.scopedRestBut (Ix := Unit) (Name := ℕ) (U := UR sig nD τ) (Lvl := ℕ) (Val := Elt F) spec13 c [cc13_scratch0, cc13_scratch1]

-- Before point n the scratch pair holds the accumulators over the first n points (anything, before the first point).
def Phi13 (c : Dev nD) (n : ℕ) : sProp 𝕄 :=
  iprop(rest13 (F := F) c ∗ (∃ r, prngReg c r) ∗ ∃ s0 s1, ⌜n ≠ 0 → s0 = acc13_0 V c n ∧ s1 = acc13_1 V c n⌝
    ∗ owns (c : Thread nD τ) scM13_0 fullShare s0 ∗ owns (c : Thread nD τ) scM13_1 fullShare s1)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => acc13_0 V c (t.val + 1)
    | ⟨2, _⟩ => acc13_1 V c (t.val + 1)
  Φ t := Phi13 V c t.val
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = acc13_0 V c (t.val + 1) := by dsimp only [dat13]
theorem after13_2 (c : Dev nD) (t : Fin cfg13.N) : (dat13 V c).after 2 t = acc13_1 V c (t.val + 1) := by dsimp only [dat13]

theorem before13_0 (c : Dev nD) (t : Fin cfg13.N) (d) : (dat13 V c).before 0 t d = iblk13 V c 0 t :=
  ((dat13 V c).before_in_eq_fetched 0 rfl (fun _ => rfl) (fun _ _ _ => rfl)
    (fun t => by rw [after13_0]; unfold Dat.blockOf iblk13; rw [A_eq13]; try rfl) t d).trans
    (by unfold Dat.fetched Dat.blockOf iblk13; rw [A_eq13]; try rfl)

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

-- One step of the invariant, at any point.
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0]
  rw [show (dat13 V c).owesAt () t.succ = (dat13 V c).owesAt () t.castSucc from rfl,
    show (dat13 V c).Φ t.castSucc = Phi13 V c t.val from rfl, show (dat13 V c).Φ t.succ = Phi13 V c (t.val + 1) from rfl,
    show (dat13 V c).leavesExact 0 t = owns (c : Thread nD τ) (st13_0 t) fullShare ((dat13 V c).after 0 t) from by
      unfold Dat.leavesExact; rw [liveAt13_0 t], after13_0]
  unfold Phi13
  iintro ⟨⟨Hrest, Hg, %s0, %s1, %hs, HS0, HS1⟩, Ho, ⟨%d0, H0⟩, ⟨%d1, H1⟩, ⟨%d2, H2⟩⟩
  have e0 : acc13_0 V c t.val = (if cond13_0 (grid13.coords t) then k13_pay1 else s0)
      ∧ acc13_1 V c t.val = (if cond13_0 (grid13.coords t) then k13_pay2 else s1) := by
    by_cases h0 : t.val = 0
    · rw [if_pos ((hcond13_0 t).mpr h0), if_pos ((hcond13_0 t).mpr h0), acc13_0_zero V c _ h0, acc13_1_zero V c _ h0]; exact ⟨rfl, rfl⟩
    · rw [if_neg (fun h => h0 ((hcond13_0 t).mp h)), if_neg (fun h => h0 ((hcond13_0 t).mp h))]
      exact ⟨(hs h0).1.symm, (hs h0).2.symm⟩
  iapply (sound_kernel13 c Set.univ (grid13.coords t) _ _ _ _ _ _ _ _ _ _
    (fun h h' => by have := (hcond13_0 t).mp h; have := (hcond13_1 t).mp h'; omega) (iblk13 V c 0 t)
    ((dat13 V c).before 1 t d1) ((dat13 V c).before 2 t d2) s0 s1 _ _ e0.1 e0.2 _)
  rw [← acc13_0_succ, ← acc13_1_succ]
  iframe H0 H1 H2 HS0 HS1
  iintro ⟨H0, H1, H2, HS0, HS1⟩
  iframe Hrest Hg Ho H0
  isplitl [HS0 HS1]
  · iexists acc13_0 V c (t.val + 1), acc13_1 V c (t.val + 1)
    isplitr; · ipureintro; exact fun _ => ⟨rfl, rfl⟩
    iframe
  by_cases hc1 : k13_cond2 (grid13.coords t) = 1#1
  · rw [if_pos hc1, if_pos hc1,
      show (dat13 V c).leavesExact 1 t = owns (c : Thread nD τ) (st13_1 t) fullShare ((dat13 V c).after 1 t) from by
        unfold Dat.leavesExact; rw [(live13 t hc1).1], after13_1,
      show (dat13 V c).leavesExact 2 t = owns (c : Thread nD τ) (st13_2 t) fullShare ((dat13 V c).after 2 t) from by
        unfold Dat.leavesExact; rw [(live13 t hc1).2], after13_2]
    iframe
  · rw [if_neg hc1, if_neg hc1, Dat.leavesExact_idle (dat13 V c) 1 t (idle13 t hc1).1 (idle13 t hc1).2.2.1,
      Dat.leavesExact_idle (dat13 V c) 2 t (idle13 t hc1).2.1 (idle13 t hc1).2.2.2]
    isplitl [H1]; · iexists _; iexact H1
    iexists _; iexact H2

theorem body_obligation13 (c : Dev nD) : BodyObligation (dat13 (F := F) V c) (defs₀ (F := F)) Variants.none () Set.univ := fun t => by
  rw [bigSep_W13, bigSep_W13]
  exact sound_body13 V c t

theorem Phi13_in (c : Dev nD) :
    iprop((∃ r, prngReg c r) ∗ Pipeline.scopedRest (Ix := Unit) (Name := ℕ) (U := UR sig nD τ) (Lvl := ℕ) (Val := Elt F) spec13 c)
      ⊢ (dat13 V c).Φ 0 := by
  rw [show (dat13 V c).Φ 0 = Phi13 V c 0 from rfl, scopedRest13_split]
  unfold Phi13
  simp only [scM13_0, scM13_1, owns_whole]
  iintro ⟨Hg, ⟨⟨%s0, HS0⟩, ⟨%s1, HS1⟩⟩, Hrest⟩
  iframe Hg Hrest
  iexists s0, s1
  isplitr; · ipureintro; exact fun h => absurd rfl h
  iframe

-- The accumulators' contents are forgotten.
theorem Phi13_out (c : Dev nD) :
    (dat13 V c).Φ (Fin.last cfg13.N)
      ⊢ iprop((∃ r, prngReg c r) ∗ Pipeline.scopedRest (Ix := Unit) (Name := ℕ) (U := UR sig nD τ) (Lvl := ℕ) (Val := Elt F) spec13 c) := by
  rw [show (dat13 V c).Φ (Fin.last cfg13.N) = Phi13 V c (Fin.last cfg13.N).val from rfl, scopedRest13_split]
  unfold Phi13
  simp only [scM13_0, scM13_1, owns_whole]
  iintro ⟨Hrest, Hg, %s0, %s1, -, HS0, HS1⟩
  iframe Hrest Hg
  isplitl [HS0]; · iexists _; iexact HS0
  iexists _; iexact HS1

-- The block's offsets in the array are zero on both axes.
theorem off13_1 (t : Fin cfg13.N) : (fun a => (cfg13.win 1).index t a * (cfg13.win 1).size a) = fun _ => 0 :=
  funext fun a => by fin_cases a <;> rfl
theorem off13_2 (t : Fin cfg13.N) : (fun a => (cfg13.win 2).index t a * (cfg13.win 2).size a) = fun _ => 0 :=
  funext fun a => by fin_cases a <;> rfl

theorem mem_blk13_1 (t : Fin cfg13.N) (i : S1x128.Idx) : i ∈ ((cfg13.win 1).blk t).view.set := by
  show i ∈ ((View.whole main_v202_0).slice (win13_1.rect t)).set
  rw [View.set_slice_whole]
  exact View.mem_set_unit_zero (S := S1x128) (off13_1 t) _ i
theorem mem_blk13_2 (t : Fin cfg13.N) (i : S1x128.Idx) : i ∈ ((cfg13.win 2).blk t).view.set := by
  show i ∈ ((View.whole main_v202_1).slice (win13_2.rect t)).set
  rw [View.set_slice_whole]
  exact View.mem_set_unit_zero (S := S1x128) (off13_2 t) _ i

theorem lt49_13 : (49 : ℕ) < cfg13.N := by rw [show cfg13.N = 50 from N_13]; omega
theorem last13 (t : Fin cfg13.N) (h : t.val % 50 = 49) : t.val = 49 := by have := lt_of_lt_of_eq t.isLt N_13; omega

theorem arrAt13_1 (c : Dev nD) : (dat13 V c).arrAt 1 cfg13.N = acc13_0 V c 50 := by
  refine (dat13 V c).arrAt_eq_of_cover 1 (acc13_0 V c 50) (fun t hf => ?_) (fun i => ⟨⟨49, lt49_13⟩, (flush13_1 _).mpr rfl, mem_blk13_1 _ i⟩)
  rw [show ((cfg13.win 1).blk t).view.read (Elt F) _ = _ from View.ld_unit_zero (S := S1x128) (off13_1 t) _ _]
  show (dat13 V c).after 1 t = _
  rw [after13_1, last13 t ((flush13_1 t).mp hf)]

theorem arrAt13_2 (c : Dev nD) : (dat13 V c).arrAt 2 cfg13.N = acc13_1 V c 50 := by
  refine (dat13 V c).arrAt_eq_of_cover 2 (acc13_1 V c 50) (fun t hf => ?_) (fun i => ⟨⟨49, lt49_13⟩, (flush13_2 _).mpr rfl, mem_blk13_2 _ i⟩)
  rw [show ((cfg13.win 2).blk t).view.read (Elt F) _ = _ from View.ld_unit_zero (S := S1x128) (off13_2 t) _ _]
  show (dat13 V c).after 2 t = _
  rw [after13_2, last13 t ((flush13_2 t).mp hf)]

end Cert.Kernel.Hand

end
-- ==== Proof.K.Norm14.lean ====
import proofs.«123582_j22084721836889_2_alg».proof.Proof.K.BodyLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region14
variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

abbrev r14_0 : Rect S4000x128 := Rect.unit (s := S4000x128) ![0, 0] S4000x128.size inb_S4000x128_S4000x128_0_0
abbrev r14_1 : Rect S1x128 := Rect.unit (s := S1x128) ![0, 0] S1x128.size inb_S1x128_S1x128_0_0

def out14_3 (x0 : Vec F S4000x128 .f32) (x1 : Vec F S1x128 .f32) (x2 : Vec F S1x128 .f32) : Vec F S4000x128 .bf16 :=
  View.canon [⟨r14_0, k14_pay1 (View.ld x0 r14_0) (View.ld x1 r14_1) (View.ld x2 r14_1)⟩]

set_option maxHeartbeats 1000000 in
-- The inputs are only read and the single store covers the whole output block; whatever else is held passes through.
theorem sound_kernel14 (c : Dev nD) (E : Set ℕ) (i : grid14.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S4000x128 .bf16) (harg4 : arg4.IsWhole)
    (x0 : Vec F S4000x128 .f32) (x1 : Vec F S1x128 .f32) (x2 : Vec F S1x128 .f32) (R S : sProp 𝕄)
    {D0 D1 D2 D3 : Type} (g : D3 → Vec F S4000x128 .bf16) :
    iprop(R ∗ S ∗ (∃ _ : D0, owns c arg1 fullShare x0) ∗ (∃ _ : D1, owns c arg2 fullShare x1)
        ∗ (∃ _ : D2, owns c arg3 fullShare x2)
        ∗ (∃ d, owns c arg4 fullShare (g d)))
      ⊢ wp frame (wpE (defs₀ (F := F)) Variants.none c none) E (cc14__norm_relu_kernel i arg1 harg1 arg2 harg2 arg3 harg3 arg4 harg4)
        fun _ => iprop(R ∗ S ∗ owns c arg1 fullShare x0 ∗ owns c arg2 fullShare x1 ∗ owns c arg3 fullShare x2
          ∗ owns c arg4 fullShare (out14_3 x0 x1 x2)) := by
  simp only [cc14__norm_relu_kernel_eq_skeleton]; unfold cc14__norm_relu_kernel_skel
  unfold owns
  iintro ⟨HR, HS, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HR]; · iexact HR
  isplitl [HS]; · iexact HS
  isplitl [H0]; · iapply owns_read; iexact H0
  isplitl [H1]; · iapply owns_read; iexact H1
  isplitl [H2]; · iapply owns_read; iexact H2
  iexists _; isplitr
  swap; · iexact H3
  ipureintro
  exact View.read_writes_eq_canon _ _ _ (View.cover_of_tiled _ S4000x128.size (by rfl))

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t =
    out14_3 (iblk14 V c 0 t) (iblk14 V c 1 t) (iblk14 V c 2 t) := by dsimp only [dat14]

-- An input's buffer holds its block at every point: where it was not fetched, the block index has not moved.
theorem before14 (c : Dev nD) (t : Fin cfg14.N) :
    (∀ d, (dat14 V c).before 0 t d = iblk14 V c 0 t) ∧ (∀ d, (dat14 V c).before 1 t d = iblk14 V c 1 t) ∧ (∀ d, (dat14 V c).before 2 t d = iblk14 V c 2 t) := by
  refine ⟨?_, ?_, ?_⟩ <;> intro d <;>
  exact ((dat14 V c).before_in_eq_fetched _ rfl (fun _ => rfl) (fun _ _ _ => rfl) (fun _ => rfl) t d).trans rfl

theorem body_obligation14 (c : Dev nD) : BodyObligation (dat14 (F := F) V c) (defs₀ (F := F)) Variants.none () Set.univ := fun t => by
  rw [bigSep_W14, bigSep_W14]
  obtain ⟨h0, h1, h2⟩ := before14 V c t
  simp only [h0, h1, h2]
  rw [after14_0, after14_1, after14_2, after14_3]
  show _ ⊢ wp frame _ Set.univ (bodyAt14 t) _
  exact sound_kernel14 c Set.univ _ _ _ _ _ _ _ _ _ (iblk14 V c 0 t) (iblk14 V c 1 t) (iblk14 V c 2 t) _ _ _

end Region14

end Cert.Kernel.Hand

end
-- ==== Proof.K.Mlp15.lean ====
import proofs.«123582_j22084721836889_2_alg».proof.Proof.K.BodyLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region15
variable (V : (c : Dev nD) → (b : Ref sig .tc) → Buf (Elt F) ((c : Thread nD τ).loc b))

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

abbrev r15_0 : Rect S1000x128 := Rect.unit (s := S1000x128) ![0, 0] S1000x128.size inb_S1000x128_S1000x128_0_0
abbrev r15_1 : Rect S128x128 := Rect.unit (s := S128x128) ![0, 0] S128x128.size inb_S128x128_S128x128_0_0
abbrev r15_2 : Rect S1x128 := Rect.unit (s := S1x128) ![0, 0] S1x128.size inb_S1x128_S1x128_0_0

def out15_5 (x0 : Vec F S1000x128 .f32) (x1 : Vec F S128x128 .f32) (x2 : Vec F S1x128 .f32) (x3 : Vec F S128x128 .f32) (x4 : Vec F S1x128 .f32) : Vec F S1000x128 .f32 :=
  View.canon [⟨r15_0, k15_pay1 (View.ld x0 r15_0) (View.ld x1 r15_1) (View.ld x2 r15_2) (View.ld x3 r15_1) (View.ld x4 r15_2)⟩]

set_option maxHeartbeats 1000000 in
-- The inputs are only read and the single store covers the whole output block; whatever else is held passes through.
theorem sound_kernel15 (c : Dev nD) (E : Set ℕ) (i : grid15.Coords)
    (arg1 : Memref sig .tc .vmem S1000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1000x128 .f32) (harg6 : arg6.IsWhole)
    (x0 : Vec F S1000x128 .f32) (x1 : Vec F S128x128 .f32) (x2 : Vec F S1x128 .f32) (x3 : Vec F S128x128 .f32)
    (x4 : Vec F S1x128 .f32) (R S : sProp 𝕄)
    {D0 D1 D2 D3 D4 D5 : Type} (g : D5 → Vec F S1000x128 .f32) :
    iprop(R ∗ S ∗ (∃ _ : D0, owns c arg1 fullShare x0) ∗ (∃ _ : D1, owns c arg2 fullShare x1)
        ∗ (∃ _ : D2, owns c arg3 fullShare x2) ∗ (∃ _ : D3, owns c arg4 fullShare x3)
        ∗ (∃ _ : D4, owns c arg5 fullShare x4)
        ∗ (∃ d, owns c arg6 fullShare (g d)))
      ⊢ wp frame (wpE (defs₀ (F := F)) Variants.none c none) E (cc15__mlp_kernel i arg1 harg1 arg2 harg2 arg3 harg3 arg4 harg4 arg5 harg5 arg6 harg6)
        fun _ => iprop(R ∗ S ∗ owns c arg1 fullShare x0 ∗ owns c arg2 fullShare x1 ∗ owns c arg3 fullShare x2
          ∗ owns c arg4 fullShare x3 ∗ owns c arg5 fullShare x4
          ∗ owns c arg6 fullShare (out15_5 x0 x1 x2 x3 x4)) := by
  simp only [cc15__mlp_kernel_eq_skeleton]; unfold cc15__mlp_kernel_skel
  unfold owns
  iintro ⟨HR, HS, ⟨%_, %f0, %hf0, H0⟩, ⟨%_, %f1, %hf1, H1⟩, ⟨%_, %f2, %hf2, H2⟩, ⟨%_, %f3, %hf3, H3⟩, ⟨%_, %f4, %hf4, H4⟩, ⟨%_, %f5, -, H5⟩⟩
  subst hf0; subst hf1; subst hf2; subst hf3; subst hf4
  sl_exec
  sl_step
  isplitl [HR]; · iexact HR
  isplitl [HS]; · iexact HS
  isplitl [H0]; · iapply owns_read; iexact H0
  isplitl [H1]; · iapply owns_read; iexact H1
  isplitl [H2]; · iapply owns_read; iexact H2
  isplitl [H3]; · iapply owns_read; iexact H3
  isplitl [H4]; · iapply owns_read; iexact H4
  iexists _; isplitr
  swap; · iexact H5
  ipureintro
  exact View.read_writes_eq_canon _ _ _ (View.cover_of_tiled _ S1000x128.size (by rfl))

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => out15_5 (iblk15 V c 0 t) (iblk15 V c 1 t) (iblk15 V c 2 t) (iblk15 V c 3 t) (iblk15 V c 4 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t =
    out15_5 (iblk15 V c 0 t) (iblk15 V c 1 t) (iblk15 V c 2 t) (iblk15 V c 3 t) (iblk15 V c 4 t) := by dsimp only [dat15]

-- An input's buffer holds its block at every point: where it was not fetched, the block index has not moved.
theorem before15 (c : Dev nD) (t : Fin cfg15.N) :
    (∀ d, (dat15 V c).before 0 t d = iblk15 V c 0 t) ∧ (∀ d, (dat15 V c).before 1 t d = iblk15 V c 1 t) ∧ (∀ d, (dat15 V c).before 2 t d = iblk15 V c 2 t)
      ∧ (∀ d, (dat15 V c).before 3 t d = iblk15 V c 3 t) ∧ (∀ d, (dat15 V c).before 4 t d = iblk15 V c 4 t) := by
  refine ⟨?_, ?_, ?_, ?_, ?_⟩ <;> intro d <;>
  exact ((dat15 V c).before_in_eq_fetched _ rfl (fun _ => rfl) (fun _ _ _ => rfl) (fun _ => rfl) t d).trans rfl

theorem body_obligation15 (c : Dev nD) : BodyObligation (dat15 (F := F) V c) (defs₀ (F := F)) Variants.none () Set.univ := fun t => by
  rw [bigSep_W15, bigSep_W15]
  obtain ⟨h0, h1, h2, h3, h4⟩ := before15 V c t
  simp only [h0, h1, h2, h3, h4]
  rw [after15_0, after15_1, after15_2, after15_3, after15_4, after15_5]
  show _ ⊢ wp frame _ Set.univ (bodyAt15 t) _
  exact sound_kernel15 c Set.univ _ _ _ _ _ _ _ _ _ _ _ _ _ (iblk15 V c 0 t) (iblk15 V c 1 t) (iblk15 V c 2 t) (iblk15 V c 3 t) (iblk15 V c 4 t) _ _ _

end Region15

end Cert.Kernel.Hand

end
-- ==== Proof.K.Fold.lean ====
import proofs.«123582_j22084721836889_2_alg».proof.Proof.Gen.Kernel.Regions
import proofs.«123582_j22084721836889_2_alg».proof.Proof.K.Lin0
import proofs.«123582_j22084721836889_2_alg».proof.Proof.K.Stats1
import proofs.«123582_j22084721836889_2_alg».proof.Proof.K.Norm2
import proofs.«123582_j22084721836889_2_alg».proof.Proof.K.Lin3
import proofs.«123582_j22084721836889_2_alg».proof.Proof.K.Stats4
import proofs.«123582_j22084721836889_2_alg».proof.Proof.K.Norm5
import proofs.«123582_j22084721836889_2_alg».proof.Proof.K.Lin6
import proofs.«123582_j22084721836889_2_alg».proof.Proof.K.Stats7
import proofs.«123582_j22084721836889_2_alg».proof.Proof.K.Norm8
import proofs.«123582_j22084721836889_2_alg».proof.Proof.K.Lin9
import proofs.«123582_j22084721836889_2_alg».proof.Proof.K.Stats10
import proofs.«123582_j22084721836889_2_alg».proof.Proof.K.Norm11
import proofs.«123582_j22084721836889_2_alg».proof.Proof.K.Lin12
import proofs.«123582_j22084721836889_2_alg».proof.Proof.K.Stats13
import proofs.«123582_j22084721836889_2_alg».proof.Proof.K.Norm14
import proofs.«123582_j22084721836889_2_alg».proof.Proof.K.Mlp15
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

def W3 : Dev nD → Valuation τ sig (Elt F) := fun c => Gen.V3 m c
def W4 : Dev nD → Valuation τ sig (Elt F) := fun c =>
  Function.update (W3 m c) main_v37 ((dat0 (rd (W3 m)) c).arrAt 7 cfg0.N)
def W5 : Dev nD → Valuation τ sig (Elt F) := fun c =>
  Function.update (Function.update (W4 m c) main_v38_0 ((dat1 (rd (W4 m)) c).arrAt 1 cfg1.N)) main_v38_1 ((dat1 (rd (W4 m)) c).arrAt 2 cfg1.N)
def W6 : Dev nD → Valuation τ sig (Elt F) := fun c => StableHlo.after hostOps2 (W5 m c)
def W7 : Dev nD → Valuation τ sig (Elt F) := fun c =>
  Function.update (W6 m c) main_v59 ((dat2 (rd (W6 m)) c).arrAt 3 cfg2.N)
def W8 : Dev nD → Valuation τ sig (Elt F) := fun c => StableHlo.after hostOps3 (W7 m c)
def W9 : Dev nD → Valuation τ sig (Elt F) := fun c =>
  Function.update (W8 m c) main_v78 ((dat3 (rd (W8 m)) c).arrAt 7 cfg3.N)
def W10 : Dev nD → Valuation τ sig (Elt F) := fun c =>
  Function.update (Function.update (W9 m c) main_v79_0 ((dat4 (rd (W9 m)) c).arrAt 1 cfg4.N)) main_v79_1 ((dat4 (rd (W9 m)) c).arrAt 2 cfg4.N)
def W11 : Dev nD → Valuation τ sig (Elt F) := fun c => StableHlo.after hostOps5 (W10 m c)
def W12 : Dev nD → Valuation τ sig (Elt F) := fun c =>
  Function.update (W11 m c) main_v100 ((dat5 (rd (W11 m)) c).arrAt 3 cfg5.N)
def W13 : Dev nD → Valuation τ sig (Elt F) := fun c => StableHlo.after hostOps6 (W12 m c)
def W14 : Dev nD → Valuation τ sig (Elt F) := fun c =>
  Function.update (W13 m c) main_v119 ((dat6 (rd (W13 m)) c).arrAt 7 cfg6.N)
def W15 : Dev nD → Valuation τ sig (Elt F) := fun c =>
  Function.update (Function.update (W14 m c) main_v120_0 ((dat7 (rd (W14 m)) c).arrAt 1 cfg7.N)) main_v120_1 ((dat7 (rd (W14 m)) c).arrAt 2 cfg7.N)
def W16 : Dev nD → Valuation τ sig (Elt F) := fun c => StableHlo.after hostOps8 (W15 m c)
def W17 : Dev nD → Valuation τ sig (Elt F) := fun c =>
  Function.update (W16 m c) main_v141 ((dat8 (rd (W16 m)) c).arrAt 3 cfg8.N)
def W18 : Dev nD → Valuation τ sig (Elt F) := fun c => StableHlo.after hostOps9 (W17 m c)
def W19 : Dev nD → Valuation τ sig (Elt F) := fun c =>
  Function.update (W18 m c) main_v160 ((dat9 (rd (W18 m)) c).arrAt 7 cfg9.N)
def W20 : Dev nD → Valuation τ sig (Elt F) := fun c =>
  Function.update (Function.update (W19 m c) main_v161_0 ((dat10 (rd (W19 m)) c).arrAt 1 cfg10.N)) main_v161_1 ((dat10 (rd (W19 m)) c).arrAt 2 cfg10.N)
def W21 : Dev nD → Valuation τ sig (Elt F) := fun c => StableHlo.after hostOps11 (W20 m c)
def W22 : Dev nD → Valuation τ sig (Elt F) := fun c =>
  Function.update (W21 m c) main_v182 ((dat11 (rd (W21 m)) c).arrAt 3 cfg11.N)
def W23 : Dev nD → Valuation τ sig (Elt F) := fun c => StableHlo.after hostOps12 (W22 m c)
def W24 : Dev nD → Valuation τ sig (Elt F) := fun c =>
  Function.update (W23 m c) main_v201 ((dat12 (rd (W23 m)) c).arrAt 7 cfg12.N)
def W25 : Dev nD → Valuation τ sig (Elt F) := fun c =>
  Function.update (Function.update (W24 m c) main_v202_0 ((dat13 (rd (W24 m)) c).arrAt 1 cfg13.N)) main_v202_1 ((dat13 (rd (W24 m)) c).arrAt 2 cfg13.N)
def W26 : Dev nD → Valuation τ sig (Elt F) := fun c => StableHlo.after hostOps14 (W25 m c)
def W27 : Dev nD → Valuation τ sig (Elt F) := fun c =>
  Function.update (W26 m c) main_v223 ((dat14 (rd (W26 m)) c).arrAt 3 cfg14.N)
def W28 : Dev nD → Valuation τ sig (Elt F) := fun c => StableHlo.after hostOps15 (W27 m c)
def W29 : Dev nD → Valuation τ sig (Elt F) := fun c =>
  Function.update (W28 m c) main_v239 ((dat15 (rd (W28 m)) c).arrAt 5 cfg15.N)

def outs : Gen.Outs (F := F) := fun J r c => match J with
  | 4 => W4 m c r
  | 5 => W5 m c r
  | 7 => W7 m c r
  | 9 => W9 m c r
  | 10 => W10 m c r
  | 12 => W12 m c r
  | 14 => W14 m c r
  | 15 => W15 m c r
  | 17 => W17 m c r
  | 19 => W19 m c r
  | 20 => W20 m c r
  | 22 => W22 m c r
  | 24 => W24 m c r
  | 25 => W25 m c r
  | 27 => W27 m c r
  | 29 => W29 m c r
  | _ => W29 m c r

/-- Updating at `a` by what a valuation already updated at `a` reads there changes nothing. -/
theorem upd1_eq {V₀ V : Valuation τ sig (Elt F)} (h : V₀ = V) (a : DevRef τ sig) (x : a.ty.Contents (Elt F)) :
    Function.update V₀ a (Function.update V a x a) = Function.update V a x := by
  subst h; rw [Function.update_self]

/-- The same at two distinct references. -/
theorem upd2_eq {V₀ V W : Valuation τ sig (Elt F)} (h : V₀ = V) {a b : DevRef τ sig} (hab : a ≠ b) {x : a.ty.Contents (Elt F)}
    {y : b.ty.Contents (Elt F)} (hW : W = Function.update (Function.update V a x) b y) :
    Function.update (Function.update V₀ a (W a)) b (W b) = W := by
  subst h hW; rw [Function.update_self, Function.update_of_ne hab, Function.update_self]

theorem V4_eq : (fun c => Gen.V4 m (outs m) c) = W4 m := funext fun c => upd1_eq rfl _ _
theorem V5_eq : (fun c => Gen.V5 m (outs m) c) = W5 m := funext fun c => upd2_eq (W := W5 m c) (congrFun (V4_eq m) c) (StableHlo.devRef_ne_of_ne (by decide)) rfl
theorem V6_eq : (fun c => Gen.V6 m (outs m) c) = W6 m := funext fun c => congrArg (StableHlo.after hostOps2) (congrFun (V5_eq m) c)
theorem V7_eq : (fun c => Gen.V7 m (outs m) c) = W7 m := funext fun c => upd1_eq (congrFun (V6_eq m) c) _ _
theorem V8_eq : (fun c => Gen.V8 m (outs m) c) = W8 m := funext fun c => congrArg (StableHlo.after hostOps3) (congrFun (V7_eq m) c)
theorem V9_eq : (fun c => Gen.V9 m (outs m) c) = W9 m := funext fun c => upd1_eq (congrFun (V8_eq m) c) _ _
theorem V10_eq : (fun c => Gen.V10 m (outs m) c) = W10 m := funext fun c => upd2_eq (W := W10 m c) (congrFun (V9_eq m) c) (StableHlo.devRef_ne_of_ne (by decide)) rfl
theorem V11_eq : (fun c => Gen.V11 m (outs m) c) = W11 m := funext fun c => congrArg (StableHlo.after hostOps5) (congrFun (V10_eq m) c)
theorem V12_eq : (fun c => Gen.V12 m (outs m) c) = W12 m := funext fun c => upd1_eq (congrFun (V11_eq m) c) _ _
theorem V13_eq : (fun c => Gen.V13 m (outs m) c) = W13 m := funext fun c => congrArg (StableHlo.after hostOps6) (congrFun (V12_eq m) c)
theorem V14_eq : (fun c => Gen.V14 m (outs m) c) = W14 m := funext fun c => upd1_eq (congrFun (V13_eq m) c) _ _
theorem V15_eq : (fun c => Gen.V15 m (outs m) c) = W15 m := funext fun c => upd2_eq (W := W15 m c) (congrFun (V14_eq m) c) (StableHlo.devRef_ne_of_ne (by decide)) rfl
theorem V16_eq : (fun c => Gen.V16 m (outs m) c) = W16 m := funext fun c => congrArg (StableHlo.after hostOps8) (congrFun (V15_eq m) c)
theorem V17_eq : (fun c => Gen.V17 m (outs m) c) = W17 m := funext fun c => upd1_eq (congrFun (V16_eq m) c) _ _
theorem V18_eq : (fun c => Gen.V18 m (outs m) c) = W18 m := funext fun c => congrArg (StableHlo.after hostOps9) (congrFun (V17_eq m) c)
theorem V19_eq : (fun c => Gen.V19 m (outs m) c) = W19 m := funext fun c => upd1_eq (congrFun (V18_eq m) c) _ _
theorem V20_eq : (fun c => Gen.V20 m (outs m) c) = W20 m := funext fun c => upd2_eq (W := W20 m c) (congrFun (V19_eq m) c) (StableHlo.devRef_ne_of_ne (by decide)) rfl
theorem V21_eq : (fun c => Gen.V21 m (outs m) c) = W21 m := funext fun c => congrArg (StableHlo.after hostOps11) (congrFun (V20_eq m) c)
theorem V22_eq : (fun c => Gen.V22 m (outs m) c) = W22 m := funext fun c => upd1_eq (congrFun (V21_eq m) c) _ _
theorem V23_eq : (fun c => Gen.V23 m (outs m) c) = W23 m := funext fun c => congrArg (StableHlo.after hostOps12) (congrFun (V22_eq m) c)
theorem V24_eq : (fun c => Gen.V24 m (outs m) c) = W24 m := funext fun c => upd1_eq (congrFun (V23_eq m) c) _ _
theorem V25_eq : (fun c => Gen.V25 m (outs m) c) = W25 m := funext fun c => upd2_eq (W := W25 m c) (congrFun (V24_eq m) c) (StableHlo.devRef_ne_of_ne (by decide)) rfl
theorem V26_eq : (fun c => Gen.V26 m (outs m) c) = W26 m := funext fun c => congrArg (StableHlo.after hostOps14) (congrFun (V25_eq m) c)
theorem V27_eq : (fun c => Gen.V27 m (outs m) c) = W27 m := funext fun c => upd1_eq (congrFun (V26_eq m) c) _ _
theorem V28_eq : (fun c => Gen.V28 m (outs m) c) = W28 m := funext fun c => congrArg (StableHlo.after hostOps15) (congrFun (V27_eq m) c)
theorem V29_eq : (fun c => Gen.V29 m (outs m) c) = W29 m := funext fun c => upd1_eq (congrFun (V28_eq m) c) _ _

def pdats : (p : Fin 16) → (c : Dev nD) → Dat τ (Elt F) Unit ℕ (UR sig nD τ) ℕ (cfgs p) c
  | ⟨0, _⟩ => fun c => dat0 (rd (W3 m)) c
  | ⟨1, _⟩ => fun c => dat1 (rd (W4 m)) c
  | ⟨2, _⟩ => fun c => dat2 (rd (W6 m)) c
  | ⟨3, _⟩ => fun c => dat3 (rd (W8 m)) c
  | ⟨4, _⟩ => fun c => dat4 (rd (W9 m)) c
  | ⟨5, _⟩ => fun c => dat5 (rd (W11 m)) c
  | ⟨6, _⟩ => fun c => dat6 (rd (W13 m)) c
  | ⟨7, _⟩ => fun c => dat7 (rd (W14 m)) c
  | ⟨8, _⟩ => fun c => dat8 (rd (W16 m)) c
  | ⟨9, _⟩ => fun c => dat9 (rd (W18 m)) c
  | ⟨10, _⟩ => fun c => dat10 (rd (W19 m)) c
  | ⟨11, _⟩ => fun c => dat11 (rd (W21 m)) c
  | ⟨12, _⟩ => fun c => dat12 (rd (W23 m)) c
  | ⟨13, _⟩ => fun c => dat13 (rd (W24 m)) c
  | ⟨14, _⟩ => fun c => dat14 (rd (W26 m)) c
  | ⟨15, _⟩ => fun c => dat15 (rd (W28 m)) c
  | ⟨_ + 16, h⟩ => absurd h (Nat.not_lt.2 (Nat.le_add_left _ _))

abbrev R (c : Dev nD) : sProp 𝕄 := iprop((∃ r, prngReg c r) ∗ ∃ W, owes (c : Thread nD τ) (0 : CellTallies nD τ sig Unit) W)

end Cert.Kernel.Hand

end
-- ==== Proof.K.RegLib.lean ====
import proofs.«123582_j22084721836889_2_alg».proof.Proof.K.Fold

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RegionSeg)

variable {F : FTy → Type} [FloatOps F]

local notation "𝕄" => MT nD τ sig Unit (Elt F) ℕ (UR sig nD τ) ℕ

section Arrays

variable {p : Fin 16} {c : Dev nD} (D : Dat τ (Elt F) Unit ℕ (UR sig nD τ) ℕ (cfgs p) c) {V : Valuation τ sig (Elt F)}
  {S : Finset (Fin (cfgs p).W)}

/-- Proof data with every side field trivial and the entry arrays read off `A₀`. -/
structure PlainDat (A₀ : (b : Ref sig .tc) → Buf (Elt F) ((c : Thread nD τ).loc b)) : Prop where
  q : ∀ w, D.q w = fullShare
  owed : ∀ t, D.owed t = 0
  recorded : ∀ t, D.recorded t = Set.univ
  A : ∀ w, D.A w = A₀ (Pipeline.arrRef (cfgs p).spec w)

/-- An input array holds its entry contents at every point. -/
theorem arrAt_in_all (hin : ∀ w, w ∉ S → ((cfgs p).win w).isOut = false)
    (hA : ∀ w, D.A w = V (Proc.devRef .tc (Pipeline.arrRef (cfgs p).spec w))) :
    ∀ w, w ∉ S → D.arrAt w (cfgs p).N = V (Proc.devRef .tc (Pipeline.arrRef (cfgs p).spec w)) :=
  fun w hw => (D.arrAt_in w (hin w hw) _).trans (hA w)

/-- Final arrays that read as `V` off `insert o S` read, off `S`, as `V` updated at array `o` by that array's final contents. -/
theorem arrAt_upd (hl : Pipeline.LaunchFacts (nD := nD) (τ := τ) cfgs p) (o : Fin (cfgs p).W)
    (h : ∀ w, w ∉ insert o S → D.arrAt w (cfgs p).N = V (Proc.devRef .tc (Pipeline.arrRef (cfgs p).spec w))) :
    ∀ w, w ∉ S → D.arrAt w (cfgs p).N = Function.update V (Proc.devRef .tc (Pipeline.arrRef (cfgs p).spec o)) (D.arrAt o (cfgs p).N)
      (Proc.devRef .tc (Pipeline.arrRef (cfgs p).spec w)) := fun w hw => by
  rcases eq_or_ne w o with rfl | e
  · rw [Function.update_self]
  · rw [Function.update_of_ne (StableHlo.devRef_ne_of_ne (hl.win.arr_inj.ne e))]
    exact h w fun hm => (Finset.mem_insert.mp hm).elim e hw

end Arrays

/-- Off the arrays `g`, a valuation updated at one of them reads as before. -/
theorem rest_upd {n : ℕ} {g : Fin n → Ref sig .tc} (V : Valuation τ sig (Elt F)) (o : Fin n)
    (v : (Proc.devRef (τ := τ) .tc (g o)).ty.Contents (Elt F)) {b : Ref sig .tc} (hb : b ∉ Finset.univ.image g) :
    Function.update V (Proc.devRef .tc (g o)) v (Proc.devRef .tc b) = V (Proc.devRef .tc b) :=
  Function.update_of_ne (StableHlo.devRef_ne_of_ne fun e => hb (Finset.mem_image.mpr ⟨o, Finset.mem_univ _, e.symm⟩)) _ _

/-- `ΦA` is its two conjuncts, swapped. -/
theorem ΦA_in (p : Fin 16) (c : Dev nD) :
    iprop((∃ r, prngReg c r) ∗ Pipeline.scopedRest (Ix := Unit) (Name := ℕ) (U := UR sig nD τ) (Lvl := ℕ) (Val := Elt F) (cfgs p).spec c) ⊢ (Pipeline.ΦA (cfgs p).spec c : sProp 𝕄) := by
  unfold Pipeline.ΦA
  iintro ⟨Hp, Hr⟩
  isplitl [Hr]; · iexact Hr
  iexact Hp

theorem ΦA_out (p : Fin 16) (c : Dev nD) :
    (Pipeline.ΦA (cfgs p).spec c : sProp 𝕄) ⊢ iprop((∃ r, prngReg c r) ∗ Pipeline.scopedRest (Ix := Unit) (Name := ℕ) (U := UR sig nD τ) (Lvl := ℕ) (Val := Elt F) (cfgs p).spec c) := by
  unfold Pipeline.ΦA
  iintro ⟨Hr, Hp⟩
  isplitl [Hp]; · iexact Hp
  iexact Hr

variable (m : (ℓ : Loc nD τ sig) → Buf (Elt F) ℓ) (p : Fin 16) (hl : Pipeline.LaunchFacts (nD := nD) (τ := τ) cfgs p)
  (V V' : Dev nD → Valuation τ sig (Elt F))
  (hbody : ∀ c, Pipeline.BodyObligationLoose (pdats m p c) defs₀ Variants.none () Set.univ)
  (hP : ∀ c, PlainDat (pdats m p c) (rd V c))
  (hΦi : ∀ c, iprop((∃ r, prngReg c r) ∗ Pipeline.scopedRest (Ix := Unit) (Name := ℕ) (U := UR sig nD τ) (Lvl := ℕ) (Val := Elt F) (cfgs p).spec c) ⊢ (pdats m p c).Φ 0)
  (hΦo : ∀ c, (pdats m p c).Φ (Fin.last (cfgs p).N) ⊢ iprop((∃ r, prngReg c r) ∗ Pipeline.scopedRest (Ix := Unit) (Name := ℕ) (U := UR sig nD τ) (Lvl := ℕ) (Val := Elt F) (cfgs p).spec c))

/-- Region `p` from boundary contents `V` to `V'`, where `V'` holds the arrays' final contents and is `V` elsewhere. -/
def regOf (hF : ∀ c w, (pdats m p c).arrAt w (cfgs p).N = rd V' c (Pipeline.arrRef (cfgs p).spec w))
    (hrest : ∀ c b, b ∉ Finset.univ.image (Pipeline.arrRef (cfgs p).spec) → rd V' c b = rd V c b) :
    RegionSeg (pcfgs (F := F)) Gen.adm (pdats m) () defs₀ Variants.none (fun _ => (∅ : Finset Unit)) (fun _ _ => (0 : ℕ)) p where
  win := hl.win.to₀
  block_pos := hl.block_pos
  stage_whole := hl.stage_whole
  K := PEmpty
  osem k := k.elim
  ho := Pipeline.OwnSemFacts.none _
  hbody := hbody
  hwaits := Pipeline.hwaits_of_owed_zero _ _ _ _ (fun _ => (∅ : Finset Unit)) (fun _ _ => (0 : ℕ)) p fun c => (hP c).owed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (rd V c)
  hentry c := by
    rw [Pipeline.ownSems0_none]
    have hsplit := Pipeline.arrays_of_unscopedBufs (p := p) (pcfgs (F := F)) Gen.adm (pdats m) hl.win hl.arr_whole c
      ((pdats m p c).share_full (hP c).q) (rd V c) (hP c).A
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(hP c).owed]
      icases HO with ⟨%W, HO⟩; iexists W
      isplitr; · ipureintro; exact fun x _ => Or.inl (by rw [(hP c).recorded]; exact Set.mem_univ x)
      iexact HO
    isplitl [Hp]; · iexact Hp
    iexact Hrest
  hin c := by
    refine .trans ?_ (hΦi c)
    iintro ⟨Hp, -, Hr⟩
    isplitl [Hp]; · iexact Hp
    iexact Hr
  hout c := by
    rw [Pipeline.ownSems0_none]
    refine (hΦo c).trans ?_
    iintro ⟨Hp, Hr⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      hl.win hl.arr_whole c (pdats m) ((pdats m p c).share_full (hP c).q)
      (rd V c) (rd V' c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(hP c).owed]
    icases HO with ⟨%W, -, HO⟩; iexists W; iexact HO

/-- The same when `V'` is `V` updated at the one output array `o`, every other array being an input. -/
def regOf1 (o : Fin (cfgs p).W)
    (hV' : ∀ c, V' c = Function.update (V c) (Proc.devRef .tc (Pipeline.arrRef (cfgs p).spec o)) ((pdats m p c).arrAt o (cfgs p).N))
    (hin : ∀ w, w ∉ (insert o ∅ : Finset (Fin (cfgs p).W)) → ((cfgs p).win w).isOut = false) : RegionSeg (pcfgs (F := F)) Gen.adm (pdats m) () defs₀ Variants.none (fun _ => (∅ : Finset Unit)) (fun _ _ => (0 : ℕ)) p :=
  regOf m p hl V V' hbody hP hΦi hΦo
    (fun c w => (arrAt_upd _ hl o (arrAt_in_all _ hin (hP c).A) w (Finset.notMem_empty w)).trans (congrFun (hV' c) _).symm)
    (fun c b hb => (congrFun (hV' c) _).trans (rest_upd (V c) o _ hb))

/-- The same when `V'` is `V` updated at the two output arrays `o₁`, then `o₂`. -/
def regOf2 (o₁ o₂ : Fin (cfgs p).W)
    (hV' : ∀ c, V' c = Function.update (Function.update (V c) (Proc.devRef .tc (Pipeline.arrRef (cfgs p).spec o₁)) ((pdats m p c).arrAt o₁ (cfgs p).N))
      (Proc.devRef .tc (Pipeline.arrRef (cfgs p).spec o₂)) ((pdats m p c).arrAt o₂ (cfgs p).N))
    (hin : ∀ w, w ∉ (insert o₁ (insert o₂ ∅) : Finset (Fin (cfgs p).W)) → ((cfgs p).win w).isOut = false) : RegionSeg (pcfgs (F := F)) Gen.adm (pdats m) () defs₀ Variants.none (fun _ => (∅ : Finset Unit)) (fun _ _ => (0 : ℕ)) p :=
  regOf m p hl V V' hbody hP hΦi hΦo
    (fun c w => (arrAt_upd _ hl o₂ (arrAt_upd _ hl o₁ (arrAt_in_all _ hin (hP c).A)) w (Finset.notMem_empty w)).trans (congrFun (hV' c) _).symm)
    (fun c b hb => (congrFun (hV' c) _).trans ((rest_upd _ o₂ _ hb).trans (rest_upd (V c) o₁ _ hb)))

end Cert.Kernel.Hand

end
-- ==== Proof.K.Reg0.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 0, from boundary contents `W3` to `W4`. -/
def reg0 : RegionSeg (pcfgs (F := F)) Gen.adm (pdats m) () defs₀ Variants.none (fun _ => (∅ : Finset Unit)) (fun _ _ => (0 : ℕ)) 0 :=
  regOf1 m 0 launch0 (W3 m) (W4 m) (fun c => (body_obligation0 (rd (W3 m)) c).loose)
    (fun _ => ⟨fun _ => rfl, fun _ => rfl, fun _ => rfl, fun _ => rfl⟩) (ΦA_in 0) (ΦA_out 0) (7 : Fin 8) (fun _ => rfl) (by decide)

end Cert.Kernel.Hand

end
-- ==== Proof.K.Reg1.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 1, from boundary contents `W4` to `W5`. -/
def reg1 : RegionSeg (pcfgs (F := F)) Gen.adm (pdats m) () defs₀ Variants.none (fun _ => (∅ : Finset Unit)) (fun _ _ => (0 : ℕ)) 1 :=
  regOf2 m 1 launch1 (W4 m) (W5 m) (fun c => (body_obligation1 (rd (W4 m)) c).loose)
    (fun _ => ⟨fun _ => rfl, fun _ => rfl, fun _ => rfl, fun _ => rfl⟩) (Phi1_in (rd (W4 m))) (Phi1_out (rd (W4 m))) (1 : Fin 3) (2 : Fin 3) (fun _ => rfl) (by decide)

end Cert.Kernel.Hand

end
-- ==== Proof.K.Reg2.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 2, from boundary contents `W6` to `W7`. -/
def reg2 : RegionSeg (pcfgs (F := F)) Gen.adm (pdats m) () defs₀ Variants.none (fun _ => (∅ : Finset Unit)) (fun _ _ => (0 : ℕ)) 2 :=
  regOf1 m 2 launch2 (W6 m) (W7 m) (fun c => (body_obligation2 (rd (W6 m)) c).loose)
    (fun _ => ⟨fun _ => rfl, fun _ => rfl, fun _ => rfl, fun _ => rfl⟩) (ΦA_in 2) (ΦA_out 2) (3 : Fin 4) (fun _ => rfl) (by decide)

end Cert.Kernel.Hand

end
-- ==== Proof.K.Reg3.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 3, from boundary contents `W8` to `W9`. -/
def reg3 : RegionSeg (pcfgs (F := F)) Gen.adm (pdats m) () defs₀ Variants.none (fun _ => (∅ : Finset Unit)) (fun _ _ => (0 : ℕ)) 3 :=
  regOf1 m 3 launch3 (W8 m) (W9 m) (fun c => (body_obligation3 (rd (W8 m)) c).loose)
    (fun _ => ⟨fun _ => rfl, fun _ => rfl, fun _ => rfl, fun _ => rfl⟩) (ΦA_in 3) (ΦA_out 3) (7 : Fin 8) (fun _ => rfl) (by decide)

end Cert.Kernel.Hand

end
-- ==== Proof.K.Reg4.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 4, from boundary contents `W9` to `W10`. -/
def reg4 : RegionSeg (pcfgs (F := F)) Gen.adm (pdats m) () defs₀ Variants.none (fun _ => (∅ : Finset Unit)) (fun _ _ => (0 : ℕ)) 4 :=
  regOf2 m 4 launch4 (W9 m) (W10 m) (fun c => (body_obligation4 (rd (W9 m)) c).loose)
    (fun _ => ⟨fun _ => rfl, fun _ => rfl, fun _ => rfl, fun _ => rfl⟩) (Phi4_in (rd (W9 m))) (Phi4_out (rd (W9 m))) (1 : Fin 3) (2 : Fin 3) (fun _ => rfl) (by decide)

end Cert.Kernel.Hand

end
-- ==== Proof.K.Reg5.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 5, from boundary contents `W11` to `W12`. -/
def reg5 : RegionSeg (pcfgs (F := F)) Gen.adm (pdats m) () defs₀ Variants.none (fun _ => (∅ : Finset Unit)) (fun _ _ => (0 : ℕ)) 5 :=
  regOf1 m 5 launch5 (W11 m) (W12 m) (fun c => (body_obligation5 (rd (W11 m)) c).loose)
    (fun _ => ⟨fun _ => rfl, fun _ => rfl, fun _ => rfl, fun _ => rfl⟩) (ΦA_in 5) (ΦA_out 5) (3 : Fin 4) (fun _ => rfl) (by decide)

end Cert.Kernel.Hand

end
-- ==== Proof.K.Reg6.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 6, from boundary contents `W13` to `W14`. -/
def reg6 : RegionSeg (pcfgs (F := F)) Gen.adm (pdats m) () defs₀ Variants.none (fun _ => (∅ : Finset Unit)) (fun _ _ => (0 : ℕ)) 6 :=
  regOf1 m 6 launch6 (W13 m) (W14 m) (fun c => (body_obligation6 (rd (W13 m)) c).loose)
    (fun _ => ⟨fun _ => rfl, fun _ => rfl, fun _ => rfl, fun _ => rfl⟩) (ΦA_in 6) (ΦA_out 6) (7 : Fin 8) (fun _ => rfl) (by decide)

end Cert.Kernel.Hand

end
-- ==== Proof.K.Reg7.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 7, from boundary contents `W14` to `W15`. -/
def reg7 : RegionSeg (pcfgs (F := F)) Gen.adm (pdats m) () defs₀ Variants.none (fun _ => (∅ : Finset Unit)) (fun _ _ => (0 : ℕ)) 7 :=
  regOf2 m 7 launch7 (W14 m) (W15 m) (fun c => (body_obligation7 (rd (W14 m)) c).loose)
    (fun _ => ⟨fun _ => rfl, fun _ => rfl, fun _ => rfl, fun _ => rfl⟩) (Phi7_in (rd (W14 m))) (Phi7_out (rd (W14 m))) (1 : Fin 3) (2 : Fin 3) (fun _ => rfl) (by decide)

end Cert.Kernel.Hand

end
-- ==== Proof.K.Reg8.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 8, from boundary contents `W16` to `W17`. -/
def reg8 : RegionSeg (pcfgs (F := F)) Gen.adm (pdats m) () defs₀ Variants.none (fun _ => (∅ : Finset Unit)) (fun _ _ => (0 : ℕ)) 8 :=
  regOf1 m 8 launch8 (W16 m) (W17 m) (fun c => (body_obligation8 (rd (W16 m)) c).loose)
    (fun _ => ⟨fun _ => rfl, fun _ => rfl, fun _ => rfl, fun _ => rfl⟩) (ΦA_in 8) (ΦA_out 8) (3 : Fin 4) (fun _ => rfl) (by decide)

end Cert.Kernel.Hand

end
-- ==== Proof.K.Reg9.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 9, from boundary contents `W18` to `W19`. -/
def reg9 : RegionSeg (pcfgs (F := F)) Gen.adm (pdats m) () defs₀ Variants.none (fun _ => (∅ : Finset Unit)) (fun _ _ => (0 : ℕ)) 9 :=
  regOf1 m 9 launch9 (W18 m) (W19 m) (fun c => (body_obligation9 (rd (W18 m)) c).loose)
    (fun _ => ⟨fun _ => rfl, fun _ => rfl, fun _ => rfl, fun _ => rfl⟩) (ΦA_in 9) (ΦA_out 9) (7 : Fin 8) (fun _ => rfl) (by decide)

end Cert.Kernel.Hand

end
-- ==== Proof.K.Reg10.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 10, from boundary contents `W19` to `W20`. -/
def reg10 : RegionSeg (pcfgs (F := F)) Gen.adm (pdats m) () defs₀ Variants.none (fun _ => (∅ : Finset Unit)) (fun _ _ => (0 : ℕ)) 10 :=
  regOf2 m 10 launch10 (W19 m) (W20 m) (fun c => (body_obligation10 (rd (W19 m)) c).loose)
    (fun _ => ⟨fun _ => rfl, fun _ => rfl, fun _ => rfl, fun _ => rfl⟩) (Phi10_in (rd (W19 m))) (Phi10_out (rd (W19 m))) (1 : Fin 3) (2 : Fin 3) (fun _ => rfl) (by decide)

end Cert.Kernel.Hand

end
-- ==== Proof.K.Reg11.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 11, from boundary contents `W21` to `W22`. -/
def reg11 : RegionSeg (pcfgs (F := F)) Gen.adm (pdats m) () defs₀ Variants.none (fun _ => (∅ : Finset Unit)) (fun _ _ => (0 : ℕ)) 11 :=
  regOf1 m 11 launch11 (W21 m) (W22 m) (fun c => (body_obligation11 (rd (W21 m)) c).loose)
    (fun _ => ⟨fun _ => rfl, fun _ => rfl, fun _ => rfl, fun _ => rfl⟩) (ΦA_in 11) (ΦA_out 11) (3 : Fin 4) (fun _ => rfl) (by decide)

end Cert.Kernel.Hand

end
-- ==== Proof.K.Reg12.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 12, from boundary contents `W23` to `W24`. -/
def reg12 : RegionSeg (pcfgs (F := F)) Gen.adm (pdats m) () defs₀ Variants.none (fun _ => (∅ : Finset Unit)) (fun _ _ => (0 : ℕ)) 12 :=
  regOf1 m 12 launch12 (W23 m) (W24 m) (fun c => (body_obligation12 (rd (W23 m)) c).loose)
    (fun _ => ⟨fun _ => rfl, fun _ => rfl, fun _ => rfl, fun _ => rfl⟩) (ΦA_in 12) (ΦA_out 12) (7 : Fin 8) (fun _ => rfl) (by decide)

end Cert.Kernel.Hand

end
-- ==== Proof.K.Reg13.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 13, from boundary contents `W24` to `W25`. -/
def reg13 : RegionSeg (pcfgs (F := F)) Gen.adm (pdats m) () defs₀ Variants.none (fun _ => (∅ : Finset Unit)) (fun _ _ => (0 : ℕ)) 13 :=
  regOf2 m 13 launch13 (W24 m) (W25 m) (fun c => (body_obligation13 (rd (W24 m)) c).loose)
    (fun _ => ⟨fun _ => rfl, fun _ => rfl, fun _ => rfl, fun _ => rfl⟩) (Phi13_in (rd (W24 m))) (Phi13_out (rd (W24 m))) (1 : Fin 3) (2 : Fin 3) (fun _ => rfl) (by decide)

end Cert.Kernel.Hand

end
-- ==== Proof.K.Reg14.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 14, from boundary contents `W26` to `W27`. -/
def reg14 : RegionSeg (pcfgs (F := F)) Gen.adm (pdats m) () defs₀ Variants.none (fun _ => (∅ : Finset Unit)) (fun _ _ => (0 : ℕ)) 14 :=
  regOf1 m 14 launch14 (W26 m) (W27 m) (fun c => (body_obligation14 (rd (W26 m)) c).loose)
    (fun _ => ⟨fun _ => rfl, fun _ => rfl, fun _ => rfl, fun _ => rfl⟩) (ΦA_in 14) (ΦA_out 14) (3 : Fin 4) (fun _ => rfl) (by decide)

end Cert.Kernel.Hand

end
-- ==== Proof.K.Reg15.lean ====
import proofs.«123582_j22084721836889_2_alg».proof.Proof.K.RegLib

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 15, from boundary contents `W28` to `W29`. -/
def reg15 : RegionSeg (pcfgs (F := F)) Gen.adm (pdats m) () defs₀ Variants.none (fun _ => (∅ : Finset Unit)) (fun _ _ => (0 : ℕ)) 15 :=
  regOf1 m 15 launch15 (W28 m) (W29 m) (fun c => (body_obligation15 (rd (W28 m)) c).loose)
    (fun _ => ⟨fun _ => rfl, fun _ => rfl, fun _ => rfl, fun _ => rfl⟩) (ΦA_in 15) (ΦA_out 15) (5 : Fin 6) (fun _ => rfl) (by decide)

end Cert.Kernel.Hand

end
-- ==== Proof.K.Frame.lean ====
import proofs.«123582_j22084721836889_2_alg».proof.Proof.K.Reg0
import proofs.«123582_j22084721836889_2_alg».proof.Proof.K.Reg1
import proofs.«123582_j22084721836889_2_alg».proof.Proof.K.Reg2
import proofs.«123582_j22084721836889_2_alg».proof.Proof.K.Reg3
import proofs.«123582_j22084721836889_2_alg».proof.Proof.K.Reg4
import proofs.«123582_j22084721836889_2_alg».proof.Proof.K.Reg5
import proofs.«123582_j22084721836889_2_alg».proof.Proof.K.Reg6
import proofs.«123582_j22084721836889_2_alg».proof.Proof.K.Reg7
import proofs.«123582_j22084721836889_2_alg».proof.Proof.K.Reg8
import proofs.«123582_j22084721836889_2_alg».proof.Proof.K.Reg9
import proofs.«123582_j22084721836889_2_alg».proof.Proof.K.Reg10
import proofs.«123582_j22084721836889_2_alg».proof.Proof.K.Reg11
import proofs.«123582_j22084721836889_2_alg».proof.Proof.K.Reg12
import proofs.«123582_j22084721836889_2_alg».proof.Proof.K.Reg13
import proofs.«123582_j22084721836889_2_alg».proof.Proof.K.Reg14
import proofs.«123582_j22084721836889_2_alg».proof.Proof.K.Reg15
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev u0 : UR sig nD τ := initOf (Pipeline.cells cfgs cellOf_inj) (Pipeline.launchToks cfgs cellOf_inj)

set_option backward.isDefEq.respectTransparency.types false in

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond m (Ix := Unit) (U := UR sig nD τ) (Lvl := ℕ) emb₁ () Variants.none (fun _ => (∅ : Finset Unit)) (fun _ _ => (0 : ℕ)) (fun _ _ => rfl)
    ρ (outs m) (pdats m) (O₀ := 0) (G := fun _ => iprop(emp)) (u₀ := u0)
    (hu₀ := by
      iintro Hu; imodintro
      isplitl [Hu]
      · iapply (show (ownU (u0) : sProp 𝕄) ⊢ BI.own (emb₁ (u0)) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach (fun _ => (∅ : Finset Unit)) (fun _ _ => (0 : ℕ)) fun c => by
      iintro ⟨⟨-, HO, -, Hp, -⟩, -⟩
      imodintro
      isplitl [Hp]; · iexists _; iexact Hp
      iexists ∅; iexact HO)
    (hE16 := fun c => by iintro ⟨-, HO⟩; iexact HO)
    (reg0 m) (fun c => by rw [show Gen.V3 m c = W3 m c from rfl]; exact .rfl) (fun c => by rw [show Gen.V4 m (outs m) c = W4 m c from congrFun (V4_eq m) c]; exact .rfl)
    (reg1 m) (fun c => by rw [show Gen.V4 m (outs m) c = W4 m c from congrFun (V4_eq m) c]; exact .rfl) (fun c => by rw [show Gen.V5 m (outs m) c = W5 m c from congrFun (V5_eq m) c]; exact .rfl)
    (reg2 m) (fun c => by rw [show Gen.V6 m (outs m) c = W6 m c from congrFun (V6_eq m) c]; exact .rfl) (fun c => by rw [show Gen.V7 m (outs m) c = W7 m c from congrFun (V7_eq m) c]; exact .rfl)
    (reg3 m) (fun c => by rw [show Gen.V8 m (outs m) c = W8 m c from congrFun (V8_eq m) c]; exact .rfl) (fun c => by rw [show Gen.V9 m (outs m) c = W9 m c from congrFun (V9_eq m) c]; exact .rfl)
    (reg4 m) (fun c => by rw [show Gen.V9 m (outs m) c = W9 m c from congrFun (V9_eq m) c]; exact .rfl) (fun c => by rw [show Gen.V10 m (outs m) c = W10 m c from congrFun (V10_eq m) c]; exact .rfl)
    (reg5 m) (fun c => by rw [show Gen.V11 m (outs m) c = W11 m c from congrFun (V11_eq m) c]; exact .rfl) (fun c => by rw [show Gen.V12 m (outs m) c = W12 m c from congrFun (V12_eq m) c]; exact .rfl)
    (reg6 m) (fun c => by rw [show Gen.V13 m (outs m) c = W13 m c from congrFun (V13_eq m) c]; exact .rfl) (fun c => by rw [show Gen.V14 m (outs m) c = W14 m c from congrFun (V14_eq m) c]; exact .rfl)
    (reg7 m) (fun c => by rw [show Gen.V14 m (outs m) c = W14 m c from congrFun (V14_eq m) c]; exact .rfl) (fun c => by rw [show Gen.V15 m (outs m) c = W15 m c from congrFun (V15_eq m) c]; exact .rfl)
    (reg8 m) (fun c => by rw [show Gen.V16 m (outs m) c = W16 m c from congrFun (V16_eq m) c]; exact .rfl) (fun c => by rw [show Gen.V17 m (outs m) c = W17 m c from congrFun (V17_eq m) c]; exact .rfl)
    (reg9 m) (fun c => by rw [show Gen.V18 m (outs m) c = W18 m c from congrFun (V18_eq m) c]; exact .rfl) (fun c => by rw [show Gen.V19 m (outs m) c = W19 m c from congrFun (V19_eq m) c]; exact .rfl)
    (reg10 m) (fun c => by rw [show Gen.V19 m (outs m) c = W19 m c from congrFun (V19_eq m) c]; exact .rfl) (fun c => by rw [show Gen.V20 m (outs m) c = W20 m c from congrFun (V20_eq m) c]; exact .rfl)
    (reg11 m) (fun c => by rw [show Gen.V21 m (outs m) c = W21 m c from congrFun (V21_eq m) c]; exact .rfl) (fun c => by rw [show Gen.V22 m (outs m) c = W22 m c from congrFun (V22_eq m) c]; exact .rfl)
    (reg12 m) (fun c => by rw [show Gen.V23 m (outs m) c = W23 m c from congrFun (V23_eq m) c]; exact .rfl) (fun c => by rw [show Gen.V24 m (outs m) c = W24 m c from congrFun (V24_eq m) c]; exact .rfl)
    (reg13 m) (fun c => by rw [show Gen.V24 m (outs m) c = W24 m c from congrFun (V24_eq m) c]; exact .rfl) (fun c => by rw [show Gen.V25 m (outs m) c = W25 m c from congrFun (V25_eq m) c]; exact .rfl)
    (reg14 m) (fun c => by rw [show Gen.V26 m (outs m) c = W26 m c from congrFun (V26_eq m) c]; exact .rfl) (fun c => by rw [show Gen.V27 m (outs m) c = W27 m c from congrFun (V27_eq m) c]; exact .rfl)
    (reg15 m) (fun c => by rw [show Gen.V28 m (outs m) c = W28 m c from congrFun (V28_eq m) c]; exact .rfl) (fun c => by rw [show Gen.V29 m (outs m) c = W29 m c from congrFun (V29_eq m) c]; exact .rfl)

end Cert.Kernel.Hand

end
-- ==== Proof.KI.BodyLib.lean ====
import proofs.«123582_j22084721836889_2_alg».proof.Proof.Gen.KernelIdeal.Launch
import proofs.«123582_j22084721836889_2_alg».proof.Proof.Gen.KernelIdeal.Skeleton
import proofs.«123582_j22084721836889_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- A buffer held at contents `f` is owned at what the view reads off `f`.
theorem owns_read (c : Dev nD) {sp : Space} {sh : Shape} {e : EltTy} (m : Memref sig .tc sp sh e) (f : m.view.ty.Contents (Elt F)) :
    (m.view.loc (c : Thread nD τ) ↦[m.view.set]{fullShare} f : sProp 𝕄)
      ⊢ iprop(∃ g, ⌜m.view.read (Elt F) g = m.view.read (Elt F) f⌝ ∗ (m.view.loc (c : Thread nD τ) ↦[m.view.set]{fullShare} g)) := by
  iintro H; iexists f; isplitr; · ipureintro; rfl
  iexact H

end Cert.KernelIdeal.Hand

end
-- ==== Proof.KI.Lin0.lean ====
import proofs.«123582_j22084721836889_2_alg».proof.Proof.KI.BodyLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S4000x128 := Rect.unit (s := S4000x128) ![0, 0] S4000x128.size inb_S4000x128_S4000x128_0_0
abbrev r0_1 : Rect S4000x5 := Rect.unit (s := S4000x5) ![0, 0] S4000x5.size inb_S4000x5_S4000x5_0_0
abbrev r0_2 : Rect S5x128 := Rect.unit (s := S5x128) ![0, 0] S5x128.size inb_S5x128_S5x128_0_0
abbrev r0_3 : Rect S4000x1 := Rect.unit (s := S4000x1) ![0, 0] S4000x1.size inb_S4000x1_S4000x1_0_0
abbrev r0_4 : Rect S128x128 := Rect.unit (s := S128x128) ![0, 0] S128x128.size inb_S128x128_S128x128_0_0
abbrev r0_5 : Rect S1x128 := Rect.unit (s := S1x128) ![0, 0] S1x128.size inb_S1x128_S1x128_0_0

def out0_7 (x0 : Vec F S4000x128 .f32) (x1 : Vec F S4000x128 .f32) (x2 : Vec F S4000x5 .f32) (x3 : Vec F S5x128 .f32)
    (x4 : Vec F S4000x1 .f32) (x5 : Vec F S128x128 .f32) (x6 : Vec F S1x128 .f32) : Vec F S4000x128 .f32 :=
  View.canon [⟨r0_0, k0_pay1 (View.ld x0 r0_0) (View.ld x1 r0_0) (View.ld x2 r0_1) (View.ld x3 r0_2) (View.ld x4 r0_3) (View.ld x5 r0_4) (View.ld x6 r0_5)⟩]

set_option maxHeartbeats 1000000 in
-- The inputs are only read and the single store covers the whole output block; whatever else is held passes through.
theorem sound_kernel0 (c : Dev nD) (E : Set ℕ) (i : grid0.Coords)
    (arg1 : Memref sig .tc .vmem S4000x128 .f32) (harg1 : arg1.IsWhole) (arg2 : Memref sig .tc .vmem S4000x128 .f32) (harg2 : arg2.IsWhole)
    (arg3 : Memref sig .tc .vmem S4000x5 .f32) (harg3 : arg3.IsWhole) (arg4 : Memref sig .tc .vmem S5x128 .f32) (harg4 : arg4.IsWhole)
    (arg5 : Memref sig .tc .vmem S4000x1 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S4000x128 .f32) (harg8 : arg8.IsWhole)
    (x0 : Vec F S4000x128 .f32) (x1 : Vec F S4000x128 .f32) (x2 : Vec F S4000x5 .f32) (x3 : Vec F S5x128 .f32)
    (x4 : Vec F S4000x1 .f32) (x5 : Vec F S128x128 .f32) (x6 : Vec F S1x128 .f32) (R S : sProp 𝕄)
    {D0 D1 D2 D3 D4 D5 D6 D7 : Type} (g : D7 → Vec F S4000x128 .f32) :
    iprop(R ∗ S ∗ (∃ _ : D0, owns c arg1 fullShare x0) ∗ (∃ _ : D1, owns c arg2 fullShare x1)
        ∗ (∃ _ : D2, owns c arg3 fullShare x2) ∗ (∃ _ : D3, owns c arg4 fullShare x3)
        ∗ (∃ _ : D4, owns c arg5 fullShare x4) ∗ (∃ _ : D5, owns c arg6 fullShare x5)
        ∗ (∃ _ : D6, owns c arg7 fullShare x6)
        ∗ (∃ d, owns c arg8 fullShare (g d)))
      ⊢ wp frame (wpE (defs₀ (F := F)) Variants.none c none) E (cc0__linear_kernel i arg1 harg1 arg2 harg2 arg3 harg3 arg4 harg4 arg5 harg5 arg6 harg6 arg7 harg7 arg8 harg8)
        fun _ => iprop(R ∗ S ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6
          ∗ owns c arg8 fullShare (out0_7 x0 x1 x2 x3 x4 x5 x6)) := by
  simp only [cc0__linear_kernel_eq_skeleton]; unfold cc0__linear_kernel_skel
  unfold owns
  iintro ⟨HR, HS, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%_, %f7, -, H7⟩⟩
  subst hf0; subst hf1; subst hf2; subst hf3; subst hf4; subst hf5; subst hf6
  sl_exec
  sl_step
  isplitl [HR]; · iexact HR
  isplitl [HS]; · iexact HS
  isplitl [H0]; · iapply owns_read; iexact H0
  isplitl [H1]; · iapply owns_read; iexact H1
  isplitl [H2]; · iapply owns_read; iexact H2
  isplitl [H3]; · iapply owns_read; iexact H3
  isplitl [H4]; · iapply owns_read; iexact H4
  isplitl [H5]; · iapply owns_read; iexact H5
  isplitl [H6]; · iapply owns_read; iexact H6
  iexists _; isplitr
  swap; · iexact H7
  ipureintro
  exact View.read_writes_eq_canon _ _ _ (View.cover_of_tiled _ S4000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) (iblk0 V c 6 t) := by dsimp only [dat0]

-- An input's buffer holds its block at every point: where it was not fetched, the block index has not moved.
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ (∀ d, (dat0 V c).before 4 t d = iblk0 V c 4 t) ∧ (∀ d, (dat0 V c).before 5 t d = iblk0 V c 5 t)
      ∧ (∀ d, (dat0 V c).before 6 t d = iblk0 V c 6 t) := by
  refine ⟨?_, ?_, ?_, ?_, ?_, ?_, ?_⟩ <;> intro d <;>
  exact ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  obtain ⟨h0, h1, h2, h3, h4, h5, h6⟩ := before0 V c t
  simp only [h0, h1, h2, h3, h4, h5, h6]
  rw [after0_0, after0_1, after0_2, after0_3, after0_4, after0_5, after0_6, after0_7]
  show _ ⊢ wp frame _ Set.univ (bodyAt0 t) _
  exact sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _ _ _

end Region0

end Cert.KernelIdeal.Hand

end
-- ==== Proof.KI.StatsLib.lean ====
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

namespace Cert.KernelIdeal.Hand

open Idealize.ShloMosaic

theorem zero_offs : (![0, 0] : Fin 2 → Nat) = fun _ => 0 := funext fun a => by fin_cases a <;> rfl

-- The last store covers every index of the buffer, so the buffer reads that store's payload.
theorem read_writes_unit {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.Mem.head _, View.mem_set_unit_zero h inb y⟩), View.canon_cons_unit_zero h]

end Cert.KernelIdeal.Hand
-- ==== Proof.KI.Stats1.lean ====
import proofs.«123582_j22084721836889_2_alg».proof.Proof.Gen.KernelIdeal.Launch
import proofs.«123582_j22084721836889_2_alg».proof.Proof.Gen.KernelIdeal.Skeleton
import proofs.«123582_j22084721836889_2_alg».proof.Proof.Gen.KernelIdeal.Points
import proofs.«123582_j22084721836889_2_alg».proof.Proof.KI.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1_0 (c : Dev nD) : (n : ℕ) → Vec F S1x128 .f32
  | 0 => k1_pay1
  | n + 1 => if h : n < cfg1.N then k1_pay4 (iblk1 V c 0 ⟨n, h⟩) (acc1_0 c n) else acc1_0 c n

def acc1_1 (c : Dev nD) : (n : ℕ) → Vec F S1x128 .f32
  | 0 => k1_pay2
  | n + 1 => if h : n < cfg1.N then k1_pay5 (iblk1 V c 0 ⟨n, h⟩) (acc1_1 c n) else acc1_1 c n

theorem acc1_0_zero (c : Dev nD) (n : ℕ) (h : n = 0) : acc1_0 V c n = k1_pay1 := by subst h; rfl
theorem acc1_1_zero (c : Dev nD) (n : ℕ) (h : n = 0) : acc1_1 V c n = k1_pay2 := by subst h; rfl

theorem acc1_0_succ (c : Dev nD) (t : Fin cfg1.N) : acc1_0 V c (t.val + 1) = k1_pay4 (iblk1 V c 0 t) (acc1_0 V c t.val) := by
  rw [acc1_0]; exact dif_pos t.isLt
theorem acc1_1_succ (c : Dev nD) (t : Fin cfg1.N) : acc1_1 V c (t.val + 1) = k1_pay5 (iblk1 V c 0 t) (acc1_1 V c t.val) := by
  rw [acc1_1]; exact dif_pos t.isLt

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, k1_cond2 (grid1.coords t) = 1#1 ↔ t.val = 49 :=
  (by decide +kernel : ∀ t : Fin grid1.N, k1_cond2 (grid1.coords t) = 1#1 ↔ t.val = 49)

theorem liveAt1_0 : ∀ t : Fin cfg1.N, cfg1.idle 0 (grid1.coords t) = false := fun _ => rfl
theorem idle1 : ∀ t : Fin cfg1.N, ¬k1_cond2 (grid1.coords t) = 1#1 →
    cfg1.idle 1 (grid1.coords t) = true ∧ cfg1.idle 2 (grid1.coords t) = true ∧ (cfg1.win 1).flush t = false ∧ (cfg1.win 2).flush t = false := by
  decide +kernel
theorem live1 : ∀ t : Fin cfg1.N, k1_cond2 (grid1.coords t) = 1#1 → cfg1.idle 1 (grid1.coords t) = false ∧ cfg1.idle 2 (grid1.coords t) = false := by
  decide +kernel

set_option maxHeartbeats 1000000 in
-- The scratch pair restarts from zeros under the first test, takes one step on the block, and is copied out under the second.
theorem sound_kernel1 (c : Dev nD) (E : Set ℕ) (i : grid1.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc : cond1_0 i → ¬k1_cond2 i = 1#1)
    (x : Vec F S4000x128 .f32) (o1 o2 s0 s1 b0 b1 : Vec F S1x128 .f32)
    (hb0 : b0 = if cond1_0 i then k1_pay1 else s0) (hb1 : b1 = if cond1_0 i then k1_pay2 else s1) (K : PUnit → sProp 𝕄) :
    iprop(owns (c : Thread nD τ) arg1 fullShare x ∗ owns (c : Thread nD τ) arg2 fullShare o1 ∗ owns (c : Thread nD τ) arg3 fullShare o2
        ∗ owns (c : Thread nD τ) arg4 fullShare s0 ∗ owns (c : Thread nD τ) arg5 fullShare s1
        ∗ (iprop(owns (c : Thread nD τ) arg1 fullShare x
            ∗ owns (c : Thread nD τ) arg2 fullShare (if k1_cond2 i = 1#1 then k1_pay4 x b0 else o1)
            ∗ owns (c : Thread nD τ) arg3 fullShare (if k1_cond2 i = 1#1 then k1_pay5 x b1 else o2)
            ∗ owns (c : Thread nD τ) arg4 fullShare (k1_pay4 x b0) ∗ owns (c : Thread nD τ) arg5 fullShare (k1_pay5 x b1)) -∗ K ⟨⟩))
      ⊢ wp frame (wpE (defs₀ (F := F)) Variants.none c none) E (cc1__stats_kernel i arg1 harg1 arg2 harg2 arg3 harg3 arg4 harg4 arg5 harg5) K := by
  subst hb0 hb1
  simp only [cc1__stats_kernel_eq_skeleton]; unfold cc1__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  by_cases hc0 : cond1_0 i <;> by_cases hc1 : k1_cond2 i = 1#1
  · exact absurd hc1 (hc hc0)
  all_goals
    sl_exec (disch := first | exact hc0 | exact hc1)
    sl_step
    simp only [hc0, eq_true hc0, hc1, ↓reduceIte]
    iapply Hk
    isplitl [H1]; rotate_left; isplitl [H2]; rotate_left; isplitl [H3]; rotate_left; isplitl [H4]; rotate_left
    all_goals
      iexists _; isplitr; swap
      · first | iexact H1 | iexact H2 | iexact H3 | iexact H4 | iexact H5
      ipureintro
      first
      | with_reducible rfl
      | (sl_unfold_run_names
         simp only [read_writes_unit (S := S1x128) _ _ zero_offs, View.readCov_unit_zero (S := S1x128) _ zero_offs, View.readAt_eq_ld,
           View.ld_unit_zero (S := S4000x128) zero_offs, View.ld_unit_zero (S := S1x128) zero_offs])

abbrev scM1_0 : Memref sig .tc .vmem S1x128 .f32 := Memref.whole cc1_scratch0
abbrev scM1_1 : Memref sig .tc .vmem S1x128 .f32 := Memref.whole cc1_scratch1

abbrev rest1 (c : Dev nD) : sProp 𝕄 :=
  Pipeline.scopedRestBut (Ix := Unit) (Name := ℕ) (U := UR sig nD τ) (Lvl := ℕ) (Val := Elt F) spec1 c [cc1_scratch0, cc1_scratch1]

-- Before point n the scratch pair holds the accumulators over the first n points (anything, before the first point).
def Phi1 (c : Dev nD) (n : ℕ) : sProp 𝕄 :=
  iprop(rest1 (F := F) c ∗ (∃ r, prngReg c r) ∗ ∃ s0 s1, ⌜n ≠ 0 → s0 = acc1_0 V c n ∧ s1 = acc1_1 V c n⌝
    ∗ owns (c : Thread nD τ) scM1_0 fullShare s0 ∗ owns (c : Thread nD τ) scM1_1 fullShare s1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => acc1_0 V c (t.val + 1)
    | ⟨2, _⟩ => acc1_1 V c (t.val + 1)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = acc1_0 V c (t.val + 1) := by dsimp only [dat1]
theorem after1_2 (c : Dev nD) (t : Fin cfg1.N) : (dat1 V c).after 2 t = acc1_1 V c (t.val + 1) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

-- One step of the invariant, at any point.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.castSucc = Phi1 V c t.val from rfl, show (dat1 V c).Φ t.succ = Phi1 V c (t.val + 1) from rfl,
    show (dat1 V c).leavesExact 0 t = owns (c : Thread nD τ) (st1_0 t) fullShare ((dat1 V c).after 0 t) from by
      unfold Dat.leavesExact; rw [liveAt1_0 t], after1_0]
  unfold Phi1
  iintro ⟨⟨Hrest, Hg, %s0, %s1, %hs, HS0, HS1⟩, Ho, ⟨%d0, H0⟩, ⟨%d1, H1⟩, ⟨%d2, H2⟩⟩
  have e0 : acc1_0 V c t.val = (if cond1_0 (grid1.coords t) then k1_pay1 else s0)
      ∧ acc1_1 V c t.val = (if cond1_0 (grid1.coords t) then k1_pay2 else s1) := by
    by_cases h0 : t.val = 0
    · rw [if_pos ((hcond1_0 t).mpr h0), if_pos ((hcond1_0 t).mpr h0), acc1_0_zero V c _ h0, acc1_1_zero V c _ h0]; exact ⟨rfl, rfl⟩
    · rw [if_neg (fun h => h0 ((hcond1_0 t).mp h)), if_neg (fun h => h0 ((hcond1_0 t).mp h))]
      exact ⟨(hs h0).1.symm, (hs h0).2.symm⟩
  iapply (sound_kernel1 c Set.univ (grid1.coords t) _ _ _ _ _ _ _ _ _ _
    (fun h h' => by have := (hcond1_0 t).mp h; have := (hcond1_1 t).mp h'; omega) (iblk1 V c 0 t)
    ((dat1 V c).before 1 t d1) ((dat1 V c).before 2 t d2) s0 s1 _ _ e0.1 e0.2 _)
  rw [← acc1_0_succ, ← acc1_1_succ]
  iframe H0 H1 H2 HS0 HS1
  iintro ⟨H0, H1, H2, HS0, HS1⟩
  iframe Hrest Hg Ho H0
  isplitl [HS0 HS1]
  · iexists acc1_0 V c (t.val + 1), acc1_1 V c (t.val + 1)
    isplitr; · ipureintro; exact fun _ => ⟨rfl, rfl⟩
    iframe
  by_cases hc1 : k1_cond2 (grid1.coords t) = 1#1
  · rw [if_pos hc1, if_pos hc1,
      show (dat1 V c).leavesExact 1 t = owns (c : Thread nD τ) (st1_1 t) fullShare ((dat1 V c).after 1 t) from by
        unfold Dat.leavesExact; rw [(live1 t hc1).1], after1_1,
      show (dat1 V c).leavesExact 2 t = owns (c : Thread nD τ) (st1_2 t) fullShare ((dat1 V c).after 2 t) from by
        unfold Dat.leavesExact; rw [(live1 t hc1).2], after1_2]
    iframe
  · rw [if_neg hc1, if_neg hc1, Dat.leavesExact_idle (dat1 V c) 1 t (idle1 t hc1).1 (idle1 t hc1).2.2.1,
      Dat.leavesExact_idle (dat1 V c) 2 t (idle1 t hc1).2.1 (idle1 t hc1).2.2.2]
    isplitl [H1]; · iexists _; iexact H1
    iexists _; iexact H2

theorem body_obligation1 (c : Dev nD) : BodyObligation (dat1 (F := F) V c) (defs₀ (F := F)) Variants.none () Set.univ := fun t => by
  rw [bigSep_W1, bigSep_W1]
  exact sound_body1 V c t

theorem Phi1_in (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [show (dat1 V c).Φ 0 = Phi1 V c 0 from rfl, scopedRest1_split]
  unfold Phi1
  simp only [scM1_0, scM1_1, owns_whole]
  iintro ⟨Hg, ⟨⟨%s0, HS0⟩, ⟨%s1, HS1⟩⟩, Hrest⟩
  iframe Hg Hrest
  iexists s0, s1
  isplitr; · ipureintro; exact fun h => absurd rfl h
  iframe

-- The accumulators' contents are forgotten.
theorem Phi1_out (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c (Fin.last cfg1.N).val from rfl, scopedRest1_split]
  unfold Phi1
  simp only [scM1_0, scM1_1, owns_whole]
  iintro ⟨Hrest, Hg, %s0, %s1, -, HS0, HS1⟩
  iframe Hrest Hg
  isplitl [HS0]; · iexists _; iexact HS0
  iexists _; iexact HS1

-- The block's offsets in the array are zero on both axes.
theorem off1_1 (t : Fin cfg1.N) : (fun a => (cfg1.win 1).index t a * (cfg1.win 1).size a) = fun _ => 0 :=
  funext fun a => by fin_cases a <;> rfl
theorem off1_2 (t : Fin cfg1.N) : (fun a => (cfg1.win 2).index t a * (cfg1.win 2).size a) = fun _ => 0 :=
  funext fun a => by fin_cases a <;> rfl

theorem mem_blk1_1 (t : Fin cfg1.N) (i : S1x128.Idx) : i ∈ ((cfg1.win 1).blk t).view.set := by
  show i ∈ ((View.whole main_v38_0).slice (win1_1.rect t)).set
  rw [View.set_slice_whole]
  exact View.mem_set_unit_zero (S := S1x128) (off1_1 t) _ i
theorem mem_blk1_2 (t : Fin cfg1.N) (i : S1x128.Idx) : i ∈ ((cfg1.win 2).blk t).view.set := by
  show i ∈ ((View.whole main_v38_1).slice (win1_2.rect t)).set
  rw [View.set_slice_whole]
  exact View.mem_set_unit_zero (S := S1x128) (off1_2 t) _ i

theorem lt49_1 : (49 : ℕ) < cfg1.N := by rw [show cfg1.N = 50 from N_1]; omega
theorem last1 (t : Fin cfg1.N) (h : t.val % 50 = 49) : t.val = 49 := by have := lt_of_lt_of_eq t.isLt N_1; omega

theorem arrAt1_1 (c : Dev nD) : (dat1 V c).arrAt 1 cfg1.N = acc1_0 V c 50 := by
  refine (dat1 V c).arrAt_eq_of_cover 1 (acc1_0 V c 50) (fun t hf => ?_) (fun i => ⟨⟨49, lt49_1⟩, (flush1_1 _).mpr rfl, mem_blk1_1 _ i⟩)
  rw [show ((cfg1.win 1).blk t).view.read (Elt F) _ = _ from View.ld_unit_zero (S := S1x128) (off1_1 t) _ _]
  show (dat1 V c).after 1 t = _
  rw [after1_1, last1 t ((flush1_1 t).mp hf)]

theorem arrAt1_2 (c : Dev nD) : (dat1 V c).arrAt 2 cfg1.N = acc1_1 V c 50 := by
  refine (dat1 V c).arrAt_eq_of_cover 2 (acc1_1 V c 50) (fun t hf => ?_) (fun i => ⟨⟨49, lt49_1⟩, (flush1_2 _).mpr rfl, mem_blk1_2 _ i⟩)
  rw [show ((cfg1.win 2).blk t).view.read (Elt F) _ = _ from View.ld_unit_zero (S := S1x128) (off1_2 t) _ _]
  show (dat1 V c).after 2 t = _
  rw [after1_2, last1 t ((flush1_2 t).mp hf)]

end Cert.KernelIdeal.Hand

end
-- ==== Proof.KI.Norm2.lean ====
import proofs.«123582_j22084721836889_2_alg».proof.Proof.KI.BodyLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x128 := Rect.unit (s := S4000x128) ![0, 0] S4000x128.size inb_S4000x128_S4000x128_0_0
abbrev r2_1 : Rect S1x128 := Rect.unit (s := S1x128) ![0, 0] S1x128.size inb_S1x128_S1x128_0_0

def out2_3 (x0 : Vec F S4000x128 .f32) (x1 : Vec F S1x128 .f32) (x2 : Vec F S1x128 .f32) : Vec F S4000x128 .bf16 :=
  View.canon [⟨r2_0, k2_pay1 (View.ld x0 r2_0) (View.ld x1 r2_1) (View.ld x2 r2_1)⟩]

set_option maxHeartbeats 1000000 in
-- The inputs are only read and the single store covers the whole output block; whatever else is held passes through.
theorem sound_kernel2 (c : Dev nD) (E : Set ℕ) (i : grid2.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S4000x128 .bf16) (harg4 : arg4.IsWhole)
    (x0 : Vec F S4000x128 .f32) (x1 : Vec F S1x128 .f32) (x2 : Vec F S1x128 .f32) (R S : sProp 𝕄)
    {D0 D1 D2 D3 : Type} (g : D3 → Vec F S4000x128 .bf16) :
    iprop(R ∗ S ∗ (∃ _ : D0, owns c arg1 fullShare x0) ∗ (∃ _ : D1, owns c arg2 fullShare x1)
        ∗ (∃ _ : D2, owns c arg3 fullShare x2)
        ∗ (∃ d, owns c arg4 fullShare (g d)))
      ⊢ wp frame (wpE (defs₀ (F := F)) Variants.none c none) E (cc2__norm_relu_kernel i arg1 harg1 arg2 harg2 arg3 harg3 arg4 harg4)
        fun _ => iprop(R ∗ S ∗ owns c arg1 fullShare x0 ∗ owns c arg2 fullShare x1 ∗ owns c arg3 fullShare x2
          ∗ owns c arg4 fullShare (out2_3 x0 x1 x2)) := by
  simp only [cc2__norm_relu_kernel_eq_skeleton]; unfold cc2__norm_relu_kernel_skel
  unfold owns
  iintro ⟨HR, HS, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HR]; · iexact HR
  isplitl [HS]; · iexact HS
  isplitl [H0]; · iapply owns_read; iexact H0
  isplitl [H1]; · iapply owns_read; iexact H1
  isplitl [H2]; · iapply owns_read; iexact H2
  iexists _; isplitr
  swap; · iexact H3
  ipureintro
  exact View.read_writes_eq_canon _ _ _ (View.cover_of_tiled _ S4000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t =
    out2_3 (iblk2 V c 0 t) (iblk2 V c 1 t) (iblk2 V c 2 t) := by dsimp only [dat2]

-- An input's buffer holds its block at every point: where it was not fetched, the block index has not moved.
theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) := by
  refine ⟨?_, ?_, ?_⟩ <;> intro d <;>
  exact ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  obtain ⟨h0, h1, h2⟩ := before2 V c t
  simp only [h0, h1, h2]
  rw [after2_0, after2_1, after2_2, after2_3]
  show _ ⊢ wp frame _ Set.univ (bodyAt2 t) _
  exact sound_kernel2 c Set.univ _ _ _ _ _ _ _ _ _ (iblk2 V c 0 t) (iblk2 V c 1 t) (iblk2 V c 2 t) _ _ _

end Region2

end Cert.KernelIdeal.Hand

end
-- ==== Proof.KI.Lin3.lean ====
import proofs.«123582_j22084721836889_2_alg».proof.Proof.KI.BodyLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S4000x128 := Rect.unit (s := S4000x128) ![0, 0] S4000x128.size inb_S4000x128_S4000x128_0_0
abbrev r3_1 : Rect S4000x5 := Rect.unit (s := S4000x5) ![0, 0] S4000x5.size inb_S4000x5_S4000x5_0_0
abbrev r3_2 : Rect S5x128 := Rect.unit (s := S5x128) ![0, 0] S5x128.size inb_S5x128_S5x128_0_0
abbrev r3_3 : Rect S4000x1 := Rect.unit (s := S4000x1) ![0, 0] S4000x1.size inb_S4000x1_S4000x1_0_0
abbrev r3_4 : Rect S128x128 := Rect.unit (s := S128x128) ![0, 0] S128x128.size inb_S128x128_S128x128_0_0
abbrev r3_5 : Rect S1x128 := Rect.unit (s := S1x128) ![0, 0] S1x128.size inb_S1x128_S1x128_0_0

def out3_7 (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) : Vec F S4000x128 .f32 :=
  View.canon [⟨r3_0, k3_pay1 (View.ld x0 r3_0) (View.ld x1 r3_0) (View.ld x2 r3_1) (View.ld x3 r3_2) (View.ld x4 r3_3) (View.ld x5 r3_4) (View.ld x6 r3_5)⟩]

set_option maxHeartbeats 1000000 in
-- The inputs are only read and the single store covers the whole output block; whatever else is held passes through.
theorem sound_kernel3 (c : Dev nD) (E : Set ℕ) (i : grid3.Coords)
    (arg1 : Memref sig .tc .vmem S4000x128 .bf16) (harg1 : arg1.IsWhole) (arg2 : Memref sig .tc .vmem S4000x128 .f32) (harg2 : arg2.IsWhole)
    (arg3 : Memref sig .tc .vmem S4000x5 .f32) (harg3 : arg3.IsWhole) (arg4 : Memref sig .tc .vmem S5x128 .f32) (harg4 : arg4.IsWhole)
    (arg5 : Memref sig .tc .vmem S4000x1 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S4000x128 .f32) (harg8 : arg8.IsWhole)
    (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) (R S : sProp 𝕄)
    {D0 D1 D2 D3 D4 D5 D6 D7 : Type} (g : D7 → Vec F S4000x128 .f32) :
    iprop(R ∗ S ∗ (∃ _ : D0, owns c arg1 fullShare x0) ∗ (∃ _ : D1, owns c arg2 fullShare x1)
        ∗ (∃ _ : D2, owns c arg3 fullShare x2) ∗ (∃ _ : D3, owns c arg4 fullShare x3)
        ∗ (∃ _ : D4, owns c arg5 fullShare x4) ∗ (∃ _ : D5, owns c arg6 fullShare x5)
        ∗ (∃ _ : D6, owns c arg7 fullShare x6)
        ∗ (∃ d, owns c arg8 fullShare (g d)))
      ⊢ wp frame (wpE (defs₀ (F := F)) Variants.none c none) E (cc3__linear_kernel i arg1 harg1 arg2 harg2 arg3 harg3 arg4 harg4 arg5 harg5 arg6 harg6 arg7 harg7 arg8 harg8)
        fun _ => iprop(R ∗ S ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6
          ∗ owns c arg8 fullShare (out3_7 x0 x1 x2 x3 x4 x5 x6)) := by
  simp only [cc3__linear_kernel_eq_skeleton]; unfold cc3__linear_kernel_skel
  unfold owns
  iintro ⟨HR, HS, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%_, %f7, -, H7⟩⟩
  subst hf0; subst hf1; subst hf2; subst hf3; subst hf4; subst hf5; subst hf6
  sl_exec
  sl_step
  isplitl [HR]; · iexact HR
  isplitl [HS]; · iexact HS
  isplitl [H0]; · iapply owns_read; iexact H0
  isplitl [H1]; · iapply owns_read; iexact H1
  isplitl [H2]; · iapply owns_read; iexact H2
  isplitl [H3]; · iapply owns_read; iexact H3
  isplitl [H4]; · iapply owns_read; iexact H4
  isplitl [H5]; · iapply owns_read; iexact H5
  isplitl [H6]; · iapply owns_read; iexact H6
  iexists _; isplitr
  swap; · iexact H7
  ipureintro
  exact View.read_writes_eq_canon _ _ _ (View.cover_of_tiled _ S4000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t =
    out3_7 (iblk3 V c 0 t) (iblk3 V c 1 t) (iblk3 V c 2 t) (iblk3 V c 3 t) (iblk3 V c 4 t) (iblk3 V c 5 t) (iblk3 V c 6 t) := by dsimp only [dat3]

-- An input's buffer holds its block at every point: where it was not fetched, the block index has not moved.
theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ (∀ d, (dat3 V c).before 4 t d = iblk3 V c 4 t) ∧ (∀ d, (dat3 V c).before 5 t d = iblk3 V c 5 t)
      ∧ (∀ d, (dat3 V c).before 6 t d = iblk3 V c 6 t) := by
  refine ⟨?_, ?_, ?_, ?_, ?_, ?_, ?_⟩ <;> intro d <;>
  exact ((dat3 V c).before_in_eq_fetched _ rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  obtain ⟨h0, h1, h2, h3, h4, h5, h6⟩ := before3 V c t
  simp only [h0, h1, h2, h3, h4, h5, h6]
  rw [after3_0, after3_1, after3_2, after3_3, after3_4, after3_5, after3_6, after3_7]
  show _ ⊢ wp frame _ Set.univ (bodyAt3 t) _
  exact sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _ _ _

end Region3

end Cert.KernelIdeal.Hand

end
-- ==== Proof.KI.Stats4.lean ====
import proofs.«123582_j22084721836889_2_alg».proof.Proof.Gen.KernelIdeal.Launch
import proofs.«123582_j22084721836889_2_alg».proof.Proof.Gen.KernelIdeal.Skeleton
import proofs.«123582_j22084721836889_2_alg».proof.Proof.Gen.KernelIdeal.Points
import proofs.«123582_j22084721836889_2_alg».proof.Proof.KI.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4_0 (c : Dev nD) : (n : ℕ) → Vec F S1x128 .f32
  | 0 => k4_pay1
  | n + 1 => if h : n < cfg4.N then k4_pay4 (iblk4 V c 0 ⟨n, h⟩) (acc4_0 c n) else acc4_0 c n

def acc4_1 (c : Dev nD) : (n : ℕ) → Vec F S1x128 .f32
  | 0 => k4_pay2
  | n + 1 => if h : n < cfg4.N then k4_pay5 (iblk4 V c 0 ⟨n, h⟩) (acc4_1 c n) else acc4_1 c n

theorem acc4_0_zero (c : Dev nD) (n : ℕ) (h : n = 0) : acc4_0 V c n = k4_pay1 := by subst h; rfl
theorem acc4_1_zero (c : Dev nD) (n : ℕ) (h : n = 0) : acc4_1 V c n = k4_pay2 := by subst h; rfl

theorem acc4_0_succ (c : Dev nD) (t : Fin cfg4.N) : acc4_0 V c (t.val + 1) = k4_pay4 (iblk4 V c 0 t) (acc4_0 V c t.val) := by
  rw [acc4_0]; exact dif_pos t.isLt
theorem acc4_1_succ (c : Dev nD) (t : Fin cfg4.N) : acc4_1 V c (t.val + 1) = k4_pay5 (iblk4 V c 0 t) (acc4_1 V c t.val) := by
  rw [acc4_1]; exact dif_pos t.isLt

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, k4_cond2 (grid4.coords t) = 1#1 ↔ t.val = 49 :=
  (by decide +kernel : ∀ t : Fin grid4.N, k4_cond2 (grid4.coords t) = 1#1 ↔ t.val = 49)

theorem liveAt4_0 : ∀ t : Fin cfg4.N, cfg4.idle 0 (grid4.coords t) = false := fun _ => rfl
theorem idle4 : ∀ t : Fin cfg4.N, ¬k4_cond2 (grid4.coords t) = 1#1 →
    cfg4.idle 1 (grid4.coords t) = true ∧ cfg4.idle 2 (grid4.coords t) = true ∧ (cfg4.win 1).flush t = false ∧ (cfg4.win 2).flush t = false := by
  decide +kernel
theorem live4 : ∀ t : Fin cfg4.N, k4_cond2 (grid4.coords t) = 1#1 → cfg4.idle 1 (grid4.coords t) = false ∧ cfg4.idle 2 (grid4.coords t) = false := by
  decide +kernel

set_option maxHeartbeats 1000000 in
-- The scratch pair restarts from zeros under the first test, takes one step on the block, and is copied out under the second.
theorem sound_kernel4 (c : Dev nD) (E : Set ℕ) (i : grid4.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc : cond4_0 i → ¬k4_cond2 i = 1#1)
    (x : Vec F S4000x128 .f32) (o1 o2 s0 s1 b0 b1 : Vec F S1x128 .f32)
    (hb0 : b0 = if cond4_0 i then k4_pay1 else s0) (hb1 : b1 = if cond4_0 i then k4_pay2 else s1) (K : PUnit → sProp 𝕄) :
    iprop(owns (c : Thread nD τ) arg1 fullShare x ∗ owns (c : Thread nD τ) arg2 fullShare o1 ∗ owns (c : Thread nD τ) arg3 fullShare o2
        ∗ owns (c : Thread nD τ) arg4 fullShare s0 ∗ owns (c : Thread nD τ) arg5 fullShare s1
        ∗ (iprop(owns (c : Thread nD τ) arg1 fullShare x
            ∗ owns (c : Thread nD τ) arg2 fullShare (if k4_cond2 i = 1#1 then k4_pay4 x b0 else o1)
            ∗ owns (c : Thread nD τ) arg3 fullShare (if k4_cond2 i = 1#1 then k4_pay5 x b1 else o2)
            ∗ owns (c : Thread nD τ) arg4 fullShare (k4_pay4 x b0) ∗ owns (c : Thread nD τ) arg5 fullShare (k4_pay5 x b1)) -∗ K ⟨⟩))
      ⊢ wp frame (wpE (defs₀ (F := F)) Variants.none c none) E (cc4__stats_kernel i arg1 harg1 arg2 harg2 arg3 harg3 arg4 harg4 arg5 harg5) K := by
  subst hb0 hb1
  simp only [cc4__stats_kernel_eq_skeleton]; unfold cc4__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  by_cases hc0 : cond4_0 i <;> by_cases hc1 : k4_cond2 i = 1#1
  · exact absurd hc1 (hc hc0)
  all_goals
    sl_exec (disch := first | exact hc0 | exact hc1)
    sl_step
    simp only [hc0, eq_true hc0, hc1, ↓reduceIte]
    iapply Hk
    isplitl [H1]; rotate_left; isplitl [H2]; rotate_left; isplitl [H3]; rotate_left; isplitl [H4]; rotate_left
    all_goals
      iexists _; isplitr; swap
      · first | iexact H1 | iexact H2 | iexact H3 | iexact H4 | iexact H5
      ipureintro
      first
      | with_reducible rfl
      | (sl_unfold_run_names
         simp only [read_writes_unit (S := S1x128) _ _ zero_offs, View.readCov_unit_zero (S := S1x128) _ zero_offs, View.readAt_eq_ld,
           View.ld_unit_zero (S := S4000x128) zero_offs, View.ld_unit_zero (S := S1x128) zero_offs])

abbrev scM4_0 : Memref sig .tc .vmem S1x128 .f32 := Memref.whole cc4_scratch0
abbrev scM4_1 : Memref sig .tc .vmem S1x128 .f32 := Memref.whole cc4_scratch1

abbrev rest4 (c : Dev nD) : sProp 𝕄 :=
  Pipeline.scopedRestBut (Ix := Unit) (Name := ℕ) (U := UR sig nD τ) (Lvl := ℕ) (Val := Elt F) spec4 c [cc4_scratch0, cc4_scratch1]

-- Before point n the scratch pair holds the accumulators over the first n points (anything, before the first point).
def Phi4 (c : Dev nD) (n : ℕ) : sProp 𝕄 :=
  iprop(rest4 (F := F) c ∗ (∃ r, prngReg c r) ∗ ∃ s0 s1, ⌜n ≠ 0 → s0 = acc4_0 V c n ∧ s1 = acc4_1 V c n⌝
    ∗ owns (c : Thread nD τ) scM4_0 fullShare s0 ∗ owns (c : Thread nD τ) scM4_1 fullShare s1)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => acc4_0 V c (t.val + 1)
    | ⟨2, _⟩ => acc4_1 V c (t.val + 1)
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = acc4_0 V c (t.val + 1) := by dsimp only [dat4]
theorem after4_2 (c : Dev nD) (t : Fin cfg4.N) : (dat4 V c).after 2 t = acc4_1 V c (t.val + 1) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

-- One step of the invariant, at any point.
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl,
    show (dat4 V c).Φ t.castSucc = Phi4 V c t.val from rfl, show (dat4 V c).Φ t.succ = Phi4 V c (t.val + 1) from rfl,
    show (dat4 V c).leavesExact 0 t = owns (c : Thread nD τ) (st4_0 t) fullShare ((dat4 V c).after 0 t) from by
      unfold Dat.leavesExact; rw [liveAt4_0 t], after4_0]
  unfold Phi4
  iintro ⟨⟨Hrest, Hg, %s0, %s1, %hs, HS0, HS1⟩, Ho, ⟨%d0, H0⟩, ⟨%d1, H1⟩, ⟨%d2, H2⟩⟩
  have e0 : acc4_0 V c t.val = (if cond4_0 (grid4.coords t) then k4_pay1 else s0)
      ∧ acc4_1 V c t.val = (if cond4_0 (grid4.coords t) then k4_pay2 else s1) := by
    by_cases h0 : t.val = 0
    · rw [if_pos ((hcond4_0 t).mpr h0), if_pos ((hcond4_0 t).mpr h0), acc4_0_zero V c _ h0, acc4_1_zero V c _ h0]; exact ⟨rfl, rfl⟩
    · rw [if_neg (fun h => h0 ((hcond4_0 t).mp h)), if_neg (fun h => h0 ((hcond4_0 t).mp h))]
      exact ⟨(hs h0).1.symm, (hs h0).2.symm⟩
  iapply (sound_kernel4 c Set.univ (grid4.coords t) _ _ _ _ _ _ _ _ _ _
    (fun h h' => by have := (hcond4_0 t).mp h; have := (hcond4_1 t).mp h'; omega) (iblk4 V c 0 t)
    ((dat4 V c).before 1 t d1) ((dat4 V c).before 2 t d2) s0 s1 _ _ e0.1 e0.2 _)
  rw [← acc4_0_succ, ← acc4_1_succ]
  iframe H0 H1 H2 HS0 HS1
  iintro ⟨H0, H1, H2, HS0, HS1⟩
  iframe Hrest Hg Ho H0
  isplitl [HS0 HS1]
  · iexists acc4_0 V c (t.val + 1), acc4_1 V c (t.val + 1)
    isplitr; · ipureintro; exact fun _ => ⟨rfl, rfl⟩
    iframe
  by_cases hc1 : k4_cond2 (grid4.coords t) = 1#1
  · rw [if_pos hc1, if_pos hc1,
      show (dat4 V c).leavesExact 1 t = owns (c : Thread nD τ) (st4_1 t) fullShare ((dat4 V c).after 1 t) from by
        unfold Dat.leavesExact; rw [(live4 t hc1).1], after4_1,
      show (dat4 V c).leavesExact 2 t = owns (c : Thread nD τ) (st4_2 t) fullShare ((dat4 V c).after 2 t) from by
        unfold Dat.leavesExact; rw [(live4 t hc1).2], after4_2]
    iframe
  · rw [if_neg hc1, if_neg hc1, Dat.leavesExact_idle (dat4 V c) 1 t (idle4 t hc1).1 (idle4 t hc1).2.2.1,
      Dat.leavesExact_idle (dat4 V c) 2 t (idle4 t hc1).2.1 (idle4 t hc1).2.2.2]
    isplitl [H1]; · iexists _; iexact H1
    iexists _; iexact H2

theorem body_obligation4 (c : Dev nD) : BodyObligation (dat4 (F := F) V c) (defs₀ (F := F)) Variants.none () Set.univ := fun t => by
  rw [bigSep_W4, bigSep_W4]
  exact sound_body4 V c t

theorem Phi4_in (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 from rfl, scopedRest4_split]
  unfold Phi4
  simp only [scM4_0, scM4_1, owns_whole]
  iintro ⟨Hg, ⟨⟨%s0, HS0⟩, ⟨%s1, HS1⟩⟩, Hrest⟩
  iframe Hg Hrest
  iexists s0, s1
  isplitr; · ipureintro; exact fun h => absurd rfl h
  iframe

-- The accumulators' contents are forgotten.
theorem Phi4_out (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c (Fin.last cfg4.N).val from rfl, scopedRest4_split]
  unfold Phi4
  simp only [scM4_0, scM4_1, owns_whole]
  iintro ⟨Hrest, Hg, %s0, %s1, -, HS0, HS1⟩
  iframe Hrest Hg
  isplitl [HS0]; · iexists _; iexact HS0
  iexists _; iexact HS1

-- The block's offsets in the array are zero on both axes.
theorem off4_1 (t : Fin cfg4.N) : (fun a => (cfg4.win 1).index t a * (cfg4.win 1).size a) = fun _ => 0 :=
  funext fun a => by fin_cases a <;> rfl
theorem off4_2 (t : Fin cfg4.N) : (fun a => (cfg4.win 2).index t a * (cfg4.win 2).size a) = fun _ => 0 :=
  funext fun a => by fin_cases a <;> rfl

theorem mem_blk4_1 (t : Fin cfg4.N) (i : S1x128.Idx) : i ∈ ((cfg4.win 1).blk t).view.set := by
  show i ∈ ((View.whole main_v79_0).slice (win4_1.rect t)).set
  rw [View.set_slice_whole]
  exact View.mem_set_unit_zero (S := S1x128) (off4_1 t) _ i
theorem mem_blk4_2 (t : Fin cfg4.N) (i : S1x128.Idx) : i ∈ ((cfg4.win 2).blk t).view.set := by
  show i ∈ ((View.whole main_v79_1).slice (win4_2.rect t)).set
  rw [View.set_slice_whole]
  exact View.mem_set_unit_zero (S := S1x128) (off4_2 t) _ i

theorem lt49_4 : (49 : ℕ) < cfg4.N := by rw [show cfg4.N = 50 from N_4]; omega
theorem last4 (t : Fin cfg4.N) (h : t.val % 50 = 49) : t.val = 49 := by have := lt_of_lt_of_eq t.isLt N_4; omega

theorem arrAt4_1 (c : Dev nD) : (dat4 V c).arrAt 1 cfg4.N = acc4_0 V c 50 := by
  refine (dat4 V c).arrAt_eq_of_cover 1 (acc4_0 V c 50) (fun t hf => ?_) (fun i => ⟨⟨49, lt49_4⟩, (flush4_1 _).mpr rfl, mem_blk4_1 _ i⟩)
  rw [show ((cfg4.win 1).blk t).view.read (Elt F) _ = _ from View.ld_unit_zero (S := S1x128) (off4_1 t) _ _]
  show (dat4 V c).after 1 t = _
  rw [after4_1, last4 t ((flush4_1 t).mp hf)]

theorem arrAt4_2 (c : Dev nD) : (dat4 V c).arrAt 2 cfg4.N = acc4_1 V c 50 := by
  refine (dat4 V c).arrAt_eq_of_cover 2 (acc4_1 V c 50) (fun t hf => ?_) (fun i => ⟨⟨49, lt49_4⟩, (flush4_2 _).mpr rfl, mem_blk4_2 _ i⟩)
  rw [show ((cfg4.win 2).blk t).view.read (Elt F) _ = _ from View.ld_unit_zero (S := S1x128) (off4_2 t) _ _]
  show (dat4 V c).after 2 t = _
  rw [after4_2, last4 t ((flush4_2 t).mp hf)]

end Cert.KernelIdeal.Hand

end
-- ==== Proof.KI.Norm5.lean ====
import proofs.«123582_j22084721836889_2_alg».proof.Proof.KI.BodyLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S4000x128 := Rect.unit (s := S4000x128) ![0, 0] S4000x128.size inb_S4000x128_S4000x128_0_0
abbrev r5_1 : Rect S1x128 := Rect.unit (s := S1x128) ![0, 0] S1x128.size inb_S1x128_S1x128_0_0

def out5_3 (x0 : Vec F S4000x128 .f32) (x1 : Vec F S1x128 .f32) (x2 : Vec F S1x128 .f32) : Vec F S4000x128 .bf16 :=
  View.canon [⟨r5_0, k5_pay1 (View.ld x0 r5_0) (View.ld x1 r5_1) (View.ld x2 r5_1)⟩]

set_option maxHeartbeats 1000000 in
-- The inputs are only read and the single store covers the whole output block; whatever else is held passes through.
theorem sound_kernel5 (c : Dev nD) (E : Set ℕ) (i : grid5.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S4000x128 .bf16) (harg4 : arg4.IsWhole)
    (x0 : Vec F S4000x128 .f32) (x1 : Vec F S1x128 .f32) (x2 : Vec F S1x128 .f32) (R S : sProp 𝕄)
    {D0 D1 D2 D3 : Type} (g : D3 → Vec F S4000x128 .bf16) :
    iprop(R ∗ S ∗ (∃ _ : D0, owns c arg1 fullShare x0) ∗ (∃ _ : D1, owns c arg2 fullShare x1)
        ∗ (∃ _ : D2, owns c arg3 fullShare x2)
        ∗ (∃ d, owns c arg4 fullShare (g d)))
      ⊢ wp frame (wpE (defs₀ (F := F)) Variants.none c none) E (cc5__norm_relu_kernel i arg1 harg1 arg2 harg2 arg3 harg3 arg4 harg4)
        fun _ => iprop(R ∗ S ∗ owns c arg1 fullShare x0 ∗ owns c arg2 fullShare x1 ∗ owns c arg3 fullShare x2
          ∗ owns c arg4 fullShare (out5_3 x0 x1 x2)) := by
  simp only [cc5__norm_relu_kernel_eq_skeleton]; unfold cc5__norm_relu_kernel_skel
  unfold owns
  iintro ⟨HR, HS, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HR]; · iexact HR
  isplitl [HS]; · iexact HS
  isplitl [H0]; · iapply owns_read; iexact H0
  isplitl [H1]; · iapply owns_read; iexact H1
  isplitl [H2]; · iapply owns_read; iexact H2
  iexists _; isplitr
  swap; · iexact H3
  ipureintro
  exact View.read_writes_eq_canon _ _ _ (View.cover_of_tiled _ S4000x128.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t =
    out5_3 (iblk5 V c 0 t) (iblk5 V c 1 t) (iblk5 V c 2 t) := by dsimp only [dat5]

-- An input's buffer holds its block at every point: where it was not fetched, the block index has not moved.
theorem before5 (c : Dev nD) (t : Fin cfg5.N) :
    (∀ d, (dat5 V c).before 0 t d = iblk5 V c 0 t) ∧ (∀ d, (dat5 V c).before 1 t d = iblk5 V c 1 t) ∧ (∀ d, (dat5 V c).before 2 t d = iblk5 V c 2 t) := by
  refine ⟨?_, ?_, ?_⟩ <;> intro d <;>
  exact ((dat5 V c).before_in_eq_fetched _ rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  obtain ⟨h0, h1, h2⟩ := before5 V c t
  simp only [h0, h1, h2]
  rw [after5_0, after5_1, after5_2, after5_3]
  show _ ⊢ wp frame _ Set.univ (bodyAt5 t) _
  exact sound_kernel5 c Set.univ _ _ _ _ _ _ _ _ _ (iblk5 V c 0 t) (iblk5 V c 1 t) (iblk5 V c 2 t) _ _ _

end Region5

end Cert.KernelIdeal.Hand

end
-- ==== Proof.KI.Lin6.lean ====
import proofs.«123582_j22084721836889_2_alg».proof.Proof.KI.BodyLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S4000x128 := Rect.unit (s := S4000x128) ![0, 0] S4000x128.size inb_S4000x128_S4000x128_0_0
abbrev r6_1 : Rect S4000x5 := Rect.unit (s := S4000x5) ![0, 0] S4000x5.size inb_S4000x5_S4000x5_0_0
abbrev r6_2 : Rect S5x128 := Rect.unit (s := S5x128) ![0, 0] S5x128.size inb_S5x128_S5x128_0_0
abbrev r6_3 : Rect S4000x1 := Rect.unit (s := S4000x1) ![0, 0] S4000x1.size inb_S4000x1_S4000x1_0_0
abbrev r6_4 : Rect S128x128 := Rect.unit (s := S128x128) ![0, 0] S128x128.size inb_S128x128_S128x128_0_0
abbrev r6_5 : Rect S1x128 := Rect.unit (s := S1x128) ![0, 0] S1x128.size inb_S1x128_S1x128_0_0

def out6_7 (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) : Vec F S4000x128 .f32 :=
  View.canon [⟨r6_0, k6_pay1 (View.ld x0 r6_0) (View.ld x1 r6_0) (View.ld x2 r6_1) (View.ld x3 r6_2) (View.ld x4 r6_3) (View.ld x5 r6_4) (View.ld x6 r6_5)⟩]

set_option maxHeartbeats 1000000 in
-- The inputs are only read and the single store covers the whole output block; whatever else is held passes through.
theorem sound_kernel6 (c : Dev nD) (E : Set ℕ) (i : grid6.Coords)
    (arg1 : Memref sig .tc .vmem S4000x128 .bf16) (harg1 : arg1.IsWhole) (arg2 : Memref sig .tc .vmem S4000x128 .f32) (harg2 : arg2.IsWhole)
    (arg3 : Memref sig .tc .vmem S4000x5 .f32) (harg3 : arg3.IsWhole) (arg4 : Memref sig .tc .vmem S5x128 .f32) (harg4 : arg4.IsWhole)
    (arg5 : Memref sig .tc .vmem S4000x1 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S4000x128 .f32) (harg8 : arg8.IsWhole)
    (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) (R S : sProp 𝕄)
    {D0 D1 D2 D3 D4 D5 D6 D7 : Type} (g : D7 → Vec F S4000x128 .f32) :
    iprop(R ∗ S ∗ (∃ _ : D0, owns c arg1 fullShare x0) ∗ (∃ _ : D1, owns c arg2 fullShare x1)
        ∗ (∃ _ : D2, owns c arg3 fullShare x2) ∗ (∃ _ : D3, owns c arg4 fullShare x3)
        ∗ (∃ _ : D4, owns c arg5 fullShare x4) ∗ (∃ _ : D5, owns c arg6 fullShare x5)
        ∗ (∃ _ : D6, owns c arg7 fullShare x6)
        ∗ (∃ d, owns c arg8 fullShare (g d)))
      ⊢ wp frame (wpE (defs₀ (F := F)) Variants.none c none) E (cc6__linear_kernel i arg1 harg1 arg2 harg2 arg3 harg3 arg4 harg4 arg5 harg5 arg6 harg6 arg7 harg7 arg8 harg8)
        fun _ => iprop(R ∗ S ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6
          ∗ owns c arg8 fullShare (out6_7 x0 x1 x2 x3 x4 x5 x6)) := by
  simp only [cc6__linear_kernel_eq_skeleton]; unfold cc6__linear_kernel_skel
  unfold owns
  iintro ⟨HR, HS, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%_, %f7, -, H7⟩⟩
  subst hf0; subst hf1; subst hf2; subst hf3; subst hf4; subst hf5; subst hf6
  sl_exec
  sl_step
  isplitl [HR]; · iexact HR
  isplitl [HS]; · iexact HS
  isplitl [H0]; · iapply owns_read; iexact H0
  isplitl [H1]; · iapply owns_read; iexact H1
  isplitl [H2]; · iapply owns_read; iexact H2
  isplitl [H3]; · iapply owns_read; iexact H3
  isplitl [H4]; · iapply owns_read; iexact H4
  isplitl [H5]; · iapply owns_read; iexact H5
  isplitl [H6]; · iapply owns_read; iexact H6
  iexists _; isplitr
  swap; · iexact H7
  ipureintro
  exact View.read_writes_eq_canon _ _ _ (View.cover_of_tiled _ S4000x128.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t =
    out6_7 (iblk6 V c 0 t) (iblk6 V c 1 t) (iblk6 V c 2 t) (iblk6 V c 3 t) (iblk6 V c 4 t) (iblk6 V c 5 t) (iblk6 V c 6 t) := by dsimp only [dat6]

-- An input's buffer holds its block at every point: where it was not fetched, the block index has not moved.
theorem before6 (c : Dev nD) (t : Fin cfg6.N) :
    (∀ d, (dat6 V c).before 0 t d = iblk6 V c 0 t) ∧ (∀ d, (dat6 V c).before 1 t d = iblk6 V c 1 t) ∧ (∀ d, (dat6 V c).before 2 t d = iblk6 V c 2 t)
      ∧ (∀ d, (dat6 V c).before 3 t d = iblk6 V c 3 t) ∧ (∀ d, (dat6 V c).before 4 t d = iblk6 V c 4 t) ∧ (∀ d, (dat6 V c).before 5 t d = iblk6 V c 5 t)
      ∧ (∀ d, (dat6 V c).before 6 t d = iblk6 V c 6 t) := by
  refine ⟨?_, ?_, ?_, ?_, ?_, ?_, ?_⟩ <;> intro d <;>
  exact ((dat6 V c).before_in_eq_fetched _ rfl (fun _ => rfl) (fun _ _ _ => rfl) (fun _ => rfl) t d).trans rfl

theorem body_obligation6 (c : Dev nD) : BodyObligation (dat6 (F := F) V c) (defs₀ (F := F)) Variants.none () Set.univ := fun t => by
  rw [bigSep_W6, bigSep_W6]
  obtain ⟨h0, h1, h2, h3, h4, h5, h6⟩ := before6 V c t
  simp only [h0, h1, h2, h3, h4, h5, h6]
  rw [after6_0, after6_1, after6_2, after6_3, after6_4, after6_5, after6_6, after6_7]
  show _ ⊢ wp frame _ Set.univ (bodyAt6 t) _
  exact sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _ _ _

end Region6

end Cert.KernelIdeal.Hand

end
-- ==== Proof.KI.Stats7.lean ====
import proofs.«123582_j22084721836889_2_alg».proof.Proof.Gen.KernelIdeal.Launch
import proofs.«123582_j22084721836889_2_alg».proof.Proof.Gen.KernelIdeal.Skeleton
import proofs.«123582_j22084721836889_2_alg».proof.Proof.Gen.KernelIdeal.Points
import proofs.«123582_j22084721836889_2_alg».proof.Proof.KI.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7_0 (c : Dev nD) : (n : ℕ) → Vec F S1x128 .f32
  | 0 => k7_pay1
  | n + 1 => if h : n < cfg7.N then k7_pay4 (iblk7 V c 0 ⟨n, h⟩) (acc7_0 c n) else acc7_0 c n

def acc7_1 (c : Dev nD) : (n : ℕ) → Vec F S1x128 .f32
  | 0 => k7_pay2
  | n + 1 => if h : n < cfg7.N then k7_pay5 (iblk7 V c 0 ⟨n, h⟩) (acc7_1 c n) else acc7_1 c n

theorem acc7_0_zero (c : Dev nD) (n : ℕ) (h : n = 0) : acc7_0 V c n = k7_pay1 := by subst h; rfl
theorem acc7_1_zero (c : Dev nD) (n : ℕ) (h : n = 0) : acc7_1 V c n = k7_pay2 := by subst h; rfl

theorem acc7_0_succ (c : Dev nD) (t : Fin cfg7.N) : acc7_0 V c (t.val + 1) = k7_pay4 (iblk7 V c 0 t) (acc7_0 V c t.val) := by
  rw [acc7_0]; exact dif_pos t.isLt
theorem acc7_1_succ (c : Dev nD) (t : Fin cfg7.N) : acc7_1 V c (t.val + 1) = k7_pay5 (iblk7 V c 0 t) (acc7_1 V c t.val) := by
  rw [acc7_1]; exact dif_pos t.isLt

abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)
theorem hcond7_1 : ∀ t : Fin cfg7.N, k7_cond2 (grid7.coords t) = 1#1 ↔ t.val = 49 :=
  (by decide +kernel : ∀ t : Fin grid7.N, k7_cond2 (grid7.coords t) = 1#1 ↔ t.val = 49)

theorem liveAt7_0 : ∀ t : Fin cfg7.N, cfg7.idle 0 (grid7.coords t) = false := fun _ => rfl
theorem idle7 : ∀ t : Fin cfg7.N, ¬k7_cond2 (grid7.coords t) = 1#1 →
    cfg7.idle 1 (grid7.coords t) = true ∧ cfg7.idle 2 (grid7.coords t) = true ∧ (cfg7.win 1).flush t = false ∧ (cfg7.win 2).flush t = false := by
  decide +kernel
theorem live7 : ∀ t : Fin cfg7.N, k7_cond2 (grid7.coords t) = 1#1 → cfg7.idle 1 (grid7.coords t) = false ∧ cfg7.idle 2 (grid7.coords t) = false := by
  decide +kernel

set_option maxHeartbeats 1000000 in
-- The scratch pair restarts from zeros under the first test, takes one step on the block, and is copied out under the second.
theorem sound_kernel7 (c : Dev nD) (E : Set ℕ) (i : grid7.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc : cond7_0 i → ¬k7_cond2 i = 1#1)
    (x : Vec F S4000x128 .f32) (o1 o2 s0 s1 b0 b1 : Vec F S1x128 .f32)
    (hb0 : b0 = if cond7_0 i then k7_pay1 else s0) (hb1 : b1 = if cond7_0 i then k7_pay2 else s1) (K : PUnit → sProp 𝕄) :
    iprop(owns (c : Thread nD τ) arg1 fullShare x ∗ owns (c : Thread nD τ) arg2 fullShare o1 ∗ owns (c : Thread nD τ) arg3 fullShare o2
        ∗ owns (c : Thread nD τ) arg4 fullShare s0 ∗ owns (c : Thread nD τ) arg5 fullShare s1
        ∗ (iprop(owns (c : Thread nD τ) arg1 fullShare x
            ∗ owns (c : Thread nD τ) arg2 fullShare (if k7_cond2 i = 1#1 then k7_pay4 x b0 else o1)
            ∗ owns (c : Thread nD τ) arg3 fullShare (if k7_cond2 i = 1#1 then k7_pay5 x b1 else o2)
            ∗ owns (c : Thread nD τ) arg4 fullShare (k7_pay4 x b0) ∗ owns (c : Thread nD τ) arg5 fullShare (k7_pay5 x b1)) -∗ K ⟨⟩))
      ⊢ wp frame (wpE (defs₀ (F := F)) Variants.none c none) E (cc7__stats_kernel i arg1 harg1 arg2 harg2 arg3 harg3 arg4 harg4 arg5 harg5) K := by
  subst hb0 hb1
  simp only [cc7__stats_kernel_eq_skeleton]; unfold cc7__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  by_cases hc0 : cond7_0 i <;> by_cases hc1 : k7_cond2 i = 1#1
  · exact absurd hc1 (hc hc0)
  all_goals
    sl_exec (disch := first | exact hc0 | exact hc1)
    sl_step
    simp only [hc0, eq_true hc0, hc1, ↓reduceIte]
    iapply Hk
    isplitl [H1]; rotate_left; isplitl [H2]; rotate_left; isplitl [H3]; rotate_left; isplitl [H4]; rotate_left
    all_goals
      iexists _; isplitr; swap
      · first | iexact H1 | iexact H2 | iexact H3 | iexact H4 | iexact H5
      ipureintro
      first
      | with_reducible rfl
      | (sl_unfold_run_names
         simp only [read_writes_unit (S := S1x128) _ _ zero_offs, View.readCov_unit_zero (S := S1x128) _ zero_offs, View.readAt_eq_ld,
           View.ld_unit_zero (S := S4000x128) zero_offs, View.ld_unit_zero (S := S1x128) zero_offs])

abbrev scM7_0 : Memref sig .tc .vmem S1x128 .f32 := Memref.whole cc7_scratch0
abbrev scM7_1 : Memref sig .tc .vmem S1x128 .f32 := Memref.whole cc7_scratch1

abbrev rest7 (c : Dev nD) : sProp 𝕄 :=
  Pipeline.scopedRestBut (Ix := Unit) (Name := ℕ) (U := UR sig nD τ) (Lvl := ℕ) (Val := Elt F) spec7 c [cc7_scratch0, cc7_scratch1]

-- Before point n the scratch pair holds the accumulators over the first n points (anything, before the first point).
def Phi7 (c : Dev nD) (n : ℕ) : sProp 𝕄 :=
  iprop(rest7 (F := F) c ∗ (∃ r, prngReg c r) ∗ ∃ s0 s1, ⌜n ≠ 0 → s0 = acc7_0 V c n ∧ s1 = acc7_1 V c n⌝
    ∗ owns (c : Thread nD τ) scM7_0 fullShare s0 ∗ owns (c : Thread nD τ) scM7_1 fullShare s1)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => acc7_0 V c (t.val + 1)
    | ⟨2, _⟩ => acc7_1 V c (t.val + 1)
  Φ t := Phi7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = acc7_0 V c (t.val + 1) := by dsimp only [dat7]
theorem after7_2 (c : Dev nD) (t : Fin cfg7.N) : (dat7 V c).after 2 t = acc7_1 V c (t.val + 1) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

-- One step of the invariant, at any point.
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl,
    show (dat7 V c).Φ t.castSucc = Phi7 V c t.val from rfl, show (dat7 V c).Φ t.succ = Phi7 V c (t.val + 1) from rfl,
    show (dat7 V c).leavesExact 0 t = owns (c : Thread nD τ) (st7_0 t) fullShare ((dat7 V c).after 0 t) from by
      unfold Dat.leavesExact; rw [liveAt7_0 t], after7_0]
  unfold Phi7
  iintro ⟨⟨Hrest, Hg, %s0, %s1, %hs, HS0, HS1⟩, Ho, ⟨%d0, H0⟩, ⟨%d1, H1⟩, ⟨%d2, H2⟩⟩
  have e0 : acc7_0 V c t.val = (if cond7_0 (grid7.coords t) then k7_pay1 else s0)
      ∧ acc7_1 V c t.val = (if cond7_0 (grid7.coords t) then k7_pay2 else s1) := by
    by_cases h0 : t.val = 0
    · rw [if_pos ((hcond7_0 t).mpr h0), if_pos ((hcond7_0 t).mpr h0), acc7_0_zero V c _ h0, acc7_1_zero V c _ h0]; exact ⟨rfl, rfl⟩
    · rw [if_neg (fun h => h0 ((hcond7_0 t).mp h)), if_neg (fun h => h0 ((hcond7_0 t).mp h))]
      exact ⟨(hs h0).1.symm, (hs h0).2.symm⟩
  iapply (sound_kernel7 c Set.univ (grid7.coords t) _ _ _ _ _ _ _ _ _ _
    (fun h h' => by have := (hcond7_0 t).mp h; have := (hcond7_1 t).mp h'; omega) (iblk7 V c 0 t)
    ((dat7 V c).before 1 t d1) ((dat7 V c).before 2 t d2) s0 s1 _ _ e0.1 e0.2 _)
  rw [← acc7_0_succ, ← acc7_1_succ]
  iframe H0 H1 H2 HS0 HS1
  iintro ⟨H0, H1, H2, HS0, HS1⟩
  iframe Hrest Hg Ho H0
  isplitl [HS0 HS1]
  · iexists acc7_0 V c (t.val + 1), acc7_1 V c (t.val + 1)
    isplitr; · ipureintro; exact fun _ => ⟨rfl, rfl⟩
    iframe
  by_cases hc1 : k7_cond2 (grid7.coords t) = 1#1
  · rw [if_pos hc1, if_pos hc1,
      show (dat7 V c).leavesExact 1 t = owns (c : Thread nD τ) (st7_1 t) fullShare ((dat7 V c).after 1 t) from by
        unfold Dat.leavesExact; rw [(live7 t hc1).1], after7_1,
      show (dat7 V c).leavesExact 2 t = owns (c : Thread nD τ) (st7_2 t) fullShare ((dat7 V c).after 2 t) from by
        unfold Dat.leavesExact; rw [(live7 t hc1).2], after7_2]
    iframe
  · rw [if_neg hc1, if_neg hc1, Dat.leavesExact_idle (dat7 V c) 1 t (idle7 t hc1).1 (idle7 t hc1).2.2.1,
      Dat.leavesExact_idle (dat7 V c) 2 t (idle7 t hc1).2.1 (idle7 t hc1).2.2.2]
    isplitl [H1]; · iexists _; iexact H1
    iexists _; iexact H2

theorem body_obligation7 (c : Dev nD) : BodyObligation (dat7 (F := F) V c) (defs₀ (F := F)) Variants.none () Set.univ := fun t => by
  rw [bigSep_W7, bigSep_W7]
  exact sound_body7 V c t

theorem Phi7_in (c : Dev nD) :
    iprop((∃ r, prngReg c r) ∗ Pipeline.scopedRest (Ix := Unit) (Name := ℕ) (U := UR sig nD τ) (Lvl := ℕ) (Val := Elt F) spec7 c)
      ⊢ (dat7 V c).Φ 0 := by
  rw [show (dat7 V c).Φ 0 = Phi7 V c 0 from rfl, scopedRest7_split]
  unfold Phi7
  simp only [scM7_0, scM7_1, owns_whole]
  iintro ⟨Hg, ⟨⟨%s0, HS0⟩, ⟨%s1, HS1⟩⟩, Hrest⟩
  iframe Hg Hrest
  iexists s0, s1
  isplitr; · ipureintro; exact fun h => absurd rfl h
  iframe

-- The accumulators' contents are forgotten.
theorem Phi7_out (c : Dev nD) :
    (dat7 V c).Φ (Fin.last cfg7.N)
      ⊢ iprop((∃ r, prngReg c r) ∗ Pipeline.scopedRest (Ix := Unit) (Name := ℕ) (U := UR sig nD τ) (Lvl := ℕ) (Val := Elt F) spec7 c) := by
  rw [show (dat7 V c).Φ (Fin.last cfg7.N) = Phi7 V c (Fin.last cfg7.N).val from rfl, scopedRest7_split]
  unfold Phi7
  simp only [scM7_0, scM7_1, owns_whole]
  iintro ⟨Hrest, Hg, %s0, %s1, -, HS0, HS1⟩
  iframe Hrest Hg
  isplitl [HS0]; · iexists _; iexact HS0
  iexists _; iexact HS1

-- The block's offsets in the array are zero on both axes.
theorem off7_1 (t : Fin cfg7.N) : (fun a => (cfg7.win 1).index t a * (cfg7.win 1).size a) = fun _ => 0 :=
  funext fun a => by fin_cases a <;> rfl
theorem off7_2 (t : Fin cfg7.N) : (fun a => (cfg7.win 2).index t a * (cfg7.win 2).size a) = fun _ => 0 :=
  funext fun a => by fin_cases a <;> rfl

theorem mem_blk7_1 (t : Fin cfg7.N) (i : S1x128.Idx) : i ∈ ((cfg7.win 1).blk t).view.set := by
  show i ∈ ((View.whole main_v120_0).slice (win7_1.rect t)).set
  rw [View.set_slice_whole]
  exact View.mem_set_unit_zero (S := S1x128) (off7_1 t) _ i
theorem mem_blk7_2 (t : Fin cfg7.N) (i : S1x128.Idx) : i ∈ ((cfg7.win 2).blk t).view.set := by
  show i ∈ ((View.whole main_v120_1).slice (win7_2.rect t)).set
  rw [View.set_slice_whole]
  exact View.mem_set_unit_zero (S := S1x128) (off7_2 t) _ i

theorem lt49_7 : (49 : ℕ) < cfg7.N := by rw [show cfg7.N = 50 from N_7]; omega
theorem last7 (t : Fin cfg7.N) (h : t.val % 50 = 49) : t.val = 49 := by have := lt_of_lt_of_eq t.isLt N_7; omega

theorem arrAt7_1 (c : Dev nD) : (dat7 V c).arrAt 1 cfg7.N = acc7_0 V c 50 := by
  refine (dat7 V c).arrAt_eq_of_cover 1 (acc7_0 V c 50) (fun t hf => ?_) (fun i => ⟨⟨49, lt49_7⟩, (flush7_1 _).mpr rfl, mem_blk7_1 _ i⟩)
  rw [show ((cfg7.win 1).blk t).view.read (Elt F) _ = _ from View.ld_unit_zero (S := S1x128) (off7_1 t) _ _]
  show (dat7 V c).after 1 t = _
  rw [after7_1, last7 t ((flush7_1 t).mp hf)]

theorem arrAt7_2 (c : Dev nD) : (dat7 V c).arrAt 2 cfg7.N = acc7_1 V c 50 := by
  refine (dat7 V c).arrAt_eq_of_cover 2 (acc7_1 V c 50) (fun t hf => ?_) (fun i => ⟨⟨49, lt49_7⟩, (flush7_2 _).mpr rfl, mem_blk7_2 _ i⟩)
  rw [show ((cfg7.win 2).blk t).view.read (Elt F) _ = _ from View.ld_unit_zero (S := S1x128) (off7_2 t) _ _]
  show (dat7 V c).after 2 t = _
  rw [after7_2, last7 t ((flush7_2 t).mp hf)]

end Cert.KernelIdeal.Hand

end
-- ==== Proof.KI.Norm8.lean ====
import proofs.«123582_j22084721836889_2_alg».proof.Proof.KI.BodyLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S4000x128 := Rect.unit (s := S4000x128) ![0, 0] S4000x128.size inb_S4000x128_S4000x128_0_0
abbrev r8_1 : Rect S1x128 := Rect.unit (s := S1x128) ![0, 0] S1x128.size inb_S1x128_S1x128_0_0

def out8_3 (x0 : Vec F S4000x128 .f32) (x1 : Vec F S1x128 .f32) (x2 : Vec F S1x128 .f32) : Vec F S4000x128 .bf16 :=
  View.canon [⟨r8_0, k8_pay1 (View.ld x0 r8_0) (View.ld x1 r8_1) (View.ld x2 r8_1)⟩]

set_option maxHeartbeats 1000000 in
-- The inputs are only read and the single store covers the whole output block; whatever else is held passes through.
theorem sound_kernel8 (c : Dev nD) (E : Set ℕ) (i : grid8.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S4000x128 .bf16) (harg4 : arg4.IsWhole)
    (x0 : Vec F S4000x128 .f32) (x1 : Vec F S1x128 .f32) (x2 : Vec F S1x128 .f32) (R S : sProp 𝕄)
    {D0 D1 D2 D3 : Type} (g : D3 → Vec F S4000x128 .bf16) :
    iprop(R ∗ S ∗ (∃ _ : D0, owns c arg1 fullShare x0) ∗ (∃ _ : D1, owns c arg2 fullShare x1)
        ∗ (∃ _ : D2, owns c arg3 fullShare x2)
        ∗ (∃ d, owns c arg4 fullShare (g d)))
      ⊢ wp frame (wpE (defs₀ (F := F)) Variants.none c none) E (cc8__norm_relu_kernel i arg1 harg1 arg2 harg2 arg3 harg3 arg4 harg4)
        fun _ => iprop(R ∗ S ∗ owns c arg1 fullShare x0 ∗ owns c arg2 fullShare x1 ∗ owns c arg3 fullShare x2
          ∗ owns c arg4 fullShare (out8_3 x0 x1 x2)) := by
  simp only [cc8__norm_relu_kernel_eq_skeleton]; unfold cc8__norm_relu_kernel_skel
  unfold owns
  iintro ⟨HR, HS, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HR]; · iexact HR
  isplitl [HS]; · iexact HS
  isplitl [H0]; · iapply owns_read; iexact H0
  isplitl [H1]; · iapply owns_read; iexact H1
  isplitl [H2]; · iapply owns_read; iexact H2
  iexists _; isplitr
  swap; · iexact H3
  ipureintro
  exact View.read_writes_eq_canon _ _ _ (View.cover_of_tiled _ S4000x128.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t =
    out8_3 (iblk8 V c 0 t) (iblk8 V c 1 t) (iblk8 V c 2 t) := by dsimp only [dat8]

-- An input's buffer holds its block at every point: where it was not fetched, the block index has not moved.
theorem before8 (c : Dev nD) (t : Fin cfg8.N) :
    (∀ d, (dat8 V c).before 0 t d = iblk8 V c 0 t) ∧ (∀ d, (dat8 V c).before 1 t d = iblk8 V c 1 t) ∧ (∀ d, (dat8 V c).before 2 t d = iblk8 V c 2 t) := by
  refine ⟨?_, ?_, ?_⟩ <;> intro d <;>
  exact ((dat8 V c).before_in_eq_fetched _ rfl (fun _ => rfl) (fun _ _ _ => rfl) (fun _ => rfl) t d).trans rfl

theorem body_obligation8 (c : Dev nD) : BodyObligation (dat8 (F := F) V c) (defs₀ (F := F)) Variants.none () Set.univ := fun t => by
  rw [bigSep_W8, bigSep_W8]
  obtain ⟨h0, h1, h2⟩ := before8 V c t
  simp only [h0, h1, h2]
  rw [after8_0, after8_1, after8_2, after8_3]
  show _ ⊢ wp frame _ Set.univ (bodyAt8 t) _
  exact sound_kernel8 c Set.univ _ _ _ _ _ _ _ _ _ (iblk8 V c 0 t) (iblk8 V c 1 t) (iblk8 V c 2 t) _ _ _

end Region8

end Cert.KernelIdeal.Hand

end
-- ==== Proof.KI.Lin9.lean ====
import proofs.«123582_j22084721836889_2_alg».proof.Proof.KI.BodyLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S4000x128 := Rect.unit (s := S4000x128) ![0, 0] S4000x128.size inb_S4000x128_S4000x128_0_0
abbrev r9_1 : Rect S4000x5 := Rect.unit (s := S4000x5) ![0, 0] S4000x5.size inb_S4000x5_S4000x5_0_0
abbrev r9_2 : Rect S5x128 := Rect.unit (s := S5x128) ![0, 0] S5x128.size inb_S5x128_S5x128_0_0
abbrev r9_3 : Rect S4000x1 := Rect.unit (s := S4000x1) ![0, 0] S4000x1.size inb_S4000x1_S4000x1_0_0
abbrev r9_4 : Rect S128x128 := Rect.unit (s := S128x128) ![0, 0] S128x128.size inb_S128x128_S128x128_0_0
abbrev r9_5 : Rect S1x128 := Rect.unit (s := S1x128) ![0, 0] S1x128.size inb_S1x128_S1x128_0_0

def out9_7 (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) : Vec F S4000x128 .f32 :=
  View.canon [⟨r9_0, k9_pay1 (View.ld x0 r9_0) (View.ld x1 r9_0) (View.ld x2 r9_1) (View.ld x3 r9_2) (View.ld x4 r9_3) (View.ld x5 r9_4) (View.ld x6 r9_5)⟩]

set_option maxHeartbeats 1000000 in
-- The inputs are only read and the single store covers the whole output block; whatever else is held passes through.
theorem sound_kernel9 (c : Dev nD) (E : Set ℕ) (i : grid9.Coords)
    (arg1 : Memref sig .tc .vmem S4000x128 .bf16) (harg1 : arg1.IsWhole) (arg2 : Memref sig .tc .vmem S4000x128 .f32) (harg2 : arg2.IsWhole)
    (arg3 : Memref sig .tc .vmem S4000x5 .f32) (harg3 : arg3.IsWhole) (arg4 : Memref sig .tc .vmem S5x128 .f32) (harg4 : arg4.IsWhole)
    (arg5 : Memref sig .tc .vmem S4000x1 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S4000x128 .f32) (harg8 : arg8.IsWhole)
    (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) (R S : sProp 𝕄)
    {D0 D1 D2 D3 D4 D5 D6 D7 : Type} (g : D7 → Vec F S4000x128 .f32) :
    iprop(R ∗ S ∗ (∃ _ : D0, owns c arg1 fullShare x0) ∗ (∃ _ : D1, owns c arg2 fullShare x1)
        ∗ (∃ _ : D2, owns c arg3 fullShare x2) ∗ (∃ _ : D3, owns c arg4 fullShare x3)
        ∗ (∃ _ : D4, owns c arg5 fullShare x4) ∗ (∃ _ : D5, owns c arg6 fullShare x5)
        ∗ (∃ _ : D6, owns c arg7 fullShare x6)
        ∗ (∃ d, owns c arg8 fullShare (g d)))
      ⊢ wp frame (wpE (defs₀ (F := F)) Variants.none c none) E (cc9__linear_kernel i arg1 harg1 arg2 harg2 arg3 harg3 arg4 harg4 arg5 harg5 arg6 harg6 arg7 harg7 arg8 harg8)
        fun _ => iprop(R ∗ S ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6
          ∗ owns c arg8 fullShare (out9_7 x0 x1 x2 x3 x4 x5 x6)) := by
  simp only [cc9__linear_kernel_eq_skeleton]; unfold cc9__linear_kernel_skel
  unfold owns
  iintro ⟨HR, HS, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%_, %f7, -, H7⟩⟩
  subst hf0; subst hf1; subst hf2; subst hf3; subst hf4; subst hf5; subst hf6
  sl_exec
  sl_step
  isplitl [HR]; · iexact HR
  isplitl [HS]; · iexact HS
  isplitl [H0]; · iapply owns_read; iexact H0
  isplitl [H1]; · iapply owns_read; iexact H1
  isplitl [H2]; · iapply owns_read; iexact H2
  isplitl [H3]; · iapply owns_read; iexact H3
  isplitl [H4]; · iapply owns_read; iexact H4
  isplitl [H5]; · iapply owns_read; iexact H5
  isplitl [H6]; · iapply owns_read; iexact H6
  iexists _; isplitr
  swap; · iexact H7
  ipureintro
  exact View.read_writes_eq_canon _ _ _ (View.cover_of_tiled _ S4000x128.size (by rfl))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t =
    out9_7 (iblk9 V c 0 t) (iblk9 V c 1 t) (iblk9 V c 2 t) (iblk9 V c 3 t) (iblk9 V c 4 t) (iblk9 V c 5 t) (iblk9 V c 6 t) := by dsimp only [dat9]

-- An input's buffer holds its block at every point: where it was not fetched, the block index has not moved.
theorem before9 (c : Dev nD) (t : Fin cfg9.N) :
    (∀ d, (dat9 V c).before 0 t d = iblk9 V c 0 t) ∧ (∀ d, (dat9 V c).before 1 t d = iblk9 V c 1 t) ∧ (∀ d, (dat9 V c).before 2 t d = iblk9 V c 2 t)
      ∧ (∀ d, (dat9 V c).before 3 t d = iblk9 V c 3 t) ∧ (∀ d, (dat9 V c).before 4 t d = iblk9 V c 4 t) ∧ (∀ d, (dat9 V c).before 5 t d = iblk9 V c 5 t)
      ∧ (∀ d, (dat9 V c).before 6 t d = iblk9 V c 6 t) := by
  refine ⟨?_, ?_, ?_, ?_, ?_, ?_, ?_⟩ <;> intro d <;>
  exact ((dat9 V c).before_in_eq_fetched _ rfl (fun _ => rfl) (fun _ _ _ => rfl) (fun _ => rfl) t d).trans rfl

theorem body_obligation9 (c : Dev nD) : BodyObligation (dat9 (F := F) V c) (defs₀ (F := F)) Variants.none () Set.univ := fun t => by
  rw [bigSep_W9, bigSep_W9]
  obtain ⟨h0, h1, h2, h3, h4, h5, h6⟩ := before9 V c t
  simp only [h0, h1, h2, h3, h4, h5, h6]
  rw [after9_0, after9_1, after9_2, after9_3, after9_4, after9_5, after9_6, after9_7]
  show _ ⊢ wp frame _ Set.univ (bodyAt9 t) _
  exact sound_kernel9 c Set.univ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) _ _ _

end Region9

end Cert.KernelIdeal.Hand

end
-- ==== Proof.KI.Stats10.lean ====
import proofs.«123582_j22084721836889_2_alg».proof.Proof.Gen.KernelIdeal.Launch
import proofs.«123582_j22084721836889_2_alg».proof.Proof.Gen.KernelIdeal.Skeleton
import proofs.«123582_j22084721836889_2_alg».proof.Proof.Gen.KernelIdeal.Points
import proofs.«123582_j22084721836889_2_alg».proof.Proof.KI.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def acc10_0 (c : Dev nD) : (n : ℕ) → Vec F S1x128 .f32
  | 0 => k10_pay1
  | n + 1 => if h : n < cfg10.N then k10_pay4 (iblk10 V c 0 ⟨n, h⟩) (acc10_0 c n) else acc10_0 c n

def acc10_1 (c : Dev nD) : (n : ℕ) → Vec F S1x128 .f32
  | 0 => k10_pay2
  | n + 1 => if h : n < cfg10.N then k10_pay5 (iblk10 V c 0 ⟨n, h⟩) (acc10_1 c n) else acc10_1 c n

theorem acc10_0_zero (c : Dev nD) (n : ℕ) (h : n = 0) : acc10_0 V c n = k10_pay1 := by subst h; rfl
theorem acc10_1_zero (c : Dev nD) (n : ℕ) (h : n = 0) : acc10_1 V c n = k10_pay2 := by subst h; rfl

theorem acc10_0_succ (c : Dev nD) (t : Fin cfg10.N) : acc10_0 V c (t.val + 1) = k10_pay4 (iblk10 V c 0 t) (acc10_0 V c t.val) := by
  rw [acc10_0]; exact dif_pos t.isLt
theorem acc10_1_succ (c : Dev nD) (t : Fin cfg10.N) : acc10_1 V c (t.val + 1) = k10_pay5 (iblk10 V c 0 t) (acc10_1 V c t.val) := by
  rw [acc10_1]; exact dif_pos t.isLt

abbrev cond10_0 (i : grid10.Coords) : Prop := (Scalar.cmpi .ne (Scalar.extui (Scalar.cmpi .eq (BitVec.ofNat 32 (i 0).val) 0#32)) 0#32) = 1#1
theorem hcond10_0 : ∀ t : Fin cfg10.N, cond10_0 (grid10.coords t) ↔ t.val = 0 :=
  (by decide +kernel : ∀ t : Fin grid10.N, cond10_0 (grid10.coords t) ↔ t.val = 0)
theorem hcond10_1 : ∀ t : Fin cfg10.N, k10_cond2 (grid10.coords t) = 1#1 ↔ t.val = 49 :=
  (by decide +kernel : ∀ t : Fin grid10.N, k10_cond2 (grid10.coords t) = 1#1 ↔ t.val = 49)

theorem liveAt10_0 : ∀ t : Fin cfg10.N, cfg10.idle 0 (grid10.coords t) = false := fun _ => rfl
theorem idle10 : ∀ t : Fin cfg10.N, ¬k10_cond2 (grid10.coords t) = 1#1 →
    cfg10.idle 1 (grid10.coords t) = true ∧ cfg10.idle 2 (grid10.coords t) = true ∧ (cfg10.win 1).flush t = false ∧ (cfg10.win 2).flush t = false := by
  decide +kernel
theorem live10 : ∀ t : Fin cfg10.N, k10_cond2 (grid10.coords t) = 1#1 → cfg10.idle 1 (grid10.coords t) = false ∧ cfg10.idle 2 (grid10.coords t) = false := by
  decide +kernel

set_option maxHeartbeats 1000000 in
-- The scratch pair restarts from zeros under the first test, takes one step on the block, and is copied out under the second.
theorem sound_kernel10 (c : Dev nD) (E : Set ℕ) (i : grid10.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc : cond10_0 i → ¬k10_cond2 i = 1#1)
    (x : Vec F S4000x128 .f32) (o1 o2 s0 s1 b0 b1 : Vec F S1x128 .f32)
    (hb0 : b0 = if cond10_0 i then k10_pay1 else s0) (hb1 : b1 = if cond10_0 i then k10_pay2 else s1) (K : PUnit → sProp 𝕄) :
    iprop(owns (c : Thread nD τ) arg1 fullShare x ∗ owns (c : Thread nD τ) arg2 fullShare o1 ∗ owns (c : Thread nD τ) arg3 fullShare o2
        ∗ owns (c : Thread nD τ) arg4 fullShare s0 ∗ owns (c : Thread nD τ) arg5 fullShare s1
        ∗ (iprop(owns (c : Thread nD τ) arg1 fullShare x
            ∗ owns (c : Thread nD τ) arg2 fullShare (if k10_cond2 i = 1#1 then k10_pay4 x b0 else o1)
            ∗ owns (c : Thread nD τ) arg3 fullShare (if k10_cond2 i = 1#1 then k10_pay5 x b1 else o2)
            ∗ owns (c : Thread nD τ) arg4 fullShare (k10_pay4 x b0) ∗ owns (c : Thread nD τ) arg5 fullShare (k10_pay5 x b1)) -∗ K ⟨⟩))
      ⊢ wp frame (wpE (defs₀ (F := F)) Variants.none c none) E (cc10__stats_kernel i arg1 harg1 arg2 harg2 arg3 harg3 arg4 harg4 arg5 harg5) K := by
  subst hb0 hb1
  simp only [cc10__stats_kernel_eq_skeleton]; unfold cc10__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  by_cases hc0 : cond10_0 i <;> by_cases hc1 : k10_cond2 i = 1#1
  · exact absurd hc1 (hc hc0)
  all_goals
    sl_exec (disch := first | exact hc0 | exact hc1)
    sl_step
    simp only [hc0, eq_true hc0, hc1, ↓reduceIte]
    iapply Hk
    isplitl [H1]; rotate_left; isplitl [H2]; rotate_left; isplitl [H3]; rotate_left; isplitl [H4]; rotate_left
    all_goals
      iexists _; isplitr; swap
      · first | iexact H1 | iexact H2 | iexact H3 | iexact H4 | iexact H5
      ipureintro
      first
      | with_reducible rfl
      | (sl_unfold_run_names
         simp only [read_writes_unit (S := S1x128) _ _ zero_offs, View.readCov_unit_zero (S := S1x128) _ zero_offs, View.readAt_eq_ld,
           View.ld_unit_zero (S := S4000x128) zero_offs, View.ld_unit_zero (S := S1x128) zero_offs])

abbrev scM10_0 : Memref sig .tc .vmem S1x128 .f32 := Memref.whole cc10_scratch0
abbrev scM10_1 : Memref sig .tc .vmem S1x128 .f32 := Memref.whole cc10_scratch1

abbrev rest10 (c : Dev nD) : sProp 𝕄 :=
  Pipeline.scopedRestBut (Ix := Unit) (Name := ℕ) (U := UR sig nD τ) (Lvl := ℕ) (Val := Elt F) spec10 c [cc10_scratch0, cc10_scratch1]

-- Before point n the scratch pair holds the accumulators over the first n points (anything, before the first point).
def Phi10 (c : Dev nD) (n : ℕ) : sProp 𝕄 :=
  iprop(rest10 (F := F) c ∗ (∃ r, prngReg c r) ∗ ∃ s0 s1, ⌜n ≠ 0 → s0 = acc10_0 V c n ∧ s1 = acc10_1 V c n⌝
    ∗ owns (c : Thread nD τ) scM10_0 fullShare s0 ∗ owns (c : Thread nD τ) scM10_1 fullShare s1)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => acc10_0 V c (t.val + 1)
    | ⟨2, _⟩ => acc10_1 V c (t.val + 1)
  Φ t := Phi10 V c t.val
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = acc10_0 V c (t.val + 1) := by dsimp only [dat10]
theorem after10_2 (c : Dev nD) (t : Fin cfg10.N) : (dat10 V c).after 2 t = acc10_1 V c (t.val + 1) := by dsimp only [dat10]

theorem before10_0 (c : Dev nD) (t : Fin cfg10.N) (d) : (dat10 V c).before 0 t d = iblk10 V c 0 t :=
  ((dat10 V c).before_in_eq_fetched 0 rfl (fun _ => rfl) (fun _ _ _ => rfl)
    (fun t => by rw [after10_0]; unfold Dat.blockOf iblk10; rw [A_eq10]; try rfl) t d).trans
    (by unfold Dat.fetched Dat.blockOf iblk10; rw [A_eq10]; try rfl)

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

-- One step of the invariant, at any point.
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0]
  rw [show (dat10 V c).owesAt () t.succ = (dat10 V c).owesAt () t.castSucc from rfl,
    show (dat10 V c).Φ t.castSucc = Phi10 V c t.val from rfl, show (dat10 V c).Φ t.succ = Phi10 V c (t.val + 1) from rfl,
    show (dat10 V c).leavesExact 0 t = owns (c : Thread nD τ) (st10_0 t) fullShare ((dat10 V c).after 0 t) from by
      unfold Dat.leavesExact; rw [liveAt10_0 t], after10_0]
  unfold Phi10
  iintro ⟨⟨Hrest, Hg, %s0, %s1, %hs, HS0, HS1⟩, Ho, ⟨%d0, H0⟩, ⟨%d1, H1⟩, ⟨%d2, H2⟩⟩
  have e0 : acc10_0 V c t.val = (if cond10_0 (grid10.coords t) then k10_pay1 else s0)
      ∧ acc10_1 V c t.val = (if cond10_0 (grid10.coords t) then k10_pay2 else s1) := by
    by_cases h0 : t.val = 0
    · rw [if_pos ((hcond10_0 t).mpr h0), if_pos ((hcond10_0 t).mpr h0), acc10_0_zero V c _ h0, acc10_1_zero V c _ h0]; exact ⟨rfl, rfl⟩
    · rw [if_neg (fun h => h0 ((hcond10_0 t).mp h)), if_neg (fun h => h0 ((hcond10_0 t).mp h))]
      exact ⟨(hs h0).1.symm, (hs h0).2.symm⟩
  iapply (sound_kernel10 c Set.univ (grid10.coords t) _ _ _ _ _ _ _ _ _ _
    (fun h h' => by have := (hcond10_0 t).mp h; have := (hcond10_1 t).mp h'; omega) (iblk10 V c 0 t)
    ((dat10 V c).before 1 t d1) ((dat10 V c).before 2 t d2) s0 s1 _ _ e0.1 e0.2 _)
  rw [← acc10_0_succ, ← acc10_1_succ]
  iframe H0 H1 H2 HS0 HS1
  iintro ⟨H0, H1, H2, HS0, HS1⟩
  iframe Hrest Hg Ho H0
  isplitl [HS0 HS1]
  · iexists acc10_0 V c (t.val + 1), acc10_1 V c (t.val + 1)
    isplitr; · ipureintro; exact fun _ => ⟨rfl, rfl⟩
    iframe
  by_cases hc1 : k10_cond2 (grid10.coords t) = 1#1
  · rw [if_pos hc1, if_pos hc1,
      show (dat10 V c).leavesExact 1 t = owns (c : Thread nD τ) (st10_1 t) fullShare ((dat10 V c).after 1 t) from by
        unfold Dat.leavesExact; rw [(live10 t hc1).1], after10_1,
      show (dat10 V c).leavesExact 2 t = owns (c : Thread nD τ) (st10_2 t) fullShare ((dat10 V c).after 2 t) from by
        unfold Dat.leavesExact; rw [(live10 t hc1).2], after10_2]
    iframe
  · rw [if_neg hc1, if_neg hc1, Dat.leavesExact_idle (dat10 V c) 1 t (idle10 t hc1).1 (idle10 t hc1).2.2.1,
      Dat.leavesExact_idle (dat10 V c) 2 t (idle10 t hc1).2.1 (idle10 t hc1).2.2.2]
    isplitl [H1]; · iexists _; iexact H1
    iexists _; iexact H2

theorem body_obligation10 (c : Dev nD) : BodyObligation (dat10 (F := F) V c) (defs₀ (F := F)) Variants.none () Set.univ := fun t => by
  rw [bigSep_W10, bigSep_W10]
  exact sound_body10 V c t

theorem Phi10_in (c : Dev nD) :
    iprop((∃ r, prngReg c r) ∗ Pipeline.scopedRest (Ix := Unit) (Name := ℕ) (U := UR sig nD τ) (Lvl := ℕ) (Val := Elt F) spec10 c)
      ⊢ (dat10 V c).Φ 0 := by
  rw [show (dat10 V c).Φ 0 = Phi10 V c 0 from rfl, scopedRest10_split]
  unfold Phi10
  simp only [scM10_0, scM10_1, owns_whole]
  iintro ⟨Hg, ⟨⟨%s0, HS0⟩, ⟨%s1, HS1⟩⟩, Hrest⟩
  iframe Hg Hrest
  iexists s0, s1
  isplitr; · ipureintro; exact fun h => absurd rfl h
  iframe

-- The accumulators' contents are forgotten.
theorem Phi10_out (c : Dev nD) :
    (dat10 V c).Φ (Fin.last cfg10.N)
      ⊢ iprop((∃ r, prngReg c r) ∗ Pipeline.scopedRest (Ix := Unit) (Name := ℕ) (U := UR sig nD τ) (Lvl := ℕ) (Val := Elt F) spec10 c) := by
  rw [show (dat10 V c).Φ (Fin.last cfg10.N) = Phi10 V c (Fin.last cfg10.N).val from rfl, scopedRest10_split]
  unfold Phi10
  simp only [scM10_0, scM10_1, owns_whole]
  iintro ⟨Hrest, Hg, %s0, %s1, -, HS0, HS1⟩
  iframe Hrest Hg
  isplitl [HS0]; · iexists _; iexact HS0
  iexists _; iexact HS1

-- The block's offsets in the array are zero on both axes.
theorem off10_1 (t : Fin cfg10.N) : (fun a => (cfg10.win 1).index t a * (cfg10.win 1).size a) = fun _ => 0 :=
  funext fun a => by fin_cases a <;> rfl
theorem off10_2 (t : Fin cfg10.N) : (fun a => (cfg10.win 2).index t a * (cfg10.win 2).size a) = fun _ => 0 :=
  funext fun a => by fin_cases a <;> rfl

theorem mem_blk10_1 (t : Fin cfg10.N) (i : S1x128.Idx) : i ∈ ((cfg10.win 1).blk t).view.set := by
  show i ∈ ((View.whole main_v161_0).slice (win10_1.rect t)).set
  rw [View.set_slice_whole]
  exact View.mem_set_unit_zero (S := S1x128) (off10_1 t) _ i
theorem mem_blk10_2 (t : Fin cfg10.N) (i : S1x128.Idx) : i ∈ ((cfg10.win 2).blk t).view.set := by
  show i ∈ ((View.whole main_v161_1).slice (win10_2.rect t)).set
  rw [View.set_slice_whole]
  exact View.mem_set_unit_zero (S := S1x128) (off10_2 t) _ i

theorem lt49_10 : (49 : ℕ) < cfg10.N := by rw [show cfg10.N = 50 from N_10]; omega
theorem last10 (t : Fin cfg10.N) (h : t.val % 50 = 49) : t.val = 49 := by have := lt_of_lt_of_eq t.isLt N_10; omega

theorem arrAt10_1 (c : Dev nD) : (dat10 V c).arrAt 1 cfg10.N = acc10_0 V c 50 := by
  refine (dat10 V c).arrAt_eq_of_cover 1 (acc10_0 V c 50) (fun t hf => ?_) (fun i => ⟨⟨49, lt49_10⟩, (flush10_1 _).mpr rfl, mem_blk10_1 _ i⟩)
  rw [show ((cfg10.win 1).blk t).view.read (Elt F) _ = _ from View.ld_unit_zero (S := S1x128) (off10_1 t) _ _]
  show (dat10 V c).after 1 t = _
  rw [after10_1, last10 t ((flush10_1 t).mp hf)]

theorem arrAt10_2 (c : Dev nD) : (dat10 V c).arrAt 2 cfg10.N = acc10_1 V c 50 := by
  refine (dat10 V c).arrAt_eq_of_cover 2 (acc10_1 V c 50) (fun t hf => ?_) (fun i => ⟨⟨49, lt49_10⟩, (flush10_2 _).mpr rfl, mem_blk10_2 _ i⟩)
  rw [show ((cfg10.win 2).blk t).view.read (Elt F) _ = _ from View.ld_unit_zero (S := S1x128) (off10_2 t) _ _]
  show (dat10 V c).after 2 t = _
  rw [after10_2, last10 t ((flush10_2 t).mp hf)]

end Cert.KernelIdeal.Hand

end
-- ==== Proof.KI.Norm11.lean ====
import proofs.«123582_j22084721836889_2_alg».proof.Proof.KI.BodyLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region11
variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev r11_0 : Rect S4000x128 := Rect.unit (s := S4000x128) ![0, 0] S4000x128.size inb_S4000x128_S4000x128_0_0
abbrev r11_1 : Rect S1x128 := Rect.unit (s := S1x128) ![0, 0] S1x128.size inb_S1x128_S1x128_0_0

def out11_3 (x0 : Vec F S4000x128 .f32) (x1 : Vec F S1x128 .f32) (x2 : Vec F S1x128 .f32) : Vec F S4000x128 .bf16 :=
  View.canon [⟨r11_0, k11_pay1 (View.ld x0 r11_0) (View.ld x1 r11_1) (View.ld x2 r11_1)⟩]

set_option maxHeartbeats 1000000 in
-- The inputs are only read and the single store covers the whole output block; whatever else is held passes through.
theorem sound_kernel11 (c : Dev nD) (E : Set ℕ) (i : grid11.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S4000x128 .bf16) (harg4 : arg4.IsWhole)
    (x0 : Vec F S4000x128 .f32) (x1 : Vec F S1x128 .f32) (x2 : Vec F S1x128 .f32) (R S : sProp 𝕄)
    {D0 D1 D2 D3 : Type} (g : D3 → Vec F S4000x128 .bf16) :
    iprop(R ∗ S ∗ (∃ _ : D0, owns c arg1 fullShare x0) ∗ (∃ _ : D1, owns c arg2 fullShare x1)
        ∗ (∃ _ : D2, owns c arg3 fullShare x2)
        ∗ (∃ d, owns c arg4 fullShare (g d)))
      ⊢ wp frame (wpE (defs₀ (F := F)) Variants.none c none) E (cc11__norm_relu_kernel i arg1 harg1 arg2 harg2 arg3 harg3 arg4 harg4)
        fun _ => iprop(R ∗ S ∗ owns c arg1 fullShare x0 ∗ owns c arg2 fullShare x1 ∗ owns c arg3 fullShare x2
          ∗ owns c arg4 fullShare (out11_3 x0 x1 x2)) := by
  simp only [cc11__norm_relu_kernel_eq_skeleton]; unfold cc11__norm_relu_kernel_skel
  unfold owns
  iintro ⟨HR, HS, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HR]; · iexact HR
  isplitl [HS]; · iexact HS
  isplitl [H0]; · iapply owns_read; iexact H0
  isplitl [H1]; · iapply owns_read; iexact H1
  isplitl [H2]; · iapply owns_read; iexact H2
  iexists _; isplitr
  swap; · iexact H3
  ipureintro
  exact View.read_writes_eq_canon _ _ _ (View.cover_of_tiled _ S4000x128.size (by rfl))

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t =
    out11_3 (iblk11 V c 0 t) (iblk11 V c 1 t) (iblk11 V c 2 t) := by dsimp only [dat11]

-- An input's buffer holds its block at every point: where it was not fetched, the block index has not moved.
theorem before11 (c : Dev nD) (t : Fin cfg11.N) :
    (∀ d, (dat11 V c).before 0 t d = iblk11 V c 0 t) ∧ (∀ d, (dat11 V c).before 1 t d = iblk11 V c 1 t) ∧ (∀ d, (dat11 V c).before 2 t d = iblk11 V c 2 t) := by
  refine ⟨?_, ?_, ?_⟩ <;> intro d <;>
  exact ((dat11 V c).before_in_eq_fetched _ rfl (fun _ => rfl) (fun _ _ _ => rfl) (fun _ => rfl) t d).trans rfl

theorem body_obligation11 (c : Dev nD) : BodyObligation (dat11 (F := F) V c) (defs₀ (F := F)) Variants.none () Set.univ := fun t => by
  rw [bigSep_W11, bigSep_W11]
  obtain ⟨h0, h1, h2⟩ := before11 V c t
  simp only [h0, h1, h2]
  rw [after11_0, after11_1, after11_2, after11_3]
  show _ ⊢ wp frame _ Set.univ (bodyAt11 t) _
  exact sound_kernel11 c Set.univ _ _ _ _ _ _ _ _ _ (iblk11 V c 0 t) (iblk11 V c 1 t) (iblk11 V c 2 t) _ _ _

end Region11

end Cert.KernelIdeal.Hand

end
-- ==== Proof.KI.Lin12.lean ====
import proofs.«123582_j22084721836889_2_alg».proof.Proof.KI.BodyLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region12
variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S4000x128 := Rect.unit (s := S4000x128) ![0, 0] S4000x128.size inb_S4000x128_S4000x128_0_0
abbrev r12_1 : Rect S4000x5 := Rect.unit (s := S4000x5) ![0, 0] S4000x5.size inb_S4000x5_S4000x5_0_0
abbrev r12_2 : Rect S5x128 := Rect.unit (s := S5x128) ![0, 0] S5x128.size inb_S5x128_S5x128_0_0
abbrev r12_3 : Rect S4000x1 := Rect.unit (s := S4000x1) ![0, 0] S4000x1.size inb_S4000x1_S4000x1_0_0
abbrev r12_4 : Rect S128x128 := Rect.unit (s := S128x128) ![0, 0] S128x128.size inb_S128x128_S128x128_0_0
abbrev r12_5 : Rect S1x128 := Rect.unit (s := S1x128) ![0, 0] S1x128.size inb_S1x128_S1x128_0_0

def out12_7 (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) : Vec F S4000x128 .f32 :=
  View.canon [⟨r12_0, k12_pay1 (View.ld x0 r12_0) (View.ld x1 r12_0) (View.ld x2 r12_1) (View.ld x3 r12_2) (View.ld x4 r12_3) (View.ld x5 r12_4) (View.ld x6 r12_5)⟩]

set_option maxHeartbeats 1000000 in
-- The inputs are only read and the single store covers the whole output block; whatever else is held passes through.
theorem sound_kernel12 (c : Dev nD) (E : Set ℕ) (i : grid12.Coords)
    (arg1 : Memref sig .tc .vmem S4000x128 .bf16) (harg1 : arg1.IsWhole) (arg2 : Memref sig .tc .vmem S4000x128 .f32) (harg2 : arg2.IsWhole)
    (arg3 : Memref sig .tc .vmem S4000x5 .f32) (harg3 : arg3.IsWhole) (arg4 : Memref sig .tc .vmem S5x128 .f32) (harg4 : arg4.IsWhole)
    (arg5 : Memref sig .tc .vmem S4000x1 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S4000x128 .f32) (harg8 : arg8.IsWhole)
    (x0 : Vec F S4000x128 .bf16) (x1 : Vec F S4000x128 .f32) (x2 : Vec F S4000x5 .f32) (x3 : Vec F S5x128 .f32)
    (x4 : Vec F S4000x1 .f32) (x5 : Vec F S128x128 .f32) (x6 : Vec F S1x128 .f32) (R S : sProp 𝕄)
    {D0 D1 D2 D3 D4 D5 D6 D7 : Type} (g : D7 → Vec F S4000x128 .f32) :
    iprop(R ∗ S ∗ (∃ _ : D0, owns c arg1 fullShare x0) ∗ (∃ _ : D1, owns c arg2 fullShare x1)
        ∗ (∃ _ : D2, owns c arg3 fullShare x2) ∗ (∃ _ : D3, owns c arg4 fullShare x3)
        ∗ (∃ _ : D4, owns c arg5 fullShare x4) ∗ (∃ _ : D5, owns c arg6 fullShare x5)
        ∗ (∃ _ : D6, owns c arg7 fullShare x6)
        ∗ (∃ d, owns c arg8 fullShare (g d)))
      ⊢ wp frame (wpE (defs₀ (F := F)) Variants.none c none) E (cc12__linear_kernel i arg1 harg1 arg2 harg2 arg3 harg3 arg4 harg4 arg5 harg5 arg6 harg6 arg7 harg7 arg8 harg8)
        fun _ => iprop(R ∗ S ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6
          ∗ owns c arg8 fullShare (out12_7 x0 x1 x2 x3 x4 x5 x6)) := by
  simp only [cc12__linear_kernel_eq_skeleton]; unfold cc12__linear_kernel_skel
  unfold owns
  iintro ⟨HR, HS, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%_, %f7, -, H7⟩⟩
  subst hf0; subst hf1; subst hf2; subst hf3; subst hf4; subst hf5; subst hf6
  sl_exec
  sl_step
  isplitl [HR]; · iexact HR
  isplitl [HS]; · iexact HS
  isplitl [H0]; · iapply owns_read; iexact H0
  isplitl [H1]; · iapply owns_read; iexact H1
  isplitl [H2]; · iapply owns_read; iexact H2
  isplitl [H3]; · iapply owns_read; iexact H3
  isplitl [H4]; · iapply owns_read; iexact H4
  isplitl [H5]; · iapply owns_read; iexact H5
  isplitl [H6]; · iapply owns_read; iexact H6
  iexists _; isplitr
  swap; · iexact H7
  ipureintro
  exact View.read_writes_eq_canon _ _ _ (View.cover_of_tiled _ S4000x128.size (by rfl))

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t =
    out12_7 (iblk12 V c 0 t) (iblk12 V c 1 t) (iblk12 V c 2 t) (iblk12 V c 3 t) (iblk12 V c 4 t) (iblk12 V c 5 t) (iblk12 V c 6 t) := by dsimp only [dat12]

-- An input's buffer holds its block at every point: where it was not fetched, the block index has not moved.
theorem before12 (c : Dev nD) (t : Fin cfg12.N) :
    (∀ d, (dat12 V c).before 0 t d = iblk12 V c 0 t) ∧ (∀ d, (dat12 V c).before 1 t d = iblk12 V c 1 t) ∧ (∀ d, (dat12 V c).before 2 t d = iblk12 V c 2 t)
      ∧ (∀ d, (dat12 V c).before 3 t d = iblk12 V c 3 t) ∧ (∀ d, (dat12 V c).before 4 t d = iblk12 V c 4 t) ∧ (∀ d, (dat12 V c).before 5 t d = iblk12 V c 5 t)
      ∧ (∀ d, (dat12 V c).before 6 t d = iblk12 V c 6 t) := by
  refine ⟨?_, ?_, ?_, ?_, ?_, ?_, ?_⟩ <;> intro d <;>
  exact ((dat12 V c).before_in_eq_fetched _ rfl (fun _ => rfl) (fun _ _ _ => rfl) (fun _ => rfl) t d).trans rfl

theorem body_obligation12 (c : Dev nD) : BodyObligation (dat12 (F := F) V c) (defs₀ (F := F)) Variants.none () Set.univ := fun t => by
  rw [bigSep_W12, bigSep_W12]
  obtain ⟨h0, h1, h2, h3, h4, h5, h6⟩ := before12 V c t
  simp only [h0, h1, h2, h3, h4, h5, h6]
  rw [after12_0, after12_1, after12_2, after12_3, after12_4, after12_5, after12_6, after12_7]
  show _ ⊢ wp frame _ Set.univ (bodyAt12 t) _
  exact sound_kernel12 c Set.univ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _ _ _

end Region12

end Cert.KernelIdeal.Hand

end
-- ==== Proof.KI.Stats13.lean ====
import proofs.«123582_j22084721836889_2_alg».proof.Proof.Gen.KernelIdeal.Launch
import proofs.«123582_j22084721836889_2_alg».proof.Proof.Gen.KernelIdeal.Skeleton
import proofs.«123582_j22084721836889_2_alg».proof.Proof.Gen.KernelIdeal.Points
import proofs.«123582_j22084721836889_2_alg».proof.Proof.KI.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

def acc13_0 (c : Dev nD) : (n : ℕ) → Vec F S1x128 .f32
  | 0 => k13_pay1
  | n + 1 => if h : n < cfg13.N then k13_pay4 (iblk13 V c 0 ⟨n, h⟩) (acc13_0 c n) else acc13_0 c n

def acc13_1 (c : Dev nD) : (n : ℕ) → Vec F S1x128 .f32
  | 0 => k13_pay2
  | n + 1 => if h : n < cfg13.N then k13_pay5 (iblk13 V c 0 ⟨n, h⟩) (acc13_1 c n) else acc13_1 c n

theorem acc13_0_zero (c : Dev nD) (n : ℕ) (h : n = 0) : acc13_0 V c n = k13_pay1 := by subst h; rfl
theorem acc13_1_zero (c : Dev nD) (n : ℕ) (h : n = 0) : acc13_1 V c n = k13_pay2 := by subst h; rfl

theorem acc13_0_succ (c : Dev nD) (t : Fin cfg13.N) : acc13_0 V c (t.val + 1) = k13_pay4 (iblk13 V c 0 t) (acc13_0 V c t.val) := by
  rw [acc13_0]; exact dif_pos t.isLt
theorem acc13_1_succ (c : Dev nD) (t : Fin cfg13.N) : acc13_1 V c (t.val + 1) = k13_pay5 (iblk13 V c 0 t) (acc13_1 V c t.val) := by
  rw [acc13_1]; exact dif_pos t.isLt

abbrev cond13_0 (i : grid13.Coords) : Prop := (Scalar.cmpi .ne (Scalar.extui (Scalar.cmpi .eq (BitVec.ofNat 32 (i 0).val) 0#32)) 0#32) = 1#1
theorem hcond13_0 : ∀ t : Fin cfg13.N, cond13_0 (grid13.coords t) ↔ t.val = 0 :=
  (by decide +kernel : ∀ t : Fin grid13.N, cond13_0 (grid13.coords t) ↔ t.val = 0)
theorem hcond13_1 : ∀ t : Fin cfg13.N, k13_cond2 (grid13.coords t) = 1#1 ↔ t.val = 49 :=
  (by decide +kernel : ∀ t : Fin grid13.N, k13_cond2 (grid13.coords t) = 1#1 ↔ t.val = 49)

theorem liveAt13_0 : ∀ t : Fin cfg13.N, cfg13.idle 0 (grid13.coords t) = false := fun _ => rfl
theorem idle13 : ∀ t : Fin cfg13.N, ¬k13_cond2 (grid13.coords t) = 1#1 →
    cfg13.idle 1 (grid13.coords t) = true ∧ cfg13.idle 2 (grid13.coords t) = true ∧ (cfg13.win 1).flush t = false ∧ (cfg13.win 2).flush t = false := by
  decide +kernel
theorem live13 : ∀ t : Fin cfg13.N, k13_cond2 (grid13.coords t) = 1#1 → cfg13.idle 1 (grid13.coords t) = false ∧ cfg13.idle 2 (grid13.coords t) = false := by
  decide +kernel

set_option maxHeartbeats 1000000 in
-- The scratch pair restarts from zeros under the first test, takes one step on the block, and is copied out under the second.
theorem sound_kernel13 (c : Dev nD) (E : Set ℕ) (i : grid13.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc : cond13_0 i → ¬k13_cond2 i = 1#1)
    (x : Vec F S4000x128 .f32) (o1 o2 s0 s1 b0 b1 : Vec F S1x128 .f32)
    (hb0 : b0 = if cond13_0 i then k13_pay1 else s0) (hb1 : b1 = if cond13_0 i then k13_pay2 else s1) (K : PUnit → sProp 𝕄) :
    iprop(owns (c : Thread nD τ) arg1 fullShare x ∗ owns (c : Thread nD τ) arg2 fullShare o1 ∗ owns (c : Thread nD τ) arg3 fullShare o2
        ∗ owns (c : Thread nD τ) arg4 fullShare s0 ∗ owns (c : Thread nD τ) arg5 fullShare s1
        ∗ (iprop(owns (c : Thread nD τ) arg1 fullShare x
            ∗ owns (c : Thread nD τ) arg2 fullShare (if k13_cond2 i = 1#1 then k13_pay4 x b0 else o1)
            ∗ owns (c : Thread nD τ) arg3 fullShare (if k13_cond2 i = 1#1 then k13_pay5 x b1 else o2)
            ∗ owns (c : Thread nD τ) arg4 fullShare (k13_pay4 x b0) ∗ owns (c : Thread nD τ) arg5 fullShare (k13_pay5 x b1)) -∗ K ⟨⟩))
      ⊢ wp frame (wpE (defs₀ (F := F)) Variants.none c none) E (cc13__stats_kernel i arg1 harg1 arg2 harg2 arg3 harg3 arg4 harg4 arg5 harg5) K := by
  subst hb0 hb1
  simp only [cc13__stats_kernel_eq_skeleton]; unfold cc13__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  by_cases hc0 : cond13_0 i <;> by_cases hc1 : k13_cond2 i = 1#1
  · exact absurd hc1 (hc hc0)
  all_goals
    sl_exec (disch := first | exact hc0 | exact hc1)
    sl_step
    simp only [hc0, eq_true hc0, hc1, ↓reduceIte]
    iapply Hk
    isplitl [H1]; rotate_left; isplitl [H2]; rotate_left; isplitl [H3]; rotate_left; isplitl [H4]; rotate_left
    all_goals
      iexists _; isplitr; swap
      · first | iexact H1 | iexact H2 | iexact H3 | iexact H4 | iexact H5
      ipureintro
      first
      | with_reducible rfl
      | (sl_unfold_run_names
         simp only [read_writes_unit (S := S1x128) _ _ zero_offs, View.readCov_unit_zero (S := S1x128) _ zero_offs, View.readAt_eq_ld,
           View.ld_unit_zero (S := S4000x128) zero_offs, View.ld_unit_zero (S := S1x128) zero_offs])

abbrev scM13_0 : Memref sig .tc .vmem S1x128 .f32 := Memref.whole cc13_scratch0
abbrev scM13_1 : Memref sig .tc .vmem S1x128 .f32 := Memref.whole cc13_scratch1

abbrev rest13 (c : Dev nD) : sProp 𝕄 :=
  Pipeline.scopedRestBut (Ix := Unit) (Name := ℕ) (U := UR sig nD τ) (Lvl := ℕ) (Val := Elt F) spec13 c [cc13_scratch0, cc13_scratch1]

-- Before point n the scratch pair holds the accumulators over the first n points (anything, before the first point).
def Phi13 (c : Dev nD) (n : ℕ) : sProp 𝕄 :=
  iprop(rest13 (F := F) c ∗ (∃ r, prngReg c r) ∗ ∃ s0 s1, ⌜n ≠ 0 → s0 = acc13_0 V c n ∧ s1 = acc13_1 V c n⌝
    ∗ owns (c : Thread nD τ) scM13_0 fullShare s0 ∗ owns (c : Thread nD τ) scM13_1 fullShare s1)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => acc13_0 V c (t.val + 1)
    | ⟨2, _⟩ => acc13_1 V c (t.val + 1)
  Φ t := Phi13 V c t.val
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = acc13_0 V c (t.val + 1) := by dsimp only [dat13]
theorem after13_2 (c : Dev nD) (t : Fin cfg13.N) : (dat13 V c).after 2 t = acc13_1 V c (t.val + 1) := by dsimp only [dat13]

theorem before13_0 (c : Dev nD) (t : Fin cfg13.N) (d) : (dat13 V c).before 0 t d = iblk13 V c 0 t :=
  ((dat13 V c).before_in_eq_fetched 0 rfl (fun _ => rfl) (fun _ _ _ => rfl)
    (fun t => by rw [after13_0]; unfold Dat.blockOf iblk13; rw [A_eq13]; try rfl) t d).trans
    (by unfold Dat.fetched Dat.blockOf iblk13; rw [A_eq13]; try rfl)

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

-- One step of the invariant, at any point.
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0]
  rw [show (dat13 V c).owesAt () t.succ = (dat13 V c).owesAt () t.castSucc from rfl,
    show (dat13 V c).Φ t.castSucc = Phi13 V c t.val from rfl, show (dat13 V c).Φ t.succ = Phi13 V c (t.val + 1) from rfl,
    show (dat13 V c).leavesExact 0 t = owns (c : Thread nD τ) (st13_0 t) fullShare ((dat13 V c).after 0 t) from by
      unfold Dat.leavesExact; rw [liveAt13_0 t], after13_0]
  unfold Phi13
  iintro ⟨⟨Hrest, Hg, %s0, %s1, %hs, HS0, HS1⟩, Ho, ⟨%d0, H0⟩, ⟨%d1, H1⟩, ⟨%d2, H2⟩⟩
  have e0 : acc13_0 V c t.val = (if cond13_0 (grid13.coords t) then k13_pay1 else s0)
      ∧ acc13_1 V c t.val = (if cond13_0 (grid13.coords t) then k13_pay2 else s1) := by
    by_cases h0 : t.val = 0
    · rw [if_pos ((hcond13_0 t).mpr h0), if_pos ((hcond13_0 t).mpr h0), acc13_0_zero V c _ h0, acc13_1_zero V c _ h0]; exact ⟨rfl, rfl⟩
    · rw [if_neg (fun h => h0 ((hcond13_0 t).mp h)), if_neg (fun h => h0 ((hcond13_0 t).mp h))]
      exact ⟨(hs h0).1.symm, (hs h0).2.symm⟩
  iapply (sound_kernel13 c Set.univ (grid13.coords t) _ _ _ _ _ _ _ _ _ _
    (fun h h' => by have := (hcond13_0 t).mp h; have := (hcond13_1 t).mp h'; omega) (iblk13 V c 0 t)
    ((dat13 V c).before 1 t d1) ((dat13 V c).before 2 t d2) s0 s1 _ _ e0.1 e0.2 _)
  rw [← acc13_0_succ, ← acc13_1_succ]
  iframe H0 H1 H2 HS0 HS1
  iintro ⟨H0, H1, H2, HS0, HS1⟩
  iframe Hrest Hg Ho H0
  isplitl [HS0 HS1]
  · iexists acc13_0 V c (t.val + 1), acc13_1 V c (t.val + 1)
    isplitr; · ipureintro; exact fun _ => ⟨rfl, rfl⟩
    iframe
  by_cases hc1 : k13_cond2 (grid13.coords t) = 1#1
  · rw [if_pos hc1, if_pos hc1,
      show (dat13 V c).leavesExact 1 t = owns (c : Thread nD τ) (st13_1 t) fullShare ((dat13 V c).after 1 t) from by
        unfold Dat.leavesExact; rw [(live13 t hc1).1], after13_1,
      show (dat13 V c).leavesExact 2 t = owns (c : Thread nD τ) (st13_2 t) fullShare ((dat13 V c).after 2 t) from by
        unfold Dat.leavesExact; rw [(live13 t hc1).2], after13_2]
    iframe
  · rw [if_neg hc1, if_neg hc1, Dat.leavesExact_idle (dat13 V c) 1 t (idle13 t hc1).1 (idle13 t hc1).2.2.1,
      Dat.leavesExact_idle (dat13 V c) 2 t (idle13 t hc1).2.1 (idle13 t hc1).2.2.2]
    isplitl [H1]; · iexists _; iexact H1
    iexists _; iexact H2

theorem body_obligation13 (c : Dev nD) : BodyObligation (dat13 (F := F) V c) (defs₀ (F := F)) Variants.none () Set.univ := fun t => by
  rw [bigSep_W13, bigSep_W13]
  exact sound_body13 V c t

theorem Phi13_in (c : Dev nD) :
    iprop((∃ r, prngReg c r) ∗ Pipeline.scopedRest (Ix := Unit) (Name := ℕ) (U := UR sig nD τ) (Lvl := ℕ) (Val := Elt F) spec13 c)
      ⊢ (dat13 V c).Φ 0 := by
  rw [show (dat13 V c).Φ 0 = Phi13 V c 0 from rfl, scopedRest13_split]
  unfold Phi13
  simp only [scM13_0, scM13_1, owns_whole]
  iintro ⟨Hg, ⟨⟨%s0, HS0⟩, ⟨%s1, HS1⟩⟩, Hrest⟩
  iframe Hg Hrest
  iexists s0, s1
  isplitr; · ipureintro; exact fun h => absurd rfl h
  iframe

-- The accumulators' contents are forgotten.
theorem Phi13_out (c : Dev nD) :
    (dat13 V c).Φ (Fin.last cfg13.N)
      ⊢ iprop((∃ r, prngReg c r) ∗ Pipeline.scopedRest (Ix := Unit) (Name := ℕ) (U := UR sig nD τ) (Lvl := ℕ) (Val := Elt F) spec13 c) := by
  rw [show (dat13 V c).Φ (Fin.last cfg13.N) = Phi13 V c (Fin.last cfg13.N).val from rfl, scopedRest13_split]
  unfold Phi13
  simp only [scM13_0, scM13_1, owns_whole]
  iintro ⟨Hrest, Hg, %s0, %s1, -, HS0, HS1⟩
  iframe Hrest Hg
  isplitl [HS0]; · iexists _; iexact HS0
  iexists _; iexact HS1

-- The block's offsets in the array are zero on both axes.
theorem off13_1 (t : Fin cfg13.N) : (fun a => (cfg13.win 1).index t a * (cfg13.win 1).size a) = fun _ => 0 :=
  funext fun a => by fin_cases a <;> rfl
theorem off13_2 (t : Fin cfg13.N) : (fun a => (cfg13.win 2).index t a * (cfg13.win 2).size a) = fun _ => 0 :=
  funext fun a => by fin_cases a <;> rfl

theorem mem_blk13_1 (t : Fin cfg13.N) (i : S1x128.Idx) : i ∈ ((cfg13.win 1).blk t).view.set := by
  show i ∈ ((View.whole main_v202_0).slice (win13_1.rect t)).set
  rw [View.set_slice_whole]
  exact View.mem_set_unit_zero (S := S1x128) (off13_1 t) _ i
theorem mem_blk13_2 (t : Fin cfg13.N) (i : S1x128.Idx) : i ∈ ((cfg13.win 2).blk t).view.set := by
  show i ∈ ((View.whole main_v202_1).slice (win13_2.rect t)).set
  rw [View.set_slice_whole]
  exact View.mem_set_unit_zero (S := S1x128) (off13_2 t) _ i

theorem lt49_13 : (49 : ℕ) < cfg13.N := by rw [show cfg13.N = 50 from N_13]; omega
theorem last13 (t : Fin cfg13.N) (h : t.val % 50 = 49) : t.val = 49 := by have := lt_of_lt_of_eq t.isLt N_13; omega

theorem arrAt13_1 (c : Dev nD) : (dat13 V c).arrAt 1 cfg13.N = acc13_0 V c 50 := by
  refine (dat13 V c).arrAt_eq_of_cover 1 (acc13_0 V c 50) (fun t hf => ?_) (fun i => ⟨⟨49, lt49_13⟩, (flush13_1 _).mpr rfl, mem_blk13_1 _ i⟩)
  rw [show ((cfg13.win 1).blk t).view.read (Elt F) _ = _ from View.ld_unit_zero (S := S1x128) (off13_1 t) _ _]
  show (dat13 V c).after 1 t = _
  rw [after13_1, last13 t ((flush13_1 t).mp hf)]

theorem arrAt13_2 (c : Dev nD) : (dat13 V c).arrAt 2 cfg13.N = acc13_1 V c 50 := by
  refine (dat13 V c).arrAt_eq_of_cover 2 (acc13_1 V c 50) (fun t hf => ?_) (fun i => ⟨⟨49, lt49_13⟩, (flush13_2 _).mpr rfl, mem_blk13_2 _ i⟩)
  rw [show ((cfg13.win 2).blk t).view.read (Elt F) _ = _ from View.ld_unit_zero (S := S1x128) (off13_2 t) _ _]
  show (dat13 V c).after 2 t = _
  rw [after13_2, last13 t ((flush13_2 t).mp hf)]

end Cert.KernelIdeal.Hand

end
-- ==== Proof.KI.Norm14.lean ====
import proofs.«123582_j22084721836889_2_alg».proof.Proof.KI.BodyLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region14
variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

abbrev r14_0 : Rect S4000x128 := Rect.unit (s := S4000x128) ![0, 0] S4000x128.size inb_S4000x128_S4000x128_0_0
abbrev r14_1 : Rect S1x128 := Rect.unit (s := S1x128) ![0, 0] S1x128.size inb_S1x128_S1x128_0_0

def out14_3 (x0 : Vec F S4000x128 .f32) (x1 : Vec F S1x128 .f32) (x2 : Vec F S1x128 .f32) : Vec F S4000x128 .bf16 :=
  View.canon [⟨r14_0, k14_pay1 (View.ld x0 r14_0) (View.ld x1 r14_1) (View.ld x2 r14_1)⟩]

set_option maxHeartbeats 1000000 in
-- The inputs are only read and the single store covers the whole output block; whatever else is held passes through.
theorem sound_kernel14 (c : Dev nD) (E : Set ℕ) (i : grid14.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S4000x128 .bf16) (harg4 : arg4.IsWhole)
    (x0 : Vec F S4000x128 .f32) (x1 : Vec F S1x128 .f32) (x2 : Vec F S1x128 .f32) (R S : sProp 𝕄)
    {D0 D1 D2 D3 : Type} (g : D3 → Vec F S4000x128 .bf16) :
    iprop(R ∗ S ∗ (∃ _ : D0, owns c arg1 fullShare x0) ∗ (∃ _ : D1, owns c arg2 fullShare x1)
        ∗ (∃ _ : D2, owns c arg3 fullShare x2)
        ∗ (∃ d, owns c arg4 fullShare (g d)))
      ⊢ wp frame (wpE (defs₀ (F := F)) Variants.none c none) E (cc14__norm_relu_kernel i arg1 harg1 arg2 harg2 arg3 harg3 arg4 harg4)
        fun _ => iprop(R ∗ S ∗ owns c arg1 fullShare x0 ∗ owns c arg2 fullShare x1 ∗ owns c arg3 fullShare x2
          ∗ owns c arg4 fullShare (out14_3 x0 x1 x2)) := by
  simp only [cc14__norm_relu_kernel_eq_skeleton]; unfold cc14__norm_relu_kernel_skel
  unfold owns
  iintro ⟨HR, HS, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HR]; · iexact HR
  isplitl [HS]; · iexact HS
  isplitl [H0]; · iapply owns_read; iexact H0
  isplitl [H1]; · iapply owns_read; iexact H1
  isplitl [H2]; · iapply owns_read; iexact H2
  iexists _; isplitr
  swap; · iexact H3
  ipureintro
  exact View.read_writes_eq_canon _ _ _ (View.cover_of_tiled _ S4000x128.size (by rfl))

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t =
    out14_3 (iblk14 V c 0 t) (iblk14 V c 1 t) (iblk14 V c 2 t) := by dsimp only [dat14]

-- An input's buffer holds its block at every point: where it was not fetched, the block index has not moved.
theorem before14 (c : Dev nD) (t : Fin cfg14.N) :
    (∀ d, (dat14 V c).before 0 t d = iblk14 V c 0 t) ∧ (∀ d, (dat14 V c).before 1 t d = iblk14 V c 1 t) ∧ (∀ d, (dat14 V c).before 2 t d = iblk14 V c 2 t) := by
  refine ⟨?_, ?_, ?_⟩ <;> intro d <;>
  exact ((dat14 V c).before_in_eq_fetched _ rfl (fun _ => rfl) (fun _ _ _ => rfl) (fun _ => rfl) t d).trans rfl

theorem body_obligation14 (c : Dev nD) : BodyObligation (dat14 (F := F) V c) (defs₀ (F := F)) Variants.none () Set.univ := fun t => by
  rw [bigSep_W14, bigSep_W14]
  obtain ⟨h0, h1, h2⟩ := before14 V c t
  simp only [h0, h1, h2]
  rw [after14_0, after14_1, after14_2, after14_3]
  show _ ⊢ wp frame _ Set.univ (bodyAt14 t) _
  exact sound_kernel14 c Set.univ _ _ _ _ _ _ _ _ _ (iblk14 V c 0 t) (iblk14 V c 1 t) (iblk14 V c 2 t) _ _ _

end Region14

end Cert.KernelIdeal.Hand

end
-- ==== Proof.KI.Mlp15.lean ====
import proofs.«123582_j22084721836889_2_alg».proof.Proof.KI.BodyLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region15
variable (V : (c : Dev nD) → (b : Ref sig .tc) → Buf (Elt F) ((c : Thread nD τ).loc b))

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

abbrev r15_0 : Rect S1000x128 := Rect.unit (s := S1000x128) ![0, 0] S1000x128.size inb_S1000x128_S1000x128_0_0
abbrev r15_1 : Rect S128x128 := Rect.unit (s := S128x128) ![0, 0] S128x128.size inb_S128x128_S128x128_0_0
abbrev r15_2 : Rect S1x128 := Rect.unit (s := S1x128) ![0, 0] S1x128.size inb_S1x128_S1x128_0_0

def out15_5 (x0 : Vec F S1000x128 .f32) (x1 : Vec F S128x128 .f32) (x2 : Vec F S1x128 .f32) (x3 : Vec F S128x128 .f32) (x4 : Vec F S1x128 .f32) : Vec F S1000x128 .f32 :=
  View.canon [⟨r15_0, k15_pay1 (View.ld x0 r15_0) (View.ld x1 r15_1) (View.ld x2 r15_2) (View.ld x3 r15_1) (View.ld x4 r15_2)⟩]

set_option maxHeartbeats 1000000 in
-- The inputs are only read and the single store covers the whole output block; whatever else is held passes through.
theorem sound_kernel15 (c : Dev nD) (E : Set ℕ) (i : grid15.Coords)
    (arg1 : Memref sig .tc .vmem S1000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1000x128 .f32) (harg6 : arg6.IsWhole)
    (x0 : Vec F S1000x128 .f32) (x1 : Vec F S128x128 .f32) (x2 : Vec F S1x128 .f32) (x3 : Vec F S128x128 .f32)
    (x4 : Vec F S1x128 .f32) (R S : sProp 𝕄)
    {D0 D1 D2 D3 D4 D5 : Type} (g : D5 → Vec F S1000x128 .f32) :
    iprop(R ∗ S ∗ (∃ _ : D0, owns c arg1 fullShare x0) ∗ (∃ _ : D1, owns c arg2 fullShare x1)
        ∗ (∃ _ : D2, owns c arg3 fullShare x2) ∗ (∃ _ : D3, owns c arg4 fullShare x3)
        ∗ (∃ _ : D4, owns c arg5 fullShare x4)
        ∗ (∃ d, owns c arg6 fullShare (g d)))
      ⊢ wp frame (wpE (defs₀ (F := F)) Variants.none c none) E (cc15__mlp_kernel i arg1 harg1 arg2 harg2 arg3 harg3 arg4 harg4 arg5 harg5 arg6 harg6)
        fun _ => iprop(R ∗ S ∗ owns c arg1 fullShare x0 ∗ owns c arg2 fullShare x1 ∗ owns c arg3 fullShare x2
          ∗ owns c arg4 fullShare x3 ∗ owns c arg5 fullShare x4
          ∗ owns c arg6 fullShare (out15_5 x0 x1 x2 x3 x4)) := by
  simp only [cc15__mlp_kernel_eq_skeleton]; unfold cc15__mlp_kernel_skel
  unfold owns
  iintro ⟨HR, HS, ⟨%_, %f0, %hf0, H0⟩, ⟨%_, %f1, %hf1, H1⟩, ⟨%_, %f2, %hf2, H2⟩, ⟨%_, %f3, %hf3, H3⟩, ⟨%_, %f4, %hf4, H4⟩, ⟨%_, %f5, -, H5⟩⟩
  subst hf0; subst hf1; subst hf2; subst hf3; subst hf4
  sl_exec
  sl_step
  isplitl [HR]; · iexact HR
  isplitl [HS]; · iexact HS
  isplitl [H0]; · iapply owns_read; iexact H0
  isplitl [H1]; · iapply owns_read; iexact H1
  isplitl [H2]; · iapply owns_read; iexact H2
  isplitl [H3]; · iapply owns_read; iexact H3
  isplitl [H4]; · iapply owns_read; iexact H4
  iexists _; isplitr
  swap; · iexact H5
  ipureintro
  exact View.read_writes_eq_canon _ _ _ (View.cover_of_tiled _ S1000x128.size (by rfl))

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => out15_5 (iblk15 V c 0 t) (iblk15 V c 1 t) (iblk15 V c 2 t) (iblk15 V c 3 t) (iblk15 V c 4 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t =
    out15_5 (iblk15 V c 0 t) (iblk15 V c 1 t) (iblk15 V c 2 t) (iblk15 V c 3 t) (iblk15 V c 4 t) := by dsimp only [dat15]

-- An input's buffer holds its block at every point: where it was not fetched, the block index has not moved.
theorem before15 (c : Dev nD) (t : Fin cfg15.N) :
    (∀ d, (dat15 V c).before 0 t d = iblk15 V c 0 t) ∧ (∀ d, (dat15 V c).before 1 t d = iblk15 V c 1 t) ∧ (∀ d, (dat15 V c).before 2 t d = iblk15 V c 2 t)
      ∧ (∀ d, (dat15 V c).before 3 t d = iblk15 V c 3 t) ∧ (∀ d, (dat15 V c).before 4 t d = iblk15 V c 4 t) := by
  refine ⟨?_, ?_, ?_, ?_, ?_⟩ <;> intro d <;>
  exact ((dat15 V c).before_in_eq_fetched _ rfl (fun _ => rfl) (fun _ _ _ => rfl) (fun _ => rfl) t d).trans rfl

theorem body_obligation15 (c : Dev nD) : BodyObligation (dat15 (F := F) V c) (defs₀ (F := F)) Variants.none () Set.univ := fun t => by
  rw [bigSep_W15, bigSep_W15]
  obtain ⟨h0, h1, h2, h3, h4⟩ := before15 V c t
  simp only [h0, h1, h2, h3, h4]
  rw [after15_0, after15_1, after15_2, after15_3, after15_4, after15_5]
  show _ ⊢ wp frame _ Set.univ (bodyAt15 t) _
  exact sound_kernel15 c Set.univ _ _ _ _ _ _ _ _ _ _ _ _ _ (iblk15 V c 0 t) (iblk15 V c 1 t) (iblk15 V c 2 t) (iblk15 V c 3 t) (iblk15 V c 4 t) _ _ _

end Region15

end Cert.KernelIdeal.Hand

end
-- ==== Proof.KI.Fold.lean ====
import proofs.«123582_j22084721836889_2_alg».proof.Proof.Gen.KernelIdeal.Regions
import proofs.«123582_j22084721836889_2_alg».proof.Proof.KI.Lin0
import proofs.«123582_j22084721836889_2_alg».proof.Proof.KI.Stats1
import proofs.«123582_j22084721836889_2_alg».proof.Proof.KI.Norm2
import proofs.«123582_j22084721836889_2_alg».proof.Proof.KI.Lin3
import proofs.«123582_j22084721836889_2_alg».proof.Proof.KI.Stats4
import proofs.«123582_j22084721836889_2_alg».proof.Proof.KI.Norm5
import proofs.«123582_j22084721836889_2_alg».proof.Proof.KI.Lin6
import proofs.«123582_j22084721836889_2_alg».proof.Proof.KI.Stats7
import proofs.«123582_j22084721836889_2_alg».proof.Proof.KI.Norm8
import proofs.«123582_j22084721836889_2_alg».proof.Proof.KI.Lin9
import proofs.«123582_j22084721836889_2_alg».proof.Proof.KI.Stats10
import proofs.«123582_j22084721836889_2_alg».proof.Proof.KI.Norm11
import proofs.«123582_j22084721836889_2_alg».proof.Proof.KI.Lin12
import proofs.«123582_j22084721836889_2_alg».proof.Proof.KI.Stats13
import proofs.«123582_j22084721836889_2_alg».proof.Proof.KI.Norm14
import proofs.«123582_j22084721836889_2_alg».proof.Proof.KI.Mlp15
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

def W3 : Dev nD → Valuation τ sig (Elt F) := fun c => Gen.V3 m c
def W4 : Dev nD → Valuation τ sig (Elt F) := fun c =>
  Function.update (W3 m c) main_v37 ((dat0 (rd (W3 m)) c).arrAt 7 cfg0.N)
def W5 : Dev nD → Valuation τ sig (Elt F) := fun c =>
  Function.update (Function.update (W4 m c) main_v38_0 ((dat1 (rd (W4 m)) c).arrAt 1 cfg1.N)) main_v38_1 ((dat1 (rd (W4 m)) c).arrAt 2 cfg1.N)
def W6 : Dev nD → Valuation τ sig (Elt F) := fun c => StableHlo.after hostOps2 (W5 m c)
def W7 : Dev nD → Valuation τ sig (Elt F) := fun c =>
  Function.update (W6 m c) main_v59 ((dat2 (rd (W6 m)) c).arrAt 3 cfg2.N)
def W8 : Dev nD → Valuation τ sig (Elt F) := fun c => StableHlo.after hostOps3 (W7 m c)
def W9 : Dev nD → Valuation τ sig (Elt F) := fun c =>
  Function.update (W8 m c) main_v78 ((dat3 (rd (W8 m)) c).arrAt 7 cfg3.N)
def W10 : Dev nD → Valuation τ sig (Elt F) := fun c =>
  Function.update (Function.update (W9 m c) main_v79_0 ((dat4 (rd (W9 m)) c).arrAt 1 cfg4.N)) main_v79_1 ((dat4 (rd (W9 m)) c).arrAt 2 cfg4.N)
def W11 : Dev nD → Valuation τ sig (Elt F) := fun c => StableHlo.after hostOps5 (W10 m c)
def W12 : Dev nD → Valuation τ sig (Elt F) := fun c =>
  Function.update (W11 m c) main_v100 ((dat5 (rd (W11 m)) c).arrAt 3 cfg5.N)
def W13 : Dev nD → Valuation τ sig (Elt F) := fun c => StableHlo.after hostOps6 (W12 m c)
def W14 : Dev nD → Valuation τ sig (Elt F) := fun c =>
  Function.update (W13 m c) main_v119 ((dat6 (rd (W13 m)) c).arrAt 7 cfg6.N)
def W15 : Dev nD → Valuation τ sig (Elt F) := fun c =>
  Function.update (Function.update (W14 m c) main_v120_0 ((dat7 (rd (W14 m)) c).arrAt 1 cfg7.N)) main_v120_1 ((dat7 (rd (W14 m)) c).arrAt 2 cfg7.N)
def W16 : Dev nD → Valuation τ sig (Elt F) := fun c => StableHlo.after hostOps8 (W15 m c)
def W17 : Dev nD → Valuation τ sig (Elt F) := fun c =>
  Function.update (W16 m c) main_v141 ((dat8 (rd (W16 m)) c).arrAt 3 cfg8.N)
def W18 : Dev nD → Valuation τ sig (Elt F) := fun c => StableHlo.after hostOps9 (W17 m c)
def W19 : Dev nD → Valuation τ sig (Elt F) := fun c =>
  Function.update (W18 m c) main_v160 ((dat9 (rd (W18 m)) c).arrAt 7 cfg9.N)
def W20 : Dev nD → Valuation τ sig (Elt F) := fun c =>
  Function.update (Function.update (W19 m c) main_v161_0 ((dat10 (rd (W19 m)) c).arrAt 1 cfg10.N)) main_v161_1 ((dat10 (rd (W19 m)) c).arrAt 2 cfg10.N)
def W21 : Dev nD → Valuation τ sig (Elt F) := fun c => StableHlo.after hostOps11 (W20 m c)
def W22 : Dev nD → Valuation τ sig (Elt F) := fun c =>
  Function.update (W21 m c) main_v182 ((dat11 (rd (W21 m)) c).arrAt 3 cfg11.N)
def W23 : Dev nD → Valuation τ sig (Elt F) := fun c => StableHlo.after hostOps12 (W22 m c)
def W24 : Dev nD → Valuation τ sig (Elt F) := fun c =>
  Function.update (W23 m c) main_v201 ((dat12 (rd (W23 m)) c).arrAt 7 cfg12.N)
def W25 : Dev nD → Valuation τ sig (Elt F) := fun c =>
  Function.update (Function.update (W24 m c) main_v202_0 ((dat13 (rd (W24 m)) c).arrAt 1 cfg13.N)) main_v202_1 ((dat13 (rd (W24 m)) c).arrAt 2 cfg13.N)
def W26 : Dev nD → Valuation τ sig (Elt F) := fun c => StableHlo.after hostOps14 (W25 m c)
def W27 : Dev nD → Valuation τ sig (Elt F) := fun c =>
  Function.update (W26 m c) main_v223 ((dat14 (rd (W26 m)) c).arrAt 3 cfg14.N)
def W28 : Dev nD → Valuation τ sig (Elt F) := fun c => StableHlo.after hostOps15 (W27 m c)
def W29 : Dev nD → Valuation τ sig (Elt F) := fun c =>
  Function.update (W28 m c) main_v239 ((dat15 (rd (W28 m)) c).arrAt 5 cfg15.N)

def outs : Gen.Outs (F := F) := fun J r c => match J with
  | 4 => W4 m c r
  | 5 => W5 m c r
  | 7 => W7 m c r
  | 9 => W9 m c r
  | 10 => W10 m c r
  | 12 => W12 m c r
  | 14 => W14 m c r
  | 15 => W15 m c r
  | 17 => W17 m c r
  | 19 => W19 m c r
  | 20 => W20 m c r
  | 22 => W22 m c r
  | 24 => W24 m c r
  | 25 => W25 m c r
  | 27 => W27 m c r
  | 29 => W29 m c r
  | _ => W29 m c r

/-- Updating at `a` by what a valuation already updated at `a` reads there changes nothing. -/
theorem upd1_eq {V₀ V : Valuation τ sig (Elt F)} (h : V₀ = V) (a : DevRef τ sig) (x : a.ty.Contents (Elt F)) :
    Function.update V₀ a (Function.update V a x a) = Function.update V a x := by
  subst h; rw [Function.update_self]

/-- The same at two distinct references. -/
theorem upd2_eq {V₀ V W : Valuation τ sig (Elt F)} (h : V₀ = V) {a b : DevRef τ sig} (hab : a ≠ b) {x : a.ty.Contents (Elt F)}
    {y : b.ty.Contents (Elt F)} (hW : W = Function.update (Function.update V a x) b y) :
    Function.update (Function.update V₀ a (W a)) b (W b) = W := by
  subst h hW; rw [Function.update_self, Function.update_of_ne hab, Function.update_self]

theorem V4_eq : (fun c => Gen.V4 m (outs m) c) = W4 m := funext fun c => upd1_eq rfl _ _
theorem V5_eq : (fun c => Gen.V5 m (outs m) c) = W5 m := funext fun c => upd2_eq (W := W5 m c) (congrFun (V4_eq m) c) (StableHlo.devRef_ne_of_ne (by decide)) rfl
theorem V6_eq : (fun c => Gen.V6 m (outs m) c) = W6 m := funext fun c => congrArg (StableHlo.after hostOps2) (congrFun (V5_eq m) c)
theorem V7_eq : (fun c => Gen.V7 m (outs m) c) = W7 m := funext fun c => upd1_eq (congrFun (V6_eq m) c) _ _
theorem V8_eq : (fun c => Gen.V8 m (outs m) c) = W8 m := funext fun c => congrArg (StableHlo.after hostOps3) (congrFun (V7_eq m) c)
theorem V9_eq : (fun c => Gen.V9 m (outs m) c) = W9 m := funext fun c => upd1_eq (congrFun (V8_eq m) c) _ _
theorem V10_eq : (fun c => Gen.V10 m (outs m) c) = W10 m := funext fun c => upd2_eq (W := W10 m c) (congrFun (V9_eq m) c) (StableHlo.devRef_ne_of_ne (by decide)) rfl
theorem V11_eq : (fun c => Gen.V11 m (outs m) c) = W11 m := funext fun c => congrArg (StableHlo.after hostOps5) (congrFun (V10_eq m) c)
theorem V12_eq : (fun c => Gen.V12 m (outs m) c) = W12 m := funext fun c => upd1_eq (congrFun (V11_eq m) c) _ _
theorem V13_eq : (fun c => Gen.V13 m (outs m) c) = W13 m := funext fun c => congrArg (StableHlo.after hostOps6) (congrFun (V12_eq m) c)
theorem V14_eq : (fun c => Gen.V14 m (outs m) c) = W14 m := funext fun c => upd1_eq (congrFun (V13_eq m) c) _ _
theorem V15_eq : (fun c => Gen.V15 m (outs m) c) = W15 m := funext fun c => upd2_eq (W := W15 m c) (congrFun (V14_eq m) c) (StableHlo.devRef_ne_of_ne (by decide)) rfl
theorem V16_eq : (fun c => Gen.V16 m (outs m) c) = W16 m := funext fun c => congrArg (StableHlo.after hostOps8) (congrFun (V15_eq m) c)
theorem V17_eq : (fun c => Gen.V17 m (outs m) c) = W17 m := funext fun c => upd1_eq (congrFun (V16_eq m) c) _ _
theorem V18_eq : (fun c => Gen.V18 m (outs m) c) = W18 m := funext fun c => congrArg (StableHlo.after hostOps9) (congrFun (V17_eq m) c)
theorem V19_eq : (fun c => Gen.V19 m (outs m) c) = W19 m := funext fun c => upd1_eq (congrFun (V18_eq m) c) _ _
theorem V20_eq : (fun c => Gen.V20 m (outs m) c) = W20 m := funext fun c => upd2_eq (W := W20 m c) (congrFun (V19_eq m) c) (StableHlo.devRef_ne_of_ne (by decide)) rfl
theorem V21_eq : (fun c => Gen.V21 m (outs m) c) = W21 m := funext fun c => congrArg (StableHlo.after hostOps11) (congrFun (V20_eq m) c)
theorem V22_eq : (fun c => Gen.V22 m (outs m) c) = W22 m := funext fun c => upd1_eq (congrFun (V21_eq m) c) _ _
theorem V23_eq : (fun c => Gen.V23 m (outs m) c) = W23 m := funext fun c => congrArg (StableHlo.after hostOps12) (congrFun (V22_eq m) c)
theorem V24_eq : (fun c => Gen.V24 m (outs m) c) = W24 m := funext fun c => upd1_eq (congrFun (V23_eq m) c) _ _
theorem V25_eq : (fun c => Gen.V25 m (outs m) c) = W25 m := funext fun c => upd2_eq (W := W25 m c) (congrFun (V24_eq m) c) (StableHlo.devRef_ne_of_ne (by decide)) rfl
theorem V26_eq : (fun c => Gen.V26 m (outs m) c) = W26 m := funext fun c => congrArg (StableHlo.after hostOps14) (congrFun (V25_eq m) c)
theorem V27_eq : (fun c => Gen.V27 m (outs m) c) = W27 m := funext fun c => upd1_eq (congrFun (V26_eq m) c) _ _
theorem V28_eq : (fun c => Gen.V28 m (outs m) c) = W28 m := funext fun c => congrArg (StableHlo.after hostOps15) (congrFun (V27_eq m) c)
theorem V29_eq : (fun c => Gen.V29 m (outs m) c) = W29 m := funext fun c => upd1_eq (congrFun (V28_eq m) c) _ _

def pdats : (p : Fin 16) → (c : Dev nD) → Dat τ (Elt F) Unit ℕ (UR sig nD τ) ℕ (cfgs p) c
  | ⟨0, _⟩ => fun c => dat0 (rd (W3 m)) c
  | ⟨1, _⟩ => fun c => dat1 (rd (W4 m)) c
  | ⟨2, _⟩ => fun c => dat2 (rd (W6 m)) c
  | ⟨3, _⟩ => fun c => dat3 (rd (W8 m)) c
  | ⟨4, _⟩ => fun c => dat4 (rd (W9 m)) c
  | ⟨5, _⟩ => fun c => dat5 (rd (W11 m)) c
  | ⟨6, _⟩ => fun c => dat6 (rd (W13 m)) c
  | ⟨7, _⟩ => fun c => dat7 (rd (W14 m)) c
  | ⟨8, _⟩ => fun c => dat8 (rd (W16 m)) c
  | ⟨9, _⟩ => fun c => dat9 (rd (W18 m)) c
  | ⟨10, _⟩ => fun c => dat10 (rd (W19 m)) c
  | ⟨11, _⟩ => fun c => dat11 (rd (W21 m)) c
  | ⟨12, _⟩ => fun c => dat12 (rd (W23 m)) c
  | ⟨13, _⟩ => fun c => dat13 (rd (W24 m)) c
  | ⟨14, _⟩ => fun c => dat14 (rd (W26 m)) c
  | ⟨15, _⟩ => fun c => dat15 (rd (W28 m)) c
  | ⟨_ + 16, h⟩ => absurd h (Nat.not_lt.2 (Nat.le_add_left _ _))

abbrev R (c : Dev nD) : sProp 𝕄 := iprop((∃ r, prngReg c r) ∗ ∃ W, owes (c : Thread nD τ) (0 : CellTallies nD τ sig Unit) W)

end Cert.KernelIdeal.Hand

end
-- ==== Proof.KI.RegLib.lean ====
import proofs.«123582_j22084721836889_2_alg».proof.Proof.KI.Fold

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RegionSeg)

variable {F : FTy → Type} [FloatOps F]

local notation "𝕄" => MT nD τ sig Unit (Elt F) ℕ (UR sig nD τ) ℕ

section Arrays

variable {p : Fin 16} {c : Dev nD} (D : Dat τ (Elt F) Unit ℕ (UR sig nD τ) ℕ (cfgs p) c) {V : Valuation τ sig (Elt F)}
  {S : Finset (Fin (cfgs p).W)}

/-- Proof data with every side field trivial and the entry arrays read off `A₀`. -/
structure PlainDat (A₀ : (b : Ref sig .tc) → Buf (Elt F) ((c : Thread nD τ).loc b)) : Prop where
  q : ∀ w, D.q w = fullShare
  owed : ∀ t, D.owed t = 0
  recorded : ∀ t, D.recorded t = Set.univ
  A : ∀ w, D.A w = A₀ (Pipeline.arrRef (cfgs p).spec w)

/-- An input array holds its entry contents at every point. -/
theorem arrAt_in_all (hin : ∀ w, w ∉ S → ((cfgs p).win w).isOut = false)
    (hA : ∀ w, D.A w = V (Proc.devRef .tc (Pipeline.arrRef (cfgs p).spec w))) :
    ∀ w, w ∉ S → D.arrAt w (cfgs p).N = V (Proc.devRef .tc (Pipeline.arrRef (cfgs p).spec w)) :=
  fun w hw => (D.arrAt_in w (hin w hw) _).trans (hA w)

/-- Final arrays that read as `V` off `insert o S` read, off `S`, as `V` updated at array `o` by that array's final contents. -/
theorem arrAt_upd (hl : Pipeline.LaunchFacts (nD := nD) (τ := τ) cfgs p) (o : Fin (cfgs p).W)
    (h : ∀ w, w ∉ insert o S → D.arrAt w (cfgs p).N = V (Proc.devRef .tc (Pipeline.arrRef (cfgs p).spec w))) :
    ∀ w, w ∉ S → D.arrAt w (cfgs p).N = Function.update V (Proc.devRef .tc (Pipeline.arrRef (cfgs p).spec o)) (D.arrAt o (cfgs p).N)
      (Proc.devRef .tc (Pipeline.arrRef (cfgs p).spec w)) := fun w hw => by
  rcases eq_or_ne w o with rfl | e
  · rw [Function.update_self]
  · rw [Function.update_of_ne (StableHlo.devRef_ne_of_ne (hl.win.arr_inj.ne e))]
    exact h w fun hm => (Finset.mem_insert.mp hm).elim e hw

end Arrays

/-- Off the arrays `g`, a valuation updated at one of them reads as before. -/
theorem rest_upd {n : ℕ} {g : Fin n → Ref sig .tc} (V : Valuation τ sig (Elt F)) (o : Fin n)
    (v : (Proc.devRef (τ := τ) .tc (g o)).ty.Contents (Elt F)) {b : Ref sig .tc} (hb : b ∉ Finset.univ.image g) :
    Function.update V (Proc.devRef .tc (g o)) v (Proc.devRef .tc b) = V (Proc.devRef .tc b) :=
  Function.update_of_ne (StableHlo.devRef_ne_of_ne fun e => hb (Finset.mem_image.mpr ⟨o, Finset.mem_univ _, e.symm⟩)) _ _

/-- `ΦA` is its two conjuncts, swapped. -/
theorem ΦA_in (p : Fin 16) (c : Dev nD) :
    iprop((∃ r, prngReg c r) ∗ Pipeline.scopedRest (Ix := Unit) (Name := ℕ) (U := UR sig nD τ) (Lvl := ℕ) (Val := Elt F) (cfgs p).spec c) ⊢ (Pipeline.ΦA (cfgs p).spec c : sProp 𝕄) := by
  unfold Pipeline.ΦA
  iintro ⟨Hp, Hr⟩
  isplitl [Hr]; · iexact Hr
  iexact Hp

theorem ΦA_out (p : Fin 16) (c : Dev nD) :
    (Pipeline.ΦA (cfgs p).spec c : sProp 𝕄) ⊢ iprop((∃ r, prngReg c r) ∗ Pipeline.scopedRest (Ix := Unit) (Name := ℕ) (U := UR sig nD τ) (Lvl := ℕ) (Val := Elt F) (cfgs p).spec c) := by
  unfold Pipeline.ΦA
  iintro ⟨Hr, Hp⟩
  isplitl [Hp]; · iexact Hp
  iexact Hr

variable (m : (ℓ : Loc nD τ sig) → Buf (Elt F) ℓ) (p : Fin 16) (hl : Pipeline.LaunchFacts (nD := nD) (τ := τ) cfgs p)
  (V V' : Dev nD → Valuation τ sig (Elt F))
  (hbody : ∀ c, Pipeline.BodyObligationLoose (pdats m p c) defs₀ Variants.none () Set.univ)
  (hP : ∀ c, PlainDat (pdats m p c) (rd V c))
  (hΦi : ∀ c, iprop((∃ r, prngReg c r) ∗ Pipeline.scopedRest (Ix := Unit) (Name := ℕ) (U := UR sig nD τ) (Lvl := ℕ) (Val := Elt F) (cfgs p).spec c) ⊢ (pdats m p c).Φ 0)
  (hΦo : ∀ c, (pdats m p c).Φ (Fin.last (cfgs p).N) ⊢ iprop((∃ r, prngReg c r) ∗ Pipeline.scopedRest (Ix := Unit) (Name := ℕ) (U := UR sig nD τ) (Lvl := ℕ) (Val := Elt F) (cfgs p).spec c))

/-- Region `p` from boundary contents `V` to `V'`, where `V'` holds the arrays' final contents and is `V` elsewhere. -/
def regOf (hF : ∀ c w, (pdats m p c).arrAt w (cfgs p).N = rd V' c (Pipeline.arrRef (cfgs p).spec w))
    (hrest : ∀ c b, b ∉ Finset.univ.image (Pipeline.arrRef (cfgs p).spec) → rd V' c b = rd V c b) :
    RegionSeg (pcfgs (F := F)) Gen.adm (pdats m) () defs₀ Variants.none (fun _ => (∅ : Finset Unit)) (fun _ _ => (0 : ℕ)) p where
  win := hl.win.to₀
  block_pos := hl.block_pos
  stage_whole := hl.stage_whole
  K := PEmpty
  osem k := k.elim
  ho := Pipeline.OwnSemFacts.none _
  hbody := hbody
  hwaits := Pipeline.hwaits_of_owed_zero _ _ _ _ (fun _ => (∅ : Finset Unit)) (fun _ _ => (0 : ℕ)) p fun c => (hP c).owed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (rd V c)
  hentry c := by
    rw [Pipeline.ownSems0_none]
    have hsplit := Pipeline.arrays_of_unscopedBufs (p := p) (pcfgs (F := F)) Gen.adm (pdats m) hl.win hl.arr_whole c
      ((pdats m p c).share_full (hP c).q) (rd V c) (hP c).A
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(hP c).owed]
      icases HO with ⟨%W, HO⟩; iexists W
      isplitr; · ipureintro; exact fun x _ => Or.inl (by rw [(hP c).recorded]; exact Set.mem_univ x)
      iexact HO
    isplitl [Hp]; · iexact Hp
    iexact Hrest
  hin c := by
    refine .trans ?_ (hΦi c)
    iintro ⟨Hp, -, Hr⟩
    isplitl [Hp]; · iexact Hp
    iexact Hr
  hout c := by
    rw [Pipeline.ownSems0_none]
    refine (hΦo c).trans ?_
    iintro ⟨Hp, Hr⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      hl.win hl.arr_whole c (pdats m) ((pdats m p c).share_full (hP c).q)
      (rd V c) (rd V' c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(hP c).owed]
    icases HO with ⟨%W, -, HO⟩; iexists W; iexact HO

/-- The same when `V'` is `V` updated at the one output array `o`, every other array being an input. -/
def regOf1 (o : Fin (cfgs p).W)
    (hV' : ∀ c, V' c = Function.update (V c) (Proc.devRef .tc (Pipeline.arrRef (cfgs p).spec o)) ((pdats m p c).arrAt o (cfgs p).N))
    (hin : ∀ w, w ∉ (insert o ∅ : Finset (Fin (cfgs p).W)) → ((cfgs p).win w).isOut = false) : RegionSeg (pcfgs (F := F)) Gen.adm (pdats m) () defs₀ Variants.none (fun _ => (∅ : Finset Unit)) (fun _ _ => (0 : ℕ)) p :=
  regOf m p hl V V' hbody hP hΦi hΦo
    (fun c w => (arrAt_upd _ hl o (arrAt_in_all _ hin (hP c).A) w (Finset.notMem_empty w)).trans (congrFun (hV' c) _).symm)
    (fun c b hb => (congrFun (hV' c) _).trans (rest_upd (V c) o _ hb))

/-- The same when `V'` is `V` updated at the two output arrays `o₁`, then `o₂`. -/
def regOf2 (o₁ o₂ : Fin (cfgs p).W)
    (hV' : ∀ c, V' c = Function.update (Function.update (V c) (Proc.devRef .tc (Pipeline.arrRef (cfgs p).spec o₁)) ((pdats m p c).arrAt o₁ (cfgs p).N))
      (Proc.devRef .tc (Pipeline.arrRef (cfgs p).spec o₂)) ((pdats m p c).arrAt o₂ (cfgs p).N))
    (hin : ∀ w, w ∉ (insert o₁ (insert o₂ ∅) : Finset (Fin (cfgs p).W)) → ((cfgs p).win w).isOut = false) : RegionSeg (pcfgs (F := F)) Gen.adm (pdats m) () defs₀ Variants.none (fun _ => (∅ : Finset Unit)) (fun _ _ => (0 : ℕ)) p :=
  regOf m p hl V V' hbody hP hΦi hΦo
    (fun c w => (arrAt_upd _ hl o₂ (arrAt_upd _ hl o₁ (arrAt_in_all _ hin (hP c).A)) w (Finset.notMem_empty w)).trans (congrFun (hV' c) _).symm)
    (fun c b hb => (congrFun (hV' c) _).trans ((rest_upd _ o₂ _ hb).trans (rest_upd (V c) o₁ _ hb)))

end Cert.KernelIdeal.Hand

end
-- ==== Proof.KI.Reg0.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 0, from boundary contents `W3` to `W4`. -/
def reg0 : RegionSeg (pcfgs (F := F)) Gen.adm (pdats m) () defs₀ Variants.none (fun _ => (∅ : Finset Unit)) (fun _ _ => (0 : ℕ)) 0 :=
  regOf1 m 0 launch0 (W3 m) (W4 m) (fun c => (body_obligation0 (rd (W3 m)) c).loose)
    (fun _ => ⟨fun _ => rfl, fun _ => rfl, fun _ => rfl, fun _ => rfl⟩) (ΦA_in 0) (ΦA_out 0) (7 : Fin 8) (fun _ => rfl) (by decide)

end Cert.KernelIdeal.Hand

end
-- ==== Proof.KI.Reg1.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 1, from boundary contents `W4` to `W5`. -/
def reg1 : RegionSeg (pcfgs (F := F)) Gen.adm (pdats m) () defs₀ Variants.none (fun _ => (∅ : Finset Unit)) (fun _ _ => (0 : ℕ)) 1 :=
  regOf2 m 1 launch1 (W4 m) (W5 m) (fun c => (body_obligation1 (rd (W4 m)) c).loose)
    (fun _ => ⟨fun _ => rfl, fun _ => rfl, fun _ => rfl, fun _ => rfl⟩) (Phi1_in (rd (W4 m))) (Phi1_out (rd (W4 m))) (1 : Fin 3) (2 : Fin 3) (fun _ => rfl) (by decide)

end Cert.KernelIdeal.Hand

end
-- ==== Proof.KI.Reg2.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 2, from boundary contents `W6` to `W7`. -/
def reg2 : RegionSeg (pcfgs (F := F)) Gen.adm (pdats m) () defs₀ Variants.none (fun _ => (∅ : Finset Unit)) (fun _ _ => (0 : ℕ)) 2 :=
  regOf1 m 2 launch2 (W6 m) (W7 m) (fun c => (body_obligation2 (rd (W6 m)) c).loose)
    (fun _ => ⟨fun _ => rfl, fun _ => rfl, fun _ => rfl, fun _ => rfl⟩) (ΦA_in 2) (ΦA_out 2) (3 : Fin 4) (fun _ => rfl) (by decide)

end Cert.KernelIdeal.Hand

end
-- ==== Proof.KI.Reg3.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 3, from boundary contents `W8` to `W9`. -/
def reg3 : RegionSeg (pcfgs (F := F)) Gen.adm (pdats m) () defs₀ Variants.none (fun _ => (∅ : Finset Unit)) (fun _ _ => (0 : ℕ)) 3 :=
  regOf1 m 3 launch3 (W8 m) (W9 m) (fun c => (body_obligation3 (rd (W8 m)) c).loose)
    (fun _ => ⟨fun _ => rfl, fun _ => rfl, fun _ => rfl, fun _ => rfl⟩) (ΦA_in 3) (ΦA_out 3) (7 : Fin 8) (fun _ => rfl) (by decide)

end Cert.KernelIdeal.Hand

end
-- ==== Proof.KI.Reg4.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 4, from boundary contents `W9` to `W10`. -/
def reg4 : RegionSeg (pcfgs (F := F)) Gen.adm (pdats m) () defs₀ Variants.none (fun _ => (∅ : Finset Unit)) (fun _ _ => (0 : ℕ)) 4 :=
  regOf2 m 4 launch4 (W9 m) (W10 m) (fun c => (body_obligation4 (rd (W9 m)) c).loose)
    (fun _ => ⟨fun _ => rfl, fun _ => rfl, fun _ => rfl, fun _ => rfl⟩) (Phi4_in (rd (W9 m))) (Phi4_out (rd (W9 m))) (1 : Fin 3) (2 : Fin 3) (fun _ => rfl) (by decide)

end Cert.KernelIdeal.Hand

end
-- ==== Proof.KI.Reg5.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 5, from boundary contents `W11` to `W12`. -/
def reg5 : RegionSeg (pcfgs (F := F)) Gen.adm (pdats m) () defs₀ Variants.none (fun _ => (∅ : Finset Unit)) (fun _ _ => (0 : ℕ)) 5 :=
  regOf1 m 5 launch5 (W11 m) (W12 m) (fun c => (body_obligation5 (rd (W11 m)) c).loose)
    (fun _ => ⟨fun _ => rfl, fun _ => rfl, fun _ => rfl, fun _ => rfl⟩) (ΦA_in 5) (ΦA_out 5) (3 : Fin 4) (fun _ => rfl) (by decide)

end Cert.KernelIdeal.Hand

end
-- ==== Proof.KI.Reg6.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 6, from boundary contents `W13` to `W14`. -/
def reg6 : RegionSeg (pcfgs (F := F)) Gen.adm (pdats m) () defs₀ Variants.none (fun _ => (∅ : Finset Unit)) (fun _ _ => (0 : ℕ)) 6 :=
  regOf1 m 6 launch6 (W13 m) (W14 m) (fun c => (body_obligation6 (rd (W13 m)) c).loose)
    (fun _ => ⟨fun _ => rfl, fun _ => rfl, fun _ => rfl, fun _ => rfl⟩) (ΦA_in 6) (ΦA_out 6) (7 : Fin 8) (fun _ => rfl) (by decide)

end Cert.KernelIdeal.Hand

end
-- ==== Proof.KI.Reg7.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 7, from boundary contents `W14` to `W15`. -/
def reg7 : RegionSeg (pcfgs (F := F)) Gen.adm (pdats m) () defs₀ Variants.none (fun _ => (∅ : Finset Unit)) (fun _ _ => (0 : ℕ)) 7 :=
  regOf2 m 7 launch7 (W14 m) (W15 m) (fun c => (body_obligation7 (rd (W14 m)) c).loose)
    (fun _ => ⟨fun _ => rfl, fun _ => rfl, fun _ => rfl, fun _ => rfl⟩) (Phi7_in (rd (W14 m))) (Phi7_out (rd (W14 m))) (1 : Fin 3) (2 : Fin 3) (fun _ => rfl) (by decide)

end Cert.KernelIdeal.Hand

end
-- ==== Proof.KI.Reg8.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 8, from boundary contents `W16` to `W17`. -/
def reg8 : RegionSeg (pcfgs (F := F)) Gen.adm (pdats m) () defs₀ Variants.none (fun _ => (∅ : Finset Unit)) (fun _ _ => (0 : ℕ)) 8 :=
  regOf1 m 8 launch8 (W16 m) (W17 m) (fun c => (body_obligation8 (rd (W16 m)) c).loose)
    (fun _ => ⟨fun _ => rfl, fun _ => rfl, fun _ => rfl, fun _ => rfl⟩) (ΦA_in 8) (ΦA_out 8) (3 : Fin 4) (fun _ => rfl) (by decide)

end Cert.KernelIdeal.Hand

end
-- ==== Proof.KI.Reg9.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 9, from boundary contents `W18` to `W19`. -/
def reg9 : RegionSeg (pcfgs (F := F)) Gen.adm (pdats m) () defs₀ Variants.none (fun _ => (∅ : Finset Unit)) (fun _ _ => (0 : ℕ)) 9 :=
  regOf1 m 9 launch9 (W18 m) (W19 m) (fun c => (body_obligation9 (rd (W18 m)) c).loose)
    (fun _ => ⟨fun _ => rfl, fun _ => rfl, fun _ => rfl, fun _ => rfl⟩) (ΦA_in 9) (ΦA_out 9) (7 : Fin 8) (fun _ => rfl) (by decide)

end Cert.KernelIdeal.Hand

end
-- ==== Proof.KI.Reg10.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 10, from boundary contents `W19` to `W20`. -/
def reg10 : RegionSeg (pcfgs (F := F)) Gen.adm (pdats m) () defs₀ Variants.none (fun _ => (∅ : Finset Unit)) (fun _ _ => (0 : ℕ)) 10 :=
  regOf2 m 10 launch10 (W19 m) (W20 m) (fun c => (body_obligation10 (rd (W19 m)) c).loose)
    (fun _ => ⟨fun _ => rfl, fun _ => rfl, fun _ => rfl, fun _ => rfl⟩) (Phi10_in (rd (W19 m))) (Phi10_out (rd (W19 m))) (1 : Fin 3) (2 : Fin 3) (fun _ => rfl) (by decide)

end Cert.KernelIdeal.Hand

end
-- ==== Proof.KI.Reg11.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 11, from boundary contents `W21` to `W22`. -/
def reg11 : RegionSeg (pcfgs (F := F)) Gen.adm (pdats m) () defs₀ Variants.none (fun _ => (∅ : Finset Unit)) (fun _ _ => (0 : ℕ)) 11 :=
  regOf1 m 11 launch11 (W21 m) (W22 m) (fun c => (body_obligation11 (rd (W21 m)) c).loose)
    (fun _ => ⟨fun _ => rfl, fun _ => rfl, fun _ => rfl, fun _ => rfl⟩) (ΦA_in 11) (ΦA_out 11) (3 : Fin 4) (fun _ => rfl) (by decide)

end Cert.KernelIdeal.Hand

end
-- ==== Proof.KI.Reg12.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 12, from boundary contents `W23` to `W24`. -/
def reg12 : RegionSeg (pcfgs (F := F)) Gen.adm (pdats m) () defs₀ Variants.none (fun _ => (∅ : Finset Unit)) (fun _ _ => (0 : ℕ)) 12 :=
  regOf1 m 12 launch12 (W23 m) (W24 m) (fun c => (body_obligation12 (rd (W23 m)) c).loose)
    (fun _ => ⟨fun _ => rfl, fun _ => rfl, fun _ => rfl, fun _ => rfl⟩) (ΦA_in 12) (ΦA_out 12) (7 : Fin 8) (fun _ => rfl) (by decide)

end Cert.KernelIdeal.Hand

end
-- ==== Proof.KI.Reg13.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 13, from boundary contents `W24` to `W25`. -/
def reg13 : RegionSeg (pcfgs (F := F)) Gen.adm (pdats m) () defs₀ Variants.none (fun _ => (∅ : Finset Unit)) (fun _ _ => (0 : ℕ)) 13 :=
  regOf2 m 13 launch13 (W24 m) (W25 m) (fun c => (body_obligation13 (rd (W24 m)) c).loose)
    (fun _ => ⟨fun _ => rfl, fun _ => rfl, fun _ => rfl, fun _ => rfl⟩) (Phi13_in (rd (W24 m))) (Phi13_out (rd (W24 m))) (1 : Fin 3) (2 : Fin 3) (fun _ => rfl) (by decide)

end Cert.KernelIdeal.Hand

end
-- ==== Proof.KI.Reg14.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 14, from boundary contents `W26` to `W27`. -/
def reg14 : RegionSeg (pcfgs (F := F)) Gen.adm (pdats m) () defs₀ Variants.none (fun _ => (∅ : Finset Unit)) (fun _ _ => (0 : ℕ)) 14 :=
  regOf1 m 14 launch14 (W26 m) (W27 m) (fun c => (body_obligation14 (rd (W26 m)) c).loose)
    (fun _ => ⟨fun _ => rfl, fun _ => rfl, fun _ => rfl, fun _ => rfl⟩) (ΦA_in 14) (ΦA_out 14) (3 : Fin 4) (fun _ => rfl) (by decide)

end Cert.KernelIdeal.Hand

end
-- ==== Proof.KI.Reg15.lean ====
import proofs.«123582_j22084721836889_2_alg».proof.Proof.KI.RegLib

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F] (m : (ℓ : Loc nD τ sig) → Buf (Elt F) ℓ)

/-- Region 15, from boundary contents `W28` to `W29`. -/
def reg15 : RegionSeg (pcfgs (F := F)) Gen.adm (pdats m) () defs₀ Variants.none (fun _ => (∅ : Finset Unit)) (fun _ _ => (0 : ℕ)) 15 :=
  regOf1 m 15 launch15 (W28 m) (W29 m) (fun c => (body_obligation15 (rd (W28 m)) c).loose)
    (fun _ => ⟨fun _ => rfl, fun _ => rfl, fun _ => rfl, fun _ => rfl⟩) (ΦA_in 15) (ΦA_out 15) (5 : Fin 6) (fun _ => rfl) (by decide)

end Cert.KernelIdeal.Hand

end
-- ==== Proof.KI.Frame.lean ====
import proofs.«123582_j22084721836889_2_alg».proof.Proof.KI.Reg0
import proofs.«123582_j22084721836889_2_alg».proof.Proof.KI.Reg1
import proofs.«123582_j22084721836889_2_alg».proof.Proof.KI.Reg2
import proofs.«123582_j22084721836889_2_alg».proof.Proof.KI.Reg3
import proofs.«123582_j22084721836889_2_alg».proof.Proof.KI.Reg4
import proofs.«123582_j22084721836889_2_alg».proof.Proof.KI.Reg5
import proofs.«123582_j22084721836889_2_alg».proof.Proof.KI.Reg6
import proofs.«123582_j22084721836889_2_alg».proof.Proof.KI.Reg7
import proofs.«123582_j22084721836889_2_alg».proof.Proof.KI.Reg8
import proofs.«123582_j22084721836889_2_alg».proof.Proof.KI.Reg9
import proofs.«123582_j22084721836889_2_alg».proof.Proof.KI.Reg10
import proofs.«123582_j22084721836889_2_alg».proof.Proof.KI.Reg11
import proofs.«123582_j22084721836889_2_alg».proof.Proof.KI.Reg12
import proofs.«123582_j22084721836889_2_alg».proof.Proof.KI.Reg13
import proofs.«123582_j22084721836889_2_alg».proof.Proof.KI.Reg14
import proofs.«123582_j22084721836889_2_alg».proof.Proof.KI.Reg15
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev u0 : UR sig nD τ := initOf (Pipeline.cells cfgs cellOf_inj) (Pipeline.launchToks cfgs cellOf_inj)

set_option backward.isDefEq.respectTransparency.types false in

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond m (Ix := Unit) (U := UR sig nD τ) (Lvl := ℕ) emb₁ () Variants.none (fun _ => (∅ : Finset Unit)) (fun _ _ => (0 : ℕ)) (fun _ _ => rfl)
    ρ (outs m) (pdats m) (O₀ := 0) (G := fun _ => iprop(emp)) (u₀ := u0)
    (hu₀ := by
      iintro Hu; imodintro
      isplitl [Hu]
      · iapply (show (ownU (u0) : sProp 𝕄) ⊢ BI.own (emb₁ (u0)) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach (fun _ => (∅ : Finset Unit)) (fun _ _ => (0 : ℕ)) fun c => by
      iintro ⟨⟨-, HO, -, Hp, -⟩, -⟩
      imodintro
      isplitl [Hp]; · iexists _; iexact Hp
      iexists ∅; iexact HO)
    (hE16 := fun c => by iintro ⟨-, HO⟩; iexact HO)
    (reg0 m) (fun c => by rw [show Gen.V3 m c = W3 m c from rfl]; exact .rfl) (fun c => by rw [show Gen.V4 m (outs m) c = W4 m c from congrFun (V4_eq m) c]; exact .rfl)
    (reg1 m) (fun c => by rw [show Gen.V4 m (outs m) c = W4 m c from congrFun (V4_eq m) c]; exact .rfl) (fun c => by rw [show Gen.V5 m (outs m) c = W5 m c from congrFun (V5_eq m) c]; exact .rfl)
    (reg2 m) (fun c => by rw [show Gen.V6 m (outs m) c = W6 m c from congrFun (V6_eq m) c]; exact .rfl) (fun c => by rw [show Gen.V7 m (outs m) c = W7 m c from congrFun (V7_eq m) c]; exact .rfl)
    (reg3 m) (fun c => by rw [show Gen.V8 m (outs m) c = W8 m c from congrFun (V8_eq m) c]; exact .rfl) (fun c => by rw [show Gen.V9 m (outs m) c = W9 m c from congrFun (V9_eq m) c]; exact .rfl)
    (reg4 m) (fun c => by rw [show Gen.V9 m (outs m) c = W9 m c from congrFun (V9_eq m) c]; exact .rfl) (fun c => by rw [show Gen.V10 m (outs m) c = W10 m c from congrFun (V10_eq m) c]; exact .rfl)
    (reg5 m) (fun c => by rw [show Gen.V11 m (outs m) c = W11 m c from congrFun (V11_eq m) c]; exact .rfl) (fun c => by rw [show Gen.V12 m (outs m) c = W12 m c from congrFun (V12_eq m) c]; exact .rfl)
    (reg6 m) (fun c => by rw [show Gen.V13 m (outs m) c = W13 m c from congrFun (V13_eq m) c]; exact .rfl) (fun c => by rw [show Gen.V14 m (outs m) c = W14 m c from congrFun (V14_eq m) c]; exact .rfl)
    (reg7 m) (fun c => by rw [show Gen.V14 m (outs m) c = W14 m c from congrFun (V14_eq m) c]; exact .rfl) (fun c => by rw [show Gen.V15 m (outs m) c = W15 m c from congrFun (V15_eq m) c]; exact .rfl)
    (reg8 m) (fun c => by rw [show Gen.V16 m (outs m) c = W16 m c from congrFun (V16_eq m) c]; exact .rfl) (fun c => by rw [show Gen.V17 m (outs m) c = W17 m c from congrFun (V17_eq m) c]; exact .rfl)
    (reg9 m) (fun c => by rw [show Gen.V18 m (outs m) c = W18 m c from congrFun (V18_eq m) c]; exact .rfl) (fun c => by rw [show Gen.V19 m (outs m) c = W19 m c from congrFun (V19_eq m) c]; exact .rfl)
    (reg10 m) (fun c => by rw [show Gen.V19 m (outs m) c = W19 m c from congrFun (V19_eq m) c]; exact .rfl) (fun c => by rw [show Gen.V20 m (outs m) c = W20 m c from congrFun (V20_eq m) c]; exact .rfl)
    (reg11 m) (fun c => by rw [show Gen.V21 m (outs m) c = W21 m c from congrFun (V21_eq m) c]; exact .rfl) (fun c => by rw [show Gen.V22 m (outs m) c = W22 m c from congrFun (V22_eq m) c]; exact .rfl)
    (reg12 m) (fun c => by rw [show Gen.V23 m (outs m) c = W23 m c from congrFun (V23_eq m) c]; exact .rfl) (fun c => by rw [show Gen.V24 m (outs m) c = W24 m c from congrFun (V24_eq m) c]; exact .rfl)
    (reg13 m) (fun c => by rw [show Gen.V24 m (outs m) c = W24 m c from congrFun (V24_eq m) c]; exact .rfl) (fun c => by rw [show Gen.V25 m (outs m) c = W25 m c from congrFun (V25_eq m) c]; exact .rfl)
    (reg14 m) (fun c => by rw [show Gen.V26 m (outs m) c = W26 m c from congrFun (V26_eq m) c]; exact .rfl) (fun c => by rw [show Gen.V27 m (outs m) c = W27 m c from congrFun (V27_eq m) c]; exact .rfl)
    (reg15 m) (fun c => by rw [show Gen.V28 m (outs m) c = W28 m c from congrFun (V28_eq m) c]; exact .rfl) (fun c => by rw [show Gen.V29 m (outs m) c = W29 m c from congrFun (V29_eq m) c]; exact .rfl)

end Cert.KernelIdeal.Hand

end
-- ==== Proof.KI.RunVal.lean ====
import proofs.«123582_j22084721836889_2_alg».proof.Proof.KI.Frame
import proofs.«123582_j22084721836889_2_alg».proof.Proof.KI.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

theorem run_val (ρ : Dev nD → PrngReg) :
    θ_run defs (onTc (τ := τ) (main (F := F))) ⟨m, fun _ => 0, ρ⟩ (fun r => ∀ c : Dev nD,
      r.2.mem ((c.tc : Thread nD τ).loc main_v239) = W29 m c main_v239
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.run_cond m (Ix := Unit) (U := UR sig nD τ) (Lvl := ℕ) emb₁ () Variants.none (fun _ => (∅ : Finset Unit)) (fun _ _ => (0 : ℕ)) (fun _ _ => rfl)
    ρ (outs m) (pdats m) (O₀ := 0) (G := fun _ => iprop(emp)) (u₀ := u0)
    (hu₀ := by
      iintro Hu; imodintro
      isplitl [Hu]
      · iapply (show (ownU (u0) : sProp 𝕄) ⊢ BI.own (emb₁ (u0)) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach (fun _ => (∅ : Finset Unit)) (fun _ _ => (0 : ℕ)) fun c => by
      iintro ⟨⟨-, HO, -, Hp, -⟩, -⟩
      imodintro
      isplitl [Hp]; · iexists _; iexact Hp
      iexists ∅; iexact HO)
    (hE16 := fun c => by iintro ⟨-, HO⟩; iexact HO)
    (reg0 m) (fun c => by rw [show Gen.V3 m c = W3 m c from rfl]; exact .rfl) (fun c => by rw [show Gen.V4 m (outs m) c = W4 m c from congrFun (V4_eq m) c]; exact .rfl)
    (reg1 m) (fun c => by rw [show Gen.V4 m (outs m) c = W4 m c from congrFun (V4_eq m) c]; exact .rfl) (fun c => by rw [show Gen.V5 m (outs m) c = W5 m c from congrFun (V5_eq m) c]; exact .rfl)
    (reg2 m) (fun c => by rw [show Gen.V6 m (outs m) c = W6 m c from congrFun (V6_eq m) c]; exact .rfl) (fun c => by rw [show Gen.V7 m (outs m) c = W7 m c from congrFun (V7_eq m) c]; exact .rfl)
    (reg3 m) (fun c => by rw [show Gen.V8 m (outs m) c = W8 m c from congrFun (V8_eq m) c]; exact .rfl) (fun c => by rw [show Gen.V9 m (outs m) c = W9 m c from congrFun (V9_eq m) c]; exact .rfl)
    (reg4 m) (fun c => by rw [show Gen.V9 m (outs m) c = W9 m c from congrFun (V9_eq m) c]; exact .rfl) (fun c => by rw [show Gen.V10 m (outs m) c = W10 m c from congrFun (V10_eq m) c]; exact .rfl)
    (reg5 m) (fun c => by rw [show Gen.V11 m (outs m) c = W11 m c from congrFun (V11_eq m) c]; exact .rfl) (fun c => by rw [show Gen.V12 m (outs m) c = W12 m c from congrFun (V12_eq m) c]; exact .rfl)
    (reg6 m) (fun c => by rw [show Gen.V13 m (outs m) c = W13 m c from congrFun (V13_eq m) c]; exact .rfl) (fun c => by rw [show Gen.V14 m (outs m) c = W14 m c from congrFun (V14_eq m) c]; exact .rfl)
    (reg7 m) (fun c => by rw [show Gen.V14 m (outs m) c = W14 m c from congrFun (V14_eq m) c]; exact .rfl) (fun c => by rw [show Gen.V15 m (outs m) c = W15 m c from congrFun (V15_eq m) c]; exact .rfl)
    (reg8 m) (fun c => by rw [show Gen.V16 m (outs m) c = W16 m c from congrFun (V16_eq m) c]; exact .rfl) (fun c => by rw [show Gen.V17 m (outs m) c = W17 m c from congrFun (V17_eq m) c]; exact .rfl)
    (reg9 m) (fun c => by rw [show Gen.V18 m (outs m) c = W18 m c from congrFun (V18_eq m) c]; exact .rfl) (fun c => by rw [show Gen.V19 m (outs m) c = W19 m c from congrFun (V19_eq m) c]; exact .rfl)
    (reg10 m) (fun c => by rw [show Gen.V19 m (outs m) c = W19 m c from congrFun (V19_eq m) c]; exact .rfl) (fun c => by rw [show Gen.V20 m (outs m) c = W20 m c from congrFun (V20_eq m) c]; exact .rfl)
    (reg11 m) (fun c => by rw [show Gen.V21 m (outs m) c = W21 m c from congrFun (V21_eq m) c]; exact .rfl) (fun c => by rw [show Gen.V22 m (outs m) c = W22 m c from congrFun (V22_eq m) c]; exact .rfl)
    (reg12 m) (fun c => by rw [show Gen.V23 m (outs m) c = W23 m c from congrFun (V23_eq m) c]; exact .rfl) (fun c => by rw [show Gen.V24 m (outs m) c = W24 m c from congrFun (V24_eq m) c]; exact .rfl)
    (reg13 m) (fun c => by rw [show Gen.V24 m (outs m) c = W24 m c from congrFun (V24_eq m) c]; exact .rfl) (fun c => by rw [show Gen.V25 m (outs m) c = W25 m c from congrFun (V25_eq m) c]; exact .rfl)
    (reg14 m) (fun c => by rw [show Gen.V26 m (outs m) c = W26 m c from congrFun (V26_eq m) c]; exact .rfl) (fun c => by rw [show Gen.V27 m (outs m) c = W27 m c from congrFun (V27_eq m) c]; exact .rfl)
    (reg15 m) (fun c => by rw [show Gen.V28 m (outs m) c = W28 m c from congrFun (V28_eq m) c]; exact .rfl) (fun c => by rw [show Gen.V29 m (outs m) c = W29 m c from congrFun (V29_eq m) c]; exact .rfl)

end Cert.KernelIdeal.Hand

end
-- ==== Proof.KV.ChainKept.lean ====
import proofs.«123582_j22084721836889_2_alg».proof.Proof.KI.Fold
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe

variable {F : FTy → Type} [FloatOps F] (m : (ℓ : Loc nD τ sig) → Buf (Elt F) ℓ)

theorem W4_of (c : Dev nD) (r : Ref sig .tc) (h : r ∉ ([main_v37] : List (Ref sig .tc))) : W4 m c r = W3 m c r := by
  rw [← congrFun (V4_eq m) c]; exact Gen.V4_of m (outs m) c r h
theorem W5_of (c : Dev nD) (r : Ref sig .tc) (h : r ∉ ([main_v38_0, main_v38_1] : List (Ref sig .tc))) : W5 m c r = W4 m c r := by
  rw [← congrFun (V5_eq m) c, ← congrFun (V4_eq m) c]; exact Gen.V5_of m (outs m) c r h
theorem W6_of (c : Dev nD) (r : Ref sig .tc) (h : r ∉ (hostOps2_W : List (Ref sig .tc))) : W6 m c r = W5 m c r := by
  rw [← congrFun (V6_eq m) c, ← congrFun (V5_eq m) c]; exact Gen.V6_of m (outs m) c r h
theorem W7_of (c : Dev nD) (r : Ref sig .tc) (h : r ∉ ([main_v59] : List (Ref sig .tc))) : W7 m c r = W6 m c r := by
  rw [← congrFun (V7_eq m) c, ← congrFun (V6_eq m) c]; exact Gen.V7_of m (outs m) c r h
theorem W8_of (c : Dev nD) (r : Ref sig .tc) (h : r ∉ (hostOps3_W : List (Ref sig .tc))) : W8 m c r = W7 m c r := by
  rw [← congrFun (V8_eq m) c, ← congrFun (V7_eq m) c]; exact Gen.V8_of m (outs m) c r h
theorem W9_of (c : Dev nD) (r : Ref sig .tc) (h : r ∉ ([main_v78] : List (Ref sig .tc))) : W9 m c r = W8 m c r := by
  rw [← congrFun (V9_eq m) c, ← congrFun (V8_eq m) c]; exact Gen.V9_of m (outs m) c r h
theorem W10_of (c : Dev nD) (r : Ref sig .tc) (h : r ∉ ([main_v79_0, main_v79_1] : List (Ref sig .tc))) : W10 m c r = W9 m c r := by
  rw [← congrFun (V10_eq m) c, ← congrFun (V9_eq m) c]; exact Gen.V10_of m (outs m) c r h
theorem W11_of (c : Dev nD) (r : Ref sig .tc) (h : r ∉ (hostOps5_W : List (Ref sig .tc))) : W11 m c r = W10 m c r := by
  rw [← congrFun (V11_eq m) c, ← congrFun (V10_eq m) c]; exact Gen.V11_of m (outs m) c r h
theorem W12_of (c : Dev nD) (r : Ref sig .tc) (h : r ∉ ([main_v100] : List (Ref sig .tc))) : W12 m c r = W11 m c r := by
  rw [← congrFun (V12_eq m) c, ← congrFun (V11_eq m) c]; exact Gen.V12_of m (outs m) c r h
theorem W13_of (c : Dev nD) (r : Ref sig .tc) (h : r ∉ (hostOps6_W : List (Ref sig .tc))) : W13 m c r = W12 m c r := by
  rw [← congrFun (V13_eq m) c, ← congrFun (V12_eq m) c]; exact Gen.V13_of m (outs m) c r h
theorem W14_of (c : Dev nD) (r : Ref sig .tc) (h : r ∉ ([main_v119] : List (Ref sig .tc))) : W14 m c r = W13 m c r := by
  rw [← congrFun (V14_eq m) c, ← congrFun (V13_eq m) c]; exact Gen.V14_of m (outs m) c r h
theorem W15_of (c : Dev nD) (r : Ref sig .tc) (h : r ∉ ([main_v120_0, main_v120_1] : List (Ref sig .tc))) : W15 m c r = W14 m c r := by
  rw [← congrFun (V15_eq m) c, ← congrFun (V14_eq m) c]; exact Gen.V15_of m (outs m) c r h
theorem W16_of (c : Dev nD) (r : Ref sig .tc) (h : r ∉ (hostOps8_W : List (Ref sig .tc))) : W16 m c r = W15 m c r := by
  rw [← congrFun (V16_eq m) c, ← congrFun (V15_eq m) c]; exact Gen.V16_of m (outs m) c r h
theorem W17_of (c : Dev nD) (r : Ref sig .tc) (h : r ∉ ([main_v141] : List (Ref sig .tc))) : W17 m c r = W16 m c r := by
  rw [← congrFun (V17_eq m) c, ← congrFun (V16_eq m) c]; exact Gen.V17_of m (outs m) c r h
theorem W18_of (c : Dev nD) (r : Ref sig .tc) (h : r ∉ (hostOps9_W : List (Ref sig .tc))) : W18 m c r = W17 m c r := by
  rw [← congrFun (V18_eq m) c, ← congrFun (V17_eq m) c]; exact Gen.V18_of m (outs m) c r h
theorem W19_of (c : Dev nD) (r : Ref sig .tc) (h : r ∉ ([main_v160] : List (Ref sig .tc))) : W19 m c r = W18 m c r := by
  rw [← congrFun (V19_eq m) c, ← congrFun (V18_eq m) c]; exact Gen.V19_of m (outs m) c r h
theorem W20_of (c : Dev nD) (r : Ref sig .tc) (h : r ∉ ([main_v161_0, main_v161_1] : List (Ref sig .tc))) : W20 m c r = W19 m c r := by
  rw [← congrFun (V20_eq m) c, ← congrFun (V19_eq m) c]; exact Gen.V20_of m (outs m) c r h
theorem W21_of (c : Dev nD) (r : Ref sig .tc) (h : r ∉ (hostOps11_W : List (Ref sig .tc))) : W21 m c r = W20 m c r := by
  rw [← congrFun (V21_eq m) c, ← congrFun (V20_eq m) c]; exact Gen.V21_of m (outs m) c r h
theorem W22_of (c : Dev nD) (r : Ref sig .tc) (h : r ∉ ([main_v182] : List (Ref sig .tc))) : W22 m c r = W21 m c r := by
  rw [← congrFun (V22_eq m) c, ← congrFun (V21_eq m) c]; exact Gen.V22_of m (outs m) c r h
theorem W23_of (c : Dev nD) (r : Ref sig .tc) (h : r ∉ (hostOps12_W : List (Ref sig .tc))) : W23 m c r = W22 m c r := by
  rw [← congrFun (V23_eq m) c, ← congrFun (V22_eq m) c]; exact Gen.V23_of m (outs m) c r h
theorem W24_of (c : Dev nD) (r : Ref sig .tc) (h : r ∉ ([main_v201] : List (Ref sig .tc))) : W24 m c r = W23 m c r := by
  rw [← congrFun (V24_eq m) c, ← congrFun (V23_eq m) c]; exact Gen.V24_of m (outs m) c r h
theorem W25_of (c : Dev nD) (r : Ref sig .tc) (h : r ∉ ([main_v202_0, main_v202_1] : List (Ref sig .tc))) : W25 m c r = W24 m c r := by
  rw [← congrFun (V25_eq m) c, ← congrFun (V24_eq m) c]; exact Gen.V25_of m (outs m) c r h
theorem W26_of (c : Dev nD) (r : Ref sig .tc) (h : r ∉ (hostOps14_W : List (Ref sig .tc))) : W26 m c r = W25 m c r := by
  rw [← congrFun (V26_eq m) c, ← congrFun (V25_eq m) c]; exact Gen.V26_of m (outs m) c r h
theorem W27_of (c : Dev nD) (r : Ref sig .tc) (h : r ∉ ([main_v223] : List (Ref sig .tc))) : W27 m c r = W26 m c r := by
  rw [← congrFun (V27_eq m) c, ← congrFun (V26_eq m) c]; exact Gen.V27_of m (outs m) c r h
theorem W28_of (c : Dev nD) (r : Ref sig .tc) (h : r ∉ (hostOps15_W : List (Ref sig .tc))) : W28 m c r = W27 m c r := by
  rw [← congrFun (V28_eq m) c, ← congrFun (V27_eq m) c]; exact Gen.V28_of m (outs m) c r h
theorem W29_of (c : Dev nD) (r : Ref sig .tc) (h : r ∉ ([main_v239] : List (Ref sig .tc))) : W29 m c r = W28 m c r := by
  rw [← congrFun (V29_eq m) c, ← congrFun (V28_eq m) c]; exact Gen.V29_of m (outs m) c r h

def late4 : List (Ref sig .tc) := [main_v37]
def late5 : List (Ref sig .tc) := late4 ++ [main_v38_0, main_v38_1]
def late6 : List (Ref sig .tc) := late5 ++ hostOps2_W
def late7 : List (Ref sig .tc) := late6 ++ [main_v59]
def late8 : List (Ref sig .tc) := late7 ++ hostOps3_W
def late9 : List (Ref sig .tc) := late8 ++ [main_v78]
def late10 : List (Ref sig .tc) := late9 ++ [main_v79_0, main_v79_1]
def late11 : List (Ref sig .tc) := late10 ++ hostOps5_W
def late12 : List (Ref sig .tc) := late11 ++ [main_v100]
def late13 : List (Ref sig .tc) := late12 ++ hostOps6_W
def late14 : List (Ref sig .tc) := late13 ++ [main_v119]
def late15 : List (Ref sig .tc) := late14 ++ [main_v120_0, main_v120_1]
def late16 : List (Ref sig .tc) := late15 ++ hostOps8_W
def late17 : List (Ref sig .tc) := late16 ++ [main_v141]
def late18 : List (Ref sig .tc) := late17 ++ hostOps9_W
def late19 : List (Ref sig .tc) := late18 ++ [main_v160]
def late20 : List (Ref sig .tc) := late19 ++ [main_v161_0, main_v161_1]
def late21 : List (Ref sig .tc) := late20 ++ hostOps11_W
def late22 : List (Ref sig .tc) := late21 ++ [main_v182]
def late23 : List (Ref sig .tc) := late22 ++ hostOps12_W
def late24 : List (Ref sig .tc) := late23 ++ [main_v201]
def late25 : List (Ref sig .tc) := late24 ++ [main_v202_0, main_v202_1]
def late26 : List (Ref sig .tc) := late25 ++ hostOps14_W
def late27 : List (Ref sig .tc) := late26 ++ [main_v223]
def late28 : List (Ref sig .tc) := late27 ++ hostOps15_W
def late29 : List (Ref sig .tc) := late28 ++ [main_v239]

theorem W4_late (c : Dev nD) (r : Ref sig .tc) (h : r ∉ late4) : W4 m c r = W3 m c r := W4_of m c r h
theorem W5_late (c : Dev nD) (r : Ref sig .tc) (h : r ∉ late5) : W5 m c r = W3 m c r :=
  (W5_of m c r fun hx => h (List.mem_append_right _ hx)).trans (W4_late m c r fun hx => h (List.mem_append_left _ hx))
theorem W6_late (c : Dev nD) (r : Ref sig .tc) (h : r ∉ late6) : W6 m c r = W3 m c r :=
  (W6_of m c r fun hx => h (List.mem_append_right _ hx)).trans (W5_late m c r fun hx => h (List.mem_append_left _ hx))
theorem W7_late (c : Dev nD) (r : Ref sig .tc) (h : r ∉ late7) : W7 m c r = W3 m c r :=
  (W7_of m c r fun hx => h (List.mem_append_right _ hx)).trans (W6_late m c r fun hx => h (List.mem_append_left _ hx))
theorem W8_late (c : Dev nD) (r : Ref sig .tc) (h : r ∉ late8) : W8 m c r = W3 m c r :=
  (W8_of m c r fun hx => h (List.mem_append_right _ hx)).trans (W7_late m c r fun hx => h (List.mem_append_left _ hx))
theorem W9_late (c : Dev nD) (r : Ref sig .tc) (h : r ∉ late9) : W9 m c r = W3 m c r :=
  (W9_of m c r fun hx => h (List.mem_append_right _ hx)).trans (W8_late m c r fun hx => h (List.mem_append_left _ hx))
theorem W10_late (c : Dev nD) (r : Ref sig .tc) (h : r ∉ late10) : W10 m c r = W3 m c r :=
  (W10_of m c r fun hx => h (List.mem_append_right _ hx)).trans (W9_late m c r fun hx => h (List.mem_append_left _ hx))
theorem W11_late (c : Dev nD) (r : Ref sig .tc) (h : r ∉ late11) : W11 m c r = W3 m c r :=
  (W11_of m c r fun hx => h (List.mem_append_right _ hx)).trans (W10_late m c r fun hx => h (List.mem_append_left _ hx))
theorem W12_late (c : Dev nD) (r : Ref sig .tc) (h : r ∉ late12) : W12 m c r = W3 m c r :=
  (W12_of m c r fun hx => h (List.mem_append_right _ hx)).trans (W11_late m c r fun hx => h (List.mem_append_left _ hx))
theorem W13_late (c : Dev nD) (r : Ref sig .tc) (h : r ∉ late13) : W13 m c r = W3 m c r :=
  (W13_of m c r fun hx => h (List.mem_append_right _ hx)).trans (W12_late m c r fun hx => h (List.mem_append_left _ hx))
theorem W14_late (c : Dev nD) (r : Ref sig .tc) (h : r ∉ late14) : W14 m c r = W3 m c r :=
  (W14_of m c r fun hx => h (List.mem_append_right _ hx)).trans (W13_late m c r fun hx => h (List.mem_append_left _ hx))
theorem W15_late (c : Dev nD) (r : Ref sig .tc) (h : r ∉ late15) : W15 m c r = W3 m c r :=
  (W15_of m c r fun hx => h (List.mem_append_right _ hx)).trans (W14_late m c r fun hx => h (List.mem_append_left _ hx))
theorem W16_late (c : Dev nD) (r : Ref sig .tc) (h : r ∉ late16) : W16 m c r = W3 m c r :=
  (W16_of m c r fun hx => h (List.mem_append_right _ hx)).trans (W15_late m c r fun hx => h (List.mem_append_left _ hx))
theorem W17_late (c : Dev nD) (r : Ref sig .tc) (h : r ∉ late17) : W17 m c r = W3 m c r :=
  (W17_of m c r fun hx => h (List.mem_append_right _ hx)).trans (W16_late m c r fun hx => h (List.mem_append_left _ hx))
theorem W18_late (c : Dev nD) (r : Ref sig .tc) (h : r ∉ late18) : W18 m c r = W3 m c r :=
  (W18_of m c r fun hx => h (List.mem_append_right _ hx)).trans (W17_late m c r fun hx => h (List.mem_append_left _ hx))
theorem W19_late (c : Dev nD) (r : Ref sig .tc) (h : r ∉ late19) : W19 m c r = W3 m c r :=
  (W19_of m c r fun hx => h (List.mem_append_right _ hx)).trans (W18_late m c r fun hx => h (List.mem_append_left _ hx))
theorem W20_late (c : Dev nD) (r : Ref sig .tc) (h : r ∉ late20) : W20 m c r = W3 m c r :=
  (W20_of m c r fun hx => h (List.mem_append_right _ hx)).trans (W19_late m c r fun hx => h (List.mem_append_left _ hx))
theorem W21_late (c : Dev nD) (r : Ref sig .tc) (h : r ∉ late21) : W21 m c r = W3 m c r :=
  (W21_of m c r fun hx => h (List.mem_append_right _ hx)).trans (W20_late m c r fun hx => h (List.mem_append_left _ hx))
theorem W22_late (c : Dev nD) (r : Ref sig .tc) (h : r ∉ late22) : W22 m c r = W3 m c r :=
  (W22_of m c r fun hx => h (List.mem_append_right _ hx)).trans (W21_late m c r fun hx => h (List.mem_append_left _ hx))
theorem W23_late (c : Dev nD) (r : Ref sig .tc) (h : r ∉ late23) : W23 m c r = W3 m c r :=
  (W23_of m c r fun hx => h (List.mem_append_right _ hx)).trans (W22_late m c r fun hx => h (List.mem_append_left _ hx))
theorem W24_late (c : Dev nD) (r : Ref sig .tc) (h : r ∉ late24) : W24 m c r = W3 m c r :=
  (W24_of m c r fun hx => h (List.mem_append_right _ hx)).trans (W23_late m c r fun hx => h (List.mem_append_left _ hx))
theorem W25_late (c : Dev nD) (r : Ref sig .tc) (h : r ∉ late25) : W25 m c r = W3 m c r :=
  (W25_of m c r fun hx => h (List.mem_append_right _ hx)).trans (W24_late m c r fun hx => h (List.mem_append_left _ hx))
theorem W26_late (c : Dev nD) (r : Ref sig .tc) (h : r ∉ late26) : W26 m c r = W3 m c r :=
  (W26_of m c r fun hx => h (List.mem_append_right _ hx)).trans (W25_late m c r fun hx => h (List.mem_append_left _ hx))
theorem W27_late (c : Dev nD) (r : Ref sig .tc) (h : r ∉ late27) : W27 m c r = W3 m c r :=
  (W27_of m c r fun hx => h (List.mem_append_right _ hx)).trans (W26_late m c r fun hx => h (List.mem_append_left _ hx))
theorem W28_late (c : Dev nD) (r : Ref sig .tc) (h : r ∉ late28) : W28 m c r = W3 m c r :=
  (W28_of m c r fun hx => h (List.mem_append_right _ hx)).trans (W27_late m c r fun hx => h (List.mem_append_left _ hx))
theorem W29_late (c : Dev nD) (r : Ref sig .tc) (h : r ∉ late29) : W29 m c r = W3 m c r :=
  (W29_of m c r fun hx => h (List.mem_append_right _ hx)).trans (W28_late m c r fun hx => h (List.mem_append_left _ hx))

end Cert.KernelIdeal.Val

end
-- ==== Proof.Math.Spec.lean ====
import Idealize.ShloMosaic.PureOps.Ideal

noncomputable section

namespace Cert.Spec

open Idealize.ShloMosaic
open scoped BigOperators

abbrev NN : ℕ := 200000
abbrev NE : ℕ := 400000
abbrev DD : ℕ := 128
abbrev NG : ℕ := 1000

abbrev cN : EReal := ((200000 : ℝ) : EReal)

abbrev cEps : EReal := Ideal.ofBits .f32 0x3727C5AC#32

section Graph

variable (gs : Fin NE → Fin NN) (tg : Fin NE → Option (Fin NN)) (ef : Fin NE → Fin 5)
  (pg : Fin NN → Option (Fin NG))

def seg {d : ℕ} (X : Fin NE → Fin d → EReal) : Fin NN → Fin d → EReal :=
  fun n j => ∑ e ∈ Finset.univ.filter (fun e => tg e = some n), X e j

def deg : Fin NN → EReal := fun n => (∑ _e ∈ Finset.univ.filter (fun e => tg e = some n), (1 : EReal)) + 1

def invdeg : Fin NN → EReal := fun n => Ideal.div 1 (deg tg n)

def cmat : Fin NN → Fin 5 → EReal :=
  fun n v => ∑ e ∈ Finset.univ.filter (fun e => tg e = some n), (if ef e = v then (1 : EReal) else 0)

def klin (h : Fin NN → Fin DD → EReal) (emb : Fin 5 → Fin DD → EReal) (W : Fin DD → Fin DD → EReal)
    (b : Fin DD → EReal) : Fin NN → Fin DD → EReal :=
  fun p q => (∑ k : Fin DD,
      ((h p k + seg tg (fun e j => h (gs e) j) p k + ∑ v : Fin 5, cmat tg ef p v * emb v k) * invdeg tg p) * W k q) + b q

def rlin (h : Fin NN → Fin DD → EReal) (emb : Fin 5 → Fin DD → EReal) (W : Fin DD → Fin DD → EReal)
    (b : Fin DD → EReal) : Fin NN → Fin DD → EReal :=
  fun p q => (∑ k : Fin DD,
      Ideal.div (h p k + seg tg (fun e j => h (gs e) j + emb (ef e) j) p k) (deg tg p) * W k q) + b q

def cnt : Fin NG → EReal := fun g => ∑ _n ∈ Finset.univ.filter (fun n => pg n = some g), (1 : EReal)

def pool (h : Fin NN → Fin DD → EReal) : Fin NG → Fin DD → EReal :=
  fun g j => Ideal.div (∑ n ∈ Finset.univ.filter (fun n => pg n = some g), h n j) (max (cnt pg g) 1)

end Graph

def colsum (x : Fin NN → Fin DD → EReal) : Fin DD → EReal := fun q => ∑ n : Fin NN, x n q
def colsumsq (x : Fin NN → Fin DD → EReal) : Fin DD → EReal := fun q => ∑ n : Fin NN, x n q * x n q

def kmean (s : Fin DD → EReal) : Fin DD → EReal := fun q => Ideal.div (s q) cN
def kvar (s ss : Fin DD → EReal) : Fin DD → EReal := fun q => max (Ideal.div (ss q) cN - kmean s q * kmean s q) 0
def kscale (s ss γ : Fin DD → EReal) : Fin DD → EReal := fun q => γ q * Ideal.rsqrt (kvar s ss q + cEps)
def kshift (s ss γ β : Fin DD → EReal) : Fin DD → EReal := fun q => β q - kmean s q * kscale s ss γ q

def knorm (x : Fin NN → Fin DD → EReal) (scale shift : Fin DD → EReal) : Fin NN → Fin DD → EReal :=
  fun p q => max (x p q * scale q + shift q) 0

def kbn (x : Fin NN → Fin DD → EReal) (γ β : Fin DD → EReal) : Fin NN → Fin DD → EReal :=
  knorm x (kscale (colsum x) (colsumsq x) γ) (kshift (colsum x) (colsumsq x) γ β)

def rmean (x : Fin NN → Fin DD → EReal) : Fin DD → EReal := fun q => Ideal.div (∑ n : Fin NN, x n q) cN
def rvar (x : Fin NN → Fin DD → EReal) : Fin DD → EReal :=
  fun q => Ideal.div (∑ n : Fin NN, (x n q - rmean x q) * (x n q - rmean x q)) cN
def rbn (x : Fin NN → Fin DD → EReal) (γ β : Fin DD → EReal) : Fin NN → Fin DD → EReal :=
  fun p q => max ((x p q - rmean x q) * Ideal.rsqrt (rvar x q + cEps) * γ q + β q) 0

def mlp (g : Fin NG → Fin DD → EReal) (W1 : Fin DD → Fin DD → EReal) (b1 : Fin DD → EReal)
    (W2 : Fin DD → Fin DD → EReal) (b2 : Fin DD → EReal) : Fin NG → Fin DD → EReal :=
  fun p q => (∑ k : Fin DD, max ((∑ j : Fin DD, g p j * W1 j k) + b1 k) 0 * W2 k q) + b2 q

def Fin2 {a b : ℕ} (x : Fin a → Fin b → EReal) : Prop := ∀ p q, ∃ r : ℝ, x p q = (r : EReal)
def Fin1 {a : ℕ} (x : Fin a → EReal) : Prop := ∀ p, ∃ r : ℝ, x p = (r : EReal)

end Cert.Spec

end
-- ==== Proof.Math.Layer.lean ====
import proofs.«123582_j22084721836889_2_alg».proof.Proof.Math.Spec

noncomputable section

namespace Cert.Spec

open Idealize.ShloMosaic
open scoped BigOperators

theorem ofBits_eps : ∃ r : ℝ, 0 < r ∧ cEps = (r : EReal) := by
  simp [cEps, Ideal.ofBits, Ideal.ieee, -EReal.coe_mul]

theorem coe_sum {ι : Type*} (s : Finset ι) (f : ι → ℝ) :
    (∑ i ∈ s, (f i : EReal)) = ((∑ i ∈ s, f i : ℝ) : EReal) := by
  induction s using Finset.cons_induction with
  | empty => simp
  | cons a s ha ih => rw [Finset.sum_cons, Finset.sum_cons, ih, EReal.coe_add]

theorem div_coe_coe (x : ℝ) {y : ℝ} (h : y ≠ 0) :
    Ideal.div (x : EReal) (y : EReal) = ((x / y : ℝ) : EReal) := by
  rw [Ideal.div_coe h, ← EReal.coe_mul, mul_one_div]

theorem rsqrt_pos {r : ℝ} (h : 0 < r) : Ideal.rsqrt (r : EReal) = (((Real.sqrt r)⁻¹ : ℝ) : EReal) := by
  rw [Ideal.rsqrt_coe, if_neg (not_lt.mpr h.le), if_neg h.ne']

theorem var_identity {ι : Type*} [Fintype ι] (x : ι → ℝ) (N : ℝ) (hN : (Fintype.card ι : ℝ) = N)
    (hpos : 0 < N) :
    (∑ i, x i * x i) / N - (∑ i, x i) / N * ((∑ i, x i) / N)
      = (∑ i, (x i - (∑ j, x j) / N) * (x i - (∑ j, x j) / N)) / N := by
  generalize hμ : (∑ j, x j) / N = μ
  have hS : ∑ j, x j = μ * N := by rw [← hμ]; field_simp
  have h1 : ∑ i, (x i - μ) * (x i - μ) = ∑ i, x i * x i - 2 * μ * ∑ i, x i + N * (μ * μ) := by
    have h2 : ∀ i, (x i - μ) * (x i - μ) = x i * x i - 2 * μ * x i + μ * μ := fun i => by ring
    simp only [h2, Finset.sum_add_distrib, Finset.sum_sub_distrib, ← Finset.mul_sum, Finset.sum_const,
      Finset.card_univ, nsmul_eq_mul, hN]
    ring
  rw [h1, hS]; field_simp; ring

theorem var_nonneg {ι : Type*} [Fintype ι] (x : ι → ℝ) (μ N : ℝ) (hpos : 0 < N) :
    0 ≤ (∑ i, (x i - μ) * (x i - μ)) / N :=
  div_nonneg (Finset.sum_nonneg fun i _ => mul_self_nonneg _) hpos.le

theorem card_NN : (Fintype.card (Fin NN) : ℝ) = 200000 := by
  rw [Fintype.card_fin]; norm_num

theorem bn_entry (x : Fin NN → Fin DD → EReal) (γ β : Fin DD → EReal)
    (hx : Fin2 x) (hγ : Fin1 γ) (hβ : Fin1 β) (p : Fin NN) (q : Fin DD) :
    ∃ r : ℝ, kbn x γ β p q = (r : EReal) ∧ rbn x γ β p q = (r : EReal) := by
  choose xr hxr using hx
  choose γr hγr using hγ
  choose βr hβr using hβ
  obtain ⟨eps, heps, hε⟩ := ofBits_eps
  have hN0 : (200000 : ℝ) ≠ 0 := by norm_num
  have hNpos : (0 : ℝ) < 200000 := by norm_num

  obtain ⟨μ, hμ⟩ : ∃ μ : ℝ, μ = (∑ n, xr n q) / 200000 := ⟨_, rfl⟩
  obtain ⟨V, hV⟩ : ∃ V : ℝ, V = (∑ n, (xr n q - μ) * (xr n q - μ)) / 200000 := ⟨_, rfl⟩
  have hV0 : 0 ≤ V := by rw [hV]; exact var_nonneg (fun n => xr n q) μ 200000 hNpos
  have hVe : 0 < V + eps := add_pos_of_nonneg_of_pos hV0 heps
  obtain ⟨ρ, hρ⟩ : ∃ ρ : ℝ, ρ = (Real.sqrt (V + eps))⁻¹ := ⟨_, rfl⟩

  have hS : colsum x q = ((∑ n, xr n q : ℝ) : EReal) := by
    show ∑ n, x n q = _
    rw [← coe_sum]; exact Finset.sum_congr rfl (fun n _ => hxr n q)
  have hSS : colsumsq x q = ((∑ n, xr n q * xr n q : ℝ) : EReal) := by
    show ∑ n, x n q * x n q = _
    rw [← coe_sum]; exact Finset.sum_congr rfl (fun n _ => by rw [hxr, EReal.coe_mul])
  have hkm : kmean (colsum x) q = (μ : EReal) := by
    show Ideal.div (colsum x q) cN = _
    rw [hS, div_coe_coe _ hN0, hμ]
  have hkv : kvar (colsum x) (colsumsq x) q = (V : EReal) := by
    show max (Ideal.div (colsumsq x q) cN - kmean (colsum x) q * kmean (colsum x) q) 0 = _
    have hid : (∑ n, xr n q * xr n q) / 200000 - μ * μ = V := by
      rw [hV, hμ]; exact var_identity (fun n => xr n q) 200000 card_NN hNpos
    rw [hSS, hkm, div_coe_coe _ hN0, ← EReal.coe_mul, ← EReal.coe_sub, hid]
    exact max_eq_left (EReal.coe_nonneg.mpr hV0)
  have hkr : Ideal.rsqrt (kvar (colsum x) (colsumsq x) q + cEps) = (ρ : EReal) := by
    rw [hkv, hε, ← EReal.coe_add, rsqrt_pos hVe, hρ]
  have hks : kscale (colsum x) (colsumsq x) γ q = ((γr q * ρ : ℝ) : EReal) := by
    show γ q * Ideal.rsqrt (kvar (colsum x) (colsumsq x) q + cEps) = _
    rw [hkr, hγr, EReal.coe_mul]
  have hksh : kshift (colsum x) (colsumsq x) γ β q = ((βr q - μ * (γr q * ρ) : ℝ) : EReal) := by
    show β q - kmean (colsum x) q * kscale (colsum x) (colsumsq x) γ q = _
    rw [hkm, hks, hβr, ← EReal.coe_mul, ← EReal.coe_sub]

  have hrm : rmean x q = (μ : EReal) := by
    show Ideal.div (∑ n, x n q) cN = _
    rw [show ∑ n, x n q = colsum x q from rfl, hS, div_coe_coe _ hN0, hμ]
  have hrv : rvar x q = (V : EReal) := by
    show Ideal.div (∑ n, (x n q - rmean x q) * (x n q - rmean x q)) cN = _
    rw [hrm]
    have h3 : ∑ n, (x n q - (μ : EReal)) * (x n q - (μ : EReal))
        = ((∑ n, (xr n q - μ) * (xr n q - μ) : ℝ) : EReal) := by
      rw [← coe_sum]
      exact Finset.sum_congr rfl (fun n _ => by rw [hxr, ← EReal.coe_sub, ← EReal.coe_mul])
    rw [h3, div_coe_coe _ hN0, hV]
  have hrr : Ideal.rsqrt (rvar x q + cEps) = (ρ : EReal) := by
    rw [hrv, hε, ← EReal.coe_add, rsqrt_pos hVe, hρ]
  refine ⟨max (xr p q * (γr q * ρ) + (βr q - μ * (γr q * ρ))) 0, ?_, ?_⟩
  · show max (x p q * kscale (colsum x) (colsumsq x) γ q + kshift (colsum x) (colsumsq x) γ β q) 0 = _
    rw [hks, hksh, hxr, ← EReal.coe_mul, ← EReal.coe_add, ← EReal.coe_zero]
    exact (EReal.coe_strictMono.monotone.map_max).symm
  · show max ((x p q - rmean x q) * Ideal.rsqrt (rvar x q + cEps) * γ q + β q) 0 = _
    rw [hrm, hrr, hxr, hγr, hβr, ← EReal.coe_sub, ← EReal.coe_mul, ← EReal.coe_mul, ← EReal.coe_add,
      ← EReal.coe_zero]
    rw [show xr p q * (γr q * ρ) + (βr q - μ * (γr q * ρ)) = (xr p q - μ) * ρ * γr q + βr q by ring]
    exact (EReal.coe_strictMono.monotone.map_max).symm

theorem bn_eq (x : Fin NN → Fin DD → EReal) (γ β : Fin DD → EReal)
    (hx : Fin2 x) (hγ : Fin1 γ) (hβ : Fin1 β) : kbn x γ β = rbn x γ β := by
  funext p q
  obtain ⟨r, hk, hr⟩ := bn_entry x γ β hx hγ hβ p q
  rw [hk, hr]

theorem bn_fin (x : Fin NN → Fin DD → EReal) (γ β : Fin DD → EReal)
    (hx : Fin2 x) (hγ : Fin1 γ) (hβ : Fin1 β) : Fin2 (rbn x γ β) := by
  intro p q
  obtain ⟨r, _, hr⟩ := bn_entry x γ β hx hγ hβ p q
  exact ⟨r, hr⟩

theorem ite_coe (c : Prop) [Decidable c] :
    (if c then (1 : EReal) else 0) = ((if c then (1 : ℝ) else 0 : ℝ) : EReal) := by
  split_ifs <;> simp

theorem hist_sum {ε ν : Type*} [Fintype ν] [DecidableEq ν] (F : Finset ε) (ef : ε → ν) (emb : ν → ℝ) :
    ∑ v, (∑ e ∈ F, if ef e = v then (1 : ℝ) else 0) * emb v = ∑ e ∈ F, emb (ef e) := by
  simp_rw [Finset.sum_mul]
  rw [Finset.sum_comm]
  refine Finset.sum_congr rfl fun e _ => ?_
  simp [ite_mul]

theorem seg_coe {d : ℕ} (tg : Fin NE → Option (Fin NN)) (Xr : Fin NE → Fin d → ℝ) (n : Fin NN) (j : Fin d)
    (F : Finset (Fin NE)) (hF : F = Finset.univ.filter (fun e => tg e = some n)) :
    seg tg (fun e j => (Xr e j : EReal)) n j = ((∑ e ∈ F, Xr e j : ℝ) : EReal) := by
  subst hF
  show ∑ e ∈ Finset.univ.filter (fun e => tg e = some n), (Xr e j : EReal) = _
  exact coe_sum _ _

theorem seg_fin {d : ℕ} (tg : Fin NE → Option (Fin NN)) (X : Fin NE → Fin d → EReal) (hX : Fin2 X) :
    Fin2 (seg tg X) := by
  choose Xr hXr using hX
  obtain rfl : X = fun e j => (Xr e j : EReal) := funext fun e => funext fun j => hXr e j
  exact fun n j => ⟨_, seg_coe tg Xr n j _ rfl⟩

theorem deg_real (tg : Fin NE → Option (Fin NN)) (n : Fin NN) : ∃ r : ℝ, 1 ≤ r ∧ deg tg n = (r : EReal) := by
  refine ⟨(∑ _e ∈ Finset.univ.filter (fun e => tg e = some n), (1 : ℝ)) + 1, ?_, ?_⟩
  · have h0 : (0 : ℝ) ≤ ∑ _e ∈ Finset.univ.filter (fun e => tg e = some n), (1 : ℝ) :=
      Finset.sum_nonneg fun _ _ => zero_le_one
    linarith
  · show (∑ _e ∈ Finset.univ.filter (fun e => tg e = some n), (1 : EReal)) + 1 = _
    rw [EReal.coe_add, ← coe_sum, EReal.coe_one]

theorem cmat_coe (tg : Fin NE → Option (Fin NN)) (ef : Fin NE → Fin 5) (n : Fin NN) (v : Fin 5)
    (F : Finset (Fin NE)) (hF : F = Finset.univ.filter (fun e => tg e = some n)) :
    cmat tg ef n v = ((∑ e ∈ F, (if ef e = v then (1 : ℝ) else 0) : ℝ) : EReal) := by
  subst hF
  show ∑ e ∈ Finset.univ.filter (fun e => tg e = some n), (if ef e = v then (1 : EReal) else 0) = _
  rw [← coe_sum]
  exact Finset.sum_congr rfl fun e _ => ite_coe _

theorem lin_entry (gs : Fin NE → Fin NN) (tg : Fin NE → Option (Fin NN)) (ef : Fin NE → Fin 5)
    (h : Fin NN → Fin DD → EReal) (emb : Fin 5 → Fin DD → EReal) (W : Fin DD → Fin DD → EReal)
    (b : Fin DD → EReal) (hh : Fin2 h) (he : Fin2 emb) (hW : Fin2 W) (hb : Fin1 b) (p : Fin NN) (q : Fin DD) :
    ∃ r : ℝ, klin gs tg ef h emb W b p q = (r : EReal) ∧ rlin gs tg ef h emb W b p q = (r : EReal) := by
  choose hr hhr using hh
  choose er her using he
  choose Wr hWr using hW
  choose br hbr using hb
  obtain rfl : h = fun n j => (hr n j : EReal) := funext fun n => funext fun j => hhr n j
  obtain rfl : emb = fun v j => (er v j : EReal) := funext fun v => funext fun j => her v j
  obtain ⟨d, hd1, hd⟩ := deg_real tg p
  have hd0 : d ≠ 0 := by linarith
  have hinv : invdeg tg p = ((1 / d : ℝ) : EReal) := by
    show Ideal.div 1 (deg tg p) = _
    rw [hd, ← EReal.coe_one, div_coe_coe _ hd0]

  obtain ⟨F, hF⟩ : ∃ F : Finset (Fin NE), F = Finset.univ.filter (fun e => tg e = some p) := ⟨_, rfl⟩
  obtain ⟨t, ht⟩ : ∃ t : Fin DD → ℝ, ∀ k, t k = (hr p k + ∑ e ∈ F, (hr (gs e) k + er (ef e) k)) / d :=
    ⟨fun k => _, fun k => rfl⟩
  have hkt : ∀ k, (((hr p k : EReal) + seg tg (fun e j => ((hr (gs e) j : ℝ) : EReal)) p k
      + ∑ v : Fin 5, cmat tg ef p v * ((er v k : ℝ) : EReal)) * invdeg tg p) = (t k : EReal) := by
    intro k
    have hc : ∑ v : Fin 5, cmat tg ef p v * ((er v k : ℝ) : EReal)
        = ((∑ v : Fin 5, (∑ e ∈ F, if ef e = v then (1 : ℝ) else 0) * er v k : ℝ) : EReal) := by
      rw [← coe_sum]
      exact Finset.sum_congr rfl fun v _ => by rw [cmat_coe tg ef p v F hF, ← EReal.coe_mul]
    have hreal : (hr p k + ∑ e ∈ F, hr (gs e) k + ∑ e ∈ F, er (ef e) k) * (1 / d) = t k := by
      rw [ht, Finset.sum_add_distrib]; ring
    rw [hc, seg_coe tg (fun e j => hr (gs e) j) p k F hF, hinv, ← EReal.coe_add, ← EReal.coe_add,
      ← EReal.coe_mul, hist_sum F ef (fun v => er v k), hreal]
  have hrt : ∀ k, Ideal.div ((hr p k : EReal)
      + seg tg (fun e j => ((hr (gs e) j : ℝ) : EReal) + ((er (ef e) j : ℝ) : EReal)) p k) (deg tg p)
      = (t k : EReal) := by
    intro k
    have hfun : (fun e j => ((hr (gs e) j : ℝ) : EReal) + ((er (ef e) j : ℝ) : EReal))
        = (fun (e : Fin NE) (j : Fin DD) => ((hr (gs e) j + er (ef e) j : ℝ) : EReal)) :=
      funext fun e => funext fun j => (EReal.coe_add _ _).symm
    rw [hfun, seg_coe tg (fun e j => hr (gs e) j + er (ef e) j) p k F hF, hd, ← EReal.coe_add,
      div_coe_coe _ hd0, ht]
  refine ⟨(∑ k, t k * Wr k q) + br q, ?_, ?_⟩
  · show (∑ k : Fin DD, (((hr p k : EReal) + seg tg (fun e j => ((hr (gs e) j : ℝ) : EReal)) p k
      + ∑ v : Fin 5, cmat tg ef p v * ((er v k : ℝ) : EReal)) * invdeg tg p) * W k q) + b q = _
    rw [EReal.coe_add, ← coe_sum, hbr]
    rw [Finset.sum_congr rfl fun k _ => by rw [hkt, hWr, ← EReal.coe_mul]]
  · show (∑ k : Fin DD, Ideal.div ((hr p k : EReal)
      + seg tg (fun e j => ((hr (gs e) j : ℝ) : EReal) + ((er (ef e) j : ℝ) : EReal)) p k) (deg tg p) * W k q)
      + b q = _
    rw [EReal.coe_add, ← coe_sum, hbr]
    rw [Finset.sum_congr rfl fun k _ => by rw [hrt, hWr, ← EReal.coe_mul]]

theorem lin_eq (gs : Fin NE → Fin NN) (tg : Fin NE → Option (Fin NN)) (ef : Fin NE → Fin 5)
    (h : Fin NN → Fin DD → EReal) (emb : Fin 5 → Fin DD → EReal) (W : Fin DD → Fin DD → EReal)
    (b : Fin DD → EReal) (hh : Fin2 h) (he : Fin2 emb) (hW : Fin2 W) (hb : Fin1 b) :
    klin gs tg ef h emb W b = rlin gs tg ef h emb W b := by
  funext p q
  obtain ⟨r, hk, hr⟩ := lin_entry gs tg ef h emb W b hh he hW hb p q
  rw [hk, hr]

theorem lin_fin (gs : Fin NE → Fin NN) (tg : Fin NE → Option (Fin NN)) (ef : Fin NE → Fin 5)
    (h : Fin NN → Fin DD → EReal) (emb : Fin 5 → Fin DD → EReal) (W : Fin DD → Fin DD → EReal)
    (b : Fin DD → EReal) (hh : Fin2 h) (he : Fin2 emb) (hW : Fin2 W) (hb : Fin1 b) :
    Fin2 (rlin gs tg ef h emb W b) := by
  intro p q
  obtain ⟨r, _, hr⟩ := lin_entry gs tg ef h emb W b hh he hW hb p q
  exact ⟨r, hr⟩

theorem pool_fin (pg : Fin NN → Option (Fin NG)) (h : Fin NN → Fin DD → EReal) (hh : Fin2 h) :
    Fin2 (pool pg h) := by
  choose hr hhr using hh
  intro g j
  obtain ⟨c, hcdef⟩ : ∃ c : ℝ, c = ∑ _n ∈ Finset.univ.filter (fun n => pg n = some g), (1 : ℝ) := ⟨_, rfl⟩
  have hc : cnt pg g = (c : EReal) := by
    show ∑ _n ∈ Finset.univ.filter (fun n => pg n = some g), (1 : EReal) = _
    rw [hcdef, ← coe_sum, EReal.coe_one]
  have hm : max (cnt pg g) 1 = ((max c 1 : ℝ) : EReal) := by
    rw [hc, ← EReal.coe_one]; exact (EReal.coe_strictMono.monotone.map_max).symm
  have hm0 : max c 1 ≠ 0 := by have := le_max_right c 1; linarith
  refine ⟨(∑ n ∈ Finset.univ.filter (fun n => pg n = some g), hr n j) / max c 1, ?_⟩
  show Ideal.div (∑ n ∈ Finset.univ.filter (fun n => pg n = some g), h n j) (max (cnt pg g) 1) = _
  rw [hm, ← div_coe_coe _ hm0, ← coe_sum]
  rw [Finset.sum_congr rfl fun n _ => hhr n j]

theorem mlp_fin (g : Fin NG → Fin DD → EReal) (W1 : Fin DD → Fin DD → EReal) (b1 : Fin DD → EReal)
    (W2 : Fin DD → Fin DD → EReal) (b2 : Fin DD → EReal)
    (hg : Fin2 g) (hW1 : Fin2 W1) (hb1 : Fin1 b1) (hW2 : Fin2 W2) (hb2 : Fin1 b2) :
    Fin2 (mlp g W1 b1 W2 b2) := by
  choose gr hgr using hg
  choose W1r hW1r using hW1
  choose b1r hb1r using hb1
  choose W2r hW2r using hW2
  choose b2r hb2r using hb2
  intro p q
  have hin : ∀ k, max ((∑ j : Fin DD, g p j * W1 j k) + b1 k) 0
      = ((max ((∑ j, gr p j * W1r j k) + b1r k) 0 : ℝ) : EReal) := by
    intro k
    have hs : ∑ j : Fin DD, g p j * W1 j k = ((∑ j, gr p j * W1r j k : ℝ) : EReal) := by
      rw [← coe_sum]; exact Finset.sum_congr rfl fun j _ => by rw [hgr, hW1r, EReal.coe_mul]
    rw [hs, hb1r, ← EReal.coe_add, ← EReal.coe_zero]
    exact (EReal.coe_strictMono.monotone.map_max).symm
  refine ⟨(∑ k, max ((∑ j, gr p j * W1r j k) + b1r k) 0 * W2r k q) + b2r q, ?_⟩
  show (∑ k : Fin DD, max ((∑ j : Fin DD, g p j * W1 j k) + b1 k) 0 * W2 k q) + b2 q = _
  rw [EReal.coe_add, ← coe_sum, hb2r]
  rw [Finset.sum_congr rfl fun k _ => by rw [hin, hW2r, ← EReal.coe_mul]]

end Cert.Spec

end
-- ==== Proof.Math.Net.lean ====
import proofs.«123582_j22084721836889_2_alg».proof.Proof.Math.Layer

noncomputable section

namespace Cert.Spec

open Idealize.ShloMosaic
open scoped BigOperators

def klayer (gs : Fin NE → Fin NN) (tg : Fin NE → Option (Fin NN)) (ef : Fin NE → Fin 5)
    (h : Fin NN → Fin DD → EReal) (emb : Fin 5 → Fin DD → EReal) (W : Fin DD → Fin DD → EReal)
    (b γ β : Fin DD → EReal) : Fin NN → Fin DD → EReal :=
  kbn (klin gs tg ef h emb W b) γ β

def rlayer (gs : Fin NE → Fin NN) (tg : Fin NE → Option (Fin NN)) (ef : Fin NE → Fin 5)
    (h : Fin NN → Fin DD → EReal) (emb : Fin 5 → Fin DD → EReal) (W : Fin DD → Fin DD → EReal)
    (b γ β : Fin DD → EReal) : Fin NN → Fin DD → EReal :=
  rbn (rlin gs tg ef h emb W b) γ β

theorem layer_eq (gs : Fin NE → Fin NN) (tg : Fin NE → Option (Fin NN)) (ef : Fin NE → Fin 5)
    (h : Fin NN → Fin DD → EReal) (emb : Fin 5 → Fin DD → EReal) (W : Fin DD → Fin DD → EReal)
    (b γ β : Fin DD → EReal) (hh : Fin2 h) (he : Fin2 emb) (hW : Fin2 W) (hb : Fin1 b)
    (hγ : Fin1 γ) (hβ : Fin1 β) :
    klayer gs tg ef h emb W b γ β = rlayer gs tg ef h emb W b γ β := by
  unfold klayer rlayer
  rw [lin_eq gs tg ef h emb W b hh he hW hb]
  exact bn_eq _ γ β (lin_fin gs tg ef h emb W b hh he hW hb) hγ hβ

theorem rlayer_fin (gs : Fin NE → Fin NN) (tg : Fin NE → Option (Fin NN)) (ef : Fin NE → Fin 5)
    (h : Fin NN → Fin DD → EReal) (emb : Fin 5 → Fin DD → EReal) (W : Fin DD → Fin DD → EReal)
    (b γ β : Fin DD → EReal) (hh : Fin2 h) (he : Fin2 emb) (hW : Fin2 W) (hb : Fin1 b)
    (hγ : Fin1 γ) (hβ : Fin1 β) :
    Fin2 (rlayer gs tg ef h emb W b γ β) :=
  bn_fin _ γ β (lin_fin gs tg ef h emb W b hh he hW hb) hγ hβ

theorem layer_step (gs : Fin NE → Fin NN) (tg : Fin NE → Option (Fin NN)) (ef : Fin NE → Fin 5)
    (hk hr : Fin NN → Fin DD → EReal) (e : hk = hr) (hf : Fin2 hr)
    (emb : Fin 5 → Fin DD → EReal) (W : Fin DD → Fin DD → EReal) (b γ β : Fin DD → EReal)
    (he : Fin2 emb) (hW : Fin2 W) (hb : Fin1 b) (hγ : Fin1 γ) (hβ : Fin1 β) :
    klayer gs tg ef hk emb W b γ β = rlayer gs tg ef hr emb W b γ β
      ∧ Fin2 (rlayer gs tg ef hr emb W b γ β) := by
  subst e
  exact ⟨layer_eq gs tg ef hk emb W b γ β hf he hW hb hγ hβ, rlayer_fin gs tg ef hk emb W b γ β hf he hW hb hγ hβ⟩

def h0 (nf : Fin NN → Fin 119) (atom : Fin 119 → Fin DD → EReal) : Fin NN → Fin DD → EReal :=
  fun n j => atom (nf n) j

theorem h0_fin (nf : Fin NN → Fin 119) (atom : Fin 119 → Fin DD → EReal) (hatom : Fin2 atom) :
    Fin2 (h0 nf atom) := fun n j => hatom (nf n) j

def rnet (gs : Fin NE → Fin NN) (tg : Fin NE → Option (Fin NN)) (ef : Fin NE → Fin 5)
    (pg : Fin NN → Option (Fin NG)) (nf : Fin NN → Fin 119) (atom : Fin 119 → Fin DD → EReal)
    (emb : Fin 5 → Fin 5 → Fin DD → EReal) (W : Fin 5 → Fin DD → Fin DD → EReal)
    (b γ β : Fin 5 → Fin DD → EReal) (W1 : Fin DD → Fin DD → EReal) (b1 : Fin DD → EReal)
    (W2 : Fin DD → Fin DD → EReal) (b2 : Fin DD → EReal) : Fin NG → Fin DD → EReal :=
  mlp (pool pg (rlayer gs tg ef (rlayer gs tg ef (rlayer gs tg ef (rlayer gs tg ef (rlayer gs tg ef
    (h0 nf atom) (emb 0) (W 0) (b 0) (γ 0) (β 0)) (emb 1) (W 1) (b 1) (γ 1) (β 1))
    (emb 2) (W 2) (b 2) (γ 2) (β 2)) (emb 3) (W 3) (b 3) (γ 3) (β 3)) (emb 4) (W 4) (b 4) (γ 4) (β 4)))
    W1 b1 W2 b2

def knet (gs : Fin NE → Fin NN) (tg : Fin NE → Option (Fin NN)) (ef : Fin NE → Fin 5)
    (pg : Fin NN → Option (Fin NG)) (nf : Fin NN → Fin 119) (atom : Fin 119 → Fin DD → EReal)
    (emb : Fin 5 → Fin 5 → Fin DD → EReal) (W : Fin 5 → Fin DD → Fin DD → EReal)
    (b γ β : Fin 5 → Fin DD → EReal) (W1 : Fin DD → Fin DD → EReal) (b1 : Fin DD → EReal)
    (W2 : Fin DD → Fin DD → EReal) (b2 : Fin DD → EReal) : Fin NG → Fin DD → EReal :=
  mlp (pool pg (klayer gs tg ef (klayer gs tg ef (klayer gs tg ef (klayer gs tg ef (klayer gs tg ef
    (h0 nf atom) (emb 0) (W 0) (b 0) (γ 0) (β 0)) (emb 1) (W 1) (b 1) (γ 1) (β 1))
    (emb 2) (W 2) (b 2) (γ 2) (β 2)) (emb 3) (W 3) (b 3) (γ 3) (β 3)) (emb 4) (W 4) (b 4) (γ 4) (β 4)))
    W1 b1 W2 b2

theorem net_eq (gs : Fin NE → Fin NN) (tg : Fin NE → Option (Fin NN)) (ef : Fin NE → Fin 5)
    (pg : Fin NN → Option (Fin NG)) (nf : Fin NN → Fin 119) (atom : Fin 119 → Fin DD → EReal)
    (emb : Fin 5 → Fin 5 → Fin DD → EReal) (W : Fin 5 → Fin DD → Fin DD → EReal)
    (b γ β : Fin 5 → Fin DD → EReal) (W1 : Fin DD → Fin DD → EReal) (b1 : Fin DD → EReal)
    (W2 : Fin DD → Fin DD → EReal) (b2 : Fin DD → EReal)
    (hatom : Fin2 atom) (hemb : ∀ l, Fin2 (emb l)) (hW : ∀ l, Fin2 (W l)) (hb : ∀ l, Fin1 (b l))
    (hγ : ∀ l, Fin1 (γ l)) (hβ : ∀ l, Fin1 (β l)) :
    knet gs tg ef pg nf atom emb W b γ β W1 b1 W2 b2 = rnet gs tg ef pg nf atom emb W b γ β W1 b1 W2 b2 := by
  have s0 := layer_step gs tg ef _ _ rfl (h0_fin nf atom hatom) (emb 0) (W 0) (b 0) (γ 0) (β 0)
    (hemb 0) (hW 0) (hb 0) (hγ 0) (hβ 0)
  have s1 := layer_step gs tg ef _ _ s0.1 s0.2 (emb 1) (W 1) (b 1) (γ 1) (β 1)
    (hemb 1) (hW 1) (hb 1) (hγ 1) (hβ 1)
  have s2 := layer_step gs tg ef _ _ s1.1 s1.2 (emb 2) (W 2) (b 2) (γ 2) (β 2)
    (hemb 2) (hW 2) (hb 2) (hγ 2) (hβ 2)
  have s3 := layer_step gs tg ef _ _ s2.1 s2.2 (emb 3) (W 3) (b 3) (γ 3) (β 3)
    (hemb 3) (hW 3) (hb 3) (hγ 3) (hβ 3)
  have s4 := layer_step gs tg ef _ _ s3.1 s3.2 (emb 4) (W 4) (b 4) (γ 4) (β 4)
    (hemb 4) (hW 4) (hb 4) (hγ 4) (hβ 4)
  unfold knet rnet
  rw [s4.1]

theorem rnet_fin (gs : Fin NE → Fin NN) (tg : Fin NE → Option (Fin NN)) (ef : Fin NE → Fin 5)
    (pg : Fin NN → Option (Fin NG)) (nf : Fin NN → Fin 119) (atom : Fin 119 → Fin DD → EReal)
    (emb : Fin 5 → Fin 5 → Fin DD → EReal) (W : Fin 5 → Fin DD → Fin DD → EReal)
    (b γ β : Fin 5 → Fin DD → EReal) (W1 : Fin DD → Fin DD → EReal) (b1 : Fin DD → EReal)
    (W2 : Fin DD → Fin DD → EReal) (b2 : Fin DD → EReal)
    (hatom : Fin2 atom) (hemb : ∀ l, Fin2 (emb l)) (hW : ∀ l, Fin2 (W l)) (hb : ∀ l, Fin1 (b l))
    (hγ : ∀ l, Fin1 (γ l)) (hβ : ∀ l, Fin1 (β l))
    (hW1 : Fin2 W1) (hb1 : Fin1 b1) (hW2 : Fin2 W2) (hb2 : Fin1 b2) :
    Fin2 (rnet gs tg ef pg nf atom emb W b γ β W1 b1 W2 b2) := by
  have f0 := rlayer_fin gs tg ef _ (emb 0) (W 0) (b 0) (γ 0) (β 0) (h0_fin nf atom hatom)
    (hemb 0) (hW 0) (hb 0) (hγ 0) (hβ 0)
  have f1 := rlayer_fin gs tg ef _ (emb 1) (W 1) (b 1) (γ 1) (β 1) f0 (hemb 1) (hW 1) (hb 1) (hγ 1) (hβ 1)
  have f2 := rlayer_fin gs tg ef _ (emb 2) (W 2) (b 2) (γ 2) (β 2) f1 (hemb 2) (hW 2) (hb 2) (hγ 2) (hβ 2)
  have f3 := rlayer_fin gs tg ef _ (emb 3) (W 3) (b 3) (γ 3) (β 3) f2 (hemb 3) (hW 3) (hb 3) (hγ 3) (hβ 3)
  have f4 := rlayer_fin gs tg ef _ (emb 4) (W 4) (b 4) (γ 4) (β 4) f3 (hemb 4) (hW 4) (hb 4) (hγ 4) (hβ 4)
  exact mlp_fin _ W1 b1 W2 b2 (pool_fin pg _ f4) hW1 hb1 hW2 hb2

end Cert.Spec

end
-- ==== Proof.Math.HostRead.lean ====
import proofs.«123582_j22084721836889_2_alg».proof.KernelIdeal
import proofs.«123582_j22084721836889_2_alg».proof.ReferenceIdeal
import proofs.«123582_j22084721836889_2_alg».proof.Proof.Math.Spec
import Idealize.ShloMosaic.Lib.ValueIdx
import Idealize.ShloMosaic.PureOps.Ideal
import Idealize.ShloMosaic.PureOps.Ideal.Laws
import Idealize.ShloMosaic.Lib.IdealHost
import Idealize.ShloMosaic.Lib.StableHlo.Predicate

noncomputable section

namespace Cert.Hand.HostRead

open Idealize.ShloMosaic Idealize.ShloMosaic.ValueIdx
open scoped BigOperators

def rowOf (n : ℕ) (t : ℤ) : Option (Fin n) :=
  if h : 0 ≤ t ∧ t < (n : ℤ) then some ⟨t.toNat, by omega⟩ else none

def wrapWord (n : ℕ) (b : BitVec 32) : BitVec 32 :=
  Scalar.select (IntOp.cmpi .slt b 0#32) (IntOp.addi b (BitVec.ofNat 32 n)) b

def clampRow (n : ℕ) [NeZero n] (b : BitVec 32) : Fin n :=
  ⟨min (wrapWord n b).toInt.toNat (n - 1), by have := NeZero.pos n; omega⟩

def gsOf (n : ℕ) [NeZero n] (src : IVec ⟨1, ![400000]⟩ 32) : Fin 400000 → Fin n :=
  fun e => clampRow n (src (ix1 e))

def nfOf (nfeat : IVec ⟨1, ![200000]⟩ 32) : Fin 200000 → Fin 119 :=
  fun p => clampRow 119 (nfeat (ix1 p))

def tgOf (n : ℕ) (dst : IVec ⟨1, ![400000]⟩ 32) : Fin 400000 → Option (Fin n) :=
  fun e => rowOf n (dst (ix1 e)).toInt

def pgOf (n2g : IVec ⟨1, ![200000]⟩ 32) : Fin 200000 → Option (Fin 1000) :=
  fun p => rowOf 1000 (n2g (ix1 p)).toInt

theorem bcast_col_apply {α : Type} {E : ℕ} (hb : (⟨1, ![E]⟩ : Shape).BroadcastsInDim ⟨2, ![E, 1]⟩ ![0])
    (v : (⟨1, ![E]⟩ : Shape).Idx → α) (e : Fin E) (c : Fin 1) :
    broadcastInDim ⟨2, ![E, 1]⟩ ![0] hb v (ix2 e c) = v (ix1 e) := by
  simp only [broadcastInDim]
  congr 1
  funext a
  obtain rfl : a = 0 := Subsingleton.elim _ _
  refine Fin.ext ?_
  have he := e.isLt
  split
  · next h1 => change E = 1 at h1; show (0 : ℕ) = e.val; omega
  · rfl

theorem bcast_scalar_apply {α : Type} {t : Shape} {dims : Fin (⟨0, ![]⟩ : Shape).rank → Fin t.rank}
    (hb : (⟨0, ![]⟩ : Shape).BroadcastsInDim t dims)
    (v : (⟨0, ![]⟩ : Shape).Idx → α) (j : t.Idx) : broadcastInDim t dims hb v j = v ix0 := by
  simp only [broadcastInDim]
  congr 1
  funext a
  exact a.elim0

theorem wrap_apply {E : ℕ} (n : ℕ) (hb0 : (⟨0, ![]⟩ : Shape).BroadcastsInDim ⟨1, ![E]⟩ ![])
    (hb1 : (⟨1, ![E]⟩ : Shape).BroadcastsInDim ⟨2, ![E, 1]⟩ ![0]) (src : IVec ⟨1, ![E]⟩ 32) (e : Fin E) (c : Fin 1) :
    broadcastInDim ⟨2, ![E, 1]⟩ ![0] hb1
        (select (cmpi .slt src (broadcastInDim ⟨1, ![E]⟩ ![] hb0 (constantI ⟨0, ![]⟩ 32 0#32)))
          (addi src (broadcastInDim ⟨1, ![E]⟩ ![] hb0 (constantI ⟨0, ![]⟩ 32 (BitVec.ofNat 32 n)))) src) (ix2 e c)
      = wrapWord n (src (ix1 e)) := by
  rw [bcast_col_apply]
  simp only [select, cmpi, addi, bcast_scalar_apply, constantI]
  rfl

structure RowGather {N E D : ℕ} (d : GatherDims ⟨2, ![N, D]⟩ ⟨2, ![E, 1]⟩ ⟨2, ![E, D]⟩) : Prop where
  od : d.offsetDims = [1]
  cd : d.collapsedSliceDims = [0]
  ob : d.operandBatchingDims = []
  sb : d.startIndicesBatchingDims = []
  sm : d.startIndexMap = [0]
  iv : d.indexVectorDim = 1
  ss : d.sliceSizes = ![1, D]

abbrev rowDims (N E D : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

theorem rowDims_read {α : Type} {N E D w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N E D wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowDims N E D wf).start (ix2 e j) idx 0 + (rowDims N E D wf).batchCoord (ix2 e j) 0
        + (rowDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E D wf).startIndexMap from List.mem_singleton.mpr rfl)]
    have hsi : (rowDims N E D wf).siIdx (ix2 e j) ⟨List.idxOf (0 : Fin 2) (rowDims N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N E D wf).start (ix2 e j) idx 1 + (rowDims N E D wf).batchCoord (ix2 e j) 1
        + (rowDims N E D wf).offCoord (ix2 e j) 1 = j.val
    rw [GatherDims.batchCoord_eq_zero _ _ _ List.not_mem_nil]
    have hs : (rowDims N E D wf).start (ix2 e j) idx 1 = 0 := by
      unfold GatherDims.start
      rw [dif_neg (show (1 : Fin 2) ∉ ([0] : List (Fin 2)) by decide)]
    have ho : (rowDims N E D wf).offCoord (ix2 e j) 1 = j.val := by
      unfold GatherDims.offCoord
      rw [dif_pos ((GatherDims.mem_sKept _ _).mpr
        ⟨show (1 : Fin 2) ∉ ([0] : List (Fin 2)) by decide, List.not_mem_nil⟩)]
      rfl
    rw [hs, ho]; omega

theorem gather_rows_read {α : Type} {N E D w : ℕ} (hN : 0 < N)
    (d : GatherDims ⟨2, ![N, D]⟩ ⟨2, ![E, 1]⟩ ⟨2, ![E, D]⟩) (hd : RowGather d)
    (x : (⟨2, ![N, D]⟩ : Shape).Idx → α) (idx : IVec ⟨2, ![E, 1]⟩ w) (e : Fin E) (j : Fin D) :
    Host.gather d x idx (ix2 e j)
      = x (ix2 ⟨min (idx (ix2 e 0)).toInt.toNat (N - 1), by omega⟩ j) := by
  obtain ⟨od, cd, ob, sb, sm, iv, ss, wf⟩ := d
  obtain ⟨h1, h2, h3, h4, h5, h6, h7⟩ := hd
  simp only at h1 h2 h3 h4 h5 h6 h7
  subst h1 h2 h3 h4 h5 h6 h7
  exact rowDims_read hN wf x idx e j

theorem gather_wrap_read {α : Type} {N E D : ℕ} [NeZero N]
    (d : GatherDims ⟨2, ![N, D]⟩ ⟨2, ![E, 1]⟩ ⟨2, ![E, D]⟩) (hd : RowGather d)
    (hb0 : (⟨0, ![]⟩ : Shape).BroadcastsInDim ⟨1, ![E]⟩ ![])
    (hb1 : (⟨1, ![E]⟩ : Shape).BroadcastsInDim ⟨2, ![E, 1]⟩ ![0])
    (x : (⟨2, ![N, D]⟩ : Shape).Idx → α) (src : IVec ⟨1, ![E]⟩ 32) (e : Fin E) (j : Fin D) :
    Host.gather d x (broadcastInDim ⟨2, ![E, 1]⟩ ![0] hb1
        (select (cmpi .slt src (broadcastInDim ⟨1, ![E]⟩ ![] hb0 (constantI ⟨0, ![]⟩ 32 0#32)))
          (addi src (broadcastInDim ⟨1, ![E]⟩ ![] hb0 (constantI ⟨0, ![]⟩ 32 (BitVec.ofNat 32 N)))) src)) (ix2 e j)
      = x (ix2 (clampRow N (src (ix1 e))) j) := by
  rw [gather_rows_read (NeZero.pos N) d hd]
  have hw := wrap_apply N hb0 hb1 src e 0
  have hrow : (⟨min (broadcastInDim ⟨2, ![E, 1]⟩ ![0] hb1
        (select (cmpi .slt src (broadcastInDim ⟨1, ![E]⟩ ![] hb0 (constantI ⟨0, ![]⟩ 32 0#32)))
          (addi src (broadcastInDim ⟨1, ![E]⟩ ![] hb0 (constantI ⟨0, ![]⟩ 32 (BitVec.ofNat 32 N)))) src)
          (ix2 e 0)).toInt.toNat (N - 1), by have := NeZero.pos N; omega⟩ : Fin N) = clampRow N (src (ix1 e)) :=
    Fin.ext (by show min _ (N - 1) = min _ (N - 1); rw [hw])
  rw [hrow]

theorem gather_rows_apply {α : Type}
    (d : GatherDims ⟨2, ![200000, 128]⟩ ⟨2, ![400000, 1]⟩ ⟨2, ![400000, 128]⟩) (hd : RowGather d)
    (hb0 : (⟨0, ![]⟩ : Shape).BroadcastsInDim ⟨1, ![400000]⟩ ![])
    (hb1 : (⟨1, ![400000]⟩ : Shape).BroadcastsInDim ⟨2, ![400000, 1]⟩ ![0])
    (x : (⟨2, ![200000, 128]⟩ : Shape).Idx → α) (src : IVec ⟨1, ![400000]⟩ 32) (e : Fin 400000) (j : Fin 128) :
    Host.gather d x (broadcastInDim ⟨2, ![400000, 1]⟩ ![0] hb1
        (select (cmpi .slt src (broadcastInDim ⟨1, ![400000]⟩ ![] hb0 (constantI ⟨0, ![]⟩ 32 0#32)))
          (addi src (broadcastInDim ⟨1, ![400000]⟩ ![] hb0 (constantI ⟨0, ![]⟩ 32 200000#32))) src)) (ix2 e j)
      = x (ix2 (gsOf 200000 src e) j) :=
  gather_wrap_read d hd hb0 hb1 x src e j

theorem gather_atom_apply {α : Type}
    (d : GatherDims ⟨2, ![119, 128]⟩ ⟨2, ![200000, 1]⟩ ⟨2, ![200000, 128]⟩) (hd : RowGather d)
    (hb0 : (⟨0, ![]⟩ : Shape).BroadcastsInDim ⟨1, ![200000]⟩ ![])
    (hb1 : (⟨1, ![200000]⟩ : Shape).BroadcastsInDim ⟨2, ![200000, 1]⟩ ![0])
    (x : (⟨2, ![119, 128]⟩ : Shape).Idx → α) (nfeat : IVec ⟨1, ![200000]⟩ 32) (p : Fin 200000) (j : Fin 128) :
    Host.gather d x (broadcastInDim ⟨2, ![200000, 1]⟩ ![0] hb1
        (select (cmpi .slt nfeat (broadcastInDim ⟨1, ![200000]⟩ ![] hb0 (constantI ⟨0, ![]⟩ 32 0#32)))
          (addi nfeat (broadcastInDim ⟨1, ![200000]⟩ ![] hb0 (constantI ⟨0, ![]⟩ 32 119#32))) nfeat)) (ix2 p j)
      = x (ix2 (nfOf nfeat p) j) :=
  gather_wrap_read d hd hb0 hb1 x nfeat p j

theorem gather_emb_apply {α : Type}
    (d : GatherDims ⟨2, ![5, 128]⟩ ⟨2, ![400000, 1]⟩ ⟨2, ![400000, 128]⟩) (hd : RowGather d)
    (hb0 : (⟨0, ![]⟩ : Shape).BroadcastsInDim ⟨1, ![400000]⟩ ![])
    (hb1 : (⟨1, ![400000]⟩ : Shape).BroadcastsInDim ⟨2, ![400000, 1]⟩ ![0])
    (x : (⟨2, ![5, 128]⟩ : Shape).Idx → α) (efeat : IVec ⟨1, ![400000]⟩ 32) (e : Fin 400000) (j : Fin 128) :
    Host.gather d x (broadcastInDim ⟨2, ![400000, 1]⟩ ![0] hb1
        (select (cmpi .slt efeat (broadcastInDim ⟨1, ![400000]⟩ ![] hb0 (constantI ⟨0, ![]⟩ 32 0#32)))
          (addi efeat (broadcastInDim ⟨1, ![400000]⟩ ![] hb0 (constantI ⟨0, ![]⟩ 32 5#32))) efeat)) (ix2 e j)
      = x (ix2 (gsOf 5 efeat e) j) :=
  gather_wrap_read d hd hb0 hb1 x efeat e j

structure RowScatter {N E D : ℕ} (d : ScatterDims ⟨2, ![N, D]⟩ ⟨2, ![E, 1]⟩ ⟨2, ![E, D]⟩) : Prop where
  uw : d.updateWindowDims = [1]
  iw : d.insertedWindowDims = [0]
  sd : d.scatterDimsToOperandDims = [0]
  iv : d.indexVectorDim = 1

abbrev rowScat (N E D : ℕ)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

theorem rowScat_start0 {N E D w : ℕ} (wf) (idx : IVec ⟨2, ![E, 1]⟩ w) (e : Fin E) (j : Fin D) :
    (rowScat N E D wf).start (ix2 e j) idx 0 = (idx (ix2 e 0)).toInt := by
  unfold ScatterDims.start
  rw [dif_pos (show (0 : Fin 2) ∈ (rowScat N E D wf).scatterDimsToOperandDims from List.mem_singleton.mpr rfl)]
  have hsi : (rowScat N E D wf).siIdx (ix2 e j) ⟨List.idxOf (0 : Fin 2) (rowScat N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rowScat_start1 {N E D w : ℕ} (wf) (idx : IVec ⟨2, ![E, 1]⟩ w) (e : Fin E) (j : Fin D) :
    (rowScat N E D wf).start (ix2 e j) idx 1 = 0 := by
  unfold ScatterDims.start
  rw [dif_neg (show (1 : Fin 2) ∉ ([0] : List (Fin 2)) by decide)]

theorem rowScat_window0 {N E D : ℕ} (wf) (e : Fin E) (j : Fin D) :
    (rowScat N E D wf).window (ix2 e j) 0 = 0 := by
  unfold ScatterDims.window
  rw [dif_neg (show (0 : Fin 2) ∉ (rowScat N E D wf).sKept by
    simp [ScatterDims.sKept, Shape.kept, List.mem_filter])]

theorem rowScat_window1 {N E D : ℕ} (wf) (e : Fin E) (j : Fin D) :
    (rowScat N E D wf).window (ix2 e j) 1 = j.val := by
  unfold ScatterDims.window
  rw [dif_pos (show (1 : Fin 2) ∈ (rowScat N E D wf).sKept by
    simp [ScatterDims.sKept, Shape.kept, List.mem_filter, List.mem_finRange])]
  rfl

theorem rowScat_resultIdx {N E D w : ℕ} (wf) (idx : IVec ⟨2, ![E, 1]⟩ w) (e : Fin E) (j : Fin D) :
    (rowScat N E D wf).resultIdx? (ix2 e j) idx
      = (rowOf N (idx (ix2 e 0)).toInt).map (fun r => ix2 r j) := by
  unfold ScatterDims.resultIdx?
  by_cases ht : 0 ≤ (idx (ix2 e 0)).toInt ∧ (idx (ix2 e 0)).toInt < (N : ℤ)
  · have hall : ∀ a : Fin 2, 0 ≤ (rowScat N E D wf).start (ix2 e j) idx a + (rowScat N E D wf).window (ix2 e j) a ∧
        (rowScat N E D wf).start (ix2 e j) idx a + (rowScat N E D wf).window (ix2 e j) a
          < ((⟨2, ![N, D]⟩ : Shape).size a : ℤ) := by
      intro a
      match a with
      | ⟨0, _⟩ =>
        show 0 ≤ (rowScat N E D wf).start (ix2 e j) idx 0 + ((rowScat N E D wf).window (ix2 e j) 0 : ℤ) ∧
          (rowScat N E D wf).start (ix2 e j) idx 0 + ((rowScat N E D wf).window (ix2 e j) 0 : ℤ) < (N : ℤ)
        rw [rowScat_start0, rowScat_window0]; simpa using ht
      | ⟨1, _⟩ =>
        show 0 ≤ (rowScat N E D wf).start (ix2 e j) idx 1 + ((rowScat N E D wf).window (ix2 e j) 1 : ℤ) ∧
          (rowScat N E D wf).start (ix2 e j) idx 1 + ((rowScat N E D wf).window (ix2 e j) 1 : ℤ) < (D : ℤ)
        rw [rowScat_start1, rowScat_window1]; have := j.isLt; omega
    rw [dif_pos hall]
    unfold rowOf
    rw [dif_pos ht, Option.map_some]
    congr 1
    funext a
    refine Fin.ext ?_
    match a with
    | ⟨0, _⟩ =>
      show ((rowScat N E D wf).start (ix2 e j) idx 0 + ((rowScat N E D wf).window (ix2 e j) 0 : ℤ)).toNat = _
      rw [rowScat_start0, rowScat_window0]; simp
    | ⟨1, _⟩ =>
      show ((rowScat N E D wf).start (ix2 e j) idx 1 + ((rowScat N E D wf).window (ix2 e j) 1 : ℤ)).toNat = _
      rw [rowScat_start1, rowScat_window1]; simp
  · rw [dif_neg]
    · unfold rowOf; rw [dif_neg ht]; rfl
    · intro hall
      have h0 := hall 0
      change 0 ≤ (rowScat N E D wf).start (ix2 e j) idx 0 + ((rowScat N E D wf).window (ix2 e j) 0 : ℤ) ∧
          (rowScat N E D wf).start (ix2 e j) idx 0 + ((rowScat N E D wf).window (ix2 e j) 0 : ℤ) < (N : ℤ) at h0
      rw [rowScat_start0, rowScat_window0] at h0
      exact ht (by simpa using h0)

theorem rowScat_read {N E D w : ℕ} (wf) (x : (⟨2, ![N, D]⟩ : Shape).Idx → EReal) (idx : IVec ⟨2, ![E, 1]⟩ w)
    (upd : (⟨2, ![E, D]⟩ : Shape).Idx → EReal) (n : Fin N) (j : Fin D) :
    Ideal.hostScatterAdd (rowScat N E D wf) x idx upd (ix2 n j)
      = x (ix2 n j) + ∑ e ∈ Finset.univ.filter (fun e => rowOf N (idx (ix2 e 0)).toInt = some n), upd (ix2 e j) := by
  unfold Ideal.hostScatterAdd
  congr 1
  rw [Finset.sum_filter, sum_idx2, Finset.sum_filter]
  refine Finset.sum_congr rfl (fun e _ => ?_)
  simp only [rowScat_resultIdx]
  cases hr : rowOf N (idx (ix2 e 0)).toInt with
  | none =>
    simp
  | some r =>
    simp only [Option.map_some, Option.some.injEq]
    by_cases hrn : r = n
    · subst hrn
      rw [if_pos rfl, Finset.sum_eq_single j]
      · rw [if_pos rfl]
      · intro j' _ hj'
        rw [if_neg]
        intro hh
        exact hj' (congrFun hh 1)
      · intro h; exact absurd (Finset.mem_univ j) h
    · rw [if_neg hrn]
      refine Finset.sum_eq_zero (fun j' _ => ?_)
      rw [if_neg]
      intro hh
      exact hrn (congrFun hh 0)

theorem scatter_rows_read {N E D w : ℕ} (d : ScatterDims ⟨2, ![N, D]⟩ ⟨2, ![E, 1]⟩ ⟨2, ![E, D]⟩) (hd : RowScatter d)
    (x : (⟨2, ![N, D]⟩ : Shape).Idx → EReal) (idx : IVec ⟨2, ![E, 1]⟩ w)
    (upd : (⟨2, ![E, D]⟩ : Shape).Idx → EReal) (n : Fin N) (j : Fin D) :
    Ideal.hostScatterAdd d x idx upd (ix2 n j)
      = x (ix2 n j) + ∑ e ∈ Finset.univ.filter (fun e => rowOf N (idx (ix2 e 0)).toInt = some n), upd (ix2 e j) := by
  obtain ⟨uw, iw, sd, iv, wf⟩ := d
  obtain ⟨h1, h2, h3, h4⟩ := hd
  simp only at h1 h2 h3 h4
  subst h1 h2 h3 h4
  exact rowScat_read wf x idx upd n j

theorem scatter_zero_read {N E D : ℕ} (d : ScatterDims ⟨2, ![N, D]⟩ ⟨2, ![E, 1]⟩ ⟨2, ![E, D]⟩) (hd : RowScatter d)
    (hbz : (⟨0, ![]⟩ : Shape).BroadcastsInDim ⟨2, ![N, D]⟩ ![])
    (hb1 : (⟨1, ![E]⟩ : Shape).BroadcastsInDim ⟨2, ![E, 1]⟩ ![0])
    (dst : IVec ⟨1, ![E]⟩ 32) (upd : FVec Ideal ⟨2, ![E, D]⟩ .f32) (n : Fin N) (j : Fin D) :
    Host.scatterAdd d (broadcastInDim ⟨2, ![N, D]⟩ ![] hbz (constant (F := Ideal) ⟨0, ![]⟩ .f32 0x00000000#32))
        (broadcastInDim ⟨2, ![E, 1]⟩ ![0] hb1 dst) upd (ix2 n j)
      = ∑ e ∈ Finset.univ.filter (fun e => rowOf N (dst (ix1 e)).toInt = some n), upd (ix2 e j) := by
  show Ideal.hostScatterAdd d _ _ upd (ix2 n j) = _
  rw [scatter_rows_read d hd, bcast_scalar_apply, constant_apply, Ideal.ofBits_zero_f32, zero_add]
  refine Finset.sum_congr ?_ (fun _ _ => rfl)
  ext e'
  simp only [Finset.mem_filter, Finset.mem_univ, true_and]
  rw [bcast_col_apply]

theorem scatter_rows_apply
    (d : ScatterDims ⟨2, ![200000, 128]⟩ ⟨2, ![400000, 1]⟩ ⟨2, ![400000, 128]⟩) (hd : RowScatter d)
    (hbz : (⟨0, ![]⟩ : Shape).BroadcastsInDim ⟨2, ![200000, 128]⟩ ![])
    (hb1 : (⟨1, ![400000]⟩ : Shape).BroadcastsInDim ⟨2, ![400000, 1]⟩ ![0])
    (dst : IVec ⟨1, ![400000]⟩ 32) (upd : FVec Ideal ⟨2, ![400000, 128]⟩ .f32) (n : Fin 200000) (j : Fin 128) :
    Host.scatterAdd d (broadcastInDim ⟨2, ![200000, 128]⟩ ![] hbz (constant (F := Ideal) ⟨0, ![]⟩ .f32 0x00000000#32))
        (broadcastInDim ⟨2, ![400000, 1]⟩ ![0] hb1 dst) upd (ix2 n j)
      = ∑ e ∈ Finset.univ.filter (fun e => tgOf 200000 dst e = some n), upd (ix2 e j) :=
  scatter_zero_read d hd hbz hb1 dst upd n j

theorem scatter_rows5_apply
    (d : ScatterDims ⟨2, ![200000, 5]⟩ ⟨2, ![400000, 1]⟩ ⟨2, ![400000, 5]⟩) (hd : RowScatter d)
    (hbz : (⟨0, ![]⟩ : Shape).BroadcastsInDim ⟨2, ![200000, 5]⟩ ![])
    (hb1 : (⟨1, ![400000]⟩ : Shape).BroadcastsInDim ⟨2, ![400000, 1]⟩ ![0])
    (dst : IVec ⟨1, ![400000]⟩ 32) (upd : FVec Ideal ⟨2, ![400000, 5]⟩ .f32) (n : Fin 200000) (v : Fin 5) :
    Host.scatterAdd d (broadcastInDim ⟨2, ![200000, 5]⟩ ![] hbz (constant (F := Ideal) ⟨0, ![]⟩ .f32 0x00000000#32))
        (broadcastInDim ⟨2, ![400000, 1]⟩ ![0] hb1 dst) upd (ix2 n v)
      = ∑ e ∈ Finset.univ.filter (fun e => tgOf 200000 dst e = some n), upd (ix2 e v) :=
  scatter_zero_read d hd hbz hb1 dst upd n v

theorem scatter_pool_apply
    (d : ScatterDims ⟨2, ![1000, 128]⟩ ⟨2, ![200000, 1]⟩ ⟨2, ![200000, 128]⟩) (hd : RowScatter d)
    (hbz : (⟨0, ![]⟩ : Shape).BroadcastsInDim ⟨2, ![1000, 128]⟩ ![])
    (hb1 : (⟨1, ![200000]⟩ : Shape).BroadcastsInDim ⟨2, ![200000, 1]⟩ ![0])
    (n2g : IVec ⟨1, ![200000]⟩ 32) (upd : FVec Ideal ⟨2, ![200000, 128]⟩ .f32) (g : Fin 1000) (j : Fin 128) :
    Host.scatterAdd d (broadcastInDim ⟨2, ![1000, 128]⟩ ![] hbz (constant (F := Ideal) ⟨0, ![]⟩ .f32 0x00000000#32))
        (broadcastInDim ⟨2, ![200000, 1]⟩ ![0] hb1 n2g) upd (ix2 g j)
      = ∑ p ∈ Finset.univ.filter (fun p => pgOf n2g p = some g), upd (ix2 p j) :=
  scatter_zero_read d hd hbz hb1 n2g upd g j

def idxEquiv1 {n : ℕ} : (⟨1, ![n]⟩ : Shape).Idx ≃ Fin n where
  toFun i := i 0
  invFun p := ix1 p
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

structure VecScatter {N E : ℕ} (d : ScatterDims ⟨1, ![N]⟩ ⟨2, ![E, 1]⟩ ⟨1, ![E]⟩) : Prop where
  uw : d.updateWindowDims = []
  iw : d.insertedWindowDims = [0]
  sd : d.scatterDimsToOperandDims = [0]
  iv : d.indexVectorDim = 1

abbrev vecScat (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScat_start {N E w : ℕ} (wf) (idx : IVec ⟨2, ![E, 1]⟩ w) (e : Fin E) :
    (vecScat N E wf).start (ix1 e) idx 0 = (idx (ix2 e 0)).toInt := by
  unfold ScatterDims.start
  rw [dif_pos (show (0 : Fin 1) ∈ (vecScat N E wf).scatterDimsToOperandDims from List.mem_singleton.mpr rfl)]
  have hsi : (vecScat N E wf).siIdx (ix1 e) ⟨List.idxOf (0 : Fin 1) (vecScat N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem vecScat_window {N E : ℕ} (wf) (e : Fin E) : (vecScat N E wf).window (ix1 e) 0 = 0 := by
  unfold ScatterDims.window
  rw [dif_neg (show (0 : Fin 1) ∉ (vecScat N E wf).sKept by
    simp [ScatterDims.sKept, Shape.kept, List.mem_filter])]

theorem vecScat_resultIdx {N E w : ℕ} (wf) (idx : IVec ⟨2, ![E, 1]⟩ w) (e : Fin E) :
    (vecScat N E wf).resultIdx? (ix1 e) idx = (rowOf N (idx (ix2 e 0)).toInt).map (fun r => ix1 r) := by
  unfold ScatterDims.resultIdx?
  by_cases ht : 0 ≤ (idx (ix2 e 0)).toInt ∧ (idx (ix2 e 0)).toInt < (N : ℤ)
  · have hall : ∀ a : Fin 1, 0 ≤ (vecScat N E wf).start (ix1 e) idx a + (vecScat N E wf).window (ix1 e) a ∧
        (vecScat N E wf).start (ix1 e) idx a + (vecScat N E wf).window (ix1 e) a
          < ((⟨1, ![N]⟩ : Shape).size a : ℤ) := by
      intro a
      obtain rfl : a = 0 := Subsingleton.elim _ _
      show 0 ≤ (vecScat N E wf).start (ix1 e) idx 0 + ((vecScat N E wf).window (ix1 e) 0 : ℤ) ∧
        (vecScat N E wf).start (ix1 e) idx 0 + ((vecScat N E wf).window (ix1 e) 0 : ℤ) < (N : ℤ)
      rw [vecScat_start, vecScat_window]; simpa using ht
    rw [dif_pos hall]
    unfold rowOf
    rw [dif_pos ht, Option.map_some]
    congr 1
    funext a
    obtain rfl : a = 0 := Subsingleton.elim _ _
    refine Fin.ext ?_
    show ((vecScat N E wf).start (ix1 e) idx 0 + ((vecScat N E wf).window (ix1 e) 0 : ℤ)).toNat = _
    rw [vecScat_start, vecScat_window]
    simp only [Nat.cast_zero, add_zero]
    rfl
  · rw [dif_neg]
    · unfold rowOf; rw [dif_neg ht]; rfl
    · intro hall
      have h0 := hall 0
      change 0 ≤ (vecScat N E wf).start (ix1 e) idx 0 + ((vecScat N E wf).window (ix1 e) 0 : ℤ) ∧
          (vecScat N E wf).start (ix1 e) idx 0 + ((vecScat N E wf).window (ix1 e) 0 : ℤ) < (N : ℤ) at h0
      rw [vecScat_start, vecScat_window] at h0
      exact ht (by simpa using h0)

theorem vecScat_read {N E w : ℕ} (wf) (x : (⟨1, ![N]⟩ : Shape).Idx → EReal) (idx : IVec ⟨2, ![E, 1]⟩ w)
    (upd : (⟨1, ![E]⟩ : Shape).Idx → EReal) (n : Fin N) :
    Ideal.hostScatterAdd (vecScat N E wf) x idx upd (ix1 n)
      = x (ix1 n) + ∑ e ∈ Finset.univ.filter (fun e => rowOf N (idx (ix2 e 0)).toInt = some n), upd (ix1 e) := by
  unfold Ideal.hostScatterAdd
  congr 1
  rw [Finset.sum_filter, sum_idx1, Finset.sum_filter]
  refine Finset.sum_congr rfl (fun e _ => ?_)
  simp only [vecScat_resultIdx]
  cases hr : rowOf N (idx (ix2 e 0)).toInt with
  | none => simp
  | some r =>
    simp only [Option.map_some, Option.some.injEq]
    by_cases hrn : r = n
    · subst hrn; rw [if_pos rfl, if_pos rfl]
    · rw [if_neg hrn, if_neg]
      intro hh
      exact hrn (congrFun hh 0)

theorem scatter_vec_read {N E w : ℕ} (d : ScatterDims ⟨1, ![N]⟩ ⟨2, ![E, 1]⟩ ⟨1, ![E]⟩) (hd : VecScatter d)
    (x : (⟨1, ![N]⟩ : Shape).Idx → EReal) (idx : IVec ⟨2, ![E, 1]⟩ w)
    (upd : (⟨1, ![E]⟩ : Shape).Idx → EReal) (n : Fin N) :
    Ideal.hostScatterAdd d x idx upd (ix1 n)
      = x (ix1 n) + ∑ e ∈ Finset.univ.filter (fun e => rowOf N (idx (ix2 e 0)).toInt = some n), upd (ix1 e) := by
  obtain ⟨uw, iw, sd, iv, wf⟩ := d
  obtain ⟨h1, h2, h3, h4⟩ := hd
  simp only at h1 h2 h3 h4
  subst h1 h2 h3 h4
  exact vecScat_read wf x idx upd n

theorem scatter_vec_zero_read {N E : ℕ} (d : ScatterDims ⟨1, ![N]⟩ ⟨2, ![E, 1]⟩ ⟨1, ![E]⟩) (hd : VecScatter d)
    (hbz : (⟨0, ![]⟩ : Shape).BroadcastsInDim ⟨1, ![N]⟩ ![])
    (hb1 : (⟨1, ![E]⟩ : Shape).BroadcastsInDim ⟨2, ![E, 1]⟩ ![0])
    (dst : IVec ⟨1, ![E]⟩ 32) (upd : FVec Ideal ⟨1, ![E]⟩ .f32) (n : Fin N) :
    Host.scatterAdd d (broadcastInDim ⟨1, ![N]⟩ ![] hbz (constant (F := Ideal) ⟨0, ![]⟩ .f32 0x00000000#32))
        (broadcastInDim ⟨2, ![E, 1]⟩ ![0] hb1 dst) upd (ix1 n)
      = ∑ e ∈ Finset.univ.filter (fun e => rowOf N (dst (ix1 e)).toInt = some n), upd (ix1 e) := by
  show Ideal.hostScatterAdd d _ _ upd (ix1 n) = _
  rw [scatter_vec_read d hd, bcast_scalar_apply, constant_apply, Ideal.ofBits_zero_f32, zero_add]
  refine Finset.sum_congr ?_ (fun _ _ => rfl)
  ext e'
  simp only [Finset.mem_filter, Finset.mem_univ, true_and]
  rw [bcast_col_apply]

theorem scatter_deg_apply
    (d : ScatterDims ⟨1, ![200000]⟩ ⟨2, ![400000, 1]⟩ ⟨1, ![400000]⟩) (hd : VecScatter d)
    (hbz : (⟨0, ![]⟩ : Shape).BroadcastsInDim ⟨1, ![200000]⟩ ![])
    (hb1 : (⟨1, ![400000]⟩ : Shape).BroadcastsInDim ⟨2, ![400000, 1]⟩ ![0])
    (dst : IVec ⟨1, ![400000]⟩ 32) (upd : FVec Ideal ⟨1, ![400000]⟩ .f32) (n : Fin 200000) :
    Host.scatterAdd d (broadcastInDim ⟨1, ![200000]⟩ ![] hbz (constant (F := Ideal) ⟨0, ![]⟩ .f32 0x00000000#32))
        (broadcastInDim ⟨2, ![400000, 1]⟩ ![0] hb1 dst) upd (ix1 n)
      = ∑ e ∈ Finset.univ.filter (fun e => tgOf 200000 dst e = some n), upd (ix1 e) :=
  scatter_vec_zero_read d hd hbz hb1 dst upd n

theorem scatter_cnt_apply
    (d : ScatterDims ⟨1, ![1000]⟩ ⟨2, ![200000, 1]⟩ ⟨1, ![200000]⟩) (hd : VecScatter d)
    (hbz : (⟨0, ![]⟩ : Shape).BroadcastsInDim ⟨1, ![1000]⟩ ![])
    (hb1 : (⟨1, ![200000]⟩ : Shape).BroadcastsInDim ⟨2, ![200000, 1]⟩ ![0])
    (n2g : IVec ⟨1, ![200000]⟩ 32) (upd : FVec Ideal ⟨1, ![200000]⟩ .f32) (g : Fin 1000) :
    Host.scatterAdd d (broadcastInDim ⟨1, ![1000]⟩ ![] hbz (constant (F := Ideal) ⟨0, ![]⟩ .f32 0x00000000#32))
        (broadcastInDim ⟨2, ![200000, 1]⟩ ![0] hb1 n2g) upd (ix1 g)
      = ∑ p ∈ Finset.univ.filter (fun p => pgOf n2g p = some g), upd (ix1 p) :=
  scatter_vec_zero_read d hd hbz hb1 n2g upd g

theorem wrapWord_of_nonneg (n : ℕ) (b : BitVec 32) (h : 0 ≤ b.toInt) : wrapWord n b = b := by
  unfold wrapWord
  have hc : IntOp.cmpi .slt b 0#32 = 0#1 := by
    unfold IntOp.cmpi
    have : b.slt 0#32 = false := by
      simp only [BitVec.slt, BitVec.toInt_zero, decide_eq_false_iff_not, not_lt]
      exact h
    simp only [this]
    rfl
  rw [hc, select_zero]

theorem clampRow_of_range (n : ℕ) [NeZero n] (b : BitVec 32) (h : 0 ≤ b.toInt ∧ b.toInt < (n : ℤ)) :
    ((clampRow n b).val : ℤ) = b.toInt := by
  show ((min (wrapWord n b).toInt.toNat (n - 1) : ℕ) : ℤ) = b.toInt
  rw [wrapWord_of_nonneg n b h.1]
  have := NeZero.pos n
  omega

theorem rowOf_of_range (n : ℕ) [NeZero n] (b : BitVec 32) (h : 0 ≤ b.toInt ∧ b.toInt < (n : ℤ)) :
    rowOf n b.toInt = some (clampRow n b) := by
  unfold rowOf
  rw [dif_pos h]
  congr 1
  refine Fin.ext ?_
  have := clampRow_of_range n b h
  show b.toInt.toNat = (clampRow n b).val
  omega

theorem efOf_inrange (efeat : IVec ⟨1, ![400000]⟩ 32) (e : Fin 400000)
    (hr : 0 ≤ (efeat (ix1 e)).toInt ∧ (efeat (ix1 e)).toInt < 5) :
    ((gsOf 5 efeat e).val : ℤ) = (efeat (ix1 e)).toInt :=
  clampRow_of_range 5 (efeat (ix1 e)) hr

theorem efOf_word (efeat : IVec ⟨1, ![400000]⟩ 32) (e : Fin 400000)
    (hr : 0 ≤ (efeat (ix1 e)).toInt ∧ (efeat (ix1 e)).toInt < 5) :
    efeat (ix1 e) = BitVec.ofNat 32 (gsOf 5 efeat e).val := by
  have hv := efOf_inrange efeat e hr
  have hlt := (gsOf 5 efeat e).isLt
  apply BitVec.eq_of_toInt_eq
  rw [StableHlo.Predicate.toInt_ofNat_small _ (by omega)]
  omega

theorem bcast_of_col_apply {α : Type} {n m : ℕ} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) := by
  simp only [broadcastInDim]
  congr 1
  funext a
  match a with
  | ⟨0, _⟩ =>
    refine Fin.ext ?_
    have hp := p.isLt
    split
    · next h1 => change n = 1 at h1; show (0 : ℕ) = p.val; omega
    · rfl
  | ⟨1, _⟩ =>
    refine Fin.ext ?_
    split
    · rfl
    · next h1 => exact absurd rfl h1

theorem bcast_of_row_apply {α : Type} {n m : ℕ} (h : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] h v (ix2 p q) = v (ix2 0 q) := by
  simp only [broadcastInDim]
  congr 1
  funext a
  match a with
  | ⟨0, _⟩ =>
    refine Fin.ext ?_
    split
    · rfl
    · next h1 => exact absurd rfl h1
  | ⟨1, _⟩ =>
    refine Fin.ext ?_
    have hq := q.isLt
    split
    · next h1 => change m = 1 at h1; show (0 : ℕ) = q.val; omega
    · rfl

theorem onehot_apply
    (hb1 : (⟨1, ![400000]⟩ : Shape).BroadcastsInDim ⟨2, ![400000, 1]⟩ ![0])
    (hb2 : (⟨2, ![400000, 1]⟩ : Shape).BroadcastsInDim ⟨2, ![400000, 5]⟩ ![0, 1])
    (hb3 : (⟨2, ![1, 5]⟩ : Shape).BroadcastsInDim ⟨2, ![400000, 5]⟩ ![0, 1])
    (efeat : IVec ⟨1, ![400000]⟩ 32) (e : Fin 400000) (v : Fin 5)
    (hr : 0 ≤ (efeat (ix1 e)).toInt ∧ (efeat (ix1 e)).toInt < 5) :
    (uitofp (F := Ideal) .f32
        (cmpi .eq (broadcastInDim ⟨2, ![400000, 5]⟩ ![0, 1] hb2 (broadcastInDim ⟨2, ![400000, 1]⟩ ![0] hb1 efeat))
          (broadcastInDim ⟨2, ![400000, 5]⟩ ![0, 1] hb3 (iotaInDim ⟨2, ![1, 5]⟩ 32 1)))) (ix2 e v)
      = if gsOf 5 efeat e = v then (1 : EReal) else 0 := by
  show (((IntOp.cmpi .eq
      (broadcastInDim ⟨2, ![400000, 5]⟩ ![0, 1] hb2 (broadcastInDim ⟨2, ![400000, 1]⟩ ![0] hb1 efeat) (ix2 e v))
      (broadcastInDim ⟨2, ![400000, 5]⟩ ![0, 1] hb3 (iotaInDim ⟨2, ![1, 5]⟩ 32 1) (ix2 e v))).toNat : ℝ) : EReal) = _
  rw [bcast_of_col_apply, bcast_col_apply, bcast_of_row_apply]
  show (((IntOp.cmpi .eq (efeat (ix1 e)) (BitVec.ofNat 32 v.val)).toNat : ℝ) : EReal) = _
  have hw := efOf_word efeat e hr
  by_cases hv : gsOf 5 efeat e = v
  · rw [if_pos hv]
    have h1 : IntOp.cmpi .eq (efeat (ix1 e)) (BitVec.ofNat 32 v.val) = 1#1 :=
      StableHlo.Predicate.cmpi_eq_iff.mpr (by rw [hw, hv])
    rw [h1]
    simp
  · rw [if_neg hv]
    have h0 : IntOp.cmpi .eq (efeat (ix1 e)) (BitVec.ofNat 32 v.val) = 0#1 := by
      refine eq_zero_of_ne_one (fun h => hv ?_)
      have hb := StableHlo.Predicate.cmpi_eq_iff.mp h
      rw [hw] at hb
      have := congrArg BitVec.toNat hb
      simp only [BitVec.toNat_ofNat] at this
      have h5 := (gsOf 5 efeat e).isLt
      have h5' := v.isLt
      exact Fin.ext (by omega)
    rw [h0]
    simp

theorem ofBits_N : Ideal.ofBits .f32 0x48435000#32 = ((200000 : ℝ) : EReal) := by
  simp [Ideal.ofBits, Ideal.ieee, -EReal.coe_mul]; norm_num

theorem ofBits_one : Ideal.ofBits .f32 0x3F800000#32 = 1 := Ideal.ofBits_one_f32

section KernelRecords
variable [Cert.KernelIdeal.Facts₀]

theorem k_gather_atom : RowGather Cert.KernelIdeal.gather_S119x128_S200000x1_S200000x128_1_0_n_n_0_1_1128 :=
  ⟨rfl, rfl, rfl, rfl, rfl, rfl, rfl⟩
theorem k_gather_rows : RowGather Cert.KernelIdeal.gather_S200000x128_S400000x1_S400000x128_1_0_n_n_0_1_1128 :=
  ⟨rfl, rfl, rfl, rfl, rfl, rfl, rfl⟩
theorem k_scatter_deg : VecScatter Cert.KernelIdeal.scatter_S200000_S400000x1_S400000_n_0_0_1 := ⟨rfl, rfl, rfl, rfl⟩
theorem k_scatter_rows5 : RowScatter Cert.KernelIdeal.scatter_S200000x5_S400000x1_S400000x5_1_0_0_1 := ⟨rfl, rfl, rfl, rfl⟩
theorem k_scatter_rows : RowScatter Cert.KernelIdeal.scatter_S200000x128_S400000x1_S400000x128_1_0_0_1 := ⟨rfl, rfl, rfl, rfl⟩
theorem k_scatter_cnt : VecScatter Cert.KernelIdeal.scatter_S1000_S200000x1_S200000_n_0_0_1 := ⟨rfl, rfl, rfl, rfl⟩
theorem k_scatter_pool : RowScatter Cert.KernelIdeal.scatter_S1000x128_S200000x1_S200000x128_1_0_0_1 := ⟨rfl, rfl, rfl, rfl⟩

end KernelRecords

section ReferenceRecords
variable [Cert.ReferenceIdeal.Facts₀]

theorem r_gather_atom : RowGather Cert.ReferenceIdeal.gather_S119x128_S200000x1_S200000x128_1_0_n_n_0_1_1128 :=
  ⟨rfl, rfl, rfl, rfl, rfl, rfl, rfl⟩
theorem r_gather_emb : RowGather Cert.ReferenceIdeal.gather_S5x128_S400000x1_S400000x128_1_0_n_n_0_1_1128 :=
  ⟨rfl, rfl, rfl, rfl, rfl, rfl, rfl⟩
theorem r_gather_rows : RowGather Cert.ReferenceIdeal.gather_S200000x128_S400000x1_S400000x128_1_0_n_n_0_1_1128 :=
  ⟨rfl, rfl, rfl, rfl, rfl, rfl, rfl⟩
theorem r_scatter_deg : VecScatter Cert.ReferenceIdeal.scatter_S200000_S400000x1_S400000_n_0_0_1 := ⟨rfl, rfl, rfl, rfl⟩
theorem r_scatter_rows : RowScatter Cert.ReferenceIdeal.scatter_S200000x128_S400000x1_S400000x128_1_0_0_1 := ⟨rfl, rfl, rfl, rfl⟩
theorem r_scatter_cnt : VecScatter Cert.ReferenceIdeal.scatter_S1000_S200000x1_S200000_n_0_0_1 := ⟨rfl, rfl, rfl, rfl⟩
theorem r_scatter_pool : RowScatter Cert.ReferenceIdeal.scatter_S1000x128_S200000x1_S200000x128_1_0_0_1 := ⟨rfl, rfl, rfl, rfl⟩

end ReferenceRecords

section SameRecords
variable [Cert.KernelIdeal.Facts₀] [Cert.ReferenceIdeal.Facts₀]

theorem dims_gather_atom : Cert.KernelIdeal.gather_S119x128_S200000x1_S200000x128_1_0_n_n_0_1_1128
    = Cert.ReferenceIdeal.gather_S119x128_S200000x1_S200000x128_1_0_n_n_0_1_1128 := rfl
theorem dims_gather_rows : Cert.KernelIdeal.gather_S200000x128_S400000x1_S400000x128_1_0_n_n_0_1_1128
    = Cert.ReferenceIdeal.gather_S200000x128_S400000x1_S400000x128_1_0_n_n_0_1_1128 := rfl
theorem dims_scatter_deg : Cert.KernelIdeal.scatter_S200000_S400000x1_S400000_n_0_0_1
    = Cert.ReferenceIdeal.scatter_S200000_S400000x1_S400000_n_0_0_1 := rfl
theorem dims_scatter_rows : Cert.KernelIdeal.scatter_S200000x128_S400000x1_S400000x128_1_0_0_1
    = Cert.ReferenceIdeal.scatter_S200000x128_S400000x1_S400000x128_1_0_0_1 := rfl
theorem dims_scatter_cnt : Cert.KernelIdeal.scatter_S1000_S200000x1_S200000_n_0_0_1
    = Cert.ReferenceIdeal.scatter_S1000_S200000x1_S200000_n_0_0_1 := rfl
theorem dims_scatter_pool : Cert.KernelIdeal.scatter_S1000x128_S200000x1_S200000x128_1_0_0_1
    = Cert.ReferenceIdeal.scatter_S1000x128_S200000x1_S200000x128_1_0_0_1 := rfl

end SameRecords

end Cert.Hand.HostRead

end
-- ==== Proof.KV.ChainArgs.lean ====
import proofs.«123582_j22084721836889_2_alg».proof.Proof.KV.ChainKept
import proofs.«123582_j22084721836889_2_alg».proof.Proof.Math.Net
import proofs.«123582_j22084721836889_2_alg».proof.Proof.Math.HostRead
import Idealize.ShloMosaic.Lib.StableHlo.Run
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Cert.Hand.HostRead

section Kept
variable {F : FTy → Type} [FloatOps F] (m : (ℓ : Loc nD τ sig) → Buf (Elt F) ℓ)

theorem W3_launch (c : Dev nD) (r : Ref sig .tc) (h0 : r ∉ hostOps0_W) (h1 : r ∉ hostOps0_1_W) (h2 : r ∉ hostOps0_2_W) :
    W3 m c r = m (c, (r : DevRef τ sig)) :=
  (Gen.V3_of m c r h2).trans ((Gen.V2_of m c r h1).trans (Gen.V1_of m c r h0))

end Kept

section Args
variable (m : (ℓ : Loc nD τ sig) → Buf (Elt Ideal) ℓ) (c : Dev nD)

def gsA : Fin 400000 → Fin 200000 := gsOf 200000 (m ((c.tc : Thread nD τ).loc main_arg2) : (⟨S400000, .i32⟩ : BufTy).Contents (Elt Ideal))

def tgA : Fin 400000 → Option (Fin 200000) := tgOf 200000 (m ((c.tc : Thread nD τ).loc main_arg3) : (⟨S400000, .i32⟩ : BufTy).Contents (Elt Ideal))

def efA : Fin 400000 → Fin 5 := gsOf 5 (m ((c.tc : Thread nD τ).loc main_arg1) : (⟨S400000, .i32⟩ : BufTy).Contents (Elt Ideal))

def nfA : Fin 200000 → Fin 119 := nfOf (m ((c.tc : Thread nD τ).loc main_arg0) : (⟨S200000, .i32⟩ : BufTy).Contents (Elt Ideal))

def pgA : Fin 200000 → Option (Fin 1000) := pgOf (m ((c.tc : Thread nD τ).loc main_arg4) : (⟨S200000, .i32⟩ : BufTy).Contents (Elt Ideal))

def atomA : Fin 119 → Fin 128 → EReal := fun p k => (m ((c.tc : Thread nD τ).loc main_arg5) : (⟨S119x128, .f32⟩ : BufTy).Contents (Elt Ideal)) (ix2 p k)

def embA : Fin 5 → Fin 5 → Fin 128 → EReal := fun l v k => (m ((c.tc : Thread nD τ).loc main_arg6) : (⟨S5x5x128, .f32⟩ : BufTy).Contents (Elt Ideal)) (ix3 l v k)

def WmA : Fin 5 → Fin 128 → Fin 128 → EReal := fun l k q => (m ((c.tc : Thread nD τ).loc main_arg7) : (⟨S5x128x128, .f32⟩ : BufTy).Contents (Elt Ideal)) (ix3 l k q)

def bA : Fin 5 → Fin 128 → EReal := fun l q => (m ((c.tc : Thread nD τ).loc main_arg8) : (⟨S5x128, .f32⟩ : BufTy).Contents (Elt Ideal)) (ix2 l q)

def γA : Fin 5 → Fin 128 → EReal := fun l q => (m ((c.tc : Thread nD τ).loc main_arg9) : (⟨S5x128, .f32⟩ : BufTy).Contents (Elt Ideal)) (ix2 l q)

def βA : Fin 5 → Fin 128 → EReal := fun l q => (m ((c.tc : Thread nD τ).loc main_arg10) : (⟨S5x128, .f32⟩ : BufTy).Contents (Elt Ideal)) (ix2 l q)

def W1A : Fin 128 → Fin 128 → EReal := fun j k => (m ((c.tc : Thread nD τ).loc main_arg11) : (⟨S128x128, .f32⟩ : BufTy).Contents (Elt Ideal)) (ix2 j k)

def b1A : Fin 128 → EReal := fun k => (m ((c.tc : Thread nD τ).loc main_arg12) : (⟨S128, .f32⟩ : BufTy).Contents (Elt Ideal)) (ix1 k)

def W2A : Fin 128 → Fin 128 → EReal := fun k q => (m ((c.tc : Thread nD τ).loc main_arg13) : (⟨S128x128, .f32⟩ : BufTy).Contents (Elt Ideal)) (ix2 k q)

def b2A : Fin 128 → EReal := fun q => (m ((c.tc : Thread nD τ).loc main_arg14) : (⟨S128, .f32⟩ : BufTy).Contents (Elt Ideal)) (ix1 q)

def hk0A : Fin 200000 → Fin 128 → EReal := Cert.Spec.h0 (nfA m c) (atomA m c)

def x0A : Fin 200000 → Fin 128 → EReal := Cert.Spec.klin (gsA m c) (tgA m c) (efA m c) (hk0A m c) (embA m c 0) (WmA m c 0) (bA m c 0)

def hk1A : Fin 200000 → Fin 128 → EReal := Cert.Spec.kbn (x0A m c) (γA m c 0) (βA m c 0)

def x1A : Fin 200000 → Fin 128 → EReal := Cert.Spec.klin (gsA m c) (tgA m c) (efA m c) (hk1A m c) (embA m c 1) (WmA m c 1) (bA m c 1)

def hk2A : Fin 200000 → Fin 128 → EReal := Cert.Spec.kbn (x1A m c) (γA m c 1) (βA m c 1)

def x2A : Fin 200000 → Fin 128 → EReal := Cert.Spec.klin (gsA m c) (tgA m c) (efA m c) (hk2A m c) (embA m c 2) (WmA m c 2) (bA m c 2)

def hk3A : Fin 200000 → Fin 128 → EReal := Cert.Spec.kbn (x2A m c) (γA m c 2) (βA m c 2)

def x3A : Fin 200000 → Fin 128 → EReal := Cert.Spec.klin (gsA m c) (tgA m c) (efA m c) (hk3A m c) (embA m c 3) (WmA m c 3) (bA m c 3)

def hk4A : Fin 200000 → Fin 128 → EReal := Cert.Spec.kbn (x3A m c) (γA m c 3) (βA m c 3)

def x4A : Fin 200000 → Fin 128 → EReal := Cert.Spec.klin (gsA m c) (tgA m c) (efA m c) (hk4A m c) (embA m c 4) (WmA m c 4) (bA m c 4)

def hk5A : Fin 200000 → Fin 128 → EReal := Cert.Spec.kbn (x4A m c) (γA m c 4) (βA m c 4)

theorem knet_eq_layers :
    Cert.Spec.knet (gsA m c) (tgA m c) (efA m c) (pgA m c) (nfA m c) (atomA m c) (embA m c) (WmA m c) (bA m c) (γA m c) (βA m c)
        (W1A m c) (b1A m c) (W2A m c) (b2A m c)
      = Cert.Spec.mlp (Cert.Spec.pool (pgA m c) (hk5A m c)) (W1A m c) (b1A m c) (W2A m c) (b2A m c) := rfl

end Args

end Cert.KernelIdeal.Val

end
-- ==== Proof.KV.HostStatsLib.lean ====
import proofs.«123582_j22084721836889_2_alg».proof.Proof.Math.Spec
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Val

open Idealize.ShloMosaic Idealize.ShloMosaic.ValueIdx
open Cert.Spec

abbrev R1 : Shape := ⟨2, ![1, 128]⟩
abbrev R5 : Shape := ⟨2, ![5, 128]⟩
abbrev V128 : Shape := ⟨1, ![128]⟩
abbrev S0 : Shape := ⟨0, ![]⟩

abbrev row (X : R1.Idx → EReal) : Fin 128 → EReal := fun q => X (ix2 (0 : Fin 1) q)
abbrev row5 (l : Fin 5) (G : R5.Idx → EReal) : Fin 128 → EReal := fun q => G (ix2 l q)

theorem ofBits_2e5 : Ideal.ofBits .f32 0x48435000#32 = ((200000 : ℝ) : EReal) := by
  simp [Ideal.ofBits, Ideal.ieee, -EReal.coe_mul]; norm_num

theorem hostRsqrt_apply {s : Shape} {φ : FTy} (a : FVec Ideal s φ) (i : s.Idx) : Host.rsqrt a i = Ideal.rsqrt (a i) := rfl

theorem bcastConst_apply (hb : S0.BroadcastsInDim R1 (![] : Fin 0 → Fin R1.rank)) (b : BitVec 32) (j : R1.Idx) :
    broadcastInDim R1 ![] hb (constant (F := Ideal) S0 .f32 b) j = Ideal.ofBits .f32 b := by
  rw [broadcastInDim_scalar_apply]; rfl

theorem paramRow_apply (o : Nat) (l : Fin 5) (hl : l.val = o) (G : R5.Idx → EReal) (hs : R5.Slices ![o, 0] R1)
    (h1 : R1.ShapeCasts V128) (h2 : V128.ShapeCasts R1) (q : Fin 128) :
    shapeCast R1 (fun i => shapeCast V128 (extractStridedSlice R1 ![o, 0] G hs) h1 i) h2 (ix2 (0 : Fin 1) q) = G (ix2 l q) := by
  simp only [shapeCast_a_1a_apply, shapeCast_1a_a_apply]
  exact slice2_axis0_apply o G hs 0 q l (by rw [hl]; rfl)

variable (s ss : FVec Ideal R1 .f32) (hb : S0.BroadcastsInDim R1 (![] : Fin 0 → Fin R1.rank))

theorem mean_term (q : Fin 128) :
    Host.divf s (broadcastInDim R1 ![] hb (constant S0 .f32 0x48435000#32)) (ix2 (0 : Fin 1) q) = kmean (row s) q := by
  rw [hostDivf_apply, bcastConst_apply, ofBits_2e5]
  rfl

theorem var_term (q : Fin 128) :
    maximumf
        (subf (Host.divf ss (broadcastInDim R1 ![] hb (constant S0 .f32 0x48435000#32)))
          (mulf (Host.divf s (broadcastInDim R1 ![] hb (constant S0 .f32 0x48435000#32)))
            (Host.divf s (broadcastInDim R1 ![] hb (constant S0 .f32 0x48435000#32)))))
        (broadcastInDim R1 ![] hb (constant S0 .f32 0x00000000#32)) (ix2 (0 : Fin 1) q)
      = kvar (row s) (row ss) q := by
  rw [maximumf_apply, subf_apply, mulf_apply, mean_term, hostDivf_apply, bcastConst_apply, bcastConst_apply, ofBits_2e5,
    Ideal.ofBits_zero_f32]
  rfl

variable (G B : FVec Ideal R5 .f32) (o : Nat) (l : Fin 5) (hs : R5.Slices ![o, 0] R1)
  (h1 : R1.ShapeCasts V128) (h2 : V128.ShapeCasts R1)

theorem scale_term (hl : l.val = o) (q : Fin 128) :
    mulf (fun i => shapeCast R1 (fun i => shapeCast V128 (extractStridedSlice R1 ![o, 0] G hs) h1 i) h2 i)
        (Host.rsqrt
          (addf
            (maximumf
              (subf (Host.divf ss (broadcastInDim R1 ![] hb (constant S0 .f32 0x48435000#32)))
                (mulf (Host.divf s (broadcastInDim R1 ![] hb (constant S0 .f32 0x48435000#32)))
                  (Host.divf s (broadcastInDim R1 ![] hb (constant S0 .f32 0x48435000#32)))))
              (broadcastInDim R1 ![] hb (constant S0 .f32 0x00000000#32)))
            (broadcastInDim R1 ![] hb (constant S0 .f32 0x3727C5AC#32)))) (ix2 (0 : Fin 1) q)
      = kscale (row s) (row ss) (row5 l G) q := by
  rw [mulf_apply, hostRsqrt_apply, addf_apply, var_term, paramRow_apply o l hl G hs h1 h2 q, bcastConst_apply]
  rfl

theorem shift_term (hl : l.val = o) (q : Fin 128) :
    subf (fun i => shapeCast R1 (fun i => shapeCast V128 (extractStridedSlice R1 ![o, 0] B hs) h1 i) h2 i)
        (mulf (Host.divf s (broadcastInDim R1 ![] hb (constant S0 .f32 0x48435000#32)))
          (mulf (fun i => shapeCast R1 (fun i => shapeCast V128 (extractStridedSlice R1 ![o, 0] G hs) h1 i) h2 i)
            (Host.rsqrt
              (addf
                (maximumf
                  (subf (Host.divf ss (broadcastInDim R1 ![] hb (constant S0 .f32 0x48435000#32)))
                    (mulf (Host.divf s (broadcastInDim R1 ![] hb (constant S0 .f32 0x48435000#32)))
                      (Host.divf s (broadcastInDim R1 ![] hb (constant S0 .f32 0x48435000#32)))))
                  (broadcastInDim R1 ![] hb (constant S0 .f32 0x00000000#32)))
                (broadcastInDim R1 ![] hb (constant S0 .f32 0x3727C5AC#32)))))) (ix2 (0 : Fin 1) q)
      = kshift (row s) (row ss) (row5 l G) (row5 l B) q := by
  rw [subf_apply, mulf_apply, mean_term, scale_term s ss hb G o l hs h1 h2 hl q, paramRow_apply o l hl B hs h1 h2 q]
  rfl

end Cert.KernelIdeal.Val

end
-- ==== Proof.KV.HostLayerLib.lean ====
import proofs.«123582_j22084721836889_2_alg».proof.Proof.Math.Spec
import proofs.«123582_j22084721836889_2_alg».proof.Proof.Math.HostRead
import proofs.«123582_j22084721836889_2_alg».proof.Proof.KV.HostStatsLib
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Val

open Idealize.ShloMosaic Idealize.ShloMosaic.ValueIdx
open Cert.Spec Cert.Hand.HostRead

theorem neigh_term
    (dg : GatherDims ⟨2, ![200000, 128]⟩ ⟨2, ![400000, 1]⟩ ⟨2, ![400000, 128]⟩) (hg : RowGather dg)
    (ds : ScatterDims ⟨2, ![200000, 128]⟩ ⟨2, ![400000, 1]⟩ ⟨2, ![400000, 128]⟩) (hs : RowScatter ds)
    (hbz : (⟨0, ![]⟩ : Shape).BroadcastsInDim ⟨2, ![200000, 128]⟩ ![])
    (hb0 : (⟨0, ![]⟩ : Shape).BroadcastsInDim ⟨1, ![400000]⟩ ![])
    (hb1 : (⟨1, ![400000]⟩ : Shape).BroadcastsInDim ⟨2, ![400000, 1]⟩ ![0])
    (x : FVec Ideal ⟨2, ![200000, 128]⟩ .bf16) (src dst : IVec ⟨1, ![400000]⟩ 32)
    (hlt : FTy.bf16.bits < FTy.f32.bits) (n : Fin 200000) (j : Fin 128) :
    Host.scatterAdd ds
        (broadcastInDim ⟨2, ![200000, 128]⟩ ![] hbz (constant (F := Ideal) ⟨0, ![]⟩ .f32 0x00000000#32))
        (broadcastInDim ⟨2, ![400000, 1]⟩ ![0] hb1 dst)
        (extf .f32 (Host.gather dg x (broadcastInDim ⟨2, ![400000, 1]⟩ ![0] hb1
          (select (cmpi .slt src (broadcastInDim ⟨1, ![400000]⟩ ![] hb0 (constantI ⟨0, ![]⟩ 32 0#32)))
            (addi src (broadcastInDim ⟨1, ![400000]⟩ ![] hb0 (constantI ⟨0, ![]⟩ 32 200000#32))) src))) hlt)
        (ix2 n j)
      = seg (tgOf 200000 dst) (fun e j => x (ix2 (gsOf 200000 src e) j)) n j := by
  rw [scatter_rows_apply ds hs hbz hb1 dst _ n j]
  show _ = ∑ e ∈ Finset.univ.filter (fun e => tgOf 200000 dst e = some n), x (ix2 (gsOf 200000 src e) j)
  refine Finset.sum_congr rfl fun e _ => ?_
  rw [extf_apply, gather_rows_apply dg hg hb0 hb1 x src e j]

theorem slab_apply {α : Type} {m a b : ℕ} (o : Nat) (l : Fin m) (hl : l.val = o)
    (G : (⟨3, ![m, a, b]⟩ : Shape).Idx → α)
    (hs : (⟨3, ![m, a, b]⟩ : Shape).Slices ![o, 0, 0] ⟨3, ![1, a, b]⟩)
    (h1 : (⟨3, ![1, a, b]⟩ : Shape).ShapeCasts ⟨2, ![a, b]⟩) (i : Fin a) (j : Fin b) :
    shapeCast ⟨2, ![a, b]⟩ (extractStridedSlice ⟨3, ![1, a, b]⟩ ![o, 0, 0] G hs) h1 (ix2 i j) = G (ix3 l i j) := by
  rw [shapeCast_1ab_ab_apply]
  exact extractStridedSlice_apply _ _ _ _ _ (fun ax => by
    match ax with
    | ⟨0, _⟩ => exact hl.trans (Nat.add_zero _).symm
    | ⟨1, _⟩ => exact (Nat.zero_add _).symm
    | ⟨2, _⟩ => exact (Nat.zero_add _).symm)

end Cert.KernelIdeal.Val

end
-- ==== Proof.KV.HostProLib.lean ====
import proofs.«123582_j22084721836889_2_alg».proof.Proof.Math.Spec
import proofs.«123582_j22084721836889_2_alg».proof.Proof.Math.HostRead
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Val

open Idealize.ShloMosaic Idealize.ShloMosaic.ValueIdx
open Cert.Spec Cert.Hand.HostRead

theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu]; omega)

theorem invdeg_term
    (ds : ScatterDims ⟨1, ![200000]⟩ ⟨2, ![400000, 1]⟩ ⟨1, ![400000]⟩) (hs : VecScatter ds)
    (hbz : (⟨0, ![]⟩ : Shape).BroadcastsInDim ⟨1, ![200000]⟩ ![])
    (hb1 : (⟨1, ![400000]⟩ : Shape).BroadcastsInDim ⟨2, ![400000, 1]⟩ ![0])
    (hbe : (⟨0, ![]⟩ : Shape).BroadcastsInDim ⟨1, ![400000]⟩ ![])
    (hbc : (⟨0, ![]⟩ : Shape).BroadcastsInDim ⟨2, ![200000, 1]⟩ ![])
    (hc : (⟨1, ![200000]⟩ : Shape).ShapeCasts ⟨2, ![200000, 1]⟩)
    (dst : IVec ⟨1, ![400000]⟩ 32) (p : Fin 200000) :
    Host.divf (broadcastInDim ⟨2, ![200000, 1]⟩ ![] hbc (constant (F := Ideal) ⟨0, ![]⟩ .f32 0x3F800000#32))
        (fun i => shapeCast ⟨2, ![200000, 1]⟩
          (addf
            (Host.scatterAdd ds
              (broadcastInDim ⟨1, ![200000]⟩ ![] hbz (constant (F := Ideal) ⟨0, ![]⟩ .f32 0x00000000#32))
              (broadcastInDim ⟨2, ![400000, 1]⟩ ![0] hb1 dst)
              (broadcastInDim ⟨1, ![400000]⟩ ![] hbe (constant (F := Ideal) ⟨0, ![]⟩ .f32 0x3F800000#32)))
            (broadcastInDim ⟨1, ![200000]⟩ ![] hbz (constant (F := Ideal) ⟨0, ![]⟩ .f32 0x3F800000#32)))
          hc i) (ix2 p (0 : Fin 1))
      = invdeg (tgOf 200000 dst) p := by
  have hone : ∀ e : Fin 400000,
      broadcastInDim ⟨1, ![400000]⟩ ![] hbe (constant (F := Ideal) ⟨0, ![]⟩ .f32 0x3F800000#32) (ix1 e) = (1 : EReal) :=
    fun e => by rw [bcast_scalar_apply, constant_apply, Ideal.ofBits_one_f32]
  rw [hostDivf_apply, bcast_scalar_apply, constant_apply, Ideal.ofBits_one_f32]
  show Ideal.div 1 (shapeCast ⟨2, ![200000, 1]⟩ _ hc (ix2 p (0 : Fin 1))) = _
  rw [shapeCast_a_a1_apply, addf_apply, scatter_deg_apply ds hs hbz hb1 dst _ p, bcast_scalar_apply, constant_apply,
    Ideal.ofBits_one_f32, Finset.sum_congr rfl (fun e _ => hone e)]
  rfl

theorem neigh0_term
    (dga : GatherDims ⟨2, ![119, 128]⟩ ⟨2, ![200000, 1]⟩ ⟨2, ![200000, 128]⟩) (hga : RowGather dga)
    (dg : GatherDims ⟨2, ![200000, 128]⟩ ⟨2, ![400000, 1]⟩ ⟨2, ![400000, 128]⟩) (hg : RowGather dg)
    (ds : ScatterDims ⟨2, ![200000, 128]⟩ ⟨2, ![400000, 1]⟩ ⟨2, ![400000, 128]⟩) (hs : RowScatter ds)
    (hbz : (⟨0, ![]⟩ : Shape).BroadcastsInDim ⟨2, ![200000, 128]⟩ ![])
    (hb0 : (⟨0, ![]⟩ : Shape).BroadcastsInDim ⟨1, ![400000]⟩ ![])
    (hb1 : (⟨1, ![400000]⟩ : Shape).BroadcastsInDim ⟨2, ![400000, 1]⟩ ![0])
    (hn0 : (⟨0, ![]⟩ : Shape).BroadcastsInDim ⟨1, ![200000]⟩ ![])
    (hn1 : (⟨1, ![200000]⟩ : Shape).BroadcastsInDim ⟨2, ![200000, 1]⟩ ![0])
    (atom : FVec Ideal ⟨2, ![119, 128]⟩ .f32) (nfeat : IVec ⟨1, ![200000]⟩ 32) (src dst : IVec ⟨1, ![400000]⟩ 32)
    (n : Fin 200000) (j : Fin 128) :
    Host.scatterAdd ds
        (broadcastInDim ⟨2, ![200000, 128]⟩ ![] hbz (constant (F := Ideal) ⟨0, ![]⟩ .f32 0x00000000#32))
        (broadcastInDim ⟨2, ![400000, 1]⟩ ![0] hb1 dst)
        (Host.gather dg
          (Host.gather dga atom (broadcastInDim ⟨2, ![200000, 1]⟩ ![0] hn1
            (select (cmpi .slt nfeat (broadcastInDim ⟨1, ![200000]⟩ ![] hn0 (constantI ⟨0, ![]⟩ 32 0#32)))
              (addi nfeat (broadcastInDim ⟨1, ![200000]⟩ ![] hn0 (constantI ⟨0, ![]⟩ 32 119#32))) nfeat)))
          (broadcastInDim ⟨2, ![400000, 1]⟩ ![0] hb1
            (select (cmpi .slt src (broadcastInDim ⟨1, ![400000]⟩ ![] hb0 (constantI ⟨0, ![]⟩ 32 0#32)))
              (addi src (broadcastInDim ⟨1, ![400000]⟩ ![] hb0 (constantI ⟨0, ![]⟩ 32 200000#32))) src)))
        (ix2 n j)
      = seg (tgOf 200000 dst) (fun e j => atom (ix2 (nfOf nfeat (gsOf 200000 src e)) j)) n j := by
  rw [scatter_rows_apply ds hs hbz hb1 dst _ n j]
  show _ = ∑ e ∈ Finset.univ.filter (fun e => tgOf 200000 dst e = some n), atom (ix2 (nfOf nfeat (gsOf 200000 src e)) j)
  refine Finset.sum_congr rfl fun e _ => ?_
  rw [gather_rows_apply dg hg hb0 hb1 _ src e j, gather_atom_apply dga hga hn0 hn1 atom nfeat _ j]

theorem cmat_term
    (ds : ScatterDims ⟨2, ![200000, 5]⟩ ⟨2, ![400000, 1]⟩ ⟨2, ![400000, 5]⟩) (hs : RowScatter ds)
    (hbz : (⟨0, ![]⟩ : Shape).BroadcastsInDim ⟨2, ![200000, 5]⟩ ![])
    (hb1 : (⟨1, ![400000]⟩ : Shape).BroadcastsInDim ⟨2, ![400000, 1]⟩ ![0])
    (hb2 : (⟨2, ![400000, 1]⟩ : Shape).BroadcastsInDim ⟨2, ![400000, 5]⟩ ![0, 1])
    (hb3 : (⟨2, ![1, 5]⟩ : Shape).BroadcastsInDim ⟨2, ![400000, 5]⟩ ![0, 1])
    (efeat dst : IVec ⟨1, ![400000]⟩ 32)
    (hef : ∀ e : Fin 400000, 0 ≤ (efeat (ix1 e)).toInt ∧ (efeat (ix1 e)).toInt < 5)
    (n : Fin 200000) (v : Fin 5) :
    Host.scatterAdd ds
        (broadcastInDim ⟨2, ![200000, 5]⟩ ![] hbz (constant (F := Ideal) ⟨0, ![]⟩ .f32 0x00000000#32))
        (broadcastInDim ⟨2, ![400000, 1]⟩ ![0] hb1 dst)
        (uitofp (F := Ideal) .f32
          (cmpi .eq (broadcastInDim ⟨2, ![400000, 5]⟩ ![0, 1] hb2 (broadcastInDim ⟨2, ![400000, 1]⟩ ![0] hb1 efeat))
            (broadcastInDim ⟨2, ![400000, 5]⟩ ![0, 1] hb3 (iotaInDim ⟨2, ![1, 5]⟩ 32 1))))
        (ix2 n v)
      = cmat (tgOf 200000 dst) (gsOf 5 efeat) n v := by
  rw [scatter_rows5_apply ds hs hbz hb1 dst _ n v]
  show _ = ∑ e ∈ Finset.univ.filter (fun e => tgOf 200000 dst e = some n), (if gsOf 5 efeat e = v then (1 : EReal) else 0)
  exact Finset.sum_congr rfl fun e _ => onehot_apply hb1 hb2 hb3 efeat e v (hef e)

end Cert.KernelIdeal.Val

end
-- ==== Proof.KV.HostPro.lean ====
import proofs.«123582_j22084721836889_2_alg».proof.Proof.Gen.KernelIdeal.Regions
import proofs.«123582_j22084721836889_2_alg».proof.Proof.Math.Spec
import proofs.«123582_j22084721836889_2_alg».proof.Proof.Math.HostRead
import proofs.«123582_j22084721836889_2_alg».proof.Proof.KV.HostStatsLib
import proofs.«123582_j22084721836889_2_alg».proof.Proof.KV.HostLayerLib
import proofs.«123582_j22084721836889_2_alg».proof.Proof.KV.HostProLib
import Idealize.ShloMosaic.Lib.StableHlo.Run
import Idealize.ShloMosaic.Lib.ValueIdx
import Idealize.ShloMosaic.Lib.ValueLayout

set_option maxRecDepth 2280

noncomputable section

namespace Cert.KernelIdeal.Val

open Idealize.ShloMosaic Idealize.ShloMosaic.TcCoe Idealize.ShloMosaic.ValueIdx
open Cert.KernelIdeal Cert.KernelIdeal.Gen
open Cert.Spec Cert.Hand.HostRead

abbrev proV (Vin : Valuation τ sig (Elt Ideal)) : Valuation τ sig (Elt Ideal) :=
  StableHlo.after (hostOps0_2 (F := Ideal)) (StableHlo.after (hostOps0_1 (F := Ideal)) (StableHlo.after (hostOps0 (F := Ideal)) Vin))

abbrev proNfeat (Vin : Valuation τ sig (Elt Ideal)) : IVec S200000 32 := (Vin (main_arg0 : DevRef τ sig) : (⟨S200000, .i32⟩ : BufTy).Contents (Elt Ideal))
abbrev proEfeat (Vin : Valuation τ sig (Elt Ideal)) : IVec S400000 32 := (Vin (main_arg1 : DevRef τ sig) : (⟨S400000, .i32⟩ : BufTy).Contents (Elt Ideal))
abbrev proSrc (Vin : Valuation τ sig (Elt Ideal)) : IVec S400000 32 := (Vin (main_arg2 : DevRef τ sig) : (⟨S400000, .i32⟩ : BufTy).Contents (Elt Ideal))
abbrev proDst (Vin : Valuation τ sig (Elt Ideal)) : IVec S400000 32 := (Vin (main_arg3 : DevRef τ sig) : (⟨S400000, .i32⟩ : BufTy).Contents (Elt Ideal))
abbrev proAtom (Vin : Valuation τ sig (Elt Ideal)) : FVec Ideal S119x128 .f32 := (Vin (main_arg5 : DevRef τ sig) : (⟨S119x128, .f32⟩ : BufTy).Contents (Elt Ideal))

abbrev proNf (Vin : Valuation τ sig (Elt Ideal)) : Fin 200000 → Fin 119 := nfOf (proNfeat Vin)
abbrev proGs (Vin : Valuation τ sig (Elt Ideal)) : Fin 400000 → Fin 200000 := gsOf 200000 (proSrc Vin)
abbrev proTg (Vin : Valuation τ sig (Elt Ideal)) : Fin 400000 → Option (Fin 200000) := tgOf 200000 (proDst Vin)
abbrev proEf (Vin : Valuation τ sig (Elt Ideal)) : Fin 400000 → Fin 5 := gsOf 5 (proEfeat Vin)

set_option maxHeartbeats 3200000 in

theorem h0_apply (Vin : Valuation τ sig (Elt Ideal)) (p : Fin 200000) (k : Fin 128) :
    (proV Vin (main_v6 : DevRef τ sig) : (⟨S200000x128, .f32⟩ : BufTy).Contents (Elt Ideal)) (ix2 p k)
      = proAtom Vin (ix2 (proNf Vin p) k) := by
  dsimp only [proV, hostOps0_2, hostOps0_1, hostOps0]
  open StableHlo in after_results_simp
  exact gather_atom_apply _ ⟨rfl, rfl, rfl, rfl, rfl, rfl, rfl⟩ _ _ _ _ p k

set_option maxHeartbeats 3200000 in

theorem invdeg_apply (Vin : Valuation τ sig (Elt Ideal)) (p : Fin 200000) :
    (proV Vin (main_v15 : DevRef τ sig) : (⟨S200000x1, .f32⟩ : BufTy).Contents (Elt Ideal)) (ix2 p (0 : Fin 1))
      = Cert.Spec.invdeg (proTg Vin) p := by
  dsimp only [proV, hostOps0_2, hostOps0_1, hostOps0]
  open StableHlo in after_results_simp
  exact invdeg_term _ ⟨rfl, rfl, rfl, rfl⟩ _ _ _ _ _ _ p

set_option maxHeartbeats 3200000 in

theorem neigh0_apply (Vin : Valuation τ sig (Elt Ideal)) (n : Fin 200000) (j : Fin 128) :
    (proV Vin (main_v29 : DevRef τ sig) : (⟨S200000x128, .f32⟩ : BufTy).Contents (Elt Ideal)) (ix2 n j)
      = Cert.Spec.seg (proTg Vin) (fun e j => proAtom Vin (ix2 (proNf Vin (proGs Vin e)) j)) n j := by
  dsimp only [proV, hostOps0_2, hostOps0_1, hostOps0]
  open StableHlo in after_results_simp
  exact neigh0_term _ ⟨rfl, rfl, rfl, rfl, rfl, rfl, rfl⟩ _ ⟨rfl, rfl, rfl, rfl, rfl, rfl, rfl⟩ _ ⟨rfl, rfl, rfl, rfl⟩ _ _ _ _ _ _ _ _ _ n j

set_option maxHeartbeats 3200000 in

theorem b0_apply (Vin : Valuation τ sig (Elt Ideal)) (q : Fin 128) :
    (proV Vin (main_v34 : DevRef τ sig) : (⟨S1x128, .f32⟩ : BufTy).Contents (Elt Ideal)) (ix2 (0 : Fin 1) q)
      = (Vin (main_arg8 : DevRef τ sig) : (⟨S5x128, .f32⟩ : BufTy).Contents (Elt Ideal)) (ix2 (0 : Fin 5) q) := by
  dsimp only [proV, hostOps0_2, hostOps0_1, hostOps0]
  open StableHlo in after_results_simp
  exact paramRow_apply 0 0 rfl _ _ _ _ q

theorem keptPro (Vin : Valuation τ sig (Elt Ideal)) (b : Ref sig .tc) (h0 : b ∉ Gen.hostOps0_W) (h1 : b ∉ Gen.hostOps0_1_W)
    (h2 : b ∉ Gen.hostOps0_2_W) : proV Vin (b : DevRef τ sig) = Vin (b : DevRef τ sig) := by
  show StableHlo.after hostOps0_2 _ (b : DevRef τ sig) = _
  rw [StableHlo.after_of_writes_sub hostOps0_2 _ hostOps0_2_writes h2, StableHlo.after_of_writes_sub hostOps0_1 _ hostOps0_1_writes h1,
    StableHlo.after_of_writes_sub hostOps0 _ hostOps0_writes h0]

theorem argsPro (Vin : Valuation τ sig (Elt Ideal)) :
    proV Vin (main_arg0 : DevRef τ sig) = Vin (main_arg0 : DevRef τ sig) ∧ proV Vin (main_arg1 : DevRef τ sig) = Vin (main_arg1 : DevRef τ sig)
    ∧ proV Vin (main_arg2 : DevRef τ sig) = Vin (main_arg2 : DevRef τ sig) ∧ proV Vin (main_arg3 : DevRef τ sig) = Vin (main_arg3 : DevRef τ sig)
    ∧ proV Vin (main_arg4 : DevRef τ sig) = Vin (main_arg4 : DevRef τ sig) ∧ proV Vin (main_arg5 : DevRef τ sig) = Vin (main_arg5 : DevRef τ sig)
    ∧ proV Vin (main_arg6 : DevRef τ sig) = Vin (main_arg6 : DevRef τ sig) ∧ proV Vin (main_arg7 : DevRef τ sig) = Vin (main_arg7 : DevRef τ sig)
    ∧ proV Vin (main_arg8 : DevRef τ sig) = Vin (main_arg8 : DevRef τ sig) ∧ proV Vin (main_arg9 : DevRef τ sig) = Vin (main_arg9 : DevRef τ sig)
    ∧ proV Vin (main_arg10 : DevRef τ sig) = Vin (main_arg10 : DevRef τ sig) ∧ proV Vin (main_arg11 : DevRef τ sig) = Vin (main_arg11 : DevRef τ sig)
    ∧ proV Vin (main_arg12 : DevRef τ sig) = Vin (main_arg12 : DevRef τ sig) ∧ proV Vin (main_arg13 : DevRef τ sig) = Vin (main_arg13 : DevRef τ sig)
    ∧ proV Vin (main_arg14 : DevRef τ sig) = Vin (main_arg14 : DevRef τ sig) :=
  ⟨keptPro Vin _ (by decide) (by decide) (by decide), keptPro Vin _ (by decide) (by decide) (by decide),
   keptPro Vin _ (by decide) (by decide) (by decide), keptPro Vin _ (by decide) (by decide) (by decide),
   keptPro Vin _ (by decide) (by decide) (by decide), keptPro Vin _ (by decide) (by decide) (by decide),
   keptPro Vin _ (by decide) (by decide) (by decide), keptPro Vin _ (by decide) (by decide) (by decide),
   keptPro Vin _ (by decide) (by decide) (by decide), keptPro Vin _ (by decide) (by decide) (by decide),
   keptPro Vin _ (by decide) (by decide) (by decide), keptPro Vin _ (by decide) (by decide) (by decide),
   keptPro Vin _ (by decide) (by decide) (by decide), keptPro Vin _ (by decide) (by decide) (by decide),
   keptPro Vin _ (by decide) (by decide) (by decide)⟩

set_option maxHeartbeats 3200000 in

theorem cmat_apply (Vin : Valuation τ sig (Elt Ideal))
    (hef : ∀ e : Fin 400000, 0 ≤ (proEfeat Vin (ix1 e)).toInt ∧ (proEfeat Vin (ix1 e)).toInt < 5) (n : Fin 200000) (v : Fin 5) :
    (proV Vin (main_v19 : DevRef τ sig) : (⟨S200000x5, .f32⟩ : BufTy).Contents (Elt Ideal)) (ix2 n v)
      = Cert.Spec.cmat (proTg Vin) (proEf Vin) n v := by
  dsimp only [proV, hostOps0_2, hostOps0_1, hostOps0]
  open StableHlo in after_results_simp
  exact cmat_term scatter_S200000x5_S400000x1_S400000x5_1_0_0_1 ⟨rfl, rfl, rfl, rfl⟩ Facts₀.bcast_S_S200000x5 Facts₀.bcast_S400000_S400000x1_0
    Facts₀.bcast_S400000x1_S400000x5_0_1 Facts₀.bcast_S1x5_S400000x5_0_1 (proEfeat Vin) (proDst Vin) hef n v

set_option maxHeartbeats 3200000 in

theorem emb0_apply (Vin : Valuation τ sig (Elt Ideal)) (v : Fin 5) (k : Fin 128) :
    (proV Vin (main_v31 : DevRef τ sig) : (⟨S5x128, .f32⟩ : BufTy).Contents (Elt Ideal)) (ix2 v k)
      = (Vin (main_arg6 : DevRef τ sig) : (⟨S5x5x128, .f32⟩ : BufTy).Contents (Elt Ideal)) (ix3 (0 : Fin 5) v k) := by
  dsimp only [proV, hostOps0_2, hostOps0_1, hostOps0]
  open StableHlo in after_results_simp
  exact slab_apply 0 0 rfl _ _ _ v k

set_option maxHeartbeats 3200000 in

theorem w0_apply (Vin : Valuation τ sig (Elt Ideal)) (k q : Fin 128) :
    (proV Vin (main_v36 : DevRef τ sig) : (⟨S128x128, .f32⟩ : BufTy).Contents (Elt Ideal)) (ix2 k q)
      = (Vin (main_arg7 : DevRef τ sig) : (⟨S5x128x128, .f32⟩ : BufTy).Contents (Elt Ideal)) (ix3 (0 : Fin 5) k q) := by
  dsimp only [proV, hostOps0_2, hostOps0_1, hostOps0]
  open StableHlo in after_results_simp
  exact slab_apply 0 0 rfl _ _ _ k q

end Cert.KernelIdeal.Val

end
-- ==== Proof.KV.ValLib.lean ====
import proofs.«123582_j22084721836889_2_alg».proof.Proof.Gen.KernelIdeal.Launch
import Idealize.ShloMosaic.Lib.ValueIdx
import Idealize.ShloMosaic.PureOps.Ideal.Laws

namespace Cert.KernelIdeal.Val

open Cert.KernelIdeal Cert.KernelIdeal.Gen
open Idealize.ShloMosaic Idealize.ShloMosaic.ValueIdx
open scoped BigOperators

-- Two indices of a rank-two shape with the same coordinates are equal.
theorem idx2_ext {m n : Nat} {j j' : (⟨2, ![m, n]⟩ : Shape).Idx} (h0 : (j 0).val = (j' 0).val) (h1 : (j 1).val = (j' 1).val) : j = j' := by
  funext x; apply Fin.ext
  match x with
  | ⟨0, _⟩ => exact h0
  | ⟨1, _⟩ => exact h1

-- Fifty blocks of 4000 rows, block `t` starting at row `4000 t`, cover an array of 200000 rows.
theorem cover_rows {T : Type} (idx : T → Fin 2 → ℕ) (S : T → Finset S200000x128.Idx)
    (hmem : ∀ t i, i ∈ S t ↔ ∀ a : Fin 2, idx t a * S4000x128.size a ≤ (i a).val ∧ (i a).val < idx t a * S4000x128.size a + S4000x128.size a)
    (honto : ∀ q0 : Fin 50, ∃ t, idx t = ![q0.val, 0]) (i : S200000x128.Idx) : ∃ t, i ∈ S t := by
  have hi0 : (i 0).val < 200000 := (i 0).isLt
  have hi1 : (i 1).val < 128 := (i 1).isLt
  obtain ⟨t, ht⟩ := honto ⟨(i 0).val / 4000, by omega⟩
  have q0 : idx t (0 : Fin 2) = (i 0).val / 4000 := congrFun ht 0
  have q1 : idx t (1 : Fin 2) = 0 := congrFun ht 1
  refine ⟨t, (hmem t i).2 fun a => ?_⟩
  match a with
  | ⟨0, _⟩ => show idx t (0 : Fin 2) * 4000 ≤ (i 0).val ∧ (i 0).val < idx t (0 : Fin 2) * 4000 + 4000; omega
  | ⟨1, _⟩ => show idx t (1 : Fin 2) * 128 ≤ (i 1).val ∧ (i 1).val < idx t (1 : Fin 2) * 128 + 128; omega

-- A product of two rank-two arrays over one contracted axis, added into zeros, is at each index the row-by-column sum.
theorem matmul2_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (a : FVec Ideal ⟨2, ![M, K]⟩ φ₁) (w : FVec Ideal ⟨2, ![K, N]⟩ φ₂) (p : Fin M) (q : Fin N) :
    matmul D none a w (constant ⟨2, ![M, N]⟩ .f32 0x00000000#32) (ix2 p q) = ∑ k : Fin K, a (ix2 p k) * w (ix2 k q) := by
  show FloatOps.matmul D none a w (constant _ .f32 0x00000000#32) (ix2 p q) = _
  rw [Ideal.matmul_constant_zero_apply, ← Equiv.sum_comp (contrEquiv1 D K hr hs).symm]
  refine Finset.sum_congr rfl fun k _ => ?_
  have hk := contrEquiv1_symm_val D K hr hs k
  rw [idx2_ext (j := D.lhsIdx (ix2 p q) _) (j' := ix2 p k) (hl0 _ _) ((hl1 _ _).trans hk),
    idx2_ext (j := D.rhsIdx (ix2 p q) _) (j' := ix2 k q) ((hr0 _ _).trans hk) (hr1 _ _)]

end Cert.KernelIdeal.Val
-- ==== Proof.KV.LinVal.lean ====
import proofs.«123582_j22084721836889_2_alg».proof.Proof.KI.Lin0
import proofs.«123582_j22084721836889_2_alg».proof.Proof.Math.Spec
import Idealize.ShloMosaic.Lib.Pipeline.Value
import Idealize.ShloMosaic.Lib.ValueIdx
import Idealize.ShloMosaic.Lib.ValueLayout
import Idealize.ShloMosaic.PureOps.Ideal.Laws
import proofs.«123582_j22084721836889_2_alg».proof.Proof.KV.ValLib

noncomputable section

namespace Cert.Spec

open scoped BigOperators

def linArr (h neigh : Fin 200000 → Fin 128 → EReal) (C : Fin 200000 → Fin 5 → EReal) (emb : Fin 5 → Fin 128 → EReal)
    (invd : Fin 200000 → EReal) (W : Fin 128 → Fin 128 → EReal) (b : Fin 128 → EReal) : Fin 200000 → Fin 128 → EReal :=
  fun p q => (∑ k : Fin 128, ((h p k + neigh p k + ∑ v : Fin 5, C p v * emb v k) * invd p) * W k q) + b q

theorem klin_eq_linArr (gs : Fin NE → Fin NN) (tg : Fin NE → Option (Fin NN)) (ef : Fin NE → Fin 5)
    (h : Fin NN → Fin DD → EReal) (emb : Fin 5 → Fin DD → EReal) (W : Fin DD → Fin DD → EReal) (b : Fin DD → EReal) :
    klin gs tg ef h emb W b = linArr h (seg tg (fun e j => h (gs e) j)) (cmat tg ef) emb (invdeg tg) W b := rfl

end Cert.Spec

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open scoped BigOperators

theorem embDot_apply (x : FVec Ideal S4000x5 .bf16) (y : FVec Ideal S5x128 .bf16) (p : Fin 4000) (q : Fin 128) :
    matmul dot_S4000x5_S5x128_S4000x128_1_0_0_1_n_n none x y (constant (F := Ideal) S4000x128 .f32 0x00000000#32) (ix2 p q)
      = ∑ v : Fin 5, x (ix2 p v) * y (ix2 v q) :=
  matmul2_apply dot_S4000x5_S5x128_S4000x128_1_0_0_1_n_n rfl rfl (fun _ _ => rfl) (fun j k => dot_S4000x5_S5x128_S4000x128_1_0_0_1_n_n.lhsIdx_val_of_single rfl j k)
    (fun j k => dot_S4000x5_S5x128_S4000x128_1_0_0_1_n_n.rhsIdx_val_of_single rfl j k) (fun _ _ => rfl) x y p q

theorem wDot_apply (x : FVec Ideal S4000x128 .bf16) (y : FVec Ideal S128x128 .bf16) (p : Fin 4000) (q : Fin 128) :
    matmul dot_S4000x128_S128x128_S4000x128_1_0_0_1_n_n none x y (constant (F := Ideal) S4000x128 .f32 0x00000000#32) (ix2 p q)
      = ∑ k : Fin 128, x (ix2 p k) * y (ix2 k q) :=
  matmul2_apply dot_S4000x128_S128x128_S4000x128_1_0_0_1_n_n rfl rfl (fun _ _ => rfl) (fun j k => dot_S4000x128_S128x128_S4000x128_1_0_0_1_n_n.lhsIdx_val_of_single rfl j k)
    (fun j k => dot_S4000x128_S128x128_S4000x128_1_0_0_1_n_n.rhsIdx_val_of_single rfl j k) (fun _ _ => rfl) x y p q

theorem linCol_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

def linFull (A0 A1 : S200000x128.Idx → EReal) (A2 : S200000x5.Idx → EReal) (A3 : S5x128.Idx → EReal)
    (A4 : S200000x1.Idx → EReal) (A5 : S128x128.Idx → EReal) (A6 : S1x128.Idx → EReal) : S200000x128.Idx → EReal :=
  fun i => Cert.Spec.linArr (fun p k => A0 (ix2 p k)) (fun p k => A1 (ix2 p k)) (fun p v => A2 (ix2 p v)) (fun v k => A3 (ix2 v k))
    (fun p => A4 (ix2 p (0 : Fin 1))) (fun k q => A5 (ix2 k q)) (fun q => A6 (ix2 (0 : Fin 1) q)) (i 0) (i 1)

theorem lin_hz : (![0, 0] : Fin 2 → Nat) = fun _ => 0 := funext fun a => by fin_cases a <;> rfl

section Region0
variable (V : (c : Dev nD) → (b : Ref sig .tc) → Buf (Elt Ideal) ((c : Thread nD τ).loc b))

abbrev linH0 (c : Dev nD) : S200000x128.Idx → EReal := V c (Pipeline.arrRef spec0 0)

abbrev linNeigh0 (c : Dev nD) : S200000x128.Idx → EReal := V c (Pipeline.arrRef spec0 1)

abbrev linCnt0 (c : Dev nD) : S200000x5.Idx → EReal := V c (Pipeline.arrRef spec0 2)

abbrev linEmb0 (c : Dev nD) : S5x128.Idx → EReal := V c (Pipeline.arrRef spec0 3)

abbrev linInvd0 (c : Dev nD) : S200000x1.Idx → EReal := V c (Pipeline.arrRef spec0 4)

abbrev linW0 (c : Dev nD) : S128x128.Idx → EReal := V c (Pipeline.arrRef spec0 5)

abbrev linBias0 (c : Dev nD) : S1x128.Idx → EReal := V c (Pipeline.arrRef spec0 6)

theorem lin0_pay_apply (x0 x1 : Vec Ideal S4000x128 .f32) (x2 : Vec Ideal S4000x5 .f32) (x3 : Vec Ideal S5x128 .f32)
    (x4 : Vec Ideal S4000x1 .f32) (x5 : Vec Ideal S128x128 .f32) (x6 : Vec Ideal S1x128 .f32) (p : Fin 4000) (q : Fin 128) :
    k0_pay1 x0 x1 x2 x3 x4 x5 x6 (ix2 p q)
      = (∑ k : Fin 128, ((x0 (ix2 p k) + x1 (ix2 p k) + ∑ v : Fin 5, x2 (ix2 p v) * x3 (ix2 v k)) * x4 (ix2 p (0 : Fin 1))) * x5 (ix2 k q))
        + x6 (ix2 (0 : Fin 1) q) := by
  simp only [k0_pay1, addf_apply, mulf_apply, truncf_apply, shapeCast_self, broadcastTo_1b_ab_apply, linCol_broadcast_apply,
    wDot_apply, embDot_apply]

theorem lin0_idx : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = win0_7.index t (0 : Fin 2) ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) = t.val :=
  (by decide +kernel : ∀ t : Fin grid0.N, _)

theorem lin0_idx_onto : ∀ q0 : Fin 50, ∃ t : Fin cfg0.N, win0_7.index t = ![q0.val, 0] :=
  (by decide +kernel : ∀ q0 : Fin 50, ∃ t : Fin grid0.N, win0_7.index t = ![q0.val, 0])

set_option maxHeartbeats 1600000 in

theorem lin0_flushed (c : Dev nD) (t : Fin cfg0.N) :
    (dat0 (F := Ideal) V c).flushed 7 t = ((cfg0.win 7).blk t).view.read (Elt Ideal)
      (linFull (linH0 V c) (linNeigh0 V c) (linCnt0 V c) (linEmb0 V c) (linInvd0 V c) (linW0 V c) (linBias0 V c)) := by
  show (cfg0.win 7).cut (grid0.coords t) ((dat0 V c).after 7 t) = _
  rw [after0_7]
  unfold out0_7
  rw [View.canon_unit_zero lin_hz]
  simp only [View.ld_unit_zero (S := S4000x128) lin_hz, View.ld_unit_zero (S := S4000x5) lin_hz, View.ld_unit_zero (S := S5x128) lin_hz,
    View.ld_unit_zero (S := S4000x1) lin_hz, View.ld_unit_zero (S := S128x128) lin_hz, View.ld_unit_zero (S := S1x128) lin_hz]
  obtain ⟨e00, e01, e10, e11, e20, e21, e30, e31, e40, e41, e50, e51, e60, e61, e71, e70⟩ := lin0_idx t
  funext j
  obtain ⟨p, q, rfl⟩ : ∃ (p : Fin 4000) (q : Fin 128), j = ix2 p q := ⟨j 0, j 1, eq_ix2 j⟩
  show k0_pay1 (iblk0 V c 0 t) (iblk0 V c 1 t) (iblk0 V c 2 t) (iblk0 V c 3 t) (iblk0 V c 4 t) (iblk0 V c 5 t) (iblk0 V c 6 t) (ix2 p q) = _
  rw [lin0_pay_apply]
  have ha : ∀ k : Fin 128, iblk0 V c 0 t (ix2 p k) = linH0 V c (ix2 ((((cfg0.win 7).blk t).view.emb (ix2 p q)) 0) k) := fun k => congrArg (linH0 V c) (idx2_ext (j := ((cfg0.win 0).blk t).view.emb (ix2 p k))
    (by show win0_0.index t (0 : Fin 2) * 4000 + 1 * p.val = win0_7.index t (0 : Fin 2) * 4000 + 1 * p.val; omega) (by show win0_0.index t (1 : Fin 2) * 128 + 1 * k.val = k.val; omega))
  have hb : ∀ k : Fin 128, iblk0 V c 1 t (ix2 p k) = linNeigh0 V c (ix2 ((((cfg0.win 7).blk t).view.emb (ix2 p q)) 0) k) := fun k => congrArg (linNeigh0 V c) (idx2_ext (j := ((cfg0.win 1).blk t).view.emb (ix2 p k))
    (by show win0_1.index t (0 : Fin 2) * 4000 + 1 * p.val = win0_7.index t (0 : Fin 2) * 4000 + 1 * p.val; omega) (by show win0_1.index t (1 : Fin 2) * 128 + 1 * k.val = k.val; omega))
  have hc : ∀ v : Fin 5, iblk0 V c 2 t (ix2 p v) = linCnt0 V c (ix2 ((((cfg0.win 7).blk t).view.emb (ix2 p q)) 0) v) := fun v => congrArg (linCnt0 V c) (idx2_ext (j := ((cfg0.win 2).blk t).view.emb (ix2 p v))
    (by show win0_2.index t (0 : Fin 2) * 4000 + 1 * p.val = win0_7.index t (0 : Fin 2) * 4000 + 1 * p.val; omega) (by show win0_2.index t (1 : Fin 2) * 5 + 1 * v.val = v.val; omega))
  have hd : ∀ (v : Fin 5) (k : Fin 128), iblk0 V c 3 t (ix2 v k) = linEmb0 V c (ix2 v k) := fun v k => congrArg (linEmb0 V c) (idx2_ext (j := ((cfg0.win 3).blk t).view.emb (ix2 v k))
    (by show win0_3.index t (0 : Fin 2) * 5 + 1 * v.val = v.val; omega) (by show win0_3.index t (1 : Fin 2) * 128 + 1 * k.val = k.val; omega))
  have he : iblk0 V c 4 t (ix2 p (0 : Fin 1)) = linInvd0 V c (ix2 ((((cfg0.win 7).blk t).view.emb (ix2 p q)) 0) (0 : Fin 1)) := congrArg (linInvd0 V c) (idx2_ext (j := ((cfg0.win 4).blk t).view.emb (ix2 p (0 : Fin 1)))
    (by show win0_4.index t (0 : Fin 2) * 4000 + 1 * p.val = win0_7.index t (0 : Fin 2) * 4000 + 1 * p.val; omega) (by show win0_4.index t (1 : Fin 2) * 1 + 1 * 0 = 0; omega))
  have hf : ∀ k : Fin 128, iblk0 V c 5 t (ix2 k q) = linW0 V c (ix2 k ((((cfg0.win 7).blk t).view.emb (ix2 p q)) 1)) := fun k => congrArg (linW0 V c) (idx2_ext (j := ((cfg0.win 5).blk t).view.emb (ix2 k q))
    (by show win0_5.index t (0 : Fin 2) * 128 + 1 * k.val = k.val; omega) (by show win0_5.index t (1 : Fin 2) * 128 + 1 * q.val = win0_7.index t (1 : Fin 2) * 128 + 1 * q.val; omega))
  have hg : iblk0 V c 6 t (ix2 (0 : Fin 1) q) = linBias0 V c (ix2 (0 : Fin 1) ((((cfg0.win 7).blk t).view.emb (ix2 p q)) 1)) := congrArg (linBias0 V c) (idx2_ext (j := ((cfg0.win 6).blk t).view.emb (ix2 (0 : Fin 1) q))
    (by show win0_6.index t (0 : Fin 2) * 1 + 1 * 0 = 0; omega) (by show win0_6.index t (1 : Fin 2) * 128 + 1 * q.val = win0_7.index t (1 : Fin 2) * 128 + 1 * q.val; omega))
  simp only [ha, hb, hc, hd, he, hf, hg]
  rfl

theorem lin0_cover (i : S200000x128.Idx) :
    ∃ t : Fin cfg0.N, (cfg0.win 7).flush t = true ∧ i ∈ ((cfg0.win 7).blk t).view.set :=
  let ⟨t, h⟩ := cover_rows win0_7.index (fun t => ((cfg0.win 7).blk t).view.set)
    (fun t i => by
      show i ∈ ((View.whole (Pipeline.arrRef spec0 7)).slice (win0_7.rect t)).set ↔ _
      rw [View.set_slice_whole, Rect.mem_set_unit]; exact Iff.rfl) lin0_idx_onto i
  ⟨t, flush0_7 t, h⟩

theorem lin0_final (c : Dev nD) : (dat0 (F := Ideal) V c).arrAt 7 cfg0.N
    = linFull (linH0 V c) (linNeigh0 V c) (linCnt0 V c) (linEmb0 V c) (linInvd0 V c) (linW0 V c) (linBias0 V c) :=
  (dat0 V c).arrAt_eq_of_cover 7 _ (fun t _ => lin0_flushed V c t) lin0_cover

theorem lin0_val (c : Dev nD) (p : Fin 200000) (q : Fin 128) : ((dat0 (F := Ideal) V c).arrAt 7 cfg0.N) (ix2 p q) = Cert.Spec.linArr (fun p k => V c (Pipeline.arrRef spec0 0) (ix2 p k)) (fun p k => V c (Pipeline.arrRef spec0 1) (ix2 p k)) (fun p v => V c (Pipeline.arrRef spec0 2) (ix2 p v)) (fun v k => V c (Pipeline.arrRef spec0 3) (ix2 v k)) (fun p => V c (Pipeline.arrRef spec0 4) (ix2 p (0 : Fin 1))) (fun k q => V c (Pipeline.arrRef spec0 5) (ix2 k q)) (fun q => V c (Pipeline.arrRef spec0 6) (ix2 (0 : Fin 1) q)) p q := by
  rw [lin0_final]
  rfl

end Region0

end Cert.KernelIdeal.Val

end
-- ==== Proof.KV.StatsValLib.lean ====
import proofs.«123582_j22084721836889_2_alg».proof.KernelIdeal
import Idealize.ShloMosaic.PureOps.Ideal
import Idealize.ShloMosaic.Lib.ValueIdx

noncomputable section

namespace Cert.KernelIdeal.Val

open Cert.KernelIdeal Idealize.ShloMosaic Idealize.ShloMosaic.ValueIdx
open scoped BigOperators

theorem sum_rows_blocks (f : Fin 200000 → EReal) :
    ∑ n : Fin 200000, f n = ∑ t : Fin 50, ∑ i : Fin 4000, f (finProdFinEquiv (t, i)) :=
  ((finProdFinEquiv (m := 50) (n := 4000)).sum_comp f).symm.trans (Fintype.sum_prod_type _)

/-- A running row vector that starts at zero and at each of the fifty blocks adds, lane by lane, the block's column sum
    of `g` of the entries ends at the column sum of `g` over all the rows, the blocks being the rows `i + 4000 t`. -/
theorem acc_colsum {N : ℕ} (hN : N = 50) (acc : ℕ → Vec Ideal S1x128 .f32) (blk : Fin N → Vec Ideal S4000x128 .f32)
    (pay : Vec Ideal S4000x128 .f32 → Vec Ideal S1x128 .f32 → Vec Ideal S1x128 .f32) (g : EReal → EReal)
    (h0 : ∀ j, acc 0 j = 0) (hs : ∀ t : Fin N, acc (t.val + 1) = pay (blk t) (acc t.val))
    (hp : ∀ x s (q : Fin 128), pay x s (ix2 (0 : Fin 1) q) = s (ix2 (0 : Fin 1) q) + ∑ i : Fin 4000, g (x (ix2 i q)))
    (rows : Vec Ideal S200000x128 .f32)
    (hb : ∀ (t : Fin N) (i : Fin 4000) (q : Fin 128) (r : Fin 200000), r.val = i.val + 4000 * t.val → blk t (ix2 i q) = rows (ix2 r q))
    (q : Fin 128) : acc 50 (ix2 (0 : Fin 1) q) = ∑ n : Fin 200000, g (rows (ix2 n q)) := by
  subst hN
  have key : ∀ n, n ≤ 50 → acc n (ix2 (0 : Fin 1) q)
      = ∑ t ∈ Finset.range n, if h : t < 50 then ∑ i : Fin 4000, g (blk ⟨t, h⟩ (ix2 i q)) else 0 := by
    intro n
    induction n with
    | zero => intro _; rw [h0, Finset.sum_range_zero]
    | succ n ih =>
      intro hn
      have h : n < 50 := hn
      rw [hs ⟨n, h⟩, hp, ih (Nat.le_of_lt h), Finset.sum_range_succ, dif_pos h]
  rw [key 50 le_rfl, ← Fin.sum_univ_eq_sum_range (fun t => if h : t < 50 then ∑ i : Fin 4000, g (blk ⟨t, h⟩ (ix2 i q)) else 0) 50,
    sum_rows_blocks]
  refine Finset.sum_congr rfl fun t _ => ?_
  rw [dif_pos t.isLt]
  exact Finset.sum_congr rfl fun i _ => congrArg g (hb ⟨t.val, t.isLt⟩ i q _ rfl)

end Cert.KernelIdeal.Val

end
-- ==== Proof.KV.StatsVal.lean ====
import proofs.«123582_j22084721836889_2_alg».proof.Proof.KI.Stats1
import proofs.«123582_j22084721836889_2_alg».proof.Proof.Math.Spec
import proofs.«123582_j22084721836889_2_alg».proof.Proof.KV.StatsValLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open scoped BigOperators

section Region1
variable (V : (c : Dev nD) → (b : Ref sig .tc) → Buf (Elt Ideal) ((c : Thread nD τ).loc b))

abbrev rows1 (c : Dev nD) : S200000x128.Idx → EReal := V c (Pipeline.arrRef spec1 0)

theorem stats1_pay1_apply (j : S1x128.Idx) : (k1_pay1 (F := Ideal)) j = 0 := by
  simp only [k1_pay1, shapeCast_self, broadcast_apply]
  exact Ideal.ofBits_zero_f32
theorem stats1_pay2_apply (j : S1x128.Idx) : (k1_pay2 (F := Ideal)) j = 0 := by
  simp only [k1_pay2, shapeCast_self, broadcast_apply]
  exact Ideal.ofBits_zero_f32

theorem stats1_lift (q : Fin 128) (k : Fin 4000) :
    reduces_S4000x128_S128.lift (fun a : Fin 1 => (ix2 (0 : Fin 1) q) a.succ) k = ix2 k q := by
  funext a; apply Fin.ext
  match a with
  | ⟨0, _⟩ => rfl
  | ⟨1, _⟩ => rfl

theorem stats1_pay4_apply (x : Vec Ideal S4000x128 .f32) (s : Vec Ideal S1x128 .f32) (q : Fin 128) :
    k1_pay4 x s (ix2 (0 : Fin 1) q) = s (ix2 (0 : Fin 1) q) + ∑ i : Fin 4000, x (ix2 i q) := by
  simp only [k1_pay4, k1_pay3, shapeCast_self, addf_apply]
  congr 1
  refine (shapeCast_addUnit_apply ![128] _ _ _).trans ?_
  refine (Ideal.multiReduction_add_single x _ reduces_S4000x128_S128 _ _ _).trans ?_
  exact Finset.sum_congr rfl fun k _ => congrArg x (stats1_lift q k)

theorem stats1_pay5_apply (x : Vec Ideal S4000x128 .f32) (s : Vec Ideal S1x128 .f32) (q : Fin 128) :
    k1_pay5 x s (ix2 (0 : Fin 1) q) = s (ix2 (0 : Fin 1) q) + ∑ i : Fin 4000, x (ix2 i q) * x (ix2 i q) := by
  simp only [k1_pay5, k1_pay3, shapeCast_self, addf_apply]
  congr 1
  refine (shapeCast_addUnit_apply ![128] _ _ _).trans ?_
  refine (Ideal.multiReduction_add_single (mulf x x) _ reduces_S4000x128_S128 _ _ _).trans ?_
  exact Finset.sum_congr rfl fun k _ => congrArg (fun z => x z * x z) (stats1_lift q k)

theorem stats1_idx : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

theorem iblk1_apply (c : Dev nD) (t : Fin cfg1.N) (i : Fin 4000) (q : Fin 128) (r : Fin 200000) (hr : r.val = i.val + 4000 * t.val) :
    iblk1 V c 0 t (ix2 i q) = rows1 V c (ix2 r q) := by
  obtain ⟨e0, e1⟩ := stats1_idx t
  have h : ((cfg1.win 0).blk t).view.emb (ix2 i q) = ix2 r q := by
    funext a; apply Fin.ext
    match a with
    | ⟨0, _⟩ => show win1_0.index t (0 : Fin 2) * 4000 + 1 * i.val = r.val; omega
    | ⟨1, _⟩ => show win1_0.index t (1 : Fin 2) * 128 + 1 * q.val = q.val; omega
  exact congrArg (rows1 V c) h

theorem stats1_sum (c : Dev nD) (q : Fin 128) :
    (dat1 (F := Ideal) V c).arrAt 1 cfg1.N (ix2 (0 : Fin 1) q)
      = Cert.Spec.colsum (fun p q => V c (Pipeline.arrRef spec1 0) (ix2 p q)) q := by
  rw [arrAt1_1]
  exact acc_colsum N_1 (acc1_0 V c) (iblk1 V c 0) k1_pay4 id (fun j => by rw [acc1_0_zero V c 0 rfl]; exact stats1_pay1_apply j)
    (acc1_0_succ V c) stats1_pay4_apply (rows1 V c) (iblk1_apply V c) q

theorem stats1_sumsq (c : Dev nD) (q : Fin 128) :
    (dat1 (F := Ideal) V c).arrAt 2 cfg1.N (ix2 (0 : Fin 1) q)
      = Cert.Spec.colsumsq (fun p q => V c (Pipeline.arrRef spec1 0) (ix2 p q)) q := by
  rw [arrAt1_2]
  exact acc_colsum N_1 (acc1_1 V c) (iblk1 V c 0) k1_pay5 (fun z => z * z) (fun j => by rw [acc1_1_zero V c 0 rfl]; exact stats1_pay2_apply j)
    (acc1_1_succ V c) stats1_pay5_apply (rows1 V c) (iblk1_apply V c) q

end Region1
end Cert.KernelIdeal.Val
end
-- ==== Proof.KV.HostStats.lean ====
import proofs.«123582_j22084721836889_2_alg».proof.Proof.Gen.KernelIdeal.Regions
import proofs.«123582_j22084721836889_2_alg».proof.Proof.Math.Spec
import proofs.«123582_j22084721836889_2_alg».proof.Proof.KV.HostStatsLib
import Idealize.ShloMosaic.Lib.StableHlo.Run
import Idealize.ShloMosaic.Lib.ValueIdx
import Idealize.ShloMosaic.Lib.ValueLayout

set_option maxRecDepth 2280

noncomputable section

namespace Cert.KernelIdeal.Val

open Idealize.ShloMosaic Idealize.ShloMosaic.TcCoe Idealize.ShloMosaic.ValueIdx
open Cert.KernelIdeal Cert.KernelIdeal.Gen

set_option maxHeartbeats 1600000 in

theorem scale2_apply (Vin : Valuation τ sig (Elt Ideal)) (q : Fin 128) :
    (StableHlo.after (hostOps2 (F := Ideal)) Vin (main_v53 : DevRef τ sig) : (⟨S1x128, .f32⟩ : BufTy).Contents (Elt Ideal)) (ix2 (0 : Fin 1) q)
      = Cert.Spec.kscale (fun q => (Vin (main_v38_0 : DevRef τ sig) : (⟨S1x128, .f32⟩ : BufTy).Contents (Elt Ideal)) (ix2 (0 : Fin 1) q))
          (fun q => (Vin (main_v38_1 : DevRef τ sig) : (⟨S1x128, .f32⟩ : BufTy).Contents (Elt Ideal)) (ix2 (0 : Fin 1) q))
          (fun q => (Vin (main_arg9 : DevRef τ sig) : (⟨S5x128, .f32⟩ : BufTy).Contents (Elt Ideal)) (ix2 (0 : Fin 5) q)) q := by
  dsimp only [hostOps2]
  open StableHlo in after_results_simp
  exact scale_term _ _ _ _ 0 0 _ _ _ rfl q

set_option maxHeartbeats 1600000 in

theorem shift2_apply (Vin : Valuation τ sig (Elt Ideal)) (q : Fin 128) :
    (StableHlo.after (hostOps2 (F := Ideal)) Vin (main_v58 : DevRef τ sig) : (⟨S1x128, .f32⟩ : BufTy).Contents (Elt Ideal)) (ix2 (0 : Fin 1) q)
      = Cert.Spec.kshift (fun q => (Vin (main_v38_0 : DevRef τ sig) : (⟨S1x128, .f32⟩ : BufTy).Contents (Elt Ideal)) (ix2 (0 : Fin 1) q))
          (fun q => (Vin (main_v38_1 : DevRef τ sig) : (⟨S1x128, .f32⟩ : BufTy).Contents (Elt Ideal)) (ix2 (0 : Fin 1) q))
          (fun q => (Vin (main_arg9 : DevRef τ sig) : (⟨S5x128, .f32⟩ : BufTy).Contents (Elt Ideal)) (ix2 (0 : Fin 5) q))
          (fun q => (Vin (main_arg10 : DevRef τ sig) : (⟨S5x128, .f32⟩ : BufTy).Contents (Elt Ideal)) (ix2 (0 : Fin 5) q)) q := by
  dsimp only [hostOps2]
  open StableHlo in after_results_simp
  exact shift_term _ _ _ _ _ 0 0 _ _ _ rfl q

theorem kept2 (Vin : Valuation τ sig (Elt Ideal)) (b : Ref sig .tc) (hb : b ∉ Gen.hostOps2_W) :
    StableHlo.after (hostOps2 (F := Ideal)) Vin (b : DevRef τ sig) = Vin (b : DevRef τ sig) :=
  StableHlo.after_of_writes_sub hostOps2 Vin hostOps2_writes hb

end Cert.KernelIdeal.Val

end
-- ==== Proof.KV.NormVal.lean ====
import proofs.«123582_j22084721836889_2_alg».proof.Proof.KI.Norm2
import proofs.«123582_j22084721836889_2_alg».proof.Proof.Math.Spec
import Idealize.ShloMosaic.Lib.Pipeline.Value
import Idealize.ShloMosaic.Lib.ValueIdx
import Idealize.ShloMosaic.Lib.ValueLayout
import Idealize.ShloMosaic.PureOps.Ideal.Laws
import proofs.«123582_j22084721836889_2_alg».proof.Proof.KV.ValLib

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

section Region2
variable (V : (c : Dev nD) → (b : Ref sig .tc) → Buf (Elt Ideal) ((c : Thread nD τ).loc b))

abbrev rows2 (c : Dev nD) : S200000x128.Idx → EReal := V c (Pipeline.arrRef spec2 0)

abbrev scale2 (c : Dev nD) : S1x128.Idx → EReal := V c (Pipeline.arrRef spec2 1)

abbrev shift2 (c : Dev nD) : S1x128.Idx → EReal := V c (Pipeline.arrRef spec2 2)

theorem norm2_pay_apply (x0 : Vec Ideal S4000x128 .f32) (x1 x2 : Vec Ideal S1x128 .f32) (p : Fin 4000) (q : Fin 128) :
    k2_pay1 x0 x1 x2 (ix2 p q) = max (x0 (ix2 p q) * x1 (ix2 (0 : Fin 1) q) + x2 (ix2 (0 : Fin 1) q)) 0 := by
  simp only [k2_pay1, truncf_apply, maximumf_apply, addf_apply, mulf_apply, broadcast_apply, shapeCast_self, broadcastTo_1b_ab_apply]
  show max _ (Ideal.ofBits .f32 0x00000000#32) = _
  rw [Ideal.ofBits_zero_f32]

def normArr2 (A0 : S200000x128.Idx → EReal) (A1 A2 : S1x128.Idx → EReal) : S200000x128.Idx → EReal :=
  fun i => max (A0 i * A1 (ix2 (0 : Fin 1) (i 1)) + A2 (ix2 (0 : Fin 1) (i 1))) 0

theorem hz2 : (![0, 0] : Fin 2 → Nat) = fun _ => 0 := funext fun a => by fin_cases a <;> rfl

theorem norm2_idx : ∀ t : Fin cfg2.N, win2_0.index t (0 : Fin 2) = win2_3.index t (0 : Fin 2) ∧ win2_0.index t (1 : Fin 2) = 0
    ∧ win2_3.index t (1 : Fin 2) = 0 ∧ win2_3.index t (0 : Fin 2) = t.val
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

theorem norm2_idx_onto : ∀ q0 : Fin 50, ∃ t : Fin cfg2.N, win2_3.index t = ![q0.val, 0] :=
  (by decide +kernel : ∀ q0 : Fin 50, ∃ t : Fin grid2.N, win2_3.index t = ![q0.val, 0])

set_option maxHeartbeats 800000 in

theorem norm2_flushed (c : Dev nD) (t : Fin cfg2.N) :
    (dat2 (F := Ideal) V c).flushed 3 t = ((cfg2.win 3).blk t).view.read (Elt Ideal)
      (normArr2 (rows2 V c) (scale2 V c) (shift2 V c)) := by
  show (cfg2.win 3).cut (grid2.coords t) ((dat2 V c).after 3 t) = _
  rw [after2_3]
  unfold out2_3
  rw [View.canon_unit_zero hz2]
  simp only [View.ld_unit_zero (S := S4000x128) hz2, View.ld_unit_zero (S := S1x128) hz2]
  obtain ⟨e0, e1, e2, e3, e4, e5, e6, e7⟩ := norm2_idx t
  funext j
  obtain ⟨p, q, rfl⟩ : ∃ (p : Fin 4000) (q : Fin 128), j = ix2 p q := ⟨j 0, j 1, eq_ix2 j⟩
  show k2_pay1 (iblk2 V c 0 t) (iblk2 V c 1 t) (iblk2 V c 2 t) (ix2 p q) = _
  rw [norm2_pay_apply]
  have ha : iblk2 V c 0 t (ix2 p q) = rows2 V c (((cfg2.win 3).blk t).view.emb (ix2 p q)) := congrArg (rows2 V c) (idx2_ext (j := ((cfg2.win 0).blk t).view.emb (ix2 p q))
    (by show win2_0.index t (0 : Fin 2) * 4000 + 1 * p.val = win2_3.index t (0 : Fin 2) * 4000 + 1 * p.val; omega) (by show win2_0.index t (1 : Fin 2) * 128 + 1 * q.val = win2_3.index t (1 : Fin 2) * 128 + 1 * q.val; omega))
  have hb : iblk2 V c 1 t (ix2 (0 : Fin 1) q) = scale2 V c (ix2 (0 : Fin 1) ((((cfg2.win 3).blk t).view.emb (ix2 p q)) 1)) := congrArg (scale2 V c) (idx2_ext (j := ((cfg2.win 1).blk t).view.emb (ix2 (0 : Fin 1) q))
    (by show win2_1.index t (0 : Fin 2) * 1 + 1 * 0 = 0; omega) (by show win2_1.index t (1 : Fin 2) * 128 + 1 * q.val = win2_3.index t (1 : Fin 2) * 128 + 1 * q.val; omega))
  have hc : iblk2 V c 2 t (ix2 (0 : Fin 1) q) = shift2 V c (ix2 (0 : Fin 1) ((((cfg2.win 3).blk t).view.emb (ix2 p q)) 1)) := congrArg (shift2 V c) (idx2_ext (j := ((cfg2.win 2).blk t).view.emb (ix2 (0 : Fin 1) q))
    (by show win2_2.index t (0 : Fin 2) * 1 + 1 * 0 = 0; omega) (by show win2_2.index t (1 : Fin 2) * 128 + 1 * q.val = win2_3.index t (1 : Fin 2) * 128 + 1 * q.val; omega))
  rw [ha, hb, hc]
  rfl

theorem norm2_cover (i : S200000x128.Idx) :
    ∃ t : Fin cfg2.N, (cfg2.win 3).flush t = true ∧ i ∈ ((cfg2.win 3).blk t).view.set :=
  let ⟨t, h⟩ := cover_rows win2_3.index (fun t => ((cfg2.win 3).blk t).view.set)
    (fun t i => by
      show i ∈ ((View.whole main_v59).slice (win2_3.rect t)).set ↔ _
      rw [View.set_slice_whole, Rect.mem_set_unit]; exact Iff.rfl) norm2_idx_onto i
  ⟨t, flush2_3 t, h⟩

theorem norm2_final (c : Dev nD) : (dat2 (F := Ideal) V c).arrAt 3 cfg2.N
    = normArr2 (rows2 V c) (scale2 V c) (shift2 V c) :=
  (dat2 V c).arrAt_eq_of_cover 3 _ (fun t _ => norm2_flushed V c t) norm2_cover

theorem norm2_val (c : Dev nD) (p : Fin 200000) (q : Fin 128) :
    ((dat2 (F := Ideal) V c).arrAt 3 cfg2.N) (ix2 p q)
      = Cert.Spec.knorm (fun p q => V c (Pipeline.arrRef spec2 0) (ix2 p q)) (fun q => V c (Pipeline.arrRef spec2 1) (ix2 (0 : Fin 1) q))
          (fun q => V c (Pipeline.arrRef spec2 2) (ix2 (0 : Fin 1) q)) p q := by
  rw [norm2_final]
  rfl

end Region2

end Cert.KernelIdeal.Val

end
-- ==== Proof.KV.ChainLayerLib.lean ====
import proofs.«123582_j22084721836889_2_alg».proof.Proof.Math.Spec
import proofs.«123582_j22084721836889_2_alg».proof.Proof.Math.Net
import proofs.«123582_j22084721836889_2_alg».proof.Proof.KV.LinVal

noncomputable section

namespace Cert.Spec

theorem klayer_eq (gs : Fin NE → Fin NN) (tg : Fin NE → Option (Fin NN)) (ef : Fin NE → Fin 5)
    (h : Fin NN → Fin DD → EReal) (emb : Fin 5 → Fin DD → EReal) (W : Fin DD → Fin DD → EReal)
    (b γ β : Fin DD → EReal) :
    klayer gs tg ef h emb W b γ β
      = knorm (klin gs tg ef h emb W b)
          (kscale (colsum (klin gs tg ef h emb W b)) (colsumsq (klin gs tg ef h emb W b)) γ)
          (kshift (colsum (klin gs tg ef h emb W b)) (colsumsq (klin gs tg ef h emb W b)) γ β) := rfl

theorem linArr_congr {h h' neigh neigh' : Fin 200000 → Fin 128 → EReal} {C C' : Fin 200000 → Fin 5 → EReal}
    {emb emb' : Fin 5 → Fin 128 → EReal} {invd invd' : Fin 200000 → EReal} {W W' : Fin 128 → Fin 128 → EReal}
    {b b' : Fin 128 → EReal} (e0 : h = h') (e1 : neigh = neigh') (e2 : C = C') (e3 : emb = emb') (e4 : invd = invd')
    (e5 : W = W') (e6 : b = b') : linArr h neigh C emb invd W b = linArr h' neigh' C' emb' invd' W' b' := by
  subst e0 e1 e2 e3 e4 e5 e6; rfl

theorem knorm_congr {x x' : Fin NN → Fin DD → EReal} {s s' t t' : Fin DD → EReal}
    (ex : x = x') (es : s = s') (et : t = t') : knorm x s t = knorm x' s' t' := by
  subst ex es et; rfl

theorem kscale_congr {s s' ss ss' γ γ' : Fin DD → EReal} (es : s = s') (ess : ss = ss') (eγ : γ = γ') :
    kscale s ss γ = kscale s' ss' γ' := by
  subst es ess eγ; rfl

theorem kshift_congr {s s' ss ss' γ γ' β β' : Fin DD → EReal} (es : s = s') (ess : ss = ss') (eγ : γ = γ')
    (eβ : β = β') : kshift s ss γ β = kshift s' ss' γ' β' := by
  subst es ess eγ eβ; rfl

end Cert.Spec

end
-- ==== Proof.KV.Chain0.lean ====
import proofs.«123582_j22084721836889_2_alg».proof.Proof.KV.ChainArgs
import proofs.«123582_j22084721836889_2_alg».proof.Proof.KV.HostPro
import proofs.«123582_j22084721836889_2_alg».proof.Proof.KV.LinVal
import proofs.«123582_j22084721836889_2_alg».proof.Proof.KV.StatsVal
import proofs.«123582_j22084721836889_2_alg».proof.Proof.KV.HostStats
import proofs.«123582_j22084721836889_2_alg».proof.Proof.KV.NormVal
import proofs.«123582_j22084721836889_2_alg».proof.Proof.KV.ChainLayerLib
import Idealize.ShloMosaic.Lib.StableHlo.Run
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Cert.Hand.HostRead

abbrev EfOK (m : (ℓ : Loc nD τ sig) → Buf (Elt Ideal) ℓ) (c : Dev nD) : Prop :=
  ∀ e : Fin 400000, 0 ≤ ((m ((c.tc : Thread nD τ).loc main_arg1) : (⟨S400000, .i32⟩ : BufTy).Contents (Elt Ideal)) (ix1 e)).toInt
    ∧ ((m ((c.tc : Thread nD τ).loc main_arg1) : (⟨S400000, .i32⟩ : BufTy).Contents (Elt Ideal)) (ix1 e)).toInt < 5

section Layer0
variable (m : (ℓ : Loc nD τ sig) → Buf (Elt Ideal) ℓ) (c : Dev nD)

theorem w3_feat : (fun (p : Fin 200000) (k : Fin 128) => (W3 m c (main_v6 : DevRef τ sig) : (⟨S200000x128, .f32⟩ : BufTy).Contents (Elt Ideal)) (ix2 p k)) = hk0A m c := by
  funext p k; exact h0_apply (Gen.V0 m c) p k
theorem w3_neigh : (fun (p : Fin 200000) (k : Fin 128) => (W3 m c (main_v29 : DevRef τ sig) : (⟨S200000x128, .f32⟩ : BufTy).Contents (Elt Ideal)) (ix2 p k))
    = Cert.Spec.seg (tgA m c) (fun e j => hk0A m c (gsA m c e) j) := by
  funext p k; exact neigh0_apply (Gen.V0 m c) p k
theorem w3_cmat (hef : EfOK m c) : (fun (p : Fin 200000) (v : Fin 5) => (W3 m c (main_v19 : DevRef τ sig) : (⟨S200000x5, .f32⟩ : BufTy).Contents (Elt Ideal)) (ix2 p v))
    = Cert.Spec.cmat (tgA m c) (efA m c) := by
  funext p v; exact cmat_apply (Gen.V0 m c) hef p v
theorem w3_emb : (fun (v : Fin 5) (k : Fin 128) => (W3 m c (main_v31 : DevRef τ sig) : (⟨S5x128, .f32⟩ : BufTy).Contents (Elt Ideal)) (ix2 v k)) = embA m c 0 := by
  funext v k; exact emb0_apply (Gen.V0 m c) v k
theorem w3_invd : (fun (p : Fin 200000) => (W3 m c (main_v15 : DevRef τ sig) : (⟨S200000x1, .f32⟩ : BufTy).Contents (Elt Ideal)) (ix2 p (0 : Fin 1))) = Cert.Spec.invdeg (tgA m c) := by
  funext p; exact invdeg_apply (Gen.V0 m c) p
theorem w3_w : (fun (k q : Fin 128) => (W3 m c (main_v36 : DevRef τ sig) : (⟨S128x128, .f32⟩ : BufTy).Contents (Elt Ideal)) (ix2 k q)) = WmA m c 0 := by
  funext k q; exact w0_apply (Gen.V0 m c) k q
theorem w3_b : (fun (q : Fin 128) => (W3 m c (main_v34 : DevRef τ sig) : (⟨S1x128, .f32⟩ : BufTy).Contents (Elt Ideal)) (ix2 (0 : Fin 1) q)) = bA m c 0 := by
  funext q; exact b0_apply (Gen.V0 m c) q

theorem W4_out : W4 m c (main_v37 : DevRef τ sig) = (dat0 (rd (W3 m)) c).arrAt 7 cfg0.N := by
  unfold W4; exact Function.update_self _ _ _

theorem w4_lin (hef : EfOK m c) : (fun (p : Fin 200000) (q : Fin 128) => (W4 m c (main_v37 : DevRef τ sig) : (⟨S200000x128, .f32⟩ : BufTy).Contents (Elt Ideal)) (ix2 p q)) = x0A m c := by
  funext p q
  exact ((congrFun (W4_out m c) (ix2 p q)).trans (lin0_val (rd (W3 m)) c p q)).trans (congrFun (congrFun (Cert.Spec.linArr_congr
    (w3_feat m c) (w3_neigh m c) (w3_cmat m c hef) (w3_emb m c) (w3_invd m c) (w3_w m c) (w3_b m c)) p) q)

theorem W5_out0 : W5 m c (main_v38_0 : DevRef τ sig) = (dat1 (rd (W4 m)) c).arrAt 1 cfg1.N := by
  unfold W5
  rw [Function.update_of_ne (StableHlo.devRef_ne_of_ne (show (main_v38_0 : Ref sig .tc) ≠ main_v38_1 by decide)), Function.update_self]
theorem W5_out1 : W5 m c (main_v38_1 : DevRef τ sig) = (dat1 (rd (W4 m)) c).arrAt 2 cfg1.N := by
  unfold W5; exact Function.update_self _ _ _

theorem w5_sum (hef : EfOK m c) : (fun (q : Fin 128) => (W5 m c (main_v38_0 : DevRef τ sig) : (⟨S1x128, .f32⟩ : BufTy).Contents (Elt Ideal)) (ix2 (0 : Fin 1) q)) = Cert.Spec.colsum (x0A m c) := by
  funext q
  exact ((congrFun (W5_out0 m c) (ix2 (0 : Fin 1) q)).trans (stats1_sum (rd (W4 m)) c q)).trans (congrFun (congrArg Cert.Spec.colsum (w4_lin m c hef)) q)
theorem w5_sumsq (hef : EfOK m c) : (fun (q : Fin 128) => (W5 m c (main_v38_1 : DevRef τ sig) : (⟨S1x128, .f32⟩ : BufTy).Contents (Elt Ideal)) (ix2 (0 : Fin 1) q)) = Cert.Spec.colsumsq (x0A m c) := by
  funext q
  exact ((congrFun (W5_out1 m c) (ix2 (0 : Fin 1) q)).trans (stats1_sumsq (rd (W4 m)) c q)).trans (congrFun (congrArg Cert.Spec.colsumsq (w4_lin m c hef)) q)

theorem w5_gamma : (fun (q : Fin 128) => (W5 m c (main_arg9 : DevRef τ sig) : (⟨S5x128, .f32⟩ : BufTy).Contents (Elt Ideal)) (ix2 (0 : Fin 5) q)) = γA m c 0 := by
  rw [(W5_late m c main_arg9 (by decide)).trans (W3_launch m c main_arg9 (by decide) (by decide) (by decide))]; rfl
theorem w5_beta : (fun (q : Fin 128) => (W5 m c (main_arg10 : DevRef τ sig) : (⟨S5x128, .f32⟩ : BufTy).Contents (Elt Ideal)) (ix2 (0 : Fin 5) q)) = βA m c 0 := by
  rw [(W5_late m c main_arg10 (by decide)).trans (W3_launch m c main_arg10 (by decide) (by decide) (by decide))]; rfl

theorem w6_scale (hef : EfOK m c) : (fun (q : Fin 128) => (W6 m c (main_v53 : DevRef τ sig) : (⟨S1x128, .f32⟩ : BufTy).Contents (Elt Ideal)) (ix2 (0 : Fin 1) q))
    = Cert.Spec.kscale (Cert.Spec.colsum (x0A m c)) (Cert.Spec.colsumsq (x0A m c)) (γA m c 0) := by
  funext q
  refine (scale2_apply (W5 m c) q).trans ?_
  rw [w5_sum m c hef, w5_sumsq m c hef, w5_gamma]
theorem w6_shift (hef : EfOK m c) : (fun (q : Fin 128) => (W6 m c (main_v58 : DevRef τ sig) : (⟨S1x128, .f32⟩ : BufTy).Contents (Elt Ideal)) (ix2 (0 : Fin 1) q))
    = Cert.Spec.kshift (Cert.Spec.colsum (x0A m c)) (Cert.Spec.colsumsq (x0A m c)) (γA m c 0) (βA m c 0) := by
  funext q
  refine (shift2_apply (W5 m c) q).trans ?_
  rw [w5_sum m c hef, w5_sumsq m c hef, w5_gamma, w5_beta]

theorem w6_lin (hef : EfOK m c) : (fun (p : Fin 200000) (q : Fin 128) => (W6 m c (main_v37 : DevRef τ sig) : (⟨S200000x128, .f32⟩ : BufTy).Contents (Elt Ideal)) (ix2 p q)) = x0A m c := by
  rw [(W6_of m c main_v37 (by decide)).trans (W5_of m c main_v37 (by decide))]; exact w4_lin m c hef

theorem W7_out : W7 m c (main_v59 : DevRef τ sig) = (dat2 (rd (W6 m)) c).arrAt 3 cfg2.N := by
  unfold W7; exact Function.update_self _ _ _

theorem w7_feat (hef : EfOK m c) : (fun (p : Fin 200000) (q : Fin 128) => (W7 m c (main_v59 : DevRef τ sig) : (⟨S200000x128, .bf16⟩ : BufTy).Contents (Elt Ideal)) (ix2 p q)) = hk1A m c := by
  funext p q
  exact ((congrFun (W7_out m c) (ix2 p q)).trans (norm2_val (rd (W6 m)) c p q)).trans (congrFun (congrFun (Cert.Spec.knorm_congr
    (w6_lin m c hef) (w6_scale m c hef) (w6_shift m c hef)) p) q)

end Layer0

end Cert.KernelIdeal.Val

end
-- ==== Proof.KV.HostLayer.lean ====
import proofs.«123582_j22084721836889_2_alg».proof.Proof.Gen.KernelIdeal.Regions
import proofs.«123582_j22084721836889_2_alg».proof.Proof.Math.Spec
import proofs.«123582_j22084721836889_2_alg».proof.Proof.Math.HostRead
import proofs.«123582_j22084721836889_2_alg».proof.Proof.KV.HostStatsLib
import proofs.«123582_j22084721836889_2_alg».proof.Proof.KV.HostLayerLib
import Idealize.ShloMosaic.Lib.StableHlo.Run
import Idealize.ShloMosaic.Lib.ValueIdx
import Idealize.ShloMosaic.Lib.ValueLayout
import Idealize.ShloMosaic.Lib.Pipeline.Value

set_option maxRecDepth 2280

noncomputable section

namespace Cert.KernelIdeal.Val

open Idealize.ShloMosaic Idealize.ShloMosaic.TcCoe Idealize.ShloMosaic.ValueIdx
open Cert.KernelIdeal Cert.KernelIdeal.Gen Cert.Hand.HostRead

set_option maxHeartbeats 1600000 in

theorem neigh3_apply (Vin : Valuation τ sig (Elt Ideal)) (n : Fin 200000) (j : Fin 128) :
    (StableHlo.after (hostOps3 (F := Ideal)) Vin (main_v70 : DevRef τ sig) : (⟨S200000x128, .f32⟩ : BufTy).Contents (Elt Ideal)) (ix2 n j)
      = Cert.Spec.seg (tgOf 200000 (Vin (main_arg3 : DevRef τ sig) : (⟨S400000, .i32⟩ : BufTy).Contents (Elt Ideal)))
          (fun e j => (Vin (main_v59 : DevRef τ sig) : (⟨S200000x128, .bf16⟩ : BufTy).Contents (Elt Ideal))
            (ix2 (gsOf 200000 (Vin (main_arg2 : DevRef τ sig) : (⟨S400000, .i32⟩ : BufTy).Contents (Elt Ideal)) e) j)) n j := by
  dsimp only [hostOps3]
  open StableHlo in after_results_simp
  exact neigh_term _ ⟨rfl, rfl, rfl, rfl, rfl, rfl, rfl⟩ _ ⟨rfl, rfl, rfl, rfl⟩ _ _ _ _ _ _ _ n j

set_option maxHeartbeats 1600000 in

theorem emb3_apply (Vin : Valuation τ sig (Elt Ideal)) (v : Fin 5) (k : Fin 128) :
    (StableHlo.after (hostOps3 (F := Ideal)) Vin (main_v72 : DevRef τ sig) : (⟨S5x128, .f32⟩ : BufTy).Contents (Elt Ideal)) (ix2 v k)
      = (Vin (main_arg6 : DevRef τ sig) : (⟨S5x5x128, .f32⟩ : BufTy).Contents (Elt Ideal)) (ix3 (1 : Fin 5) v k) := by
  dsimp only [hostOps3]
  open StableHlo in after_results_simp
  exact slab_apply 1 1 rfl _ _ _ v k

set_option maxHeartbeats 1600000 in

theorem w3_apply (Vin : Valuation τ sig (Elt Ideal)) (k q : Fin 128) :
    (StableHlo.after (hostOps3 (F := Ideal)) Vin (main_v77 : DevRef τ sig) : (⟨S128x128, .f32⟩ : BufTy).Contents (Elt Ideal)) (ix2 k q)
      = (Vin (main_arg7 : DevRef τ sig) : (⟨S5x128x128, .f32⟩ : BufTy).Contents (Elt Ideal)) (ix3 (1 : Fin 5) k q) := by
  dsimp only [hostOps3]
  open StableHlo in after_results_simp
  exact slab_apply 1 1 rfl _ _ _ k q

set_option maxHeartbeats 1600000 in

theorem b3_apply (Vin : Valuation τ sig (Elt Ideal)) (q : Fin 128) :
    (StableHlo.after (hostOps3 (F := Ideal)) Vin (main_v75 : DevRef τ sig) : (⟨S1x128, .f32⟩ : BufTy).Contents (Elt Ideal)) (ix2 (0 : Fin 1) q)
      = (Vin (main_arg8 : DevRef τ sig) : (⟨S5x128, .f32⟩ : BufTy).Contents (Elt Ideal)) (ix2 (1 : Fin 5) q) := by
  dsimp only [hostOps3]
  open StableHlo in after_results_simp
  exact paramRow_apply 1 1 rfl _ _ _ _ q

theorem kept3 (Vin : Valuation τ sig (Elt Ideal)) (b : Ref sig .tc) (hb : b ∉ Gen.hostOps3_W) :
    StableHlo.after (hostOps3 (F := Ideal)) Vin (b : DevRef τ sig) = Vin (b : DevRef τ sig) :=
  StableHlo.after_of_writes_sub hostOps3 Vin hostOps3_writes hb

end Cert.KernelIdeal.Val

end
-- ==== Proof.KV.LinVal3.lean ====
import proofs.«123582_j22084721836889_2_alg».proof.Proof.KI.Lin3
import proofs.«123582_j22084721836889_2_alg».proof.Proof.KV.LinVal

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open scoped BigOperators

section Region3
variable (V : (c : Dev nD) → (b : Ref sig .tc) → Buf (Elt Ideal) ((c : Thread nD τ).loc b))

abbrev linH3 (c : Dev nD) : S200000x128.Idx → EReal := V c (Pipeline.arrRef spec3 0)

abbrev linNeigh3 (c : Dev nD) : S200000x128.Idx → EReal := V c (Pipeline.arrRef spec3 1)

abbrev linCnt3 (c : Dev nD) : S200000x5.Idx → EReal := V c (Pipeline.arrRef spec3 2)

abbrev linEmb3 (c : Dev nD) : S5x128.Idx → EReal := V c (Pipeline.arrRef spec3 3)

abbrev linInvd3 (c : Dev nD) : S200000x1.Idx → EReal := V c (Pipeline.arrRef spec3 4)

abbrev linW3 (c : Dev nD) : S128x128.Idx → EReal := V c (Pipeline.arrRef spec3 5)

abbrev linBias3 (c : Dev nD) : S1x128.Idx → EReal := V c (Pipeline.arrRef spec3 6)

theorem lin3_pay_apply (x0 : Vec Ideal S4000x128 .bf16) (x1 : Vec Ideal S4000x128 .f32) (x2 : Vec Ideal S4000x5 .f32)
    (x3 : Vec Ideal S5x128 .f32) (x4 : Vec Ideal S4000x1 .f32) (x5 : Vec Ideal S128x128 .f32) (x6 : Vec Ideal S1x128 .f32)
    (p : Fin 4000) (q : Fin 128) :
    k3_pay1 x0 x1 x2 x3 x4 x5 x6 (ix2 p q)
      = (∑ k : Fin 128, ((x0 (ix2 p k) + x1 (ix2 p k) + ∑ v : Fin 5, x2 (ix2 p v) * x3 (ix2 v k)) * x4 (ix2 p (0 : Fin 1))) * x5 (ix2 k q))
        + x6 (ix2 (0 : Fin 1) q) := by
  simp only [k3_pay1, addf_apply, mulf_apply, truncf_apply, extf_apply, shapeCast_self, broadcastTo_1b_ab_apply, linCol_broadcast_apply,
    wDot_apply, embDot_apply]

theorem lin3_idx : ∀ t : Fin cfg3.N,
    win3_0.index t (0 : Fin 2) = win3_7.index t (0 : Fin 2) ∧ win3_0.index t (1 : Fin 2) = 0
    ∧ win3_1.index t (0 : Fin 2) = win3_7.index t (0 : Fin 2) ∧ win3_1.index t (1 : Fin 2) = 0
    ∧ win3_2.index t (0 : Fin 2) = win3_7.index t (0 : Fin 2) ∧ win3_2.index t (1 : Fin 2) = 0
    ∧ win3_3.index t (0 : Fin 2) = 0 ∧ win3_3.index t (1 : Fin 2) = 0
    ∧ win3_4.index t (0 : Fin 2) = win3_7.index t (0 : Fin 2) ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (1 : Fin 2) = 0 ∧ win3_7.index t (0 : Fin 2) = t.val :=
  (by decide +kernel : ∀ t : Fin grid3.N, _)

theorem lin3_idx_onto : ∀ q0 : Fin 50, ∃ t : Fin cfg3.N, win3_7.index t = ![q0.val, 0] :=
  (by decide +kernel : ∀ q0 : Fin 50, ∃ t : Fin grid3.N, win3_7.index t = ![q0.val, 0])

set_option maxHeartbeats 1600000 in

theorem lin3_flushed (c : Dev nD) (t : Fin cfg3.N) :
    (dat3 (F := Ideal) V c).flushed 7 t = ((cfg3.win 7).blk t).view.read (Elt Ideal)
      (linFull (linH3 V c) (linNeigh3 V c) (linCnt3 V c) (linEmb3 V c) (linInvd3 V c) (linW3 V c) (linBias3 V c)) := by
  show (cfg3.win 7).cut (grid3.coords t) ((dat3 V c).after 7 t) = _
  rw [after3_7]
  unfold out3_7
  rw [View.canon_unit_zero lin_hz]
  simp only [View.ld_unit_zero (S := S4000x128) lin_hz, View.ld_unit_zero (S := S4000x5) lin_hz, View.ld_unit_zero (S := S5x128) lin_hz,
    View.ld_unit_zero (S := S4000x1) lin_hz, View.ld_unit_zero (S := S128x128) lin_hz, View.ld_unit_zero (S := S1x128) lin_hz]
  obtain ⟨e00, e01, e10, e11, e20, e21, e30, e31, e40, e41, e50, e51, e60, e61, e71, e70⟩ := lin3_idx t
  funext j
  obtain ⟨p, q, rfl⟩ : ∃ (p : Fin 4000) (q : Fin 128), j = ix2 p q := ⟨j 0, j 1, eq_ix2 j⟩
  show k3_pay1 (iblk3 V c 0 t) (iblk3 V c 1 t) (iblk3 V c 2 t) (iblk3 V c 3 t) (iblk3 V c 4 t) (iblk3 V c 5 t) (iblk3 V c 6 t) (ix2 p q) = _
  rw [lin3_pay_apply]
  have ha : ∀ k : Fin 128, iblk3 V c 0 t (ix2 p k) = linH3 V c (ix2 ((((cfg3.win 7).blk t).view.emb (ix2 p q)) 0) k) := fun k => congrArg (linH3 V c) (idx2_ext (j := ((cfg3.win 0).blk t).view.emb (ix2 p k))
    (by show win3_0.index t (0 : Fin 2) * 4000 + 1 * p.val = win3_7.index t (0 : Fin 2) * 4000 + 1 * p.val; omega) (by show win3_0.index t (1 : Fin 2) * 128 + 1 * k.val = k.val; omega))
  have hb : ∀ k : Fin 128, iblk3 V c 1 t (ix2 p k) = linNeigh3 V c (ix2 ((((cfg3.win 7).blk t).view.emb (ix2 p q)) 0) k) := fun k => congrArg (linNeigh3 V c) (idx2_ext (j := ((cfg3.win 1).blk t).view.emb (ix2 p k))
    (by show win3_1.index t (0 : Fin 2) * 4000 + 1 * p.val = win3_7.index t (0 : Fin 2) * 4000 + 1 * p.val; omega) (by show win3_1.index t (1 : Fin 2) * 128 + 1 * k.val = k.val; omega))
  have hc : ∀ v : Fin 5, iblk3 V c 2 t (ix2 p v) = linCnt3 V c (ix2 ((((cfg3.win 7).blk t).view.emb (ix2 p q)) 0) v) := fun v => congrArg (linCnt3 V c) (idx2_ext (j := ((cfg3.win 2).blk t).view.emb (ix2 p v))
    (by show win3_2.index t (0 : Fin 2) * 4000 + 1 * p.val = win3_7.index t (0 : Fin 2) * 4000 + 1 * p.val; omega) (by show win3_2.index t (1 : Fin 2) * 5 + 1 * v.val = v.val; omega))
  have hd : ∀ (v : Fin 5) (k : Fin 128), iblk3 V c 3 t (ix2 v k) = linEmb3 V c (ix2 v k) := fun v k => congrArg (linEmb3 V c) (idx2_ext (j := ((cfg3.win 3).blk t).view.emb (ix2 v k))
    (by show win3_3.index t (0 : Fin 2) * 5 + 1 * v.val = v.val; omega) (by show win3_3.index t (1 : Fin 2) * 128 + 1 * k.val = k.val; omega))
  have he : iblk3 V c 4 t (ix2 p (0 : Fin 1)) = linInvd3 V c (ix2 ((((cfg3.win 7).blk t).view.emb (ix2 p q)) 0) (0 : Fin 1)) := congrArg (linInvd3 V c) (idx2_ext (j := ((cfg3.win 4).blk t).view.emb (ix2 p (0 : Fin 1)))
    (by show win3_4.index t (0 : Fin 2) * 4000 + 1 * p.val = win3_7.index t (0 : Fin 2) * 4000 + 1 * p.val; omega) (by show win3_4.index t (1 : Fin 2) * 1 + 1 * 0 = 0; omega))
  have hf : ∀ k : Fin 128, iblk3 V c 5 t (ix2 k q) = linW3 V c (ix2 k ((((cfg3.win 7).blk t).view.emb (ix2 p q)) 1)) := fun k => congrArg (linW3 V c) (idx2_ext (j := ((cfg3.win 5).blk t).view.emb (ix2 k q))
    (by show win3_5.index t (0 : Fin 2) * 128 + 1 * k.val = k.val; omega) (by show win3_5.index t (1 : Fin 2) * 128 + 1 * q.val = win3_7.index t (1 : Fin 2) * 128 + 1 * q.val; omega))
  have hg : iblk3 V c 6 t (ix2 (0 : Fin 1) q) = linBias3 V c (ix2 (0 : Fin 1) ((((cfg3.win 7).blk t).view.emb (ix2 p q)) 1)) := congrArg (linBias3 V c) (idx2_ext (j := ((cfg3.win 6).blk t).view.emb (ix2 (0 : Fin 1) q))
    (by show win3_6.index t (0 : Fin 2) * 1 + 1 * 0 = 0; omega) (by show win3_6.index t (1 : Fin 2) * 128 + 1 * q.val = win3_7.index t (1 : Fin 2) * 128 + 1 * q.val; omega))
  simp only [ha, hb, hc, hd, he, hf, hg]
  rfl

theorem lin3_cover (i : S200000x128.Idx) :
    ∃ t : Fin cfg3.N, (cfg3.win 7).flush t = true ∧ i ∈ ((cfg3.win 7).blk t).view.set :=
  let ⟨t, h⟩ := cover_rows win3_7.index (fun t => ((cfg3.win 7).blk t).view.set)
    (fun t i => by
      show i ∈ ((View.whole (Pipeline.arrRef spec3 7)).slice (win3_7.rect t)).set ↔ _
      rw [View.set_slice_whole, Rect.mem_set_unit]; exact Iff.rfl) lin3_idx_onto i
  ⟨t, flush3_7 t, h⟩

theorem lin3_final (c : Dev nD) : (dat3 (F := Ideal) V c).arrAt 7 cfg3.N
    = linFull (linH3 V c) (linNeigh3 V c) (linCnt3 V c) (linEmb3 V c) (linInvd3 V c) (linW3 V c) (linBias3 V c) :=
  (dat3 V c).arrAt_eq_of_cover 7 _ (fun t _ => lin3_flushed V c t) lin3_cover

theorem lin3_val (c : Dev nD) (p : Fin 200000) (q : Fin 128) : ((dat3 (F := Ideal) V c).arrAt 7 cfg3.N) (ix2 p q) = Cert.Spec.linArr (fun p k => V c (Pipeline.arrRef spec3 0) (ix2 p k)) (fun p k => V c (Pipeline.arrRef spec3 1) (ix2 p k)) (fun p v => V c (Pipeline.arrRef spec3 2) (ix2 p v)) (fun v k => V c (Pipeline.arrRef spec3 3) (ix2 v k)) (fun p => V c (Pipeline.arrRef spec3 4) (ix2 p (0 : Fin 1))) (fun k q => V c (Pipeline.arrRef spec3 5) (ix2 k q)) (fun q => V c (Pipeline.arrRef spec3 6) (ix2 (0 : Fin 1) q)) p q := by
  rw [lin3_final]
  rfl

end Region3

end Cert.KernelIdeal.Val

end
-- ==== Proof.KV.StatsVal4.lean ====
import proofs.«123582_j22084721836889_2_alg».proof.Proof.KI.Stats4
import proofs.«123582_j22084721836889_2_alg».proof.Proof.Math.Spec
import proofs.«123582_j22084721836889_2_alg».proof.Proof.KV.StatsValLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open scoped BigOperators

section Region4
variable (V : (c : Dev nD) → (b : Ref sig .tc) → Buf (Elt Ideal) ((c : Thread nD τ).loc b))

abbrev rows4 (c : Dev nD) : S200000x128.Idx → EReal := V c (Pipeline.arrRef spec4 0)

theorem stats4_pay1_apply (j : S1x128.Idx) : (k4_pay1 (F := Ideal)) j = 0 := by
  simp only [k4_pay1, shapeCast_self, broadcast_apply]
  exact Ideal.ofBits_zero_f32
theorem stats4_pay2_apply (j : S1x128.Idx) : (k4_pay2 (F := Ideal)) j = 0 := by
  simp only [k4_pay2, shapeCast_self, broadcast_apply]
  exact Ideal.ofBits_zero_f32

theorem stats4_lift (q : Fin 128) (k : Fin 4000) :
    reduces_S4000x128_S128.lift (fun a : Fin 1 => (ix2 (0 : Fin 1) q) a.succ) k = ix2 k q := by
  funext a; apply Fin.ext
  match a with
  | ⟨0, _⟩ => rfl
  | ⟨1, _⟩ => rfl

theorem stats4_pay4_apply (x : Vec Ideal S4000x128 .f32) (s : Vec Ideal S1x128 .f32) (q : Fin 128) :
    k4_pay4 x s (ix2 (0 : Fin 1) q) = s (ix2 (0 : Fin 1) q) + ∑ i : Fin 4000, x (ix2 i q) := by
  simp only [k4_pay4, k4_pay3, shapeCast_self, addf_apply]
  congr 1
  refine (shapeCast_addUnit_apply ![128] _ _ _).trans ?_
  refine (Ideal.multiReduction_add_single x _ reduces_S4000x128_S128 _ _ _).trans ?_
  exact Finset.sum_congr rfl fun k _ => congrArg x (stats4_lift q k)

theorem stats4_pay5_apply (x : Vec Ideal S4000x128 .f32) (s : Vec Ideal S1x128 .f32) (q : Fin 128) :
    k4_pay5 x s (ix2 (0 : Fin 1) q) = s (ix2 (0 : Fin 1) q) + ∑ i : Fin 4000, x (ix2 i q) * x (ix2 i q) := by
  simp only [k4_pay5, k4_pay3, shapeCast_self, addf_apply]
  congr 1
  refine (shapeCast_addUnit_apply ![128] _ _ _).trans ?_
  refine (Ideal.multiReduction_add_single (mulf x x) _ reduces_S4000x128_S128 _ _ _).trans ?_
  exact Finset.sum_congr rfl fun k _ => congrArg (fun z => x z * x z) (stats4_lift q k)

theorem stats4_idx : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

theorem iblk4_apply (c : Dev nD) (t : Fin cfg4.N) (i : Fin 4000) (q : Fin 128) (r : Fin 200000) (hr : r.val = i.val + 4000 * t.val) :
    iblk4 V c 0 t (ix2 i q) = rows4 V c (ix2 r q) := by
  obtain ⟨e0, e1⟩ := stats4_idx t
  have h : ((cfg4.win 0).blk t).view.emb (ix2 i q) = ix2 r q := by
    funext a; apply Fin.ext
    match a with
    | ⟨0, _⟩ => show win4_0.index t (0 : Fin 2) * 4000 + 1 * i.val = r.val; omega
    | ⟨1, _⟩ => show win4_0.index t (1 : Fin 2) * 128 + 1 * q.val = q.val; omega
  exact congrArg (rows4 V c) h

theorem stats4_sum (c : Dev nD) (q : Fin 128) :
    (dat4 (F := Ideal) V c).arrAt 1 cfg4.N (ix2 (0 : Fin 1) q)
      = Cert.Spec.colsum (fun p q => V c (Pipeline.arrRef spec4 0) (ix2 p q)) q := by
  rw [arrAt4_1]
  exact acc_colsum N_4 (acc4_0 V c) (iblk4 V c 0) k4_pay4 id (fun j => by rw [acc4_0_zero V c 0 rfl]; exact stats4_pay1_apply j)
    (acc4_0_succ V c) stats4_pay4_apply (rows4 V c) (iblk4_apply V c) q

theorem stats4_sumsq (c : Dev nD) (q : Fin 128) :
    (dat4 (F := Ideal) V c).arrAt 2 cfg4.N (ix2 (0 : Fin 1) q)
      = Cert.Spec.colsumsq (fun p q => V c (Pipeline.arrRef spec4 0) (ix2 p q)) q := by
  rw [arrAt4_2]
  exact acc_colsum N_4 (acc4_1 V c) (iblk4 V c 0) k4_pay5 (fun z => z * z) (fun j => by rw [acc4_1_zero V c 0 rfl]; exact stats4_pay2_apply j)
    (acc4_1_succ V c) stats4_pay5_apply (rows4 V c) (iblk4_apply V c) q

end Region4
end Cert.KernelIdeal.Val
end
-- ==== Proof.KV.HostStats5.lean ====
import proofs.«123582_j22084721836889_2_alg».proof.Proof.Gen.KernelIdeal.Regions
import proofs.«123582_j22084721836889_2_alg».proof.Proof.Math.Spec
import proofs.«123582_j22084721836889_2_alg».proof.Proof.KV.HostStatsLib
import Idealize.ShloMosaic.Lib.StableHlo.Run
import Idealize.ShloMosaic.Lib.ValueIdx
import Idealize.ShloMosaic.Lib.ValueLayout

set_option maxRecDepth 2280

noncomputable section

namespace Cert.KernelIdeal.Val

open Idealize.ShloMosaic Idealize.ShloMosaic.TcCoe Idealize.ShloMosaic.ValueIdx
open Cert.KernelIdeal Cert.KernelIdeal.Gen

set_option maxHeartbeats 1600000 in

theorem scale5_apply (Vin : Valuation τ sig (Elt Ideal)) (q : Fin 128) :
    (StableHlo.after (hostOps5 (F := Ideal)) Vin (main_v94 : DevRef τ sig) : (⟨S1x128, .f32⟩ : BufTy).Contents (Elt Ideal)) (ix2 (0 : Fin 1) q)
      = Cert.Spec.kscale (fun q => (Vin (main_v79_0 : DevRef τ sig) : (⟨S1x128, .f32⟩ : BufTy).Contents (Elt Ideal)) (ix2 (0 : Fin 1) q))
          (fun q => (Vin (main_v79_1 : DevRef τ sig) : (⟨S1x128, .f32⟩ : BufTy).Contents (Elt Ideal)) (ix2 (0 : Fin 1) q))
          (fun q => (Vin (main_arg9 : DevRef τ sig) : (⟨S5x128, .f32⟩ : BufTy).Contents (Elt Ideal)) (ix2 (1 : Fin 5) q)) q := by
  dsimp only [hostOps5]
  open StableHlo in after_results_simp
  exact scale_term _ _ _ _ 1 1 _ _ _ rfl q

set_option maxHeartbeats 1600000 in

theorem shift5_apply (Vin : Valuation τ sig (Elt Ideal)) (q : Fin 128) :
    (StableHlo.after (hostOps5 (F := Ideal)) Vin (main_v99 : DevRef τ sig) : (⟨S1x128, .f32⟩ : BufTy).Contents (Elt Ideal)) (ix2 (0 : Fin 1) q)
      = Cert.Spec.kshift (fun q => (Vin (main_v79_0 : DevRef τ sig) : (⟨S1x128, .f32⟩ : BufTy).Contents (Elt Ideal)) (ix2 (0 : Fin 1) q))
          (fun q => (Vin (main_v79_1 : DevRef τ sig) : (⟨S1x128, .f32⟩ : BufTy).Contents (Elt Ideal)) (ix2 (0 : Fin 1) q))
          (fun q => (Vin (main_arg9 : DevRef τ sig) : (⟨S5x128, .f32⟩ : BufTy).Contents (Elt Ideal)) (ix2 (1 : Fin 5) q))
          (fun q => (Vin (main_arg10 : DevRef τ sig) : (⟨S5x128, .f32⟩ : BufTy).Contents (Elt Ideal)) (ix2 (1 : Fin 5) q)) q := by
  dsimp only [hostOps5]
  open StableHlo in after_results_simp
  exact shift_term _ _ _ _ _ 1 1 _ _ _ rfl q

theorem kept5 (Vin : Valuation τ sig (Elt Ideal)) (b : Ref sig .tc) (hb : b ∉ Gen.hostOps5_W) :
    StableHlo.after (hostOps5 (F := Ideal)) Vin (b : DevRef τ sig) = Vin (b : DevRef τ sig) :=
  StableHlo.after_of_writes_sub hostOps5 Vin hostOps5_writes hb

end Cert.KernelIdeal.Val

end
-- ==== Proof.KV.NormVal5.lean ====
import proofs.«123582_j22084721836889_2_alg».proof.Proof.KI.Norm5
import proofs.«123582_j22084721836889_2_alg».proof.Proof.Math.Spec
import Idealize.ShloMosaic.Lib.Pipeline.Value
import Idealize.ShloMosaic.Lib.ValueIdx
import Idealize.ShloMosaic.Lib.ValueLayout
import Idealize.ShloMosaic.PureOps.Ideal.Laws
import proofs.«123582_j22084721836889_2_alg».proof.Proof.KV.ValLib

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

section Region5
variable (V : (c : Dev nD) → (b : Ref sig .tc) → Buf (Elt Ideal) ((c : Thread nD τ).loc b))

abbrev rows5 (c : Dev nD) : S200000x128.Idx → EReal := V c (Pipeline.arrRef spec5 0)

abbrev scale5 (c : Dev nD) : S1x128.Idx → EReal := V c (Pipeline.arrRef spec5 1)

abbrev shift5 (c : Dev nD) : S1x128.Idx → EReal := V c (Pipeline.arrRef spec5 2)

theorem norm5_pay_apply (x0 : Vec Ideal S4000x128 .f32) (x1 x2 : Vec Ideal S1x128 .f32) (p : Fin 4000) (q : Fin 128) :
    k5_pay1 x0 x1 x2 (ix2 p q) = max (x0 (ix2 p q) * x1 (ix2 (0 : Fin 1) q) + x2 (ix2 (0 : Fin 1) q)) 0 := by
  simp only [k5_pay1, truncf_apply, maximumf_apply, addf_apply, mulf_apply, broadcast_apply, shapeCast_self, broadcastTo_1b_ab_apply]
  show max _ (Ideal.ofBits .f32 0x00000000#32) = _
  rw [Ideal.ofBits_zero_f32]

def normArr5 (A0 : S200000x128.Idx → EReal) (A1 A2 : S1x128.Idx → EReal) : S200000x128.Idx → EReal :=
  fun i => max (A0 i * A1 (ix2 (0 : Fin 1) (i 1)) + A2 (ix2 (0 : Fin 1) (i 1))) 0

theorem hz5 : (![0, 0] : Fin 2 → Nat) = fun _ => 0 := funext fun a => by fin_cases a <;> rfl

theorem norm5_idx : ∀ t : Fin cfg5.N, win5_0.index t (0 : Fin 2) = win5_3.index t (0 : Fin 2) ∧ win5_0.index t (1 : Fin 2) = 0
    ∧ win5_3.index t (1 : Fin 2) = 0 ∧ win5_3.index t (0 : Fin 2) = t.val
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

theorem norm5_idx_onto : ∀ q0 : Fin 50, ∃ t : Fin cfg5.N, win5_3.index t = ![q0.val, 0] :=
  (by decide +kernel : ∀ q0 : Fin 50, ∃ t : Fin grid5.N, win5_3.index t = ![q0.val, 0])

set_option maxHeartbeats 800000 in

theorem norm5_flushed (c : Dev nD) (t : Fin cfg5.N) :
    (dat5 (F := Ideal) V c).flushed 3 t = ((cfg5.win 3).blk t).view.read (Elt Ideal)
      (normArr5 (rows5 V c) (scale5 V c) (shift5 V c)) := by
  show (cfg5.win 3).cut (grid5.coords t) ((dat5 V c).after 3 t) = _
  rw [after5_3]
  unfold out5_3
  rw [View.canon_unit_zero hz5]
  simp only [View.ld_unit_zero (S := S4000x128) hz5, View.ld_unit_zero (S := S1x128) hz5]
  obtain ⟨e0, e1, e2, e3, e4, e5, e6, e7⟩ := norm5_idx t
  funext j
  obtain ⟨p, q, rfl⟩ : ∃ (p : Fin 4000) (q : Fin 128), j = ix2 p q := ⟨j 0, j 1, eq_ix2 j⟩
  show k5_pay1 (iblk5 V c 0 t) (iblk5 V c 1 t) (iblk5 V c 2 t) (ix2 p q) = _
  rw [norm5_pay_apply]
  have ha : iblk5 V c 0 t (ix2 p q) = rows5 V c (((cfg5.win 3).blk t).view.emb (ix2 p q)) := congrArg (rows5 V c) (idx2_ext (j := ((cfg5.win 0).blk t).view.emb (ix2 p q))
    (by show win5_0.index t (0 : Fin 2) * 4000 + 1 * p.val = win5_3.index t (0 : Fin 2) * 4000 + 1 * p.val; omega) (by show win5_0.index t (1 : Fin 2) * 128 + 1 * q.val = win5_3.index t (1 : Fin 2) * 128 + 1 * q.val; omega))
  have hb : iblk5 V c 1 t (ix2 (0 : Fin 1) q) = scale5 V c (ix2 (0 : Fin 1) ((((cfg5.win 3).blk t).view.emb (ix2 p q)) 1)) := congrArg (scale5 V c) (idx2_ext (j := ((cfg5.win 1).blk t).view.emb (ix2 (0 : Fin 1) q))
    (by show win5_1.index t (0 : Fin 2) * 1 + 1 * 0 = 0; omega) (by show win5_1.index t (1 : Fin 2) * 128 + 1 * q.val = win5_3.index t (1 : Fin 2) * 128 + 1 * q.val; omega))
  have hc : iblk5 V c 2 t (ix2 (0 : Fin 1) q) = shift5 V c (ix2 (0 : Fin 1) ((((cfg5.win 3).blk t).view.emb (ix2 p q)) 1)) := congrArg (shift5 V c) (idx2_ext (j := ((cfg5.win 2).blk t).view.emb (ix2 (0 : Fin 1) q))
    (by show win5_2.index t (0 : Fin 2) * 1 + 1 * 0 = 0; omega) (by show win5_2.index t (1 : Fin 2) * 128 + 1 * q.val = win5_3.index t (1 : Fin 2) * 128 + 1 * q.val; omega))
  rw [ha, hb, hc]
  rfl

theorem norm5_cover (i : S200000x128.Idx) :
    ∃ t : Fin cfg5.N, (cfg5.win 3).flush t = true ∧ i ∈ ((cfg5.win 3).blk t).view.set :=
  let ⟨t, h⟩ := cover_rows win5_3.index (fun t => ((cfg5.win 3).blk t).view.set)
    (fun t i => by
      show i ∈ ((View.whole main_v100).slice (win5_3.rect t)).set ↔ _
      rw [View.set_slice_whole, Rect.mem_set_unit]; exact Iff.rfl) norm5_idx_onto i
  ⟨t, flush5_3 t, h⟩

theorem norm5_final (c : Dev nD) : (dat5 (F := Ideal) V c).arrAt 3 cfg5.N
    = normArr5 (rows5 V c) (scale5 V c) (shift5 V c) :=
  (dat5 V c).arrAt_eq_of_cover 3 _ (fun t _ => norm5_flushed V c t) norm5_cover

theorem norm5_val (c : Dev nD) (p : Fin 200000) (q : Fin 128) :
    ((dat5 (F := Ideal) V c).arrAt 3 cfg5.N) (ix2 p q)
      = Cert.Spec.knorm (fun p q => V c (Pipeline.arrRef spec5 0) (ix2 p q)) (fun q => V c (Pipeline.arrRef spec5 1) (ix2 (0 : Fin 1) q))
          (fun q => V c (Pipeline.arrRef spec5 2) (ix2 (0 : Fin 1) q)) p q := by
  rw [norm5_final]
  rfl

end Region5

end Cert.KernelIdeal.Val

end
-- ==== Proof.KV.Chain1.lean ====
import proofs.«123582_j22084721836889_2_alg».proof.Proof.KI.Fold
import proofs.«123582_j22084721836889_2_alg».proof.Proof.KV.ChainKept
import proofs.«123582_j22084721836889_2_alg».proof.Proof.KV.ChainLayerLib
import proofs.«123582_j22084721836889_2_alg».proof.Proof.KV.HostLayer
import proofs.«123582_j22084721836889_2_alg».proof.Proof.KV.LinVal3
import proofs.«123582_j22084721836889_2_alg».proof.Proof.KV.StatsVal4
import proofs.«123582_j22084721836889_2_alg».proof.Proof.KV.HostStats5
import proofs.«123582_j22084721836889_2_alg».proof.Proof.KV.NormVal5
import proofs.«123582_j22084721836889_2_alg».proof.Proof.Math.Net
import proofs.«123582_j22084721836889_2_alg».proof.Proof.Math.Spec

set_option maxRecDepth 16384
set_option quotPrecheck false

noncomputable section

namespace Cert.KernelIdeal.Val

open Idealize.ShloMosaic Idealize.ShloMosaic.TcCoe Idealize.ShloMosaic.ValueIdx
open Cert.KernelIdeal Cert.KernelIdeal.Gen Cert.KernelIdeal.Hand Cert.Hand.HostRead

section Layer

variable (m : (ℓ : Loc nD τ sig) → Buf (Elt Ideal) ℓ) (c : Dev nD)

local notation "tgA" => tgOf 200000 (W7 m c (main_arg3 : DevRef τ sig) : (⟨S400000, .i32⟩ : BufTy).Contents (Elt Ideal))
local notation "gsA" => gsOf 200000 (W7 m c (main_arg2 : DevRef τ sig) : (⟨S400000, .i32⟩ : BufTy).Contents (Elt Ideal))
local notation "embA" => (fun (v : Fin 5) (k : Fin 128) => (W7 m c (main_arg6 : DevRef τ sig) : (⟨S5x5x128, .f32⟩ : BufTy).Contents (Elt Ideal)) (ix3 (1 : Fin 5) v k))
local notation "wtA" => (fun (k q : Fin 128) => (W7 m c (main_arg7 : DevRef τ sig) : (⟨S5x128x128, .f32⟩ : BufTy).Contents (Elt Ideal)) (ix3 (1 : Fin 5) k q))
local notation "bA" => (fun (q : Fin 128) => (W7 m c (main_arg8 : DevRef τ sig) : (⟨S5x128, .f32⟩ : BufTy).Contents (Elt Ideal)) (ix2 (1 : Fin 5) q))
local notation "gaA" => (fun (q : Fin 128) => (W7 m c (main_arg9 : DevRef τ sig) : (⟨S5x128, .f32⟩ : BufTy).Contents (Elt Ideal)) (ix2 (1 : Fin 5) q))
local notation "beA" => (fun (q : Fin 128) => (W7 m c (main_arg10 : DevRef τ sig) : (⟨S5x128, .f32⟩ : BufTy).Contents (Elt Ideal)) (ix2 (1 : Fin 5) q))

theorem linOut_L1 : W9 m c (main_v78 : DevRef τ sig) = (dat3 (rd (W8 m)) c).arrAt 7 cfg3.N := by
  unfold W9
  exact Function.update_self _ _ _

theorem sumOut_L1 : W10 m c (main_v79_0 : DevRef τ sig) = (dat4 (rd (W9 m)) c).arrAt 1 cfg4.N := by
  unfold W10
  rw [Function.update_of_ne (StableHlo.devRef_ne_of_ne (show (main_v79_0 : Ref sig .tc) ≠ main_v79_1 by decide))]
  exact Function.update_self _ _ _

theorem sumsqOut_L1 : W10 m c (main_v79_1 : DevRef τ sig) = (dat4 (rd (W9 m)) c).arrAt 2 cfg4.N := by
  unfold W10
  exact Function.update_self _ _ _

theorem normOut_L1 : W12 m c (main_v100 : DevRef τ sig) = (dat5 (rd (W11 m)) c).arrAt 3 cfg5.N := by
  unfold W12
  exact Function.update_self _ _ _

variable (ef : Fin 400000 → Fin 5) (H : Fin 200000 → Fin 128 → EReal)
  (hH : ∀ p q, (W7 m c (main_v59 : DevRef τ sig) : (⟨S200000x128, .bf16⟩ : BufTy).Contents (Elt Ideal)) (ix2 p q) = H p q)
  (hI : ∀ p, (W7 m c (main_v15 : DevRef τ sig) : (⟨S200000x1, .f32⟩ : BufTy).Contents (Elt Ideal)) (ix2 p (0 : Fin 1))
    = Cert.Spec.invdeg (tgOf 200000 (W7 m c (main_arg3 : DevRef τ sig) : (⟨S400000, .i32⟩ : BufTy).Contents (Elt Ideal))) p)
  (hC : ∀ n v, (W7 m c (main_v19 : DevRef τ sig) : (⟨S200000x5, .f32⟩ : BufTy).Contents (Elt Ideal)) (ix2 n v)
    = Cert.Spec.cmat (tgOf 200000 (W7 m c (main_arg3 : DevRef τ sig) : (⟨S400000, .i32⟩ : BufTy).Contents (Elt Ideal))) ef n v)

include hH hI hC

set_option maxHeartbeats 1600000 in
theorem linVal_L1 (p : Fin 200000) (q : Fin 128) :
    (W9 m c (main_v78 : DevRef τ sig) : (⟨S200000x128, .f32⟩ : BufTy).Contents (Elt Ideal)) (ix2 p q)
      = Cert.Spec.klin gsA tgA ef H embA wtA bA p q := by
  rw [linOut_L1 m c, Cert.Spec.klin_eq_linArr]
  refine (lin3_val (rd (W8 m)) c p q).trans (congrFun (congrFun (Cert.Spec.linArr_congr ?_ ?_ ?_ ?_ ?_ ?_ ?_) p) q)
  · funext p k; exact (congrFun (W8_of m c main_v59 (by decide)) (ix2 p k)).trans (hH p k)
  · funext p k; exact (neigh3_apply (W7 m c) p k).trans (by simp only [hH])
  · funext p v; exact (congrFun (W8_of m c main_v19 (by decide)) (ix2 p v)).trans (hC p v)
  · funext v k; exact emb3_apply (W7 m c) v k
  · funext p; exact (congrFun (W8_of m c main_v15 (by decide)) (ix2 p (0 : Fin 1))).trans (hI p)
  · funext k q; exact w3_apply (W7 m c) k q
  · funext q; exact b3_apply (W7 m c) q

theorem sumVal_L1 : (fun (q : Fin 128) => (W10 m c (main_v79_0 : DevRef τ sig) : (⟨S1x128, .f32⟩ : BufTy).Contents (Elt Ideal)) (ix2 (0 : Fin 1) q))
    = Cert.Spec.colsum (Cert.Spec.klin gsA tgA ef H embA wtA bA) := by
  funext q; rw [sumOut_L1 m c]
  exact (stats4_sum (rd (W9 m)) c q).trans (congrFun (congrArg Cert.Spec.colsum (funext fun p => funext fun q => linVal_L1 m c ef H hH hI hC p q)) q)

theorem sumsqVal_L1 : (fun (q : Fin 128) => (W10 m c (main_v79_1 : DevRef τ sig) : (⟨S1x128, .f32⟩ : BufTy).Contents (Elt Ideal)) (ix2 (0 : Fin 1) q))
    = Cert.Spec.colsumsq (Cert.Spec.klin gsA tgA ef H embA wtA bA) := by
  funext q; rw [sumsqOut_L1 m c]
  exact (stats4_sumsq (rd (W9 m)) c q).trans (congrFun (congrArg Cert.Spec.colsumsq (funext fun p => funext fun q => linVal_L1 m c ef H hH hI hC p q)) q)

theorem gammaMid_L1 : (fun (q : Fin 128) => (W10 m c (main_arg9 : DevRef τ sig) : (⟨S5x128, .f32⟩ : BufTy).Contents (Elt Ideal)) (ix2 (1 : Fin 5) q)) = gaA := by
  rw [W10_of m c main_arg9 (by decide), W9_of m c main_arg9 (by decide), W8_of m c main_arg9 (by decide)]
theorem betaMid_L1 : (fun (q : Fin 128) => (W10 m c (main_arg10 : DevRef τ sig) : (⟨S5x128, .f32⟩ : BufTy).Contents (Elt Ideal)) (ix2 (1 : Fin 5) q)) = beA := by
  rw [W10_of m c main_arg10 (by decide), W9_of m c main_arg10 (by decide), W8_of m c main_arg10 (by decide)]

theorem scaleVal_L1 : (fun (q : Fin 128) => (W11 m c (main_v94 : DevRef τ sig) : (⟨S1x128, .f32⟩ : BufTy).Contents (Elt Ideal)) (ix2 (0 : Fin 1) q))
    = Cert.Spec.kscale (Cert.Spec.colsum (Cert.Spec.klin gsA tgA ef H embA wtA bA)) (Cert.Spec.colsumsq (Cert.Spec.klin gsA tgA ef H embA wtA bA)) gaA := by
  funext q
  exact (scale5_apply (W10 m c) q).trans (congrFun (Cert.Spec.kscale_congr (sumVal_L1 m c ef H hH hI hC) (sumsqVal_L1 m c ef H hH hI hC) (gammaMid_L1 m c ef H hH hI hC)) q)

theorem shiftVal_L1 : (fun (q : Fin 128) => (W11 m c (main_v99 : DevRef τ sig) : (⟨S1x128, .f32⟩ : BufTy).Contents (Elt Ideal)) (ix2 (0 : Fin 1) q))
    = Cert.Spec.kshift (Cert.Spec.colsum (Cert.Spec.klin gsA tgA ef H embA wtA bA)) (Cert.Spec.colsumsq (Cert.Spec.klin gsA tgA ef H embA wtA bA)) gaA beA := by
  funext q
  exact (shift5_apply (W10 m c) q).trans (congrFun (Cert.Spec.kshift_congr (sumVal_L1 m c ef H hH hI hC) (sumsqVal_L1 m c ef H hH hI hC) (gammaMid_L1 m c ef H hH hI hC) (betaMid_L1 m c ef H hH hI hC)) q)

theorem chain1 (p : Fin 200000) (q : Fin 128) :
    (W12 m c (main_v100 : DevRef τ sig) : (⟨S200000x128, .bf16⟩ : BufTy).Contents (Elt Ideal)) (ix2 p q)
      = Cert.Spec.klayer gsA tgA ef H embA wtA bA gaA beA p q := by
  rw [normOut_L1 m c, Cert.Spec.klayer_eq]
  refine (norm5_val (rd (W11 m)) c p q).trans (congrFun (congrFun (Cert.Spec.knorm_congr ?_ (scaleVal_L1 m c ef H hH hI hC) (shiftVal_L1 m c ef H hH hI hC)) p) q)
  funext p q
  exact (congrFun ((kept5 (W10 m c) main_v78 (by decide)).trans (W10_of m c main_v78 (by decide))) (ix2 p q)).trans (linVal_L1 m c ef H hH hI hC p q)

end Layer

end Cert.KernelIdeal.Val

end
-- ==== Proof.KV.HostLayer6.lean ====
import proofs.«123582_j22084721836889_2_alg».proof.Proof.Gen.KernelIdeal.Regions
import proofs.«123582_j22084721836889_2_alg».proof.Proof.Math.Spec
import proofs.«123582_j22084721836889_2_alg».proof.Proof.Math.HostRead
import proofs.«123582_j22084721836889_2_alg».proof.Proof.KV.HostStatsLib
import proofs.«123582_j22084721836889_2_alg».proof.Proof.KV.HostLayerLib
import Idealize.ShloMosaic.Lib.StableHlo.Run
import Idealize.ShloMosaic.Lib.ValueIdx
import Idealize.ShloMosaic.Lib.ValueLayout
import Idealize.ShloMosaic.Lib.Pipeline.Value

set_option maxRecDepth 2280

noncomputable section

namespace Cert.KernelIdeal.Val

open Idealize.ShloMosaic Idealize.ShloMosaic.TcCoe Idealize.ShloMosaic.ValueIdx
open Cert.KernelIdeal Cert.KernelIdeal.Gen Cert.Hand.HostRead

set_option maxHeartbeats 1600000 in

theorem neigh6_apply (Vin : Valuation τ sig (Elt Ideal)) (n : Fin 200000) (j : Fin 128) :
    (StableHlo.after (hostOps6 (F := Ideal)) Vin (main_v111 : DevRef τ sig) : (⟨S200000x128, .f32⟩ : BufTy).Contents (Elt Ideal)) (ix2 n j)
      = Cert.Spec.seg (tgOf 200000 (Vin (main_arg3 : DevRef τ sig) : (⟨S400000, .i32⟩ : BufTy).Contents (Elt Ideal)))
          (fun e j => (Vin (main_v100 : DevRef τ sig) : (⟨S200000x128, .bf16⟩ : BufTy).Contents (Elt Ideal))
            (ix2 (gsOf 200000 (Vin (main_arg2 : DevRef τ sig) : (⟨S400000, .i32⟩ : BufTy).Contents (Elt Ideal)) e) j)) n j := by
  dsimp only [hostOps6]
  open StableHlo in after_results_simp
  exact neigh_term _ ⟨rfl, rfl, rfl, rfl, rfl, rfl, rfl⟩ _ ⟨rfl, rfl, rfl, rfl⟩ _ _ _ _ _ _ _ n j

set_option maxHeartbeats 1600000 in

theorem emb6_apply (Vin : Valuation τ sig (Elt Ideal)) (v : Fin 5) (k : Fin 128) :
    (StableHlo.after (hostOps6 (F := Ideal)) Vin (main_v113 : DevRef τ sig) : (⟨S5x128, .f32⟩ : BufTy).Contents (Elt Ideal)) (ix2 v k)
      = (Vin (main_arg6 : DevRef τ sig) : (⟨S5x5x128, .f32⟩ : BufTy).Contents (Elt Ideal)) (ix3 (2 : Fin 5) v k) := by
  dsimp only [hostOps6]
  open StableHlo in after_results_simp
  exact slab_apply 2 2 rfl _ _ _ v k

set_option maxHeartbeats 1600000 in

theorem w6_apply (Vin : Valuation τ sig (Elt Ideal)) (k q : Fin 128) :
    (StableHlo.after (hostOps6 (F := Ideal)) Vin (main_v118 : DevRef τ sig) : (⟨S128x128, .f32⟩ : BufTy).Contents (Elt Ideal)) (ix2 k q)
      = (Vin (main_arg7 : DevRef τ sig) : (⟨S5x128x128, .f32⟩ : BufTy).Contents (Elt Ideal)) (ix3 (2 : Fin 5) k q) := by
  dsimp only [hostOps6]
  open StableHlo in after_results_simp
  exact slab_apply 2 2 rfl _ _ _ k q

set_option maxHeartbeats 1600000 in

theorem b6_apply (Vin : Valuation τ sig (Elt Ideal)) (q : Fin 128) :
    (StableHlo.after (hostOps6 (F := Ideal)) Vin (main_v116 : DevRef τ sig) : (⟨S1x128, .f32⟩ : BufTy).Contents (Elt Ideal)) (ix2 (0 : Fin 1) q)
      = (Vin (main_arg8 : DevRef τ sig) : (⟨S5x128, .f32⟩ : BufTy).Contents (Elt Ideal)) (ix2 (2 : Fin 5) q) := by
  dsimp only [hostOps6]
  open StableHlo in after_results_simp
  exact paramRow_apply 2 2 rfl _ _ _ _ q

theorem kept6 (Vin : Valuation τ sig (Elt Ideal)) (b : Ref sig .tc) (hb : b ∉ Gen.hostOps6_W) :
    StableHlo.after (hostOps6 (F := Ideal)) Vin (b : DevRef τ sig) = Vin (b : DevRef τ sig) :=
  StableHlo.after_of_writes_sub hostOps6 Vin hostOps6_writes hb

end Cert.KernelIdeal.Val

end
-- ==== Proof.KV.LinVal6.lean ====
import proofs.«123582_j22084721836889_2_alg».proof.Proof.KI.Lin6
import proofs.«123582_j22084721836889_2_alg».proof.Proof.KV.LinVal

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open scoped BigOperators

section Region6
variable (V : (c : Dev nD) → (b : Ref sig .tc) → Buf (Elt Ideal) ((c : Thread nD τ).loc b))

abbrev linH6 (c : Dev nD) : S200000x128.Idx → EReal := V c (Pipeline.arrRef spec6 0)

abbrev linNeigh6 (c : Dev nD) : S200000x128.Idx → EReal := V c (Pipeline.arrRef spec6 1)

abbrev linCnt6 (c : Dev nD) : S200000x5.Idx → EReal := V c (Pipeline.arrRef spec6 2)

abbrev linEmb6 (c : Dev nD) : S5x128.Idx → EReal := V c (Pipeline.arrRef spec6 3)

abbrev linInvd6 (c : Dev nD) : S200000x1.Idx → EReal := V c (Pipeline.arrRef spec6 4)

abbrev linW6 (c : Dev nD) : S128x128.Idx → EReal := V c (Pipeline.arrRef spec6 5)

abbrev linBias6 (c : Dev nD) : S1x128.Idx → EReal := V c (Pipeline.arrRef spec6 6)

theorem lin6_pay_apply (x0 : Vec Ideal S4000x128 .bf16) (x1 : Vec Ideal S4000x128 .f32) (x2 : Vec Ideal S4000x5 .f32)
    (x3 : Vec Ideal S5x128 .f32) (x4 : Vec Ideal S4000x1 .f32) (x5 : Vec Ideal S128x128 .f32) (x6 : Vec Ideal S1x128 .f32)
    (p : Fin 4000) (q : Fin 128) :
    k6_pay1 x0 x1 x2 x3 x4 x5 x6 (ix2 p q)
      = (∑ k : Fin 128, ((x0 (ix2 p k) + x1 (ix2 p k) + ∑ v : Fin 5, x2 (ix2 p v) * x3 (ix2 v k)) * x4 (ix2 p (0 : Fin 1))) * x5 (ix2 k q))
        + x6 (ix2 (0 : Fin 1) q) := by
  simp only [k6_pay1, addf_apply, mulf_apply, truncf_apply, extf_apply, shapeCast_self, broadcastTo_1b_ab_apply, linCol_broadcast_apply,
    wDot_apply, embDot_apply]

theorem lin6_idx : ∀ t : Fin cfg6.N,
    win6_0.index t (0 : Fin 2) = win6_7.index t (0 : Fin 2) ∧ win6_0.index t (1 : Fin 2) = 0
    ∧ win6_1.index t (0 : Fin 2) = win6_7.index t (0 : Fin 2) ∧ win6_1.index t (1 : Fin 2) = 0
    ∧ win6_2.index t (0 : Fin 2) = win6_7.index t (0 : Fin 2) ∧ win6_2.index t (1 : Fin 2) = 0
    ∧ win6_3.index t (0 : Fin 2) = 0 ∧ win6_3.index t (1 : Fin 2) = 0
    ∧ win6_4.index t (0 : Fin 2) = win6_7.index t (0 : Fin 2) ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (1 : Fin 2) = 0 ∧ win6_7.index t (0 : Fin 2) = t.val :=
  (by decide +kernel : ∀ t : Fin grid6.N, _)

theorem lin6_idx_onto : ∀ q0 : Fin 50, ∃ t : Fin cfg6.N, win6_7.index t = ![q0.val, 0] :=
  (by decide +kernel : ∀ q0 : Fin 50, ∃ t : Fin grid6.N, win6_7.index t = ![q0.val, 0])

set_option maxHeartbeats 1600000 in

theorem lin6_flushed (c : Dev nD) (t : Fin cfg6.N) :
    (dat6 (F := Ideal) V c).flushed 7 t = ((cfg6.win 7).blk t).view.read (Elt Ideal)
      (linFull (linH6 V c) (linNeigh6 V c) (linCnt6 V c) (linEmb6 V c) (linInvd6 V c) (linW6 V c) (linBias6 V c)) := by
  show (cfg6.win 7).cut (grid6.coords t) ((dat6 V c).after 7 t) = _
  rw [after6_7]
  unfold out6_7
  rw [View.canon_unit_zero lin_hz]
  simp only [View.ld_unit_zero (S := S4000x128) lin_hz, View.ld_unit_zero (S := S4000x5) lin_hz, View.ld_unit_zero (S := S5x128) lin_hz,
    View.ld_unit_zero (S := S4000x1) lin_hz, View.ld_unit_zero (S := S128x128) lin_hz, View.ld_unit_zero (S := S1x128) lin_hz]
  obtain ⟨e00, e01, e10, e11, e20, e21, e30, e31, e40, e41, e50, e51, e60, e61, e71, e70⟩ := lin6_idx t
  funext j
  obtain ⟨p, q, rfl⟩ : ∃ (p : Fin 4000) (q : Fin 128), j = ix2 p q := ⟨j 0, j 1, eq_ix2 j⟩
  show k6_pay1 (iblk6 V c 0 t) (iblk6 V c 1 t) (iblk6 V c 2 t) (iblk6 V c 3 t) (iblk6 V c 4 t) (iblk6 V c 5 t) (iblk6 V c 6 t) (ix2 p q) = _
  rw [lin6_pay_apply]
  have ha : ∀ k : Fin 128, iblk6 V c 0 t (ix2 p k) = linH6 V c (ix2 ((((cfg6.win 7).blk t).view.emb (ix2 p q)) 0) k) := fun k => congrArg (linH6 V c) (idx2_ext (j := ((cfg6.win 0).blk t).view.emb (ix2 p k))
    (by show win6_0.index t (0 : Fin 2) * 4000 + 1 * p.val = win6_7.index t (0 : Fin 2) * 4000 + 1 * p.val; omega) (by show win6_0.index t (1 : Fin 2) * 128 + 1 * k.val = k.val; omega))
  have hb : ∀ k : Fin 128, iblk6 V c 1 t (ix2 p k) = linNeigh6 V c (ix2 ((((cfg6.win 7).blk t).view.emb (ix2 p q)) 0) k) := fun k => congrArg (linNeigh6 V c) (idx2_ext (j := ((cfg6.win 1).blk t).view.emb (ix2 p k))
    (by show win6_1.index t (0 : Fin 2) * 4000 + 1 * p.val = win6_7.index t (0 : Fin 2) * 4000 + 1 * p.val; omega) (by show win6_1.index t (1 : Fin 2) * 128 + 1 * k.val = k.val; omega))
  have hc : ∀ v : Fin 5, iblk6 V c 2 t (ix2 p v) = linCnt6 V c (ix2 ((((cfg6.win 7).blk t).view.emb (ix2 p q)) 0) v) := fun v => congrArg (linCnt6 V c) (idx2_ext (j := ((cfg6.win 2).blk t).view.emb (ix2 p v))
    (by show win6_2.index t (0 : Fin 2) * 4000 + 1 * p.val = win6_7.index t (0 : Fin 2) * 4000 + 1 * p.val; omega) (by show win6_2.index t (1 : Fin 2) * 5 + 1 * v.val = v.val; omega))
  have hd : ∀ (v : Fin 5) (k : Fin 128), iblk6 V c 3 t (ix2 v k) = linEmb6 V c (ix2 v k) := fun v k => congrArg (linEmb6 V c) (idx2_ext (j := ((cfg6.win 3).blk t).view.emb (ix2 v k))
    (by show win6_3.index t (0 : Fin 2) * 5 + 1 * v.val = v.val; omega) (by show win6_3.index t (1 : Fin 2) * 128 + 1 * k.val = k.val; omega))
  have he : iblk6 V c 4 t (ix2 p (0 : Fin 1)) = linInvd6 V c (ix2 ((((cfg6.win 7).blk t).view.emb (ix2 p q)) 0) (0 : Fin 1)) := congrArg (linInvd6 V c) (idx2_ext (j := ((cfg6.win 4).blk t).view.emb (ix2 p (0 : Fin 1)))
    (by show win6_4.index t (0 : Fin 2) * 4000 + 1 * p.val = win6_7.index t (0 : Fin 2) * 4000 + 1 * p.val; omega) (by show win6_4.index t (1 : Fin 2) * 1 + 1 * 0 = 0; omega))
  have hf : ∀ k : Fin 128, iblk6 V c 5 t (ix2 k q) = linW6 V c (ix2 k ((((cfg6.win 7).blk t).view.emb (ix2 p q)) 1)) := fun k => congrArg (linW6 V c) (idx2_ext (j := ((cfg6.win 5).blk t).view.emb (ix2 k q))
    (by show win6_5.index t (0 : Fin 2) * 128 + 1 * k.val = k.val; omega) (by show win6_5.index t (1 : Fin 2) * 128 + 1 * q.val = win6_7.index t (1 : Fin 2) * 128 + 1 * q.val; omega))
  have hg : iblk6 V c 6 t (ix2 (0 : Fin 1) q) = linBias6 V c (ix2 (0 : Fin 1) ((((cfg6.win 7).blk t).view.emb (ix2 p q)) 1)) := congrArg (linBias6 V c) (idx2_ext (j := ((cfg6.win 6).blk t).view.emb (ix2 (0 : Fin 1) q))
    (by show win6_6.index t (0 : Fin 2) * 1 + 1 * 0 = 0; omega) (by show win6_6.index t (1 : Fin 2) * 128 + 1 * q.val = win6_7.index t (1 : Fin 2) * 128 + 1 * q.val; omega))
  simp only [ha, hb, hc, hd, he, hf, hg]
  rfl

theorem lin6_cover (i : S200000x128.Idx) :
    ∃ t : Fin cfg6.N, (cfg6.win 7).flush t = true ∧ i ∈ ((cfg6.win 7).blk t).view.set :=
  let ⟨t, h⟩ := cover_rows win6_7.index (fun t => ((cfg6.win 7).blk t).view.set)
    (fun t i => by
      show i ∈ ((View.whole (Pipeline.arrRef spec6 7)).slice (win6_7.rect t)).set ↔ _
      rw [View.set_slice_whole, Rect.mem_set_unit]; exact Iff.rfl) lin6_idx_onto i
  ⟨t, flush6_7 t, h⟩

theorem lin6_final (c : Dev nD) : (dat6 (F := Ideal) V c).arrAt 7 cfg6.N
    = linFull (linH6 V c) (linNeigh6 V c) (linCnt6 V c) (linEmb6 V c) (linInvd6 V c) (linW6 V c) (linBias6 V c) :=
  (dat6 V c).arrAt_eq_of_cover 7 _ (fun t _ => lin6_flushed V c t) lin6_cover

theorem lin6_val (c : Dev nD) (p : Fin 200000) (q : Fin 128) : ((dat6 (F := Ideal) V c).arrAt 7 cfg6.N) (ix2 p q) = Cert.Spec.linArr (fun p k => V c (Pipeline.arrRef spec6 0) (ix2 p k)) (fun p k => V c (Pipeline.arrRef spec6 1) (ix2 p k)) (fun p v => V c (Pipeline.arrRef spec6 2) (ix2 p v)) (fun v k => V c (Pipeline.arrRef spec6 3) (ix2 v k)) (fun p => V c (Pipeline.arrRef spec6 4) (ix2 p (0 : Fin 1))) (fun k q => V c (Pipeline.arrRef spec6 5) (ix2 k q)) (fun q => V c (Pipeline.arrRef spec6 6) (ix2 (0 : Fin 1) q)) p q := by
  rw [lin6_final]
  rfl

end Region6

end Cert.KernelIdeal.Val

end
-- ==== Proof.KV.StatsVal7.lean ====
import proofs.«123582_j22084721836889_2_alg».proof.Proof.KI.Stats7
import proofs.«123582_j22084721836889_2_alg».proof.Proof.Math.Spec
import proofs.«123582_j22084721836889_2_alg».proof.Proof.KV.StatsValLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open scoped BigOperators

section Region7
variable (V : (c : Dev nD) → (b : Ref sig .tc) → Buf (Elt Ideal) ((c : Thread nD τ).loc b))

abbrev rows7 (c : Dev nD) : S200000x128.Idx → EReal := V c (Pipeline.arrRef spec7 0)

theorem stats7_pay1_apply (j : S1x128.Idx) : (k7_pay1 (F := Ideal)) j = 0 := by
  simp only [k7_pay1, shapeCast_self, broadcast_apply]
  exact Ideal.ofBits_zero_f32
theorem stats7_pay2_apply (j : S1x128.Idx) : (k7_pay2 (F := Ideal)) j = 0 := by
  simp only [k7_pay2, shapeCast_self, broadcast_apply]
  exact Ideal.ofBits_zero_f32

theorem stats7_lift (q : Fin 128) (k : Fin 4000) :
    reduces_S4000x128_S128.lift (fun a : Fin 1 => (ix2 (0 : Fin 1) q) a.succ) k = ix2 k q := by
  funext a; apply Fin.ext
  match a with
  | ⟨0, _⟩ => rfl
  | ⟨1, _⟩ => rfl

theorem stats7_pay4_apply (x : Vec Ideal S4000x128 .f32) (s : Vec Ideal S1x128 .f32) (q : Fin 128) :
    k7_pay4 x s (ix2 (0 : Fin 1) q) = s (ix2 (0 : Fin 1) q) + ∑ i : Fin 4000, x (ix2 i q) := by
  simp only [k7_pay4, k7_pay3, shapeCast_self, addf_apply]
  congr 1
  refine (shapeCast_addUnit_apply ![128] _ _ _).trans ?_
  refine (Ideal.multiReduction_add_single x _ reduces_S4000x128_S128 _ _ _).trans ?_
  exact Finset.sum_congr rfl fun k _ => congrArg x (stats7_lift q k)

theorem stats7_pay5_apply (x : Vec Ideal S4000x128 .f32) (s : Vec Ideal S1x128 .f32) (q : Fin 128) :
    k7_pay5 x s (ix2 (0 : Fin 1) q) = s (ix2 (0 : Fin 1) q) + ∑ i : Fin 4000, x (ix2 i q) * x (ix2 i q) := by
  simp only [k7_pay5, k7_pay3, shapeCast_self, addf_apply]
  congr 1
  refine (shapeCast_addUnit_apply ![128] _ _ _).trans ?_
  refine (Ideal.multiReduction_add_single (mulf x x) _ reduces_S4000x128_S128 _ _ _).trans ?_
  exact Finset.sum_congr rfl fun k _ => congrArg (fun z => x z * x z) (stats7_lift q k)

theorem stats7_idx : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)

theorem iblk7_apply (c : Dev nD) (t : Fin cfg7.N) (i : Fin 4000) (q : Fin 128) (r : Fin 200000) (hr : r.val = i.val + 4000 * t.val) :
    iblk7 V c 0 t (ix2 i q) = rows7 V c (ix2 r q) := by
  obtain ⟨e0, e1⟩ := stats7_idx t
  have h : ((cfg7.win 0).blk t).view.emb (ix2 i q) = ix2 r q := by
    funext a; apply Fin.ext
    match a with
    | ⟨0, _⟩ => show win7_0.index t (0 : Fin 2) * 4000 + 1 * i.val = r.val; omega
    | ⟨1, _⟩ => show win7_0.index t (1 : Fin 2) * 128 + 1 * q.val = q.val; omega
  exact congrArg (rows7 V c) h

theorem stats7_sum (c : Dev nD) (q : Fin 128) :
    (dat7 (F := Ideal) V c).arrAt 1 cfg7.N (ix2 (0 : Fin 1) q)
      = Cert.Spec.colsum (fun p q => V c (Pipeline.arrRef spec7 0) (ix2 p q)) q := by
  rw [arrAt7_1]
  exact acc_colsum N_7 (acc7_0 V c) (iblk7 V c 0) k7_pay4 id (fun j => by rw [acc7_0_zero V c 0 rfl]; exact stats7_pay1_apply j)
    (acc7_0_succ V c) stats7_pay4_apply (rows7 V c) (iblk7_apply V c) q

theorem stats7_sumsq (c : Dev nD) (q : Fin 128) :
    (dat7 (F := Ideal) V c).arrAt 2 cfg7.N (ix2 (0 : Fin 1) q)
      = Cert.Spec.colsumsq (fun p q => V c (Pipeline.arrRef spec7 0) (ix2 p q)) q := by
  rw [arrAt7_2]
  exact acc_colsum N_7 (acc7_1 V c) (iblk7 V c 0) k7_pay5 (fun z => z * z) (fun j => by rw [acc7_1_zero V c 0 rfl]; exact stats7_pay2_apply j)
    (acc7_1_succ V c) stats7_pay5_apply (rows7 V c) (iblk7_apply V c) q

end Region7
end Cert.KernelIdeal.Val
end
-- ==== Proof.KV.HostStats8.lean ====
import proofs.«123582_j22084721836889_2_alg».proof.Proof.Gen.KernelIdeal.Regions
import proofs.«123582_j22084721836889_2_alg».proof.Proof.Math.Spec
import proofs.«123582_j22084721836889_2_alg».proof.Proof.KV.HostStatsLib
import Idealize.ShloMosaic.Lib.StableHlo.Run
import Idealize.ShloMosaic.Lib.ValueIdx
import Idealize.ShloMosaic.Lib.ValueLayout

set_option maxRecDepth 2280

noncomputable section

namespace Cert.KernelIdeal.Val

open Idealize.ShloMosaic Idealize.ShloMosaic.TcCoe Idealize.ShloMosaic.ValueIdx
open Cert.KernelIdeal Cert.KernelIdeal.Gen

set_option maxHeartbeats 1600000 in

theorem scale8_apply (Vin : Valuation τ sig (Elt Ideal)) (q : Fin 128) :
    (StableHlo.after (hostOps8 (F := Ideal)) Vin (main_v135 : DevRef τ sig) : (⟨S1x128, .f32⟩ : BufTy).Contents (Elt Ideal)) (ix2 (0 : Fin 1) q)
      = Cert.Spec.kscale (fun q => (Vin (main_v120_0 : DevRef τ sig) : (⟨S1x128, .f32⟩ : BufTy).Contents (Elt Ideal)) (ix2 (0 : Fin 1) q))
          (fun q => (Vin (main_v120_1 : DevRef τ sig) : (⟨S1x128, .f32⟩ : BufTy).Contents (Elt Ideal)) (ix2 (0 : Fin 1) q))
          (fun q => (Vin (main_arg9 : DevRef τ sig) : (⟨S5x128, .f32⟩ : BufTy).Contents (Elt Ideal)) (ix2 (2 : Fin 5) q)) q := by
  dsimp only [hostOps8]
  open StableHlo in after_results_simp
  exact scale_term _ _ _ _ 2 2 _ _ _ rfl q

set_option maxHeartbeats 1600000 in

theorem shift8_apply (Vin : Valuation τ sig (Elt Ideal)) (q : Fin 128) :
    (StableHlo.after (hostOps8 (F := Ideal)) Vin (main_v140 : DevRef τ sig) : (⟨S1x128, .f32⟩ : BufTy).Contents (Elt Ideal)) (ix2 (0 : Fin 1) q)
      = Cert.Spec.kshift (fun q => (Vin (main_v120_0 : DevRef τ sig) : (⟨S1x128, .f32⟩ : BufTy).Contents (Elt Ideal)) (ix2 (0 : Fin 1) q))
          (fun q => (Vin (main_v120_1 : DevRef τ sig) : (⟨S1x128, .f32⟩ : BufTy).Contents (Elt Ideal)) (ix2 (0 : Fin 1) q))
          (fun q => (Vin (main_arg9 : DevRef τ sig) : (⟨S5x128, .f32⟩ : BufTy).Contents (Elt Ideal)) (ix2 (2 : Fin 5) q))
          (fun q => (Vin (main_arg10 : DevRef τ sig) : (⟨S5x128, .f32⟩ : BufTy).Contents (Elt Ideal)) (ix2 (2 : Fin 5) q)) q := by
  dsimp only [hostOps8]
  open StableHlo in after_results_simp
  exact shift_term _ _ _ _ _ 2 2 _ _ _ rfl q

theorem kept8 (Vin : Valuation τ sig (Elt Ideal)) (b : Ref sig .tc) (hb : b ∉ Gen.hostOps8_W) :
    StableHlo.after (hostOps8 (F := Ideal)) Vin (b : DevRef τ sig) = Vin (b : DevRef τ sig) :=
  StableHlo.after_of_writes_sub hostOps8 Vin hostOps8_writes hb

end Cert.KernelIdeal.Val

end
-- ==== Proof.KV.NormVal8.lean ====
import proofs.«123582_j22084721836889_2_alg».proof.Proof.KI.Norm8
import proofs.«123582_j22084721836889_2_alg».proof.Proof.Math.Spec
import Idealize.ShloMosaic.Lib.Pipeline.Value
import Idealize.ShloMosaic.Lib.ValueIdx
import Idealize.ShloMosaic.Lib.ValueLayout
import Idealize.ShloMosaic.PureOps.Ideal.Laws
import proofs.«123582_j22084721836889_2_alg».proof.Proof.KV.ValLib

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

section Region8
variable (V : (c : Dev nD) → (b : Ref sig .tc) → Buf (Elt Ideal) ((c : Thread nD τ).loc b))

abbrev rows8 (c : Dev nD) : S200000x128.Idx → EReal := V c (Pipeline.arrRef spec8 0)

abbrev scale8 (c : Dev nD) : S1x128.Idx → EReal := V c (Pipeline.arrRef spec8 1)

abbrev shift8 (c : Dev nD) : S1x128.Idx → EReal := V c (Pipeline.arrRef spec8 2)

theorem norm8_pay_apply (x0 : Vec Ideal S4000x128 .f32) (x1 x2 : Vec Ideal S1x128 .f32) (p : Fin 4000) (q : Fin 128) :
    k8_pay1 x0 x1 x2 (ix2 p q) = max (x0 (ix2 p q) * x1 (ix2 (0 : Fin 1) q) + x2 (ix2 (0 : Fin 1) q)) 0 := by
  simp only [k8_pay1, truncf_apply, maximumf_apply, addf_apply, mulf_apply, broadcast_apply, shapeCast_self, broadcastTo_1b_ab_apply]
  show max _ (Ideal.ofBits .f32 0x00000000#32) = _
  rw [Ideal.ofBits_zero_f32]

def normArr8 (A0 : S200000x128.Idx → EReal) (A1 A2 : S1x128.Idx → EReal) : S200000x128.Idx → EReal :=
  fun i => max (A0 i * A1 (ix2 (0 : Fin 1) (i 1)) + A2 (ix2 (0 : Fin 1) (i 1))) 0

theorem hz8 : (![0, 0] : Fin 2 → Nat) = fun _ => 0 := funext fun a => by fin_cases a <;> rfl

theorem norm8_idx : ∀ t : Fin cfg8.N, win8_0.index t (0 : Fin 2) = win8_3.index t (0 : Fin 2) ∧ win8_0.index t (1 : Fin 2) = 0
    ∧ win8_3.index t (1 : Fin 2) = 0 ∧ win8_3.index t (0 : Fin 2) = t.val
    ∧ win8_1.index t (0 : Fin 2) = 0 ∧ win8_1.index t (1 : Fin 2) = 0
    ∧ win8_2.index t (0 : Fin 2) = 0 ∧ win8_2.index t (1 : Fin 2) = 0 :=
  (by decide +kernel : ∀ t : Fin grid8.N, _)

theorem norm8_idx_onto : ∀ q0 : Fin 50, ∃ t : Fin cfg8.N, win8_3.index t = ![q0.val, 0] :=
  (by decide +kernel : ∀ q0 : Fin 50, ∃ t : Fin grid8.N, win8_3.index t = ![q0.val, 0])

set_option maxHeartbeats 800000 in

theorem norm8_flushed (c : Dev nD) (t : Fin cfg8.N) :
    (dat8 (F := Ideal) V c).flushed 3 t = ((cfg8.win 3).blk t).view.read (Elt Ideal)
      (normArr8 (rows8 V c) (scale8 V c) (shift8 V c)) := by
  show (cfg8.win 3).cut (grid8.coords t) ((dat8 V c).after 3 t) = _
  rw [after8_3]
  unfold out8_3
  rw [View.canon_unit_zero hz8]
  simp only [View.ld_unit_zero (S := S4000x128) hz8, View.ld_unit_zero (S := S1x128) hz8]
  obtain ⟨e0, e1, e2, e3, e4, e5, e6, e7⟩ := norm8_idx t
  funext j
  obtain ⟨p, q, rfl⟩ : ∃ (p : Fin 4000) (q : Fin 128), j = ix2 p q := ⟨j 0, j 1, eq_ix2 j⟩
  show k8_pay1 (iblk8 V c 0 t) (iblk8 V c 1 t) (iblk8 V c 2 t) (ix2 p q) = _
  rw [norm8_pay_apply]
  have ha : iblk8 V c 0 t (ix2 p q) = rows8 V c (((cfg8.win 3).blk t).view.emb (ix2 p q)) := congrArg (rows8 V c) (idx2_ext (j := ((cfg8.win 0).blk t).view.emb (ix2 p q))
    (by show win8_0.index t (0 : Fin 2) * 4000 + 1 * p.val = win8_3.index t (0 : Fin 2) * 4000 + 1 * p.val; omega) (by show win8_0.index t (1 : Fin 2) * 128 + 1 * q.val = win8_3.index t (1 : Fin 2) * 128 + 1 * q.val; omega))
  have hb : iblk8 V c 1 t (ix2 (0 : Fin 1) q) = scale8 V c (ix2 (0 : Fin 1) ((((cfg8.win 3).blk t).view.emb (ix2 p q)) 1)) := congrArg (scale8 V c) (idx2_ext (j := ((cfg8.win 1).blk t).view.emb (ix2 (0 : Fin 1) q))
    (by show win8_1.index t (0 : Fin 2) * 1 + 1 * 0 = 0; omega) (by show win8_1.index t (1 : Fin 2) * 128 + 1 * q.val = win8_3.index t (1 : Fin 2) * 128 + 1 * q.val; omega))
  have hc : iblk8 V c 2 t (ix2 (0 : Fin 1) q) = shift8 V c (ix2 (0 : Fin 1) ((((cfg8.win 3).blk t).view.emb (ix2 p q)) 1)) := congrArg (shift8 V c) (idx2_ext (j := ((cfg8.win 2).blk t).view.emb (ix2 (0 : Fin 1) q))
    (by show win8_2.index t (0 : Fin 2) * 1 + 1 * 0 = 0; omega) (by show win8_2.index t (1 : Fin 2) * 128 + 1 * q.val = win8_3.index t (1 : Fin 2) * 128 + 1 * q.val; omega))
  rw [ha, hb, hc]
  rfl

theorem norm8_cover (i : S200000x128.Idx) :
    ∃ t : Fin cfg8.N, (cfg8.win 3).flush t = true ∧ i ∈ ((cfg8.win 3).blk t).view.set :=
  let ⟨t, h⟩ := cover_rows win8_3.index (fun t => ((cfg8.win 3).blk t).view.set)
    (fun t i => by
      show i ∈ ((View.whole main_v141).slice (win8_3.rect t)).set ↔ _
      rw [View.set_slice_whole, Rect.mem_set_unit]; exact Iff.rfl) norm8_idx_onto i
  ⟨t, flush8_3 t, h⟩

theorem norm8_final (c : Dev nD) : (dat8 (F := Ideal) V c).arrAt 3 cfg8.N
    = normArr8 (rows8 V c) (scale8 V c) (shift8 V c) :=
  (dat8 V c).arrAt_eq_of_cover 3 _ (fun t _ => norm8_flushed V c t) norm8_cover

theorem norm8_val (c : Dev nD) (p : Fin 200000) (q : Fin 128) :
    ((dat8 (F := Ideal) V c).arrAt 3 cfg8.N) (ix2 p q)
      = Cert.Spec.knorm (fun p q => V c (Pipeline.arrRef spec8 0) (ix2 p q)) (fun q => V c (Pipeline.arrRef spec8 1) (ix2 (0 : Fin 1) q))
          (fun q => V c (Pipeline.arrRef spec8 2) (ix2 (0 : Fin 1) q)) p q := by
  rw [norm8_final]
  rfl

end Region8

end Cert.KernelIdeal.Val

end
-- ==== Proof.KV.Chain2.lean ====
import proofs.«123582_j22084721836889_2_alg».proof.Proof.KI.Fold
import proofs.«123582_j22084721836889_2_alg».proof.Proof.KV.ChainKept
import proofs.«123582_j22084721836889_2_alg».proof.Proof.KV.ChainLayerLib
import proofs.«123582_j22084721836889_2_alg».proof.Proof.KV.HostLayer6
import proofs.«123582_j22084721836889_2_alg».proof.Proof.KV.LinVal6
import proofs.«123582_j22084721836889_2_alg».proof.Proof.KV.StatsVal7
import proofs.«123582_j22084721836889_2_alg».proof.Proof.KV.HostStats8
import proofs.«123582_j22084721836889_2_alg».proof.Proof.KV.NormVal8
import proofs.«123582_j22084721836889_2_alg».proof.Proof.Math.Net
import proofs.«123582_j22084721836889_2_alg».proof.Proof.Math.Spec

set_option maxRecDepth 16384
set_option quotPrecheck false

noncomputable section

namespace Cert.KernelIdeal.Val

open Idealize.ShloMosaic Idealize.ShloMosaic.TcCoe Idealize.ShloMosaic.ValueIdx
open Cert.KernelIdeal Cert.KernelIdeal.Gen Cert.KernelIdeal.Hand Cert.Hand.HostRead

section Layer

variable (m : (ℓ : Loc nD τ sig) → Buf (Elt Ideal) ℓ) (c : Dev nD)

local notation "tgA" => tgOf 200000 (W12 m c (main_arg3 : DevRef τ sig) : (⟨S400000, .i32⟩ : BufTy).Contents (Elt Ideal))
local notation "gsA" => gsOf 200000 (W12 m c (main_arg2 : DevRef τ sig) : (⟨S400000, .i32⟩ : BufTy).Contents (Elt Ideal))
local notation "embA" => (fun (v : Fin 5) (k : Fin 128) => (W12 m c (main_arg6 : DevRef τ sig) : (⟨S5x5x128, .f32⟩ : BufTy).Contents (Elt Ideal)) (ix3 (2 : Fin 5) v k))
local notation "wtA" => (fun (k q : Fin 128) => (W12 m c (main_arg7 : DevRef τ sig) : (⟨S5x128x128, .f32⟩ : BufTy).Contents (Elt Ideal)) (ix3 (2 : Fin 5) k q))
local notation "bA" => (fun (q : Fin 128) => (W12 m c (main_arg8 : DevRef τ sig) : (⟨S5x128, .f32⟩ : BufTy).Contents (Elt Ideal)) (ix2 (2 : Fin 5) q))
local notation "gaA" => (fun (q : Fin 128) => (W12 m c (main_arg9 : DevRef τ sig) : (⟨S5x128, .f32⟩ : BufTy).Contents (Elt Ideal)) (ix2 (2 : Fin 5) q))
local notation "beA" => (fun (q : Fin 128) => (W12 m c (main_arg10 : DevRef τ sig) : (⟨S5x128, .f32⟩ : BufTy).Contents (Elt Ideal)) (ix2 (2 : Fin 5) q))

theorem linOut_L2 : W14 m c (main_v119 : DevRef τ sig) = (dat6 (rd (W13 m)) c).arrAt 7 cfg6.N := by
  unfold W14
  exact Function.update_self _ _ _

theorem sumOut_L2 : W15 m c (main_v120_0 : DevRef τ sig) = (dat7 (rd (W14 m)) c).arrAt 1 cfg7.N := by
  unfold W15
  rw [Function.update_of_ne (StableHlo.devRef_ne_of_ne (show (main_v120_0 : Ref sig .tc) ≠ main_v120_1 by decide))]
  exact Function.update_self _ _ _

theorem sumsqOut_L2 : W15 m c (main_v120_1 : DevRef τ sig) = (dat7 (rd (W14 m)) c).arrAt 2 cfg7.N := by
  unfold W15
  exact Function.update_self _ _ _

theorem normOut_L2 : W17 m c (main_v141 : DevRef τ sig) = (dat8 (rd (W16 m)) c).arrAt 3 cfg8.N := by
  unfold W17
  exact Function.update_self _ _ _

variable (ef : Fin 400000 → Fin 5) (H : Fin 200000 → Fin 128 → EReal)
  (hH : ∀ p q, (W12 m c (main_v100 : DevRef τ sig) : (⟨S200000x128, .bf16⟩ : BufTy).Contents (Elt Ideal)) (ix2 p q) = H p q)
  (hI : ∀ p, (W12 m c (main_v15 : DevRef τ sig) : (⟨S200000x1, .f32⟩ : BufTy).Contents (Elt Ideal)) (ix2 p (0 : Fin 1))
    = Cert.Spec.invdeg (tgOf 200000 (W12 m c (main_arg3 : DevRef τ sig) : (⟨S400000, .i32⟩ : BufTy).Contents (Elt Ideal))) p)
  (hC : ∀ n v, (W12 m c (main_v19 : DevRef τ sig) : (⟨S200000x5, .f32⟩ : BufTy).Contents (Elt Ideal)) (ix2 n v)
    = Cert.Spec.cmat (tgOf 200000 (W12 m c (main_arg3 : DevRef τ sig) : (⟨S400000, .i32⟩ : BufTy).Contents (Elt Ideal))) ef n v)

include hH hI hC

set_option maxHeartbeats 1600000 in
theorem linVal_L2 (p : Fin 200000) (q : Fin 128) :
    (W14 m c (main_v119 : DevRef τ sig) : (⟨S200000x128, .f32⟩ : BufTy).Contents (Elt Ideal)) (ix2 p q)
      = Cert.Spec.klin gsA tgA ef H embA wtA bA p q := by
  rw [linOut_L2 m c, Cert.Spec.klin_eq_linArr]
  refine (lin6_val (rd (W13 m)) c p q).trans (congrFun (congrFun (Cert.Spec.linArr_congr ?_ ?_ ?_ ?_ ?_ ?_ ?_) p) q)
  · funext p k; exact (congrFun (W13_of m c main_v100 (by decide)) (ix2 p k)).trans (hH p k)
  · funext p k; exact (neigh6_apply (W12 m c) p k).trans (by simp only [hH])
  · funext p v; exact (congrFun (W13_of m c main_v19 (by decide)) (ix2 p v)).trans (hC p v)
  · funext v k; exact emb6_apply (W12 m c) v k
  · funext p; exact (congrFun (W13_of m c main_v15 (by decide)) (ix2 p (0 : Fin 1))).trans (hI p)
  · funext k q; exact w6_apply (W12 m c) k q
  · funext q; exact b6_apply (W12 m c) q

theorem sumVal_L2 : (fun (q : Fin 128) => (W15 m c (main_v120_0 : DevRef τ sig) : (⟨S1x128, .f32⟩ : BufTy).Contents (Elt Ideal)) (ix2 (0 : Fin 1) q))
    = Cert.Spec.colsum (Cert.Spec.klin gsA tgA ef H embA wtA bA) := by
  funext q; rw [sumOut_L2 m c]
  exact (stats7_sum (rd (W14 m)) c q).trans (congrFun (congrArg Cert.Spec.colsum (funext fun p => funext fun q => linVal_L2 m c ef H hH hI hC p q)) q)

theorem sumsqVal_L2 : (fun (q : Fin 128) => (W15 m c (main_v120_1 : DevRef τ sig) : (⟨S1x128, .f32⟩ : BufTy).Contents (Elt Ideal)) (ix2 (0 : Fin 1) q))
    = Cert.Spec.colsumsq (Cert.Spec.klin gsA tgA ef H embA wtA bA) := by
  funext q; rw [sumsqOut_L2 m c]
  exact (stats7_sumsq (rd (W14 m)) c q).trans (congrFun (congrArg Cert.Spec.colsumsq (funext fun p => funext fun q => linVal_L2 m c ef H hH hI hC p q)) q)

theorem gammaMid_L2 : (fun (q : Fin 128) => (W15 m c (main_arg9 : DevRef τ sig) : (⟨S5x128, .f32⟩ : BufTy).Contents (Elt Ideal)) (ix2 (2 : Fin 5) q)) = gaA := by
  rw [W15_of m c main_arg9 (by decide), W14_of m c main_arg9 (by decide), W13_of m c main_arg9 (by decide)]
theorem betaMid_L2 : (fun (q : Fin 128) => (W15 m c (main_arg10 : DevRef τ sig) : (⟨S5x128, .f32⟩ : BufTy).Contents (Elt Ideal)) (ix2 (2 : Fin 5) q)) = beA := by
  rw [W15_of m c main_arg10 (by decide), W14_of m c main_arg10 (by decide), W13_of m c main_arg10 (by decide)]

theorem scaleVal_L2 : (fun (q : Fin 128) => (W16 m c (main_v135 : DevRef τ sig) : (⟨S1x128, .f32⟩ : BufTy).Contents (Elt Ideal)) (ix2 (0 : Fin 1) q))
    = Cert.Spec.kscale (Cert.Spec.colsum (Cert.Spec.klin gsA tgA ef H embA wtA bA)) (Cert.Spec.colsumsq (Cert.Spec.klin gsA tgA ef H embA wtA bA)) gaA := by
  funext q
  exact (scale8_apply (W15 m c) q).trans (congrFun (Cert.Spec.kscale_congr (sumVal_L2 m c ef H hH hI hC) (sumsqVal_L2 m c ef H hH hI hC) (gammaMid_L2 m c ef H hH hI hC)) q)

theorem shiftVal_L2 : (fun (q : Fin 128) => (W16 m c (main_v140 : DevRef τ sig) : (⟨S1x128, .f32⟩ : BufTy).Contents (Elt Ideal)) (ix2 (0 : Fin 1) q))
    = Cert.Spec.kshift (Cert.Spec.colsum (Cert.Spec.klin gsA tgA ef H embA wtA bA)) (Cert.Spec.colsumsq (Cert.Spec.klin gsA tgA ef H embA wtA bA)) gaA beA := by
  funext q
  exact (shift8_apply (W15 m c) q).trans (congrFun (Cert.Spec.kshift_congr (sumVal_L2 m c ef H hH hI hC) (sumsqVal_L2 m c ef H hH hI hC) (gammaMid_L2 m c ef H hH hI hC) (betaMid_L2 m c ef H hH hI hC)) q)

theorem chain2 (p : Fin 200000) (q : Fin 128) :
    (W17 m c (main_v141 : DevRef τ sig) : (⟨S200000x128, .bf16⟩ : BufTy).Contents (Elt Ideal)) (ix2 p q)
      = Cert.Spec.klayer gsA tgA ef H embA wtA bA gaA beA p q := by
  rw [normOut_L2 m c, Cert.Spec.klayer_eq]
  refine (norm8_val (rd (W16 m)) c p q).trans (congrFun (congrFun (Cert.Spec.knorm_congr ?_ (scaleVal_L2 m c ef H hH hI hC) (shiftVal_L2 m c ef H hH hI hC)) p) q)
  funext p q
  exact (congrFun ((kept8 (W15 m c) main_v119 (by decide)).trans (W15_of m c main_v119 (by decide))) (ix2 p q)).trans (linVal_L2 m c ef H hH hI hC p q)

end Layer

end Cert.KernelIdeal.Val

end
-- ==== Proof.KV.HostLayer9.lean ====
import proofs.«123582_j22084721836889_2_alg».proof.Proof.Gen.KernelIdeal.Regions
import proofs.«123582_j22084721836889_2_alg».proof.Proof.Math.Spec
import proofs.«123582_j22084721836889_2_alg».proof.Proof.Math.HostRead
import proofs.«123582_j22084721836889_2_alg».proof.Proof.KV.HostStatsLib
import proofs.«123582_j22084721836889_2_alg».proof.Proof.KV.HostLayerLib
import Idealize.ShloMosaic.Lib.StableHlo.Run
import Idealize.ShloMosaic.Lib.ValueIdx
import Idealize.ShloMosaic.Lib.ValueLayout
import Idealize.ShloMosaic.Lib.Pipeline.Value

set_option maxRecDepth 2280

noncomputable section

namespace Cert.KernelIdeal.Val

open Idealize.ShloMosaic Idealize.ShloMosaic.TcCoe Idealize.ShloMosaic.ValueIdx
open Cert.KernelIdeal Cert.KernelIdeal.Gen Cert.Hand.HostRead

set_option maxHeartbeats 1600000 in

theorem neigh9_apply (Vin : Valuation τ sig (Elt Ideal)) (n : Fin 200000) (j : Fin 128) :
    (StableHlo.after (hostOps9 (F := Ideal)) Vin (main_v152 : DevRef τ sig) : (⟨S200000x128, .f32⟩ : BufTy).Contents (Elt Ideal)) (ix2 n j)
      = Cert.Spec.seg (tgOf 200000 (Vin (main_arg3 : DevRef τ sig) : (⟨S400000, .i32⟩ : BufTy).Contents (Elt Ideal)))
          (fun e j => (Vin (main_v141 : DevRef τ sig) : (⟨S200000x128, .bf16⟩ : BufTy).Contents (Elt Ideal))
            (ix2 (gsOf 200000 (Vin (main_arg2 : DevRef τ sig) : (⟨S400000, .i32⟩ : BufTy).Contents (Elt Ideal)) e) j)) n j := by
  dsimp only [hostOps9]
  open StableHlo in after_results_simp
  exact neigh_term _ ⟨rfl, rfl, rfl, rfl, rfl, rfl, rfl⟩ _ ⟨rfl, rfl, rfl, rfl⟩ _ _ _ _ _ _ _ n j

set_option maxHeartbeats 1600000 in

theorem emb9_apply (Vin : Valuation τ sig (Elt Ideal)) (v : Fin 5) (k : Fin 128) :
    (StableHlo.after (hostOps9 (F := Ideal)) Vin (main_v154 : DevRef τ sig) : (⟨S5x128, .f32⟩ : BufTy).Contents (Elt Ideal)) (ix2 v k)
      = (Vin (main_arg6 : DevRef τ sig) : (⟨S5x5x128, .f32⟩ : BufTy).Contents (Elt Ideal)) (ix3 (3 : Fin 5) v k) := by
  dsimp only [hostOps9]
  open StableHlo in after_results_simp
  exact slab_apply 3 3 rfl _ _ _ v k

set_option maxHeartbeats 1600000 in

theorem w9_apply (Vin : Valuation τ sig (Elt Ideal)) (k q : Fin 128) :
    (StableHlo.after (hostOps9 (F := Ideal)) Vin (main_v159 : DevRef τ sig) : (⟨S128x128, .f32⟩ : BufTy).Contents (Elt Ideal)) (ix2 k q)
      = (Vin (main_arg7 : DevRef τ sig) : (⟨S5x128x128, .f32⟩ : BufTy).Contents (Elt Ideal)) (ix3 (3 : Fin 5) k q) := by
  dsimp only [hostOps9]
  open StableHlo in after_results_simp
  exact slab_apply 3 3 rfl _ _ _ k q

set_option maxHeartbeats 1600000 in

theorem b9_apply (Vin : Valuation τ sig (Elt Ideal)) (q : Fin 128) :
    (StableHlo.after (hostOps9 (F := Ideal)) Vin (main_v157 : DevRef τ sig) : (⟨S1x128, .f32⟩ : BufTy).Contents (Elt Ideal)) (ix2 (0 : Fin 1) q)
      = (Vin (main_arg8 : DevRef τ sig) : (⟨S5x128, .f32⟩ : BufTy).Contents (Elt Ideal)) (ix2 (3 : Fin 5) q) := by
  dsimp only [hostOps9]
  open StableHlo in after_results_simp
  exact paramRow_apply 3 3 rfl _ _ _ _ q

theorem kept9 (Vin : Valuation τ sig (Elt Ideal)) (b : Ref sig .tc) (hb : b ∉ Gen.hostOps9_W) :
    StableHlo.after (hostOps9 (F := Ideal)) Vin (b : DevRef τ sig) = Vin (b : DevRef τ sig) :=
  StableHlo.after_of_writes_sub hostOps9 Vin hostOps9_writes hb

end Cert.KernelIdeal.Val

end
-- ==== Proof.KV.LinVal9.lean ====
import proofs.«123582_j22084721836889_2_alg».proof.Proof.KI.Lin9
import proofs.«123582_j22084721836889_2_alg».proof.Proof.KV.LinVal

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open scoped BigOperators

section Region9
variable (V : (c : Dev nD) → (b : Ref sig .tc) → Buf (Elt Ideal) ((c : Thread nD τ).loc b))

abbrev linH9 (c : Dev nD) : S200000x128.Idx → EReal := V c (Pipeline.arrRef spec9 0)

abbrev linNeigh9 (c : Dev nD) : S200000x128.Idx → EReal := V c (Pipeline.arrRef spec9 1)

abbrev linCnt9 (c : Dev nD) : S200000x5.Idx → EReal := V c (Pipeline.arrRef spec9 2)

abbrev linEmb9 (c : Dev nD) : S5x128.Idx → EReal := V c (Pipeline.arrRef spec9 3)

abbrev linInvd9 (c : Dev nD) : S200000x1.Idx → EReal := V c (Pipeline.arrRef spec9 4)

abbrev linW9 (c : Dev nD) : S128x128.Idx → EReal := V c (Pipeline.arrRef spec9 5)

abbrev linBias9 (c : Dev nD) : S1x128.Idx → EReal := V c (Pipeline.arrRef spec9 6)

theorem lin9_pay_apply (x0 : Vec Ideal S4000x128 .bf16) (x1 : Vec Ideal S4000x128 .f32) (x2 : Vec Ideal S4000x5 .f32)
    (x3 : Vec Ideal S5x128 .f32) (x4 : Vec Ideal S4000x1 .f32) (x5 : Vec Ideal S128x128 .f32) (x6 : Vec Ideal S1x128 .f32)
    (p : Fin 4000) (q : Fin 128) :
    k9_pay1 x0 x1 x2 x3 x4 x5 x6 (ix2 p q)
      = (∑ k : Fin 128, ((x0 (ix2 p k) + x1 (ix2 p k) + ∑ v : Fin 5, x2 (ix2 p v) * x3 (ix2 v k)) * x4 (ix2 p (0 : Fin 1))) * x5 (ix2 k q))
        + x6 (ix2 (0 : Fin 1) q) := by
  simp only [k9_pay1, addf_apply, mulf_apply, truncf_apply, extf_apply, shapeCast_self, broadcastTo_1b_ab_apply, linCol_broadcast_apply,
    wDot_apply, embDot_apply]

theorem lin9_idx : ∀ t : Fin cfg9.N,
    win9_0.index t (0 : Fin 2) = win9_7.index t (0 : Fin 2) ∧ win9_0.index t (1 : Fin 2) = 0
    ∧ win9_1.index t (0 : Fin 2) = win9_7.index t (0 : Fin 2) ∧ win9_1.index t (1 : Fin 2) = 0
    ∧ win9_2.index t (0 : Fin 2) = win9_7.index t (0 : Fin 2) ∧ win9_2.index t (1 : Fin 2) = 0
    ∧ win9_3.index t (0 : Fin 2) = 0 ∧ win9_3.index t (1 : Fin 2) = 0
    ∧ win9_4.index t (0 : Fin 2) = win9_7.index t (0 : Fin 2) ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (1 : Fin 2) = 0 ∧ win9_7.index t (0 : Fin 2) = t.val :=
  (by decide +kernel : ∀ t : Fin grid9.N, _)

theorem lin9_idx_onto : ∀ q0 : Fin 50, ∃ t : Fin cfg9.N, win9_7.index t = ![q0.val, 0] :=
  (by decide +kernel : ∀ q0 : Fin 50, ∃ t : Fin grid9.N, win9_7.index t = ![q0.val, 0])

set_option maxHeartbeats 1600000 in

theorem lin9_flushed (c : Dev nD) (t : Fin cfg9.N) :
    (dat9 (F := Ideal) V c).flushed 7 t = ((cfg9.win 7).blk t).view.read (Elt Ideal)
      (linFull (linH9 V c) (linNeigh9 V c) (linCnt9 V c) (linEmb9 V c) (linInvd9 V c) (linW9 V c) (linBias9 V c)) := by
  show (cfg9.win 7).cut (grid9.coords t) ((dat9 V c).after 7 t) = _
  rw [after9_7]
  unfold out9_7
  rw [View.canon_unit_zero lin_hz]
  simp only [View.ld_unit_zero (S := S4000x128) lin_hz, View.ld_unit_zero (S := S4000x5) lin_hz, View.ld_unit_zero (S := S5x128) lin_hz,
    View.ld_unit_zero (S := S4000x1) lin_hz, View.ld_unit_zero (S := S128x128) lin_hz, View.ld_unit_zero (S := S1x128) lin_hz]
  obtain ⟨e00, e01, e10, e11, e20, e21, e30, e31, e40, e41, e50, e51, e60, e61, e71, e70⟩ := lin9_idx t
  funext j
  obtain ⟨p, q, rfl⟩ : ∃ (p : Fin 4000) (q : Fin 128), j = ix2 p q := ⟨j 0, j 1, eq_ix2 j⟩
  show k9_pay1 (iblk9 V c 0 t) (iblk9 V c 1 t) (iblk9 V c 2 t) (iblk9 V c 3 t) (iblk9 V c 4 t) (iblk9 V c 5 t) (iblk9 V c 6 t) (ix2 p q) = _
  rw [lin9_pay_apply]
  have ha : ∀ k : Fin 128, iblk9 V c 0 t (ix2 p k) = linH9 V c (ix2 ((((cfg9.win 7).blk t).view.emb (ix2 p q)) 0) k) := fun k => congrArg (linH9 V c) (idx2_ext (j := ((cfg9.win 0).blk t).view.emb (ix2 p k))
    (by show win9_0.index t (0 : Fin 2) * 4000 + 1 * p.val = win9_7.index t (0 : Fin 2) * 4000 + 1 * p.val; omega) (by show win9_0.index t (1 : Fin 2) * 128 + 1 * k.val = k.val; omega))
  have hb : ∀ k : Fin 128, iblk9 V c 1 t (ix2 p k) = linNeigh9 V c (ix2 ((((cfg9.win 7).blk t).view.emb (ix2 p q)) 0) k) := fun k => congrArg (linNeigh9 V c) (idx2_ext (j := ((cfg9.win 1).blk t).view.emb (ix2 p k))
    (by show win9_1.index t (0 : Fin 2) * 4000 + 1 * p.val = win9_7.index t (0 : Fin 2) * 4000 + 1 * p.val; omega) (by show win9_1.index t (1 : Fin 2) * 128 + 1 * k.val = k.val; omega))
  have hc : ∀ v : Fin 5, iblk9 V c 2 t (ix2 p v) = linCnt9 V c (ix2 ((((cfg9.win 7).blk t).view.emb (ix2 p q)) 0) v) := fun v => congrArg (linCnt9 V c) (idx2_ext (j := ((cfg9.win 2).blk t).view.emb (ix2 p v))
    (by show win9_2.index t (0 : Fin 2) * 4000 + 1 * p.val = win9_7.index t (0 : Fin 2) * 4000 + 1 * p.val; omega) (by show win9_2.index t (1 : Fin 2) * 5 + 1 * v.val = v.val; omega))
  have hd : ∀ (v : Fin 5) (k : Fin 128), iblk9 V c 3 t (ix2 v k) = linEmb9 V c (ix2 v k) := fun v k => congrArg (linEmb9 V c) (idx2_ext (j := ((cfg9.win 3).blk t).view.emb (ix2 v k))
    (by show win9_3.index t (0 : Fin 2) * 5 + 1 * v.val = v.val; omega) (by show win9_3.index t (1 : Fin 2) * 128 + 1 * k.val = k.val; omega))
  have he : iblk9 V c 4 t (ix2 p (0 : Fin 1)) = linInvd9 V c (ix2 ((((cfg9.win 7).blk t).view.emb (ix2 p q)) 0) (0 : Fin 1)) := congrArg (linInvd9 V c) (idx2_ext (j := ((cfg9.win 4).blk t).view.emb (ix2 p (0 : Fin 1)))
    (by show win9_4.index t (0 : Fin 2) * 4000 + 1 * p.val = win9_7.index t (0 : Fin 2) * 4000 + 1 * p.val; omega) (by show win9_4.index t (1 : Fin 2) * 1 + 1 * 0 = 0; omega))
  have hf : ∀ k : Fin 128, iblk9 V c 5 t (ix2 k q) = linW9 V c (ix2 k ((((cfg9.win 7).blk t).view.emb (ix2 p q)) 1)) := fun k => congrArg (linW9 V c) (idx2_ext (j := ((cfg9.win 5).blk t).view.emb (ix2 k q))
    (by show win9_5.index t (0 : Fin 2) * 128 + 1 * k.val = k.val; omega) (by show win9_5.index t (1 : Fin 2) * 128 + 1 * q.val = win9_7.index t (1 : Fin 2) * 128 + 1 * q.val; omega))
  have hg : iblk9 V c 6 t (ix2 (0 : Fin 1) q) = linBias9 V c (ix2 (0 : Fin 1) ((((cfg9.win 7).blk t).view.emb (ix2 p q)) 1)) := congrArg (linBias9 V c) (idx2_ext (j := ((cfg9.win 6).blk t).view.emb (ix2 (0 : Fin 1) q))
    (by show win9_6.index t (0 : Fin 2) * 1 + 1 * 0 = 0; omega) (by show win9_6.index t (1 : Fin 2) * 128 + 1 * q.val = win9_7.index t (1 : Fin 2) * 128 + 1 * q.val; omega))
  simp only [ha, hb, hc, hd, he, hf, hg]
  rfl

theorem lin9_cover (i : S200000x128.Idx) :
    ∃ t : Fin cfg9.N, (cfg9.win 7).flush t = true ∧ i ∈ ((cfg9.win 7).blk t).view.set :=
  let ⟨t, h⟩ := cover_rows win9_7.index (fun t => ((cfg9.win 7).blk t).view.set)
    (fun t i => by
      show i ∈ ((View.whole (Pipeline.arrRef spec9 7)).slice (win9_7.rect t)).set ↔ _
      rw [View.set_slice_whole, Rect.mem_set_unit]; exact Iff.rfl) lin9_idx_onto i
  ⟨t, flush9_7 t, h⟩

theorem lin9_final (c : Dev nD) : (dat9 (F := Ideal) V c).arrAt 7 cfg9.N
    = linFull (linH9 V c) (linNeigh9 V c) (linCnt9 V c) (linEmb9 V c) (linInvd9 V c) (linW9 V c) (linBias9 V c) :=
  (dat9 V c).arrAt_eq_of_cover 7 _ (fun t _ => lin9_flushed V c t) lin9_cover

theorem lin9_val (c : Dev nD) (p : Fin 200000) (q : Fin 128) : ((dat9 (F := Ideal) V c).arrAt 7 cfg9.N) (ix2 p q) = Cert.Spec.linArr (fun p k => V c (Pipeline.arrRef spec9 0) (ix2 p k)) (fun p k => V c (Pipeline.arrRef spec9 1) (ix2 p k)) (fun p v => V c (Pipeline.arrRef spec9 2) (ix2 p v)) (fun v k => V c (Pipeline.arrRef spec9 3) (ix2 v k)) (fun p => V c (Pipeline.arrRef spec9 4) (ix2 p (0 : Fin 1))) (fun k q => V c (Pipeline.arrRef spec9 5) (ix2 k q)) (fun q => V c (Pipeline.arrRef spec9 6) (ix2 (0 : Fin 1) q)) p q := by
  rw [lin9_final]
  rfl

end Region9

end Cert.KernelIdeal.Val

end
-- ==== Proof.KV.StatsVal10.lean ====
import proofs.«123582_j22084721836889_2_alg».proof.Proof.KI.Stats10
import proofs.«123582_j22084721836889_2_alg».proof.Proof.Math.Spec
import proofs.«123582_j22084721836889_2_alg».proof.Proof.KV.StatsValLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open scoped BigOperators

section Region10
variable (V : (c : Dev nD) → (b : Ref sig .tc) → Buf (Elt Ideal) ((c : Thread nD τ).loc b))

abbrev rows10 (c : Dev nD) : S200000x128.Idx → EReal := V c (Pipeline.arrRef spec10 0)

theorem stats10_pay1_apply (j : S1x128.Idx) : (k10_pay1 (F := Ideal)) j = 0 := by
  simp only [k10_pay1, shapeCast_self, broadcast_apply]
  exact Ideal.ofBits_zero_f32
theorem stats10_pay2_apply (j : S1x128.Idx) : (k10_pay2 (F := Ideal)) j = 0 := by
  simp only [k10_pay2, shapeCast_self, broadcast_apply]
  exact Ideal.ofBits_zero_f32

theorem stats10_lift (q : Fin 128) (k : Fin 4000) :
    reduces_S4000x128_S128.lift (fun a : Fin 1 => (ix2 (0 : Fin 1) q) a.succ) k = ix2 k q := by
  funext a; apply Fin.ext
  match a with
  | ⟨0, _⟩ => rfl
  | ⟨1, _⟩ => rfl

theorem stats10_pay4_apply (x : Vec Ideal S4000x128 .f32) (s : Vec Ideal S1x128 .f32) (q : Fin 128) :
    k10_pay4 x s (ix2 (0 : Fin 1) q) = s (ix2 (0 : Fin 1) q) + ∑ i : Fin 4000, x (ix2 i q) := by
  simp only [k10_pay4, k10_pay3, shapeCast_self, addf_apply]
  congr 1
  refine (shapeCast_addUnit_apply ![128] _ _ _).trans ?_
  refine (Ideal.multiReduction_add_single x _ reduces_S4000x128_S128 _ _ _).trans ?_
  exact Finset.sum_congr rfl fun k _ => congrArg x (stats10_lift q k)

theorem stats10_pay5_apply (x : Vec Ideal S4000x128 .f32) (s : Vec Ideal S1x128 .f32) (q : Fin 128) :
    k10_pay5 x s (ix2 (0 : Fin 1) q) = s (ix2 (0 : Fin 1) q) + ∑ i : Fin 4000, x (ix2 i q) * x (ix2 i q) := by
  simp only [k10_pay5, k10_pay3, shapeCast_self, addf_apply]
  congr 1
  refine (shapeCast_addUnit_apply ![128] _ _ _).trans ?_
  refine (Ideal.multiReduction_add_single (mulf x x) _ reduces_S4000x128_S128 _ _ _).trans ?_
  exact Finset.sum_congr rfl fun k _ => congrArg (fun z => x z * x z) (stats10_lift q k)

theorem stats10_idx : ∀ t : Fin cfg10.N, win10_0.index t (0 : Fin 2) = t.val ∧ win10_0.index t (1 : Fin 2) = 0 :=
  (by decide +kernel : ∀ t : Fin grid10.N, win10_0.index t (0 : Fin 2) = t.val ∧ win10_0.index t (1 : Fin 2) = 0)

theorem iblk10_apply (c : Dev nD) (t : Fin cfg10.N) (i : Fin 4000) (q : Fin 128) (r : Fin 200000) (hr : r.val = i.val + 4000 * t.val) :
    iblk10 V c 0 t (ix2 i q) = rows10 V c (ix2 r q) := by
  obtain ⟨e0, e1⟩ := stats10_idx t
  have h : ((cfg10.win 0).blk t).view.emb (ix2 i q) = ix2 r q := by
    funext a; apply Fin.ext
    match a with
    | ⟨0, _⟩ => show win10_0.index t (0 : Fin 2) * 4000 + 1 * i.val = r.val; omega
    | ⟨1, _⟩ => show win10_0.index t (1 : Fin 2) * 128 + 1 * q.val = q.val; omega
  exact congrArg (rows10 V c) h

theorem stats10_sum (c : Dev nD) (q : Fin 128) :
    (dat10 (F := Ideal) V c).arrAt 1 cfg10.N (ix2 (0 : Fin 1) q)
      = Cert.Spec.colsum (fun p q => V c (Pipeline.arrRef spec10 0) (ix2 p q)) q := by
  rw [arrAt10_1]
  exact acc_colsum N_10 (acc10_0 V c) (iblk10 V c 0) k10_pay4 id (fun j => by rw [acc10_0_zero V c 0 rfl]; exact stats10_pay1_apply j)
    (acc10_0_succ V c) stats10_pay4_apply (rows10 V c) (iblk10_apply V c) q

theorem stats10_sumsq (c : Dev nD) (q : Fin 128) :
    (dat10 (F := Ideal) V c).arrAt 2 cfg10.N (ix2 (0 : Fin 1) q)
      = Cert.Spec.colsumsq (fun p q => V c (Pipeline.arrRef spec10 0) (ix2 p q)) q := by
  rw [arrAt10_2]
  exact acc_colsum N_10 (acc10_1 V c) (iblk10 V c 0) k10_pay5 (fun z => z * z) (fun j => by rw [acc10_1_zero V c 0 rfl]; exact stats10_pay2_apply j)
    (acc10_1_succ V c) stats10_pay5_apply (rows10 V c) (iblk10_apply V c) q

end Region10
end Cert.KernelIdeal.Val
end
-- ==== Proof.KV.HostStats11.lean ====
import proofs.«123582_j22084721836889_2_alg».proof.Proof.Gen.KernelIdeal.Regions
import proofs.«123582_j22084721836889_2_alg».proof.Proof.Math.Spec
import proofs.«123582_j22084721836889_2_alg».proof.Proof.KV.HostStatsLib
import Idealize.ShloMosaic.Lib.StableHlo.Run
import Idealize.ShloMosaic.Lib.ValueIdx
import Idealize.ShloMosaic.Lib.ValueLayout

set_option maxRecDepth 2280

noncomputable section

namespace Cert.KernelIdeal.Val

open Idealize.ShloMosaic Idealize.ShloMosaic.TcCoe Idealize.ShloMosaic.ValueIdx
open Cert.KernelIdeal Cert.KernelIdeal.Gen

set_option maxHeartbeats 1600000 in

theorem scale11_apply (Vin : Valuation τ sig (Elt Ideal)) (q : Fin 128) :
    (StableHlo.after (hostOps11 (F := Ideal)) Vin (main_v176 : DevRef τ sig) : (⟨S1x128, .f32⟩ : BufTy).Contents (Elt Ideal)) (ix2 (0 : Fin 1) q)
      = Cert.Spec.kscale (fun q => (Vin (main_v161_0 : DevRef τ sig) : (⟨S1x128, .f32⟩ : BufTy).Contents (Elt Ideal)) (ix2 (0 : Fin 1) q))
          (fun q => (Vin (main_v161_1 : DevRef τ sig) : (⟨S1x128, .f32⟩ : BufTy).Contents (Elt Ideal)) (ix2 (0 : Fin 1) q))
          (fun q => (Vin (main_arg9 : DevRef τ sig) : (⟨S5x128, .f32⟩ : BufTy).Contents (Elt Ideal)) (ix2 (3 : Fin 5) q)) q := by
  dsimp only [hostOps11]
  open StableHlo in after_results_simp
  exact scale_term _ _ _ _ 3 3 _ _ _ rfl q

set_option maxHeartbeats 1600000 in

theorem shift11_apply (Vin : Valuation τ sig (Elt Ideal)) (q : Fin 128) :
    (StableHlo.after (hostOps11 (F := Ideal)) Vin (main_v181 : DevRef τ sig) : (⟨S1x128, .f32⟩ : BufTy).Contents (Elt Ideal)) (ix2 (0 : Fin 1) q)
      = Cert.Spec.kshift (fun q => (Vin (main_v161_0 : DevRef τ sig) : (⟨S1x128, .f32⟩ : BufTy).Contents (Elt Ideal)) (ix2 (0 : Fin 1) q))
          (fun q => (Vin (main_v161_1 : DevRef τ sig) : (⟨S1x128, .f32⟩ : BufTy).Contents (Elt Ideal)) (ix2 (0 : Fin 1) q))
          (fun q => (Vin (main_arg9 : DevRef τ sig) : (⟨S5x128, .f32⟩ : BufTy).Contents (Elt Ideal)) (ix2 (3 : Fin 5) q))
          (fun q => (Vin (main_arg10 : DevRef τ sig) : (⟨S5x128, .f32⟩ : BufTy).Contents (Elt Ideal)) (ix2 (3 : Fin 5) q)) q := by
  dsimp only [hostOps11]
  open StableHlo in after_results_simp
  exact shift_term _ _ _ _ _ 3 3 _ _ _ rfl q

theorem kept11 (Vin : Valuation τ sig (Elt Ideal)) (b : Ref sig .tc) (hb : b ∉ Gen.hostOps11_W) :
    StableHlo.after (hostOps11 (F := Ideal)) Vin (b : DevRef τ sig) = Vin (b : DevRef τ sig) :=
  StableHlo.after_of_writes_sub hostOps11 Vin hostOps11_writes hb

end Cert.KernelIdeal.Val

end
-- ==== Proof.KV.NormVal11.lean ====
import proofs.«123582_j22084721836889_2_alg».proof.Proof.KI.Norm11
import proofs.«123582_j22084721836889_2_alg».proof.Proof.Math.Spec
import Idealize.ShloMosaic.Lib.Pipeline.Value
import Idealize.ShloMosaic.Lib.ValueIdx
import Idealize.ShloMosaic.Lib.ValueLayout
import Idealize.ShloMosaic.PureOps.Ideal.Laws
import proofs.«123582_j22084721836889_2_alg».proof.Proof.KV.ValLib

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

section Region11
variable (V : (c : Dev nD) → (b : Ref sig .tc) → Buf (Elt Ideal) ((c : Thread nD τ).loc b))

abbrev rows11 (c : Dev nD) : S200000x128.Idx → EReal := V c (Pipeline.arrRef spec11 0)

abbrev scale11 (c : Dev nD) : S1x128.Idx → EReal := V c (Pipeline.arrRef spec11 1)

abbrev shift11 (c : Dev nD) : S1x128.Idx → EReal := V c (Pipeline.arrRef spec11 2)

theorem norm11_pay_apply (x0 : Vec Ideal S4000x128 .f32) (x1 x2 : Vec Ideal S1x128 .f32) (p : Fin 4000) (q : Fin 128) :
    k11_pay1 x0 x1 x2 (ix2 p q) = max (x0 (ix2 p q) * x1 (ix2 (0 : Fin 1) q) + x2 (ix2 (0 : Fin 1) q)) 0 := by
  simp only [k11_pay1, truncf_apply, maximumf_apply, addf_apply, mulf_apply, broadcast_apply, shapeCast_self, broadcastTo_1b_ab_apply]
  show max _ (Ideal.ofBits .f32 0x00000000#32) = _
  rw [Ideal.ofBits_zero_f32]

def normArr11 (A0 : S200000x128.Idx → EReal) (A1 A2 : S1x128.Idx → EReal) : S200000x128.Idx → EReal :=
  fun i => max (A0 i * A1 (ix2 (0 : Fin 1) (i 1)) + A2 (ix2 (0 : Fin 1) (i 1))) 0

theorem hz11 : (![0, 0] : Fin 2 → Nat) = fun _ => 0 := funext fun a => by fin_cases a <;> rfl

theorem norm11_idx : ∀ t : Fin cfg11.N, win11_0.index t (0 : Fin 2) = win11_3.index t (0 : Fin 2) ∧ win11_0.index t (1 : Fin 2) = 0
    ∧ win11_3.index t (1 : Fin 2) = 0 ∧ win11_3.index t (0 : Fin 2) = t.val
    ∧ win11_1.index t (0 : Fin 2) = 0 ∧ win11_1.index t (1 : Fin 2) = 0
    ∧ win11_2.index t (0 : Fin 2) = 0 ∧ win11_2.index t (1 : Fin 2) = 0 :=
  (by decide +kernel : ∀ t : Fin grid11.N, _)

theorem norm11_idx_onto : ∀ q0 : Fin 50, ∃ t : Fin cfg11.N, win11_3.index t = ![q0.val, 0] :=
  (by decide +kernel : ∀ q0 : Fin 50, ∃ t : Fin grid11.N, win11_3.index t = ![q0.val, 0])

set_option maxHeartbeats 800000 in

theorem norm11_flushed (c : Dev nD) (t : Fin cfg11.N) :
    (dat11 (F := Ideal) V c).flushed 3 t = ((cfg11.win 3).blk t).view.read (Elt Ideal)
      (normArr11 (rows11 V c) (scale11 V c) (shift11 V c)) := by
  show (cfg11.win 3).cut (grid11.coords t) ((dat11 V c).after 3 t) = _
  rw [after11_3]
  unfold out11_3
  rw [View.canon_unit_zero hz11]
  simp only [View.ld_unit_zero (S := S4000x128) hz11, View.ld_unit_zero (S := S1x128) hz11]
  obtain ⟨e0, e1, e2, e3, e4, e5, e6, e7⟩ := norm11_idx t
  funext j
  obtain ⟨p, q, rfl⟩ : ∃ (p : Fin 4000) (q : Fin 128), j = ix2 p q := ⟨j 0, j 1, eq_ix2 j⟩
  show k11_pay1 (iblk11 V c 0 t) (iblk11 V c 1 t) (iblk11 V c 2 t) (ix2 p q) = _
  rw [norm11_pay_apply]
  have ha : iblk11 V c 0 t (ix2 p q) = rows11 V c (((cfg11.win 3).blk t).view.emb (ix2 p q)) := congrArg (rows11 V c) (idx2_ext (j := ((cfg11.win 0).blk t).view.emb (ix2 p q))
    (by show win11_0.index t (0 : Fin 2) * 4000 + 1 * p.val = win11_3.index t (0 : Fin 2) * 4000 + 1 * p.val; omega) (by show win11_0.index t (1 : Fin 2) * 128 + 1 * q.val = win11_3.index t (1 : Fin 2) * 128 + 1 * q.val; omega))
  have hb : iblk11 V c 1 t (ix2 (0 : Fin 1) q) = scale11 V c (ix2 (0 : Fin 1) ((((cfg11.win 3).blk t).view.emb (ix2 p q)) 1)) := congrArg (scale11 V c) (idx2_ext (j := ((cfg11.win 1).blk t).view.emb (ix2 (0 : Fin 1) q))
    (by show win11_1.index t (0 : Fin 2) * 1 + 1 * 0 = 0; omega) (by show win11_1.index t (1 : Fin 2) * 128 + 1 * q.val = win11_3.index t (1 : Fin 2) * 128 + 1 * q.val; omega))
  have hc : iblk11 V c 2 t (ix2 (0 : Fin 1) q) = shift11 V c (ix2 (0 : Fin 1) ((((cfg11.win 3).blk t).view.emb (ix2 p q)) 1)) := congrArg (shift11 V c) (idx2_ext (j := ((cfg11.win 2).blk t).view.emb (ix2 (0 : Fin 1) q))
    (by show win11_2.index t (0 : Fin 2) * 1 + 1 * 0 = 0; omega) (by show win11_2.index t (1 : Fin 2) * 128 + 1 * q.val = win11_3.index t (1 : Fin 2) * 128 + 1 * q.val; omega))
  rw [ha, hb, hc]
  rfl

theorem norm11_cover (i : S200000x128.Idx) :
    ∃ t : Fin cfg11.N, (cfg11.win 3).flush t = true ∧ i ∈ ((cfg11.win 3).blk t).view.set :=
  let ⟨t, h⟩ := cover_rows win11_3.index (fun t => ((cfg11.win 3).blk t).view.set)
    (fun t i => by
      show i ∈ ((View.whole main_v182).slice (win11_3.rect t)).set ↔ _
      rw [View.set_slice_whole, Rect.mem_set_unit]; exact Iff.rfl) norm11_idx_onto i
  ⟨t, flush11_3 t, h⟩

theorem norm11_final (c : Dev nD) : (dat11 (F := Ideal) V c).arrAt 3 cfg11.N
    = normArr11 (rows11 V c) (scale11 V c) (shift11 V c) :=
  (dat11 V c).arrAt_eq_of_cover 3 _ (fun t _ => norm11_flushed V c t) norm11_cover

theorem norm11_val (c : Dev nD) (p : Fin 200000) (q : Fin 128) :
    ((dat11 (F := Ideal) V c).arrAt 3 cfg11.N) (ix2 p q)
      = Cert.Spec.knorm (fun p q => V c (Pipeline.arrRef spec11 0) (ix2 p q)) (fun q => V c (Pipeline.arrRef spec11 1) (ix2 (0 : Fin 1) q))
          (fun q => V c (Pipeline.arrRef spec11 2) (ix2 (0 : Fin 1) q)) p q := by
  rw [norm11_final]
  rfl

end Region11

end Cert.KernelIdeal.Val

end
-- ==== Proof.KV.Chain3.lean ====
import proofs.«123582_j22084721836889_2_alg».proof.Proof.KI.Fold
import proofs.«123582_j22084721836889_2_alg».proof.Proof.KV.ChainKept
import proofs.«123582_j22084721836889_2_alg».proof.Proof.KV.ChainLayerLib
import proofs.«123582_j22084721836889_2_alg».proof.Proof.KV.HostLayer9
import proofs.«123582_j22084721836889_2_alg».proof.Proof.KV.LinVal9
import proofs.«123582_j22084721836889_2_alg».proof.Proof.KV.StatsVal10
import proofs.«123582_j22084721836889_2_alg».proof.Proof.KV.HostStats11
import proofs.«123582_j22084721836889_2_alg».proof.Proof.KV.NormVal11
import proofs.«123582_j22084721836889_2_alg».proof.Proof.Math.Net
import proofs.«123582_j22084721836889_2_alg».proof.Proof.Math.Spec

set_option maxRecDepth 16384
set_option quotPrecheck false

noncomputable section

namespace Cert.KernelIdeal.Val

open Idealize.ShloMosaic Idealize.ShloMosaic.TcCoe Idealize.ShloMosaic.ValueIdx
open Cert.KernelIdeal Cert.KernelIdeal.Gen Cert.KernelIdeal.Hand Cert.Hand.HostRead

section Layer

variable (m : (ℓ : Loc nD τ sig) → Buf (Elt Ideal) ℓ) (c : Dev nD)

local notation "tgA" => tgOf 200000 (W17 m c (main_arg3 : DevRef τ sig) : (⟨S400000, .i32⟩ : BufTy).Contents (Elt Ideal))
local notation "gsA" => gsOf 200000 (W17 m c (main_arg2 : DevRef τ sig) : (⟨S400000, .i32⟩ : BufTy).Contents (Elt Ideal))
local notation "embA" => (fun (v : Fin 5) (k : Fin 128) => (W17 m c (main_arg6 : DevRef τ sig) : (⟨S5x5x128, .f32⟩ : BufTy).Contents (Elt Ideal)) (ix3 (3 : Fin 5) v k))
local notation "wtA" => (fun (k q : Fin 128) => (W17 m c (main_arg7 : DevRef τ sig) : (⟨S5x128x128, .f32⟩ : BufTy).Contents (Elt Ideal)) (ix3 (3 : Fin 5) k q))
local notation "bA" => (fun (q : Fin 128) => (W17 m c (main_arg8 : DevRef τ sig) : (⟨S5x128, .f32⟩ : BufTy).Contents (Elt Ideal)) (ix2 (3 : Fin 5) q))
local notation "gaA" => (fun (q : Fin 128) => (W17 m c (main_arg9 : DevRef τ sig) : (⟨S5x128, .f32⟩ : BufTy).Contents (Elt Ideal)) (ix2 (3 : Fin 5) q))
local notation "beA" => (fun (q : Fin 128) => (W17 m c (main_arg10 : DevRef τ sig) : (⟨S5x128, .f32⟩ : BufTy).Contents (Elt Ideal)) (ix2 (3 : Fin 5) q))

theorem linOut_L3 : W19 m c (main_v160 : DevRef τ sig) = (dat9 (rd (W18 m)) c).arrAt 7 cfg9.N := by
  unfold W19
  exact Function.update_self _ _ _

theorem sumOut_L3 : W20 m c (main_v161_0 : DevRef τ sig) = (dat10 (rd (W19 m)) c).arrAt 1 cfg10.N := by
  unfold W20
  rw [Function.update_of_ne (StableHlo.devRef_ne_of_ne (show (main_v161_0 : Ref sig .tc) ≠ main_v161_1 by decide))]
  exact Function.update_self _ _ _

theorem sumsqOut_L3 : W20 m c (main_v161_1 : DevRef τ sig) = (dat10 (rd (W19 m)) c).arrAt 2 cfg10.N := by
  unfold W20
  exact Function.update_self _ _ _

theorem normOut_L3 : W22 m c (main_v182 : DevRef τ sig) = (dat11 (rd (W21 m)) c).arrAt 3 cfg11.N := by
  unfold W22
  exact Function.update_self _ _ _

variable (ef : Fin 400000 → Fin 5) (H : Fin 200000 → Fin 128 → EReal)
  (hH : ∀ p q, (W17 m c (main_v141 : DevRef τ sig) : (⟨S200000x128, .bf16⟩ : BufTy).Contents (Elt Ideal)) (ix2 p q) = H p q)
  (hI : ∀ p, (W17 m c (main_v15 : DevRef τ sig) : (⟨S200000x1, .f32⟩ : BufTy).Contents (Elt Ideal)) (ix2 p (0 : Fin 1))
    = Cert.Spec.invdeg (tgOf 200000 (W17 m c (main_arg3 : DevRef τ sig) : (⟨S400000, .i32⟩ : BufTy).Contents (Elt Ideal))) p)
  (hC : ∀ n v, (W17 m c (main_v19 : DevRef τ sig) : (⟨S200000x5, .f32⟩ : BufTy).Contents (Elt Ideal)) (ix2 n v)
    = Cert.Spec.cmat (tgOf 200000 (W17 m c (main_arg3 : DevRef τ sig) : (⟨S400000, .i32⟩ : BufTy).Contents (Elt Ideal))) ef n v)

include hH hI hC

set_option maxHeartbeats 1600000 in
theorem linVal_L3 (p : Fin 200000) (q : Fin 128) :
    (W19 m c (main_v160 : DevRef τ sig) : (⟨S200000x128, .f32⟩ : BufTy).Contents (Elt Ideal)) (ix2 p q)
      = Cert.Spec.klin gsA tgA ef H embA wtA bA p q := by
  rw [linOut_L3 m c, Cert.Spec.klin_eq_linArr]
  refine (lin9_val (rd (W18 m)) c p q).trans (congrFun (congrFun (Cert.Spec.linArr_congr ?_ ?_ ?_ ?_ ?_ ?_ ?_) p) q)
  · funext p k; exact (congrFun (W18_of m c main_v141 (by decide)) (ix2 p k)).trans (hH p k)
  · funext p k; exact (neigh9_apply (W17 m c) p k).trans (by simp only [hH])
  · funext p v; exact (congrFun (W18_of m c main_v19 (by decide)) (ix2 p v)).trans (hC p v)
  · funext v k; exact emb9_apply (W17 m c) v k
  · funext p; exact (congrFun (W18_of m c main_v15 (by decide)) (ix2 p (0 : Fin 1))).trans (hI p)
  · funext k q; exact w9_apply (W17 m c) k q
  · funext q; exact b9_apply (W17 m c) q

theorem sumVal_L3 : (fun (q : Fin 128) => (W20 m c (main_v161_0 : DevRef τ sig) : (⟨S1x128, .f32⟩ : BufTy).Contents (Elt Ideal)) (ix2 (0 : Fin 1) q))
    = Cert.Spec.colsum (Cert.Spec.klin gsA tgA ef H embA wtA bA) := by
  funext q; rw [sumOut_L3 m c]
  exact (stats10_sum (rd (W19 m)) c q).trans (congrFun (congrArg Cert.Spec.colsum (funext fun p => funext fun q => linVal_L3 m c ef H hH hI hC p q)) q)

theorem sumsqVal_L3 : (fun (q : Fin 128) => (W20 m c (main_v161_1 : DevRef τ sig) : (⟨S1x128, .f32⟩ : BufTy).Contents (Elt Ideal)) (ix2 (0 : Fin 1) q))
    = Cert.Spec.colsumsq (Cert.Spec.klin gsA tgA ef H embA wtA bA) := by
  funext q; rw [sumsqOut_L3 m c]
  exact (stats10_sumsq (rd (W19 m)) c q).trans (congrFun (congrArg Cert.Spec.colsumsq (funext fun p => funext fun q => linVal_L3 m c ef H hH hI hC p q)) q)

theorem gammaMid_L3 : (fun (q : Fin 128) => (W20 m c (main_arg9 : DevRef τ sig) : (⟨S5x128, .f32⟩ : BufTy).Contents (Elt Ideal)) (ix2 (3 : Fin 5) q)) = gaA := by
  rw [W20_of m c main_arg9 (by decide), W19_of m c main_arg9 (by decide), W18_of m c main_arg9 (by decide)]
theorem betaMid_L3 : (fun (q : Fin 128) => (W20 m c (main_arg10 : DevRef τ sig) : (⟨S5x128, .f32⟩ : BufTy).Contents (Elt Ideal)) (ix2 (3 : Fin 5) q)) = beA := by
  rw [W20_of m c main_arg10 (by decide), W19_of m c main_arg10 (by decide), W18_of m c main_arg10 (by decide)]

theorem scaleVal_L3 : (fun (q : Fin 128) => (W21 m c (main_v176 : DevRef τ sig) : (⟨S1x128, .f32⟩ : BufTy).Contents (Elt Ideal)) (ix2 (0 : Fin 1) q))
    = Cert.Spec.kscale (Cert.Spec.colsum (Cert.Spec.klin gsA tgA ef H embA wtA bA)) (Cert.Spec.colsumsq (Cert.Spec.klin gsA tgA ef H embA wtA bA)) gaA := by
  funext q
  exact (scale11_apply (W20 m c) q).trans (congrFun (Cert.Spec.kscale_congr (sumVal_L3 m c ef H hH hI hC) (sumsqVal_L3 m c ef H hH hI hC) (gammaMid_L3 m c ef H hH hI hC)) q)

theorem shiftVal_L3 : (fun (q : Fin 128) => (W21 m c (main_v181 : DevRef τ sig) : (⟨S1x128, .f32⟩ : BufTy).Contents (Elt Ideal)) (ix2 (0 : Fin 1) q))
    = Cert.Spec.kshift (Cert.Spec.colsum (Cert.Spec.klin gsA tgA ef H embA wtA bA)) (Cert.Spec.colsumsq (Cert.Spec.klin gsA tgA ef H embA wtA bA)) gaA beA := by
  funext q
  exact (shift11_apply (W20 m c) q).trans (congrFun (Cert.Spec.kshift_congr (sumVal_L3 m c ef H hH hI hC) (sumsqVal_L3 m c ef H hH hI hC) (gammaMid_L3 m c ef H hH hI hC) (betaMid_L3 m c ef H hH hI hC)) q)

theorem chain3 (p : Fin 200000) (q : Fin 128) :
    (W22 m c (main_v182 : DevRef τ sig) : (⟨S200000x128, .bf16⟩ : BufTy).Contents (Elt Ideal)) (ix2 p q)
      = Cert.Spec.klayer gsA tgA ef H embA wtA bA gaA beA p q := by
  rw [normOut_L3 m c, Cert.Spec.klayer_eq]
  refine (norm11_val (rd (W21 m)) c p q).trans (congrFun (congrFun (Cert.Spec.knorm_congr ?_ (scaleVal_L3 m c ef H hH hI hC) (shiftVal_L3 m c ef H hH hI hC)) p) q)
  funext p q
  exact (congrFun ((kept11 (W20 m c) main_v160 (by decide)).trans (W20_of m c main_v160 (by decide))) (ix2 p q)).trans (linVal_L3 m c ef H hH hI hC p q)

end Layer

end Cert.KernelIdeal.Val

end
-- ==== Proof.KV.HostLayer12.lean ====
import proofs.«123582_j22084721836889_2_alg».proof.Proof.Gen.KernelIdeal.Regions
import proofs.«123582_j22084721836889_2_alg».proof.Proof.Math.Spec
import proofs.«123582_j22084721836889_2_alg».proof.Proof.Math.HostRead
import proofs.«123582_j22084721836889_2_alg».proof.Proof.KV.HostStatsLib
import proofs.«123582_j22084721836889_2_alg».proof.Proof.KV.HostLayerLib
import Idealize.ShloMosaic.Lib.StableHlo.Run
import Idealize.ShloMosaic.Lib.ValueIdx
import Idealize.ShloMosaic.Lib.ValueLayout
import Idealize.ShloMosaic.Lib.Pipeline.Value

set_option maxRecDepth 2280

noncomputable section

namespace Cert.KernelIdeal.Val

open Idealize.ShloMosaic Idealize.ShloMosaic.TcCoe Idealize.ShloMosaic.ValueIdx
open Cert.KernelIdeal Cert.KernelIdeal.Gen Cert.Hand.HostRead

set_option maxHeartbeats 1600000 in

theorem neigh12_apply (Vin : Valuation τ sig (Elt Ideal)) (n : Fin 200000) (j : Fin 128) :
    (StableHlo.after (hostOps12 (F := Ideal)) Vin (main_v193 : DevRef τ sig) : (⟨S200000x128, .f32⟩ : BufTy).Contents (Elt Ideal)) (ix2 n j)
      = Cert.Spec.seg (tgOf 200000 (Vin (main_arg3 : DevRef τ sig) : (⟨S400000, .i32⟩ : BufTy).Contents (Elt Ideal)))
          (fun e j => (Vin (main_v182 : DevRef τ sig) : (⟨S200000x128, .bf16⟩ : BufTy).Contents (Elt Ideal))
            (ix2 (gsOf 200000 (Vin (main_arg2 : DevRef τ sig) : (⟨S400000, .i32⟩ : BufTy).Contents (Elt Ideal)) e) j)) n j := by
  dsimp only [hostOps12]
  open StableHlo in after_results_simp
  exact neigh_term _ ⟨rfl, rfl, rfl, rfl, rfl, rfl, rfl⟩ _ ⟨rfl, rfl, rfl, rfl⟩ _ _ _ _ _ _ _ n j

set_option maxHeartbeats 1600000 in

theorem emb12_apply (Vin : Valuation τ sig (Elt Ideal)) (v : Fin 5) (k : Fin 128) :
    (StableHlo.after (hostOps12 (F := Ideal)) Vin (main_v195 : DevRef τ sig) : (⟨S5x128, .f32⟩ : BufTy).Contents (Elt Ideal)) (ix2 v k)
      = (Vin (main_arg6 : DevRef τ sig) : (⟨S5x5x128, .f32⟩ : BufTy).Contents (Elt Ideal)) (ix3 (4 : Fin 5) v k) := by
  dsimp only [hostOps12]
  open StableHlo in after_results_simp
  exact slab_apply 4 4 rfl _ _ _ v k

set_option maxHeartbeats 1600000 in

theorem w12_apply (Vin : Valuation τ sig (Elt Ideal)) (k q : Fin 128) :
    (StableHlo.after (hostOps12 (F := Ideal)) Vin (main_v200 : DevRef τ sig) : (⟨S128x128, .f32⟩ : BufTy).Contents (Elt Ideal)) (ix2 k q)
      = (Vin (main_arg7 : DevRef τ sig) : (⟨S5x128x128, .f32⟩ : BufTy).Contents (Elt Ideal)) (ix3 (4 : Fin 5) k q) := by
  dsimp only [hostOps12]
  open StableHlo in after_results_simp
  exact slab_apply 4 4 rfl _ _ _ k q

set_option maxHeartbeats 1600000 in

theorem b12_apply (Vin : Valuation τ sig (Elt Ideal)) (q : Fin 128) :
    (StableHlo.after (hostOps12 (F := Ideal)) Vin (main_v198 : DevRef τ sig) : (⟨S1x128, .f32⟩ : BufTy).Contents (Elt Ideal)) (ix2 (0 : Fin 1) q)
      = (Vin (main_arg8 : DevRef τ sig) : (⟨S5x128, .f32⟩ : BufTy).Contents (Elt Ideal)) (ix2 (4 : Fin 5) q) := by
  dsimp only [hostOps12]
  open StableHlo in after_results_simp
  exact paramRow_apply 4 4 rfl _ _ _ _ q

theorem kept12 (Vin : Valuation τ sig (Elt Ideal)) (b : Ref sig .tc) (hb : b ∉ Gen.hostOps12_W) :
    StableHlo.after (hostOps12 (F := Ideal)) Vin (b : DevRef τ sig) = Vin (b : DevRef τ sig) :=
  StableHlo.after_of_writes_sub hostOps12 Vin hostOps12_writes hb

end Cert.KernelIdeal.Val

end
-- ==== Proof.KV.LinVal12.lean ====
import proofs.«123582_j22084721836889_2_alg».proof.Proof.KI.Lin12
import proofs.«123582_j22084721836889_2_alg».proof.Proof.KV.LinVal

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open scoped BigOperators

section Region12
variable (V : (c : Dev nD) → (b : Ref sig .tc) → Buf (Elt Ideal) ((c : Thread nD τ).loc b))

abbrev linH12 (c : Dev nD) : S200000x128.Idx → EReal := V c (Pipeline.arrRef spec12 0)

abbrev linNeigh12 (c : Dev nD) : S200000x128.Idx → EReal := V c (Pipeline.arrRef spec12 1)

abbrev linCnt12 (c : Dev nD) : S200000x5.Idx → EReal := V c (Pipeline.arrRef spec12 2)

abbrev linEmb12 (c : Dev nD) : S5x128.Idx → EReal := V c (Pipeline.arrRef spec12 3)

abbrev linInvd12 (c : Dev nD) : S200000x1.Idx → EReal := V c (Pipeline.arrRef spec12 4)

abbrev linW12 (c : Dev nD) : S128x128.Idx → EReal := V c (Pipeline.arrRef spec12 5)

abbrev linBias12 (c : Dev nD) : S1x128.Idx → EReal := V c (Pipeline.arrRef spec12 6)

theorem lin12_pay_apply (x0 : Vec Ideal S4000x128 .bf16) (x1 : Vec Ideal S4000x128 .f32) (x2 : Vec Ideal S4000x5 .f32)
    (x3 : Vec Ideal S5x128 .f32) (x4 : Vec Ideal S4000x1 .f32) (x5 : Vec Ideal S128x128 .f32) (x6 : Vec Ideal S1x128 .f32)
    (p : Fin 4000) (q : Fin 128) :
    k12_pay1 x0 x1 x2 x3 x4 x5 x6 (ix2 p q)
      = (∑ k : Fin 128, ((x0 (ix2 p k) + x1 (ix2 p k) + ∑ v : Fin 5, x2 (ix2 p v) * x3 (ix2 v k)) * x4 (ix2 p (0 : Fin 1))) * x5 (ix2 k q))
        + x6 (ix2 (0 : Fin 1) q) := by
  simp only [k12_pay1, addf_apply, mulf_apply, truncf_apply, extf_apply, shapeCast_self, broadcastTo_1b_ab_apply, linCol_broadcast_apply,
    wDot_apply, embDot_apply]

theorem lin12_idx : ∀ t : Fin cfg12.N,
    win12_0.index t (0 : Fin 2) = win12_7.index t (0 : Fin 2) ∧ win12_0.index t (1 : Fin 2) = 0
    ∧ win12_1.index t (0 : Fin 2) = win12_7.index t (0 : Fin 2) ∧ win12_1.index t (1 : Fin 2) = 0
    ∧ win12_2.index t (0 : Fin 2) = win12_7.index t (0 : Fin 2) ∧ win12_2.index t (1 : Fin 2) = 0
    ∧ win12_3.index t (0 : Fin 2) = 0 ∧ win12_3.index t (1 : Fin 2) = 0
    ∧ win12_4.index t (0 : Fin 2) = win12_7.index t (0 : Fin 2) ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0
    ∧ win12_7.index t (1 : Fin 2) = 0 ∧ win12_7.index t (0 : Fin 2) = t.val :=
  (by decide +kernel : ∀ t : Fin grid12.N, _)

theorem lin12_idx_onto : ∀ q0 : Fin 50, ∃ t : Fin cfg12.N, win12_7.index t = ![q0.val, 0] :=
  (by decide +kernel : ∀ q0 : Fin 50, ∃ t : Fin grid12.N, win12_7.index t = ![q0.val, 0])

set_option maxHeartbeats 1600000 in

theorem lin12_flushed (c : Dev nD) (t : Fin cfg12.N) :
    (dat12 (F := Ideal) V c).flushed 7 t = ((cfg12.win 7).blk t).view.read (Elt Ideal)
      (linFull (linH12 V c) (linNeigh12 V c) (linCnt12 V c) (linEmb12 V c) (linInvd12 V c) (linW12 V c) (linBias12 V c)) := by
  show (cfg12.win 7).cut (grid12.coords t) ((dat12 V c).after 7 t) = _
  rw [after12_7]
  unfold out12_7
  rw [View.canon_unit_zero lin_hz]
  simp only [View.ld_unit_zero (S := S4000x128) lin_hz, View.ld_unit_zero (S := S4000x5) lin_hz, View.ld_unit_zero (S := S5x128) lin_hz,
    View.ld_unit_zero (S := S4000x1) lin_hz, View.ld_unit_zero (S := S128x128) lin_hz, View.ld_unit_zero (S := S1x128) lin_hz]
  obtain ⟨e00, e01, e10, e11, e20, e21, e30, e31, e40, e41, e50, e51, e60, e61, e71, e70⟩ := lin12_idx t
  funext j
  obtain ⟨p, q, rfl⟩ : ∃ (p : Fin 4000) (q : Fin 128), j = ix2 p q := ⟨j 0, j 1, eq_ix2 j⟩
  show k12_pay1 (iblk12 V c 0 t) (iblk12 V c 1 t) (iblk12 V c 2 t) (iblk12 V c 3 t) (iblk12 V c 4 t) (iblk12 V c 5 t) (iblk12 V c 6 t) (ix2 p q) = _
  rw [lin12_pay_apply]
  have ha : ∀ k : Fin 128, iblk12 V c 0 t (ix2 p k) = linH12 V c (ix2 ((((cfg12.win 7).blk t).view.emb (ix2 p q)) 0) k) := fun k => congrArg (linH12 V c) (idx2_ext (j := ((cfg12.win 0).blk t).view.emb (ix2 p k))
    (by show win12_0.index t (0 : Fin 2) * 4000 + 1 * p.val = win12_7.index t (0 : Fin 2) * 4000 + 1 * p.val; omega) (by show win12_0.index t (1 : Fin 2) * 128 + 1 * k.val = k.val; omega))
  have hb : ∀ k : Fin 128, iblk12 V c 1 t (ix2 p k) = linNeigh12 V c (ix2 ((((cfg12.win 7).blk t).view.emb (ix2 p q)) 0) k) := fun k => congrArg (linNeigh12 V c) (idx2_ext (j := ((cfg12.win 1).blk t).view.emb (ix2 p k))
    (by show win12_1.index t (0 : Fin 2) * 4000 + 1 * p.val = win12_7.index t (0 : Fin 2) * 4000 + 1 * p.val; omega) (by show win12_1.index t (1 : Fin 2) * 128 + 1 * k.val = k.val; omega))
  have hc : ∀ v : Fin 5, iblk12 V c 2 t (ix2 p v) = linCnt12 V c (ix2 ((((cfg12.win 7).blk t).view.emb (ix2 p q)) 0) v) := fun v => congrArg (linCnt12 V c) (idx2_ext (j := ((cfg12.win 2).blk t).view.emb (ix2 p v))
    (by show win12_2.index t (0 : Fin 2) * 4000 + 1 * p.val = win12_7.index t (0 : Fin 2) * 4000 + 1 * p.val; omega) (by show win12_2.index t (1 : Fin 2) * 5 + 1 * v.val = v.val; omega))
  have hd : ∀ (v : Fin 5) (k : Fin 128), iblk12 V c 3 t (ix2 v k) = linEmb12 V c (ix2 v k) := fun v k => congrArg (linEmb12 V c) (idx2_ext (j := ((cfg12.win 3).blk t).view.emb (ix2 v k))
    (by show win12_3.index t (0 : Fin 2) * 5 + 1 * v.val = v.val; omega) (by show win12_3.index t (1 : Fin 2) * 128 + 1 * k.val = k.val; omega))
  have he : iblk12 V c 4 t (ix2 p (0 : Fin 1)) = linInvd12 V c (ix2 ((((cfg12.win 7).blk t).view.emb (ix2 p q)) 0) (0 : Fin 1)) := congrArg (linInvd12 V c) (idx2_ext (j := ((cfg12.win 4).blk t).view.emb (ix2 p (0 : Fin 1)))
    (by show win12_4.index t (0 : Fin 2) * 4000 + 1 * p.val = win12_7.index t (0 : Fin 2) * 4000 + 1 * p.val; omega) (by show win12_4.index t (1 : Fin 2) * 1 + 1 * 0 = 0; omega))
  have hf : ∀ k : Fin 128, iblk12 V c 5 t (ix2 k q) = linW12 V c (ix2 k ((((cfg12.win 7).blk t).view.emb (ix2 p q)) 1)) := fun k => congrArg (linW12 V c) (idx2_ext (j := ((cfg12.win 5).blk t).view.emb (ix2 k q))
    (by show win12_5.index t (0 : Fin 2) * 128 + 1 * k.val = k.val; omega) (by show win12_5.index t (1 : Fin 2) * 128 + 1 * q.val = win12_7.index t (1 : Fin 2) * 128 + 1 * q.val; omega))
  have hg : iblk12 V c 6 t (ix2 (0 : Fin 1) q) = linBias12 V c (ix2 (0 : Fin 1) ((((cfg12.win 7).blk t).view.emb (ix2 p q)) 1)) := congrArg (linBias12 V c) (idx2_ext (j := ((cfg12.win 6).blk t).view.emb (ix2 (0 : Fin 1) q))
    (by show win12_6.index t (0 : Fin 2) * 1 + 1 * 0 = 0; omega) (by show win12_6.index t (1 : Fin 2) * 128 + 1 * q.val = win12_7.index t (1 : Fin 2) * 128 + 1 * q.val; omega))
  simp only [ha, hb, hc, hd, he, hf, hg]
  rfl

theorem lin12_cover (i : S200000x128.Idx) :
    ∃ t : Fin cfg12.N, (cfg12.win 7).flush t = true ∧ i ∈ ((cfg12.win 7).blk t).view.set :=
  let ⟨t, h⟩ := cover_rows win12_7.index (fun t => ((cfg12.win 7).blk t).view.set)
    (fun t i => by
      show i ∈ ((View.whole (Pipeline.arrRef spec12 7)).slice (win12_7.rect t)).set ↔ _
      rw [View.set_slice_whole, Rect.mem_set_unit]; exact Iff.rfl) lin12_idx_onto i
  ⟨t, flush12_7 t, h⟩

theorem lin12_final (c : Dev nD) : (dat12 (F := Ideal) V c).arrAt 7 cfg12.N
    = linFull (linH12 V c) (linNeigh12 V c) (linCnt12 V c) (linEmb12 V c) (linInvd12 V c) (linW12 V c) (linBias12 V c) :=
  (dat12 V c).arrAt_eq_of_cover 7 _ (fun t _ => lin12_flushed V c t) lin12_cover

theorem lin12_val (c : Dev nD) (p : Fin 200000) (q : Fin 128) : ((dat12 (F := Ideal) V c).arrAt 7 cfg12.N) (ix2 p q) = Cert.Spec.linArr (fun p k => V c (Pipeline.arrRef spec12 0) (ix2 p k)) (fun p k => V c (Pipeline.arrRef spec12 1) (ix2 p k)) (fun p v => V c (Pipeline.arrRef spec12 2) (ix2 p v)) (fun v k => V c (Pipeline.arrRef spec12 3) (ix2 v k)) (fun p => V c (Pipeline.arrRef spec12 4) (ix2 p (0 : Fin 1))) (fun k q => V c (Pipeline.arrRef spec12 5) (ix2 k q)) (fun q => V c (Pipeline.arrRef spec12 6) (ix2 (0 : Fin 1) q)) p q := by
  rw [lin12_final]
  rfl

end Region12

end Cert.KernelIdeal.Val

end
-- ==== Proof.KV.StatsVal13.lean ====
import proofs.«123582_j22084721836889_2_alg».proof.Proof.KI.Stats13
import proofs.«123582_j22084721836889_2_alg».proof.Proof.Math.Spec
import proofs.«123582_j22084721836889_2_alg».proof.Proof.KV.StatsValLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open scoped BigOperators

section Region13
variable (V : (c : Dev nD) → (b : Ref sig .tc) → Buf (Elt Ideal) ((c : Thread nD τ).loc b))

abbrev rows13 (c : Dev nD) : S200000x128.Idx → EReal := V c (Pipeline.arrRef spec13 0)

theorem stats13_pay1_apply (j : S1x128.Idx) : (k13_pay1 (F := Ideal)) j = 0 := by
  simp only [k13_pay1, shapeCast_self, broadcast_apply]
  exact Ideal.ofBits_zero_f32
theorem stats13_pay2_apply (j : S1x128.Idx) : (k13_pay2 (F := Ideal)) j = 0 := by
  simp only [k13_pay2, shapeCast_self, broadcast_apply]
  exact Ideal.ofBits_zero_f32

theorem stats13_lift (q : Fin 128) (k : Fin 4000) :
    reduces_S4000x128_S128.lift (fun a : Fin 1 => (ix2 (0 : Fin 1) q) a.succ) k = ix2 k q := by
  funext a; apply Fin.ext
  match a with
  | ⟨0, _⟩ => rfl
  | ⟨1, _⟩ => rfl

theorem stats13_pay4_apply (x : Vec Ideal S4000x128 .f32) (s : Vec Ideal S1x128 .f32) (q : Fin 128) :
    k13_pay4 x s (ix2 (0 : Fin 1) q) = s (ix2 (0 : Fin 1) q) + ∑ i : Fin 4000, x (ix2 i q) := by
  simp only [k13_pay4, k13_pay3, shapeCast_self, addf_apply]
  congr 1
  refine (shapeCast_addUnit_apply ![128] _ _ _).trans ?_
  refine (Ideal.multiReduction_add_single x _ reduces_S4000x128_S128 _ _ _).trans ?_
  exact Finset.sum_congr rfl fun k _ => congrArg x (stats13_lift q k)

theorem stats13_pay5_apply (x : Vec Ideal S4000x128 .f32) (s : Vec Ideal S1x128 .f32) (q : Fin 128) :
    k13_pay5 x s (ix2 (0 : Fin 1) q) = s (ix2 (0 : Fin 1) q) + ∑ i : Fin 4000, x (ix2 i q) * x (ix2 i q) := by
  simp only [k13_pay5, k13_pay3, shapeCast_self, addf_apply]
  congr 1
  refine (shapeCast_addUnit_apply ![128] _ _ _).trans ?_
  refine (Ideal.multiReduction_add_single (mulf x x) _ reduces_S4000x128_S128 _ _ _).trans ?_
  exact Finset.sum_congr rfl fun k _ => congrArg (fun z => x z * x z) (stats13_lift q k)

theorem stats13_idx : ∀ t : Fin cfg13.N, win13_0.index t (0 : Fin 2) = t.val ∧ win13_0.index t (1 : Fin 2) = 0 :=
  (by decide +kernel : ∀ t : Fin grid13.N, win13_0.index t (0 : Fin 2) = t.val ∧ win13_0.index t (1 : Fin 2) = 0)

theorem iblk13_apply (c : Dev nD) (t : Fin cfg13.N) (i : Fin 4000) (q : Fin 128) (r : Fin 200000) (hr : r.val = i.val + 4000 * t.val) :
    iblk13 V c 0 t (ix2 i q) = rows13 V c (ix2 r q) := by
  obtain ⟨e0, e1⟩ := stats13_idx t
  have h : ((cfg13.win 0).blk t).view.emb (ix2 i q) = ix2 r q := by
    funext a; apply Fin.ext
    match a with
    | ⟨0, _⟩ => show win13_0.index t (0 : Fin 2) * 4000 + 1 * i.val = r.val; omega
    | ⟨1, _⟩ => show win13_0.index t (1 : Fin 2) * 128 + 1 * q.val = q.val; omega
  exact congrArg (rows13 V c) h

theorem stats13_sum (c : Dev nD) (q : Fin 128) :
    (dat13 (F := Ideal) V c).arrAt 1 cfg13.N (ix2 (0 : Fin 1) q)
      = Cert.Spec.colsum (fun p q => V c (Pipeline.arrRef spec13 0) (ix2 p q)) q := by
  rw [arrAt13_1]
  exact acc_colsum N_13 (acc13_0 V c) (iblk13 V c 0) k13_pay4 id (fun j => by rw [acc13_0_zero V c 0 rfl]; exact stats13_pay1_apply j)
    (acc13_0_succ V c) stats13_pay4_apply (rows13 V c) (iblk13_apply V c) q

theorem stats13_sumsq (c : Dev nD) (q : Fin 128) :
    (dat13 (F := Ideal) V c).arrAt 2 cfg13.N (ix2 (0 : Fin 1) q)
      = Cert.Spec.colsumsq (fun p q => V c (Pipeline.arrRef spec13 0) (ix2 p q)) q := by
  rw [arrAt13_2]
  exact acc_colsum N_13 (acc13_1 V c) (iblk13 V c 0) k13_pay5 (fun z => z * z) (fun j => by rw [acc13_1_zero V c 0 rfl]; exact stats13_pay2_apply j)
    (acc13_1_succ V c) stats13_pay5_apply (rows13 V c) (iblk13_apply V c) q

end Region13
end Cert.KernelIdeal.Val
end
-- ==== Proof.KV.HostStats14.lean ====
import proofs.«123582_j22084721836889_2_alg».proof.Proof.Gen.KernelIdeal.Regions
import proofs.«123582_j22084721836889_2_alg».proof.Proof.Math.Spec
import proofs.«123582_j22084721836889_2_alg».proof.Proof.KV.HostStatsLib
import Idealize.ShloMosaic.Lib.StableHlo.Run
import Idealize.ShloMosaic.Lib.ValueIdx
import Idealize.ShloMosaic.Lib.ValueLayout

set_option maxRecDepth 2280

noncomputable section

namespace Cert.KernelIdeal.Val

open Idealize.ShloMosaic Idealize.ShloMosaic.TcCoe Idealize.ShloMosaic.ValueIdx
open Cert.KernelIdeal Cert.KernelIdeal.Gen

set_option maxHeartbeats 1600000 in

theorem scale14_apply (Vin : Valuation τ sig (Elt Ideal)) (q : Fin 128) :
    (StableHlo.after (hostOps14 (F := Ideal)) Vin (main_v217 : DevRef τ sig) : (⟨S1x128, .f32⟩ : BufTy).Contents (Elt Ideal)) (ix2 (0 : Fin 1) q)
      = Cert.Spec.kscale (fun q => (Vin (main_v202_0 : DevRef τ sig) : (⟨S1x128, .f32⟩ : BufTy).Contents (Elt Ideal)) (ix2 (0 : Fin 1) q))
          (fun q => (Vin (main_v202_1 : DevRef τ sig) : (⟨S1x128, .f32⟩ : BufTy).Contents (Elt Ideal)) (ix2 (0 : Fin 1) q))
          (fun q => (Vin (main_arg9 : DevRef τ sig) : (⟨S5x128, .f32⟩ : BufTy).Contents (Elt Ideal)) (ix2 (4 : Fin 5) q)) q := by
  dsimp only [hostOps14]
  open StableHlo in after_results_simp
  exact scale_term _ _ _ _ 4 4 _ _ _ rfl q

set_option maxHeartbeats 1600000 in

theorem shift14_apply (Vin : Valuation τ sig (Elt Ideal)) (q : Fin 128) :
    (StableHlo.after (hostOps14 (F := Ideal)) Vin (main_v222 : DevRef τ sig) : (⟨S1x128, .f32⟩ : BufTy).Contents (Elt Ideal)) (ix2 (0 : Fin 1) q)
      = Cert.Spec.kshift (fun q => (Vin (main_v202_0 : DevRef τ sig) : (⟨S1x128, .f32⟩ : BufTy).Contents (Elt Ideal)) (ix2 (0 : Fin 1) q))
          (fun q => (Vin (main_v202_1 : DevRef τ sig) : (⟨S1x128, .f32⟩ : BufTy).Contents (Elt Ideal)) (ix2 (0 : Fin 1) q))
          (fun q => (Vin (main_arg9 : DevRef τ sig) : (⟨S5x128, .f32⟩ : BufTy).Contents (Elt Ideal)) (ix2 (4 : Fin 5) q))
          (fun q => (Vin (main_arg10 : DevRef τ sig) : (⟨S5x128, .f32⟩ : BufTy).Contents (Elt Ideal)) (ix2 (4 : Fin 5) q)) q := by
  dsimp only [hostOps14]
  open StableHlo in after_results_simp
  exact shift_term _ _ _ _ _ 4 4 _ _ _ rfl q

theorem kept14 (Vin : Valuation τ sig (Elt Ideal)) (b : Ref sig .tc) (hb : b ∉ Gen.hostOps14_W) :
    StableHlo.after (hostOps14 (F := Ideal)) Vin (b : DevRef τ sig) = Vin (b : DevRef τ sig) :=
  StableHlo.after_of_writes_sub hostOps14 Vin hostOps14_writes hb

end Cert.KernelIdeal.Val

end
-- ==== Proof.KV.NormVal14.lean ====
import proofs.«123582_j22084721836889_2_alg».proof.Proof.KI.Norm14
import proofs.«123582_j22084721836889_2_alg».proof.Proof.Math.Spec
import Idealize.ShloMosaic.Lib.Pipeline.Value
import Idealize.ShloMosaic.Lib.ValueIdx
import Idealize.ShloMosaic.Lib.ValueLayout
import Idealize.ShloMosaic.PureOps.Ideal.Laws
import proofs.«123582_j22084721836889_2_alg».proof.Proof.KV.ValLib

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

section Region14
variable (V : (c : Dev nD) → (b : Ref sig .tc) → Buf (Elt Ideal) ((c : Thread nD τ).loc b))

abbrev rows14 (c : Dev nD) : S200000x128.Idx → EReal := V c (Pipeline.arrRef spec14 0)

abbrev scale14 (c : Dev nD) : S1x128.Idx → EReal := V c (Pipeline.arrRef spec14 1)

abbrev shift14 (c : Dev nD) : S1x128.Idx → EReal := V c (Pipeline.arrRef spec14 2)

theorem norm14_pay_apply (x0 : Vec Ideal S4000x128 .f32) (x1 x2 : Vec Ideal S1x128 .f32) (p : Fin 4000) (q : Fin 128) :
    k14_pay1 x0 x1 x2 (ix2 p q) = max (x0 (ix2 p q) * x1 (ix2 (0 : Fin 1) q) + x2 (ix2 (0 : Fin 1) q)) 0 := by
  simp only [k14_pay1, truncf_apply, maximumf_apply, addf_apply, mulf_apply, broadcast_apply, shapeCast_self, broadcastTo_1b_ab_apply]
  show max _ (Ideal.ofBits .f32 0x00000000#32) = _
  rw [Ideal.ofBits_zero_f32]

def normArr14 (A0 : S200000x128.Idx → EReal) (A1 A2 : S1x128.Idx → EReal) : S200000x128.Idx → EReal :=
  fun i => max (A0 i * A1 (ix2 (0 : Fin 1) (i 1)) + A2 (ix2 (0 : Fin 1) (i 1))) 0

theorem hz14 : (![0, 0] : Fin 2 → Nat) = fun _ => 0 := funext fun a => by fin_cases a <;> rfl

theorem norm14_idx : ∀ t : Fin cfg14.N, win14_0.index t (0 : Fin 2) = win14_3.index t (0 : Fin 2) ∧ win14_0.index t (1 : Fin 2) = 0
    ∧ win14_3.index t (1 : Fin 2) = 0 ∧ win14_3.index t (0 : Fin 2) = t.val
    ∧ win14_1.index t (0 : Fin 2) = 0 ∧ win14_1.index t (1 : Fin 2) = 0
    ∧ win14_2.index t (0 : Fin 2) = 0 ∧ win14_2.index t (1 : Fin 2) = 0 :=
  (by decide +kernel : ∀ t : Fin grid14.N, _)

theorem norm14_idx_onto : ∀ q0 : Fin 50, ∃ t : Fin cfg14.N, win14_3.index t = ![q0.val, 0] :=
  (by decide +kernel : ∀ q0 : Fin 50, ∃ t : Fin grid14.N, win14_3.index t = ![q0.val, 0])

set_option maxHeartbeats 800000 in

theorem norm14_flushed (c : Dev nD) (t : Fin cfg14.N) :
    (dat14 (F := Ideal) V c).flushed 3 t = ((cfg14.win 3).blk t).view.read (Elt Ideal)
      (normArr14 (rows14 V c) (scale14 V c) (shift14 V c)) := by
  show (cfg14.win 3).cut (grid14.coords t) ((dat14 V c).after 3 t) = _
  rw [after14_3]
  unfold out14_3
  rw [View.canon_unit_zero hz14]
  simp only [View.ld_unit_zero (S := S4000x128) hz14, View.ld_unit_zero (S := S1x128) hz14]
  obtain ⟨e0, e1, e2, e3, e4, e5, e6, e7⟩ := norm14_idx t
  funext j
  obtain ⟨p, q, rfl⟩ : ∃ (p : Fin 4000) (q : Fin 128), j = ix2 p q := ⟨j 0, j 1, eq_ix2 j⟩
  show k14_pay1 (iblk14 V c 0 t) (iblk14 V c 1 t) (iblk14 V c 2 t) (ix2 p q) = _
  rw [norm14_pay_apply]
  have ha : iblk14 V c 0 t (ix2 p q) = rows14 V c (((cfg14.win 3).blk t).view.emb (ix2 p q)) := congrArg (rows14 V c) (idx2_ext (j := ((cfg14.win 0).blk t).view.emb (ix2 p q))
    (by show win14_0.index t (0 : Fin 2) * 4000 + 1 * p.val = win14_3.index t (0 : Fin 2) * 4000 + 1 * p.val; omega) (by show win14_0.index t (1 : Fin 2) * 128 + 1 * q.val = win14_3.index t (1 : Fin 2) * 128 + 1 * q.val; omega))
  have hb : iblk14 V c 1 t (ix2 (0 : Fin 1) q) = scale14 V c (ix2 (0 : Fin 1) ((((cfg14.win 3).blk t).view.emb (ix2 p q)) 1)) := congrArg (scale14 V c) (idx2_ext (j := ((cfg14.win 1).blk t).view.emb (ix2 (0 : Fin 1) q))
    (by show win14_1.index t (0 : Fin 2) * 1 + 1 * 0 = 0; omega) (by show win14_1.index t (1 : Fin 2) * 128 + 1 * q.val = win14_3.index t (1 : Fin 2) * 128 + 1 * q.val; omega))
  have hc : iblk14 V c 2 t (ix2 (0 : Fin 1) q) = shift14 V c (ix2 (0 : Fin 1) ((((cfg14.win 3).blk t).view.emb (ix2 p q)) 1)) := congrArg (shift14 V c) (idx2_ext (j := ((cfg14.win 2).blk t).view.emb (ix2 (0 : Fin 1) q))
    (by show win14_2.index t (0 : Fin 2) * 1 + 1 * 0 = 0; omega) (by show win14_2.index t (1 : Fin 2) * 128 + 1 * q.val = win14_3.index t (1 : Fin 2) * 128 + 1 * q.val; omega))
  rw [ha, hb, hc]
  rfl

theorem norm14_cover (i : S200000x128.Idx) :
    ∃ t : Fin cfg14.N, (cfg14.win 3).flush t = true ∧ i ∈ ((cfg14.win 3).blk t).view.set :=
  let ⟨t, h⟩ := cover_rows win14_3.index (fun t => ((cfg14.win 3).blk t).view.set)
    (fun t i => by
      show i ∈ ((View.whole main_v223).slice (win14_3.rect t)).set ↔ _
      rw [View.set_slice_whole, Rect.mem_set_unit]; exact Iff.rfl) norm14_idx_onto i
  ⟨t, flush14_3 t, h⟩

theorem norm14_final (c : Dev nD) : (dat14 (F := Ideal) V c).arrAt 3 cfg14.N
    = normArr14 (rows14 V c) (scale14 V c) (shift14 V c) :=
  (dat14 V c).arrAt_eq_of_cover 3 _ (fun t _ => norm14_flushed V c t) norm14_cover

theorem norm14_val (c : Dev nD) (p : Fin 200000) (q : Fin 128) :
    ((dat14 (F := Ideal) V c).arrAt 3 cfg14.N) (ix2 p q)
      = Cert.Spec.knorm (fun p q => V c (Pipeline.arrRef spec14 0) (ix2 p q)) (fun q => V c (Pipeline.arrRef spec14 1) (ix2 (0 : Fin 1) q))
          (fun q => V c (Pipeline.arrRef spec14 2) (ix2 (0 : Fin 1) q)) p q := by
  rw [norm14_final]
  rfl

end Region14

end Cert.KernelIdeal.Val

end
-- ==== Proof.KV.Chain4.lean ====
import proofs.«123582_j22084721836889_2_alg».proof.Proof.KI.Fold
import proofs.«123582_j22084721836889_2_alg».proof.Proof.KV.ChainKept
import proofs.«123582_j22084721836889_2_alg».proof.Proof.KV.ChainLayerLib
import proofs.«123582_j22084721836889_2_alg».proof.Proof.KV.HostLayer12
import proofs.«123582_j22084721836889_2_alg».proof.Proof.KV.LinVal12
import proofs.«123582_j22084721836889_2_alg».proof.Proof.KV.StatsVal13
import proofs.«123582_j22084721836889_2_alg».proof.Proof.KV.HostStats14
import proofs.«123582_j22084721836889_2_alg».proof.Proof.KV.NormVal14
import proofs.«123582_j22084721836889_2_alg».proof.Proof.Math.Net
import proofs.«123582_j22084721836889_2_alg».proof.Proof.Math.Spec

set_option maxRecDepth 16384
set_option quotPrecheck false

noncomputable section

namespace Cert.KernelIdeal.Val

open Idealize.ShloMosaic Idealize.ShloMosaic.TcCoe Idealize.ShloMosaic.ValueIdx
open Cert.KernelIdeal Cert.KernelIdeal.Gen Cert.KernelIdeal.Hand Cert.Hand.HostRead

section Layer

variable (m : (ℓ : Loc nD τ sig) → Buf (Elt Ideal) ℓ) (c : Dev nD)

local notation "tgA" => tgOf 200000 (W22 m c (main_arg3 : DevRef τ sig) : (⟨S400000, .i32⟩ : BufTy).Contents (Elt Ideal))
local notation "gsA" => gsOf 200000 (W22 m c (main_arg2 : DevRef τ sig) : (⟨S400000, .i32⟩ : BufTy).Contents (Elt Ideal))
local notation "embA" => (fun (v : Fin 5) (k : Fin 128) => (W22 m c (main_arg6 : DevRef τ sig) : (⟨S5x5x128, .f32⟩ : BufTy).Contents (Elt Ideal)) (ix3 (4 : Fin 5) v k))
local notation "wtA" => (fun (k q : Fin 128) => (W22 m c (main_arg7 : DevRef τ sig) : (⟨S5x128x128, .f32⟩ : BufTy).Contents (Elt Ideal)) (ix3 (4 : Fin 5) k q))
local notation "bA" => (fun (q : Fin 128) => (W22 m c (main_arg8 : DevRef τ sig) : (⟨S5x128, .f32⟩ : BufTy).Contents (Elt Ideal)) (ix2 (4 : Fin 5) q))
local notation "gaA" => (fun (q : Fin 128) => (W22 m c (main_arg9 : DevRef τ sig) : (⟨S5x128, .f32⟩ : BufTy).Contents (Elt Ideal)) (ix2 (4 : Fin 5) q))
local notation "beA" => (fun (q : Fin 128) => (W22 m c (main_arg10 : DevRef τ sig) : (⟨S5x128, .f32⟩ : BufTy).Contents (Elt Ideal)) (ix2 (4 : Fin 5) q))

theorem linOut_L4 : W24 m c (main_v201 : DevRef τ sig) = (dat12 (rd (W23 m)) c).arrAt 7 cfg12.N := by
  unfold W24
  exact Function.update_self _ _ _

theorem sumOut_L4 : W25 m c (main_v202_0 : DevRef τ sig) = (dat13 (rd (W24 m)) c).arrAt 1 cfg13.N := by
  unfold W25
  rw [Function.update_of_ne (StableHlo.devRef_ne_of_ne (show (main_v202_0 : Ref sig .tc) ≠ main_v202_1 by decide))]
  exact Function.update_self _ _ _

theorem sumsqOut_L4 : W25 m c (main_v202_1 : DevRef τ sig) = (dat13 (rd (W24 m)) c).arrAt 2 cfg13.N := by
  unfold W25
  exact Function.update_self _ _ _

theorem normOut_L4 : W27 m c (main_v223 : DevRef τ sig) = (dat14 (rd (W26 m)) c).arrAt 3 cfg14.N := by
  unfold W27
  exact Function.update_self _ _ _

variable (ef : Fin 400000 → Fin 5) (H : Fin 200000 → Fin 128 → EReal)
  (hH : ∀ p q, (W22 m c (main_v182 : DevRef τ sig) : (⟨S200000x128, .bf16⟩ : BufTy).Contents (Elt Ideal)) (ix2 p q) = H p q)
  (hI : ∀ p, (W22 m c (main_v15 : DevRef τ sig) : (⟨S200000x1, .f32⟩ : BufTy).Contents (Elt Ideal)) (ix2 p (0 : Fin 1))
    = Cert.Spec.invdeg (tgOf 200000 (W22 m c (main_arg3 : DevRef τ sig) : (⟨S400000, .i32⟩ : BufTy).Contents (Elt Ideal))) p)
  (hC : ∀ n v, (W22 m c (main_v19 : DevRef τ sig) : (⟨S200000x5, .f32⟩ : BufTy).Contents (Elt Ideal)) (ix2 n v)
    = Cert.Spec.cmat (tgOf 200000 (W22 m c (main_arg3 : DevRef τ sig) : (⟨S400000, .i32⟩ : BufTy).Contents (Elt Ideal))) ef n v)

include hH hI hC

set_option maxHeartbeats 1600000 in
theorem linVal_L4 (p : Fin 200000) (q : Fin 128) :
    (W24 m c (main_v201 : DevRef τ sig) : (⟨S200000x128, .f32⟩ : BufTy).Contents (Elt Ideal)) (ix2 p q)
      = Cert.Spec.klin gsA tgA ef H embA wtA bA p q := by
  rw [linOut_L4 m c, Cert.Spec.klin_eq_linArr]
  refine (lin12_val (rd (W23 m)) c p q).trans (congrFun (congrFun (Cert.Spec.linArr_congr ?_ ?_ ?_ ?_ ?_ ?_ ?_) p) q)
  · funext p k; exact (congrFun (W23_of m c main_v182 (by decide)) (ix2 p k)).trans (hH p k)
  · funext p k; exact (neigh12_apply (W22 m c) p k).trans (by simp only [hH])
  · funext p v; exact (congrFun (W23_of m c main_v19 (by decide)) (ix2 p v)).trans (hC p v)
  · funext v k; exact emb12_apply (W22 m c) v k
  · funext p; exact (congrFun (W23_of m c main_v15 (by decide)) (ix2 p (0 : Fin 1))).trans (hI p)
  · funext k q; exact w12_apply (W22 m c) k q
  · funext q; exact b12_apply (W22 m c) q

theorem sumVal_L4 : (fun (q : Fin 128) => (W25 m c (main_v202_0 : DevRef τ sig) : (⟨S1x128, .f32⟩ : BufTy).Contents (Elt Ideal)) (ix2 (0 : Fin 1) q))
    = Cert.Spec.colsum (Cert.Spec.klin gsA tgA ef H embA wtA bA) := by
  funext q; rw [sumOut_L4 m c]
  exact (stats13_sum (rd (W24 m)) c q).trans (congrFun (congrArg Cert.Spec.colsum (funext fun p => funext fun q => linVal_L4 m c ef H hH hI hC p q)) q)

theorem sumsqVal_L4 : (fun (q : Fin 128) => (W25 m c (main_v202_1 : DevRef τ sig) : (⟨S1x128, .f32⟩ : BufTy).Contents (Elt Ideal)) (ix2 (0 : Fin 1) q))
    = Cert.Spec.colsumsq (Cert.Spec.klin gsA tgA ef H embA wtA bA) := by
  funext q; rw [sumsqOut_L4 m c]
  exact (stats13_sumsq (rd (W24 m)) c q).trans (congrFun (congrArg Cert.Spec.colsumsq (funext fun p => funext fun q => linVal_L4 m c ef H hH hI hC p q)) q)

theorem gammaMid_L4 : (fun (q : Fin 128) => (W25 m c (main_arg9 : DevRef τ sig) : (⟨S5x128, .f32⟩ : BufTy).Contents (Elt Ideal)) (ix2 (4 : Fin 5) q)) = gaA := by
  rw [W25_of m c main_arg9 (by decide), W24_of m c main_arg9 (by decide), W23_of m c main_arg9 (by decide)]
theorem betaMid_L4 : (fun (q : Fin 128) => (W25 m c (main_arg10 : DevRef τ sig) : (⟨S5x128, .f32⟩ : BufTy).Contents (Elt Ideal)) (ix2 (4 : Fin 5) q)) = beA := by
  rw [W25_of m c main_arg10 (by decide), W24_of m c main_arg10 (by decide), W23_of m c main_arg10 (by decide)]

theorem scaleVal_L4 : (fun (q : Fin 128) => (W26 m c (main_v217 : DevRef τ sig) : (⟨S1x128, .f32⟩ : BufTy).Contents (Elt Ideal)) (ix2 (0 : Fin 1) q))
    = Cert.Spec.kscale (Cert.Spec.colsum (Cert.Spec.klin gsA tgA ef H embA wtA bA)) (Cert.Spec.colsumsq (Cert.Spec.klin gsA tgA ef H embA wtA bA)) gaA := by
  funext q
  exact (scale14_apply (W25 m c) q).trans (congrFun (Cert.Spec.kscale_congr (sumVal_L4 m c ef H hH hI hC) (sumsqVal_L4 m c ef H hH hI hC) (gammaMid_L4 m c ef H hH hI hC)) q)

theorem shiftVal_L4 : (fun (q : Fin 128) => (W26 m c (main_v222 : DevRef τ sig) : (⟨S1x128, .f32⟩ : BufTy).Contents (Elt Ideal)) (ix2 (0 : Fin 1) q))
    = Cert.Spec.kshift (Cert.Spec.colsum (Cert.Spec.klin gsA tgA ef H embA wtA bA)) (Cert.Spec.colsumsq (Cert.Spec.klin gsA tgA ef H embA wtA bA)) gaA beA := by
  funext q
  exact (shift14_apply (W25 m c) q).trans (congrFun (Cert.Spec.kshift_congr (sumVal_L4 m c ef H hH hI hC) (sumsqVal_L4 m c ef H hH hI hC) (gammaMid_L4 m c ef H hH hI hC) (betaMid_L4 m c ef H hH hI hC)) q)

theorem chain4 (p : Fin 200000) (q : Fin 128) :
    (W27 m c (main_v223 : DevRef τ sig) : (⟨S200000x128, .bf16⟩ : BufTy).Contents (Elt Ideal)) (ix2 p q)
      = Cert.Spec.klayer gsA tgA ef H embA wtA bA gaA beA p q := by
  rw [normOut_L4 m c, Cert.Spec.klayer_eq]
  refine (norm14_val (rd (W26 m)) c p q).trans (congrFun (congrFun (Cert.Spec.knorm_congr ?_ (scaleVal_L4 m c ef H hH hI hC) (shiftVal_L4 m c ef H hH hI hC)) p) q)
  funext p q
  exact (congrFun ((kept14 (W25 m c) main_v201 (by decide)).trans (W25_of m c main_v201 (by decide))) (ix2 p q)).trans (linVal_L4 m c ef H hH hI hC p q)

end Layer

end Cert.KernelIdeal.Val

end
-- ==== Proof.KV.MlpVal.lean ====
import proofs.«123582_j22084721836889_2_alg».proof.Proof.KI.Mlp15
import proofs.«123582_j22084721836889_2_alg».proof.Proof.Math.Spec
import Idealize.ShloMosaic.Lib.Pipeline.Value
import Idealize.ShloMosaic.Lib.ValueIdx
import Idealize.ShloMosaic.Lib.ValueLayout
import Idealize.ShloMosaic.PureOps.Ideal.Laws
import proofs.«123582_j22084721836889_2_alg».proof.Proof.KV.ValLib

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

theorem mlp_contr_rank : dot_S1000x128_S128x128_S1000x128_1_0_0_1_n_n.contr.rank = 1 := rfl

theorem mlp_contr_size : dot_S1000x128_S128x128_S1000x128_1_0_0_1_n_n.contr.size ⟨0, by rw [mlp_contr_rank]; exact Nat.one_pos⟩ = 128 := rfl

theorem mlp_matmul_apply {φ₁ φ₂ : FTy} (a : FVec Ideal S1000x128 φ₁) (w : FVec Ideal S128x128 φ₂) (p : Fin 1000) (q : Fin 128) :
    matmul dot_S1000x128_S128x128_S1000x128_1_0_0_1_n_n none a w (constant S1000x128 .f32 0x00000000#32) (ix2 p q)
      = ∑ k : Fin 128, a (ix2 p k) * w (ix2 k q) :=
  matmul2_apply dot_S1000x128_S128x128_S1000x128_1_0_0_1_n_n mlp_contr_rank mlp_contr_size (fun _ _ => rfl) (fun j k => dot_S1000x128_S128x128_S1000x128_1_0_0_1_n_n.lhsIdx_val_of_single (cl := 1) rfl j k)
    (fun j k => dot_S1000x128_S128x128_S1000x128_1_0_0_1_n_n.rhsIdx_val_of_single (cr := 0) rfl j k) (fun _ _ => rfl) a w p q

theorem mlp_zero_word : (FloatOps.ofBits FTy.f32 0x00000000#32 : Ideal .f32) = 0 := Ideal.ofBits_zero_f32

theorem mlp15_pay_apply (x0 : Vec Ideal S1000x128 .f32) (x1 : Vec Ideal S128x128 .f32) (x2 : Vec Ideal S1x128 .f32)
    (x3 : Vec Ideal S128x128 .f32) (x4 : Vec Ideal S1x128 .f32) (p : Fin 1000) (q : Fin 128) :
    k15_pay1 x0 x1 x2 x3 x4 (ix2 p q)
      = (∑ k : Fin 128, max ((∑ j : Fin 128, x0 (ix2 p j) * x1 (ix2 j k)) + x2 (ix2 (0 : Fin 1) k)) 0 * x3 (ix2 k q))
        + x4 (ix2 (0 : Fin 1) q) := by
  simp only [k15_pay1, addf_apply, maximumf_apply, truncf_apply, broadcast_apply, shapeCast_self, broadcastTo_1b_ab_apply,
    mlp_matmul_apply, mlp_zero_word]

section Region15
variable (V : (c : Dev nD) → (b : Ref sig .tc) → Buf (Elt Ideal) ((c : Thread nD τ).loc b))

abbrev g15 (c : Dev nD) : S1000x128.Idx → EReal := V c (Pipeline.arrRef spec15 0)

abbrev w1_15 (c : Dev nD) : S128x128.Idx → EReal := V c (Pipeline.arrRef spec15 1)

abbrev b1_15 (c : Dev nD) : S1x128.Idx → EReal := V c (Pipeline.arrRef spec15 2)

abbrev w2_15 (c : Dev nD) : S128x128.Idx → EReal := V c (Pipeline.arrRef spec15 3)

abbrev b2_15 (c : Dev nD) : S1x128.Idx → EReal := V c (Pipeline.arrRef spec15 4)

def mlpArr (G : S1000x128.Idx → EReal) (W1 : S128x128.Idx → EReal) (B1 : S1x128.Idx → EReal) (W2 : S128x128.Idx → EReal)
    (B2 : S1x128.Idx → EReal) : S1000x128.Idx → EReal :=
  fun i => (∑ k : Fin 128, max ((∑ j : Fin 128, G (ix2 (i 0) j) * W1 (ix2 j k)) + B1 (ix2 (0 : Fin 1) k)) 0 * W2 (ix2 k (i 1)))
    + B2 (ix2 (0 : Fin 1) (i 1))

theorem hz15 : (![0, 0] : Fin 2 → Nat) = fun _ => 0 := funext fun a => by fin_cases a <;> rfl

theorem mlp15_idx : ∀ t : Fin cfg15.N, win15_0.index t (0 : Fin 2) = 0
    ∧ win15_0.index t (1 : Fin 2) = 0
    ∧ win15_1.index t (0 : Fin 2) = 0
    ∧ win15_1.index t (1 : Fin 2) = 0
    ∧ win15_2.index t (0 : Fin 2) = 0
    ∧ win15_2.index t (1 : Fin 2) = 0
    ∧ win15_3.index t (0 : Fin 2) = 0
    ∧ win15_3.index t (1 : Fin 2) = 0
    ∧ win15_4.index t (0 : Fin 2) = 0
    ∧ win15_4.index t (1 : Fin 2) = 0
    ∧ win15_5.index t (0 : Fin 2) = 0
    ∧ win15_5.index t (1 : Fin 2) = 0 :=
  (by decide +kernel : ∀ t : Fin grid15.N, _)

set_option maxHeartbeats 800000 in

theorem mlp15_flushed (c : Dev nD) (t : Fin cfg15.N) :
    (dat15 (F := Ideal) V c).flushed 5 t = ((cfg15.win 5).blk t).view.read (Elt Ideal) (mlpArr (g15 V c) (w1_15 V c) (b1_15 V c) (w2_15 V c) (b2_15 V c)) := by
  show (cfg15.win 5).cut (grid15.coords t) ((dat15 V c).after 5 t) = _
  rw [after15_5]
  unfold out15_5
  rw [View.canon_unit_zero hz15]
  simp only [View.ld_unit_zero (S := S1000x128) hz15, View.ld_unit_zero (S := S128x128) hz15, View.ld_unit_zero (S := S1x128) hz15]
  obtain ⟨e00, e01, e10, e11, e20, e21, e30, e31, e40, e41, e50, e51⟩ := mlp15_idx t
  have hb0 : iblk15 V c 0 t = g15 V c := funext fun y => congrArg (g15 V c) (idx2_ext (j := ((cfg15.win 0).blk t).view.emb y)
    (by show win15_0.index t (0 : Fin 2) * 1000 + 1 * (y 0).val = (y 0).val; omega) (by show win15_0.index t (1 : Fin 2) * 128 + 1 * (y 1).val = (y 1).val; omega))
  have hb1 : iblk15 V c 1 t = w1_15 V c := funext fun y => congrArg (w1_15 V c) (idx2_ext (j := ((cfg15.win 1).blk t).view.emb y)
    (by show win15_1.index t (0 : Fin 2) * 128 + 1 * (y 0).val = (y 0).val; omega) (by show win15_1.index t (1 : Fin 2) * 128 + 1 * (y 1).val = (y 1).val; omega))
  have hb2 : iblk15 V c 2 t = b1_15 V c := funext fun y => congrArg (b1_15 V c) (idx2_ext (j := ((cfg15.win 2).blk t).view.emb y)
    (by show win15_2.index t (0 : Fin 2) * 1 + 1 * (y 0).val = (y 0).val; omega) (by show win15_2.index t (1 : Fin 2) * 128 + 1 * (y 1).val = (y 1).val; omega))
  have hb3 : iblk15 V c 3 t = w2_15 V c := funext fun y => congrArg (w2_15 V c) (idx2_ext (j := ((cfg15.win 3).blk t).view.emb y)
    (by show win15_3.index t (0 : Fin 2) * 128 + 1 * (y 0).val = (y 0).val; omega) (by show win15_3.index t (1 : Fin 2) * 128 + 1 * (y 1).val = (y 1).val; omega))
  have hb4 : iblk15 V c 4 t = b2_15 V c := funext fun y => congrArg (b2_15 V c) (idx2_ext (j := ((cfg15.win 4).blk t).view.emb y)
    (by show win15_4.index t (0 : Fin 2) * 1 + 1 * (y 0).val = (y 0).val; omega) (by show win15_4.index t (1 : Fin 2) * 128 + 1 * (y 1).val = (y 1).val; omega))
  rw [hb0, hb1, hb2, hb3, hb4]
  funext j
  obtain ⟨p, q, rfl⟩ : ∃ (p : Fin 1000) (q : Fin 128), j = ix2 p q := ⟨j 0, j 1, eq_ix2 j⟩
  show k15_pay1 (F := Ideal) (g15 V c) (w1_15 V c) (b1_15 V c) (w2_15 V c) (b2_15 V c) (ix2 p q) = mlpArr (g15 V c) (w1_15 V c) (b1_15 V c) (w2_15 V c) (b2_15 V c) (((cfg15.win 5).blk t).view.emb (ix2 p q))
  have h5 : ((cfg15.win 5).blk t).view.emb (ix2 p q) = ix2 p q :=
    idx2_ext (by show win15_5.index t (0 : Fin 2) * 1000 + 1 * p.val = p.val; omega) (by show win15_5.index t (1 : Fin 2) * 128 + 1 * q.val = q.val; omega)
  rw [h5, mlp15_pay_apply]
  rfl

theorem mlp15_mem_blk (t : Fin cfg15.N) (i : S1000x128.Idx) :
    i ∈ ((cfg15.win 5).blk t).view.set ↔ ∀ a : Fin 2, win15_5.index t a * S1000x128.size a ≤ (i a).val ∧ (i a).val < win15_5.index t a * S1000x128.size a + S1000x128.size a := by
  show i ∈ ((View.whole main_v239).slice (win15_5.rect t)).set ↔ _
  rw [View.set_slice_whole, Rect.mem_set_unit]
  exact Iff.rfl

theorem mlp15_cover (i : S1000x128.Idx) :
    ∃ t : Fin cfg15.N, (cfg15.win 5).flush t = true ∧ i ∈ ((cfg15.win 5).blk t).view.set := by
  have hi0 : (i 0).val < 1000 := (i 0).isLt
  have hi1 : (i 1).val < 128 := (i 1).isLt
  obtain ⟨e00, e01, e10, e11, e20, e21, e30, e31, e40, e41, e50, e51⟩ := mlp15_idx t15_0
  refine ⟨t15_0, flush15_5 t15_0, ?_⟩
  rw [mlp15_mem_blk]
  intro a
  match a with
  | ⟨0, _⟩ => show win15_5.index t15_0 (0 : Fin 2) * 1000 ≤ (i 0).val ∧ (i 0).val < win15_5.index t15_0 (0 : Fin 2) * 1000 + 1000; omega
  | ⟨1, _⟩ => show win15_5.index t15_0 (1 : Fin 2) * 128 ≤ (i 1).val ∧ (i 1).val < win15_5.index t15_0 (1 : Fin 2) * 128 + 128; omega

theorem mlp15_final (c : Dev nD) : (dat15 (F := Ideal) V c).arrAt 5 cfg15.N = mlpArr (g15 V c) (w1_15 V c) (b1_15 V c) (w2_15 V c) (b2_15 V c) :=
  (dat15 V c).arrAt_eq_of_cover 5 _ (fun t _ => mlp15_flushed V c t) mlp15_cover

theorem mlp15_val (c : Dev nD) (p : Fin 1000) (q : Fin 128) :
    ((dat15 (F := Ideal) V c).arrAt 5 cfg15.N) (ix2 p q)
      = Cert.Spec.mlp (fun p j => V c (Pipeline.arrRef spec15 0) (ix2 p j)) (fun j k => V c (Pipeline.arrRef spec15 1) (ix2 j k))
          (fun k => V c (Pipeline.arrRef spec15 2) (ix2 (0 : Fin 1) k)) (fun k q => V c (Pipeline.arrRef spec15 3) (ix2 k q))
          (fun q => V c (Pipeline.arrRef spec15 4) (ix2 (0 : Fin 1) q)) p q := by
  rw [mlp15_final]
  rfl

end Region15

end Cert.KernelIdeal.Val

end
-- ==== Proof.KV.HostPool.lean ====
import proofs.«123582_j22084721836889_2_alg».proof.Proof.Gen.KernelIdeal.Regions
import proofs.«123582_j22084721836889_2_alg».proof.Proof.Math.Spec
import proofs.«123582_j22084721836889_2_alg».proof.Proof.Math.HostRead
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 2280

noncomputable section

namespace Cert.KernelIdeal.Val

open Idealize.ShloMosaic Idealize.ShloMosaic.TcCoe Idealize.ShloMosaic.ValueIdx
open Cert.KernelIdeal Cert.KernelIdeal.Gen Cert.Hand.HostRead

theorem bcast_lastunit_apply {α : Type} {G D : ℕ}
    (hb : (⟨2, ![G, 1]⟩ : Shape).BroadcastsInDim ⟨2, ![G, D]⟩ ![0, 1])
    (v : (⟨2, ![G, 1]⟩ : Shape).Idx → α) (g : Fin G) (j : Fin D) :
    broadcastInDim ⟨2, ![G, D]⟩ ![0, 1] hb v (ix2 g j) = v (ix2 g (0 : Fin 1)) :=
  broadcastInDim_apply _ hb v _ _ (fun a => by
    match a with
    | ⟨0, _⟩ =>
      show g.val = if G = 1 then 0 else g.val
      split
      · next h1 => have := g.isLt; omega
      · rfl
    | ⟨1, _⟩ => exact (if_pos rfl).symm)

theorem pool_term
    (dv : ScatterDims ⟨1, ![1000]⟩ ⟨2, ![200000, 1]⟩ ⟨1, ![200000]⟩) (hv : VecScatter dv)
    (dr : ScatterDims ⟨2, ![1000, 128]⟩ ⟨2, ![200000, 1]⟩ ⟨2, ![200000, 128]⟩) (hr : RowScatter dr)
    (hbn : (⟨0, ![]⟩ : Shape).BroadcastsInDim ⟨1, ![200000]⟩ ![])
    (hbg : (⟨0, ![]⟩ : Shape).BroadcastsInDim ⟨1, ![1000]⟩ ![])
    (hbz : (⟨0, ![]⟩ : Shape).BroadcastsInDim ⟨2, ![1000, 128]⟩ ![])
    (hb1 : (⟨1, ![200000]⟩ : Shape).BroadcastsInDim ⟨2, ![200000, 1]⟩ ![0])
    (hbc : (⟨1, ![1000]⟩ : Shape).BroadcastsInDim ⟨2, ![1000, 1]⟩ ![0])
    (hbr : (⟨2, ![1000, 1]⟩ : Shape).BroadcastsInDim ⟨2, ![1000, 128]⟩ ![0, 1])
    (x : FVec Ideal ⟨2, ![200000, 128]⟩ .bf16) (n2g : IVec ⟨1, ![200000]⟩ 32)
    (hlt : FTy.bf16.bits < FTy.f32.bits) (g : Fin 1000) (j : Fin 128) :
    Host.divf
        (Host.scatterAdd dr
          (broadcastInDim ⟨2, ![1000, 128]⟩ ![] hbz (constant (F := Ideal) ⟨0, ![]⟩ .f32 0x00000000#32))
          (broadcastInDim ⟨2, ![200000, 1]⟩ ![0] hb1 n2g) (extf .f32 x hlt))
        (broadcastInDim ⟨2, ![1000, 128]⟩ ![0, 1] hbr
          (broadcastInDim ⟨2, ![1000, 1]⟩ ![0] hbc
            (maximumf
              (Host.scatterAdd dv
                (broadcastInDim ⟨1, ![1000]⟩ ![] hbg (constant (F := Ideal) ⟨0, ![]⟩ .f32 0x00000000#32))
                (broadcastInDim ⟨2, ![200000, 1]⟩ ![0] hb1 n2g)
                (broadcastInDim ⟨1, ![200000]⟩ ![] hbn (constant (F := Ideal) ⟨0, ![]⟩ .f32 0x3F800000#32)))
              (broadcastInDim ⟨1, ![1000]⟩ ![] hbg (constant (F := Ideal) ⟨0, ![]⟩ .f32 0x3F800000#32)))))
        (ix2 g j)
      = Cert.Spec.pool (pgOf n2g) (fun n j => x (ix2 n j)) g j := by
  rw [hostDivf_apply, scatter_pool_apply dr hr hbz hb1 n2g _ g j, bcast_lastunit_apply, bcast_col_apply,
    maximumf_apply, scatter_cnt_apply dv hv hbg hb1 n2g _ g, bcast_scalar_apply, constant_apply, Ideal.ofBits_one_f32]
  show Ideal.div _ _ = Ideal.div (∑ n ∈ Finset.univ.filter (fun n => pgOf n2g n = some g), x (ix2 n j))
    (max (∑ _n ∈ Finset.univ.filter (fun n => pgOf n2g n = some g), (1 : EReal)) 1)
  rw [Finset.sum_congr rfl fun p _ => extf_apply x hlt (ix2 p j),
    Finset.sum_congr rfl fun p _ => (bcast_scalar_apply hbn _ (ix1 p)).trans
      ((constant_apply _ _).trans Ideal.ofBits_one_f32)]

set_option maxHeartbeats 1600000 in

theorem pool15_apply (Vin : Valuation τ sig (Elt Ideal)) (g : Fin 1000) (j : Fin 128) :
    (StableHlo.after (hostOps15 (F := Ideal)) Vin (main_v236 : DevRef τ sig) : (⟨S1000x128, .f32⟩ : BufTy).Contents (Elt Ideal)) (ix2 g j)
      = Cert.Spec.pool (pgOf (Vin (main_arg4 : DevRef τ sig) : (⟨S200000, .i32⟩ : BufTy).Contents (Elt Ideal)))
          (fun n j => (Vin (main_v223 : DevRef τ sig) : (⟨S200000x128, .bf16⟩ : BufTy).Contents (Elt Ideal)) (ix2 n j)) g j := by
  dsimp only [hostOps15]
  open StableHlo in after_results_simp
  exact pool_term _ ⟨rfl, rfl, rfl, rfl⟩ _ ⟨rfl, rfl, rfl, rfl⟩ _ _ _ _ _ _ _ _ _ g j

set_option maxHeartbeats 1600000 in

theorem b1row15_apply (Vin : Valuation τ sig (Elt Ideal)) (k : Fin 128) :
    (StableHlo.after (hostOps15 (F := Ideal)) Vin (main_v237 : DevRef τ sig) : (⟨S1x128, .f32⟩ : BufTy).Contents (Elt Ideal)) (ix2 (0 : Fin 1) k)
      = (Vin (main_arg12 : DevRef τ sig) : (⟨S128, .f32⟩ : BufTy).Contents (Elt Ideal)) (ix1 k) := by
  dsimp only [hostOps15]
  open StableHlo in after_results_simp
  exact shapeCast_a_1a_apply _ _ 0 k

set_option maxHeartbeats 1600000 in

theorem b2row15_apply (Vin : Valuation τ sig (Elt Ideal)) (q : Fin 128) :
    (StableHlo.after (hostOps15 (F := Ideal)) Vin (main_v238 : DevRef τ sig) : (⟨S1x128, .f32⟩ : BufTy).Contents (Elt Ideal)) (ix2 (0 : Fin 1) q)
      = (Vin (main_arg14 : DevRef τ sig) : (⟨S128, .f32⟩ : BufTy).Contents (Elt Ideal)) (ix1 q) := by
  dsimp only [hostOps15]
  open StableHlo in after_results_simp
  exact shapeCast_a_1a_apply _ _ 0 q

theorem kept15 (Vin : Valuation τ sig (Elt Ideal)) (b : Ref sig .tc) (hb : b ∉ Gen.hostOps15_W) :
    StableHlo.after (hostOps15 (F := Ideal)) Vin (b : DevRef τ sig) = Vin (b : DevRef τ sig) :=
  StableHlo.after_of_writes_sub hostOps15 Vin hostOps15_writes hb

theorem arr15_0 : Pipeline.arrRef spec15 0 = main_v236 := rfl
theorem arr15_1 : Pipeline.arrRef spec15 1 = main_arg11 := rfl
theorem arr15_2 : Pipeline.arrRef spec15 2 = main_v237 := rfl
theorem arr15_3 : Pipeline.arrRef spec15 3 = main_arg13 := rfl
theorem arr15_4 : Pipeline.arrRef spec15 4 = main_v238 := rfl

end Cert.KernelIdeal.Val

end
-- ==== Proof.KV.ChainE.lean ====
import proofs.«123582_j22084721836889_2_alg».proof.Proof.KI.Fold
import proofs.«123582_j22084721836889_2_alg».proof.Proof.KV.MlpVal
import proofs.«123582_j22084721836889_2_alg».proof.Proof.KV.HostPool
import proofs.«123582_j22084721836889_2_alg».proof.Proof.Math.Spec

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.Hand Cert.Hand.HostRead

theorem chainE_mlp_congr {g g' : Fin Cert.Spec.NG → Fin Cert.Spec.DD → EReal}
    {W1 W1' W2 W2' : Fin Cert.Spec.DD → Fin Cert.Spec.DD → EReal} {b1 b1' b2 b2' : Fin Cert.Spec.DD → EReal}
    (hg : g = g') (h1 : W1 = W1') (hb1 : b1 = b1') (h2 : W2 = W2') (hb2 : b2 = b2') :
    Cert.Spec.mlp g W1 b1 W2 b2 = Cert.Spec.mlp g' W1' b1' W2' b2' := by
  subst hg h1 hb1 h2 hb2; rfl

set_option maxHeartbeats 1600000 in

theorem chainE (m : (ℓ : Loc nD τ sig) → Buf (Elt Ideal) ℓ) (c : Dev nD) (H : Fin 200000 → Fin 128 → EReal)
    (hH : ∀ p q, (Cert.KernelIdeal.Hand.W27 m c (main_v223 : DevRef τ sig) : (⟨S200000x128, .bf16⟩ : BufTy).Contents (Elt Ideal)) (ix2 p q) = H p q)
    (p : Fin 1000) (q : Fin 128) :
    (Cert.KernelIdeal.Hand.W29 m c (main_v239 : DevRef τ sig) : (⟨S1000x128, .f32⟩ : BufTy).Contents (Elt Ideal)) (ix2 p q)
      = Cert.Spec.mlp
          (Cert.Spec.pool (pgOf (Cert.KernelIdeal.Hand.W27 m c (main_arg4 : DevRef τ sig) : (⟨S200000, .i32⟩ : BufTy).Contents (Elt Ideal))) H)
          (fun j k => (Cert.KernelIdeal.Hand.W27 m c (main_arg11 : DevRef τ sig) : (⟨S128x128, .f32⟩ : BufTy).Contents (Elt Ideal)) (ix2 j k))
          (fun k => (Cert.KernelIdeal.Hand.W27 m c (main_arg12 : DevRef τ sig) : (⟨S128, .f32⟩ : BufTy).Contents (Elt Ideal)) (ix1 k))
          (fun k q => (Cert.KernelIdeal.Hand.W27 m c (main_arg13 : DevRef τ sig) : (⟨S128x128, .f32⟩ : BufTy).Contents (Elt Ideal)) (ix2 k q))
          (fun q => (Cert.KernelIdeal.Hand.W27 m c (main_arg14 : DevRef τ sig) : (⟨S128, .f32⟩ : BufTy).Contents (Elt Ideal)) (ix1 q)) p q := by
  rw [show W29 m c (main_v239 : DevRef τ sig) = (dat15 (rd (W28 m)) c).arrAt 5 cfg15.N from by
    unfold W29; exact Function.update_self (β := fun b : DevRef τ sig => b.ty.Contents (Elt Ideal)) (Proc.devRef .tc main_v239) _ _]
  refine (mlp15_val (rd (W28 m)) c p q).trans (congrFun (congrFun (chainE_mlp_congr ?_ ?_ ?_ ?_ ?_) p) q)
  · funext p j; exact (pool15_apply (W27 m c) p j).trans (by simp only [hH])
  · funext j k; exact congrFun (kept15 (W27 m c) main_arg11 (by decide)) (ix2 j k)
  · funext k; exact b1row15_apply (W27 m c) k
  · funext k q; exact congrFun (kept15 (W27 m c) main_arg13 (by decide)) (ix2 k q)
  · funext q; exact b2row15_apply (W27 m c) q

end Cert.KernelIdeal.Val

end
-- ==== Proof.KV.Chain.lean ====
import proofs.«123582_j22084721836889_2_alg».proof.Proof.KV.ChainArgs
import proofs.«123582_j22084721836889_2_alg».proof.Proof.KV.Chain0
import proofs.«123582_j22084721836889_2_alg».proof.Proof.KV.Chain1
import proofs.«123582_j22084721836889_2_alg».proof.Proof.KV.Chain2
import proofs.«123582_j22084721836889_2_alg».proof.Proof.KV.Chain3
import proofs.«123582_j22084721836889_2_alg».proof.Proof.KV.Chain4
import proofs.«123582_j22084721836889_2_alg».proof.Proof.KV.ChainE
import Idealize.ShloMosaic.Lib.StableHlo.Run
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Cert.Hand.HostRead

section Run
variable (m : (ℓ : Loc nD τ sig) → Buf (Elt Ideal) ℓ) (c : Dev nD)

theorem W7_launch (r : Ref sig .tc) (h : r ∉ late7) (h0 : r ∉ hostOps0_W) (h1 : r ∉ hostOps0_1_W) (h2 : r ∉ hostOps0_2_W) :
    W7 m c r = m (c, (r : DevRef τ sig)) := (W7_late m c r h).trans (W3_launch m c r h0 h1 h2)
theorem W12_launch (r : Ref sig .tc) (h : r ∉ late12) (h0 : r ∉ hostOps0_W) (h1 : r ∉ hostOps0_1_W) (h2 : r ∉ hostOps0_2_W) :
    W12 m c r = m (c, (r : DevRef τ sig)) := (W12_late m c r h).trans (W3_launch m c r h0 h1 h2)
theorem W17_launch (r : Ref sig .tc) (h : r ∉ late17) (h0 : r ∉ hostOps0_W) (h1 : r ∉ hostOps0_1_W) (h2 : r ∉ hostOps0_2_W) :
    W17 m c r = m (c, (r : DevRef τ sig)) := (W17_late m c r h).trans (W3_launch m c r h0 h1 h2)
theorem W22_launch (r : Ref sig .tc) (h : r ∉ late22) (h0 : r ∉ hostOps0_W) (h1 : r ∉ hostOps0_1_W) (h2 : r ∉ hostOps0_2_W) :
    W22 m c r = m (c, (r : DevRef τ sig)) := (W22_late m c r h).trans (W3_launch m c r h0 h1 h2)
theorem W27_launch (r : Ref sig .tc) (h : r ∉ late27) (h0 : r ∉ hostOps0_W) (h1 : r ∉ hostOps0_1_W) (h2 : r ∉ hostOps0_2_W) :
    W27 m c r = m (c, (r : DevRef τ sig)) := (W27_late m c r h).trans (W3_launch m c r h0 h1 h2)

theorem w7_feat_at (hef : EfOK m c) (p : Fin 200000) (q : Fin 128) :
    (W7 m c (main_v59 : DevRef τ sig) : (⟨S200000x128, .bf16⟩ : BufTy).Contents (Elt Ideal)) (ix2 p q) = hk1A m c p q := by
  have h := congrFun (congrFun (w7_feat m c hef) p) q
  exact h

theorem w12_feat (hef : EfOK m c) (p : Fin 200000) (q : Fin 128) :
    (W12 m c (main_v100 : DevRef τ sig) : (⟨S200000x128, .bf16⟩ : BufTy).Contents (Elt Ideal)) (ix2 p q) = hk2A m c p q := by
  have a2 := W7_launch m c main_arg2 (by decide) (by decide) (by decide) (by decide)
  have a3 := W7_launch m c main_arg3 (by decide) (by decide) (by decide) (by decide)
  have a6 := W7_launch m c main_arg6 (by decide) (by decide) (by decide) (by decide)
  have a7 := W7_launch m c main_arg7 (by decide) (by decide) (by decide) (by decide)
  have a8 := W7_launch m c main_arg8 (by decide) (by decide) (by decide) (by decide)
  have a9 := W7_launch m c main_arg9 (by decide) (by decide) (by decide) (by decide)
  have a10 := W7_launch m c main_arg10 (by decide) (by decide) (by decide) (by decide)
  have hI : ∀ p, (W7 m c (main_v15 : DevRef τ sig) : (⟨S200000x1, .f32⟩ : BufTy).Contents (Elt Ideal)) (ix2 p (0 : Fin 1))
      = Cert.Spec.invdeg (tgOf 200000 (W7 m c (main_arg3 : DevRef τ sig) : (⟨S400000, .i32⟩ : BufTy).Contents (Elt Ideal))) p := by
    rw [a3, W7_late m c main_v15 (by decide)]; exact fun p => congrFun (w3_invd m c) p
  have hC : ∀ n v, (W7 m c (main_v19 : DevRef τ sig) : (⟨S200000x5, .f32⟩ : BufTy).Contents (Elt Ideal)) (ix2 n v)
      = Cert.Spec.cmat (tgOf 200000 (W7 m c (main_arg3 : DevRef τ sig) : (⟨S400000, .i32⟩ : BufTy).Contents (Elt Ideal))) (efA m c) n v := by
    rw [a3, W7_late m c main_v19 (by decide)]; exact fun n v => congrFun (congrFun (w3_cmat m c hef) n) v
  refine (chain1 m c (efA m c) (hk1A m c) (w7_feat_at m c hef) hI hC p q).trans ?_
  rw [a2, a3, a6, a7, a8, a9, a10]
  rfl

theorem w17_feat (hef : EfOK m c) (p : Fin 200000) (q : Fin 128) :
    (W17 m c (main_v141 : DevRef τ sig) : (⟨S200000x128, .bf16⟩ : BufTy).Contents (Elt Ideal)) (ix2 p q) = hk3A m c p q := by
  have a2 := W12_launch m c main_arg2 (by decide) (by decide) (by decide) (by decide)
  have a3 := W12_launch m c main_arg3 (by decide) (by decide) (by decide) (by decide)
  have a6 := W12_launch m c main_arg6 (by decide) (by decide) (by decide) (by decide)
  have a7 := W12_launch m c main_arg7 (by decide) (by decide) (by decide) (by decide)
  have a8 := W12_launch m c main_arg8 (by decide) (by decide) (by decide) (by decide)
  have a9 := W12_launch m c main_arg9 (by decide) (by decide) (by decide) (by decide)
  have a10 := W12_launch m c main_arg10 (by decide) (by decide) (by decide) (by decide)
  have hI : ∀ p, (W12 m c (main_v15 : DevRef τ sig) : (⟨S200000x1, .f32⟩ : BufTy).Contents (Elt Ideal)) (ix2 p (0 : Fin 1))
      = Cert.Spec.invdeg (tgOf 200000 (W12 m c (main_arg3 : DevRef τ sig) : (⟨S400000, .i32⟩ : BufTy).Contents (Elt Ideal))) p := by
    rw [a3, W12_late m c main_v15 (by decide)]; exact fun p => congrFun (w3_invd m c) p
  have hC : ∀ n v, (W12 m c (main_v19 : DevRef τ sig) : (⟨S200000x5, .f32⟩ : BufTy).Contents (Elt Ideal)) (ix2 n v)
      = Cert.Spec.cmat (tgOf 200000 (W12 m c (main_arg3 : DevRef τ sig) : (⟨S400000, .i32⟩ : BufTy).Contents (Elt Ideal))) (efA m c) n v := by
    rw [a3, W12_late m c main_v19 (by decide)]; exact fun n v => congrFun (congrFun (w3_cmat m c hef) n) v
  refine (chain2 m c (efA m c) (hk2A m c) (w12_feat m c hef) hI hC p q).trans ?_
  rw [a2, a3, a6, a7, a8, a9, a10]
  rfl

theorem w22_feat (hef : EfOK m c) (p : Fin 200000) (q : Fin 128) :
    (W22 m c (main_v182 : DevRef τ sig) : (⟨S200000x128, .bf16⟩ : BufTy).Contents (Elt Ideal)) (ix2 p q) = hk4A m c p q := by
  have a2 := W17_launch m c main_arg2 (by decide) (by decide) (by decide) (by decide)
  have a3 := W17_launch m c main_arg3 (by decide) (by decide) (by decide) (by decide)
  have a6 := W17_launch m c main_arg6 (by decide) (by decide) (by decide) (by decide)
  have a7 := W17_launch m c main_arg7 (by decide) (by decide) (by decide) (by decide)
  have a8 := W17_launch m c main_arg8 (by decide) (by decide) (by decide) (by decide)
  have a9 := W17_launch m c main_arg9 (by decide) (by decide) (by decide) (by decide)
  have a10 := W17_launch m c main_arg10 (by decide) (by decide) (by decide) (by decide)
  have hI : ∀ p, (W17 m c (main_v15 : DevRef τ sig) : (⟨S200000x1, .f32⟩ : BufTy).Contents (Elt Ideal)) (ix2 p (0 : Fin 1))
      = Cert.Spec.invdeg (tgOf 200000 (W17 m c (main_arg3 : DevRef τ sig) : (⟨S400000, .i32⟩ : BufTy).Contents (Elt Ideal))) p := by
    rw [a3, W17_late m c main_v15 (by decide)]; exact fun p => congrFun (w3_invd m c) p
  have hC : ∀ n v, (W17 m c (main_v19 : DevRef τ sig) : (⟨S200000x5, .f32⟩ : BufTy).Contents (Elt Ideal)) (ix2 n v)
      = Cert.Spec.cmat (tgOf 200000 (W17 m c (main_arg3 : DevRef τ sig) : (⟨S400000, .i32⟩ : BufTy).Contents (Elt Ideal))) (efA m c) n v := by
    rw [a3, W17_late m c main_v19 (by decide)]; exact fun n v => congrFun (congrFun (w3_cmat m c hef) n) v
  refine (chain3 m c (efA m c) (hk3A m c) (w17_feat m c hef) hI hC p q).trans ?_
  rw [a2, a3, a6, a7, a8, a9, a10]
  rfl

theorem w27_feat (hef : EfOK m c) (p : Fin 200000) (q : Fin 128) :
    (W27 m c (main_v223 : DevRef τ sig) : (⟨S200000x128, .bf16⟩ : BufTy).Contents (Elt Ideal)) (ix2 p q) = hk5A m c p q := by
  have a2 := W22_launch m c main_arg2 (by decide) (by decide) (by decide) (by decide)
  have a3 := W22_launch m c main_arg3 (by decide) (by decide) (by decide) (by decide)
  have a6 := W22_launch m c main_arg6 (by decide) (by decide) (by decide) (by decide)
  have a7 := W22_launch m c main_arg7 (by decide) (by decide) (by decide) (by decide)
  have a8 := W22_launch m c main_arg8 (by decide) (by decide) (by decide) (by decide)
  have a9 := W22_launch m c main_arg9 (by decide) (by decide) (by decide) (by decide)
  have a10 := W22_launch m c main_arg10 (by decide) (by decide) (by decide) (by decide)
  have hI : ∀ p, (W22 m c (main_v15 : DevRef τ sig) : (⟨S200000x1, .f32⟩ : BufTy).Contents (Elt Ideal)) (ix2 p (0 : Fin 1))
      = Cert.Spec.invdeg (tgOf 200000 (W22 m c (main_arg3 : DevRef τ sig) : (⟨S400000, .i32⟩ : BufTy).Contents (Elt Ideal))) p := by
    rw [a3, W22_late m c main_v15 (by decide)]; exact fun p => congrFun (w3_invd m c) p
  have hC : ∀ n v, (W22 m c (main_v19 : DevRef τ sig) : (⟨S200000x5, .f32⟩ : BufTy).Contents (Elt Ideal)) (ix2 n v)
      = Cert.Spec.cmat (tgOf 200000 (W22 m c (main_arg3 : DevRef τ sig) : (⟨S400000, .i32⟩ : BufTy).Contents (Elt Ideal))) (efA m c) n v := by
    rw [a3, W22_late m c main_v19 (by decide)]; exact fun n v => congrFun (congrFun (w3_cmat m c hef) n) v
  refine (chain4 m c (efA m c) (hk4A m c) (w22_feat m c hef) hI hC p q).trans ?_
  rw [a2, a3, a6, a7, a8, a9, a10]
  rfl

theorem kernel_out_of_last
    (h5 : ∀ p q, (W27 m c (main_v223 : DevRef τ sig) : (⟨S200000x128, .bf16⟩ : BufTy).Contents (Elt Ideal)) (ix2 p q) = hk5A m c p q) (p : Fin 1000) (q : Fin 128) :
    (W29 m c (main_v239 : DevRef τ sig) : (⟨S1000x128, .f32⟩ : BufTy).Contents (Elt Ideal)) (ix2 p q) = Cert.Spec.knet (gsA m c) (tgA m c) (efA m c) (pgA m c) (nfA m c) (atomA m c) (embA m c) (WmA m c) (bA m c) (γA m c) (βA m c) (W1A m c) (b1A m c) (W2A m c) (b2A m c) p q := by
  rw [knet_eq_layers]
  refine (chainE m c (hk5A m c) h5 p q).trans ?_
  rw [W27_launch m c main_arg4 (by decide) (by decide) (by decide) (by decide), W27_launch m c main_arg11 (by decide) (by decide) (by decide) (by decide), W27_launch m c main_arg12 (by decide) (by decide) (by decide) (by decide),
    W27_launch m c main_arg13 (by decide) (by decide) (by decide) (by decide), W27_launch m c main_arg14 (by decide) (by decide) (by decide) (by decide)]
  rfl

theorem kernel_out
    (hef : ∀ e : Fin 400000, 0 ≤ ((m ((c.tc : Thread nD τ).loc main_arg1) : (⟨S400000, .i32⟩ : BufTy).Contents (Elt Ideal)) (ix1 e)).toInt
      ∧ ((m ((c.tc : Thread nD τ).loc main_arg1) : (⟨S400000, .i32⟩ : BufTy).Contents (Elt Ideal)) (ix1 e)).toInt < 5)
    (p : Fin 1000) (q : Fin 128) :
    (W29 m c (main_v239 : DevRef τ sig) : (⟨S1000x128, .f32⟩ : BufTy).Contents (Elt Ideal)) (ix2 p q) = Cert.Spec.knet (gsA m c) (tgA m c) (efA m c) (pgA m c) (nfA m c) (atomA m c) (embA m c) (WmA m c) (bA m c) (γA m c) (βA m c) (W1A m c) (b1A m c) (W2A m c) (b2A m c) p q :=
  kernel_out_of_last m c (w27_feat m c hef) p q

end Run

end Cert.KernelIdeal.Val

end
-- ==== Proof.Ref.Ops.lean ====
import proofs.«123582_j22084721836889_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsP : List (HloOp τ sig (Elt F)) :=
  [ StableHlo.nullary main_c (constantI S_ 32 0#32),
    StableHlo.unary main_c main_v0 (broadcastInDim S200000 ![] bcast_S_S200000),
    StableHlo.binary main_arg0 main_v0 main_v1 (cmpi .slt),
    StableHlo.nullary main_c_0 (constantI S_ 32 119#32),
    StableHlo.unary main_c_0 main_v2 (broadcastInDim S200000 ![] bcast_S_S200000),
    StableHlo.binary main_arg0 main_v2 main_v3 addi,
    StableHlo.ternary main_v1 main_v3 main_arg0 main_v4 select,
    StableHlo.unary main_v4 main_v5 (broadcastInDim S200000x1 ![0] bcast_S200000_S200000x1_0),
    StableHlo.binary main_arg5 main_v5 main_v6 (fun x i => Host.gather gather_S119x128_S200000x1_S200000x128_1_0_n_n_0_1_1128 x i),
    StableHlo.nullary main_cst (constant S_ .f32 0x3F800000#32),
    StableHlo.unary main_cst main_v7 (broadcastInDim S400000 ![] bcast_S_S400000),
    StableHlo.nullary main_cst_1 (constant S_ .f32 0x00000000#32),
    StableHlo.unary main_cst_1 main_v8 (broadcastInDim S200000 ![] bcast_S_S200000),
    StableHlo.unary main_arg3 main_v9 (broadcastInDim S400000x1 ![0] bcast_S400000_S400000x1_0),
    StableHlo.ternary main_v8 main_v9 main_v7 main_v10 (fun x i u => Host.scatterAdd scatter_S200000_S400000x1_S400000_n_0_0_1 x i u),
    StableHlo.nullary main_cst_2 (constant S_ .f32 0x3F800000#32),
    StableHlo.unary main_cst_2 main_v11 (broadcastInDim S200000 ![] bcast_S_S200000),
    StableHlo.binary main_v10 main_v11 main_v12 addf ]

abbrev opsL0 : List (HloOp τ sig (Elt F)) :=
  [ StableHlo.unary main_arg6 main_v13 (extractStridedSlice S1x5x128 ![0, 0, 0] · slices_S5x5x128_S1x5x128_0_0_0),
    StableHlo.reshape main_v13 main_v14 rfl shapeCasts_S1x5x128_S5x128,
    StableHlo.nullary main_c_3 (constantI S_ 32 0#32),
    StableHlo.unary main_c_3 main_v15 (broadcastInDim S400000 ![] bcast_S_S400000),
    StableHlo.binary main_arg1 main_v15 main_v16 (cmpi .slt),
    StableHlo.nullary main_c_4 (constantI S_ 32 5#32),
    StableHlo.unary main_c_4 main_v17 (broadcastInDim S400000 ![] bcast_S_S400000),
    StableHlo.binary main_arg1 main_v17 main_v18 addi,
    StableHlo.ternary main_v16 main_v18 main_arg1 main_v19 select,
    StableHlo.unary main_v19 main_v20 (broadcastInDim S400000x1 ![0] bcast_S400000_S400000x1_0),
    StableHlo.binary main_v14 main_v20 main_v21 (fun x i => Host.gather gather_S5x128_S400000x1_S400000x128_1_0_n_n_0_1_1128 x i),
    StableHlo.nullary main_c_5 (constantI S_ 32 0#32),
    StableHlo.unary main_c_5 main_v22 (broadcastInDim S400000 ![] bcast_S_S400000),
    StableHlo.binary main_arg2 main_v22 main_v23 (cmpi .slt),
    StableHlo.nullary main_c_6 (constantI S_ 32 200000#32),
    StableHlo.unary main_c_6 main_v24 (broadcastInDim S400000 ![] bcast_S_S400000),
    StableHlo.binary main_arg2 main_v24 main_v25 addi,
    StableHlo.ternary main_v23 main_v25 main_arg2 main_v26 select,
    StableHlo.unary main_v26 main_v27 (broadcastInDim S400000x1 ![0] bcast_S400000_S400000x1_0),
    StableHlo.binary main_v6 main_v27 main_v28 (fun x i => Host.gather gather_S200000x128_S400000x1_S400000x128_1_0_n_n_0_1_1128 x i),
    StableHlo.binary main_v28 main_v21 main_v29 addf,
    StableHlo.nullary main_cst_7 (constant S_ .f32 0x00000000#32),
    StableHlo.unary main_cst_7 main_v30 (broadcastInDim S200000x128 ![] bcast_S_S200000x128),
    StableHlo.unary main_arg3 main_v31 (broadcastInDim S400000x1 ![0] bcast_S400000_S400000x1_0),
    StableHlo.ternary main_v30 main_v31 main_v29 main_v32 (fun x i u => Host.scatterAdd scatter_S200000x128_S400000x1_S400000x128_1_0_0_1 x i u),
    StableHlo.binary main_v6 main_v32 main_v33 addf,
    StableHlo.unary main_v12 main_v34 (broadcastInDim S200000x1 ![0] bcast_S200000_S200000x1_0),
    StableHlo.unary main_v34 main_v35 (broadcastInDim S200000x128 ![0, 1] bcast_S200000x1_S200000x128_0_1),
    StableHlo.binary main_v33 main_v35 main_v36 Host.divf,
    StableHlo.unary main_arg7 main_v37 (extractStridedSlice S1x128x128 ![0, 0, 0] · slices_S5x128x128_S1x128x128_0_0_0),
    StableHlo.reshape main_v37 main_v38 rfl shapeCasts_S1x128x128_S128x128,
    StableHlo.binary main_v36 main_v38 main_v39 (fun l r => Host.dotGeneral dot_S200000x128_S128x128_S200000x128_1_0_0_1_n_n none l r),
    StableHlo.unary main_arg8 main_v40 (extractStridedSlice S1x128 ![0, 0] · slices_S5x128_S1x128_0_0),
    StableHlo.reshape main_v40 main_v41 rfl shapeCasts_S1x128_S128,
    StableHlo.unary main_v41 main_v42 (broadcastInDim S1x128 ![1] bcast_S128_S1x128_1),
    StableHlo.unary main_v42 main_v43 (broadcastInDim S200000x128 ![0, 1] bcast_S1x128_S200000x128_0_1),
    StableHlo.binary main_v39 main_v43 main_v44 addf,
    StableHlo.nullary main_cst_8 (constant S_ .f32 0x00000000#32),
    StableHlo.binary main_v44 main_cst_8 main_v45 (fun x v => Host.reduceAdd x v reducesTo_S200000x128_S128_d0 h_S_),
    StableHlo.nullary main_cst_9 (constant S_ .f32 0x48435000#32),
    StableHlo.unary main_cst_9 main_v46 (broadcastInDim S128 ![] bcast_S_S128),
    StableHlo.binary main_v45 main_v46 main_v47 Host.divf,
    StableHlo.nullary main_c_10 (constantI S_ 32 0#32),
    StableHlo.TRef.nullary main_call0.cst (constant S_ .f32 0x00000000#32),
    StableHlo.TRef.binary (.of main_v44) main_call0.cst main_call0.v0 (fun x v => Host.reduceAdd x v reducesTo_S200000x128_S128_d0 h_S_),
    StableHlo.TRef.unary main_call0.v0 main_call0.v1 (broadcastInDim S1x128 ![1] bcast_S128_S1x128_1),
    StableHlo.TRef.nullary main_call0.cst_0 (constant S_ .f32 0x48435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S200000x128 ![0, 1] bcast_S1x128_S200000x128_0_1),
    StableHlo.TRef.binary (.of main_v44) main_call0.v4 main_call0.v5 subf,
    StableHlo.TRef.binary main_call0.v5 main_call0.v5 main_call0.v6 mulf,
    StableHlo.TRef.unary (.of main_c_10) main_call0.v7 (sitofp .f32),
    StableHlo.TRef.nullary main_call0.cst_1 (constant S_ .f32 0x48435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S200000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v47 main_v49 (broadcastInDim S1x128 ![1] bcast_S128_S1x128_1),
    StableHlo.unary main_v49 main_v50 (broadcastInDim S200000x128 ![0, 1] bcast_S1x128_S200000x128_0_1),
    StableHlo.binary main_v44 main_v50 main_v51 subf,
    StableHlo.nullary main_cst_11 (constant S_ .f32 0x3727C5AC#32),
    StableHlo.unary main_cst_11 main_v52 (broadcastInDim S128 ![] bcast_S_S128),
    StableHlo.binary main_v48 main_v52 main_v53 addf,
    StableHlo.unary main_v53 main_v54 Host.rsqrt,
    StableHlo.unary main_v54 main_v55 (broadcastInDim S1x128 ![1] bcast_S128_S1x128_1),
    StableHlo.unary main_v55 main_v56 (broadcastInDim S200000x128 ![0, 1] bcast_S1x128_S200000x128_0_1),
    StableHlo.binary main_v51 main_v56 main_v57 mulf,
    StableHlo.unary main_arg9 main_v58 (extractStridedSlice S1x128 ![0, 0] · slices_S5x128_S1x128_0_0),
    StableHlo.reshape main_v58 main_v59 rfl shapeCasts_S1x128_S128,
    StableHlo.unary main_v59 main_v60 (broadcastInDim S1x128 ![1] bcast_S128_S1x128_1),
    StableHlo.unary main_v60 main_v61 (broadcastInDim S200000x128 ![0, 1] bcast_S1x128_S200000x128_0_1),
    StableHlo.binary main_v57 main_v61 main_v62 mulf,
    StableHlo.unary main_arg10 main_v63 (extractStridedSlice S1x128 ![0, 0] · slices_S5x128_S1x128_0_0),
    StableHlo.reshape main_v63 main_v64 rfl shapeCasts_S1x128_S128,
    StableHlo.unary main_v64 main_v65 (broadcastInDim S1x128 ![1] bcast_S128_S1x128_1),
    StableHlo.unary main_v65 main_v66 (broadcastInDim S200000x128 ![0, 1] bcast_S1x128_S200000x128_0_1),
    StableHlo.binary main_v62 main_v66 main_v67 addf,
    StableHlo.TRef.nullary main_call1.cst (constant S_ .f32 0x00000000#32),
    StableHlo.TRef.unary main_call1.cst main_call1.v0 (broadcastInDim S200000x128 ![] bcast_S_S200000x128),
    StableHlo.TRef.binary (.of main_v67) main_call1.v0 main_call1.v1 maximumf ]

abbrev opsL1 : List (HloOp τ sig (Elt F)) :=
  [ StableHlo.unary main_arg6 main_v69 (extractStridedSlice S1x5x128 ![1, 0, 0] · slices_S5x5x128_S1x5x128_1_0_0),
    StableHlo.reshape main_v69 main_v70 rfl shapeCasts_S1x5x128_S5x128,
    StableHlo.nullary main_c_12 (constantI S_ 32 0#32),
    StableHlo.unary main_c_12 main_v71 (broadcastInDim S400000 ![] bcast_S_S400000),
    StableHlo.binary main_arg1 main_v71 main_v72 (cmpi .slt),
    StableHlo.nullary main_c_13 (constantI S_ 32 5#32),
    StableHlo.unary main_c_13 main_v73 (broadcastInDim S400000 ![] bcast_S_S400000),
    StableHlo.binary main_arg1 main_v73 main_v74 addi,
    StableHlo.ternary main_v72 main_v74 main_arg1 main_v75 select,
    StableHlo.unary main_v75 main_v76 (broadcastInDim S400000x1 ![0] bcast_S400000_S400000x1_0),
    StableHlo.binary main_v70 main_v76 main_v77 (fun x i => Host.gather gather_S5x128_S400000x1_S400000x128_1_0_n_n_0_1_1128 x i),
    StableHlo.nullary main_c_14 (constantI S_ 32 0#32),
    StableHlo.unary main_c_14 main_v78 (broadcastInDim S400000 ![] bcast_S_S400000),
    StableHlo.binary main_arg2 main_v78 main_v79 (cmpi .slt),
    StableHlo.nullary main_c_15 (constantI S_ 32 200000#32),
    StableHlo.unary main_c_15 main_v80 (broadcastInDim S400000 ![] bcast_S_S400000),
    StableHlo.binary main_arg2 main_v80 main_v81 addi,
    StableHlo.ternary main_v79 main_v81 main_arg2 main_v82 select,
    StableHlo.unary main_v82 main_v83 (broadcastInDim S400000x1 ![0] bcast_S400000_S400000x1_0),
    StableHlo.binary main_v68 main_v83 main_v84 (fun x i => Host.gather gather_S200000x128_S400000x1_S400000x128_1_0_n_n_0_1_1128 x i),
    StableHlo.binary main_v84 main_v77 main_v85 addf,
    StableHlo.nullary main_cst_16 (constant S_ .f32 0x00000000#32),
    StableHlo.unary main_cst_16 main_v86 (broadcastInDim S200000x128 ![] bcast_S_S200000x128),
    StableHlo.unary main_arg3 main_v87 (broadcastInDim S400000x1 ![0] bcast_S400000_S400000x1_0),
    StableHlo.ternary main_v86 main_v87 main_v85 main_v88 (fun x i u => Host.scatterAdd scatter_S200000x128_S400000x1_S400000x128_1_0_0_1 x i u),
    StableHlo.binary main_v68 main_v88 main_v89 addf,
    StableHlo.unary main_v12 main_v90 (broadcastInDim S200000x1 ![0] bcast_S200000_S200000x1_0),
    StableHlo.unary main_v90 main_v91 (broadcastInDim S200000x128 ![0, 1] bcast_S200000x1_S200000x128_0_1),
    StableHlo.binary main_v89 main_v91 main_v92 Host.divf,
    StableHlo.unary main_arg7 main_v93 (extractStridedSlice S1x128x128 ![1, 0, 0] · slices_S5x128x128_S1x128x128_1_0_0),
    StableHlo.reshape main_v93 main_v94 rfl shapeCasts_S1x128x128_S128x128,
    StableHlo.binary main_v92 main_v94 main_v95 (fun l r => Host.dotGeneral dot_S200000x128_S128x128_S200000x128_1_0_0_1_n_n none l r),
    StableHlo.unary main_arg8 main_v96 (extractStridedSlice S1x128 ![1, 0] · slices_S5x128_S1x128_1_0),
    StableHlo.reshape main_v96 main_v97 rfl shapeCasts_S1x128_S128,
    StableHlo.unary main_v97 main_v98 (broadcastInDim S1x128 ![1] bcast_S128_S1x128_1),
    StableHlo.unary main_v98 main_v99 (broadcastInDim S200000x128 ![0, 1] bcast_S1x128_S200000x128_0_1),
    StableHlo.binary main_v95 main_v99 main_v100 addf,
    StableHlo.nullary main_cst_17 (constant S_ .f32 0x00000000#32),
    StableHlo.binary main_v100 main_cst_17 main_v101 (fun x v => Host.reduceAdd x v reducesTo_S200000x128_S128_d0 h_S_),
    StableHlo.nullary main_cst_18 (constant S_ .f32 0x48435000#32),
    StableHlo.unary main_cst_18 main_v102 (broadcastInDim S128 ![] bcast_S_S128),
    StableHlo.binary main_v101 main_v102 main_v103 Host.divf,
    StableHlo.nullary main_c_19 (constantI S_ 32 0#32),
    StableHlo.TRef.nullary main_call2.cst (constant S_ .f32 0x00000000#32),
    StableHlo.TRef.binary (.of main_v100) main_call2.cst main_call2.v0 (fun x v => Host.reduceAdd x v reducesTo_S200000x128_S128_d0 h_S_),
    StableHlo.TRef.unary main_call2.v0 main_call2.v1 (broadcastInDim S1x128 ![1] bcast_S128_S1x128_1),
    StableHlo.TRef.nullary main_call2.cst_0 (constant S_ .f32 0x48435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S200000x128 ![0, 1] bcast_S1x128_S200000x128_0_1),
    StableHlo.TRef.binary (.of main_v100) main_call2.v4 main_call2.v5 subf,
    StableHlo.TRef.binary main_call2.v5 main_call2.v5 main_call2.v6 mulf,
    StableHlo.TRef.unary (.of main_c_19) main_call2.v7 (sitofp .f32),
    StableHlo.TRef.nullary main_call2.cst_1 (constant S_ .f32 0x48435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S200000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v103 main_v105 (broadcastInDim S1x128 ![1] bcast_S128_S1x128_1),
    StableHlo.unary main_v105 main_v106 (broadcastInDim S200000x128 ![0, 1] bcast_S1x128_S200000x128_0_1),
    StableHlo.binary main_v100 main_v106 main_v107 subf,
    StableHlo.nullary main_cst_20 (constant S_ .f32 0x3727C5AC#32),
    StableHlo.unary main_cst_20 main_v108 (broadcastInDim S128 ![] bcast_S_S128),
    StableHlo.binary main_v104 main_v108 main_v109 addf,
    StableHlo.unary main_v109 main_v110 Host.rsqrt,
    StableHlo.unary main_v110 main_v111 (broadcastInDim S1x128 ![1] bcast_S128_S1x128_1),
    StableHlo.unary main_v111 main_v112 (broadcastInDim S200000x128 ![0, 1] bcast_S1x128_S200000x128_0_1),
    StableHlo.binary main_v107 main_v112 main_v113 mulf,
    StableHlo.unary main_arg9 main_v114 (extractStridedSlice S1x128 ![1, 0] · slices_S5x128_S1x128_1_0),
    StableHlo.reshape main_v114 main_v115 rfl shapeCasts_S1x128_S128,
    StableHlo.unary main_v115 main_v116 (broadcastInDim S1x128 ![1] bcast_S128_S1x128_1),
    StableHlo.unary main_v116 main_v117 (broadcastInDim S200000x128 ![0, 1] bcast_S1x128_S200000x128_0_1),
    StableHlo.binary main_v113 main_v117 main_v118 mulf,
    StableHlo.unary main_arg10 main_v119 (extractStridedSlice S1x128 ![1, 0] · slices_S5x128_S1x128_1_0),
    StableHlo.reshape main_v119 main_v120 rfl shapeCasts_S1x128_S128,
    StableHlo.unary main_v120 main_v121 (broadcastInDim S1x128 ![1] bcast_S128_S1x128_1),
    StableHlo.unary main_v121 main_v122 (broadcastInDim S200000x128 ![0, 1] bcast_S1x128_S200000x128_0_1),
    StableHlo.binary main_v118 main_v122 main_v123 addf,
    StableHlo.TRef.nullary main_call3.cst (constant S_ .f32 0x00000000#32),
    StableHlo.TRef.unary main_call3.cst main_call3.v0 (broadcastInDim S200000x128 ![] bcast_S_S200000x128),
    StableHlo.TRef.binary (.of main_v123) main_call3.v0 main_call3.v1 maximumf ]

abbrev opsL2 : List (HloOp τ sig (Elt F)) :=
  [ StableHlo.unary main_arg6 main_v125 (extractStridedSlice S1x5x128 ![2, 0, 0] · slices_S5x5x128_S1x5x128_2_0_0),
    StableHlo.reshape main_v125 main_v126 rfl shapeCasts_S1x5x128_S5x128,
    StableHlo.nullary main_c_21 (constantI S_ 32 0#32),
    StableHlo.unary main_c_21 main_v127 (broadcastInDim S400000 ![] bcast_S_S400000),
    StableHlo.binary main_arg1 main_v127 main_v128 (cmpi .slt),
    StableHlo.nullary main_c_22 (constantI S_ 32 5#32),
    StableHlo.unary main_c_22 main_v129 (broadcastInDim S400000 ![] bcast_S_S400000),
    StableHlo.binary main_arg1 main_v129 main_v130 addi,
    StableHlo.ternary main_v128 main_v130 main_arg1 main_v131 select,
    StableHlo.unary main_v131 main_v132 (broadcastInDim S400000x1 ![0] bcast_S400000_S400000x1_0),
    StableHlo.binary main_v126 main_v132 main_v133 (fun x i => Host.gather gather_S5x128_S400000x1_S400000x128_1_0_n_n_0_1_1128 x i),
    StableHlo.nullary main_c_23 (constantI S_ 32 0#32),
    StableHlo.unary main_c_23 main_v134 (broadcastInDim S400000 ![] bcast_S_S400000),
    StableHlo.binary main_arg2 main_v134 main_v135 (cmpi .slt),
    StableHlo.nullary main_c_24 (constantI S_ 32 200000#32),
    StableHlo.unary main_c_24 main_v136 (broadcastInDim S400000 ![] bcast_S_S400000),
    StableHlo.binary main_arg2 main_v136 main_v137 addi,
    StableHlo.ternary main_v135 main_v137 main_arg2 main_v138 select,
    StableHlo.unary main_v138 main_v139 (broadcastInDim S400000x1 ![0] bcast_S400000_S400000x1_0),
    StableHlo.binary main_v124 main_v139 main_v140 (fun x i => Host.gather gather_S200000x128_S400000x1_S400000x128_1_0_n_n_0_1_1128 x i),
    StableHlo.binary main_v140 main_v133 main_v141 addf,
    StableHlo.nullary main_cst_25 (constant S_ .f32 0x00000000#32),
    StableHlo.unary main_cst_25 main_v142 (broadcastInDim S200000x128 ![] bcast_S_S200000x128),
    StableHlo.unary main_arg3 main_v143 (broadcastInDim S400000x1 ![0] bcast_S400000_S400000x1_0),
    StableHlo.ternary main_v142 main_v143 main_v141 main_v144 (fun x i u => Host.scatterAdd scatter_S200000x128_S400000x1_S400000x128_1_0_0_1 x i u),
    StableHlo.binary main_v124 main_v144 main_v145 addf,
    StableHlo.unary main_v12 main_v146 (broadcastInDim S200000x1 ![0] bcast_S200000_S200000x1_0),
    StableHlo.unary main_v146 main_v147 (broadcastInDim S200000x128 ![0, 1] bcast_S200000x1_S200000x128_0_1),
    StableHlo.binary main_v145 main_v147 main_v148 Host.divf,
    StableHlo.unary main_arg7 main_v149 (extractStridedSlice S1x128x128 ![2, 0, 0] · slices_S5x128x128_S1x128x128_2_0_0),
    StableHlo.reshape main_v149 main_v150 rfl shapeCasts_S1x128x128_S128x128,
    StableHlo.binary main_v148 main_v150 main_v151 (fun l r => Host.dotGeneral dot_S200000x128_S128x128_S200000x128_1_0_0_1_n_n none l r),
    StableHlo.unary main_arg8 main_v152 (extractStridedSlice S1x128 ![2, 0] · slices_S5x128_S1x128_2_0),
    StableHlo.reshape main_v152 main_v153 rfl shapeCasts_S1x128_S128,
    StableHlo.unary main_v153 main_v154 (broadcastInDim S1x128 ![1] bcast_S128_S1x128_1),
    StableHlo.unary main_v154 main_v155 (broadcastInDim S200000x128 ![0, 1] bcast_S1x128_S200000x128_0_1),
    StableHlo.binary main_v151 main_v155 main_v156 addf,
    StableHlo.nullary main_cst_26 (constant S_ .f32 0x00000000#32),
    StableHlo.binary main_v156 main_cst_26 main_v157 (fun x v => Host.reduceAdd x v reducesTo_S200000x128_S128_d0 h_S_),
    StableHlo.nullary main_cst_27 (constant S_ .f32 0x48435000#32),
    StableHlo.unary main_cst_27 main_v158 (broadcastInDim S128 ![] bcast_S_S128),
    StableHlo.binary main_v157 main_v158 main_v159 Host.divf,
    StableHlo.nullary main_c_28 (constantI S_ 32 0#32),
    StableHlo.TRef.nullary main_call4.cst (constant S_ .f32 0x00000000#32),
    StableHlo.TRef.binary (.of main_v156) main_call4.cst main_call4.v0 (fun x v => Host.reduceAdd x v reducesTo_S200000x128_S128_d0 h_S_),
    StableHlo.TRef.unary main_call4.v0 main_call4.v1 (broadcastInDim S1x128 ![1] bcast_S128_S1x128_1),
    StableHlo.TRef.nullary main_call4.cst_0 (constant S_ .f32 0x48435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S200000x128 ![0, 1] bcast_S1x128_S200000x128_0_1),
    StableHlo.TRef.binary (.of main_v156) main_call4.v4 main_call4.v5 subf,
    StableHlo.TRef.binary main_call4.v5 main_call4.v5 main_call4.v6 mulf,
    StableHlo.TRef.unary (.of main_c_28) main_call4.v7 (sitofp .f32),
    StableHlo.TRef.nullary main_call4.cst_1 (constant S_ .f32 0x48435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S200000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v159 main_v161 (broadcastInDim S1x128 ![1] bcast_S128_S1x128_1),
    StableHlo.unary main_v161 main_v162 (broadcastInDim S200000x128 ![0, 1] bcast_S1x128_S200000x128_0_1),
    StableHlo.binary main_v156 main_v162 main_v163 subf,
    StableHlo.nullary main_cst_29 (constant S_ .f32 0x3727C5AC#32),
    StableHlo.unary main_cst_29 main_v164 (broadcastInDim S128 ![] bcast_S_S128),
    StableHlo.binary main_v160 main_v164 main_v165 addf,
    StableHlo.unary main_v165 main_v166 Host.rsqrt,
    StableHlo.unary main_v166 main_v167 (broadcastInDim S1x128 ![1] bcast_S128_S1x128_1),
    StableHlo.unary main_v167 main_v168 (broadcastInDim S200000x128 ![0, 1] bcast_S1x128_S200000x128_0_1),
    StableHlo.binary main_v163 main_v168 main_v169 mulf,
    StableHlo.unary main_arg9 main_v170 (extractStridedSlice S1x128 ![2, 0] · slices_S5x128_S1x128_2_0),
    StableHlo.reshape main_v170 main_v171 rfl shapeCasts_S1x128_S128,
    StableHlo.unary main_v171 main_v172 (broadcastInDim S1x128 ![1] bcast_S128_S1x128_1),
    StableHlo.unary main_v172 main_v173 (broadcastInDim S200000x128 ![0, 1] bcast_S1x128_S200000x128_0_1),
    StableHlo.binary main_v169 main_v173 main_v174 mulf,
    StableHlo.unary main_arg10 main_v175 (extractStridedSlice S1x128 ![2, 0] · slices_S5x128_S1x128_2_0),
    StableHlo.reshape main_v175 main_v176 rfl shapeCasts_S1x128_S128,
    StableHlo.unary main_v176 main_v177 (broadcastInDim S1x128 ![1] bcast_S128_S1x128_1),
    StableHlo.unary main_v177 main_v178 (broadcastInDim S200000x128 ![0, 1] bcast_S1x128_S200000x128_0_1),
    StableHlo.binary main_v174 main_v178 main_v179 addf,
    StableHlo.TRef.nullary main_call5.cst (constant S_ .f32 0x00000000#32),
    StableHlo.TRef.unary main_call5.cst main_call5.v0 (broadcastInDim S200000x128 ![] bcast_S_S200000x128),
    StableHlo.TRef.binary (.of main_v179) main_call5.v0 main_call5.v1 maximumf ]

abbrev opsL3 : List (HloOp τ sig (Elt F)) :=
  [ StableHlo.unary main_arg6 main_v181 (extractStridedSlice S1x5x128 ![3, 0, 0] · slices_S5x5x128_S1x5x128_3_0_0),
    StableHlo.reshape main_v181 main_v182 rfl shapeCasts_S1x5x128_S5x128,
    StableHlo.nullary main_c_30 (constantI S_ 32 0#32),
    StableHlo.unary main_c_30 main_v183 (broadcastInDim S400000 ![] bcast_S_S400000),
    StableHlo.binary main_arg1 main_v183 main_v184 (cmpi .slt),
    StableHlo.nullary main_c_31 (constantI S_ 32 5#32),
    StableHlo.unary main_c_31 main_v185 (broadcastInDim S400000 ![] bcast_S_S400000),
    StableHlo.binary main_arg1 main_v185 main_v186 addi,
    StableHlo.ternary main_v184 main_v186 main_arg1 main_v187 select,
    StableHlo.unary main_v187 main_v188 (broadcastInDim S400000x1 ![0] bcast_S400000_S400000x1_0),
    StableHlo.binary main_v182 main_v188 main_v189 (fun x i => Host.gather gather_S5x128_S400000x1_S400000x128_1_0_n_n_0_1_1128 x i),
    StableHlo.nullary main_c_32 (constantI S_ 32 0#32),
    StableHlo.unary main_c_32 main_v190 (broadcastInDim S400000 ![] bcast_S_S400000),
    StableHlo.binary main_arg2 main_v190 main_v191 (cmpi .slt),
    StableHlo.nullary main_c_33 (constantI S_ 32 200000#32),
    StableHlo.unary main_c_33 main_v192 (broadcastInDim S400000 ![] bcast_S_S400000),
    StableHlo.binary main_arg2 main_v192 main_v193 addi,
    StableHlo.ternary main_v191 main_v193 main_arg2 main_v194 select,
    StableHlo.unary main_v194 main_v195 (broadcastInDim S400000x1 ![0] bcast_S400000_S400000x1_0),
    StableHlo.binary main_v180 main_v195 main_v196 (fun x i => Host.gather gather_S200000x128_S400000x1_S400000x128_1_0_n_n_0_1_1128 x i),
    StableHlo.binary main_v196 main_v189 main_v197 addf,
    StableHlo.nullary main_cst_34 (constant S_ .f32 0x00000000#32),
    StableHlo.unary main_cst_34 main_v198 (broadcastInDim S200000x128 ![] bcast_S_S200000x128),
    StableHlo.unary main_arg3 main_v199 (broadcastInDim S400000x1 ![0] bcast_S400000_S400000x1_0),
    StableHlo.ternary main_v198 main_v199 main_v197 main_v200 (fun x i u => Host.scatterAdd scatter_S200000x128_S400000x1_S400000x128_1_0_0_1 x i u),
    StableHlo.binary main_v180 main_v200 main_v201 addf,
    StableHlo.unary main_v12 main_v202 (broadcastInDim S200000x1 ![0] bcast_S200000_S200000x1_0),
    StableHlo.unary main_v202 main_v203 (broadcastInDim S200000x128 ![0, 1] bcast_S200000x1_S200000x128_0_1),
    StableHlo.binary main_v201 main_v203 main_v204 Host.divf,
    StableHlo.unary main_arg7 main_v205 (extractStridedSlice S1x128x128 ![3, 0, 0] · slices_S5x128x128_S1x128x128_3_0_0),
    StableHlo.reshape main_v205 main_v206 rfl shapeCasts_S1x128x128_S128x128,
    StableHlo.binary main_v204 main_v206 main_v207 (fun l r => Host.dotGeneral dot_S200000x128_S128x128_S200000x128_1_0_0_1_n_n none l r),
    StableHlo.unary main_arg8 main_v208 (extractStridedSlice S1x128 ![3, 0] · slices_S5x128_S1x128_3_0),
    StableHlo.reshape main_v208 main_v209 rfl shapeCasts_S1x128_S128,
    StableHlo.unary main_v209 main_v210 (broadcastInDim S1x128 ![1] bcast_S128_S1x128_1),
    StableHlo.unary main_v210 main_v211 (broadcastInDim S200000x128 ![0, 1] bcast_S1x128_S200000x128_0_1),
    StableHlo.binary main_v207 main_v211 main_v212 addf,
    StableHlo.nullary main_cst_35 (constant S_ .f32 0x00000000#32),
    StableHlo.binary main_v212 main_cst_35 main_v213 (fun x v => Host.reduceAdd x v reducesTo_S200000x128_S128_d0 h_S_),
    StableHlo.nullary main_cst_36 (constant S_ .f32 0x48435000#32),
    StableHlo.unary main_cst_36 main_v214 (broadcastInDim S128 ![] bcast_S_S128),
    StableHlo.binary main_v213 main_v214 main_v215 Host.divf,
    StableHlo.nullary main_c_37 (constantI S_ 32 0#32),
    StableHlo.TRef.nullary main_call6.cst (constant S_ .f32 0x00000000#32),
    StableHlo.TRef.binary (.of main_v212) main_call6.cst main_call6.v0 (fun x v => Host.reduceAdd x v reducesTo_S200000x128_S128_d0 h_S_),
    StableHlo.TRef.unary main_call6.v0 main_call6.v1 (broadcastInDim S1x128 ![1] bcast_S128_S1x128_1),
    StableHlo.TRef.nullary main_call6.cst_0 (constant S_ .f32 0x48435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S200000x128 ![0, 1] bcast_S1x128_S200000x128_0_1),
    StableHlo.TRef.binary (.of main_v212) main_call6.v4 main_call6.v5 subf,
    StableHlo.TRef.binary main_call6.v5 main_call6.v5 main_call6.v6 mulf,
    StableHlo.TRef.unary (.of main_c_37) main_call6.v7 (sitofp .f32),
    StableHlo.TRef.nullary main_call6.cst_1 (constant S_ .f32 0x48435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S200000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v215 main_v217 (broadcastInDim S1x128 ![1] bcast_S128_S1x128_1),
    StableHlo.unary main_v217 main_v218 (broadcastInDim S200000x128 ![0, 1] bcast_S1x128_S200000x128_0_1),
    StableHlo.binary main_v212 main_v218 main_v219 subf,
    StableHlo.nullary main_cst_38 (constant S_ .f32 0x3727C5AC#32),
    StableHlo.unary main_cst_38 main_v220 (broadcastInDim S128 ![] bcast_S_S128),
    StableHlo.binary main_v216 main_v220 main_v221 addf,
    StableHlo.unary main_v221 main_v222 Host.rsqrt,
    StableHlo.unary main_v222 main_v223 (broadcastInDim S1x128 ![1] bcast_S128_S1x128_1),
    StableHlo.unary main_v223 main_v224 (broadcastInDim S200000x128 ![0, 1] bcast_S1x128_S200000x128_0_1),
    StableHlo.binary main_v219 main_v224 main_v225 mulf,
    StableHlo.unary main_arg9 main_v226 (extractStridedSlice S1x128 ![3, 0] · slices_S5x128_S1x128_3_0),
    StableHlo.reshape main_v226 main_v227 rfl shapeCasts_S1x128_S128,
    StableHlo.unary main_v227 main_v228 (broadcastInDim S1x128 ![1] bcast_S128_S1x128_1),
    StableHlo.unary main_v228 main_v229 (broadcastInDim S200000x128 ![0, 1] bcast_S1x128_S200000x128_0_1),
    StableHlo.binary main_v225 main_v229 main_v230 mulf,
    StableHlo.unary main_arg10 main_v231 (extractStridedSlice S1x128 ![3, 0] · slices_S5x128_S1x128_3_0),
    StableHlo.reshape main_v231 main_v232 rfl shapeCasts_S1x128_S128,
    StableHlo.unary main_v232 main_v233 (broadcastInDim S1x128 ![1] bcast_S128_S1x128_1),
    StableHlo.unary main_v233 main_v234 (broadcastInDim S200000x128 ![0, 1] bcast_S1x128_S200000x128_0_1),
    StableHlo.binary main_v230 main_v234 main_v235 addf,
    StableHlo.TRef.nullary main_call7.cst (constant S_ .f32 0x00000000#32),
    StableHlo.TRef.unary main_call7.cst main_call7.v0 (broadcastInDim S200000x128 ![] bcast_S_S200000x128),
    StableHlo.TRef.binary (.of main_v235) main_call7.v0 main_call7.v1 maximumf ]

abbrev opsL4 : List (HloOp τ sig (Elt F)) :=
  [ StableHlo.unary main_arg6 main_v237 (extractStridedSlice S1x5x128 ![4, 0, 0] · slices_S5x5x128_S1x5x128_4_0_0),
    StableHlo.reshape main_v237 main_v238 rfl shapeCasts_S1x5x128_S5x128,
    StableHlo.nullary main_c_39 (constantI S_ 32 0#32),
    StableHlo.unary main_c_39 main_v239 (broadcastInDim S400000 ![] bcast_S_S400000),
    StableHlo.binary main_arg1 main_v239 main_v240 (cmpi .slt),
    StableHlo.nullary main_c_40 (constantI S_ 32 5#32),
    StableHlo.unary main_c_40 main_v241 (broadcastInDim S400000 ![] bcast_S_S400000),
    StableHlo.binary main_arg1 main_v241 main_v242 addi,
    StableHlo.ternary main_v240 main_v242 main_arg1 main_v243 select,
    StableHlo.unary main_v243 main_v244 (broadcastInDim S400000x1 ![0] bcast_S400000_S400000x1_0),
    StableHlo.binary main_v238 main_v244 main_v245 (fun x i => Host.gather gather_S5x128_S400000x1_S400000x128_1_0_n_n_0_1_1128 x i),
    StableHlo.nullary main_c_41 (constantI S_ 32 0#32),
    StableHlo.unary main_c_41 main_v246 (broadcastInDim S400000 ![] bcast_S_S400000),
    StableHlo.binary main_arg2 main_v246 main_v247 (cmpi .slt),
    StableHlo.nullary main_c_42 (constantI S_ 32 200000#32),
    StableHlo.unary main_c_42 main_v248 (broadcastInDim S400000 ![] bcast_S_S400000),
    StableHlo.binary main_arg2 main_v248 main_v249 addi,
    StableHlo.ternary main_v247 main_v249 main_arg2 main_v250 select,
    StableHlo.unary main_v250 main_v251 (broadcastInDim S400000x1 ![0] bcast_S400000_S400000x1_0),
    StableHlo.binary main_v236 main_v251 main_v252 (fun x i => Host.gather gather_S200000x128_S400000x1_S400000x128_1_0_n_n_0_1_1128 x i),
    StableHlo.binary main_v252 main_v245 main_v253 addf,
    StableHlo.nullary main_cst_43 (constant S_ .f32 0x00000000#32),
    StableHlo.unary main_cst_43 main_v254 (broadcastInDim S200000x128 ![] bcast_S_S200000x128),
    StableHlo.unary main_arg3 main_v255 (broadcastInDim S400000x1 ![0] bcast_S400000_S400000x1_0),
    StableHlo.ternary main_v254 main_v255 main_v253 main_v256 (fun x i u => Host.scatterAdd scatter_S200000x128_S400000x1_S400000x128_1_0_0_1 x i u),
    StableHlo.binary main_v236 main_v256 main_v257 addf,
    StableHlo.unary main_v12 main_v258 (broadcastInDim S200000x1 ![0] bcast_S200000_S200000x1_0),
    StableHlo.unary main_v258 main_v259 (broadcastInDim S200000x128 ![0, 1] bcast_S200000x1_S200000x128_0_1),
    StableHlo.binary main_v257 main_v259 main_v260 Host.divf,
    StableHlo.unary main_arg7 main_v261 (extractStridedSlice S1x128x128 ![4, 0, 0] · slices_S5x128x128_S1x128x128_4_0_0),
    StableHlo.reshape main_v261 main_v262 rfl shapeCasts_S1x128x128_S128x128,
    StableHlo.binary main_v260 main_v262 main_v263 (fun l r => Host.dotGeneral dot_S200000x128_S128x128_S200000x128_1_0_0_1_n_n none l r),
    StableHlo.unary main_arg8 main_v264 (extractStridedSlice S1x128 ![4, 0] · slices_S5x128_S1x128_4_0),
    StableHlo.reshape main_v264 main_v265 rfl shapeCasts_S1x128_S128,
    StableHlo.unary main_v265 main_v266 (broadcastInDim S1x128 ![1] bcast_S128_S1x128_1),
    StableHlo.unary main_v266 main_v267 (broadcastInDim S200000x128 ![0, 1] bcast_S1x128_S200000x128_0_1),
    StableHlo.binary main_v263 main_v267 main_v268 addf,
    StableHlo.nullary main_cst_44 (constant S_ .f32 0x00000000#32),
    StableHlo.binary main_v268 main_cst_44 main_v269 (fun x v => Host.reduceAdd x v reducesTo_S200000x128_S128_d0 h_S_),
    StableHlo.nullary main_cst_45 (constant S_ .f32 0x48435000#32),
    StableHlo.unary main_cst_45 main_v270 (broadcastInDim S128 ![] bcast_S_S128),
    StableHlo.binary main_v269 main_v270 main_v271 Host.divf,
    StableHlo.nullary main_c_46 (constantI S_ 32 0#32),
    StableHlo.TRef.nullary main_call8.cst (constant S_ .f32 0x00000000#32),
    StableHlo.TRef.binary (.of main_v268) main_call8.cst main_call8.v0 (fun x v => Host.reduceAdd x v reducesTo_S200000x128_S128_d0 h_S_),
    StableHlo.TRef.unary main_call8.v0 main_call8.v1 (broadcastInDim S1x128 ![1] bcast_S128_S1x128_1),
    StableHlo.TRef.nullary main_call8.cst_0 (constant S_ .f32 0x48435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S200000x128 ![0, 1] bcast_S1x128_S200000x128_0_1),
    StableHlo.TRef.binary (.of main_v268) main_call8.v4 main_call8.v5 subf,
    StableHlo.TRef.binary main_call8.v5 main_call8.v5 main_call8.v6 mulf,
    StableHlo.TRef.unary (.of main_c_46) main_call8.v7 (sitofp .f32),
    StableHlo.TRef.nullary main_call8.cst_1 (constant S_ .f32 0x48435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S200000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v271 main_v273 (broadcastInDim S1x128 ![1] bcast_S128_S1x128_1),
    StableHlo.unary main_v273 main_v274 (broadcastInDim S200000x128 ![0, 1] bcast_S1x128_S200000x128_0_1),
    StableHlo.binary main_v268 main_v274 main_v275 subf,
    StableHlo.nullary main_cst_47 (constant S_ .f32 0x3727C5AC#32),
    StableHlo.unary main_cst_47 main_v276 (broadcastInDim S128 ![] bcast_S_S128),
    StableHlo.binary main_v272 main_v276 main_v277 addf,
    StableHlo.unary main_v277 main_v278 Host.rsqrt,
    StableHlo.unary main_v278 main_v279 (broadcastInDim S1x128 ![1] bcast_S128_S1x128_1),
    StableHlo.unary main_v279 main_v280 (broadcastInDim S200000x128 ![0, 1] bcast_S1x128_S200000x128_0_1),
    StableHlo.binary main_v275 main_v280 main_v281 mulf,
    StableHlo.unary main_arg9 main_v282 (extractStridedSlice S1x128 ![4, 0] · slices_S5x128_S1x128_4_0),
    StableHlo.reshape main_v282 main_v283 rfl shapeCasts_S1x128_S128,
    StableHlo.unary main_v283 main_v284 (broadcastInDim S1x128 ![1] bcast_S128_S1x128_1),
    StableHlo.unary main_v284 main_v285 (broadcastInDim S200000x128 ![0, 1] bcast_S1x128_S200000x128_0_1),
    StableHlo.binary main_v281 main_v285 main_v286 mulf,
    StableHlo.unary main_arg10 main_v287 (extractStridedSlice S1x128 ![4, 0] · slices_S5x128_S1x128_4_0),
    StableHlo.reshape main_v287 main_v288 rfl shapeCasts_S1x128_S128,
    StableHlo.unary main_v288 main_v289 (broadcastInDim S1x128 ![1] bcast_S128_S1x128_1),
    StableHlo.unary main_v289 main_v290 (broadcastInDim S200000x128 ![0, 1] bcast_S1x128_S200000x128_0_1),
    StableHlo.binary main_v286 main_v290 main_v291 addf,
    StableHlo.TRef.nullary main_call9.cst (constant S_ .f32 0x00000000#32),
    StableHlo.TRef.unary main_call9.cst main_call9.v0 (broadcastInDim S200000x128 ![] bcast_S_S200000x128),
    StableHlo.TRef.binary (.of main_v291) main_call9.v0 main_call9.v1 maximumf ]

abbrev opsE : List (HloOp τ sig (Elt F)) :=
  [ StableHlo.nullary main_cst_48 (constant S_ .f32 0x3F800000#32),
    StableHlo.unary main_cst_48 main_v293 (broadcastInDim S200000 ![] bcast_S_S200000),
    StableHlo.nullary main_cst_49 (constant S_ .f32 0x00000000#32),
    StableHlo.unary main_cst_49 main_v294 (broadcastInDim S1000 ![] bcast_S_S1000),
    StableHlo.unary main_arg4 main_v295 (broadcastInDim S200000x1 ![0] bcast_S200000_S200000x1_0),
    StableHlo.ternary main_v294 main_v295 main_v293 main_v296 (fun x i u => Host.scatterAdd scatter_S1000_S200000x1_S200000_n_0_0_1 x i u),
    StableHlo.nullary main_cst_50 (constant S_ .f32 0x00000000#32),
    StableHlo.unary main_cst_50 main_v297 (broadcastInDim S1000x128 ![] bcast_S_S1000x128),
    StableHlo.unary main_arg4 main_v298 (broadcastInDim S200000x1 ![0] bcast_S200000_S200000x1_0),
    StableHlo.ternary main_v297 main_v298 main_v292 main_v299 (fun x i u => Host.scatterAdd scatter_S1000x128_S200000x1_S200000x128_1_0_0_1 x i u),
    StableHlo.nullary main_cst_51 (constant S_ .f32 0x3F800000#32),
    StableHlo.unary main_cst_51 main_v300 (broadcastInDim S1000 ![] bcast_S_S1000),
    StableHlo.binary main_v296 main_v300 main_v301 maximumf,
    StableHlo.unary main_v301 main_v302 (broadcastInDim S1000x1 ![0] bcast_S1000_S1000x1_0),
    StableHlo.unary main_v302 main_v303 (broadcastInDim S1000x128 ![0, 1] bcast_S1000x1_S1000x128_0_1),
    StableHlo.binary main_v299 main_v303 main_v304 Host.divf,
    StableHlo.binary main_v304 main_arg11 main_v305 (fun l r => Host.dotGeneral dot_S1000x128_S128x128_S1000x128_1_0_0_1_n_n none l r),
    StableHlo.unary main_arg12 main_v306 (broadcastInDim S1x128 ![1] bcast_S128_S1x128_1),
    StableHlo.unary main_v306 main_v307 (broadcastInDim S1000x128 ![0, 1] bcast_S1x128_S1000x128_0_1),
    StableHlo.binary main_v305 main_v307 main_v308 addf,
    StableHlo.TRef.nullary main_call10.cst (constant S_ .f32 0x00000000#32),
    StableHlo.TRef.unary main_call10.cst main_call10.v0 (broadcastInDim S1000x128 ![] bcast_S_S1000x128),
    StableHlo.TRef.binary (.of main_v308) main_call10.v0 main_call10.v1 maximumf,
    StableHlo.binary main_v309 main_arg13 main_v310 (fun l r => Host.dotGeneral dot_S1000x128_S128x128_S1000x128_1_0_0_1_n_n none l r),
    StableHlo.unary main_arg14 main_v311 (broadcastInDim S1x128 ![1] bcast_S128_S1x128_1),
    StableHlo.unary main_v311 main_v312 (broadcastInDim S1000x128 ![0, 1] bcast_S1x128_S1000x128_0_1),
    StableHlo.binary main_v310 main_v312 main_v313 addf ]

abbrev ops : List (HloOp τ sig (Elt F)) := opsP ++ opsL0 ++ opsL1 ++ opsL2 ++ opsL3 ++ opsL4 ++ opsE

end Cert.ReferenceIdeal.Hand

end
-- ==== Proof.Ref.Run.lean ====
import proofs.«123582_j22084721836889_2_alg».proof.Proof.Ref.Ops
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in

theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

theorem opsP_sub : (opsP : List (HloOp τ sig (Elt F))).Forall fun op => op.bufs ⊆ tcRefs τ sig := by
  simp only [List.Forall, nullary_bufs_sub, unary_bufs_sub, binary_bufs_sub, ternary_bufs_sub, reshape_bufs_sub, and_self]

theorem opsL0_sub : (opsL0 : List (HloOp τ sig (Elt F))).Forall fun op => op.bufs ⊆ tcRefs τ sig := by
  simp only [List.Forall, nullary_bufs_sub, unary_bufs_sub, binary_bufs_sub, ternary_bufs_sub, reshape_bufs_sub, and_self]

theorem opsL1_sub : (opsL1 : List (HloOp τ sig (Elt F))).Forall fun op => op.bufs ⊆ tcRefs τ sig := by
  simp only [List.Forall, nullary_bufs_sub, unary_bufs_sub, binary_bufs_sub, ternary_bufs_sub, reshape_bufs_sub, and_self]

theorem opsL2_sub : (opsL2 : List (HloOp τ sig (Elt F))).Forall fun op => op.bufs ⊆ tcRefs τ sig := by
  simp only [List.Forall, nullary_bufs_sub, unary_bufs_sub, binary_bufs_sub, ternary_bufs_sub, reshape_bufs_sub, and_self]

theorem opsL3_sub : (opsL3 : List (HloOp τ sig (Elt F))).Forall fun op => op.bufs ⊆ tcRefs τ sig := by
  simp only [List.Forall, nullary_bufs_sub, unary_bufs_sub, binary_bufs_sub, ternary_bufs_sub, reshape_bufs_sub, and_self]

theorem opsL4_sub : (opsL4 : List (HloOp τ sig (Elt F))).Forall fun op => op.bufs ⊆ tcRefs τ sig := by
  simp only [List.Forall, nullary_bufs_sub, unary_bufs_sub, binary_bufs_sub, ternary_bufs_sub, reshape_bufs_sub, and_self]

theorem opsE_sub : (opsE : List (HloOp τ sig (Elt F))).Forall fun op => op.bufs ⊆ tcRefs τ sig := by
  simp only [List.Forall, nullary_bufs_sub, unary_bufs_sub, binary_bufs_sub, ternary_bufs_sub, reshape_bufs_sub, and_self]

theorem ops_sub : (ops : List (HloOp τ sig (Elt F))).Forall fun op => op.bufs ⊆ tcRefs τ sig :=
  List.forall_append.mpr ⟨List.forall_append.mpr ⟨List.forall_append.mpr ⟨List.forall_append.mpr ⟨List.forall_append.mpr
    ⟨List.forall_append.mpr ⟨opsP_sub, opsL0_sub⟩, opsL1_sub⟩, opsL2_sub⟩, opsL3_sub⟩, opsL4_sub⟩, opsE_sub⟩

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem after_append (a b : List (HloOp τ sig (Elt F))) (V : Valuation τ sig (Elt F)) : after (a ++ b) V = after b (after a V) := by
  induction a generalizing V with
  | nil => rfl
  | cons op a ih => exact ih (op.result V)

theorem after_ops (V : Valuation τ sig (Elt F)) :
    after ops V = after opsE (after opsL4 (after opsL3 (after opsL2 (after opsL1 (after opsL0 (after opsP V)))))) := by
  simp only [ops, after_append]

abbrev opsP_W : List (Ref sig .tc) := [main_c, main_v0, main_v1, main_c_0, main_v2, main_v3, main_v4, main_v5, main_v6, main_cst, main_v7, main_cst_1, main_v8, main_v9, main_v10, main_cst_2, main_v11, main_v12]
theorem opsP_writes : (opsP : List (HloOp τ sig (Elt F))).Forall fun op => op.writes ⊆ (opsP_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsL0_W : List (Ref sig .tc) := [main_v13, main_v14, main_c_3, main_v15, main_v16, main_c_4, main_v17, main_v18, main_v19, main_v20, main_v21, main_c_5, main_v22, main_v23, main_c_6, main_v24, main_v25, main_v26, main_v27, main_v28, main_v29, main_cst_7, main_v30, main_v31, main_v32, main_v33, main_v34, main_v35, main_v36, main_v37, main_v38, main_v39, main_v40, main_v41, main_v42, main_v43, main_v44, main_cst_8, main_v45, main_cst_9, main_v46, main_v47, main_c_10, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v49, main_v50, main_v51, main_cst_11, main_v52, main_v53, main_v54, main_v55, main_v56, main_v57, main_v58, main_v59, main_v60, main_v61, main_v62, main_v63, main_v64, main_v65, main_v66, main_v67, main_call1.cst.ref, main_call1.v0.ref, main_call1.v1.ref]
theorem opsL0_writes : (opsL0 : List (HloOp τ sig (Elt F))).Forall fun op => op.writes ⊆ (opsL0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsL1_W : List (Ref sig .tc) := [main_v69, main_v70, main_c_12, main_v71, main_v72, main_c_13, main_v73, main_v74, main_v75, main_v76, main_v77, main_c_14, main_v78, main_v79, main_c_15, main_v80, main_v81, main_v82, main_v83, main_v84, main_v85, main_cst_16, main_v86, main_v87, main_v88, main_v89, main_v90, main_v91, main_v92, main_v93, main_v94, main_v95, main_v96, main_v97, main_v98, main_v99, main_v100, main_cst_17, main_v101, main_cst_18, main_v102, main_v103, main_c_19, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v105, main_v106, main_v107, main_cst_20, main_v108, main_v109, main_v110, main_v111, main_v112, main_v113, main_v114, main_v115, main_v116, main_v117, main_v118, main_v119, main_v120, main_v121, main_v122, main_v123, main_call3.cst.ref, main_call3.v0.ref, main_call3.v1.ref]
theorem opsL1_writes : (opsL1 : List (HloOp τ sig (Elt F))).Forall fun op => op.writes ⊆ (opsL1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsL2_W : List (Ref sig .tc) := [main_v125, main_v126, main_c_21, main_v127, main_v128, main_c_22, main_v129, main_v130, main_v131, main_v132, main_v133, main_c_23, main_v134, main_v135, main_c_24, main_v136, main_v137, main_v138, main_v139, main_v140, main_v141, main_cst_25, main_v142, main_v143, main_v144, main_v145, main_v146, main_v147, main_v148, main_v149, main_v150, main_v151, main_v152, main_v153, main_v154, main_v155, main_v156, main_cst_26, main_v157, main_cst_27, main_v158, main_v159, main_c_28, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v161, main_v162, main_v163, main_cst_29, main_v164, main_v165, main_v166, main_v167, main_v168, main_v169, main_v170, main_v171, main_v172, main_v173, main_v174, main_v175, main_v176, main_v177, main_v178, main_v179, main_call5.cst.ref, main_call5.v0.ref, main_call5.v1.ref]
theorem opsL2_writes : (opsL2 : List (HloOp τ sig (Elt F))).Forall fun op => op.writes ⊆ (opsL2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsL3_W : List (Ref sig .tc) := [main_v181, main_v182, main_c_30, main_v183, main_v184, main_c_31, main_v185, main_v186, main_v187, main_v188, main_v189, main_c_32, main_v190, main_v191, main_c_33, main_v192, main_v193, main_v194, main_v195, main_v196, main_v197, main_cst_34, main_v198, main_v199, main_v200, main_v201, main_v202, main_v203, main_v204, main_v205, main_v206, main_v207, main_v208, main_v209, main_v210, main_v211, main_v212, main_cst_35, main_v213, main_cst_36, main_v214, main_v215, main_c_37, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v217, main_v218, main_v219, main_cst_38, main_v220, main_v221, main_v222, main_v223, main_v224, main_v225, main_v226, main_v227, main_v228, main_v229, main_v230, main_v231, main_v232, main_v233, main_v234, main_v235, main_call7.cst.ref, main_call7.v0.ref, main_call7.v1.ref]
theorem opsL3_writes : (opsL3 : List (HloOp τ sig (Elt F))).Forall fun op => op.writes ⊆ (opsL3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsL4_W : List (Ref sig .tc) := [main_v237, main_v238, main_c_39, main_v239, main_v240, main_c_40, main_v241, main_v242, main_v243, main_v244, main_v245, main_c_41, main_v246, main_v247, main_c_42, main_v248, main_v249, main_v250, main_v251, main_v252, main_v253, main_cst_43, main_v254, main_v255, main_v256, main_v257, main_v258, main_v259, main_v260, main_v261, main_v262, main_v263, main_v264, main_v265, main_v266, main_v267, main_v268, main_cst_44, main_v269, main_cst_45, main_v270, main_v271, main_c_46, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref, main_v273, main_v274, main_v275, main_cst_47, main_v276, main_v277, main_v278, main_v279, main_v280, main_v281, main_v282, main_v283, main_v284, main_v285, main_v286, main_v287, main_v288, main_v289, main_v290, main_v291, main_call9.cst.ref, main_call9.v0.ref, main_call9.v1.ref]
theorem opsL4_writes : (opsL4 : List (HloOp τ sig (Elt F))).Forall fun op => op.writes ⊆ (opsL4_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsE_W : List (Ref sig .tc) := [main_cst_48, main_v293, main_cst_49, main_v294, main_v295, main_v296, main_cst_50, main_v297, main_v298, main_v299, main_cst_51, main_v300, main_v301, main_v302, main_v303, main_v304, main_v305, main_v306, main_v307, main_v308, main_call10.cst.ref, main_call10.v0.ref, main_call10.v1.ref, main_v310, main_v311, main_v312, main_v313]
theorem opsE_writes : (opsE : List (HloOp τ sig (Elt F))).Forall fun op => op.writes ⊆ (opsE_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem kept (V : Valuation τ sig (Elt F)) (r : Ref sig .tc) (hP : r ∉ opsP_W) (h0 : r ∉ opsL0_W) (h1 : r ∉ opsL1_W) (h2 : r ∉ opsL2_W)
    (h3 : r ∉ opsL3_W) (h4 : r ∉ opsL4_W) (hE : r ∉ opsE_W) : after ops V (Proc.devRef .tc r) = V (Proc.devRef .tc r) := by
  rw [after_ops, after_of_writes_sub opsE _ opsE_writes hE, after_of_writes_sub opsL4 _ opsL4_writes h4,
    after_of_writes_sub opsL3 _ opsL3_writes h3, after_of_writes_sub opsL2 _ opsL2_writes h2,
    after_of_writes_sub opsL1 _ opsL1_writes h1, after_of_writes_sub opsL0 _ opsL0_writes h0,
    after_of_writes_sub opsP _ opsP_writes hP]

theorem arg0_kept (V : Valuation τ sig (Elt F)) : after ops V (main_arg0 : DevRef τ sig) = V (main_arg0 : DevRef τ sig) :=
  kept V main_arg0 (by decide) (by decide) (by decide) (by decide) (by decide) (by decide) (by decide)

theorem arg1_kept (V : Valuation τ sig (Elt F)) : after ops V (main_arg1 : DevRef τ sig) = V (main_arg1 : DevRef τ sig) :=
  kept V main_arg1 (by decide) (by decide) (by decide) (by decide) (by decide) (by decide) (by decide)

theorem arg2_kept (V : Valuation τ sig (Elt F)) : after ops V (main_arg2 : DevRef τ sig) = V (main_arg2 : DevRef τ sig) :=
  kept V main_arg2 (by decide) (by decide) (by decide) (by decide) (by decide) (by decide) (by decide)

theorem arg3_kept (V : Valuation τ sig (Elt F)) : after ops V (main_arg3 : DevRef τ sig) = V (main_arg3 : DevRef τ sig) :=
  kept V main_arg3 (by decide) (by decide) (by decide) (by decide) (by decide) (by decide) (by decide)

theorem arg4_kept (V : Valuation τ sig (Elt F)) : after ops V (main_arg4 : DevRef τ sig) = V (main_arg4 : DevRef τ sig) :=
  kept V main_arg4 (by decide) (by decide) (by decide) (by decide) (by decide) (by decide) (by decide)

theorem arg5_kept (V : Valuation τ sig (Elt F)) : after ops V (main_arg5 : DevRef τ sig) = V (main_arg5 : DevRef τ sig) :=
  kept V main_arg5 (by decide) (by decide) (by decide) (by decide) (by decide) (by decide) (by decide)

theorem arg6_kept (V : Valuation τ sig (Elt F)) : after ops V (main_arg6 : DevRef τ sig) = V (main_arg6 : DevRef τ sig) :=
  kept V main_arg6 (by decide) (by decide) (by decide) (by decide) (by decide) (by decide) (by decide)

theorem arg7_kept (V : Valuation τ sig (Elt F)) : after ops V (main_arg7 : DevRef τ sig) = V (main_arg7 : DevRef τ sig) :=
  kept V main_arg7 (by decide) (by decide) (by decide) (by decide) (by decide) (by decide) (by decide)

theorem arg8_kept (V : Valuation τ sig (Elt F)) : after ops V (main_arg8 : DevRef τ sig) = V (main_arg8 : DevRef τ sig) :=
  kept V main_arg8 (by decide) (by decide) (by decide) (by decide) (by decide) (by decide) (by decide)

theorem arg9_kept (V : Valuation τ sig (Elt F)) : after ops V (main_arg9 : DevRef τ sig) = V (main_arg9 : DevRef τ sig) :=
  kept V main_arg9 (by decide) (by decide) (by decide) (by decide) (by decide) (by decide) (by decide)

theorem arg10_kept (V : Valuation τ sig (Elt F)) : after ops V (main_arg10 : DevRef τ sig) = V (main_arg10 : DevRef τ sig) :=
  kept V main_arg10 (by decide) (by decide) (by decide) (by decide) (by decide) (by decide) (by decide)

theorem arg11_kept (V : Valuation τ sig (Elt F)) : after ops V (main_arg11 : DevRef τ sig) = V (main_arg11 : DevRef τ sig) :=
  kept V main_arg11 (by decide) (by decide) (by decide) (by decide) (by decide) (by decide) (by decide)

theorem arg12_kept (V : Valuation τ sig (Elt F)) : after ops V (main_arg12 : DevRef τ sig) = V (main_arg12 : DevRef τ sig) :=
  kept V main_arg12 (by decide) (by decide) (by decide) (by decide) (by decide) (by decide) (by decide)

theorem arg13_kept (V : Valuation τ sig (Elt F)) : after ops V (main_arg13 : DevRef τ sig) = V (main_arg13 : DevRef τ sig) :=
  kept V main_arg13 (by decide) (by decide) (by decide) (by decide) (by decide) (by decide) (by decide)

theorem arg14_kept (V : Valuation τ sig (Elt F)) : after ops V (main_arg14 : DevRef τ sig) = V (main_arg14 : DevRef τ sig) :=
  kept V main_arg14 (by decide) (by decide) (by decide) (by decide) (by decide) (by decide) (by decide)

end Cert.ReferenceIdeal.Hand

end
-- ==== Proof.Ref.ReadLib.lean ====
import proofs.«123582_j22084721836889_2_alg».proof.Proof.Ref.Run
import proofs.«123582_j22084721836889_2_alg».proof.Proof.Math.Spec
import proofs.«123582_j22084721836889_2_alg».proof.Proof.Math.HostRead
import Idealize.ShloMosaic.Lib.ValueIdx
import Idealize.ShloMosaic.Lib.IdealHost
import Idealize.ShloMosaic.Lib.ValueLayout
import Idealize.ShloMosaic.Lib.Pipeline.Value
import Idealize.ShloMosaic.Lib.KernelVsHost
import Idealize.ShloMosaic.PureOps.Ideal.Laws

noncomputable section

namespace Cert.ReferenceIdeal.Val

open Cert.ReferenceIdeal Cert.ReferenceIdeal.Gen Cert.ReferenceIdeal.Hand Idealize.ShloMosaic Idealize.ShloMosaic.TcCoe
  Idealize.SL.Sem Idealize.ShloMosaic.StableHlo Idealize.ShloMosaic.ValueIdx
open scoped BigOperators
open Cert.Hand.HostRead

theorem bc_n_1n_apply {α : Type} {n : ℕ} (h : (⟨1, ![n]⟩ : Shape).BroadcastsInDim ⟨2, ![1, n]⟩ ![1])
    (v : (⟨1, ![n]⟩ : Shape).Idx → α) (a : Fin 1) (q : Fin n) :
    broadcastInDim ⟨2, ![1, n]⟩ ![1] h v (ix2 a q) = v (ix1 q) := by
  refine broadcastInDim_apply ![1] h v (ix2 a q) (ix1 q) ?_
  intro b
  obtain rfl : b = 0 := Subsingleton.elim _ _
  show q.val = if n = 1 then 0 else q.val
  split_ifs with hn
  · have := q.isLt; omega
  · rfl

theorem bc_row_apply {α : Type} {m n : ℕ} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (p : Fin m) (q : Fin n) :
    broadcastInDim ⟨2, ![m, n]⟩ ![0, 1] h2 (broadcastInDim ⟨2, ![1, n]⟩ ![1] h1 v) (ix2 p q) = v (ix1 q) := by
  rw [broadcastInDim_oneRow_apply, bc_n_1n_apply]

theorem row_apply {α : Type} {R n : ℕ} (l : ℕ) (hl : l < R) (X : (⟨2, ![R, n]⟩ : Shape).Idx → α)
    (hs : (⟨2, ![R, n]⟩ : Shape).Slices ![l, 0] ⟨2, ![1, n]⟩) (hc : (⟨2, ![1, n]⟩ : Shape).ShapeCasts ⟨1, ![n]⟩) (q : Fin n) :
    shapeCast ⟨1, ![n]⟩ (extractStridedSlice ⟨2, ![1, n]⟩ ![l, 0] X hs) hc (ix1 q) = X (ix2 ⟨l, hl⟩ q) := by
  rw [shapeCast_1a_a_apply, slice2_axis0_apply l X hs 0 q ⟨l, hl⟩ (by simp)]

abbrev Vl := Valuation τ sig (Elt Ideal)

abbrev bcRows (v : FVec Ideal S128 .f32) : FVec Ideal S200000x128 .f32 :=
  broadcastInDim S200000x128 ![0, 1] bcast_S1x128_S200000x128_0_1 (broadcastInDim S1x128 ![1] bcast_S128_S1x128_1 v)

theorem bcRows_apply (v : FVec Ideal S128 .f32) (p : Fin 200000) (q : Fin 128) : bcRows v (ix2 p q) = v (ix1 q) :=
  bc_row_apply _ _ v p q

abbrev row5 (l : ℕ) (hs : S5x128.Slices ![l, 0] S1x128) (X : FVec Ideal S5x128 .f32) : FVec Ideal S128 .f32 :=
  shapeCast S128 (extractStridedSlice S1x128 ![l, 0] X hs) shapeCasts_S1x128_S128

theorem row5_apply (l : ℕ) (hl : l < 5) (hs : S5x128.Slices ![l, 0] S1x128) (X : FVec Ideal S5x128 .f32) (q : Fin 128) :
    row5 l hs X (ix1 q) = X (ix2 ⟨l, hl⟩ q) :=
  row_apply l hl X hs _ q

theorem hostRsqrt_apply {s : Shape} {φ : FTy} (x : FVec Ideal s φ) (i : s.Idx) : Host.rsqrt x i = Ideal.rsqrt (x i) := rfl

abbrev splat (T : Shape) (h : S_.BroadcastsInDim T ![]) (w : BitVec 32) : FVec Ideal T .f32 :=
  broadcastInDim T ![] h (constant S_ .f32 w)

theorem splat_apply (T : Shape) (h : S_.BroadcastsInDim T ![]) (w : BitVec 32) (j : T.Idx) :
    splat T h w j = Ideal.ofBits .f32 w := by
  unfold splat; rw [broadcastInDim_scalar_apply, constant_apply]

theorem ofBits_cN : Ideal.ofBits .f32 0x48435000#32 = Cert.Spec.cN := ofBits_N

abbrev sumRows (X : FVec Ideal S200000x128 .f32) : FVec Ideal S128 .f32 :=
  Host.reduceAdd X (constant S_ .f32 0x00000000#32) reducesTo_S200000x128_S128_d0 h_S_

theorem sumRows_apply (X : FVec Ideal S200000x128 .f32) (x : Fin 200000 → Fin 128 → EReal)
    (hx : ∀ p q, X (ix2 p q) = x p q) (q : Fin 128) : sumRows X (ix1 q) = ∑ n : Fin 200000, x n q := by
  unfold sumRows
  rw [hostReduceAdd_apply, Ideal.hostReduceAdd_single reducesTo_S200000x128_S128_d0 (by decide), constant_apply,
    Ideal.ofBits_zero_f32, zero_add]
  refine Finset.sum_congr rfl fun n _ => ?_
  refine (congrArg X ?_).trans (hx n q)
  funext a
  match a with
  | ⟨0, _⟩ => rfl
  | ⟨1, _⟩ => rfl

abbrev centred (X : FVec Ideal S200000x128 .f32) : FVec Ideal S200000x128 .f32 :=
  subf X (broadcastInDim S200000x128 ![0, 1] bcast_S1x128_S200000x128_0_1
    (Host.divf (broadcastInDim S1x128 ![1] bcast_S128_S1x128_1 (sumRows X)) (splat S1x128 bcast_S_S1x128 0x48435000#32)))

theorem centred_apply (X : FVec Ideal S200000x128 .f32) (x : Fin 200000 → Fin 128 → EReal)
    (hx : ∀ p q, X (ix2 p q) = x p q) (p : Fin 200000) (q : Fin 128) :
    centred X (ix2 p q) = x p q - Cert.Spec.rmean x q := by
  unfold centred
  rw [subf_apply, broadcastInDim_oneRow_apply, hostDivf_apply, bc_n_1n_apply, sumRows_apply X x hx, splat_apply, ofBits_cN, hx]
  rfl

abbrev dofW : FVec Ideal S_ .f32 := subf (constant S_ .f32 0x48435000#32) (sitofp .f32 (constantI S_ 32 0#32))

theorem dofW_val : dofW ix0 = Cert.Spec.cN := by
  unfold dofW
  rw [subf_apply, constant_apply, ofBits_cN, sitofp_apply, constantI_apply]
  show Cert.Spec.cN - (Scalar.sitofp .f32 0#32 : Ideal .f32) = _
  rw [sitofp_zero, sub_zero]

theorem bc_col_apply {α : Type} {m n : ℕ} (h1 : (⟨1, ![m]⟩ : Shape).BroadcastsInDim ⟨2, ![m, 1]⟩ ![0])
    (h2 : (⟨2, ![m, 1]⟩ : Shape).BroadcastsInDim ⟨2, ![m, n]⟩ ![0, 1]) (v : (⟨1, ![m]⟩ : Shape).Idx → α) (p : Fin m) (q : Fin n) :
    broadcastInDim ⟨2, ![m, n]⟩ ![0, 1] h2 (broadcastInDim ⟨2, ![m, 1]⟩ ![0] h1 v) (ix2 p q) = v (ix1 p) := by
  rw [broadcastInDim_apply ![0, 1] h2 _ (ix2 p q) (ix2 p (0 : Fin 1)) (fun a => by
    fin_cases a
    · show p.val = if m = 1 then 0 else p.val
      split_ifs with hm
      · have := p.isLt; omega
      · rfl
    · show (0 : ℕ) = if (1 : ℕ) = 1 then 0 else _
      simp)]
  exact bcast_col_apply h1 v p 0

theorem slab_apply {α : Type} {R a b : ℕ} (l : ℕ) (hl : l < R) (X : (⟨3, ![R, a, b]⟩ : Shape).Idx → α)
    (hs : (⟨3, ![R, a, b]⟩ : Shape).Slices ![l, 0, 0] ⟨3, ![1, a, b]⟩) (hc : (⟨3, ![1, a, b]⟩ : Shape).ShapeCasts ⟨2, ![a, b]⟩)
    (i : Fin a) (j : Fin b) :
    shapeCast ⟨2, ![a, b]⟩ (extractStridedSlice ⟨3, ![1, a, b]⟩ ![l, 0, 0] X hs) hc (ix2 i j) = X (ix3 ⟨l, hl⟩ i j) := by
  rw [shapeCast_1ab_ab_apply]
  refine extractStridedSlice_apply _ X hs _ (ix3 ⟨l, hl⟩ i j) fun ax => ?_
  match ax with
  | ⟨0, _⟩ => rfl
  | ⟨1, _⟩ => exact (Nat.zero_add _).symm
  | ⟨2, _⟩ => exact (Nat.zero_add _).symm

theorem dot_apply (lhs : FVec Ideal S200000x128 .f32) (rhs : FVec Ideal S128x128 .f32) (p : Fin 200000) (q : Fin 128) :
    Host.dotGeneral dot_S200000x128_S128x128_S200000x128_1_0_0_1_n_n none lhs rhs (ix2 p q)
      = ∑ k : Fin 128, lhs (ix2 p k) * rhs (ix2 k q) := by
  simp only [Host.dotGeneral]
  rw [Ideal.dotGeneral_apply]
  refine (Equiv.sum_comp (contrEquiv1 dot_S200000x128_S128x128_S200000x128_1_0_0_1_n_n 128 rfl rfl).symm _).symm.trans ?_
  refine Finset.sum_congr rfl fun k _ => ?_
  congr 1
  · refine congrArg lhs (funext fun a => ?_)
    match a with
    | ⟨0, _⟩ => rfl
    | ⟨1, _⟩ => rfl
  · refine congrArg rhs (funext fun a => ?_)
    match a with
    | ⟨0, _⟩ => rfl
    | ⟨1, _⟩ => rfl

abbrev embT (l : ℕ) (hs : S5x5x128.Slices ![l, 0, 0] S1x5x128) (X : FVec Ideal S5x5x128 .f32) : FVec Ideal S5x128 .f32 :=
  shapeCast S5x128 (extractStridedSlice S1x5x128 ![l, 0, 0] X hs) shapeCasts_S1x5x128_S5x128

theorem embT_apply (l : ℕ) (hl : l < 5) (hs : S5x5x128.Slices ![l, 0, 0] S1x5x128) (X : FVec Ideal S5x5x128 .f32)
    (v : Fin 5) (k : Fin 128) : embT l hs X (ix2 v k) = X (ix3 ⟨l, hl⟩ v k) :=
  slab_apply l hl X hs _ v k

abbrev wts (l : ℕ) (hs : S5x128x128.Slices ![l, 0, 0] S1x128x128) (X : FVec Ideal S5x128x128 .f32) : FVec Ideal S128x128 .f32 :=
  shapeCast S128x128 (extractStridedSlice S1x128x128 ![l, 0, 0] X hs) shapeCasts_S1x128x128_S128x128

theorem wts_apply (l : ℕ) (hl : l < 5) (hs : S5x128x128.Slices ![l, 0, 0] S1x128x128) (X : FVec Ideal S5x128x128 .f32)
    (k q : Fin 128) : wts l hs X (ix2 k q) = X (ix3 ⟨l, hl⟩ k q) :=
  slab_apply l hl X hs _ k q

abbrev wrapCol (n : BitVec 32) (src : IVec S400000 32) : IVec S400000x1 32 :=
  broadcastInDim S400000x1 ![0] bcast_S400000_S400000x1_0
    (select (cmpi .slt src (broadcastInDim S400000 ![] bcast_S_S400000 (constantI S_ 32 0#32)))
      (addi src (broadcastInDim S400000 ![] bcast_S_S400000 (constantI S_ 32 n))) src)

end Cert.ReferenceIdeal.Val

end
-- ==== Proof.Ref.ReadP.lean ====
import proofs.«123582_j22084721836889_2_alg».proof.Proof.Ref.Run
import proofs.«123582_j22084721836889_2_alg».proof.Proof.Math.Spec
import proofs.«123582_j22084721836889_2_alg».proof.Proof.Math.HostRead
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 2280

noncomputable section

namespace Cert.ReferenceIdeal.Val

open Idealize.ShloMosaic Idealize.ShloMosaic.TcCoe Idealize.ShloMosaic.ValueIdx
open Cert.ReferenceIdeal Cert.ReferenceIdeal.Gen Cert.ReferenceIdeal.Hand
open Cert.Hand.HostRead
open scoped BigOperators

theorem deg_term
    (ds : ScatterDims ⟨1, ![200000]⟩ ⟨2, ![400000, 1]⟩ ⟨1, ![400000]⟩) (hs : VecScatter ds)
    (hbz : (⟨0, ![]⟩ : Shape).BroadcastsInDim ⟨1, ![200000]⟩ ![])
    (hb1 : (⟨1, ![400000]⟩ : Shape).BroadcastsInDim ⟨2, ![400000, 1]⟩ ![0])
    (hbe : (⟨0, ![]⟩ : Shape).BroadcastsInDim ⟨1, ![400000]⟩ ![])
    (dst : IVec ⟨1, ![400000]⟩ 32) (p : Fin 200000) :
    addf
        (Host.scatterAdd ds
          (broadcastInDim ⟨1, ![200000]⟩ ![] hbz (constant (F := Ideal) ⟨0, ![]⟩ .f32 0x00000000#32))
          (broadcastInDim ⟨2, ![400000, 1]⟩ ![0] hb1 dst)
          (broadcastInDim ⟨1, ![400000]⟩ ![] hbe (constant (F := Ideal) ⟨0, ![]⟩ .f32 0x3F800000#32)))
        (broadcastInDim ⟨1, ![200000]⟩ ![] hbz (constant (F := Ideal) ⟨0, ![]⟩ .f32 0x3F800000#32)) (ix1 p)
      = Cert.Spec.deg (tgOf 200000 dst) p := by
  have hone : ∀ e : Fin 400000,
      broadcastInDim ⟨1, ![400000]⟩ ![] hbe (constant (F := Ideal) ⟨0, ![]⟩ .f32 0x3F800000#32) (ix1 e) = (1 : EReal) :=
    fun e => by rw [bcast_scalar_apply, constant_apply, Ideal.ofBits_one_f32]
  rw [addf_apply, scatter_deg_apply ds hs hbz hb1 dst _ p, bcast_scalar_apply, constant_apply,
    Ideal.ofBits_one_f32, Finset.sum_congr rfl (fun e _ => hone e)]
  rfl

set_option maxHeartbeats 3200000 in

theorem ref_h0 (Vin : Valuation τ sig (Elt Ideal)) (p : Fin 200000) (k : Fin 128) :
    (StableHlo.after (opsP (F := Ideal)) Vin (main_v6 : DevRef τ sig) : (⟨S200000x128, .f32⟩ : BufTy).Contents (Elt Ideal)) (ix2 p k)
      = (Vin (main_arg5 : DevRef τ sig) : (⟨S119x128, .f32⟩ : BufTy).Contents (Elt Ideal))
          (ix2 (nfOf (Vin (main_arg0 : DevRef τ sig) : (⟨S200000, .i32⟩ : BufTy).Contents (Elt Ideal)) p) k) := by
  dsimp only [opsP]
  open StableHlo in after_results_simp
  exact gather_atom_apply _ ⟨rfl, rfl, rfl, rfl, rfl, rfl, rfl⟩ _ _ _ _ p k

set_option maxHeartbeats 3200000 in

theorem ref_deg (Vin : Valuation τ sig (Elt Ideal)) (p : Fin 200000) :
    (StableHlo.after (opsP (F := Ideal)) Vin (main_v12 : DevRef τ sig) : (⟨S200000, .f32⟩ : BufTy).Contents (Elt Ideal)) (ix1 p)
      = Cert.Spec.deg (tgOf 200000 (Vin (main_arg3 : DevRef τ sig) : (⟨S400000, .i32⟩ : BufTy).Contents (Elt Ideal))) p := by
  dsimp only [opsP]
  open StableHlo in after_results_simp
  exact deg_term _ ⟨rfl, rfl, rfl, rfl⟩ _ _ _ _ p

end Cert.ReferenceIdeal.Val

end
-- ==== Proof.Ref.ReadL0.lean ====
import proofs.«123582_j22084721836889_2_alg».proof.Proof.Ref.ReadLib

noncomputable section

namespace Cert.ReferenceIdeal.Val

open Cert.ReferenceIdeal Cert.ReferenceIdeal.Gen Cert.ReferenceIdeal.Hand Idealize.ShloMosaic Idealize.ShloMosaic.TcCoe
  Idealize.SL.Sem Idealize.ShloMosaic.StableHlo Idealize.ShloMosaic.ValueIdx
open scoped BigOperators
open Cert.Hand.HostRead

theorem stageA0_arr (W : Vl) :
    after ((opsL0 (F := Ideal)).take 37) W (main_v44 : DevRef τ sig)
      = addf
          (Host.dotGeneral dot_S200000x128_S128x128_S200000x128_1_0_0_1_n_n none
            (Host.divf
              (addf (W (main_v6 : DevRef τ sig))
                (Host.scatterAdd scatter_S200000x128_S400000x1_S400000x128_1_0_0_1
                  (splat S200000x128 bcast_S_S200000x128 0x00000000#32)
                  (broadcastInDim S400000x1 ![0] bcast_S400000_S400000x1_0 (W (main_arg3 : DevRef τ sig)))
                  (addf
                    (Host.gather gather_S200000x128_S400000x1_S400000x128_1_0_n_n_0_1_1128 (W (main_v6 : DevRef τ sig))
                      (wrapCol 200000#32 (W (main_arg2 : DevRef τ sig))))
                    (Host.gather gather_S5x128_S400000x1_S400000x128_1_0_n_n_0_1_1128
                      (embT 0 slices_S5x5x128_S1x5x128_0_0_0 (W (main_arg6 : DevRef τ sig)))
                      (wrapCol 5#32 (W (main_arg1 : DevRef τ sig)))))))
              (broadcastInDim S200000x128 ![0, 1] bcast_S200000x1_S200000x128_0_1
                (broadcastInDim S200000x1 ![0] bcast_S200000_S200000x1_0 (W (main_v12 : DevRef τ sig)))))
            (wts 0 slices_S5x128x128_S1x128x128_0_0_0 (W (main_arg7 : DevRef τ sig))))
          (bcRows (row5 0 slices_S5x128_S1x128_0_0 (W (main_arg8 : DevRef τ sig)))) := by
  simp only [opsL0, List.take_succ_cons, List.take_zero]
  after_results_simp <;> rfl

set_option maxRecDepth 16384 in

theorem stageA0 (W : Vl) (h : Fin 200000 → Fin 128 → EReal) (hh : ∀ p k, W (main_v6 : DevRef τ sig) (ix2 p k) = h p k)
    (hdeg : ∀ p, W (main_v12 : DevRef τ sig) (ix1 p) = Cert.Spec.deg (tgOf 200000 (W (main_arg3 : DevRef τ sig))) p)
    (p : Fin 200000) (q : Fin 128) :
    after ((opsL0 (F := Ideal)).take 37) W (main_v44 : DevRef τ sig) (ix2 p q)
      = Cert.Spec.rlin (gsOf 200000 (W (main_arg2 : DevRef τ sig))) (tgOf 200000 (W (main_arg3 : DevRef τ sig)))
          (gsOf 5 (W (main_arg1 : DevRef τ sig))) h (fun v k => W (main_arg6 : DevRef τ sig) (ix3 0 v k))
          (fun k q => W (main_arg7 : DevRef τ sig) (ix3 0 k q)) (fun q => W (main_arg8 : DevRef τ sig) (ix2 0 q)) p q := by
  rw [stageA0_arr, addf_apply, bcRows_apply, row5_apply 0 (by omega), dot_apply]
  unfold Cert.Spec.rlin
  refine congrArg₂ (· + ·) (Finset.sum_congr rfl fun k _ => ?_) rfl
  rw [hostDivf_apply, addf_apply, hh, bc_col_apply, hdeg,
    scatter_rows_apply scatter_S200000x128_S400000x1_S400000x128_1_0_0_1 ⟨rfl, rfl, rfl, rfl⟩ bcast_S_S200000x128
      bcast_S400000_S400000x1_0 (W (main_arg3 : DevRef τ sig)) _ p k,
    wts_apply 0 (by omega)]
  refine congrArg₂ (· * ·) (congrArg₂ Ideal.div (congrArg (h p k + ·) ?_) rfl) rfl
  unfold Cert.Spec.seg
  refine Finset.sum_congr rfl fun e _ => ?_
  rw [addf_apply,
    gather_wrap_read gather_S200000x128_S400000x1_S400000x128_1_0_n_n_0_1_1128 ⟨rfl, rfl, rfl, rfl, rfl, rfl, rfl⟩
      bcast_S_S400000 bcast_S400000_S400000x1_0 _ (W (main_arg2 : DevRef τ sig)) e k,
    gather_wrap_read gather_S5x128_S400000x1_S400000x128_1_0_n_n_0_1_1128 ⟨rfl, rfl, rfl, rfl, rfl, rfl, rfl⟩
      bcast_S_S400000 bcast_S400000_S400000x1_0 _ (W (main_arg1 : DevRef τ sig)) e k,
    hh, embT_apply 0 (by omega)]
  rfl

theorem stageB0_mean_arr (W : Vl) :
    after (((opsL0 (F := Ideal)).drop 37).take 28) W (main_v47 : DevRef τ sig)
      = Host.divf (sumRows (W (main_v44 : DevRef τ sig))) (splat S128 bcast_S_S128 0x48435000#32) := by
  simp only [opsL0, List.drop_succ_cons, List.drop_zero, List.take_succ_cons, List.take_zero]
  after_results_simp <;> rfl

theorem stageB0_var_arr (W : Vl) :
    after (((opsL0 (F := Ideal)).drop 37).take 28) W (main_v48 : DevRef τ sig)
      = select (broadcastInDim S128 ![] bcast_S_S128 (cmpf .ogt dofW (constant S_ .f32 0x00000000#32)))
          (Host.divf
            (sumRows (mulf (centred (W (main_v44 : DevRef τ sig))) (centred (W (main_v44 : DevRef τ sig)))))
            (broadcastInDim S128 ![] bcast_S_S128 dofW))
          (splat S128 bcast_S_S128 0x7FC00000#32) := by
  simp only [opsL0, List.drop_succ_cons, List.drop_zero, List.take_succ_cons, List.take_zero]
  after_results_simp <;> rfl

theorem stageB0_keeps (W : Vl) :
    after (((opsL0 (F := Ideal)).drop 37).take 28) W (main_v44 : DevRef τ sig) = W (main_v44 : DevRef τ sig)
    ∧ after (((opsL0 (F := Ideal)).drop 37).take 28) W (main_arg9 : DevRef τ sig) = W (main_arg9 : DevRef τ sig)
    ∧ after (((opsL0 (F := Ideal)).drop 37).take 28) W (main_arg10 : DevRef τ sig) = W (main_arg10 : DevRef τ sig) := by
  simp only [opsL0, List.drop_succ_cons, List.drop_zero, List.take_succ_cons, List.take_zero]
  refine ⟨?_, ?_, ?_⟩ <;> after_results_simp

theorem stageB0_mean (W : Vl) (x : Fin 200000 → Fin 128 → EReal) (hx : ∀ p q, W (main_v44 : DevRef τ sig) (ix2 p q) = x p q)
    (q : Fin 128) : after (((opsL0 (F := Ideal)).drop 37).take 28) W (main_v47 : DevRef τ sig) (ix1 q) = Cert.Spec.rmean x q := by
  rw [stageB0_mean_arr, hostDivf_apply, sumRows_apply _ x hx, splat_apply, ofBits_cN]
  rfl

theorem stageB0_var (W : Vl) (x : Fin 200000 → Fin 128 → EReal) (hx : ∀ p q, W (main_v44 : DevRef τ sig) (ix2 p q) = x p q)
    (q : Fin 128) : after (((opsL0 (F := Ideal)).drop 37).take 28) W (main_v48 : DevRef τ sig) (ix1 q) = Cert.Spec.rvar x q := by
  rw [stageB0_var_arr, select_apply, broadcastInDim_scalar_apply, cmpf_apply, dofW_val, constant_apply, Ideal.ofBits_zero_f32]
  have hpos : FloatOps.cmpf .ogt (Cert.Spec.cN : Ideal .f32) (0 : Ideal .f32) = 1#1 := by
    rw [Ideal.cmpf_def]
    have h0 : (0 : EReal) < Cert.Spec.cN := by
      show (0 : EReal) < ((200000 : ℝ) : EReal)
      exact_mod_cast (by norm_num : (0 : ℝ) < 200000)
    simp [Ideal.cmp, h0]
  rw [hpos, select_one, hostDivf_apply, broadcastInDim_scalar_apply, dofW_val,
    sumRows_apply _ (fun n q => (x n q - Cert.Spec.rmean x q) * (x n q - Cert.Spec.rmean x q))
      (fun p q => by rw [mulf_apply, centred_apply _ x hx])]
  rfl

theorem stageC0_arr (W : Vl) :
    after (((opsL0 (F := Ideal)).drop 37).drop 28) W (main_v68 : DevRef τ sig)
      = maximumf
          (addf
            (mulf
              (mulf (subf (W (main_v44 : DevRef τ sig)) (bcRows (W (main_v47 : DevRef τ sig))))
                (bcRows (Host.rsqrt (addf (W (main_v48 : DevRef τ sig))
                  (splat S128 bcast_S_S128 0x3727C5AC#32)))))
              (bcRows (row5 0 slices_S5x128_S1x128_0_0 (W (main_arg9 : DevRef τ sig)))))
            (bcRows (row5 0 slices_S5x128_S1x128_0_0 (W (main_arg10 : DevRef τ sig)))))
          (splat S200000x128 bcast_S_S200000x128 0x00000000#32) := by
  simp only [opsL0, List.drop_succ_cons, List.drop_zero]
  after_results_simp <;> rfl

theorem stageC0 (W : Vl) (x : Fin 200000 → Fin 128 → EReal) (m v : Fin 128 → EReal)
    (hx : ∀ p q, W (main_v44 : DevRef τ sig) (ix2 p q) = x p q) (hm : ∀ q, W (main_v47 : DevRef τ sig) (ix1 q) = m q)
    (hv : ∀ q, W (main_v48 : DevRef τ sig) (ix1 q) = v q) (p : Fin 200000) (q : Fin 128) :
    after (((opsL0 (F := Ideal)).drop 37).drop 28) W (main_v68 : DevRef τ sig) (ix2 p q)
      = max ((x p q - m q) * Ideal.rsqrt (v q + Cert.Spec.cEps) * W (main_arg9 : DevRef τ sig) (ix2 0 q)
          + W (main_arg10 : DevRef τ sig) (ix2 0 q)) 0 := by
  rw [stageC0_arr]
  simp only [maximumf_apply, addf_apply, mulf_apply, subf_apply, bcRows_apply, row5_apply 0 (by omega), hostRsqrt_apply,
    splat_apply, Ideal.ofBits_zero_f32, hx, hm, hv]
  rfl

theorem stageA0_keeps (W : Vl) :
    after ((opsL0 (F := Ideal)).take 37) W (main_arg9 : DevRef τ sig) = W (main_arg9 : DevRef τ sig)
    ∧ after ((opsL0 (F := Ideal)).take 37) W (main_arg10 : DevRef τ sig) = W (main_arg10 : DevRef τ sig) := by
  simp only [opsL0, List.take_succ_cons, List.take_zero]
  refine ⟨?_, ?_⟩ <;> after_results_simp

theorem opsL0_split : (opsL0 (F := Ideal)) = opsL0.take 37 ++ ((opsL0.drop 37).take 28 ++ (opsL0.drop 37).drop 28) :=
  (List.take_append_drop 37 _).symm.trans
    (congrArg (fun l => List.take 37 (opsL0 (F := Ideal)) ++ l) (List.take_append_drop 28 (List.drop 37 opsL0)).symm)

theorem after_L0 (V : Vl) : after (opsL0 (F := Ideal)) V
    = after ((opsL0.drop 37).drop 28) (after ((opsL0.drop 37).take 28) (after (opsL0.take 37) V)) :=
  (congrArg (fun l => after l V) opsL0_split).trans (by rw [after_append, after_append])

theorem ref_layer0 (Vin : Vl)
    (hdeg : ∀ p, Vin (main_v12 : DevRef τ sig) (ix1 p) = Cert.Spec.deg (tgOf 200000 (Vin (main_arg3 : DevRef τ sig))) p)
    (p : Fin 200000) (q : Fin 128) :
    after (opsL0 (F := Ideal)) Vin (main_v68 : DevRef τ sig) (ix2 p q)
      = Cert.Spec.rbn
          (Cert.Spec.rlin (gsOf 200000 (Vin (main_arg2 : DevRef τ sig))) (tgOf 200000 (Vin (main_arg3 : DevRef τ sig)))
            (gsOf 5 (Vin (main_arg1 : DevRef τ sig))) (fun p k => Vin (main_v6 : DevRef τ sig) (ix2 p k))
            (fun v k => Vin (main_arg6 : DevRef τ sig) (ix3 0 v k)) (fun k q => Vin (main_arg7 : DevRef τ sig) (ix3 0 k q))
            (fun q => Vin (main_arg8 : DevRef τ sig) (ix2 0 q)))
          (fun q => Vin (main_arg9 : DevRef τ sig) (ix2 0 q)) (fun q => Vin (main_arg10 : DevRef τ sig) (ix2 0 q)) p q := by
  rw [after_L0]
  have hA := stageA0 Vin (fun p k => Vin (main_v6 : DevRef τ sig) (ix2 p k)) (fun _ _ => rfl) hdeg
  obtain ⟨k44, k9, k10⟩ := stageB0_keeps (after ((opsL0 (F := Ideal)).take 37) Vin)
  obtain ⟨a9, a10⟩ := stageA0_keeps Vin
  refine (stageC0 _ _ _ _ (fun p q => (congrFun k44 _).trans (hA p q)) (stageB0_mean _ _ hA) (stageB0_var _ _ hA) p q).trans ?_
  rw [k9, k10, a9, a10]
  rfl

end Cert.ReferenceIdeal.Val

end
-- ==== Proof.Ref.ReadL1.lean ====
import proofs.«123582_j22084721836889_2_alg».proof.Proof.Ref.ReadLib

noncomputable section

namespace Cert.ReferenceIdeal.Val

open Cert.ReferenceIdeal Cert.ReferenceIdeal.Gen Cert.ReferenceIdeal.Hand Idealize.ShloMosaic Idealize.ShloMosaic.TcCoe
  Idealize.SL.Sem Idealize.ShloMosaic.StableHlo Idealize.ShloMosaic.ValueIdx
open scoped BigOperators
open Cert.Hand.HostRead

theorem stageA1_arr (W : Vl) :
    after ((opsL1 (F := Ideal)).take 37) W (main_v100 : DevRef τ sig)
      = addf
          (Host.dotGeneral dot_S200000x128_S128x128_S200000x128_1_0_0_1_n_n none
            (Host.divf
              (addf (W (main_v68 : DevRef τ sig))
                (Host.scatterAdd scatter_S200000x128_S400000x1_S400000x128_1_0_0_1
                  (splat S200000x128 bcast_S_S200000x128 0x00000000#32)
                  (broadcastInDim S400000x1 ![0] bcast_S400000_S400000x1_0 (W (main_arg3 : DevRef τ sig)))
                  (addf
                    (Host.gather gather_S200000x128_S400000x1_S400000x128_1_0_n_n_0_1_1128 (W (main_v68 : DevRef τ sig))
                      (wrapCol 200000#32 (W (main_arg2 : DevRef τ sig))))
                    (Host.gather gather_S5x128_S400000x1_S400000x128_1_0_n_n_0_1_1128
                      (embT 1 slices_S5x5x128_S1x5x128_1_0_0 (W (main_arg6 : DevRef τ sig)))
                      (wrapCol 5#32 (W (main_arg1 : DevRef τ sig)))))))
              (broadcastInDim S200000x128 ![0, 1] bcast_S200000x1_S200000x128_0_1
                (broadcastInDim S200000x1 ![0] bcast_S200000_S200000x1_0 (W (main_v12 : DevRef τ sig)))))
            (wts 1 slices_S5x128x128_S1x128x128_1_0_0 (W (main_arg7 : DevRef τ sig))))
          (bcRows (row5 1 slices_S5x128_S1x128_1_0 (W (main_arg8 : DevRef τ sig)))) := by
  simp only [opsL1, List.take_succ_cons, List.take_zero]
  after_results_simp <;> rfl

set_option maxRecDepth 16384 in

theorem stageA1 (W : Vl) (h : Fin 200000 → Fin 128 → EReal) (hh : ∀ p k, W (main_v68 : DevRef τ sig) (ix2 p k) = h p k)
    (hdeg : ∀ p, W (main_v12 : DevRef τ sig) (ix1 p) = Cert.Spec.deg (tgOf 200000 (W (main_arg3 : DevRef τ sig))) p)
    (p : Fin 200000) (q : Fin 128) :
    after ((opsL1 (F := Ideal)).take 37) W (main_v100 : DevRef τ sig) (ix2 p q)
      = Cert.Spec.rlin (gsOf 200000 (W (main_arg2 : DevRef τ sig))) (tgOf 200000 (W (main_arg3 : DevRef τ sig)))
          (gsOf 5 (W (main_arg1 : DevRef τ sig))) h (fun v k => W (main_arg6 : DevRef τ sig) (ix3 1 v k))
          (fun k q => W (main_arg7 : DevRef τ sig) (ix3 1 k q)) (fun q => W (main_arg8 : DevRef τ sig) (ix2 1 q)) p q := by
  rw [stageA1_arr, addf_apply, bcRows_apply, row5_apply 1 (by omega), dot_apply]
  unfold Cert.Spec.rlin
  refine congrArg₂ (· + ·) (Finset.sum_congr rfl fun k _ => ?_) rfl
  rw [hostDivf_apply, addf_apply, hh, bc_col_apply, hdeg,
    scatter_rows_apply scatter_S200000x128_S400000x1_S400000x128_1_0_0_1 ⟨rfl, rfl, rfl, rfl⟩ bcast_S_S200000x128
      bcast_S400000_S400000x1_0 (W (main_arg3 : DevRef τ sig)) _ p k,
    wts_apply 1 (by omega)]
  refine congrArg₂ (· * ·) (congrArg₂ Ideal.div (congrArg (h p k + ·) ?_) rfl) rfl
  unfold Cert.Spec.seg
  refine Finset.sum_congr rfl fun e _ => ?_
  rw [addf_apply,
    gather_wrap_read gather_S200000x128_S400000x1_S400000x128_1_0_n_n_0_1_1128 ⟨rfl, rfl, rfl, rfl, rfl, rfl, rfl⟩
      bcast_S_S400000 bcast_S400000_S400000x1_0 _ (W (main_arg2 : DevRef τ sig)) e k,
    gather_wrap_read gather_S5x128_S400000x1_S400000x128_1_0_n_n_0_1_1128 ⟨rfl, rfl, rfl, rfl, rfl, rfl, rfl⟩
      bcast_S_S400000 bcast_S400000_S400000x1_0 _ (W (main_arg1 : DevRef τ sig)) e k,
    hh, embT_apply 1 (by omega)]
  rfl

theorem stageB1_mean_arr (W : Vl) :
    after (((opsL1 (F := Ideal)).drop 37).take 28) W (main_v103 : DevRef τ sig)
      = Host.divf (sumRows (W (main_v100 : DevRef τ sig))) (splat S128 bcast_S_S128 0x48435000#32) := by
  simp only [opsL1, List.drop_succ_cons, List.drop_zero, List.take_succ_cons, List.take_zero]
  after_results_simp <;> rfl

theorem stageB1_var_arr (W : Vl) :
    after (((opsL1 (F := Ideal)).drop 37).take 28) W (main_v104 : DevRef τ sig)
      = select (broadcastInDim S128 ![] bcast_S_S128 (cmpf .ogt dofW (constant S_ .f32 0x00000000#32)))
          (Host.divf
            (sumRows (mulf (centred (W (main_v100 : DevRef τ sig))) (centred (W (main_v100 : DevRef τ sig)))))
            (broadcastInDim S128 ![] bcast_S_S128 dofW))
          (splat S128 bcast_S_S128 0x7FC00000#32) := by
  simp only [opsL1, List.drop_succ_cons, List.drop_zero, List.take_succ_cons, List.take_zero]
  after_results_simp <;> rfl

theorem stageB1_keeps (W : Vl) :
    after (((opsL1 (F := Ideal)).drop 37).take 28) W (main_v100 : DevRef τ sig) = W (main_v100 : DevRef τ sig)
    ∧ after (((opsL1 (F := Ideal)).drop 37).take 28) W (main_arg9 : DevRef τ sig) = W (main_arg9 : DevRef τ sig)
    ∧ after (((opsL1 (F := Ideal)).drop 37).take 28) W (main_arg10 : DevRef τ sig) = W (main_arg10 : DevRef τ sig) := by
  simp only [opsL1, List.drop_succ_cons, List.drop_zero, List.take_succ_cons, List.take_zero]
  refine ⟨?_, ?_, ?_⟩ <;> after_results_simp

theorem stageB1_mean (W : Vl) (x : Fin 200000 → Fin 128 → EReal) (hx : ∀ p q, W (main_v100 : DevRef τ sig) (ix2 p q) = x p q)
    (q : Fin 128) : after (((opsL1 (F := Ideal)).drop 37).take 28) W (main_v103 : DevRef τ sig) (ix1 q) = Cert.Spec.rmean x q := by
  rw [stageB1_mean_arr, hostDivf_apply, sumRows_apply _ x hx, splat_apply, ofBits_cN]
  rfl

theorem stageB1_var (W : Vl) (x : Fin 200000 → Fin 128 → EReal) (hx : ∀ p q, W (main_v100 : DevRef τ sig) (ix2 p q) = x p q)
    (q : Fin 128) : after (((opsL1 (F := Ideal)).drop 37).take 28) W (main_v104 : DevRef τ sig) (ix1 q) = Cert.Spec.rvar x q := by
  rw [stageB1_var_arr, select_apply, broadcastInDim_scalar_apply, cmpf_apply, dofW_val, constant_apply, Ideal.ofBits_zero_f32]
  have hpos : FloatOps.cmpf .ogt (Cert.Spec.cN : Ideal .f32) (0 : Ideal .f32) = 1#1 := by
    rw [Ideal.cmpf_def]
    have h0 : (0 : EReal) < Cert.Spec.cN := by
      show (0 : EReal) < ((200000 : ℝ) : EReal)
      exact_mod_cast (by norm_num : (0 : ℝ) < 200000)
    simp [Ideal.cmp, h0]
  rw [hpos, select_one, hostDivf_apply, broadcastInDim_scalar_apply, dofW_val,
    sumRows_apply _ (fun n q => (x n q - Cert.Spec.rmean x q) * (x n q - Cert.Spec.rmean x q))
      (fun p q => by rw [mulf_apply, centred_apply _ x hx])]
  rfl

theorem stageC1_arr (W : Vl) :
    after (((opsL1 (F := Ideal)).drop 37).drop 28) W (main_v124 : DevRef τ sig)
      = maximumf
          (addf
            (mulf
              (mulf (subf (W (main_v100 : DevRef τ sig)) (bcRows (W (main_v103 : DevRef τ sig))))
                (bcRows (Host.rsqrt (addf (W (main_v104 : DevRef τ sig))
                  (splat S128 bcast_S_S128 0x3727C5AC#32)))))
              (bcRows (row5 1 slices_S5x128_S1x128_1_0 (W (main_arg9 : DevRef τ sig)))))
            (bcRows (row5 1 slices_S5x128_S1x128_1_0 (W (main_arg10 : DevRef τ sig)))))
          (splat S200000x128 bcast_S_S200000x128 0x00000000#32) := by
  simp only [opsL1, List.drop_succ_cons, List.drop_zero]
  after_results_simp <;> rfl

theorem stageC1 (W : Vl) (x : Fin 200000 → Fin 128 → EReal) (m v : Fin 128 → EReal)
    (hx : ∀ p q, W (main_v100 : DevRef τ sig) (ix2 p q) = x p q) (hm : ∀ q, W (main_v103 : DevRef τ sig) (ix1 q) = m q)
    (hv : ∀ q, W (main_v104 : DevRef τ sig) (ix1 q) = v q) (p : Fin 200000) (q : Fin 128) :
    after (((opsL1 (F := Ideal)).drop 37).drop 28) W (main_v124 : DevRef τ sig) (ix2 p q)
      = max ((x p q - m q) * Ideal.rsqrt (v q + Cert.Spec.cEps) * W (main_arg9 : DevRef τ sig) (ix2 1 q)
          + W (main_arg10 : DevRef τ sig) (ix2 1 q)) 0 := by
  rw [stageC1_arr]
  simp only [maximumf_apply, addf_apply, mulf_apply, subf_apply, bcRows_apply, row5_apply 1 (by omega), hostRsqrt_apply,
    splat_apply, Ideal.ofBits_zero_f32, hx, hm, hv]
  rfl

theorem stageA1_keeps (W : Vl) :
    after ((opsL1 (F := Ideal)).take 37) W (main_arg9 : DevRef τ sig) = W (main_arg9 : DevRef τ sig)
    ∧ after ((opsL1 (F := Ideal)).take 37) W (main_arg10 : DevRef τ sig) = W (main_arg10 : DevRef τ sig) := by
  simp only [opsL1, List.take_succ_cons, List.take_zero]
  refine ⟨?_, ?_⟩ <;> after_results_simp

theorem opsL1_split : (opsL1 (F := Ideal)) = opsL1.take 37 ++ ((opsL1.drop 37).take 28 ++ (opsL1.drop 37).drop 28) :=
  (List.take_append_drop 37 _).symm.trans
    (congrArg (fun l => List.take 37 (opsL1 (F := Ideal)) ++ l) (List.take_append_drop 28 (List.drop 37 opsL1)).symm)

theorem after_L1 (V : Vl) : after (opsL1 (F := Ideal)) V
    = after ((opsL1.drop 37).drop 28) (after ((opsL1.drop 37).take 28) (after (opsL1.take 37) V)) :=
  (congrArg (fun l => after l V) opsL1_split).trans (by rw [after_append, after_append])

theorem ref_layer1 (Vin : Vl)
    (hdeg : ∀ p, Vin (main_v12 : DevRef τ sig) (ix1 p) = Cert.Spec.deg (tgOf 200000 (Vin (main_arg3 : DevRef τ sig))) p)
    (p : Fin 200000) (q : Fin 128) :
    after (opsL1 (F := Ideal)) Vin (main_v124 : DevRef τ sig) (ix2 p q)
      = Cert.Spec.rbn
          (Cert.Spec.rlin (gsOf 200000 (Vin (main_arg2 : DevRef τ sig))) (tgOf 200000 (Vin (main_arg3 : DevRef τ sig)))
            (gsOf 5 (Vin (main_arg1 : DevRef τ sig))) (fun p k => Vin (main_v68 : DevRef τ sig) (ix2 p k))
            (fun v k => Vin (main_arg6 : DevRef τ sig) (ix3 1 v k)) (fun k q => Vin (main_arg7 : DevRef τ sig) (ix3 1 k q))
            (fun q => Vin (main_arg8 : DevRef τ sig) (ix2 1 q)))
          (fun q => Vin (main_arg9 : DevRef τ sig) (ix2 1 q)) (fun q => Vin (main_arg10 : DevRef τ sig) (ix2 1 q)) p q := by
  rw [after_L1]
  have hA := stageA1 Vin (fun p k => Vin (main_v68 : DevRef τ sig) (ix2 p k)) (fun _ _ => rfl) hdeg
  obtain ⟨k44, k9, k10⟩ := stageB1_keeps (after ((opsL1 (F := Ideal)).take 37) Vin)
  obtain ⟨a9, a10⟩ := stageA1_keeps Vin
  refine (stageC1 _ _ _ _ (fun p q => (congrFun k44 _).trans (hA p q)) (stageB1_mean _ _ hA) (stageB1_var _ _ hA) p q).trans ?_
  rw [k9, k10, a9, a10]
  rfl

end Cert.ReferenceIdeal.Val

end
-- ==== Proof.Ref.ReadL2.lean ====
import proofs.«123582_j22084721836889_2_alg».proof.Proof.Ref.ReadLib

noncomputable section

namespace Cert.ReferenceIdeal.Val

open Cert.ReferenceIdeal Cert.ReferenceIdeal.Gen Cert.ReferenceIdeal.Hand Idealize.ShloMosaic Idealize.ShloMosaic.TcCoe
  Idealize.SL.Sem Idealize.ShloMosaic.StableHlo Idealize.ShloMosaic.ValueIdx
open scoped BigOperators
open Cert.Hand.HostRead

theorem stageA2_arr (W : Vl) :
    after ((opsL2 (F := Ideal)).take 37) W (main_v156 : DevRef τ sig)
      = addf
          (Host.dotGeneral dot_S200000x128_S128x128_S200000x128_1_0_0_1_n_n none
            (Host.divf
              (addf (W (main_v124 : DevRef τ sig))
                (Host.scatterAdd scatter_S200000x128_S400000x1_S400000x128_1_0_0_1
                  (splat S200000x128 bcast_S_S200000x128 0x00000000#32)
                  (broadcastInDim S400000x1 ![0] bcast_S400000_S400000x1_0 (W (main_arg3 : DevRef τ sig)))
                  (addf
                    (Host.gather gather_S200000x128_S400000x1_S400000x128_1_0_n_n_0_1_1128 (W (main_v124 : DevRef τ sig))
                      (wrapCol 200000#32 (W (main_arg2 : DevRef τ sig))))
                    (Host.gather gather_S5x128_S400000x1_S400000x128_1_0_n_n_0_1_1128
                      (embT 2 slices_S5x5x128_S1x5x128_2_0_0 (W (main_arg6 : DevRef τ sig)))
                      (wrapCol 5#32 (W (main_arg1 : DevRef τ sig)))))))
              (broadcastInDim S200000x128 ![0, 1] bcast_S200000x1_S200000x128_0_1
                (broadcastInDim S200000x1 ![0] bcast_S200000_S200000x1_0 (W (main_v12 : DevRef τ sig)))))
            (wts 2 slices_S5x128x128_S1x128x128_2_0_0 (W (main_arg7 : DevRef τ sig))))
          (bcRows (row5 2 slices_S5x128_S1x128_2_0 (W (main_arg8 : DevRef τ sig)))) := by
  simp only [opsL2, List.take_succ_cons, List.take_zero]
  after_results_simp <;> rfl

set_option maxRecDepth 16384 in

theorem stageA2 (W : Vl) (h : Fin 200000 → Fin 128 → EReal) (hh : ∀ p k, W (main_v124 : DevRef τ sig) (ix2 p k) = h p k)
    (hdeg : ∀ p, W (main_v12 : DevRef τ sig) (ix1 p) = Cert.Spec.deg (tgOf 200000 (W (main_arg3 : DevRef τ sig))) p)
    (p : Fin 200000) (q : Fin 128) :
    after ((opsL2 (F := Ideal)).take 37) W (main_v156 : DevRef τ sig) (ix2 p q)
      = Cert.Spec.rlin (gsOf 200000 (W (main_arg2 : DevRef τ sig))) (tgOf 200000 (W (main_arg3 : DevRef τ sig)))
          (gsOf 5 (W (main_arg1 : DevRef τ sig))) h (fun v k => W (main_arg6 : DevRef τ sig) (ix3 2 v k))
          (fun k q => W (main_arg7 : DevRef τ sig) (ix3 2 k q)) (fun q => W (main_arg8 : DevRef τ sig) (ix2 2 q)) p q := by
  rw [stageA2_arr, addf_apply, bcRows_apply, row5_apply 2 (by omega), dot_apply]
  unfold Cert.Spec.rlin
  refine congrArg₂ (· + ·) (Finset.sum_congr rfl fun k _ => ?_) rfl
  rw [hostDivf_apply, addf_apply, hh, bc_col_apply, hdeg,
    scatter_rows_apply scatter_S200000x128_S400000x1_S400000x128_1_0_0_1 ⟨rfl, rfl, rfl, rfl⟩ bcast_S_S200000x128
      bcast_S400000_S400000x1_0 (W (main_arg3 : DevRef τ sig)) _ p k,
    wts_apply 2 (by omega)]
  refine congrArg₂ (· * ·) (congrArg₂ Ideal.div (congrArg (h p k + ·) ?_) rfl) rfl
  unfold Cert.Spec.seg
  refine Finset.sum_congr rfl fun e _ => ?_
  rw [addf_apply,
    gather_wrap_read gather_S200000x128_S400000x1_S400000x128_1_0_n_n_0_1_1128 ⟨rfl, rfl, rfl, rfl, rfl, rfl, rfl⟩
      bcast_S_S400000 bcast_S400000_S400000x1_0 _ (W (main_arg2 : DevRef τ sig)) e k,
    gather_wrap_read gather_S5x128_S400000x1_S400000x128_1_0_n_n_0_1_1128 ⟨rfl, rfl, rfl, rfl, rfl, rfl, rfl⟩
      bcast_S_S400000 bcast_S400000_S400000x1_0 _ (W (main_arg1 : DevRef τ sig)) e k,
    hh, embT_apply 2 (by omega)]
  rfl

theorem stageB2_mean_arr (W : Vl) :
    after (((opsL2 (F := Ideal)).drop 37).take 28) W (main_v159 : DevRef τ sig)
      = Host.divf (sumRows (W (main_v156 : DevRef τ sig))) (splat S128 bcast_S_S128 0x48435000#32) := by
  simp only [opsL2, List.drop_succ_cons, List.drop_zero, List.take_succ_cons, List.take_zero]
  after_results_simp <;> rfl

theorem stageB2_var_arr (W : Vl) :
    after (((opsL2 (F := Ideal)).drop 37).take 28) W (main_v160 : DevRef τ sig)
      = select (broadcastInDim S128 ![] bcast_S_S128 (cmpf .ogt dofW (constant S_ .f32 0x00000000#32)))
          (Host.divf
            (sumRows (mulf (centred (W (main_v156 : DevRef τ sig))) (centred (W (main_v156 : DevRef τ sig)))))
            (broadcastInDim S128 ![] bcast_S_S128 dofW))
          (splat S128 bcast_S_S128 0x7FC00000#32) := by
  simp only [opsL2, List.drop_succ_cons, List.drop_zero, List.take_succ_cons, List.take_zero]
  after_results_simp <;> rfl

theorem stageB2_keeps (W : Vl) :
    after (((opsL2 (F := Ideal)).drop 37).take 28) W (main_v156 : DevRef τ sig) = W (main_v156 : DevRef τ sig)
    ∧ after (((opsL2 (F := Ideal)).drop 37).take 28) W (main_arg9 : DevRef τ sig) = W (main_arg9 : DevRef τ sig)
    ∧ after (((opsL2 (F := Ideal)).drop 37).take 28) W (main_arg10 : DevRef τ sig) = W (main_arg10 : DevRef τ sig) := by
  simp only [opsL2, List.drop_succ_cons, List.drop_zero, List.take_succ_cons, List.take_zero]
  refine ⟨?_, ?_, ?_⟩ <;> after_results_simp

theorem stageB2_mean (W : Vl) (x : Fin 200000 → Fin 128 → EReal) (hx : ∀ p q, W (main_v156 : DevRef τ sig) (ix2 p q) = x p q)
    (q : Fin 128) : after (((opsL2 (F := Ideal)).drop 37).take 28) W (main_v159 : DevRef τ sig) (ix1 q) = Cert.Spec.rmean x q := by
  rw [stageB2_mean_arr, hostDivf_apply, sumRows_apply _ x hx, splat_apply, ofBits_cN]
  rfl

theorem stageB2_var (W : Vl) (x : Fin 200000 → Fin 128 → EReal) (hx : ∀ p q, W (main_v156 : DevRef τ sig) (ix2 p q) = x p q)
    (q : Fin 128) : after (((opsL2 (F := Ideal)).drop 37).take 28) W (main_v160 : DevRef τ sig) (ix1 q) = Cert.Spec.rvar x q := by
  rw [stageB2_var_arr, select_apply, broadcastInDim_scalar_apply, cmpf_apply, dofW_val, constant_apply, Ideal.ofBits_zero_f32]
  have hpos : FloatOps.cmpf .ogt (Cert.Spec.cN : Ideal .f32) (0 : Ideal .f32) = 1#1 := by
    rw [Ideal.cmpf_def]
    have h0 : (0 : EReal) < Cert.Spec.cN := by
      show (0 : EReal) < ((200000 : ℝ) : EReal)
      exact_mod_cast (by norm_num : (0 : ℝ) < 200000)
    simp [Ideal.cmp, h0]
  rw [hpos, select_one, hostDivf_apply, broadcastInDim_scalar_apply, dofW_val,
    sumRows_apply _ (fun n q => (x n q - Cert.Spec.rmean x q) * (x n q - Cert.Spec.rmean x q))
      (fun p q => by rw [mulf_apply, centred_apply _ x hx])]
  rfl

theorem stageC2_arr (W : Vl) :
    after (((opsL2 (F := Ideal)).drop 37).drop 28) W (main_v180 : DevRef τ sig)
      = maximumf
          (addf
            (mulf
              (mulf (subf (W (main_v156 : DevRef τ sig)) (bcRows (W (main_v159 : DevRef τ sig))))
                (bcRows (Host.rsqrt (addf (W (main_v160 : DevRef τ sig))
                  (splat S128 bcast_S_S128 0x3727C5AC#32)))))
              (bcRows (row5 2 slices_S5x128_S1x128_2_0 (W (main_arg9 : DevRef τ sig)))))
            (bcRows (row5 2 slices_S5x128_S1x128_2_0 (W (main_arg10 : DevRef τ sig)))))
          (splat S200000x128 bcast_S_S200000x128 0x00000000#32) := by
  simp only [opsL2, List.drop_succ_cons, List.drop_zero]
  after_results_simp <;> rfl

theorem stageC2 (W : Vl) (x : Fin 200000 → Fin 128 → EReal) (m v : Fin 128 → EReal)
    (hx : ∀ p q, W (main_v156 : DevRef τ sig) (ix2 p q) = x p q) (hm : ∀ q, W (main_v159 : DevRef τ sig) (ix1 q) = m q)
    (hv : ∀ q, W (main_v160 : DevRef τ sig) (ix1 q) = v q) (p : Fin 200000) (q : Fin 128) :
    after (((opsL2 (F := Ideal)).drop 37).drop 28) W (main_v180 : DevRef τ sig) (ix2 p q)
      = max ((x p q - m q) * Ideal.rsqrt (v q + Cert.Spec.cEps) * W (main_arg9 : DevRef τ sig) (ix2 2 q)
          + W (main_arg10 : DevRef τ sig) (ix2 2 q)) 0 := by
  rw [stageC2_arr]
  simp only [maximumf_apply, addf_apply, mulf_apply, subf_apply, bcRows_apply, row5_apply 2 (by omega), hostRsqrt_apply,
    splat_apply, Ideal.ofBits_zero_f32, hx, hm, hv]
  rfl

theorem stageA2_keeps (W : Vl) :
    after ((opsL2 (F := Ideal)).take 37) W (main_arg9 : DevRef τ sig) = W (main_arg9 : DevRef τ sig)
    ∧ after ((opsL2 (F := Ideal)).take 37) W (main_arg10 : DevRef τ sig) = W (main_arg10 : DevRef τ sig) := by
  simp only [opsL2, List.take_succ_cons, List.take_zero]
  refine ⟨?_, ?_⟩ <;> after_results_simp

theorem opsL2_split : (opsL2 (F := Ideal)) = opsL2.take 37 ++ ((opsL2.drop 37).take 28 ++ (opsL2.drop 37).drop 28) :=
  (List.take_append_drop 37 _).symm.trans
    (congrArg (fun l => List.take 37 (opsL2 (F := Ideal)) ++ l) (List.take_append_drop 28 (List.drop 37 opsL2)).symm)

theorem after_L2 (V : Vl) : after (opsL2 (F := Ideal)) V
    = after ((opsL2.drop 37).drop 28) (after ((opsL2.drop 37).take 28) (after (opsL2.take 37) V)) :=
  (congrArg (fun l => after l V) opsL2_split).trans (by rw [after_append, after_append])

theorem ref_layer2 (Vin : Vl)
    (hdeg : ∀ p, Vin (main_v12 : DevRef τ sig) (ix1 p) = Cert.Spec.deg (tgOf 200000 (Vin (main_arg3 : DevRef τ sig))) p)
    (p : Fin 200000) (q : Fin 128) :
    after (opsL2 (F := Ideal)) Vin (main_v180 : DevRef τ sig) (ix2 p q)
      = Cert.Spec.rbn
          (Cert.Spec.rlin (gsOf 200000 (Vin (main_arg2 : DevRef τ sig))) (tgOf 200000 (Vin (main_arg3 : DevRef τ sig)))
            (gsOf 5 (Vin (main_arg1 : DevRef τ sig))) (fun p k => Vin (main_v124 : DevRef τ sig) (ix2 p k))
            (fun v k => Vin (main_arg6 : DevRef τ sig) (ix3 2 v k)) (fun k q => Vin (main_arg7 : DevRef τ sig) (ix3 2 k q))
            (fun q => Vin (main_arg8 : DevRef τ sig) (ix2 2 q)))
          (fun q => Vin (main_arg9 : DevRef τ sig) (ix2 2 q)) (fun q => Vin (main_arg10 : DevRef τ sig) (ix2 2 q)) p q := by
  rw [after_L2]
  have hA := stageA2 Vin (fun p k => Vin (main_v124 : DevRef τ sig) (ix2 p k)) (fun _ _ => rfl) hdeg
  obtain ⟨k44, k9, k10⟩ := stageB2_keeps (after ((opsL2 (F := Ideal)).take 37) Vin)
  obtain ⟨a9, a10⟩ := stageA2_keeps Vin
  refine (stageC2 _ _ _ _ (fun p q => (congrFun k44 _).trans (hA p q)) (stageB2_mean _ _ hA) (stageB2_var _ _ hA) p q).trans ?_
  rw [k9, k10, a9, a10]
  rfl

end Cert.ReferenceIdeal.Val

end
-- ==== Proof.Ref.ReadL3.lean ====
import proofs.«123582_j22084721836889_2_alg».proof.Proof.Ref.ReadLib

noncomputable section

namespace Cert.ReferenceIdeal.Val

open Cert.ReferenceIdeal Cert.ReferenceIdeal.Gen Cert.ReferenceIdeal.Hand Idealize.ShloMosaic Idealize.ShloMosaic.TcCoe
  Idealize.SL.Sem Idealize.ShloMosaic.StableHlo Idealize.ShloMosaic.ValueIdx
open scoped BigOperators
open Cert.Hand.HostRead

theorem stageA3_arr (W : Vl) :
    after ((opsL3 (F := Ideal)).take 37) W (main_v212 : DevRef τ sig)
      = addf
          (Host.dotGeneral dot_S200000x128_S128x128_S200000x128_1_0_0_1_n_n none
            (Host.divf
              (addf (W (main_v180 : DevRef τ sig))
                (Host.scatterAdd scatter_S200000x128_S400000x1_S400000x128_1_0_0_1
                  (splat S200000x128 bcast_S_S200000x128 0x00000000#32)
                  (broadcastInDim S400000x1 ![0] bcast_S400000_S400000x1_0 (W (main_arg3 : DevRef τ sig)))
                  (addf
                    (Host.gather gather_S200000x128_S400000x1_S400000x128_1_0_n_n_0_1_1128 (W (main_v180 : DevRef τ sig))
                      (wrapCol 200000#32 (W (main_arg2 : DevRef τ sig))))
                    (Host.gather gather_S5x128_S400000x1_S400000x128_1_0_n_n_0_1_1128
                      (embT 3 slices_S5x5x128_S1x5x128_3_0_0 (W (main_arg6 : DevRef τ sig)))
                      (wrapCol 5#32 (W (main_arg1 : DevRef τ sig)))))))
              (broadcastInDim S200000x128 ![0, 1] bcast_S200000x1_S200000x128_0_1
                (broadcastInDim S200000x1 ![0] bcast_S200000_S200000x1_0 (W (main_v12 : DevRef τ sig)))))
            (wts 3 slices_S5x128x128_S1x128x128_3_0_0 (W (main_arg7 : DevRef τ sig))))
          (bcRows (row5 3 slices_S5x128_S1x128_3_0 (W (main_arg8 : DevRef τ sig)))) := by
  simp only [opsL3, List.take_succ_cons, List.take_zero]
  after_results_simp <;> rfl

set_option maxRecDepth 16384 in

theorem stageA3 (W : Vl) (h : Fin 200000 → Fin 128 → EReal) (hh : ∀ p k, W (main_v180 : DevRef τ sig) (ix2 p k) = h p k)
    (hdeg : ∀ p, W (main_v12 : DevRef τ sig) (ix1 p) = Cert.Spec.deg (tgOf 200000 (W (main_arg3 : DevRef τ sig))) p)
    (p : Fin 200000) (q : Fin 128) :
    after ((opsL3 (F := Ideal)).take 37) W (main_v212 : DevRef τ sig) (ix2 p q)
      = Cert.Spec.rlin (gsOf 200000 (W (main_arg2 : DevRef τ sig))) (tgOf 200000 (W (main_arg3 : DevRef τ sig)))
          (gsOf 5 (W (main_arg1 : DevRef τ sig))) h (fun v k => W (main_arg6 : DevRef τ sig) (ix3 3 v k))
          (fun k q => W (main_arg7 : DevRef τ sig) (ix3 3 k q)) (fun q => W (main_arg8 : DevRef τ sig) (ix2 3 q)) p q := by
  rw [stageA3_arr, addf_apply, bcRows_apply, row5_apply 3 (by omega), dot_apply]
  unfold Cert.Spec.rlin
  refine congrArg₂ (· + ·) (Finset.sum_congr rfl fun k _ => ?_) rfl
  rw [hostDivf_apply, addf_apply, hh, bc_col_apply, hdeg,
    scatter_rows_apply scatter_S200000x128_S400000x1_S400000x128_1_0_0_1 ⟨rfl, rfl, rfl, rfl⟩ bcast_S_S200000x128
      bcast_S400000_S400000x1_0 (W (main_arg3 : DevRef τ sig)) _ p k,
    wts_apply 3 (by omega)]
  refine congrArg₂ (· * ·) (congrArg₂ Ideal.div (congrArg (h p k + ·) ?_) rfl) rfl
  unfold Cert.Spec.seg
  refine Finset.sum_congr rfl fun e _ => ?_
  rw [addf_apply,
    gather_wrap_read gather_S200000x128_S400000x1_S400000x128_1_0_n_n_0_1_1128 ⟨rfl, rfl, rfl, rfl, rfl, rfl, rfl⟩
      bcast_S_S400000 bcast_S400000_S400000x1_0 _ (W (main_arg2 : DevRef τ sig)) e k,
    gather_wrap_read gather_S5x128_S400000x1_S400000x128_1_0_n_n_0_1_1128 ⟨rfl, rfl, rfl, rfl, rfl, rfl, rfl⟩
      bcast_S_S400000 bcast_S400000_S400000x1_0 _ (W (main_arg1 : DevRef τ sig)) e k,
    hh, embT_apply 3 (by omega)]
  rfl

theorem stageB3_mean_arr (W : Vl) :
    after (((opsL3 (F := Ideal)).drop 37).take 28) W (main_v215 : DevRef τ sig)
      = Host.divf (sumRows (W (main_v212 : DevRef τ sig))) (splat S128 bcast_S_S128 0x48435000#32) := by
  simp only [opsL3, List.drop_succ_cons, List.drop_zero, List.take_succ_cons, List.take_zero]
  after_results_simp <;> rfl

theorem stageB3_var_arr (W : Vl) :
    after (((opsL3 (F := Ideal)).drop 37).take 28) W (main_v216 : DevRef τ sig)
      = select (broadcastInDim S128 ![] bcast_S_S128 (cmpf .ogt dofW (constant S_ .f32 0x00000000#32)))
          (Host.divf
            (sumRows (mulf (centred (W (main_v212 : DevRef τ sig))) (centred (W (main_v212 : DevRef τ sig)))))
            (broadcastInDim S128 ![] bcast_S_S128 dofW))
          (splat S128 bcast_S_S128 0x7FC00000#32) := by
  simp only [opsL3, List.drop_succ_cons, List.drop_zero, List.take_succ_cons, List.take_zero]
  after_results_simp <;> rfl

theorem stageB3_keeps (W : Vl) :
    after (((opsL3 (F := Ideal)).drop 37).take 28) W (main_v212 : DevRef τ sig) = W (main_v212 : DevRef τ sig)
    ∧ after (((opsL3 (F := Ideal)).drop 37).take 28) W (main_arg9 : DevRef τ sig) = W (main_arg9 : DevRef τ sig)
    ∧ after (((opsL3 (F := Ideal)).drop 37).take 28) W (main_arg10 : DevRef τ sig) = W (main_arg10 : DevRef τ sig) := by
  simp only [opsL3, List.drop_succ_cons, List.drop_zero, List.take_succ_cons, List.take_zero]
  refine ⟨?_, ?_, ?_⟩ <;> after_results_simp

theorem stageB3_mean (W : Vl) (x : Fin 200000 → Fin 128 → EReal) (hx : ∀ p q, W (main_v212 : DevRef τ sig) (ix2 p q) = x p q)
    (q : Fin 128) : after (((opsL3 (F := Ideal)).drop 37).take 28) W (main_v215 : DevRef τ sig) (ix1 q) = Cert.Spec.rmean x q := by
  rw [stageB3_mean_arr, hostDivf_apply, sumRows_apply _ x hx, splat_apply, ofBits_cN]
  rfl

theorem stageB3_var (W : Vl) (x : Fin 200000 → Fin 128 → EReal) (hx : ∀ p q, W (main_v212 : DevRef τ sig) (ix2 p q) = x p q)
    (q : Fin 128) : after (((opsL3 (F := Ideal)).drop 37).take 28) W (main_v216 : DevRef τ sig) (ix1 q) = Cert.Spec.rvar x q := by
  rw [stageB3_var_arr, select_apply, broadcastInDim_scalar_apply, cmpf_apply, dofW_val, constant_apply, Ideal.ofBits_zero_f32]
  have hpos : FloatOps.cmpf .ogt (Cert.Spec.cN : Ideal .f32) (0 : Ideal .f32) = 1#1 := by
    rw [Ideal.cmpf_def]
    have h0 : (0 : EReal) < Cert.Spec.cN := by
      show (0 : EReal) < ((200000 : ℝ) : EReal)
      exact_mod_cast (by norm_num : (0 : ℝ) < 200000)
    simp [Ideal.cmp, h0]
  rw [hpos, select_one, hostDivf_apply, broadcastInDim_scalar_apply, dofW_val,
    sumRows_apply _ (fun n q => (x n q - Cert.Spec.rmean x q) * (x n q - Cert.Spec.rmean x q))
      (fun p q => by rw [mulf_apply, centred_apply _ x hx])]
  rfl

theorem stageC3_arr (W : Vl) :
    after (((opsL3 (F := Ideal)).drop 37).drop 28) W (main_v236 : DevRef τ sig)
      = maximumf
          (addf
            (mulf
              (mulf (subf (W (main_v212 : DevRef τ sig)) (bcRows (W (main_v215 : DevRef τ sig))))
                (bcRows (Host.rsqrt (addf (W (main_v216 : DevRef τ sig))
                  (splat S128 bcast_S_S128 0x3727C5AC#32)))))
              (bcRows (row5 3 slices_S5x128_S1x128_3_0 (W (main_arg9 : DevRef τ sig)))))
            (bcRows (row5 3 slices_S5x128_S1x128_3_0 (W (main_arg10 : DevRef τ sig)))))
          (splat S200000x128 bcast_S_S200000x128 0x00000000#32) := by
  simp only [opsL3, List.drop_succ_cons, List.drop_zero]
  after_results_simp <;> rfl

theorem stageC3 (W : Vl) (x : Fin 200000 → Fin 128 → EReal) (m v : Fin 128 → EReal)
    (hx : ∀ p q, W (main_v212 : DevRef τ sig) (ix2 p q) = x p q) (hm : ∀ q, W (main_v215 : DevRef τ sig) (ix1 q) = m q)
    (hv : ∀ q, W (main_v216 : DevRef τ sig) (ix1 q) = v q) (p : Fin 200000) (q : Fin 128) :
    after (((opsL3 (F := Ideal)).drop 37).drop 28) W (main_v236 : DevRef τ sig) (ix2 p q)
      = max ((x p q - m q) * Ideal.rsqrt (v q + Cert.Spec.cEps) * W (main_arg9 : DevRef τ sig) (ix2 3 q)
          + W (main_arg10 : DevRef τ sig) (ix2 3 q)) 0 := by
  rw [stageC3_arr]
  simp only [maximumf_apply, addf_apply, mulf_apply, subf_apply, bcRows_apply, row5_apply 3 (by omega), hostRsqrt_apply,
    splat_apply, Ideal.ofBits_zero_f32, hx, hm, hv]
  rfl

theorem stageA3_keeps (W : Vl) :
    after ((opsL3 (F := Ideal)).take 37) W (main_arg9 : DevRef τ sig) = W (main_arg9 : DevRef τ sig)
    ∧ after ((opsL3 (F := Ideal)).take 37) W (main_arg10 : DevRef τ sig) = W (main_arg10 : DevRef τ sig) := by
  simp only [opsL3, List.take_succ_cons, List.take_zero]
  refine ⟨?_, ?_⟩ <;> after_results_simp

theorem opsL3_split : (opsL3 (F := Ideal)) = opsL3.take 37 ++ ((opsL3.drop 37).take 28 ++ (opsL3.drop 37).drop 28) :=
  (List.take_append_drop 37 _).symm.trans
    (congrArg (fun l => List.take 37 (opsL3 (F := Ideal)) ++ l) (List.take_append_drop 28 (List.drop 37 opsL3)).symm)

theorem after_L3 (V : Vl) : after (opsL3 (F := Ideal)) V
    = after ((opsL3.drop 37).drop 28) (after ((opsL3.drop 37).take 28) (after (opsL3.take 37) V)) :=
  (congrArg (fun l => after l V) opsL3_split).trans (by rw [after_append, after_append])

theorem ref_layer3 (Vin : Vl)
    (hdeg : ∀ p, Vin (main_v12 : DevRef τ sig) (ix1 p) = Cert.Spec.deg (tgOf 200000 (Vin (main_arg3 : DevRef τ sig))) p)
    (p : Fin 200000) (q : Fin 128) :
    after (opsL3 (F := Ideal)) Vin (main_v236 : DevRef τ sig) (ix2 p q)
      = Cert.Spec.rbn
          (Cert.Spec.rlin (gsOf 200000 (Vin (main_arg2 : DevRef τ sig))) (tgOf 200000 (Vin (main_arg3 : DevRef τ sig)))
            (gsOf 5 (Vin (main_arg1 : DevRef τ sig))) (fun p k => Vin (main_v180 : DevRef τ sig) (ix2 p k))
            (fun v k => Vin (main_arg6 : DevRef τ sig) (ix3 3 v k)) (fun k q => Vin (main_arg7 : DevRef τ sig) (ix3 3 k q))
            (fun q => Vin (main_arg8 : DevRef τ sig) (ix2 3 q)))
          (fun q => Vin (main_arg9 : DevRef τ sig) (ix2 3 q)) (fun q => Vin (main_arg10 : DevRef τ sig) (ix2 3 q)) p q := by
  rw [after_L3]
  have hA := stageA3 Vin (fun p k => Vin (main_v180 : DevRef τ sig) (ix2 p k)) (fun _ _ => rfl) hdeg
  obtain ⟨k44, k9, k10⟩ := stageB3_keeps (after ((opsL3 (F := Ideal)).take 37) Vin)
  obtain ⟨a9, a10⟩ := stageA3_keeps Vin
  refine (stageC3 _ _ _ _ (fun p q => (congrFun k44 _).trans (hA p q)) (stageB3_mean _ _ hA) (stageB3_var _ _ hA) p q).trans ?_
  rw [k9, k10, a9, a10]
  rfl

end Cert.ReferenceIdeal.Val

end
-- ==== Proof.Ref.ReadL4.lean ====
import proofs.«123582_j22084721836889_2_alg».proof.Proof.Ref.ReadLib

noncomputable section

namespace Cert.ReferenceIdeal.Val

open Cert.ReferenceIdeal Cert.ReferenceIdeal.Gen Cert.ReferenceIdeal.Hand Idealize.ShloMosaic Idealize.ShloMosaic.TcCoe
  Idealize.SL.Sem Idealize.ShloMosaic.StableHlo Idealize.ShloMosaic.ValueIdx
open scoped BigOperators
open Cert.Hand.HostRead

theorem stageA4_arr (W : Vl) :
    after ((opsL4 (F := Ideal)).take 37) W (main_v268 : DevRef τ sig)
      = addf
          (Host.dotGeneral dot_S200000x128_S128x128_S200000x128_1_0_0_1_n_n none
            (Host.divf
              (addf (W (main_v236 : DevRef τ sig))
                (Host.scatterAdd scatter_S200000x128_S400000x1_S400000x128_1_0_0_1
                  (splat S200000x128 bcast_S_S200000x128 0x00000000#32)
                  (broadcastInDim S400000x1 ![0] bcast_S400000_S400000x1_0 (W (main_arg3 : DevRef τ sig)))
                  (addf
                    (Host.gather gather_S200000x128_S400000x1_S400000x128_1_0_n_n_0_1_1128 (W (main_v236 : DevRef τ sig))
                      (wrapCol 200000#32 (W (main_arg2 : DevRef τ sig))))
                    (Host.gather gather_S5x128_S400000x1_S400000x128_1_0_n_n_0_1_1128
                      (embT 4 slices_S5x5x128_S1x5x128_4_0_0 (W (main_arg6 : DevRef τ sig)))
                      (wrapCol 5#32 (W (main_arg1 : DevRef τ sig)))))))
              (broadcastInDim S200000x128 ![0, 1] bcast_S200000x1_S200000x128_0_1
                (broadcastInDim S200000x1 ![0] bcast_S200000_S200000x1_0 (W (main_v12 : DevRef τ sig)))))
            (wts 4 slices_S5x128x128_S1x128x128_4_0_0 (W (main_arg7 : DevRef τ sig))))
          (bcRows (row5 4 slices_S5x128_S1x128_4_0 (W (main_arg8 : DevRef τ sig)))) := by
  simp only [opsL4, List.take_succ_cons, List.take_zero]
  after_results_simp <;> rfl

set_option maxRecDepth 16384 in

theorem stageA4 (W : Vl) (h : Fin 200000 → Fin 128 → EReal) (hh : ∀ p k, W (main_v236 : DevRef τ sig) (ix2 p k) = h p k)
    (hdeg : ∀ p, W (main_v12 : DevRef τ sig) (ix1 p) = Cert.Spec.deg (tgOf 200000 (W (main_arg3 : DevRef τ sig))) p)
    (p : Fin 200000) (q : Fin 128) :
    after ((opsL4 (F := Ideal)).take 37) W (main_v268 : DevRef τ sig) (ix2 p q)
      = Cert.Spec.rlin (gsOf 200000 (W (main_arg2 : DevRef τ sig))) (tgOf 200000 (W (main_arg3 : DevRef τ sig)))
          (gsOf 5 (W (main_arg1 : DevRef τ sig))) h (fun v k => W (main_arg6 : DevRef τ sig) (ix3 4 v k))
          (fun k q => W (main_arg7 : DevRef τ sig) (ix3 4 k q)) (fun q => W (main_arg8 : DevRef τ sig) (ix2 4 q)) p q := by
  rw [stageA4_arr, addf_apply, bcRows_apply, row5_apply 4 (by omega), dot_apply]
  unfold Cert.Spec.rlin
  refine congrArg₂ (· + ·) (Finset.sum_congr rfl fun k _ => ?_) rfl
  rw [hostDivf_apply, addf_apply, hh, bc_col_apply, hdeg,
    scatter_rows_apply scatter_S200000x128_S400000x1_S400000x128_1_0_0_1 ⟨rfl, rfl, rfl, rfl⟩ bcast_S_S200000x128
      bcast_S400000_S400000x1_0 (W (main_arg3 : DevRef τ sig)) _ p k,
    wts_apply 4 (by omega)]
  refine congrArg₂ (· * ·) (congrArg₂ Ideal.div (congrArg (h p k + ·) ?_) rfl) rfl
  unfold Cert.Spec.seg
  refine Finset.sum_congr rfl fun e _ => ?_
  rw [addf_apply,
    gather_wrap_read gather_S200000x128_S400000x1_S400000x128_1_0_n_n_0_1_1128 ⟨rfl, rfl, rfl, rfl, rfl, rfl, rfl⟩
      bcast_S_S400000 bcast_S400000_S400000x1_0 _ (W (main_arg2 : DevRef τ sig)) e k,
    gather_wrap_read gather_S5x128_S400000x1_S400000x128_1_0_n_n_0_1_1128 ⟨rfl, rfl, rfl, rfl, rfl, rfl, rfl⟩
      bcast_S_S400000 bcast_S400000_S400000x1_0 _ (W (main_arg1 : DevRef τ sig)) e k,
    hh, embT_apply 4 (by omega)]
  rfl

theorem stageB4_mean_arr (W : Vl) :
    after (((opsL4 (F := Ideal)).drop 37).take 28) W (main_v271 : DevRef τ sig)
      = Host.divf (sumRows (W (main_v268 : DevRef τ sig))) (splat S128 bcast_S_S128 0x48435000#32) := by
  simp only [opsL4, List.drop_succ_cons, List.drop_zero, List.take_succ_cons, List.take_zero]
  after_results_simp <;> rfl

theorem stageB4_var_arr (W : Vl) :
    after (((opsL4 (F := Ideal)).drop 37).take 28) W (main_v272 : DevRef τ sig)
      = select (broadcastInDim S128 ![] bcast_S_S128 (cmpf .ogt dofW (constant S_ .f32 0x00000000#32)))
          (Host.divf
            (sumRows (mulf (centred (W (main_v268 : DevRef τ sig))) (centred (W (main_v268 : DevRef τ sig)))))
            (broadcastInDim S128 ![] bcast_S_S128 dofW))
          (splat S128 bcast_S_S128 0x7FC00000#32) := by
  simp only [opsL4, List.drop_succ_cons, List.drop_zero, List.take_succ_cons, List.take_zero]
  after_results_simp <;> rfl

theorem stageB4_keeps (W : Vl) :
    after (((opsL4 (F := Ideal)).drop 37).take 28) W (main_v268 : DevRef τ sig) = W (main_v268 : DevRef τ sig)
    ∧ after (((opsL4 (F := Ideal)).drop 37).take 28) W (main_arg9 : DevRef τ sig) = W (main_arg9 : DevRef τ sig)
    ∧ after (((opsL4 (F := Ideal)).drop 37).take 28) W (main_arg10 : DevRef τ sig) = W (main_arg10 : DevRef τ sig) := by
  simp only [opsL4, List.drop_succ_cons, List.drop_zero, List.take_succ_cons, List.take_zero]
  refine ⟨?_, ?_, ?_⟩ <;> after_results_simp

theorem stageB4_mean (W : Vl) (x : Fin 200000 → Fin 128 → EReal) (hx : ∀ p q, W (main_v268 : DevRef τ sig) (ix2 p q) = x p q)
    (q : Fin 128) : after (((opsL4 (F := Ideal)).drop 37).take 28) W (main_v271 : DevRef τ sig) (ix1 q) = Cert.Spec.rmean x q := by
  rw [stageB4_mean_arr, hostDivf_apply, sumRows_apply _ x hx, splat_apply, ofBits_cN]
  rfl

theorem stageB4_var (W : Vl) (x : Fin 200000 → Fin 128 → EReal) (hx : ∀ p q, W (main_v268 : DevRef τ sig) (ix2 p q) = x p q)
    (q : Fin 128) : after (((opsL4 (F := Ideal)).drop 37).take 28) W (main_v272 : DevRef τ sig) (ix1 q) = Cert.Spec.rvar x q := by
  rw [stageB4_var_arr, select_apply, broadcastInDim_scalar_apply, cmpf_apply, dofW_val, constant_apply, Ideal.ofBits_zero_f32]
  have hpos : FloatOps.cmpf .ogt (Cert.Spec.cN : Ideal .f32) (0 : Ideal .f32) = 1#1 := by
    rw [Ideal.cmpf_def]
    have h0 : (0 : EReal) < Cert.Spec.cN := by
      show (0 : EReal) < ((200000 : ℝ) : EReal)
      exact_mod_cast (by norm_num : (0 : ℝ) < 200000)
    simp [Ideal.cmp, h0]
  rw [hpos, select_one, hostDivf_apply, broadcastInDim_scalar_apply, dofW_val,
    sumRows_apply _ (fun n q => (x n q - Cert.Spec.rmean x q) * (x n q - Cert.Spec.rmean x q))
      (fun p q => by rw [mulf_apply, centred_apply _ x hx])]
  rfl

theorem stageC4_arr (W : Vl) :
    after (((opsL4 (F := Ideal)).drop 37).drop 28) W (main_v292 : DevRef τ sig)
      = maximumf
          (addf
            (mulf
              (mulf (subf (W (main_v268 : DevRef τ sig)) (bcRows (W (main_v271 : DevRef τ sig))))
                (bcRows (Host.rsqrt (addf (W (main_v272 : DevRef τ sig))
                  (splat S128 bcast_S_S128 0x3727C5AC#32)))))
              (bcRows (row5 4 slices_S5x128_S1x128_4_0 (W (main_arg9 : DevRef τ sig)))))
            (bcRows (row5 4 slices_S5x128_S1x128_4_0 (W (main_arg10 : DevRef τ sig)))))
          (splat S200000x128 bcast_S_S200000x128 0x00000000#32) := by
  simp only [opsL4, List.drop_succ_cons, List.drop_zero]
  after_results_simp <;> rfl

theorem stageC4 (W : Vl) (x : Fin 200000 → Fin 128 → EReal) (m v : Fin 128 → EReal)
    (hx : ∀ p q, W (main_v268 : DevRef τ sig) (ix2 p q) = x p q) (hm : ∀ q, W (main_v271 : DevRef τ sig) (ix1 q) = m q)
    (hv : ∀ q, W (main_v272 : DevRef τ sig) (ix1 q) = v q) (p : Fin 200000) (q : Fin 128) :
    after (((opsL4 (F := Ideal)).drop 37).drop 28) W (main_v292 : DevRef τ sig) (ix2 p q)
      = max ((x p q - m q) * Ideal.rsqrt (v q + Cert.Spec.cEps) * W (main_arg9 : DevRef τ sig) (ix2 4 q)
          + W (main_arg10 : DevRef τ sig) (ix2 4 q)) 0 := by
  rw [stageC4_arr]
  simp only [maximumf_apply, addf_apply, mulf_apply, subf_apply, bcRows_apply, row5_apply 4 (by omega), hostRsqrt_apply,
    splat_apply, Ideal.ofBits_zero_f32, hx, hm, hv]
  rfl

theorem stageA4_keeps (W : Vl) :
    after ((opsL4 (F := Ideal)).take 37) W (main_arg9 : DevRef τ sig) = W (main_arg9 : DevRef τ sig)
    ∧ after ((opsL4 (F := Ideal)).take 37) W (main_arg10 : DevRef τ sig) = W (main_arg10 : DevRef τ sig) := by
  simp only [opsL4, List.take_succ_cons, List.take_zero]
  refine ⟨?_, ?_⟩ <;> after_results_simp

theorem opsL4_split : (opsL4 (F := Ideal)) = opsL4.take 37 ++ ((opsL4.drop 37).take 28 ++ (opsL4.drop 37).drop 28) :=
  (List.take_append_drop 37 _).symm.trans
    (congrArg (fun l => List.take 37 (opsL4 (F := Ideal)) ++ l) (List.take_append_drop 28 (List.drop 37 opsL4)).symm)

theorem after_L4 (V : Vl) : after (opsL4 (F := Ideal)) V
    = after ((opsL4.drop 37).drop 28) (after ((opsL4.drop 37).take 28) (after (opsL4.take 37) V)) :=
  (congrArg (fun l => after l V) opsL4_split).trans (by rw [after_append, after_append])

theorem ref_layer4 (Vin : Vl)
    (hdeg : ∀ p, Vin (main_v12 : DevRef τ sig) (ix1 p) = Cert.Spec.deg (tgOf 200000 (Vin (main_arg3 : DevRef τ sig))) p)
    (p : Fin 200000) (q : Fin 128) :
    after (opsL4 (F := Ideal)) Vin (main_v292 : DevRef τ sig) (ix2 p q)
      = Cert.Spec.rbn
          (Cert.Spec.rlin (gsOf 200000 (Vin (main_arg2 : DevRef τ sig))) (tgOf 200000 (Vin (main_arg3 : DevRef τ sig)))
            (gsOf 5 (Vin (main_arg1 : DevRef τ sig))) (fun p k => Vin (main_v236 : DevRef τ sig) (ix2 p k))
            (fun v k => Vin (main_arg6 : DevRef τ sig) (ix3 4 v k)) (fun k q => Vin (main_arg7 : DevRef τ sig) (ix3 4 k q))
            (fun q => Vin (main_arg8 : DevRef τ sig) (ix2 4 q)))
          (fun q => Vin (main_arg9 : DevRef τ sig) (ix2 4 q)) (fun q => Vin (main_arg10 : DevRef τ sig) (ix2 4 q)) p q := by
  rw [after_L4]
  have hA := stageA4 Vin (fun p k => Vin (main_v236 : DevRef τ sig) (ix2 p k)) (fun _ _ => rfl) hdeg
  obtain ⟨k44, k9, k10⟩ := stageB4_keeps (after ((opsL4 (F := Ideal)).take 37) Vin)
  obtain ⟨a9, a10⟩ := stageA4_keeps Vin
  refine (stageC4 _ _ _ _ (fun p q => (congrFun k44 _).trans (hA p q)) (stageB4_mean _ _ hA) (stageB4_var _ _ hA) p q).trans ?_
  rw [k9, k10, a9, a10]
  rfl

end Cert.ReferenceIdeal.Val

end
-- ==== Proof.Ref.ReadE.lean ====
import proofs.«123582_j22084721836889_2_alg».proof.Proof.Ref.Run
import proofs.«123582_j22084721836889_2_alg».proof.Proof.Math.Spec
import proofs.«123582_j22084721836889_2_alg».proof.Proof.Math.HostRead
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 2280

noncomputable section

namespace Cert.ReferenceIdeal.Val

open Idealize.ShloMosaic Idealize.ShloMosaic.TcCoe Idealize.ShloMosaic.ValueIdx
open Cert.ReferenceIdeal Cert.ReferenceIdeal.Gen Cert.ReferenceIdeal.Hand
open Cert.Hand.HostRead
open scoped BigOperators

theorem bcast_vec_row_apply {α : Type} {D : ℕ} (hb : (⟨1, ![D]⟩ : Shape).BroadcastsInDim ⟨2, ![1, D]⟩ ![1])
    (v : (⟨1, ![D]⟩ : Shape).Idx → α) (u : Fin 1) (k : Fin D) :
    broadcastInDim ⟨2, ![1, D]⟩ ![1] hb v (ix2 u k) = v (ix1 k) :=
  broadcastInDim_apply _ hb v _ _ (fun a => by
    obtain rfl : a = 0 := Subsingleton.elim _ _
    show k.val = if D = 1 then 0 else k.val
    split
    · next h1 => have := k.isLt; omega
    · rfl)

theorem ref_contr_rank : dot_S1000x128_S128x128_S1000x128_1_0_0_1_n_n.contr.rank = 1 := rfl

theorem ref_contr_size :
    dot_S1000x128_S128x128_S1000x128_1_0_0_1_n_n.contr.size ⟨0, by rw [ref_contr_rank]; exact Nat.one_pos⟩ = 128 := rfl

theorem ref_dot_apply (a : FVec Ideal S1000x128 .f32) (w : FVec Ideal S128x128 .f32) (p : Fin 1000) (q : Fin 128) :
    Host.dotGeneral dot_S1000x128_S128x128_S1000x128_1_0_0_1_n_n none a w (ix2 p q)
      = ∑ k : Fin 128, a (ix2 p k) * w (ix2 k q) := by
  show FloatOps.dotGeneral dot_S1000x128_S128x128_S1000x128_1_0_0_1_n_n none .single a w (ix2 p q) = _
  rw [Ideal.dotGeneral_apply,
    ← Equiv.sum_comp (contrEquiv1 dot_S1000x128_S128x128_S1000x128_1_0_0_1_n_n 128 ref_contr_rank ref_contr_size).symm]
  refine Finset.sum_congr rfl fun k _ => ?_
  have hk := contrEquiv1_symm_val dot_S1000x128_S128x128_S1000x128_1_0_0_1_n_n 128 ref_contr_rank ref_contr_size k
  have hl : dot_S1000x128_S128x128_S1000x128_1_0_0_1_n_n.lhsIdx (ix2 p q)
      ((contrEquiv1 dot_S1000x128_S128x128_S1000x128_1_0_0_1_n_n 128 ref_contr_rank ref_contr_size).symm k) = ix2 p k := by
    funext ax; apply Fin.ext
    match ax with
    | ⟨0, _⟩ => rfl
    | ⟨1, _⟩ => exact (dot_S1000x128_S128x128_S1000x128_1_0_0_1_n_n.lhsIdx_val_of_single (cl := 1) rfl _ _).trans hk
  have hr : dot_S1000x128_S128x128_S1000x128_1_0_0_1_n_n.rhsIdx (ix2 p q)
      ((contrEquiv1 dot_S1000x128_S128x128_S1000x128_1_0_0_1_n_n 128 ref_contr_rank ref_contr_size).symm k) = ix2 k q := by
    funext ax; apply Fin.ext
    match ax with
    | ⟨0, _⟩ => exact (dot_S1000x128_S128x128_S1000x128_1_0_0_1_n_n.rhsIdx_val_of_single (cr := 0) rfl _ _).trans hk
    | ⟨1, _⟩ => rfl
  rw [hl, hr]

abbrev poolArr
    (dv : ScatterDims ⟨1, ![1000]⟩ ⟨2, ![200000, 1]⟩ ⟨1, ![200000]⟩)
    (dr : ScatterDims ⟨2, ![1000, 128]⟩ ⟨2, ![200000, 1]⟩ ⟨2, ![200000, 128]⟩)
    (hbn : (⟨0, ![]⟩ : Shape).BroadcastsInDim ⟨1, ![200000]⟩ ![])
    (hbg : (⟨0, ![]⟩ : Shape).BroadcastsInDim ⟨1, ![1000]⟩ ![])
    (hbz : (⟨0, ![]⟩ : Shape).BroadcastsInDim ⟨2, ![1000, 128]⟩ ![])
    (hb1 : (⟨1, ![200000]⟩ : Shape).BroadcastsInDim ⟨2, ![200000, 1]⟩ ![0])
    (hbc : (⟨1, ![1000]⟩ : Shape).BroadcastsInDim ⟨2, ![1000, 1]⟩ ![0])
    (hbr : (⟨2, ![1000, 1]⟩ : Shape).BroadcastsInDim ⟨2, ![1000, 128]⟩ ![0, 1])
    (x : FVec Ideal ⟨2, ![200000, 128]⟩ .f32) (n2g : IVec ⟨1, ![200000]⟩ 32) : FVec Ideal ⟨2, ![1000, 128]⟩ .f32 :=
  Host.divf
    (Host.scatterAdd dr
      (broadcastInDim ⟨2, ![1000, 128]⟩ ![] hbz (constant (F := Ideal) ⟨0, ![]⟩ .f32 0x00000000#32))
      (broadcastInDim ⟨2, ![200000, 1]⟩ ![0] hb1 n2g) x)
    (broadcastInDim ⟨2, ![1000, 128]⟩ ![0, 1] hbr
      (broadcastInDim ⟨2, ![1000, 1]⟩ ![0] hbc
        (maximumf
          (Host.scatterAdd dv
            (broadcastInDim ⟨1, ![1000]⟩ ![] hbg (constant (F := Ideal) ⟨0, ![]⟩ .f32 0x00000000#32))
            (broadcastInDim ⟨2, ![200000, 1]⟩ ![0] hb1 n2g)
            (broadcastInDim ⟨1, ![200000]⟩ ![] hbn (constant (F := Ideal) ⟨0, ![]⟩ .f32 0x3F800000#32)))
          (broadcastInDim ⟨1, ![1000]⟩ ![] hbg (constant (F := Ideal) ⟨0, ![]⟩ .f32 0x3F800000#32)))))

theorem pool_term
    (dv : ScatterDims ⟨1, ![1000]⟩ ⟨2, ![200000, 1]⟩ ⟨1, ![200000]⟩) (hv : VecScatter dv)
    (dr : ScatterDims ⟨2, ![1000, 128]⟩ ⟨2, ![200000, 1]⟩ ⟨2, ![200000, 128]⟩) (hr : RowScatter dr)
    (hbn : (⟨0, ![]⟩ : Shape).BroadcastsInDim ⟨1, ![200000]⟩ ![])
    (hbg : (⟨0, ![]⟩ : Shape).BroadcastsInDim ⟨1, ![1000]⟩ ![])
    (hbz : (⟨0, ![]⟩ : Shape).BroadcastsInDim ⟨2, ![1000, 128]⟩ ![])
    (hb1 : (⟨1, ![200000]⟩ : Shape).BroadcastsInDim ⟨2, ![200000, 1]⟩ ![0])
    (hbc : (⟨1, ![1000]⟩ : Shape).BroadcastsInDim ⟨2, ![1000, 1]⟩ ![0])
    (hbr : (⟨2, ![1000, 1]⟩ : Shape).BroadcastsInDim ⟨2, ![1000, 128]⟩ ![0, 1])
    (x : FVec Ideal ⟨2, ![200000, 128]⟩ .f32) (n2g : IVec ⟨1, ![200000]⟩ 32) (g : Fin 1000) (j : Fin 128) :
    poolArr dv dr hbn hbg hbz hb1 hbc hbr x n2g (ix2 g j)
      = Cert.Spec.pool (pgOf n2g) (fun n j => x (ix2 n j)) g j := by
  unfold poolArr
  rw [hostDivf_apply, scatter_pool_apply dr hr hbz hb1 n2g _ g j, bcast_of_col_apply, bcast_col_apply,
    maximumf_apply, scatter_cnt_apply dv hv hbg hb1 n2g _ g, bcast_scalar_apply, constant_apply, Ideal.ofBits_one_f32]
  show Ideal.div _ _ = Ideal.div (∑ n ∈ Finset.univ.filter (fun n => pgOf n2g n = some g), x (ix2 n j))
    (max (∑ _n ∈ Finset.univ.filter (fun n => pgOf n2g n = some g), (1 : EReal)) 1)
  rw [Finset.sum_congr rfl fun p _ => (bcast_scalar_apply hbn _ (ix1 p)).trans
      ((constant_apply _ _).trans Ideal.ofBits_one_f32)]

theorem mlp_term
    (dv : ScatterDims ⟨1, ![1000]⟩ ⟨2, ![200000, 1]⟩ ⟨1, ![200000]⟩) (hv : VecScatter dv)
    (dr : ScatterDims ⟨2, ![1000, 128]⟩ ⟨2, ![200000, 1]⟩ ⟨2, ![200000, 128]⟩) (hr : RowScatter dr)
    (hbn : (⟨0, ![]⟩ : Shape).BroadcastsInDim ⟨1, ![200000]⟩ ![])
    (hbg : (⟨0, ![]⟩ : Shape).BroadcastsInDim ⟨1, ![1000]⟩ ![])
    (hbz : (⟨0, ![]⟩ : Shape).BroadcastsInDim ⟨2, ![1000, 128]⟩ ![])
    (hb1 : (⟨1, ![200000]⟩ : Shape).BroadcastsInDim ⟨2, ![200000, 1]⟩ ![0])
    (hbc : (⟨1, ![1000]⟩ : Shape).BroadcastsInDim ⟨2, ![1000, 1]⟩ ![0])
    (hbr : (⟨2, ![1000, 1]⟩ : Shape).BroadcastsInDim ⟨2, ![1000, 128]⟩ ![0, 1])
    (hbv : (⟨1, ![128]⟩ : Shape).BroadcastsInDim ⟨2, ![1, 128]⟩ ![1])
    (hbw : (⟨2, ![1, 128]⟩ : Shape).BroadcastsInDim ⟨2, ![1000, 128]⟩ ![0, 1])
    (x : FVec Ideal ⟨2, ![200000, 128]⟩ .f32) (n2g : IVec ⟨1, ![200000]⟩ 32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) (p : Fin 1000) (q : Fin 128) :
    addf
        (Host.dotGeneral dot_S1000x128_S128x128_S1000x128_1_0_0_1_n_n none
          (maximumf
            (addf
              (Host.dotGeneral dot_S1000x128_S128x128_S1000x128_1_0_0_1_n_n none
                (poolArr dv dr hbn hbg hbz hb1 hbc hbr x n2g) W1)
              (broadcastInDim ⟨2, ![1000, 128]⟩ ![0, 1] hbw (broadcastInDim ⟨2, ![1, 128]⟩ ![1] hbv b1)))
            (broadcastInDim ⟨2, ![1000, 128]⟩ ![] hbz (constant (F := Ideal) ⟨0, ![]⟩ .f32 0x00000000#32)))
          W2)
        (broadcastInDim ⟨2, ![1000, 128]⟩ ![0, 1] hbw (broadcastInDim ⟨2, ![1, 128]⟩ ![1] hbv b2)) (ix2 p q)
      = Cert.Spec.mlp (Cert.Spec.pool (pgOf n2g) (fun n j => x (ix2 n j))) (fun j k => W1 (ix2 j k)) (fun k => b1 (ix1 k))
          (fun k q => W2 (ix2 k q)) (fun q => b2 (ix1 q)) p q := by
  have hh : ∀ k : Fin 128,
      maximumf
          (addf
            (Host.dotGeneral dot_S1000x128_S128x128_S1000x128_1_0_0_1_n_n none
              (poolArr dv dr hbn hbg hbz hb1 hbc hbr x n2g) W1)
            (broadcastInDim ⟨2, ![1000, 128]⟩ ![0, 1] hbw (broadcastInDim ⟨2, ![1, 128]⟩ ![1] hbv b1)))
          (broadcastInDim ⟨2, ![1000, 128]⟩ ![] hbz (constant (F := Ideal) ⟨0, ![]⟩ .f32 0x00000000#32)) (ix2 p k)
        = max ((∑ j : Fin 128, Cert.Spec.pool (pgOf n2g) (fun n j => x (ix2 n j)) p j * W1 (ix2 j k)) + b1 (ix1 k)) 0 :=
    fun k => by
      rw [maximumf_apply, addf_apply, ref_dot_apply, bcast_of_row_apply, bcast_vec_row_apply, bcast_scalar_apply,
        constant_apply, Ideal.ofBits_zero_f32,
        Finset.sum_congr rfl fun j _ => by rw [pool_term dv hv dr hr hbn hbg hbz hb1 hbc hbr x n2g p j]]
  rw [addf_apply, ref_dot_apply, bcast_of_row_apply, bcast_vec_row_apply, Finset.sum_congr rfl fun k _ => by rw [hh k]]
  rfl

set_option maxHeartbeats 6400000 in

theorem ref_out (Vin : Valuation τ sig (Elt Ideal)) (p : Fin 1000) (q : Fin 128) :
    (StableHlo.after (opsE (F := Ideal)) Vin (main_v313 : DevRef τ sig) : (⟨S1000x128, .f32⟩ : BufTy).Contents (Elt Ideal)) (ix2 p q)
      = Cert.Spec.mlp
          (Cert.Spec.pool (pgOf (Vin (main_arg4 : DevRef τ sig) : (⟨S200000, .i32⟩ : BufTy).Contents (Elt Ideal)))
            (fun n j => (Vin (main_v292 : DevRef τ sig) : (⟨S200000x128, .f32⟩ : BufTy).Contents (Elt Ideal)) (ix2 n j)))
          (fun j k => (Vin (main_arg11 : DevRef τ sig) : (⟨S128x128, .f32⟩ : BufTy).Contents (Elt Ideal)) (ix2 j k))
          (fun k => (Vin (main_arg12 : DevRef τ sig) : (⟨S128, .f32⟩ : BufTy).Contents (Elt Ideal)) (ix1 k))
          (fun k q => (Vin (main_arg13 : DevRef τ sig) : (⟨S128x128, .f32⟩ : BufTy).Contents (Elt Ideal)) (ix2 k q))
          (fun q => (Vin (main_arg14 : DevRef τ sig) : (⟨S128, .f32⟩ : BufTy).Contents (Elt Ideal)) (ix1 q)) p q := by
  dsimp only [opsE]
  open StableHlo in after_results_simp
  exact mlp_term _ ⟨rfl, rfl, rfl, rfl⟩ _ ⟨rfl, rfl, rfl, rfl⟩ _ _ _ _ _ _ _ _ _ _ _ _ _ _ p q

end Cert.ReferenceIdeal.Val

end
-- ==== Proof.Ref.Chain.lean ====
import proofs.«123582_j22084721836889_2_alg».proof.Proof.Ref.Run
import proofs.«123582_j22084721836889_2_alg».proof.Proof.Math.Net
import proofs.«123582_j22084721836889_2_alg».proof.Proof.Math.HostRead
import proofs.«123582_j22084721836889_2_alg».proof.Proof.Ref.ReadLib
import proofs.«123582_j22084721836889_2_alg».proof.Proof.Ref.ReadP
import proofs.«123582_j22084721836889_2_alg».proof.Proof.Ref.ReadL0
import proofs.«123582_j22084721836889_2_alg».proof.Proof.Ref.ReadL1
import proofs.«123582_j22084721836889_2_alg».proof.Proof.Ref.ReadL2
import proofs.«123582_j22084721836889_2_alg».proof.Proof.Ref.ReadL3
import proofs.«123582_j22084721836889_2_alg».proof.Proof.Ref.ReadL4
import proofs.«123582_j22084721836889_2_alg».proof.Proof.Ref.ReadE
import Idealize.ShloMosaic.Lib.ValueIdx

set_option maxRecDepth 65536

noncomputable section

namespace Cert.ReferenceIdeal.Val

open Cert.ReferenceIdeal Cert.ReferenceIdeal.Hand
open Idealize.ShloMosaic Idealize.ShloMosaic.TcCoe Idealize.ShloMosaic.ValueIdx Idealize.ShloMosaic.StableHlo
open Cert.Spec Cert.Hand.HostRead

abbrev rNfeat (V : Vl) : IVec S200000 32 := (V (main_arg0 : DevRef τ sig) : (⟨S200000, .i32⟩ : BufTy).Contents (Elt Ideal))
abbrev rEfeat (V : Vl) : IVec S400000 32 := (V (main_arg1 : DevRef τ sig) : (⟨S400000, .i32⟩ : BufTy).Contents (Elt Ideal))
abbrev rSrc (V : Vl) : IVec S400000 32 := (V (main_arg2 : DevRef τ sig) : (⟨S400000, .i32⟩ : BufTy).Contents (Elt Ideal))
abbrev rDst (V : Vl) : IVec S400000 32 := (V (main_arg3 : DevRef τ sig) : (⟨S400000, .i32⟩ : BufTy).Contents (Elt Ideal))
abbrev rN2g (V : Vl) : IVec S200000 32 := (V (main_arg4 : DevRef τ sig) : (⟨S200000, .i32⟩ : BufTy).Contents (Elt Ideal))

abbrev rNf (V : Vl) : Fin NN → Fin 119 := nfOf (rNfeat V)
abbrev rGs (V : Vl) : Fin NE → Fin NN := gsOf 200000 (rSrc V)
abbrev rTg (V : Vl) : Fin NE → Option (Fin NN) := tgOf 200000 (rDst V)
abbrev rEf (V : Vl) : Fin NE → Fin 5 := gsOf 5 (rEfeat V)
abbrev rPg (V : Vl) : Fin NN → Option (Fin NG) := pgOf (rN2g V)

abbrev rAtom (V : Vl) : Fin 119 → Fin DD → EReal :=
  fun p k => (V (main_arg5 : DevRef τ sig) : (⟨S119x128, .f32⟩ : BufTy).Contents (Elt Ideal)) (ix2 p k)
abbrev rEmb (V : Vl) : Fin 5 → Fin 5 → Fin DD → EReal :=
  fun l v k => (V (main_arg6 : DevRef τ sig) : (⟨S5x5x128, .f32⟩ : BufTy).Contents (Elt Ideal)) (ix3 l v k)
abbrev rWm (V : Vl) : Fin 5 → Fin DD → Fin DD → EReal :=
  fun l k q => (V (main_arg7 : DevRef τ sig) : (⟨S5x128x128, .f32⟩ : BufTy).Contents (Elt Ideal)) (ix3 l k q)
abbrev rB (V : Vl) : Fin 5 → Fin DD → EReal :=
  fun l q => (V (main_arg8 : DevRef τ sig) : (⟨S5x128, .f32⟩ : BufTy).Contents (Elt Ideal)) (ix2 l q)
abbrev rGam (V : Vl) : Fin 5 → Fin DD → EReal :=
  fun l q => (V (main_arg9 : DevRef τ sig) : (⟨S5x128, .f32⟩ : BufTy).Contents (Elt Ideal)) (ix2 l q)
abbrev rBet (V : Vl) : Fin 5 → Fin DD → EReal :=
  fun l q => (V (main_arg10 : DevRef τ sig) : (⟨S5x128, .f32⟩ : BufTy).Contents (Elt Ideal)) (ix2 l q)
abbrev rW1 (V : Vl) : Fin DD → Fin DD → EReal :=
  fun j k => (V (main_arg11 : DevRef τ sig) : (⟨S128x128, .f32⟩ : BufTy).Contents (Elt Ideal)) (ix2 j k)
abbrev rB1 (V : Vl) : Fin DD → EReal :=
  fun k => (V (main_arg12 : DevRef τ sig) : (⟨S128, .f32⟩ : BufTy).Contents (Elt Ideal)) (ix1 k)
abbrev rW2 (V : Vl) : Fin DD → Fin DD → EReal :=
  fun j k => (V (main_arg13 : DevRef τ sig) : (⟨S128x128, .f32⟩ : BufTy).Contents (Elt Ideal)) (ix2 j k)
abbrev rB2 (V : Vl) : Fin DD → EReal :=
  fun k => (V (main_arg14 : DevRef τ sig) : (⟨S128, .f32⟩ : BufTy).Contents (Elt Ideal)) (ix1 k)

abbrev rowsOf (X : (⟨S200000x128, .f32⟩ : BufTy).Contents (Elt Ideal)) : Fin NN → Fin DD → EReal := fun p k => X (ix2 p k)

abbrev DegAt (Vin : Vl) : Prop :=
  ∀ p : Fin 200000, (Vin (main_v12 : DevRef τ sig) : (⟨S200000, .f32⟩ : BufTy).Contents (Elt Ideal)) (ix1 p) = deg (rTg Vin) p

abbrev layerOut (Vin : Vl) (l : Fin 5) (hin : (⟨S200000x128, .f32⟩ : BufTy).Contents (Elt Ideal)) : Fin NN → Fin DD → EReal :=
  rbn (rlin (rGs Vin) (rTg Vin) (rEf Vin) (rowsOf hin) (rEmb Vin l) (rWm Vin l) (rB Vin l)) (rGam Vin l) (rBet Vin l)

abbrev argRefs : List (Ref sig .tc) :=
  [main_arg0, main_arg1, main_arg2, main_arg3, main_arg4, main_arg5, main_arg6, main_arg7, main_arg8, main_arg9, main_arg10,
    main_arg11, main_arg12, main_arg13, main_arg14]

def Same (V V' : Vl) : Prop := ∀ r ∈ argRefs, V' (Proc.devRef .tc r) = V (Proc.devRef .tc r)

theorem Same.refl (V : Vl) : Same V V := fun _ _ => rfl

theorem Same.step {V V' : Vl} (X : List (HloOp τ sig (Elt Ideal))) {W : List (Ref sig .tc)}
    (hW : X.Forall fun op => op.writes ⊆ (W.map (Proc.devRef (τ := τ) .tc)).toFinset) (hX : ∀ r ∈ argRefs, r ∉ W)
    (h : Same V V') : Same V (after X V') :=
  fun r hr => (after_of_writes_sub X V' hW (hX r hr)).trans (h r hr)

theorem argsP : ∀ r ∈ argRefs, r ∉ opsP_W := by decide
theorem argsL0 : ∀ r ∈ argRefs, r ∉ opsL0_W := by decide
theorem argsL1 : ∀ r ∈ argRefs, r ∉ opsL1_W := by decide
theorem argsL2 : ∀ r ∈ argRefs, r ∉ opsL2_W := by decide
theorem argsL3 : ∀ r ∈ argRefs, r ∉ opsL3_W := by decide
theorem argsL4 : ∀ r ∈ argRefs, r ∉ opsL4_W := by decide

structure SameIn (V V' : Vl) : Prop where
  nf : rNf V' = rNf V
  gs : rGs V' = rGs V
  tg : rTg V' = rTg V
  ef : rEf V' = rEf V
  pg : rPg V' = rPg V
  atom : rAtom V' = rAtom V
  emb : rEmb V' = rEmb V
  wm : rWm V' = rWm V
  b : rB V' = rB V
  gam : rGam V' = rGam V
  bet : rBet V' = rBet V
  w1 : rW1 V' = rW1 V
  b1 : rB1 V' = rB1 V
  w2 : rW2 V' = rW2 V
  b2 : rB2 V' = rB2 V

theorem Same.ins {V V' : Vl} (h : Same V V') : SameIn V V' where
  nf := congrArg (fun x : (⟨S200000, .i32⟩ : BufTy).Contents (Elt Ideal) => nfOf x) (h main_arg0 (by decide))
  gs := congrArg (fun x : (⟨S400000, .i32⟩ : BufTy).Contents (Elt Ideal) => gsOf 200000 x) (h main_arg2 (by decide))
  tg := congrArg (fun x : (⟨S400000, .i32⟩ : BufTy).Contents (Elt Ideal) => tgOf 200000 x) (h main_arg3 (by decide))
  ef := congrArg (fun x : (⟨S400000, .i32⟩ : BufTy).Contents (Elt Ideal) => gsOf 5 x) (h main_arg1 (by decide))
  pg := congrArg (fun x : (⟨S200000, .i32⟩ : BufTy).Contents (Elt Ideal) => pgOf x) (h main_arg4 (by decide))
  atom := congrArg (fun (x : (⟨S119x128, .f32⟩ : BufTy).Contents (Elt Ideal)) (p : Fin 119) (k : Fin DD) => x (ix2 p k)) (h main_arg5 (by decide))
  emb := congrArg (fun (x : (⟨S5x5x128, .f32⟩ : BufTy).Contents (Elt Ideal)) (l v : Fin 5) (k : Fin DD) => x (ix3 l v k)) (h main_arg6 (by decide))
  wm := congrArg (fun (x : (⟨S5x128x128, .f32⟩ : BufTy).Contents (Elt Ideal)) (l : Fin 5) (k q : Fin DD) => x (ix3 l k q)) (h main_arg7 (by decide))
  b := congrArg (fun (x : (⟨S5x128, .f32⟩ : BufTy).Contents (Elt Ideal)) (l : Fin 5) (q : Fin DD) => x (ix2 l q)) (h main_arg8 (by decide))
  gam := congrArg (fun (x : (⟨S5x128, .f32⟩ : BufTy).Contents (Elt Ideal)) (l : Fin 5) (q : Fin DD) => x (ix2 l q)) (h main_arg9 (by decide))
  bet := congrArg (fun (x : (⟨S5x128, .f32⟩ : BufTy).Contents (Elt Ideal)) (l : Fin 5) (q : Fin DD) => x (ix2 l q)) (h main_arg10 (by decide))
  w1 := congrArg (fun (x : (⟨S128x128, .f32⟩ : BufTy).Contents (Elt Ideal)) (j k : Fin DD) => x (ix2 j k)) (h main_arg11 (by decide))
  b1 := congrArg (fun (x : (⟨S128, .f32⟩ : BufTy).Contents (Elt Ideal)) (k : Fin DD) => x (ix1 k)) (h main_arg12 (by decide))
  w2 := congrArg (fun (x : (⟨S128x128, .f32⟩ : BufTy).Contents (Elt Ideal)) (j k : Fin DD) => x (ix2 j k)) (h main_arg13 (by decide))
  b2 := congrArg (fun (x : (⟨S128, .f32⟩ : BufTy).Contents (Elt Ideal)) (k : Fin DD) => x (ix1 k)) (h main_arg14 (by decide))

theorem layerOut_congr {V V' : Vl} (i : SameIn V V') (l : Fin 5) (hin : (⟨S200000x128, .f32⟩ : BufTy).Contents (Elt Ideal)) :
    layerOut V' l hin = layerOut V l hin := by
  show rbn (rlin (rGs V') (rTg V') (rEf V') (rowsOf hin) (rEmb V' l) (rWm V' l) (rB V' l)) (rGam V' l) (rBet V' l)
    = rbn (rlin (rGs V) (rTg V) (rEf V) (rowsOf hin) (rEmb V l) (rWm V l) (rB V l)) (rGam V l) (rBet V l)
  rw [i.gs, i.tg, i.ef, i.emb, i.wm, i.b, i.gam, i.bet]

theorem layerOut_eq (V : Vl) (l : Fin 5) (hin : (⟨S200000x128, .f32⟩ : BufTy).Contents (Elt Ideal)) (H : Fin NN → Fin DD → EReal)
    (hH : rowsOf hin = H) :
    layerOut V l hin = rlayer (rGs V) (rTg V) (rEf V) H (rEmb V l) (rWm V l) (rB V l) (rGam V l) (rBet V l) := by
  subst hH; rfl

theorem chain
    (hP6 : ∀ (Vin : Vl) (p : Fin 200000) (k : Fin 128),
      (after (opsP (F := Ideal)) Vin (main_v6 : DevRef τ sig) : (⟨S200000x128, .f32⟩ : BufTy).Contents (Elt Ideal)) (ix2 p k)
        = rAtom Vin (rNf Vin p) k)
    (hP12 : ∀ (Vin : Vl) (p : Fin 200000),
      (after (opsP (F := Ideal)) Vin (main_v12 : DevRef τ sig) : (⟨S200000, .f32⟩ : BufTy).Contents (Elt Ideal)) (ix1 p)
        = deg (rTg Vin) p)
    (hL0 : ∀ (Vin : Vl), DegAt Vin → ∀ (p : Fin 200000) (q : Fin 128),
      (after (opsL0 (F := Ideal)) Vin (main_v68 : DevRef τ sig) : (⟨S200000x128, .f32⟩ : BufTy).Contents (Elt Ideal)) (ix2 p q)
        = layerOut Vin 0 (Vin (main_v6 : DevRef τ sig)) p q)
    (hL1 : ∀ (Vin : Vl), DegAt Vin → ∀ (p : Fin 200000) (q : Fin 128),
      (after (opsL1 (F := Ideal)) Vin (main_v124 : DevRef τ sig) : (⟨S200000x128, .f32⟩ : BufTy).Contents (Elt Ideal)) (ix2 p q)
        = layerOut Vin 1 (Vin (main_v68 : DevRef τ sig)) p q)
    (hL2 : ∀ (Vin : Vl), DegAt Vin → ∀ (p : Fin 200000) (q : Fin 128),
      (after (opsL2 (F := Ideal)) Vin (main_v180 : DevRef τ sig) : (⟨S200000x128, .f32⟩ : BufTy).Contents (Elt Ideal)) (ix2 p q)
        = layerOut Vin 2 (Vin (main_v124 : DevRef τ sig)) p q)
    (hL3 : ∀ (Vin : Vl), DegAt Vin → ∀ (p : Fin 200000) (q : Fin 128),
      (after (opsL3 (F := Ideal)) Vin (main_v236 : DevRef τ sig) : (⟨S200000x128, .f32⟩ : BufTy).Contents (Elt Ideal)) (ix2 p q)
        = layerOut Vin 3 (Vin (main_v180 : DevRef τ sig)) p q)
    (hL4 : ∀ (Vin : Vl), DegAt Vin → ∀ (p : Fin 200000) (q : Fin 128),
      (after (opsL4 (F := Ideal)) Vin (main_v292 : DevRef τ sig) : (⟨S200000x128, .f32⟩ : BufTy).Contents (Elt Ideal)) (ix2 p q)
        = layerOut Vin 4 (Vin (main_v236 : DevRef τ sig)) p q)
    (hE : ∀ (Vin : Vl) (p : Fin 1000) (q : Fin 128),
      (after (opsE (F := Ideal)) Vin (main_v313 : DevRef τ sig) : (⟨S1000x128, .f32⟩ : BufTy).Contents (Elt Ideal)) (ix2 p q)
        = mlp (pool (rPg Vin) (rowsOf (Vin (main_v292 : DevRef τ sig)))) (rW1 Vin) (rB1 Vin) (rW2 Vin) (rB2 Vin) p q)
    (V V1 V2 V3 V4 V5 V6 : Vl) (e1 : V1 = after (opsP (F := Ideal)) V) (e2 : V2 = after (opsL0 (F := Ideal)) V1)
    (e3 : V3 = after (opsL1 (F := Ideal)) V2) (e4 : V4 = after (opsL2 (F := Ideal)) V3) (e5 : V5 = after (opsL3 (F := Ideal)) V4)
    (e6 : V6 = after (opsL4 (F := Ideal)) V5) (p : Fin 1000) (q : Fin 128) :
    (after (opsE (F := Ideal)) V6 (main_v313 : DevRef τ sig) : (⟨S1000x128, .f32⟩ : BufTy).Contents (Elt Ideal)) (ix2 p q)
      = rnet (rGs V) (rTg V) (rEf V) (rPg V) (rNf V) (rAtom V) (rEmb V) (rWm V) (rB V) (rGam V) (rBet V)
          (rW1 V) (rB1 V) (rW2 V) (rB2 V) p q := by

  have s1 : Same V V1 := e1 ▸ Same.step opsP opsP_writes argsP (Same.refl V)
  have s2 : Same V V2 := e2 ▸ Same.step opsL0 opsL0_writes argsL0 s1
  have s3 : Same V V3 := e3 ▸ Same.step opsL1 opsL1_writes argsL1 s2
  have s4 : Same V V4 := e4 ▸ Same.step opsL2 opsL2_writes argsL2 s3
  have s5 : Same V V5 := e5 ▸ Same.step opsL3 opsL3_writes argsL3 s4
  have s6 : Same V V6 := e6 ▸ Same.step opsL4 opsL4_writes argsL4 s5
  have i1 := s1.ins; have i2 := s2.ins; have i3 := s3.ins; have i4 := s4.ins; have i5 := s5.ins; have i6 := s6.ins

  have D1 : ∀ p : Fin 200000, (V1 (main_v12 : DevRef τ sig) : (⟨S200000, .f32⟩ : BufTy).Contents (Elt Ideal)) (ix1 p) = deg (rTg V) p :=
    fun p => by rw [e1]; exact hP12 V p
  have D2 : ∀ p : Fin 200000, (V2 (main_v12 : DevRef τ sig) : (⟨S200000, .f32⟩ : BufTy).Contents (Elt Ideal)) (ix1 p) = deg (rTg V) p :=
    fun p => by rw [e2, after_of_writes_sub (r := main_v12) opsL0 V1 opsL0_writes (by decide)]; exact D1 p
  have D3 : ∀ p : Fin 200000, (V3 (main_v12 : DevRef τ sig) : (⟨S200000, .f32⟩ : BufTy).Contents (Elt Ideal)) (ix1 p) = deg (rTg V) p :=
    fun p => by rw [e3, after_of_writes_sub (r := main_v12) opsL1 V2 opsL1_writes (by decide)]; exact D2 p
  have D4 : ∀ p : Fin 200000, (V4 (main_v12 : DevRef τ sig) : (⟨S200000, .f32⟩ : BufTy).Contents (Elt Ideal)) (ix1 p) = deg (rTg V) p :=
    fun p => by rw [e4, after_of_writes_sub (r := main_v12) opsL2 V3 opsL2_writes (by decide)]; exact D3 p
  have D5 : ∀ p : Fin 200000, (V5 (main_v12 : DevRef τ sig) : (⟨S200000, .f32⟩ : BufTy).Contents (Elt Ideal)) (ix1 p) = deg (rTg V) p :=
    fun p => by rw [e5, after_of_writes_sub (r := main_v12) opsL3 V4 opsL3_writes (by decide)]; exact D4 p
  have G1 : DegAt V1 := fun p => by rw [i1.tg]; exact D1 p
  have G2 : DegAt V2 := fun p => by rw [i2.tg]; exact D2 p
  have G3 : DegAt V3 := fun p => by rw [i3.tg]; exact D3 p
  have G4 : DegAt V4 := fun p => by rw [i4.tg]; exact D4 p
  have G5 : DegAt V5 := fun p => by rw [i5.tg]; exact D5 p

  have A : rowsOf (V1 (main_v6 : DevRef τ sig)) = h0 (rNf V) (rAtom V) :=
    funext fun p => funext fun k => by
      show (V1 (main_v6 : DevRef τ sig) : (⟨S200000x128, .f32⟩ : BufTy).Contents (Elt Ideal)) (ix2 p k) = rAtom V (rNf V p) k
      rw [e1]; exact hP6 V p k

  have A0 : rowsOf (V2 (main_v68 : DevRef τ sig))
      = rlayer (rGs V) (rTg V) (rEf V) (h0 (rNf V) (rAtom V)) (rEmb V 0) (rWm V 0) (rB V 0) (rGam V 0) (rBet V 0) :=
    funext fun p => funext fun k => by
      show (V2 (main_v68 : DevRef τ sig) : (⟨S200000x128, .f32⟩ : BufTy).Contents (Elt Ideal)) (ix2 p k) = _
      rw [e2, hL0 V1 G1 p k, layerOut_congr i1, layerOut_eq V 0 _ _ A]
  have A1 : rowsOf (V3 (main_v124 : DevRef τ sig))
      = rlayer (rGs V) (rTg V) (rEf V) (rowsOf (V2 (main_v68 : DevRef τ sig))) (rEmb V 1) (rWm V 1) (rB V 1) (rGam V 1) (rBet V 1) :=
    funext fun p => funext fun k => by
      show (V3 (main_v124 : DevRef τ sig) : (⟨S200000x128, .f32⟩ : BufTy).Contents (Elt Ideal)) (ix2 p k) = _
      rw [e3, hL1 V2 G2 p k, layerOut_congr i2, layerOut_eq V 1 _ _ rfl]
  have A2 : rowsOf (V4 (main_v180 : DevRef τ sig))
      = rlayer (rGs V) (rTg V) (rEf V) (rowsOf (V3 (main_v124 : DevRef τ sig))) (rEmb V 2) (rWm V 2) (rB V 2) (rGam V 2) (rBet V 2) :=
    funext fun p => funext fun k => by
      show (V4 (main_v180 : DevRef τ sig) : (⟨S200000x128, .f32⟩ : BufTy).Contents (Elt Ideal)) (ix2 p k) = _
      rw [e4, hL2 V3 G3 p k, layerOut_congr i3, layerOut_eq V 2 _ _ rfl]
  have A3 : rowsOf (V5 (main_v236 : DevRef τ sig))
      = rlayer (rGs V) (rTg V) (rEf V) (rowsOf (V4 (main_v180 : DevRef τ sig))) (rEmb V 3) (rWm V 3) (rB V 3) (rGam V 3) (rBet V 3) :=
    funext fun p => funext fun k => by
      show (V5 (main_v236 : DevRef τ sig) : (⟨S200000x128, .f32⟩ : BufTy).Contents (Elt Ideal)) (ix2 p k) = _
      rw [e5, hL3 V4 G4 p k, layerOut_congr i4, layerOut_eq V 3 _ _ rfl]
  have A4 : rowsOf (V6 (main_v292 : DevRef τ sig))
      = rlayer (rGs V) (rTg V) (rEf V) (rowsOf (V5 (main_v236 : DevRef τ sig))) (rEmb V 4) (rWm V 4) (rB V 4) (rGam V 4) (rBet V 4) :=
    funext fun p => funext fun k => by
      show (V6 (main_v292 : DevRef τ sig) : (⟨S200000x128, .f32⟩ : BufTy).Contents (Elt Ideal)) (ix2 p k) = _
      rw [e6, hL4 V5 G5 p k, layerOut_congr i5, layerOut_eq V 4 _ _ rfl]

  rw [hE V6 p q, i6.pg, i6.w1, i6.b1, i6.w2, i6.b2, A4, A3, A2, A1, A0]
  rfl

theorem ref_net_of
    (hP6 : ∀ (Vin : Vl) (p : Fin 200000) (k : Fin 128),
      (after (opsP (F := Ideal)) Vin (main_v6 : DevRef τ sig) : (⟨S200000x128, .f32⟩ : BufTy).Contents (Elt Ideal)) (ix2 p k)
        = rAtom Vin (rNf Vin p) k)
    (hP12 : ∀ (Vin : Vl) (p : Fin 200000),
      (after (opsP (F := Ideal)) Vin (main_v12 : DevRef τ sig) : (⟨S200000, .f32⟩ : BufTy).Contents (Elt Ideal)) (ix1 p)
        = deg (rTg Vin) p)
    (hL0 : ∀ (Vin : Vl), DegAt Vin → ∀ (p : Fin 200000) (q : Fin 128),
      (after (opsL0 (F := Ideal)) Vin (main_v68 : DevRef τ sig) : (⟨S200000x128, .f32⟩ : BufTy).Contents (Elt Ideal)) (ix2 p q)
        = layerOut Vin 0 (Vin (main_v6 : DevRef τ sig)) p q)
    (hL1 : ∀ (Vin : Vl), DegAt Vin → ∀ (p : Fin 200000) (q : Fin 128),
      (after (opsL1 (F := Ideal)) Vin (main_v124 : DevRef τ sig) : (⟨S200000x128, .f32⟩ : BufTy).Contents (Elt Ideal)) (ix2 p q)
        = layerOut Vin 1 (Vin (main_v68 : DevRef τ sig)) p q)
    (hL2 : ∀ (Vin : Vl), DegAt Vin → ∀ (p : Fin 200000) (q : Fin 128),
      (after (opsL2 (F := Ideal)) Vin (main_v180 : DevRef τ sig) : (⟨S200000x128, .f32⟩ : BufTy).Contents (Elt Ideal)) (ix2 p q)
        = layerOut Vin 2 (Vin (main_v124 : DevRef τ sig)) p q)
    (hL3 : ∀ (Vin : Vl), DegAt Vin → ∀ (p : Fin 200000) (q : Fin 128),
      (after (opsL3 (F := Ideal)) Vin (main_v236 : DevRef τ sig) : (⟨S200000x128, .f32⟩ : BufTy).Contents (Elt Ideal)) (ix2 p q)
        = layerOut Vin 3 (Vin (main_v180 : DevRef τ sig)) p q)
    (hL4 : ∀ (Vin : Vl), DegAt Vin → ∀ (p : Fin 200000) (q : Fin 128),
      (after (opsL4 (F := Ideal)) Vin (main_v292 : DevRef τ sig) : (⟨S200000x128, .f32⟩ : BufTy).Contents (Elt Ideal)) (ix2 p q)
        = layerOut Vin 4 (Vin (main_v236 : DevRef τ sig)) p q)
    (hE : ∀ (Vin : Vl) (p : Fin 1000) (q : Fin 128),
      (after (opsE (F := Ideal)) Vin (main_v313 : DevRef τ sig) : (⟨S1000x128, .f32⟩ : BufTy).Contents (Elt Ideal)) (ix2 p q)
        = mlp (pool (rPg Vin) (rowsOf (Vin (main_v292 : DevRef τ sig)))) (rW1 Vin) (rB1 Vin) (rW2 Vin) (rB2 Vin) p q)
    (V : Vl) (p : Fin 1000) (q : Fin 128) :
    (after (ops (F := Ideal)) V (main_v313 : DevRef τ sig) : (⟨S1000x128, .f32⟩ : BufTy).Contents (Elt Ideal)) (ix2 p q)
      = rnet (rGs V) (rTg V) (rEf V) (rPg V) (rNf V) (rAtom V) (rEmb V) (rWm V) (rB V) (rGam V) (rBet V)
          (rW1 V) (rB1 V) (rW2 V) (rB2 V) p q := by
  rw [after_ops]
  exact chain hP6 hP12 hL0 hL1 hL2 hL3 hL4 hE V _ _ _ _ _ _ rfl rfl rfl rfl rfl rfl p q

theorem ref_net (V : Vl) (p : Fin 1000) (q : Fin 128) :
    (after (ops (F := Ideal)) V (main_v313 : DevRef τ sig) : (⟨S1000x128, .f32⟩ : BufTy).Contents (Elt Ideal)) (ix2 p q)
      = rnet (rGs V) (rTg V) (rEf V) (rPg V) (rNf V) (rAtom V) (rEmb V) (rWm V) (rB V) (rGam V) (rBet V)
          (rW1 V) (rB1 V) (rW2 V) (rB2 V) p q :=
  ref_net_of ref_h0 ref_deg ref_layer0 ref_layer1 ref_layer2 ref_layer3 ref_layer4 ref_out V p q

end Cert.ReferenceIdeal.Val

end
-- ==== Proof.Math.PreDecode.lean ====
import proofs.«123582_j22084721836889_2_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Hand.Pre

open Idealize.ShloMosaic Idealize.ShloMosaic.ValueIdx
open Cert.Pre_finite_inputs

variable [Cert.Pre_finite_inputs.Facts]

instance : Subsingleton S_.Idx := ⟨fun a b => funext fun d => d.elim0⟩

theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  simp only [Ideal.cmp, StableHlo.Predicate.ofBool_eq_one_iff, decide_eq_true_eq] at h
  induction x using EReal.rec with
  | bot => simp at h
  | coe r => exact ⟨r, rfl⟩
  | top => simp at h

theorem finite_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) (i : s.Idx) : ∃ r : ℝ, x i = (r : EReal) :=
  real_of_abs_lt_inf (x i) (Host.reduce_andi_all _ _ hr hu ix0 e i)

theorem range_of_all {s : Shape} {axes : List (Fin s.rank)} (v : IVec s 32)
    (hb : S_.BroadcastsInDim s (![] : Fin 0 → Fin s.rank)) (hr : s.ReducesTo axes S_) (hu : 0 < S_.numel)
    (e : Host.reduce IntOp.andi
        (andi (cmpi .sge v (broadcastInDim s ![] hb (constantI S_ 32 0#32)))
          (cmpi .slt v (broadcastInDim s ![] hb (constantI S_ 32 5#32))))
        (constantI S_ 1 1#1) hr hu ix0 = 1#1) (i : s.Idx) : 0 ≤ (v i).toInt ∧ (v i).toInt < 5 := by
  have hi := Host.reduce_andi_all _ _ hr hu ix0 e i
  dsimp only [andi, cmpi, broadcastInDim, constantI] at hi
  obtain ⟨h0, h5⟩ := IntOp.andi_eq_one.1 hi
  have z0 : (0#32 : BitVec 32).toInt = 0 := by decide
  have z5 : (5#32 : BitVec 32).toInt = 5 := by decide
  exact ⟨z0 ▸ IntOp.cmpi_sge.1 h0, z5 ▸ IntOp.cmpi_slt.1 h5⟩

theorem finite_of_pre (a0 : IVec S200000 32) (a1 a2 a3 : IVec S400000 32) (a4 : IVec S200000 32) (a5 : FVec Ideal S119x128 .f32) (a6 : FVec Ideal S5x5x128 .f32) (a7 : FVec Ideal S5x128x128 .f32) (a8 a9 a10 : FVec Ideal S5x128 .f32) (a11 : FVec Ideal S128x128 .f32) (a12 : FVec Ideal S128 .f32) (a13 : FVec Ideal S128x128 .f32) (a14 : FVec Ideal S128 .f32)
    (h : Cert.Pre_finite_inputs.fn (F := Ideal) a0 a1 a2 a3 a4 a5 a6 a7 a8 a9 a10 a11 a12 a13 a14 = (fun _ => 1#1)) :
    (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal)) ∧ (∀ i, ∃ r : ℝ, a10 i = (r : EReal))
      ∧ (∀ i, ∃ r : ℝ, a11 i = (r : EReal)) ∧ (∀ i, ∃ r : ℝ, a12 i = (r : EReal)) ∧ (∀ i, ∃ r : ℝ, a13 i = (r : EReal))
      ∧ (∀ i, ∃ r : ℝ, a14 i = (r : EReal))
      ∧ (∀ e : S400000.Idx, 0 ≤ (a1 e).toInt ∧ (a1 e).toInt < 5) := by

  have e := congrFun h ix0
  dsimp only [fn, fn_part1, fn_part2, fn_part3] at e

  dsimp only [andi] at e
  simp only [IntOp.andi_eq_one] at e
  obtain ⟨⟨⟨⟨⟨⟨⟨⟨⟨⟨h5, h6⟩, h7⟩, h8⟩, h9⟩, h10⟩, h11⟩, h12⟩, h13⟩, h14⟩, h1⟩ := e
  exact ⟨finite_of_all a5 _ _ _ h5, finite_of_all a6 _ _ _ h6, finite_of_all a7 _ _ _ h7, finite_of_all a8 _ _ _ h8,
    finite_of_all a9 _ _ _ h9, finite_of_all a10 _ _ _ h10, finite_of_all a11 _ _ _ h11, finite_of_all a12 _ _ _ h12,
    finite_of_all a13 _ _ _ h13, finite_of_all a14 _ _ _ h14, range_of_all a1 _ _ _ h1⟩

end Cert.Hand.Pre

end
-- ==== Proof.Final.lean ====
import proofs.«123582_j22084721836889_2_alg».proof.Defs
import proofs.«123582_j22084721836889_2_alg».proof.Proof.Gen.Kernel
import proofs.«123582_j22084721836889_2_alg».proof.Proof.Gen.KernelIdeal
import proofs.«123582_j22084721836889_2_alg».proof.Proof.Gen.ReferenceIdeal
import proofs.«123582_j22084721836889_2_alg».proof.Proof.Gen.Pre_finite_inputs
import proofs.«123582_j22084721836889_2_alg».proof.Proof.K.Frame
import proofs.«123582_j22084721836889_2_alg».proof.Proof.KI.RunVal
import proofs.«123582_j22084721836889_2_alg».proof.Proof.KV.Chain
import proofs.«123582_j22084721836889_2_alg».proof.Proof.Ref.Chain
import proofs.«123582_j22084721836889_2_alg».proof.Proof.Math.Net
import proofs.«123582_j22084721836889_2_alg».proof.Proof.Math.PreDecode

noncomputable section

namespace Cert.Proof.Final

open Idealize.ShloMosaic Idealize.ShloMosaic.TcCoe Idealize.SL.Sem Idealize.ShloMosaic.ValueIdx Idealize.ShloMosaic.StableHlo
open Cert.Hand.HostRead

theorem frame_k : Cert.frame_Kernel := fun m ρ _ => Cert.Kernel.Hand.frame m ρ

theorem frame_ki : Cert.frame_KernelIdeal := fun m ρ _ => Cert.KernelIdeal.Hand.frame m ρ

open Cert.ReferenceIdeal Cert.ReferenceIdeal.Hand in
theorem frame_ri : Cert.frame_ReferenceIdeal := fun m ρ _ =>
  (θ_run Cert.ReferenceIdeal.defs _ _).mono (fun r h c =>
    ⟨(h c main_arg0).trans (arg0_kept _),
     (h c main_arg1).trans (arg1_kept _),
     (h c main_arg2).trans (arg2_kept _),
     (h c main_arg3).trans (arg3_kept _),
     (h c main_arg4).trans (arg4_kept _),
     (h c main_arg5).trans (arg5_kept _),
     (h c main_arg6).trans (arg6_kept _),
     (h c main_arg7).trans (arg7_kept _),
     (h c main_arg8).trans (arg8_kept _),
     (h c main_arg9).trans (arg9_kept _),
     (h c main_arg10).trans (arg10_kept _),
     (h c main_arg11).trans (arg11_kept _),
     (h c main_arg12).trans (arg12_kept _),
     (h c main_arg13).trans (arg13_kept _),
     (h c main_arg14).trans (arg14_kept _)⟩)
    (run_all (F := Ideal) m ρ)

section Result

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

open Cert.KernelIdeal.Val Cert.ReferenceIdeal.Val Cert.Spec in

theorem result_eq
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = (fun _ => 1#1))
    (hag : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (p : Fin 1000) (q : Fin 128) :
    (after (Cert.ReferenceIdeal.Hand.ops (F := Ideal)) (launchContents m' c) (Cert.ReferenceIdeal.main_v313 : DevRef Cert.ReferenceIdeal.τ Cert.ReferenceIdeal.sig) : (⟨Cert.ReferenceIdeal.S1000x128, .f32⟩ : BufTy).Contents (Elt Ideal)) (ix2 p q)
      = (Cert.KernelIdeal.Hand.W29 m c (Cert.KernelIdeal.main_v239 : DevRef Cert.KernelIdeal.τ Cert.KernelIdeal.sig) : (⟨Cert.KernelIdeal.S1000x128, .f32⟩ : BufTy).Contents (Elt Ideal)) (ix2 p q) := by
  obtain ⟨h5, h6, h7, h8, h9, h10, h11, h12, h13, h14, hef⟩ := Cert.Hand.Pre.finite_of_pre _ _ _ _ _ _ _ _ _ _ _ _ _ _ _ hpre
  refine ((ref_net (launchContents m' c) p q).trans ?_).trans (kernel_out m c (fun e => hef (ix1 e)) p q).symm
  rw [net_eq (gsA m c) (tgA m c) (efA m c) (pgA m c) (nfA m c) (atomA m c) (embA m c) (WmA m c) (bA m c) (γA m c) (βA m c) (W1A m c) (b1A m c) (W2A m c) (b2A m c)
    (fun p k => h5 _) (fun l v k => h6 _) (fun l k q => h7 _) (fun l q => h8 _) (fun l q => h9 _) (fun l q => h10 _)]
  have e0 : rNf (launchContents m' c) = nfA m c := by unfold nfA; show nfOf (m' ((c.tc : Thread Cert.ReferenceIdeal.nD Cert.ReferenceIdeal.τ).loc Cert.ReferenceIdeal.main_arg0)) = _; rw [hag.1]
  have e1 : rEf (launchContents m' c) = efA m c := by unfold efA; show gsOf 5 (m' ((c.tc : Thread Cert.ReferenceIdeal.nD Cert.ReferenceIdeal.τ).loc Cert.ReferenceIdeal.main_arg1)) = _; rw [hag.2.1]
  have e2 : rGs (launchContents m' c) = gsA m c := by unfold gsA; show gsOf 200000 (m' ((c.tc : Thread Cert.ReferenceIdeal.nD Cert.ReferenceIdeal.τ).loc Cert.ReferenceIdeal.main_arg2)) = _; rw [hag.2.2.1]
  have e3 : rTg (launchContents m' c) = tgA m c := by unfold tgA; show tgOf 200000 (m' ((c.tc : Thread Cert.ReferenceIdeal.nD Cert.ReferenceIdeal.τ).loc Cert.ReferenceIdeal.main_arg3)) = _; rw [hag.2.2.2.1]
  have e4 : rPg (launchContents m' c) = pgA m c := by unfold pgA; show pgOf (m' ((c.tc : Thread Cert.ReferenceIdeal.nD Cert.ReferenceIdeal.τ).loc Cert.ReferenceIdeal.main_arg4)) = _; rw [hag.2.2.2.2.1]
  have e5 : rAtom (launchContents m' c) = atomA m c := by unfold atomA; funext p k; show (m' ((c.tc : Thread Cert.ReferenceIdeal.nD Cert.ReferenceIdeal.τ).loc Cert.ReferenceIdeal.main_arg5)) _ = _; rw [hag.2.2.2.2.2.1]
  have e6 : rEmb (launchContents m' c) = embA m c := by unfold embA; funext l v k; show (m' ((c.tc : Thread Cert.ReferenceIdeal.nD Cert.ReferenceIdeal.τ).loc Cert.ReferenceIdeal.main_arg6)) _ = _; rw [hag.2.2.2.2.2.2.1]
  have e7 : rWm (launchContents m' c) = WmA m c := by unfold WmA; funext l k q; show (m' ((c.tc : Thread Cert.ReferenceIdeal.nD Cert.ReferenceIdeal.τ).loc Cert.ReferenceIdeal.main_arg7)) _ = _; rw [hag.2.2.2.2.2.2.2.1]
  have e8 : rB (launchContents m' c) = bA m c := by unfold bA; funext l q; show (m' ((c.tc : Thread Cert.ReferenceIdeal.nD Cert.ReferenceIdeal.τ).loc Cert.ReferenceIdeal.main_arg8)) _ = _; rw [hag.2.2.2.2.2.2.2.2.1]
  have e9 : rGam (launchContents m' c) = γA m c := by unfold γA; funext l q; show (m' ((c.tc : Thread Cert.ReferenceIdeal.nD Cert.ReferenceIdeal.τ).loc Cert.ReferenceIdeal.main_arg9)) _ = _; rw [hag.2.2.2.2.2.2.2.2.2.1]
  have e10 : rBet (launchContents m' c) = βA m c := by unfold βA; funext l q; show (m' ((c.tc : Thread Cert.ReferenceIdeal.nD Cert.ReferenceIdeal.τ).loc Cert.ReferenceIdeal.main_arg10)) _ = _; rw [hag.2.2.2.2.2.2.2.2.2.2.1]
  have e11 : rW1 (launchContents m' c) = W1A m c := by unfold W1A; funext j k; show (m' ((c.tc : Thread Cert.ReferenceIdeal.nD Cert.ReferenceIdeal.τ).loc Cert.ReferenceIdeal.main_arg11)) _ = _; rw [hag.2.2.2.2.2.2.2.2.2.2.2.1]
  have e12 : rB1 (launchContents m' c) = b1A m c := by unfold b1A; funext k; show (m' ((c.tc : Thread Cert.ReferenceIdeal.nD Cert.ReferenceIdeal.τ).loc Cert.ReferenceIdeal.main_arg12)) _ = _; rw [hag.2.2.2.2.2.2.2.2.2.2.2.2.1]
  have e13 : rW2 (launchContents m' c) = W2A m c := by unfold W2A; funext j k; show (m' ((c.tc : Thread Cert.ReferenceIdeal.nD Cert.ReferenceIdeal.τ).loc Cert.ReferenceIdeal.main_arg13)) _ = _; rw [hag.2.2.2.2.2.2.2.2.2.2.2.2.2.1]
  have e14 : rB2 (launchContents m' c) = b2A m c := by unfold b2A; funext k; show (m' ((c.tc : Thread Cert.ReferenceIdeal.nD Cert.ReferenceIdeal.τ).loc Cert.ReferenceIdeal.main_arg14)) _ = _; rw [hag.2.2.2.2.2.2.2.2.2.2.2.2.2.2]
  rw [e0, e1, e2, e3, e4, e5, e6, e7, e8, e9, e10, e11, e12, e13, e14]

end Result

theorem algebraic : Cert.algebraic_KernelIdeal_ReferenceIdeal := by
  intro m ρ m' ρ' hpre hagree
  refine ⟨fun c => Cert.KernelIdeal.Hand.W29 m c Cert.KernelIdeal.main_v239, Cert.KernelIdeal.Hand.run_val m ρ, ?_⟩
  refine (θ_run Cert.ReferenceIdeal.defs _ _).mono (fun r h c => ⟨(h c Cert.ReferenceIdeal.main_v313).trans ?_,
    (h c Cert.ReferenceIdeal.main_arg0).trans (Cert.ReferenceIdeal.Hand.arg0_kept _),
    (h c Cert.ReferenceIdeal.main_arg1).trans (Cert.ReferenceIdeal.Hand.arg1_kept _),
    (h c Cert.ReferenceIdeal.main_arg2).trans (Cert.ReferenceIdeal.Hand.arg2_kept _),
    (h c Cert.ReferenceIdeal.main_arg3).trans (Cert.ReferenceIdeal.Hand.arg3_kept _),
    (h c Cert.ReferenceIdeal.main_arg4).trans (Cert.ReferenceIdeal.Hand.arg4_kept _),
    (h c Cert.ReferenceIdeal.main_arg5).trans (Cert.ReferenceIdeal.Hand.arg5_kept _),
    (h c Cert.ReferenceIdeal.main_arg6).trans (Cert.ReferenceIdeal.Hand.arg6_kept _),
    (h c Cert.ReferenceIdeal.main_arg7).trans (Cert.ReferenceIdeal.Hand.arg7_kept _),
    (h c Cert.ReferenceIdeal.main_arg8).trans (Cert.ReferenceIdeal.Hand.arg8_kept _),
    (h c Cert.ReferenceIdeal.main_arg9).trans (Cert.ReferenceIdeal.Hand.arg9_kept _),
    (h c Cert.ReferenceIdeal.main_arg10).trans (Cert.ReferenceIdeal.Hand.arg10_kept _),
    (h c Cert.ReferenceIdeal.main_arg11).trans (Cert.ReferenceIdeal.Hand.arg11_kept _),
    (h c Cert.ReferenceIdeal.main_arg12).trans (Cert.ReferenceIdeal.Hand.arg12_kept _),
    (h c Cert.ReferenceIdeal.main_arg13).trans (Cert.ReferenceIdeal.Hand.arg13_kept _),
    (h c Cert.ReferenceIdeal.main_arg14).trans (Cert.ReferenceIdeal.Hand.arg14_kept _)⟩)
    (Cert.ReferenceIdeal.Hand.run_all (F := Ideal) m' ρ')
  funext i
  obtain ⟨p, q, rfl⟩ : ∃ (p : Fin 1000) (q : Fin 128), i = ix2 p q := ⟨i 0, i 1, eq_ix2 i⟩
  exact result_eq m m' c (hpre c) (hagree c) p q

end Cert.Proof.Final

end
-- ==== Proof.lean ====
import proofs.«123582_j22084721836889_2_alg».proof.Defs
import proofs.«123582_j22084721836889_2_alg».proof.Proof.Gen.Kernel
import proofs.«123582_j22084721836889_2_alg».proof.Proof.Gen.Kernel.Skeleton
import proofs.«123582_j22084721836889_2_alg».proof.Proof.Gen.Kernel.Launch
import proofs.«123582_j22084721836889_2_alg».proof.Proof.Gen.Kernel.Regions
import proofs.«123582_j22084721836889_2_alg».proof.Proof.Gen.Kernel.Points
import proofs.«123582_j22084721836889_2_alg».proof.Proof.Gen.KernelIdeal
import proofs.«123582_j22084721836889_2_alg».proof.Proof.Gen.KernelIdeal.Skeleton
import proofs.«123582_j22084721836889_2_alg».proof.Proof.Gen.KernelIdeal.Launch
import proofs.«123582_j22084721836889_2_alg».proof.Proof.Gen.KernelIdeal.Regions
import proofs.«123582_j22084721836889_2_alg».proof.Proof.Gen.KernelIdeal.Points
import proofs.«123582_j22084721836889_2_alg».proof.Proof.Gen.ReferenceIdeal
import proofs.«123582_j22084721836889_2_alg».proof.Proof.Gen.Pre_finite_inputs
import proofs.«123582_j22084721836889_2_alg».proof.Proof.Final
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Final.frame_k, Final.frame_ki, Final.frame_ri, trivial, Final.algebraic⟩

end Cert.Proof

end
